-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  IdealRules.truncf_extf.Statement Cert.KernelIdeal.S128x128 .f32 .bf16
  ∧ IdealRules.truncf_extf.Statement Cert.KernelIdeal.S4096x128 .f32 .bf16
  ∧ IdealRules.truncf_extf.Statement Cert.KernelIdeal.S128x128 .f32 .bf16
  ∧ IdealRules.truncf_extf.Statement Cert.KernelIdeal.S4096x128 .f32 .bf16
  ∧ IdealRules.named_const.Statement Cert.KernelIdeal.κ "inv_temperature" .f32 0x41649249#32 ((134217728 / 9395241 : ℝ) : EReal)
  ∧ IdealRules.named_const.Statement Cert.KernelIdeal.κ "n_over_bk" .f32 0x3E4343CC#32 ((3125 / 16388 : ℝ) : EReal)
  ∧ IdealRules.named_const.Statement Cert.KernelIdeal.κ "n_over_bk" .f32 0x3E4343CC#32 ((3125 / 16388 : ℝ) : EReal)

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v6)) (v1 : (c : Dev Cert.KernelIdeal.nD) → Buf (Elt Ideal) ((c.tc : Thread Cert.KernelIdeal.nD Cert.KernelIdeal.τ).loc Cert.KernelIdeal.main_v2_1)) (v2 : (c : Dev Cert.KernelIdeal.nD) → Buf (Elt Ideal) ((c.tc : Thread Cert.KernelIdeal.nD Cert.KernelIdeal.τ).loc Cert.KernelIdeal.main_v2_2)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_v2_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v104) = v0 c
          ∧ r.2.mem ((c.tc : Thread Cert.ReferenceIdeal.nD Cert.ReferenceIdeal.τ).loc Cert.ReferenceIdeal.main_v41) = v1 c
          ∧ r.2.mem ((c.tc : Thread Cert.ReferenceIdeal.nD Cert.ReferenceIdeal.τ).loc Cert.ReferenceIdeal.main_v60) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S128x128 : Shape := ⟨2, ![128, 128]⟩
abbrev S128 : Shape := ⟨1, ![128]⟩
abbrev S128x4097 : Shape := ⟨2, ![128, 4097]⟩
abbrev S100000x128 : Shape := ⟨2, ![100000, 128]⟩
abbrev S_ : Shape := ⟨0, ![]⟩

class Facts : Prop where
  bcast_S_S128x128 : S_.BroadcastsInDim S128x128 (![] : Fin 0 → Fin S128x128.rank)
  reducesTo_S128x128_S_d0_1 : S128x128.ReducesTo [0, 1] S_
  h_S_ : 0 < S_.numel
  bcast_S_S100000x128 : S_.BroadcastsInDim S100000x128 (![] : Fin 0 → Fin S100000x128.rank)
  reducesTo_S100000x128_S_d0_1 : S100000x128.ReducesTo [0, 1] S_
  bcast_S_S128 : S_.BroadcastsInDim S128 (![] : Fin 0 → Fin S128.rank)
  reducesTo_S128_S_d0 : S128.ReducesTo [0] S_
  bcast_S_S128x4097 : S_.BroadcastsInDim S128x4097 (![] : Fin 0 → Fin S128x4097.rank)
  reducesTo_S128x4097_S_d0_1 : S128x4097.ReducesTo [0, 1] S_

variable [Facts]

def fn_part1 {F : FTy → Type} [FloatOps F] (main_arg2 : IVec S128 32) (main_arg3 : IVec S128x4097 32) (main_v13 : IVec S_ 1) (main_v16 : IVec S100000x128 1) : IVec S_ 1 :=
  let main_c_5 : IVec S_ 1 := constantI S_ 1 1#1
  let main_v17 : IVec S_ 1 := (fun x v => Host.reduce IntOp.andi x v reducesTo_S100000x128_S_d0_1 h_S_) main_v16 main_c_5
  let main_v18 : IVec S_ 1 := andi main_v13 main_v17
  let main_c_6 : IVec S_ 32 := constantI S_ 32 0#32
  let main_v19 : IVec S128 32 := broadcastInDim S128 ![] bcast_S_S128 main_c_6
  let main_v20 : IVec S128 1 := cmpi .sge main_arg2 main_v19
  let main_c_7 : IVec S_ 32 := constantI S_ 32 99999#32
  let main_v21 : IVec S128 32 := broadcastInDim S128 ![] bcast_S_S128 main_c_7
  let main_v22 : IVec S128 1 := cmpi .sle main_arg2 main_v21
  let main_v23 : IVec S128 1 := andi main_v20 main_v22
  let main_c_8 : IVec S_ 1 := constantI S_ 1 1#1
  let main_v24 : IVec S_ 1 := (fun x v => Host.reduce IntOp.andi x v reducesTo_S128_S_d0 h_S_) main_v23 main_c_8
  let main_v25 : IVec S_ 1 := andi main_v18 main_v24
  let main_c_9 : IVec S_ 32 := constantI S_ 32 0#32
  let main_v26 : IVec S128x4097 32 := broadcastInDim S128x4097 ![] bcast_S_S128x4097 main_c_9
  let main_v27 : IVec S128x4097 1 := cmpi .sge main_arg3 main_v26
  let main_c_10 : IVec S_ 32 := constantI S_ 32 99999#32
  let main_v28 : IVec S128x4097 32 := broadcastInDim S128x4097 ![] bcast_S_S128x4097 main_c_10
  let main_v29 : IVec S128x4097 1 := cmpi .sle main_arg3 main_v28
  let main_v30 : IVec S128x4097 1 := andi main_v27 main_v29
  let main_c_11 : IVec S_ 1 := constantI S_ 1 1#1
  let main_v31 : IVec S_ 1 := (fun x v => Host.reduce IntOp.andi x v reducesTo_S128x4097_S_d0_1 h_S_) main_v30 main_c_11
  let main_v32 : IVec S_ 1 := andi main_v25 main_v31
  main_v32

def fn {F : FTy → Type} [FloatOps F] (main_arg0 : FVec F S128x128 .f32) (main_arg1 : FVec F S128x128 .f32) (main_arg2 : IVec S128 32) (main_arg3 : IVec S128x4097 32) (main_arg4 : FVec F S100000x128 .f32) (main_arg5 : FVec F S100000x128 .f32) : IVec S_ 1 :=
  let main_v0 : FVec F S128x128 .f32 := Host.absf main_arg0
  let main_cst : FVec F S_ .f32 := constant S_ .f32 0x7F800000#32
  let main_v1 : FVec F S128x128 .f32 := broadcastInDim S128x128 ![] bcast_S_S128x128 main_cst
  let main_v2 : IVec S128x128 1 := cmpf .olt main_v0 main_v1
  let main_c : IVec S_ 1 := constantI S_ 1 1#1
  let main_v3 : IVec S_ 1 := (fun x v => Host.reduce IntOp.andi x v reducesTo_S128x128_S_d0_1 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S100000x128 .f32 := Host.absf main_arg4
  let main_cst_2 : FVec F S_ .f32 := constant S_ .f32 0x7F800000#32
  let main_v10 : FVec F S100000x128 .f32 := broadcastInDim S100000x128 ![] bcast_S_S100000x128 main_cst_2
  let main_v11 : IVec S100000x128 1 := cmpf .olt main_v9 main_v10
  let main_c_3 : IVec S_ 1 := constantI S_ 1 1#1
  let main_v12 : IVec S_ 1 := (fun x v => Host.reduce IntOp.andi x v reducesTo_S100000x128_S_d0_1 h_S_) main_v11 main_c_3
  let main_v13 : IVec S_ 1 := andi main_v8 main_v12
  let main_v14 : FVec F S100000x128 .f32 := Host.absf main_arg5
  let main_cst_4 : FVec F S_ .f32 := constant S_ .f32 0x7F800000#32
  let main_v15 : FVec F S100000x128 .f32 := broadcastInDim S100000x128 ![] bcast_S_S100000x128 main_cst_4
  let main_v16 : IVec S100000x128 1 := cmpf .olt main_v14 main_v15
  fn_part1 (F := F) main_arg2 main_arg3 main_v13 main_v16
-- ==== Kernel.lean ====
abbrev S128x128 : Shape := ⟨2, ![128, 128]⟩
abbrev S128 : Shape := ⟨1, ![128]⟩
abbrev S128x4097 : Shape := ⟨2, ![128, 4097]⟩
abbrev S100000x128 : Shape := ⟨2, ![100000, 128]⟩
abbrev S8 : Shape := ⟨1, ![8]⟩
abbrev S8x128 : Shape := ⟨2, ![8, 128]⟩
abbrev S_ : Shape := ⟨0, ![]⟩
abbrev S128x1 : Shape := ⟨2, ![128, 1]⟩
abbrev S256x100000 : Shape := ⟨2, ![256, 100000]⟩
abbrev S4096x128 : Shape := ⟨2, ![4096, 128]⟩
abbrev S256x4096 : Shape := ⟨2, ![256, 4096]⟩
abbrev S128x4096 : Shape := ⟨2, ![128, 4096]⟩
abbrev S1x128 : Shape := ⟨2, ![1, 128]⟩
abbrev S1x4096 : Shape := ⟨2, ![1, 4096]⟩
abbrev S4096x1 : Shape := ⟨2, ![4096, 1]⟩
abbrev S4096 : Shape := ⟨1, ![4096]⟩
abbrev S128x4112 : Shape := ⟨2, ![128, 4112]⟩
abbrev S256x4112 : Shape := ⟨2, ![256, 4112]⟩
abbrev S100000 : Shape := ⟨1, ![100000]⟩
abbrev S4112 : Shape := ⟨1, ![4112]⟩
abbrev S1x100000 : Shape := ⟨2, ![1, 100000]⟩
abbrev S1x4112 : Shape := ⟨2, ![1, 4112]⟩
abbrev S16 : Shape := ⟨1, ![16]⟩
abbrev S1x1 : Shape := ⟨2, ![1, 1]⟩
abbrev S1x256x4112 : Shape := ⟨3, ![1, 256, 4112]⟩
abbrev S1 : Shape := ⟨1, ![1]⟩
abbrev S1x1x1 : Shape := ⟨3, ![1, 1, 1]⟩

abbrev nBuf : Table → Nat
  | .hbm => 18
  | .local .tc .vmem => 17
  | .local .scVector .vmem => 5
  | _ => 0

abbrev bufTy : (tb : Table) → Fin (nBuf tb) → BufTy
  | .hbm, ⟨0, _⟩ => ⟨S128x128, .f32⟩
  | .hbm, ⟨1, _⟩ => ⟨S128x128, .f32⟩
  | .hbm, ⟨2, _⟩ => ⟨S128, .i32⟩
  | .hbm, ⟨3, _⟩ => ⟨S128x4097, .i32⟩
  | .hbm, ⟨4, _⟩ => ⟨S100000x128, .f32⟩
  | .hbm, ⟨5, _⟩ => ⟨S100000x128, .f32⟩
  | .hbm, ⟨6, _⟩ => ⟨S128x128, .f32⟩
  | .hbm, ⟨7, _⟩ => ⟨S128x128, .f32⟩
  | .hbm, ⟨8, _⟩ => ⟨S128x1, .i32⟩
  | .hbm, ⟨9, _⟩ => ⟨S256x100000, .f32⟩
  | .hbm, ⟨10, _⟩ => ⟨S100000x128, .f32⟩
  | .hbm, ⟨11, _⟩ => ⟨S100000x128, .f32⟩
  | .hbm, ⟨12, _⟩ => ⟨S_, .i32⟩
  | .hbm, ⟨13, _⟩ => ⟨S_, .i32⟩
  | .hbm, ⟨14, _⟩ => ⟨S128x4112, .i32⟩
  | .hbm, ⟨15, _⟩ => ⟨S256x4112, .f32⟩
  | .hbm, ⟨16, _⟩ => ⟨S1x1, .f32⟩
  | .hbm, ⟨17, _⟩ => ⟨S1, .f32⟩
  | .local .tc .vmem, ⟨0, _⟩ => ⟨S128x128, .f32⟩
  | .local .tc .vmem, ⟨1, _⟩ => ⟨S128x128, .f32⟩
  | .local .tc .vmem, ⟨2, _⟩ => ⟨S128x1, .i32⟩
  | .local .tc .vmem, ⟨3, _⟩ => ⟨S128x128, .f32⟩
  | .local .tc .vmem, ⟨4, _⟩ => ⟨S128x128, .f32⟩
  | .local .tc .vmem, ⟨5, _⟩ => ⟨S4096x128, .f32⟩
  | .local .tc .vmem, ⟨6, _⟩ => ⟨S4096x128, .f32⟩
  | .local .tc .vmem, ⟨7, _⟩ => ⟨S4096x128, .f32⟩
  | .local .tc .vmem, ⟨8, _⟩ => ⟨S4096x128, .f32⟩
  | .local .tc .vmem, ⟨9, _⟩ => ⟨S256x4096, .f32⟩
  | .local .tc .vmem, ⟨10, _⟩ => ⟨S256x4096, .f32⟩
  | .local .tc .vmem, ⟨11, _⟩ => ⟨S4096x128, .f32⟩
  | .local .tc .vmem, ⟨12, _⟩ => ⟨S4096x128, .f32⟩
  | .local .tc .vmem, ⟨13, _⟩ => ⟨S4096x128, .f32⟩
  | .local .tc .vmem, ⟨14, _⟩ => ⟨S4096x128, .f32⟩
  | .local .tc .vmem, ⟨15, _⟩ => ⟨S256x4112, .f32⟩
  | .local .tc .vmem, ⟨16, _⟩ => ⟨S1x1, .f32⟩
  | .local .scVector .vmem, ⟨0, _⟩ => ⟨S8, .i32⟩
  | .local .scVector .vmem, ⟨1, _⟩ => ⟨S8x128, .f32⟩
  | .local .scVector .vmem, ⟨2, _⟩ => ⟨S100000, .f32⟩
  | .local .scVector .vmem, ⟨3, _⟩ => ⟨S4112, .i32⟩
  | .local .scVector .vmem, ⟨4, _⟩ => ⟨S4112, .f32⟩
  | _, _ => ⟨S128x128, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 38 → Bool
  | ⟨0, _⟩ => false
  | ⟨1, _⟩ => false
  | ⟨2, _⟩ => false
  | ⟨3, _⟩ => false
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => false
  | ⟨20, _⟩ => false
  | ⟨21, _⟩ => false
  | ⟨22, _⟩ => false
  | ⟨23, _⟩ => false
  | ⟨24, _⟩ => false
  | ⟨25, _⟩ => false
  | ⟨26, _⟩ => false
  | ⟨27, _⟩ => false
  | ⟨28, _⟩ => false
  | ⟨29, _⟩ => false
  | ⟨30, _⟩ => false
  | ⟨31, _⟩ => false
  | ⟨32, _⟩ => false
  | ⟨33, _⟩ => false
  | ⟨34, _⟩ => false
  | ⟨35, _⟩ => false
  | ⟨36, _⟩ => true
  | ⟨37, _⟩ => true
  | _ => false

abbrev sig : RefSig :=
  ofTables nBuf rfl bufTy 4 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v1 : Ref sig .tc := ⟨.hbm, 8, rfl⟩
abbrev main_v2_0 : Ref sig .tc := ⟨.hbm, 9, rfl⟩
abbrev main_v2_1 : Ref sig .tc := ⟨.hbm, 10, rfl⟩
abbrev main_v2_2 : Ref sig .tc := ⟨.hbm, 11, rfl⟩
abbrev main_c : Ref sig .tc := ⟨.hbm, 12, rfl⟩
abbrev main_call0_v0 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_arg4_scv : Ref sig .scVector := ⟨.hbm, 4, rfl⟩
abbrev main_arg5_scv : Ref sig .scVector := ⟨.hbm, 5, rfl⟩
abbrev main_arg2_scv : Ref sig .scVector := ⟨.hbm, 2, rfl⟩
abbrev main_v0_0_scv : Ref sig .scVector := ⟨.hbm, 6, rfl⟩
abbrev main_v0_1_scv : Ref sig .scVector := ⟨.hbm, 7, rfl⟩
abbrev main_v2_0_scv : Ref sig .scVector := ⟨.hbm, 9, rfl⟩
abbrev main_v3_scv : Ref sig .scVector := ⟨.hbm, 14, rfl⟩
abbrev main_v4_scv : Ref sig .scVector := ⟨.hbm, 15, rfl⟩
abbrev cc1_stg0_0 : Ref sig .tc := ⟨.vmem, 0, rfl⟩
abbrev cc1_stg1_0 : Ref sig .tc := ⟨.vmem, 1, rfl⟩
abbrev cc1_stg2_0 : Ref sig .tc := ⟨.vmem, 2, rfl⟩
abbrev cc1_stg3_0 : Ref sig .tc := ⟨.vmem, 3, rfl⟩
abbrev cc1_stg4_0 : Ref sig .tc := ⟨.vmem, 4, rfl⟩
abbrev cc1_stg5_0 : Ref sig .tc := ⟨.vmem, 5, rfl⟩
abbrev cc1_stg5_1 : Ref sig .tc := ⟨.vmem, 6, rfl⟩
abbrev cc1_stg6_0 : Ref sig .tc := ⟨.vmem, 7, rfl⟩
abbrev cc1_stg6_1 : Ref sig .tc := ⟨.vmem, 8, rfl⟩
abbrev cc1_stg7_0 : Ref sig .tc := ⟨.vmem, 9, rfl⟩
abbrev cc1_stg7_1 : Ref sig .tc := ⟨.vmem, 10, rfl⟩
abbrev cc1_stg8_0 : Ref sig .tc := ⟨.vmem, 11, rfl⟩
abbrev cc1_stg8_1 : Ref sig .tc := ⟨.vmem, 12, rfl⟩
abbrev cc1_stg9_0 : Ref sig .tc := ⟨.vmem, 13, rfl⟩
abbrev cc1_stg9_1 : Ref sig .tc := ⟨.vmem, 14, rfl⟩
abbrev cc3_stg0_0 : Ref sig .tc := ⟨.vmem, 15, rfl⟩
abbrev cc3_stg1_0 : Ref sig .tc := ⟨.vmem, 16, rfl⟩
abbrev cc0_scratch0 : Ref sig .scVector := ⟨.vmem, 0, rfl⟩
abbrev cc0_scratch1 : Ref sig .scVector := ⟨.vmem, 1, rfl⟩
abbrev cc2_scratch0 : Ref sig .scVector := ⟨.vmem, 2, rfl⟩
abbrev cc2_scratch1 : Ref sig .scVector := ⟨.vmem, 3, rfl⟩
abbrev cc2_scratch2 : Ref sig .scVector := ⟨.vmem, 4, rfl⟩
abbrev cc1_sem0_0 : DmaSem sig := 4
abbrev cc1_sem1_0 : DmaSem sig := 5
abbrev cc1_sem2_0 : DmaSem sig := 6
abbrev cc1_sem3_0 : DmaSem sig := 7
abbrev cc1_sem4_0 : DmaSem sig := 8
abbrev cc1_sem5_0 : DmaSem sig := 9
abbrev cc1_sem5_1 : DmaSem sig := 10
abbrev cc1_sem6_0 : DmaSem sig := 11
abbrev cc1_sem6_1 : DmaSem sig := 12
abbrev cc1_sem7_0 : DmaSem sig := 13
abbrev cc1_sem7_1 : DmaSem sig := 14
abbrev cc1_sem8_0 : DmaSem sig := 15
abbrev cc1_sem8_1 : DmaSem sig := 16
abbrev cc1_sem9_0 : DmaSem sig := 17
abbrev cc1_sem9_1 : DmaSem sig := 18
abbrev cc3_sem0_0 : DmaSem sig := 36
abbrev cc3_sem1_0 : DmaSem sig := 37
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let c0_i32 : BitVec 32 := 0#32
  let v2 : BitVec 1 := Scalar.cmpi .eq c16_i32 c0_i32
  let c1_i32 : BitVec 32 := 1#32
  let v3 : BitVec 32 := Scalar.select v2 c1_i32 c16_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c8_i32 : BitVec 32 := 8#32
  let v12 : BitVec 32 := Scalar.muli v11 c8_i32
  ![v12.toNat]
def k0_off2 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let c0_i32 : BitVec 32 := 0#32
  let v2 : BitVec 1 := Scalar.cmpi .eq c16_i32 c0_i32
  let c1_i32 : BitVec 32 := 1#32
  let v3 : BitVec 32 := Scalar.select v2 c1_i32 c16_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c8_i32 : BitVec 32 := 8#32
  let v12 : BitVec 32 := Scalar.muli v11 c8_i32
  let c0_i32_11_r1 : BitVec 32 := 0#32
  ![v12.toNat, 0]
abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 1 → Memref sig .tc .vmem S128x128 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128x1 .i32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S4096x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S4096x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S256x4096 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S4096x128 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 2 → Memref sig .tc .vmem S4096x128 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev grid2 : Pipeline.Grid := ⟨2, ![2, 16], ![false, false]⟩

def k2_off1 (i : grid2.Coords) (c0_i32 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32 : BitVec 32 := 8#32
  let v2 : BitVec 32 := Scalar.muli v1 c8_i32
  let v3 : BitVec 32 := Scalar.addi v2 c0_i32
  let c0_i32_6 : BitVec 32 := 0#32
  ![v3.toNat, 0]
def k2_off2 (i : grid2.Coords) (c0_i32 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32 : BitVec 32 := 8#32
  let v2 : BitVec 32 := Scalar.muli v1 c8_i32
  let v3 : BitVec 32 := Scalar.addi v2 c0_i32
  let c0_i32_0 : BitVec 32 := 0#32
  let v5 : BitVec 1 := Scalar.cmpi .sgt v3 c0_i32_0
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c128_i32 : BitVec 32 := 128#32
  let c0_i32_2 : BitVec 32 := 0#32
  let v10 : BitVec 1 := Scalar.cmpi .sgt c128_i32 c0_i32_2
  let v11 : BitVec 32 := Scalar.extui v10
  let c0_i32_3 : BitVec 32 := 0#32
  let v12 : BitVec 1 := Scalar.cmpi .slt c128_i32 c0_i32_3
  let v13 : BitVec 32 := Scalar.extui v12
  let v14 : BitVec 32 := Scalar.subi v11 v13
  let v15 : BitVec 1 := Scalar.cmpi .ne v9 v14
  let v16 : BitVec 32 := Scalar.remsi v3 c128_i32
  let c0_i32_4 : BitVec 32 := 0#32
  let v17 : BitVec 1 := Scalar.cmpi .ne v16 c0_i32_4
  let v18 : BitVec 1 := Scalar.andi v15 v17
  let v4 : BitVec 32 := Scalar.divsi v3 c128_i32
  let c1_i32 : BitVec 32 := 1#32
  let v19 : BitVec 32 := Scalar.subi v4 c1_i32
  let v20 : BitVec 32 := Scalar.select v18 v19 v4
  let c128_i32_5 : BitVec 32 := 128#32
  let v21 : BitVec 32 := Scalar.muli v20 c128_i32_5
  let v22 : BitVec 32 := Scalar.subi v3 v21
  let c0_i32_135_r0 : BitVec 32 := 0#32
  ![v22.toNat, 0]
@[reducible] def k2_t1_loop : Scf.Loop 32 :=
  let c0_i32_11 : BitVec 32 := 0#32
  let c257_i32 : BitVec 32 := 257#32
  let v31 : BitVec 32 := Scalar.addi c0_i32_11 c257_i32
  let c1_i32_12 : BitVec 32 := 1#32
  ⟨c0_i32_11, v31, c1_i32_12⟩
def k2_off3 (k2_t1 : Fin k2_t1_loop.trips) : Fin 1 → Nat :=
  let c0_i32_11 : BitVec 32 := 0#32
  let c1_i32_12 : BitVec 32 := 1#32
  let arg9 : BitVec 32 := Scf.iv c0_i32_11 c1_i32_12 k2_t1
  let c16_i32 : BitVec 32 := 16#32
  let v235 : BitVec 32 := Scalar.muli arg9 c16_i32
  let v236 : Index := Scalar.indexCast v235
  ![v236.toNat]

def k2_chk1 (v237 : IVec S16 32) : Prop :=
  (∀ a x, ((![v237] : Fin 1 → IVec S16 32) a x).toNat < S100000.size a)
instance k2_chk1.dec : ∀ (v237 : IVec S16 32), Decidable (k2_chk1 v237) := fun v237 => decidable_of_iff' _ (Iff.of_eq (k2_chk1.eq_1 v237))
theorem k2_idx1_inb : ∀ (v237 : IVec S16 32) (k2_hw1 : k2_chk1 v237), ∀ a x, ((![v237] : Fin 1 → IVec S16 32) a x).toNat < S100000.size a := fun v237 k2_hw1 => k2_hw1
def k2_off4 (k2_t1 : Fin k2_t1_loop.trips) : Fin 1 → Nat :=
  let c0_i32_11 : BitVec 32 := 0#32
  let c1_i32_12 : BitVec 32 := 1#32
  let arg9 : BitVec 32 := Scf.iv c0_i32_11 c1_i32_12 k2_t1
  let c16_i32_135 : BitVec 32 := 16#32
  let v239 : BitVec 32 := Scalar.muli arg9 c16_i32_135
  let v240 : Index := Scalar.indexCast v239
  ![v240.toNat]
def k2_off5 (i : grid2.Coords) (c0_i32 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32 : BitVec 32 := 8#32
  let v2 : BitVec 32 := Scalar.muli v1 c8_i32
  let v3 : BitVec 32 := Scalar.addi v2 c0_i32
  let c0_i32_135_r1 : BitVec 32 := 0#32
  ![v3.toNat, 0]
@[reducible] def k2_t2_loop : Scf.Loop 32 :=
  let c0_i32_28 : BitVec 32 := 0#32
  let c257_i32_29 : BitVec 32 := 257#32
  let v60 : BitVec 32 := Scalar.addi c0_i32_28 c257_i32_29
  let c1_i32_30 : BitVec 32 := 1#32
  ⟨c0_i32_28, v60, c1_i32_30⟩
def k2_off6 (k2_t2 : Fin k2_t2_loop.trips) : Fin 1 → Nat :=
  let c0_i32_28 : BitVec 32 := 0#32
  let c1_i32_30 : BitVec 32 := 1#32
  let arg9 : BitVec 32 := Scf.iv c0_i32_28 c1_i32_30 k2_t2
  let c16_i32 : BitVec 32 := 16#32
  let v235 : BitVec 32 := Scalar.muli arg9 c16_i32
  let v236 : Index := Scalar.indexCast v235
  ![v236.toNat]

def k2_chk2 (v237 : IVec S16 32) : Prop :=
  (∀ a x, ((![v237] : Fin 1 → IVec S16 32) a x).toNat < S100000.size a)
instance k2_chk2.dec : ∀ (v237 : IVec S16 32), Decidable (k2_chk2 v237) := fun v237 => decidable_of_iff' _ (Iff.of_eq (k2_chk2.eq_1 v237))
theorem k2_idx2_inb : ∀ (v237 : IVec S16 32) (k2_hw2 : k2_chk2 v237), ∀ a x, ((![v237] : Fin 1 → IVec S16 32) a x).toNat < S100000.size a := fun v237 k2_hw2 => k2_hw2
def k2_off7 (k2_t2 : Fin k2_t2_loop.trips) : Fin 1 → Nat :=
  let c0_i32_28 : BitVec 32 := 0#32
  let c1_i32_30 : BitVec 32 := 1#32
  let arg9 : BitVec 32 := Scf.iv c0_i32_28 c1_i32_30 k2_t2
  let c16_i32_135 : BitVec 32 := 16#32
  let v239 : BitVec 32 := Scalar.muli arg9 c16_i32_135
  let v240 : Index := Scalar.indexCast v239
  ![v240.toNat]
@[reducible] def k2_t3_loop : Scf.Loop 32 :=
  let c0_i32_46 : BitVec 32 := 0#32
  let c257_i32_47 : BitVec 32 := 257#32
  let v89 : BitVec 32 := Scalar.addi c0_i32_46 c257_i32_47
  let c1_i32_48 : BitVec 32 := 1#32
  ⟨c0_i32_46, v89, c1_i32_48⟩
def k2_off8 (k2_t3 : Fin k2_t3_loop.trips) : Fin 1 → Nat :=
  let c0_i32_46 : BitVec 32 := 0#32
  let c1_i32_48 : BitVec 32 := 1#32
  let arg9 : BitVec 32 := Scf.iv c0_i32_46 c1_i32_48 k2_t3
  let c16_i32 : BitVec 32 := 16#32
  let v235 : BitVec 32 := Scalar.muli arg9 c16_i32
  let v236 : Index := Scalar.indexCast v235
  ![v236.toNat]

def k2_chk3 (v237 : IVec S16 32) : Prop :=
  (∀ a x, ((![v237] : Fin 1 → IVec S16 32) a x).toNat < S100000.size a)
instance k2_chk3.dec : ∀ (v237 : IVec S16 32), Decidable (k2_chk3 v237) := fun v237 => decidable_of_iff' _ (Iff.of_eq (k2_chk3.eq_1 v237))
theorem k2_idx3_inb : ∀ (v237 : IVec S16 32) (k2_hw3 : k2_chk3 v237), ∀ a x, ((![v237] : Fin 1 → IVec S16 32) a x).toNat < S100000.size a := fun v237 k2_hw3 => k2_hw3
def k2_off9 (k2_t3 : Fin k2_t3_loop.trips) : Fin 1 → Nat :=
  let c0_i32_46 : BitVec 32 := 0#32
  let c1_i32_48 : BitVec 32 := 1#32
  let arg9 : BitVec 32 := Scf.iv c0_i32_46 c1_i32_48 k2_t3
  let c16_i32_135 : BitVec 32 := 16#32
  let v239 : BitVec 32 := Scalar.muli arg9 c16_i32_135
  let v240 : Index := Scalar.indexCast v239
  ![v240.toNat]
@[reducible] def k2_t4_loop : Scf.Loop 32 :=
  let c0_i32_63 : BitVec 32 := 0#32
  let c257_i32_64 : BitVec 32 := 257#32
  let v118 : BitVec 32 := Scalar.addi c0_i32_63 c257_i32_64
  let c1_i32_65 : BitVec 32 := 1#32
  ⟨c0_i32_63, v118, c1_i32_65⟩
def k2_off10 (k2_t4 : Fin k2_t4_loop.trips) : Fin 1 → Nat :=
  let c0_i32_63 : BitVec 32 := 0#32
  let c1_i32_65 : BitVec 32 := 1#32
  let arg9 : BitVec 32 := Scf.iv c0_i32_63 c1_i32_65 k2_t4
  let c16_i32 : BitVec 32 := 16#32
  let v235 : BitVec 32 := Scalar.muli arg9 c16_i32
  let v236 : Index := Scalar.indexCast v235
  ![v236.toNat]

def k2_chk4 (v237 : IVec S16 32) : Prop :=
  (∀ a x, ((![v237] : Fin 1 → IVec S16 32) a x).toNat < S100000.size a)
instance k2_chk4.dec : ∀ (v237 : IVec S16 32), Decidable (k2_chk4 v237) := fun v237 => decidable_of_iff' _ (Iff.of_eq (k2_chk4.eq_1 v237))
theorem k2_idx4_inb : ∀ (v237 : IVec S16 32) (k2_hw4 : k2_chk4 v237), ∀ a x, ((![v237] : Fin 1 → IVec S16 32) a x).toNat < S100000.size a := fun v237 k2_hw4 => k2_hw4
def k2_off11 (k2_t4 : Fin k2_t4_loop.trips) : Fin 1 → Nat :=
  let c0_i32_63 : BitVec 32 := 0#32
  let c1_i32_65 : BitVec 32 := 1#32
  let arg9 : BitVec 32 := Scf.iv c0_i32_63 c1_i32_65 k2_t4
  let c16_i32_135 : BitVec 32 := 16#32
  let v239 : BitVec 32 := Scalar.muli arg9 c16_i32_135
  let v240 : Index := Scalar.indexCast v239
  ![v240.toNat]
@[reducible] def k2_t5_loop : Scf.Loop 32 :=
  let c0_i32_80 : BitVec 32 := 0#32
  let c257_i32_81 : BitVec 32 := 257#32
  let v147 : BitVec 32 := Scalar.addi c0_i32_80 c257_i32_81
  let c1_i32_82 : BitVec 32 := 1#32
  ⟨c0_i32_80, v147, c1_i32_82⟩
def k2_off12 (k2_t5 : Fin k2_t5_loop.trips) : Fin 1 → Nat :=
  let c0_i32_80 : BitVec 32 := 0#32
  let c1_i32_82 : BitVec 32 := 1#32
  let arg9 : BitVec 32 := Scf.iv c0_i32_80 c1_i32_82 k2_t5
  let c16_i32 : BitVec 32 := 16#32
  let v235 : BitVec 32 := Scalar.muli arg9 c16_i32
  let v236 : Index := Scalar.indexCast v235
  ![v236.toNat]

def k2_chk5 (v237 : IVec S16 32) : Prop :=
  (∀ a x, ((![v237] : Fin 1 → IVec S16 32) a x).toNat < S100000.size a)
instance k2_chk5.dec : ∀ (v237 : IVec S16 32), Decidable (k2_chk5 v237) := fun v237 => decidable_of_iff' _ (Iff.of_eq (k2_chk5.eq_1 v237))
theorem k2_idx5_inb : ∀ (v237 : IVec S16 32) (k2_hw5 : k2_chk5 v237), ∀ a x, ((![v237] : Fin 1 → IVec S16 32) a x).toNat < S100000.size a := fun v237 k2_hw5 => k2_hw5
def k2_off13 (k2_t5 : Fin k2_t5_loop.trips) : Fin 1 → Nat :=
  let c0_i32_80 : BitVec 32 := 0#32
  let c1_i32_82 : BitVec 32 := 1#32
  let arg9 : BitVec 32 := Scf.iv c0_i32_80 c1_i32_82 k2_t5
  let c16_i32_135 : BitVec 32 := 16#32
  let v239 : BitVec 32 := Scalar.muli arg9 c16_i32_135
  let v240 : Index := Scalar.indexCast v239
  ![v240.toNat]
@[reducible] def k2_t6_loop : Scf.Loop 32 :=
  let c0_i32_97 : BitVec 32 := 0#32
  let c257_i32_98 : BitVec 32 := 257#32
  let v176 : BitVec 32 := Scalar.addi c0_i32_97 c257_i32_98
  let c1_i32_99 : BitVec 32 := 1#32
  ⟨c0_i32_97, v176, c1_i32_99⟩
def k2_off14 (k2_t6 : Fin k2_t6_loop.trips) : Fin 1 → Nat :=
  let c0_i32_97 : BitVec 32 := 0#32
  let c1_i32_99 : BitVec 32 := 1#32
  let arg9 : BitVec 32 := Scf.iv c0_i32_97 c1_i32_99 k2_t6
  let c16_i32 : BitVec 32 := 16#32
  let v235 : BitVec 32 := Scalar.muli arg9 c16_i32
  let v236 : Index := Scalar.indexCast v235
  ![v236.toNat]

def k2_chk6 (v237 : IVec S16 32) : Prop :=
  (∀ a x, ((![v237] : Fin 1 → IVec S16 32) a x).toNat < S100000.size a)
instance k2_chk6.dec : ∀ (v237 : IVec S16 32), Decidable (k2_chk6 v237) := fun v237 => decidable_of_iff' _ (Iff.of_eq (k2_chk6.eq_1 v237))
theorem k2_idx6_inb : ∀ (v237 : IVec S16 32) (k2_hw6 : k2_chk6 v237), ∀ a x, ((![v237] : Fin 1 → IVec S16 32) a x).toNat < S100000.size a := fun v237 k2_hw6 => k2_hw6
def k2_off15 (k2_t6 : Fin k2_t6_loop.trips) : Fin 1 → Nat :=
  let c0_i32_97 : BitVec 32 := 0#32
  let c1_i32_99 : BitVec 32 := 1#32
  let arg9 : BitVec 32 := Scf.iv c0_i32_97 c1_i32_99 k2_t6
  let c16_i32_135 : BitVec 32 := 16#32
  let v239 : BitVec 32 := Scalar.muli arg9 c16_i32_135
  let v240 : Index := Scalar.indexCast v239
  ![v240.toNat]
@[reducible] def k2_t7_loop : Scf.Loop 32 :=
  let c0_i32_114 : BitVec 32 := 0#32
  let c257_i32_115 : BitVec 32 := 257#32
  let v205 : BitVec 32 := Scalar.addi c0_i32_114 c257_i32_115
  let c1_i32_116 : BitVec 32 := 1#32
  ⟨c0_i32_114, v205, c1_i32_116⟩
def k2_off16 (k2_t7 : Fin k2_t7_loop.trips) : Fin 1 → Nat :=
  let c0_i32_114 : BitVec 32 := 0#32
  let c1_i32_116 : BitVec 32 := 1#32
  let arg9 : BitVec 32 := Scf.iv c0_i32_114 c1_i32_116 k2_t7
  let c16_i32 : BitVec 32 := 16#32
  let v235 : BitVec 32 := Scalar.muli arg9 c16_i32
  let v236 : Index := Scalar.indexCast v235
  ![v236.toNat]

def k2_chk7 (v237 : IVec S16 32) : Prop :=
  (∀ a x, ((![v237] : Fin 1 → IVec S16 32) a x).toNat < S100000.size a)
instance k2_chk7.dec : ∀ (v237 : IVec S16 32), Decidable (k2_chk7 v237) := fun v237 => decidable_of_iff' _ (Iff.of_eq (k2_chk7.eq_1 v237))
theorem k2_idx7_inb : ∀ (v237 : IVec S16 32) (k2_hw7 : k2_chk7 v237), ∀ a x, ((![v237] : Fin 1 → IVec S16 32) a x).toNat < S100000.size a := fun v237 k2_hw7 => k2_hw7
def k2_off17 (k2_t7 : Fin k2_t7_loop.trips) : Fin 1 → Nat :=
  let c0_i32_114 : BitVec 32 := 0#32
  let c1_i32_116 : BitVec 32 := 1#32
  let arg9 : BitVec 32 := Scf.iv c0_i32_114 c1_i32_116 k2_t7
  let c16_i32_135 : BitVec 32 := 16#32
  let v239 : BitVec 32 := Scalar.muli arg9 c16_i32_135
  let v240 : Index := Scalar.indexCast v239
  ![v240.toNat]
@[reducible] def k2_t8_loop : Scf.Loop 32 :=
  let c0_i32_131 : BitVec 32 := 0#32
  let c257_i32_132 : BitVec 32 := 257#32
  let v234 : BitVec 32 := Scalar.addi c0_i32_131 c257_i32_132
  let c1_i32_133 : BitVec 32 := 1#32
  ⟨c0_i32_131, v234, c1_i32_133⟩
def k2_off18 (k2_t8 : Fin k2_t8_loop.trips) : Fin 1 → Nat :=
  let c0_i32_131 : BitVec 32 := 0#32
  let c1_i32_133 : BitVec 32 := 1#32
  let arg9 : BitVec 32 := Scf.iv c0_i32_131 c1_i32_133 k2_t8
  let c16_i32 : BitVec 32 := 16#32
  let v235 : BitVec 32 := Scalar.muli arg9 c16_i32
  let v236 : Index := Scalar.indexCast v235
  ![v236.toNat]

def k2_chk8 (v237 : IVec S16 32) : Prop :=
  (∀ a x, ((![v237] : Fin 1 → IVec S16 32) a x).toNat < S100000.size a)
instance k2_chk8.dec : ∀ (v237 : IVec S16 32), Decidable (k2_chk8 v237) := fun v237 => decidable_of_iff' _ (Iff.of_eq (k2_chk8.eq_1 v237))
theorem k2_idx8_inb : ∀ (v237 : IVec S16 32) (k2_hw8 : k2_chk8 v237), ∀ a x, ((![v237] : Fin 1 → IVec S16 32) a x).toNat < S100000.size a := fun v237 k2_hw8 => k2_hw8
def k2_off19 (k2_t8 : Fin k2_t8_loop.trips) : Fin 1 → Nat :=
  let c0_i32_131 : BitVec 32 := 0#32
  let c1_i32_133 : BitVec 32 := 1#32
  let arg9 : BitVec 32 := Scf.iv c0_i32_131 c1_i32_133 k2_t8
  let c16_i32_135 : BitVec 32 := 16#32
  let v239 : BitVec 32 := Scalar.muli arg9 c16_i32_135
  let v240 : Index := Scalar.indexCast v239
  ![v240.toNat]
abbrev grid3 : Pipeline.Grid := .none

abbrev stage3_0 : Fin 1 → Memref sig .tc .vmem S256x4112 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))

abbrev stage3_1 : Fin 1 → Memref sig .tc .vmem S1x1 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))

abbrev scKind : Fin 2 → Kind := fun | 0 => .scVector | 1 => .scVector | ⟨_ + 2, h⟩ => absurd h (Nat.not_lt.2 (Nat.le_add_left _ _))
abbrev scNCore : Fin 2 → Nat := fun | 0 => 2 | 1 => 2 | ⟨_ + 2, h⟩ => absurd h (Nat.not_lt.2 (Nat.le_add_left _ _))
abbrev scNSub : Fin 2 → Nat := fun | 0 => 16 | 1 => 16 | ⟨_ + 2, h⟩ => absurd h (Nat.not_lt.2 (Nat.le_add_left _ _))

class Facts₀ : Prop where
  inb_S100000x128_S100000x128_0_0 : ∀ a, (![0, 0] : Fin 2 → Nat) a + S100000x128.size a ≤ S100000x128.size a
  gathers_S100000x128_S8x128 : S100000x128.Gathers 0 S8x128
  shapeCasts_S128_S128x1 : S128.ShapeCasts S128x1
  inb_S128x128_S128x128_0_0 : ∀ a, (![0, 0] : Fin 2 → Nat) a + S128x128.size a ≤ S128x128.size a
  h_S128x128 : 0 < S128x128.numel
  shapeCasts_S128x128_S128x128 : S128x128.ShapeCasts S128x128
  reduces_S128x128_S128 : S128x128.Reduces [1] S128
  broadcasts_S128x1_S128x128 : S128x1.Broadcasts S128x128
  inb_S4096x128_S4096x128_0_0 : ∀ a, (![0, 0] : Fin 2 → Nat) a + S4096x128.size a ≤ S4096x128.size a
  h_S4096x128 : 0 < S4096x128.numel
  bitsLt_bf16_f32 : FTy.bits .bf16 < FTy.bits .f32
  inb_S256x4096_S128x4096_0_0 : ∀ a, (![0, 0] : Fin 2 → Nat) a + S128x4096.size a ≤ S256x4096.size a
  h_S128x4096 : 0 < S128x4096.numel
  inb_S256x4096_S128x4096_128_0 : ∀ a, (![128, 0] : Fin 2 → Nat) a + S128x4096.size a ≤ S256x4096.size a
  inb_S128x1_S128x1_0_0 : ∀ a, (![0, 0] : Fin 2 → Nat) a + S128x1.size a ≤ S128x1.size a
  h_S128x1 : 0 < S128x1.numel
  shapeCasts_S128x1_S128x1 : S128x1.ShapeCasts S128x1
  shapeCasts_S128x1_S1x128 : S128x1.ShapeCasts S1x128
  broadcasts_S1x128_S128x128 : S1x128.Broadcasts S128x128
  iota_S128x128_d0_w32 : S128x128.Iotas .tc 32 [0]
  iota_S128x128_d1_w32 : S128x128.Iotas .tc 32 [1]
  iota_S1x4096_d1_w32 : S1x4096.Iotas .tc 32 [1]
  broadcasts_S128x1_S128x4096 : S128x1.Broadcasts S128x4096
  broadcasts_S1x4096_S128x4096 : S1x4096.Broadcasts S128x4096
  iota_S4096x1_d0_w32 : S4096x1.Iotas .tc 32 [0]
  broadcasts_S4096x1_S4096x128 : S4096x1.Broadcasts S4096x128
  broadcasts_S1x128_S4096x128 : S1x128.Broadcasts S4096x128
  reduces_S4096x128_S4096 : S4096x128.Reduces [1] S4096
  shapeCasts_S4096_S4096x1 : S4096.ShapeCasts S4096x1
  shapeCasts_S4096x1_S4096x1 : S4096x1.ShapeCasts S4096x1
  pads_S128x4097_S128x4112_000_0150 : S128x4097.Pads (![0, 0] : Fin 2 → Nat) ![0, 15] ![0, 0] S128x4112
  h_S_ : 0 < S_.numel
  squeezes_S1x100000_S100000 : S1x100000.Squeezes S100000
  squeezes_S1x4112_S4112 : S1x4112.Squeezes S4112
  h_S16 : 0 < S16.numel
  h_S100000 : 0 < S100000.numel
  iota_S256x4112_d1_w32 : S256x4112.Iotas .tc 32 [1]
  iota_S256x4112_d0_w32 : S256x4112.Iotas .tc 32 [0]
  inb_S256x4112_S256x4112_0_0 : ∀ a, (![0, 0] : Fin 2 → Nat) a + S256x4112.size a ≤ S256x4112.size a
  h_S256x4112 : 0 < S256x4112.numel
  shapeCasts_S256x4112_S256x4112 : S256x4112.ShapeCasts S256x4112
  shapeCasts_S256x4112_S1x256x4112 : S256x4112.ShapeCasts S1x256x4112
  reduces_S1x256x4112_S1 : S1x256x4112.Reduces [1, 2] S1
  shapeCasts_S1_S1x1x1 : S1.ShapeCasts S1x1x1
  inpos_S1x1x1_p0_0_0 : ∀ a, (![0, 0, 0] : Fin 3 → Nat) a < S1x1x1.size a
  inb_S1x1_S1x1_0_0 : ∀ a, (![0, 0] : Fin 2 → Nat) a + S1x1.size a ≤ S1x1.size a
  h_S1x1 : 0 < S1x1.numel
  shapeCasts_S1x1_S1 : S1x1.ShapeCasts S1
  dot_S128x128_S4096x128_S128x4096_1_1_0_0_n_n_wf : DotDims.WF S128x128 S4096x128 S128x4096 [1] [1] [0] [0] [] []
  dot_S128x4096_S128x128_S4096x128_0_0_1_1_n_n_wf : DotDims.WF S128x4096 S128x128 S4096x128 [0] [0] [1] [1] [] []
  hcc0_scratch2 : 0 + S_.numel ≤ 38
  hcc0_scoped0 : 1 + S_.numel ≤ 38
  hcc0_scoped1 : 2 + S_.numel ≤ 38
  hcc0_scoped2 : 3 + S_.numel ≤ 38
  hcc2_scratch3 : 19 + S_.numel ≤ 38
  hcc2_scoped0 : 20 + S_.numel ≤ 38
  hcc2_scoped1 : 21 + S_.numel ≤ 38
  hcc2_scoped2 : 22 + S_.numel ≤ 38
  hcc2_scoped3 : 23 + S_.numel ≤ 38
  hcc2_scoped4 : 24 + S_.numel ≤ 38
  hcc2_scoped5 : 25 + S_.numel ≤ 38
  hcc2_scoped6 : 26 + S_.numel ≤ 38
  hcc2_scoped7 : 27 + S_.numel ≤ 38
  hcc2_scoped8 : 28 + S_.numel ≤ 38
  hcc2_scoped9 : 29 + S_.numel ≤ 38
  hcc2_scoped10 : 30 + S_.numel ≤ 38
  hcc2_scoped11 : 31 + S_.numel ≤ 38
  hcc2_scoped12 : 32 + S_.numel ≤ 38
  hcc2_scoped13 : 33 + S_.numel ≤ 38
  hcc2_scoped14 : 34 + S_.numel ≤ 38
  hcc2_scoped15 : 35 + S_.numel ≤ 38
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ a, (k0_off1 i) a + S8.size a ≤ S128.size a
  k0_off2_inb : ∀ i : grid0.Coords, ∀ a, (k0_off2 i) a + S8x128.size a ≤ S128x128.size a
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S128x128.size a ≤ S128x128.size a
  hwx1_0 : ∀ i : grid1.Coords, EltTy.bits .f32 = 32 ∨ (Rect.block (s := S128x128) S128x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x1.size a ≤ S128x1.size a
  hwx1_2 : ∀ i : grid1.Coords, EltTy.bits .i32 = 32 ∨ (Rect.block (s := S128x1) S128x1.size (cc1_transform_2 i) (hinb1_2 i)).WholeWords (EltTy.packing .i32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hstart1_5 : ∀ (i : grid1.Coords) a, cc1_transform_5 i a * S4096x128.size a < S100000x128.size a
  hwx1_5 : ∀ i : grid1.Coords, EltTy.bits .f32 = 32 ∨ (Rect.unit (s := S100000x128) (fun a => cc1_transform_5 i a * S4096x128.size a) (fun a => (Pipeline.Clip.of (cc1_transform_5 i a) (S4096x128.size a) (S100000x128.size a)).extent (S4096x128.size a)) fun a => Pipeline.Clip.inb (Pipeline.Clip.ok_of (hstart1_5 i a))).WholeWords (EltTy.packing .f32)
  hwxs1_5 : ∀ i : grid1.Coords, EltTy.bits .f32 = 32 ∨ (Rect.unit (s := S4096x128) (fun _ => 0) (fun a => (Pipeline.Clip.of (cc1_transform_5 i a) (S4096x128.size a) (S100000x128.size a)).extent (S4096x128.size a)) fun a => (Nat.zero_add _).trans_le (Pipeline.Clip.extent_le (Pipeline.Clip.ok_of (hstart1_5 i a)))).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hstart1_6 : ∀ (i : grid1.Coords) a, cc1_transform_6 i a * S4096x128.size a < S100000x128.size a
  hwx1_6 : ∀ i : grid1.Coords, EltTy.bits .f32 = 32 ∨ (Rect.unit (s := S100000x128) (fun a => cc1_transform_6 i a * S4096x128.size a) (fun a => (Pipeline.Clip.of (cc1_transform_6 i a) (S4096x128.size a) (S100000x128.size a)).extent (S4096x128.size a)) fun a => Pipeline.Clip.inb (Pipeline.Clip.ok_of (hstart1_6 i a))).WholeWords (EltTy.packing .f32)
  hwxs1_6 : ∀ i : grid1.Coords, EltTy.bits .f32 = 32 ∨ (Rect.unit (s := S4096x128) (fun _ => 0) (fun a => (Pipeline.Clip.of (cc1_transform_6 i a) (S4096x128.size a) (S100000x128.size a)).extent (S4096x128.size a)) fun a => (Nat.zero_add _).trans_le (Pipeline.Clip.extent_le (Pipeline.Clip.ok_of (hstart1_6 i a)))).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hstart1_7 : ∀ (i : grid1.Coords) a, cc1_transform_7 i a * S256x4096.size a < S256x100000.size a
  hwx1_7 : ∀ i : grid1.Coords, EltTy.bits .f32 = 32 ∨ (Rect.unit (s := S256x100000) (fun a => cc1_transform_7 i a * S256x4096.size a) (fun a => (Pipeline.Clip.of (cc1_transform_7 i a) (S256x4096.size a) (S256x100000.size a)).extent (S256x4096.size a)) fun a => Pipeline.Clip.inb (Pipeline.Clip.ok_of (hstart1_7 i a))).WholeWords (EltTy.packing .f32)
  hwxs1_7 : ∀ i : grid1.Coords, EltTy.bits .f32 = 32 ∨ (Rect.unit (s := S256x4096) (fun _ => 0) (fun a => (Pipeline.Clip.of (cc1_transform_7 i a) (S256x4096.size a) (S256x100000.size a)).extent (S256x4096.size a)) fun a => (Nat.zero_add _).trans_le (Pipeline.Clip.extent_le (Pipeline.Clip.ok_of (hstart1_7 i a)))).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hstart1_8 : ∀ (i : grid1.Coords) a, cc1_transform_8 i a * S4096x128.size a < S100000x128.size a
  hwx1_8 : ∀ i : grid1.Coords, EltTy.bits .f32 = 32 ∨ (Rect.unit (s := S100000x128) (fun a => cc1_transform_8 i a * S4096x128.size a) (fun a => (Pipeline.Clip.of (cc1_transform_8 i a) (S4096x128.size a) (S100000x128.size a)).extent (S4096x128.size a)) fun a => Pipeline.Clip.inb (Pipeline.Clip.ok_of (hstart1_8 i a))).WholeWords (EltTy.packing .f32)
  hwxs1_8 : ∀ i : grid1.Coords, EltTy.bits .f32 = 32 ∨ (Rect.unit (s := S4096x128) (fun _ => 0) (fun a => (Pipeline.Clip.of (cc1_transform_8 i a) (S4096x128.size a) (S100000x128.size a)).extent (S4096x128.size a)) fun a => (Nat.zero_add _).trans_le (Pipeline.Clip.extent_le (Pipeline.Clip.ok_of (hstart1_8 i a)))).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hstart1_9 : ∀ (i : grid1.Coords) a, cc1_transform_9 i a * S4096x128.size a < S100000x128.size a
  hwx1_9 : ∀ i : grid1.Coords, EltTy.bits .f32 = 32 ∨ (Rect.unit (s := S100000x128) (fun a => cc1_transform_9 i a * S4096x128.size a) (fun a => (Pipeline.Clip.of (cc1_transform_9 i a) (S4096x128.size a) (S100000x128.size a)).extent (S4096x128.size a)) fun a => Pipeline.Clip.inb (Pipeline.Clip.ok_of (hstart1_9 i a))).WholeWords (EltTy.packing .f32)
  hwxs1_9 : ∀ i : grid1.Coords, EltTy.bits .f32 = 32 ∨ (Rect.unit (s := S4096x128) (fun _ => 0) (fun a => (Pipeline.Clip.of (cc1_transform_9 i a) (S4096x128.size a) (S100000x128.size a)).extent (S4096x128.size a)) fun a => (Nat.zero_add _).trans_le (Pipeline.Clip.extent_le (Pipeline.Clip.ok_of (hstart1_9 i a)))).WholeWords (EltTy.packing .f32)
  hcore2 : grid2.bound 0 ≤ τ.nSC
  hsub2 : grid2.bound 1 ≤ τ.nSub
  k2_off1_inb : ∀ i : grid2.Coords, ∀ (r : Fin 8), ∀ a, (k2_off1 i (BitVec.ofNat 32 r.val)) a + S1x100000.size a ≤ S256x100000.size a
  k2_off2_inb : ∀ i : grid2.Coords, ∀ (r : Fin 8), ∀ a, (k2_off2 i (BitVec.ofNat 32 r.val)) a + S1x4112.size a ≤ S128x4112.size a
  k2_t1_ok : k2_t1_loop.OK
  k2_off3_inb : ∀ k2_t1 : Fin k2_t1_loop.trips, ∀ a, (k2_off3 k2_t1) a + S16.size a ≤ S4112.size a
  k2_off4_inb : ∀ k2_t1 : Fin k2_t1_loop.trips, ∀ a, (k2_off4 k2_t1) a + S16.size a ≤ S4112.size a
  k2_off5_inb : ∀ i : grid2.Coords, ∀ (r : Fin 8), ∀ a, (k2_off5 i (BitVec.ofNat 32 r.val)) a + S1x4112.size a ≤ S256x4112.size a
  k2_t2_ok : k2_t2_loop.OK
  k2_off6_inb : ∀ k2_t2 : Fin k2_t2_loop.trips, ∀ a, (k2_off6 k2_t2) a + S16.size a ≤ S4112.size a
  k2_off7_inb : ∀ k2_t2 : Fin k2_t2_loop.trips, ∀ a, (k2_off7 k2_t2) a + S16.size a ≤ S4112.size a
  k2_t3_ok : k2_t3_loop.OK
  k2_off8_inb : ∀ k2_t3 : Fin k2_t3_loop.trips, ∀ a, (k2_off8 k2_t3) a + S16.size a ≤ S4112.size a
  k2_off9_inb : ∀ k2_t3 : Fin k2_t3_loop.trips, ∀ a, (k2_off9 k2_t3) a + S16.size a ≤ S4112.size a
  k2_t4_ok : k2_t4_loop.OK
  k2_off10_inb : ∀ k2_t4 : Fin k2_t4_loop.trips, ∀ a, (k2_off10 k2_t4) a + S16.size a ≤ S4112.size a
  k2_off11_inb : ∀ k2_t4 : Fin k2_t4_loop.trips, ∀ a, (k2_off11 k2_t4) a + S16.size a ≤ S4112.size a
  k2_t5_ok : k2_t5_loop.OK
  k2_off12_inb : ∀ k2_t5 : Fin k2_t5_loop.trips, ∀ a, (k2_off12 k2_t5) a + S16.size a ≤ S4112.size a
  k2_off13_inb : ∀ k2_t5 : Fin k2_t5_loop.trips, ∀ a, (k2_off13 k2_t5) a + S16.size a ≤ S4112.size a
  k2_t6_ok : k2_t6_loop.OK
  k2_off14_inb : ∀ k2_t6 : Fin k2_t6_loop.trips, ∀ a, (k2_off14 k2_t6) a + S16.size a ≤ S4112.size a
  k2_off15_inb : ∀ k2_t6 : Fin k2_t6_loop.trips, ∀ a, (k2_off15 k2_t6) a + S16.size a ≤ S4112.size a
  k2_t7_ok : k2_t7_loop.OK
  k2_off16_inb : ∀ k2_t7 : Fin k2_t7_loop.trips, ∀ a, (k2_off16 k2_t7) a + S16.size a ≤ S4112.size a
  k2_off17_inb : ∀ k2_t7 : Fin k2_t7_loop.trips, ∀ a, (k2_off17 k2_t7) a + S16.size a ≤ S4112.size a
  k2_t8_ok : k2_t8_loop.OK
  k2_off18_inb : ∀ k2_t8 : Fin k2_t8_loop.trips, ∀ a, (k2_off18 k2_t8) a + S16.size a ≤ S4112.size a
  k2_off19_inb : ∀ k2_t8 : Fin k2_t8_loop.trips, ∀ a, (k2_off19 k2_t8) a + S16.size a ≤ S4112.size a
  hstage3_0 : ∀ j, (stage3_0 j).IsWhole
  hstage3_1 : ∀ j, (stage3_1 j).IsWhole

variable [Facts₀]

abbrev cc0_scratch2 : DmaSems sig S_ := SemArray.consecutive 0 S_ hcc0_scratch2
abbrev cc0_scoped0 : DmaSems sig S_ := SemArray.consecutive 1 S_ hcc0_scoped0
abbrev cc0_scoped1 : DmaSems sig S_ := SemArray.consecutive 2 S_ hcc0_scoped1
abbrev cc0_scoped2 : DmaSems sig S_ := SemArray.consecutive 3 S_ hcc0_scoped2
abbrev cc2_scratch3 : DmaSems sig S_ := SemArray.consecutive 19 S_ hcc2_scratch3
abbrev cc2_scoped0 : DmaSems sig S_ := SemArray.consecutive 20 S_ hcc2_scoped0
abbrev cc2_scoped1 : DmaSems sig S_ := SemArray.consecutive 21 S_ hcc2_scoped1
abbrev cc2_scoped2 : DmaSems sig S_ := SemArray.consecutive 22 S_ hcc2_scoped2
abbrev cc2_scoped3 : DmaSems sig S_ := SemArray.consecutive 23 S_ hcc2_scoped3
abbrev cc2_scoped4 : DmaSems sig S_ := SemArray.consecutive 24 S_ hcc2_scoped4
abbrev cc2_scoped5 : DmaSems sig S_ := SemArray.consecutive 25 S_ hcc2_scoped5
abbrev cc2_scoped6 : DmaSems sig S_ := SemArray.consecutive 26 S_ hcc2_scoped6
abbrev cc2_scoped7 : DmaSems sig S_ := SemArray.consecutive 27 S_ hcc2_scoped7
abbrev cc2_scoped8 : DmaSems sig S_ := SemArray.consecutive 28 S_ hcc2_scoped8
abbrev cc2_scoped9 : DmaSems sig S_ := SemArray.consecutive 29 S_ hcc2_scoped9
abbrev cc2_scoped10 : DmaSems sig S_ := SemArray.consecutive 30 S_ hcc2_scoped10
abbrev cc2_scoped11 : DmaSems sig S_ := SemArray.consecutive 31 S_ hcc2_scoped11
abbrev cc2_scoped12 : DmaSems sig S_ := SemArray.consecutive 32 S_ hcc2_scoped12
abbrev cc2_scoped13 : DmaSems sig S_ := SemArray.consecutive 33 S_ hcc2_scoped13
abbrev cc2_scoped14 : DmaSems sig S_ := SemArray.consecutive 34 S_ hcc2_scoped14
abbrev cc2_scoped15 : DmaSems sig S_ := SemArray.consecutive 35 S_ hcc2_scoped15
def dot_S128x128_S4096x128_S128x4096_1_1_0_0_n_n : DotDims S128x128 S4096x128 S128x4096 where
  lhsContracting := [1]
  rhsContracting := [1]
  lhsNonContracting := [0]
  rhsNonContracting := [0]
  lhsBatch := []
  rhsBatch := []
  wf := dot_S128x128_S4096x128_S128x4096_1_1_0_0_n_n_wf
def dot_S128x4096_S128x128_S4096x128_0_0_1_1_n_n : DotDims S128x4096 S128x128 S4096x128 where
  lhsContracting := [0]
  rhsContracting := [0]
  lhsNonContracting := [1]
  rhsNonContracting := [1]
  lhsBatch := []
  rhsBatch := []
  wf := dot_S128x4096_S128x128_S4096x128_0_0_1_1_n_n_wf

abbrev win1_0 : Pipeline.Window sig grid1 :=
  Pipeline.Window.ofSpec (Memref.whole main_arg0) S128x128.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v1) S128x1.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v0_0) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v0_1) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpecClip (Memref.whole main_arg4) S4096x128.size cc1_transform_5 reads1_5 false false 2 stage1_5 sem1_5
    hrank1 hreads1_5 hstart1_5 nbuf1_5 (Memref.isWhole_whole _) hwx1_5 hwxs1_5 hstage1_5

abbrev win1_6 : Pipeline.Window sig grid1 :=
  Pipeline.Window.ofSpecClip (Memref.whole main_arg5) S4096x128.size cc1_transform_6 reads1_6 false false 2 stage1_6 sem1_6
    hrank1 hreads1_6 hstart1_6 nbuf1_6 (Memref.isWhole_whole _) hwx1_6 hwxs1_6 hstage1_6

abbrev win1_7 : Pipeline.Window sig grid1 :=
  Pipeline.Window.ofSpecClip (Memref.whole main_v2_0) S256x4096.size cc1_transform_7 reads1_7 true false 2 stage1_7 sem1_7
    hrank1 hreads1_7 hstart1_7 nbuf1_7 (Memref.isWhole_whole _) hwx1_7 hwxs1_7 hstage1_7

abbrev win1_8 : Pipeline.Window sig grid1 :=
  Pipeline.Window.ofSpecClip (Memref.whole main_v2_1) S4096x128.size cc1_transform_8 reads1_8 true false 2 stage1_8 sem1_8
    hrank1 hreads1_8 hstart1_8 nbuf1_8 (Memref.isWhole_whole _) hwx1_8 hwxs1_8 hstage1_8

abbrev win1_9 : Pipeline.Window sig grid1 :=
  Pipeline.Window.ofSpecClip (Memref.whole main_v2_2) S4096x128.size cc1_transform_9 reads1_9 true false 2 stage1_9 sem1_9
    hrank1 hreads1_9 hstart1_9 nbuf1_9 (Memref.isWhole_whole _) hwx1_9 hwxs1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

abbrev win3_0 : Pipeline.Window sig grid3 :=
  Pipeline.Window.whole (Memref.whole main_v4) false false (stage3_0 0) (sem3_0 0) (Memref.isWhole_whole _) (hstage3_0 0)

abbrev win3_1 : Pipeline.Window sig grid3 :=
  Pipeline.Window.whole (Memref.whole main_v5) true false (stage3_1 0) (sem3_1 0) (Memref.isWhole_whole _) (hstage3_1 0)

abbrev win3 : Fin 2 → Pipeline.Window sig grid3 := fun | 0 => win3_0 | 1 => win3_1 | ⟨_ + 2, h⟩ => absurd h (Nat.not_lt.2 (Nat.le_add_left _ _))
abbrev spec3 : Fin 2 → Pipeline.WinSpec sig grid3.rank := fun w => (win3 w).toWinSpec

class Facts : Prop extends Facts₀ where

variable [Facts]
-- ==== ReferenceIdeal.lean ====
abbrev S128x128 : Shape := ⟨2, ![128, 128]⟩
abbrev S128 : Shape := ⟨1, ![128]⟩
abbrev S128x4097 : Shape := ⟨2, ![128, 4097]⟩
abbrev S100000x128 : Shape := ⟨2, ![100000, 128]⟩
abbrev S524416 : Shape := ⟨1, ![524416]⟩
abbrev S_ : Shape := ⟨0, ![]⟩
abbrev S524416x1 : Shape := ⟨2, ![524416, 1]⟩
abbrev S1 : Shape := ⟨1, ![1]⟩
abbrev S1x1 : Shape := ⟨2, ![1, 1]⟩
abbrev S524416x128 : Shape := ⟨2, ![524416, 128]⟩
abbrev S128x4097x128 : Shape := ⟨3, ![128, 4097, 128]⟩
abbrev S128x1 : Shape := ⟨2, ![128, 1]⟩
abbrev S128x4096 : Shape := ⟨2, ![128, 4096]⟩

abbrev nBuf : Space → Nat
  | .hbm => 233
  | .vmem => 0
  | .smem => 0
  | _ => 0

abbrev hbmTy0_0 (i : Nat) : BufTy := match i % 128 with
  | 0 => ⟨S128x128, .f32⟩
  | 1 => ⟨S128x128, .f32⟩
  | 2 => ⟨S128, .i32⟩
  | 3 => ⟨S128x4097, .i32⟩
  | 4 => ⟨S100000x128, .f32⟩
  | 5 => ⟨S100000x128, .f32⟩
  | 6 => ⟨S524416, .i32⟩
  | 7 => ⟨S_, .i32⟩
  | 8 => ⟨S524416, .i32⟩
  | 9 => ⟨S524416, .i1⟩
  | 10 => ⟨S_, .i32⟩
  | 11 => ⟨S524416, .i32⟩
  | 12 => ⟨S524416, .i32⟩
  | 13 => ⟨S524416, .i32⟩
  | 14 => ⟨S524416x1, .i32⟩
  | 15 => ⟨S1, .i32⟩
  | 16 => ⟨S_, .i32⟩
  | 17 => ⟨S524416x1, .i32⟩
  | 18 => ⟨S524416x1, .i1⟩
  | 19 => ⟨S1x1, .i32⟩
  | 20 => ⟨S524416x1, .i32⟩
  | 21 => ⟨S524416x1, .i1⟩
  | 22 => ⟨S524416x1, .i1⟩
  | 23 => ⟨S_, .i1⟩
  | 24 => ⟨S524416, .i1⟩
  | 25 => ⟨S524416x128, .f32⟩
  | 26 => ⟨S524416x128, .i1⟩
  | 27 => ⟨S_, .f32⟩
  | 28 => ⟨S524416x128, .f32⟩
  | 29 => ⟨S524416x128, .f32⟩
  | 30 => ⟨S128x4097x128, .f32⟩
  | 31 => ⟨S128x4097, .f32⟩
  | 32 => ⟨S_, .f32⟩
  | 33 => ⟨S128x4097, .f32⟩
  | 34 => ⟨S128x4097, .f32⟩
  | 35 => ⟨S128x4097, .f32⟩
  | 36 => ⟨S_, .i32⟩
  | 37 => ⟨S524416, .i32⟩
  | 38 => ⟨S524416, .i1⟩
  | 39 => ⟨S_, .i32⟩
  | 40 => ⟨S524416, .i32⟩
  | 41 => ⟨S524416, .i32⟩
  | 42 => ⟨S524416, .i32⟩
  | 43 => ⟨S524416x1, .i32⟩
  | 44 => ⟨S1, .i32⟩
  | 45 => ⟨S_, .i32⟩
  | 46 => ⟨S524416x1, .i32⟩
  | 47 => ⟨S524416x1, .i1⟩
  | 48 => ⟨S1x1, .i32⟩
  | 49 => ⟨S524416x1, .i32⟩
  | 50 => ⟨S524416x1, .i1⟩
  | 51 => ⟨S524416x1, .i1⟩
  | 52 => ⟨S_, .i1⟩
  | 53 => ⟨S524416, .i1⟩
  | 54 => ⟨S524416x128, .f32⟩
  | 55 => ⟨S524416x128, .i1⟩
  | 56 => ⟨S_, .f32⟩
  | 57 => ⟨S524416x128, .f32⟩
  | 58 => ⟨S524416x128, .f32⟩
  | 59 => ⟨S128x4097x128, .f32⟩
  | 60 => ⟨S128x4097, .f32⟩
  | 61 => ⟨S_, .f32⟩
  | 62 => ⟨S128x4097, .f32⟩
  | 63 => ⟨S128x4097, .f32⟩
  | 64 => ⟨S128x4097, .f32⟩
  | 65 => ⟨S_, .f32⟩
  | 66 => ⟨S_, .f32⟩
  | 67 => ⟨S_, .f32⟩
  | 68 => ⟨S_, .f32⟩
  | 69 => ⟨S_, .f32⟩
  | 70 => ⟨S_, .f32⟩
  | 71 => ⟨S_, .f32⟩
  | 72 => ⟨S_, .f32⟩
  | 73 => ⟨S_, .f32⟩
  | 74 => ⟨S_, .f32⟩
  | 75 => ⟨S_, .f32⟩
  | 76 => ⟨S_, .f32⟩
  | 77 => ⟨S128x4097, .f32⟩
  | 78 => ⟨S128x4097, .f32⟩
  | 79 => ⟨S128x4097, .f32⟩
  | 80 => ⟨S128x4097, .f32⟩
  | 81 => ⟨S_, .i32⟩
  | 82 => ⟨S128, .i32⟩
  | 83 => ⟨S128, .i1⟩
  | 84 => ⟨S_, .i32⟩
  | 85 => ⟨S128, .i32⟩
  | 86 => ⟨S128, .i32⟩
  | 87 => ⟨S128, .i32⟩
  | 88 => ⟨S128x1, .i32⟩
  | 89 => ⟨S1, .i32⟩
  | 90 => ⟨S_, .i32⟩
  | 91 => ⟨S128x1, .i32⟩
  | 92 => ⟨S128x1, .i1⟩
  | 93 => ⟨S1x1, .i32⟩
  | 94 => ⟨S128x1, .i32⟩
  | 95 => ⟨S128x1, .i1⟩
  | 96 => ⟨S128x1, .i1⟩
  | 97 => ⟨S_, .i1⟩
  | 98 => ⟨S128, .i1⟩
  | 99 => ⟨S128x128, .f32⟩
  | 100 => ⟨S128x128, .i1⟩
  | 101 => ⟨S_, .f32⟩
  | 102 => ⟨S128x128, .f32⟩
  | 103 => ⟨S128x128, .f32⟩
  | 104 => ⟨S_, .f32⟩
  | 105 => ⟨S128x128, .f32⟩
  | 106 => ⟨S128x128, .f32⟩
  | 107 => ⟨S_, .f32⟩
  | 108 => ⟨S128x128, .f32⟩
  | 109 => ⟨S128x128, .f32⟩
  | 110 => ⟨S128x128, .f32⟩
  | 111 => ⟨S128x128, .f32⟩
  | 112 => ⟨S_, .f32⟩
  | 113 => ⟨S128, .f32⟩
  | 114 => ⟨S128x1, .f32⟩
  | 115 => ⟨S128x1, .f32⟩
  | 116 => ⟨S128x128, .f32⟩
  | 117 => ⟨S128x128, .f32⟩
  | 118 => ⟨S_, .i32⟩
  | 119 => ⟨S128, .i32⟩
  | 120 => ⟨S128, .i1⟩
  | 121 => ⟨S_, .i32⟩
  | 122 => ⟨S128, .i32⟩
  | 123 => ⟨S128, .i32⟩
  | 124 => ⟨S128, .i32⟩
  | 125 => ⟨S128x1, .i32⟩
  | 126 => ⟨S100000x128, .f32⟩
  | 127 => ⟨S_, .i32⟩
  | _ => ⟨S128x128, .f32⟩

abbrev hbmTy0_1 (i : Nat) : BufTy := match i % 128 with
  | 0 => ⟨S128, .i32⟩
  | 1 => ⟨S128, .i1⟩
  | 2 => ⟨S_, .i32⟩
  | 3 => ⟨S128, .i32⟩
  | 4 => ⟨S128, .i32⟩
  | 5 => ⟨S128, .i32⟩
  | 6 => ⟨S128x1, .i32⟩
  | 7 => ⟨S1, .i32⟩
  | 8 => ⟨S_, .i32⟩
  | 9 => ⟨S128x1, .i32⟩
  | 10 => ⟨S128x1, .i1⟩
  | 11 => ⟨S1x1, .i32⟩
  | 12 => ⟨S128x1, .i32⟩
  | 13 => ⟨S128x1, .i1⟩
  | 14 => ⟨S128x1, .i1⟩
  | 15 => ⟨S_, .i1⟩
  | 16 => ⟨S128, .i1⟩
  | 17 => ⟨S128x128, .f32⟩
  | 18 => ⟨S128x128, .i1⟩
  | 19 => ⟨S_, .f32⟩
  | 20 => ⟨S128x128, .f32⟩
  | 21 => ⟨S128x128, .f32⟩
  | 22 => ⟨S_, .f32⟩
  | 23 => ⟨S128x128, .f32⟩
  | 24 => ⟨S128x128, .f32⟩
  | 25 => ⟨S_, .f32⟩
  | 26 => ⟨S128x128, .f32⟩
  | 27 => ⟨S128x128, .f32⟩
  | 28 => ⟨S128x128, .f32⟩
  | 29 => ⟨S128x128, .f32⟩
  | 30 => ⟨S_, .f32⟩
  | 31 => ⟨S128, .f32⟩
  | 32 => ⟨S128x1, .f32⟩
  | 33 => ⟨S128x1, .f32⟩
  | 34 => ⟨S128x128, .f32⟩
  | 35 => ⟨S128x128, .f32⟩
  | 36 => ⟨S_, .i32⟩
  | 37 => ⟨S128, .i32⟩
  | 38 => ⟨S128, .i1⟩
  | 39 => ⟨S_, .i32⟩
  | 40 => ⟨S128, .i32⟩
  | 41 => ⟨S128, .i32⟩
  | 42 => ⟨S128, .i32⟩
  | 43 => ⟨S128x1, .i32⟩
  | 44 => ⟨S100000x128, .f32⟩
  | 45 => ⟨S128x1, .f32⟩
  | 46 => ⟨S128, .f32⟩
  | 47 => ⟨S_, .f32⟩
  | 48 => ⟨S128, .f32⟩
  | 49 => ⟨S128, .f32⟩
  | 50 => ⟨S_, .f32⟩
  | 51 => ⟨S128, .f32⟩
  | 52 => ⟨S128, .f32⟩
  | 53 => ⟨S128, .f32⟩
  | 54 => ⟨S128, .f32⟩
  | 55 => ⟨S128x4096, .f32⟩
  | 56 => ⟨S_, .f32⟩
  | 57 => ⟨S128x4096, .f32⟩
  | 58 => ⟨S128x4096, .f32⟩
  | 59 => ⟨S_, .f32⟩
  | 60 => ⟨S128x4096, .f32⟩
  | 61 => ⟨S128x4096, .f32⟩
  | 62 => ⟨S_, .f32⟩
  | 63 => ⟨S128x4096, .f32⟩
  | 64 => ⟨S128x4096, .f32⟩
  | 65 => ⟨S128x4096, .f32⟩
  | 66 => ⟨S_, .f32⟩
  | 67 => ⟨S_, .f32⟩
  | 68 => ⟨S_, .f32⟩
  | 69 => ⟨S_, .f32⟩
  | 70 => ⟨S_, .f32⟩
  | 71 => ⟨S_, .f32⟩
  | 72 => ⟨S_, .f32⟩
  | 73 => ⟨S_, .f32⟩
  | 74 => ⟨S128x1, .f32⟩
  | 75 => ⟨S128, .f32⟩
  | 76 => ⟨S_, .f32⟩
  | 77 => ⟨S128, .f32⟩
  | 78 => ⟨S128, .f32⟩
  | 79 => ⟨S_, .f32⟩
  | 80 => ⟨S128, .f32⟩
  | 81 => ⟨S128, .f32⟩
  | 82 => ⟨S128, .f32⟩
  | 83 => ⟨S128, .f32⟩
  | 84 => ⟨S128x4096, .f32⟩
  | 85 => ⟨S_, .f32⟩
  | 86 => ⟨S128x4096, .f32⟩
  | 87 => ⟨S128x4096, .f32⟩
  | 88 => ⟨S_, .f32⟩
  | 89 => ⟨S128x4096, .f32⟩
  | 90 => ⟨S128x4096, .f32⟩
  | 91 => ⟨S_, .f32⟩
  | 92 => ⟨S128x4096, .f32⟩
  | 93 => ⟨S128x4096, .f32⟩
  | 94 => ⟨S128x4096, .f32⟩
  | 95 => ⟨S_, .f32⟩
  | 96 => ⟨S_, .f32⟩
  | 97 => ⟨S_, .f32⟩
  | 98 => ⟨S_, .f32⟩
  | 99 => ⟨S_, .f32⟩
  | 100 => ⟨S_, .f32⟩
  | 101 => ⟨S_, .f32⟩
  | 102 => ⟨S_, .f32⟩
  | 103 => ⟨S_, .f32⟩
  | 104 => ⟨S1, .f32⟩
  | _ => ⟨S128x128, .f32⟩

abbrev hbmTy (i : Nat) : BufTy := match i / 128 with
  | 0 => hbmTy0_0 i
  | 1 => hbmTy0_1 i
  | _ => ⟨S128x128, .f32⟩

abbrev bufTy : (tb : Table) → Fin (tcTables nBuf tb) → BufTy
  | .hbm, ⟨i, _⟩ => hbmTy i
  | _, _ => ⟨S128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_call0_c : Ref sig .tc := ⟨.hbm, 7, rfl⟩
abbrev main_call0_v0 : Ref sig .tc := ⟨.hbm, 8, rfl⟩
abbrev main_call0_v1 : Ref sig .tc := ⟨.hbm, 9, rfl⟩
abbrev main_call0_c_0 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_c_1 : Ref sig .tc := ⟨.hbm, 15, rfl⟩
abbrev main_call0_c_2 : Ref sig .tc := ⟨.hbm, 16, rfl⟩
abbrev main_call0_v6 : Ref sig .tc := ⟨.hbm, 17, rfl⟩
abbrev main_call0_v7 : Ref sig .tc := ⟨.hbm, 18, rfl⟩
abbrev main_call0_v8 : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_c_3 : Ref sig .tc := ⟨.hbm, 23, rfl⟩
abbrev main_call0_v12 : Ref sig .tc := ⟨.hbm, 24, rfl⟩
abbrev main_call0_v13 : Ref sig .tc := ⟨.hbm, 25, rfl⟩
abbrev main_call0_v14 : Ref sig .tc := ⟨.hbm, 26, rfl⟩
abbrev main_call0_cst : Ref sig .tc := ⟨.hbm, 27, rfl⟩
abbrev main_call0_v15 : Ref sig .tc := ⟨.hbm, 28, rfl⟩
abbrev main_v1 : Ref sig .tc := ⟨.hbm, 29, rfl⟩
abbrev main_v2 : Ref sig .tc := ⟨.hbm, 30, rfl⟩
abbrev main_v3 : Ref sig .tc := ⟨.hbm, 31, rfl⟩
abbrev main_cst : Ref sig .tc := ⟨.hbm, 32, rfl⟩
abbrev main_v4 : Ref sig .tc := ⟨.hbm, 33, rfl⟩
abbrev main_v5 : Ref sig .tc := ⟨.hbm, 34, rfl⟩
abbrev main_v6 : Ref sig .tc := ⟨.hbm, 35, rfl⟩
abbrev main_call1_c : Ref sig .tc := ⟨.hbm, 36, rfl⟩
abbrev main_call1_v0 : Ref sig .tc := ⟨.hbm, 37, rfl⟩
abbrev main_call1_v1 : Ref sig .tc := ⟨.hbm, 38, rfl⟩
abbrev main_call1_c_0 : Ref sig .tc := ⟨.hbm, 39, rfl⟩
abbrev main_call1_v2 : Ref sig .tc := ⟨.hbm, 40, rfl⟩
abbrev main_call1_v3 : Ref sig .tc := ⟨.hbm, 41, rfl⟩
abbrev main_call1_v4 : Ref sig .tc := ⟨.hbm, 42, rfl⟩
abbrev main_call1_v5 : Ref sig .tc := ⟨.hbm, 43, rfl⟩
abbrev main_call1_c_1 : Ref sig .tc := ⟨.hbm, 44, rfl⟩
abbrev main_call1_c_2 : Ref sig .tc := ⟨.hbm, 45, rfl⟩
abbrev main_call1_v6 : Ref sig .tc := ⟨.hbm, 46, rfl⟩
abbrev main_call1_v7 : Ref sig .tc := ⟨.hbm, 47, rfl⟩
abbrev main_call1_v8 : Ref sig .tc := ⟨.hbm, 48, rfl⟩
abbrev main_call1_v9 : Ref sig .tc := ⟨.hbm, 49, rfl⟩
abbrev main_call1_v10 : Ref sig .tc := ⟨.hbm, 50, rfl⟩
abbrev main_call1_v11 : Ref sig .tc := ⟨.hbm, 51, rfl⟩
abbrev main_call1_c_3 : Ref sig .tc := ⟨.hbm, 52, rfl⟩
abbrev main_call1_v12 : Ref sig .tc := ⟨.hbm, 53, rfl⟩
abbrev main_call1_v13 : Ref sig .tc := ⟨.hbm, 54, rfl⟩
abbrev main_call1_v14 : Ref sig .tc := ⟨.hbm, 55, rfl⟩
abbrev main_call1_cst : Ref sig .tc := ⟨.hbm, 56, rfl⟩
abbrev main_call1_v15 : Ref sig .tc := ⟨.hbm, 57, rfl⟩
abbrev main_v7 : Ref sig .tc := ⟨.hbm, 58, rfl⟩
abbrev main_v8 : Ref sig .tc := ⟨.hbm, 59, rfl⟩
abbrev main_v9 : Ref sig .tc := ⟨.hbm, 60, rfl⟩
abbrev main_cst_0 : Ref sig .tc := ⟨.hbm, 61, rfl⟩
abbrev main_v10 : Ref sig .tc := ⟨.hbm, 62, rfl⟩
abbrev main_v11 : Ref sig .tc := ⟨.hbm, 63, rfl⟩
abbrev main_v12 : Ref sig .tc := ⟨.hbm, 64, rfl⟩
abbrev main_cst_1 : Ref sig .tc := ⟨.hbm, 65, rfl⟩
abbrev main_v13 : Ref sig .tc := ⟨.hbm, 66, rfl⟩
abbrev main_cst_2 : Ref sig .tc := ⟨.hbm, 67, rfl⟩
abbrev main_v14 : Ref sig .tc := ⟨.hbm, 68, rfl⟩
abbrev main_cst_3 : Ref sig .tc := ⟨.hbm, 69, rfl⟩
abbrev main_v15 : Ref sig .tc := ⟨.hbm, 70, rfl⟩
abbrev main_cst_4 : Ref sig .tc := ⟨.hbm, 71, rfl⟩
abbrev main_v16 : Ref sig .tc := ⟨.hbm, 72, rfl⟩
abbrev main_cst_5 : Ref sig .tc := ⟨.hbm, 73, rfl⟩
abbrev main_v17 : Ref sig .tc := ⟨.hbm, 74, rfl⟩
abbrev main_cst_6 : Ref sig .tc := ⟨.hbm, 75, rfl⟩
abbrev main_v18 : Ref sig .tc := ⟨.hbm, 76, rfl⟩
abbrev main_v19 : Ref sig .tc := ⟨.hbm, 77, rfl⟩
abbrev main_v20 : Ref sig .tc := ⟨.hbm, 78, rfl⟩
abbrev main_v21 : Ref sig .tc := ⟨.hbm, 79, rfl⟩
abbrev main_v22 : Ref sig .tc := ⟨.hbm, 80, rfl⟩
abbrev main_call2_c : Ref sig .tc := ⟨.hbm, 81, rfl⟩
abbrev main_call2_v0 : Ref sig .tc := ⟨.hbm, 82, rfl⟩
abbrev main_call2_v1 : Ref sig .tc := ⟨.hbm, 83, rfl⟩
abbrev main_call2_c_0 : Ref sig .tc := ⟨.hbm, 84, rfl⟩
abbrev main_call2_v2 : Ref sig .tc := ⟨.hbm, 85, rfl⟩
abbrev main_call2_v3 : Ref sig .tc := ⟨.hbm, 86, rfl⟩
abbrev main_call2_v4 : Ref sig .tc := ⟨.hbm, 87, rfl⟩
abbrev main_call2_v5 : Ref sig .tc := ⟨.hbm, 88, rfl⟩
abbrev main_call2_c_1 : Ref sig .tc := ⟨.hbm, 89, rfl⟩
abbrev main_call2_c_2 : Ref sig .tc := ⟨.hbm, 90, rfl⟩
abbrev main_call2_v6 : Ref sig .tc := ⟨.hbm, 91, rfl⟩
abbrev main_call2_v7 : Ref sig .tc := ⟨.hbm, 92, rfl⟩
abbrev main_call2_v8 : Ref sig .tc := ⟨.hbm, 93, rfl⟩
abbrev main_call2_v9 : Ref sig .tc := ⟨.hbm, 94, rfl⟩
abbrev main_call2_v10 : Ref sig .tc := ⟨.hbm, 95, rfl⟩
abbrev main_call2_v11 : Ref sig .tc := ⟨.hbm, 96, rfl⟩
abbrev main_call2_c_3 : Ref sig .tc := ⟨.hbm, 97, rfl⟩
abbrev main_call2_v12 : Ref sig .tc := ⟨.hbm, 98, rfl⟩
abbrev main_call2_v13 : Ref sig .tc := ⟨.hbm, 99, rfl⟩
abbrev main_call2_v14 : Ref sig .tc := ⟨.hbm, 100, rfl⟩
abbrev main_call2_cst : Ref sig .tc := ⟨.hbm, 101, rfl⟩
abbrev main_call2_v15 : Ref sig .tc := ⟨.hbm, 102, rfl⟩
abbrev main_v23 : Ref sig .tc := ⟨.hbm, 103, rfl⟩
abbrev main_cst_7 : Ref sig .tc := ⟨.hbm, 104, rfl⟩
abbrev main_v24 : Ref sig .tc := ⟨.hbm, 105, rfl⟩
abbrev main_v25 : Ref sig .tc := ⟨.hbm, 106, rfl⟩
abbrev main_cst_8 : Ref sig .tc := ⟨.hbm, 107, rfl⟩
abbrev main_v26 : Ref sig .tc := ⟨.hbm, 108, rfl⟩
abbrev main_v27 : Ref sig .tc := ⟨.hbm, 109, rfl⟩
abbrev main_v28 : Ref sig .tc := ⟨.hbm, 110, rfl⟩
abbrev main_v29 : Ref sig .tc := ⟨.hbm, 111, rfl⟩
abbrev main_cst_9 : Ref sig .tc := ⟨.hbm, 112, rfl⟩
abbrev main_v30 : Ref sig .tc := ⟨.hbm, 113, rfl⟩
abbrev main_v31 : Ref sig .tc := ⟨.hbm, 114, rfl⟩
abbrev main_v32 : Ref sig .tc := ⟨.hbm, 115, rfl⟩
abbrev main_v33 : Ref sig .tc := ⟨.hbm, 116, rfl⟩
abbrev main_v34 : Ref sig .tc := ⟨.hbm, 117, rfl⟩
abbrev main_c : Ref sig .tc := ⟨.hbm, 118, rfl⟩
abbrev main_v35 : Ref sig .tc := ⟨.hbm, 119, rfl⟩
abbrev main_v36 : Ref sig .tc := ⟨.hbm, 120, rfl⟩
abbrev main_c_10 : Ref sig .tc := ⟨.hbm, 121, rfl⟩
abbrev main_v37 : Ref sig .tc := ⟨.hbm, 122, rfl⟩
abbrev main_v38 : Ref sig .tc := ⟨.hbm, 123, rfl⟩
abbrev main_v39 : Ref sig .tc := ⟨.hbm, 124, rfl⟩
abbrev main_v40 : Ref sig .tc := ⟨.hbm, 125, rfl⟩
abbrev main_v41 : Ref sig .tc := ⟨.hbm, 126, rfl⟩
abbrev main_call3_c : Ref sig .tc := ⟨.hbm, 127, rfl⟩
abbrev main_call3_v0 : Ref sig .tc := ⟨.hbm, 128, rfl⟩
abbrev main_call3_v1 : Ref sig .tc := ⟨.hbm, 129, rfl⟩
abbrev main_call3_c_0 : Ref sig .tc := ⟨.hbm, 130, rfl⟩
abbrev main_call3_v2 : Ref sig .tc := ⟨.hbm, 131, rfl⟩
abbrev main_call3_v3 : Ref sig .tc := ⟨.hbm, 132, rfl⟩
abbrev main_call3_v4 : Ref sig .tc := ⟨.hbm, 133, rfl⟩
abbrev main_call3_v5 : Ref sig .tc := ⟨.hbm, 134, rfl⟩
abbrev main_call3_c_1 : Ref sig .tc := ⟨.hbm, 135, rfl⟩
abbrev main_call3_c_2 : Ref sig .tc := ⟨.hbm, 136, rfl⟩
abbrev main_call3_v6 : Ref sig .tc := ⟨.hbm, 137, rfl⟩
abbrev main_call3_v7 : Ref sig .tc := ⟨.hbm, 138, rfl⟩
abbrev main_call3_v8 : Ref sig .tc := ⟨.hbm, 139, rfl⟩
abbrev main_call3_v9 : Ref sig .tc := ⟨.hbm, 140, rfl⟩
abbrev main_call3_v10 : Ref sig .tc := ⟨.hbm, 141, rfl⟩
abbrev main_call3_v11 : Ref sig .tc := ⟨.hbm, 142, rfl⟩
abbrev main_call3_c_3 : Ref sig .tc := ⟨.hbm, 143, rfl⟩
abbrev main_call3_v12 : Ref sig .tc := ⟨.hbm, 144, rfl⟩
abbrev main_call3_v13 : Ref sig .tc := ⟨.hbm, 145, rfl⟩
abbrev main_call3_v14 : Ref sig .tc := ⟨.hbm, 146, rfl⟩
abbrev main_call3_cst : Ref sig .tc := ⟨.hbm, 147, rfl⟩
abbrev main_call3_v15 : Ref sig .tc := ⟨.hbm, 148, rfl⟩
abbrev main_v42 : Ref sig .tc := ⟨.hbm, 149, rfl⟩
abbrev main_cst_11 : Ref sig .tc := ⟨.hbm, 150, rfl⟩
abbrev main_v43 : Ref sig .tc := ⟨.hbm, 151, rfl⟩
abbrev main_v44 : Ref sig .tc := ⟨.hbm, 152, rfl⟩
abbrev main_cst_12 : Ref sig .tc := ⟨.hbm, 153, rfl⟩
abbrev main_v45 : Ref sig .tc := ⟨.hbm, 154, rfl⟩
abbrev main_v46 : Ref sig .tc := ⟨.hbm, 155, rfl⟩
abbrev main_v47 : Ref sig .tc := ⟨.hbm, 156, rfl⟩
abbrev main_v48 : Ref sig .tc := ⟨.hbm, 157, rfl⟩
abbrev main_cst_13 : Ref sig .tc := ⟨.hbm, 158, rfl⟩
abbrev main_v49 : Ref sig .tc := ⟨.hbm, 159, rfl⟩
abbrev main_v50 : Ref sig .tc := ⟨.hbm, 160, rfl⟩
abbrev main_v51 : Ref sig .tc := ⟨.hbm, 161, rfl⟩
abbrev main_v52 : Ref sig .tc := ⟨.hbm, 162, rfl⟩
abbrev main_v53 : Ref sig .tc := ⟨.hbm, 163, rfl⟩
abbrev main_c_14 : Ref sig .tc := ⟨.hbm, 164, rfl⟩
abbrev main_v54 : Ref sig .tc := ⟨.hbm, 165, rfl⟩
abbrev main_v55 : Ref sig .tc := ⟨.hbm, 166, rfl⟩
abbrev main_c_15 : Ref sig .tc := ⟨.hbm, 167, rfl⟩
abbrev main_v56 : Ref sig .tc := ⟨.hbm, 168, rfl⟩
abbrev main_v57 : Ref sig .tc := ⟨.hbm, 169, rfl⟩
abbrev main_v58 : Ref sig .tc := ⟨.hbm, 170, rfl⟩
abbrev main_v59 : Ref sig .tc := ⟨.hbm, 171, rfl⟩
abbrev main_v60 : Ref sig .tc := ⟨.hbm, 172, rfl⟩
abbrev main_v61 : Ref sig .tc := ⟨.hbm, 173, rfl⟩
abbrev main_v62 : Ref sig .tc := ⟨.hbm, 174, rfl⟩
abbrev main_cst_16 : Ref sig .tc := ⟨.hbm, 175, rfl⟩
abbrev main_v63 : Ref sig .tc := ⟨.hbm, 176, rfl⟩
abbrev main_v64 : Ref sig .tc := ⟨.hbm, 177, rfl⟩
abbrev main_cst_17 : Ref sig .tc := ⟨.hbm, 178, rfl⟩
abbrev main_v65 : Ref sig .tc := ⟨.hbm, 179, rfl⟩
abbrev main_v66 : Ref sig .tc := ⟨.hbm, 180, rfl⟩
abbrev main_v67 : Ref sig .tc := ⟨.hbm, 181, rfl⟩
abbrev main_v68 : Ref sig .tc := ⟨.hbm, 182, rfl⟩
abbrev main_v69 : Ref sig .tc := ⟨.hbm, 183, rfl⟩
abbrev main_cst_18 : Ref sig .tc := ⟨.hbm, 184, rfl⟩
abbrev main_v70 : Ref sig .tc := ⟨.hbm, 185, rfl⟩
abbrev main_v71 : Ref sig .tc := ⟨.hbm, 186, rfl⟩
abbrev main_cst_19 : Ref sig .tc := ⟨.hbm, 187, rfl⟩
abbrev main_v72 : Ref sig .tc := ⟨.hbm, 188, rfl⟩
abbrev main_v73 : Ref sig .tc := ⟨.hbm, 189, rfl⟩
abbrev main_cst_20 : Ref sig .tc := ⟨.hbm, 190, rfl⟩
abbrev main_v74 : Ref sig .tc := ⟨.hbm, 191, rfl⟩
abbrev main_v75 : Ref sig .tc := ⟨.hbm, 192, rfl⟩
abbrev main_v76 : Ref sig .tc := ⟨.hbm, 193, rfl⟩
abbrev main_cst_21 : Ref sig .tc := ⟨.hbm, 194, rfl⟩
abbrev main_v77 : Ref sig .tc := ⟨.hbm, 195, rfl⟩
abbrev main_cst_22 : Ref sig .tc := ⟨.hbm, 196, rfl⟩
abbrev main_v78 : Ref sig .tc := ⟨.hbm, 197, rfl⟩
abbrev main_v79 : Ref sig .tc := ⟨.hbm, 198, rfl⟩
abbrev main_v80 : Ref sig .tc := ⟨.hbm, 199, rfl⟩
abbrev main_cst_23 : Ref sig .tc := ⟨.hbm, 200, rfl⟩
abbrev main_v81 : Ref sig .tc := ⟨.hbm, 201, rfl⟩
abbrev main_v82 : Ref sig .tc := ⟨.hbm, 202, rfl⟩
abbrev main_v83 : Ref sig .tc := ⟨.hbm, 203, rfl⟩
abbrev main_cst_24 : Ref sig .tc := ⟨.hbm, 204, rfl⟩
abbrev main_v84 : Ref sig .tc := ⟨.hbm, 205, rfl⟩
abbrev main_v85 : Ref sig .tc := ⟨.hbm, 206, rfl⟩
abbrev main_cst_25 : Ref sig .tc := ⟨.hbm, 207, rfl⟩
abbrev main_v86 : Ref sig .tc := ⟨.hbm, 208, rfl⟩
abbrev main_v87 : Ref sig .tc := ⟨.hbm, 209, rfl⟩
abbrev main_v88 : Ref sig .tc := ⟨.hbm, 210, rfl⟩
abbrev main_v89 : Ref sig .tc := ⟨.hbm, 211, rfl⟩
abbrev main_v90 : Ref sig .tc := ⟨.hbm, 212, rfl⟩
abbrev main_cst_26 : Ref sig .tc := ⟨.hbm, 213, rfl⟩
abbrev main_v91 : Ref sig .tc := ⟨.hbm, 214, rfl⟩
abbrev main_v92 : Ref sig .tc := ⟨.hbm, 215, rfl⟩
abbrev main_cst_27 : Ref sig .tc := ⟨.hbm, 216, rfl⟩
abbrev main_v93 : Ref sig .tc := ⟨.hbm, 217, rfl⟩
abbrev main_v94 : Ref sig .tc := ⟨.hbm, 218, rfl⟩
abbrev main_cst_28 : Ref sig .tc := ⟨.hbm, 219, rfl⟩
abbrev main_v95 : Ref sig .tc := ⟨.hbm, 220, rfl⟩
abbrev main_v96 : Ref sig .tc := ⟨.hbm, 221, rfl⟩
abbrev main_v97 : Ref sig .tc := ⟨.hbm, 222, rfl⟩
abbrev main_cst_29 : Ref sig .tc := ⟨.hbm, 223, rfl⟩
abbrev main_v98 : Ref sig .tc := ⟨.hbm, 224, rfl⟩
abbrev main_cst_30 : Ref sig .tc := ⟨.hbm, 225, rfl⟩
abbrev main_v99 : Ref sig .tc := ⟨.hbm, 226, rfl⟩
abbrev main_v100 : Ref sig .tc := ⟨.hbm, 227, rfl⟩
abbrev main_v101 : Ref sig .tc := ⟨.hbm, 228, rfl⟩
abbrev main_cst_31 : Ref sig .tc := ⟨.hbm, 229, rfl⟩
abbrev main_v102 : Ref sig .tc := ⟨.hbm, 230, rfl⟩
abbrev main_v103 : Ref sig .tc := ⟨.hbm, 231, rfl⟩
abbrev main_v104 : Ref sig .tc := ⟨.hbm, 232, rfl⟩

abbrev nD : Nat := 1
abbrev τ : Topo := Topo.v7x

variable {F : FTy → Type} [FloatOps F]

class Facts₀ : Prop where
  shapeCasts_S128x4097_S524416 : S128x4097.ShapeCasts S524416
  bcast_S_S524416 : S_.BroadcastsInDim S524416 (![] : Fin 0 → Fin S524416.rank)
  bcast_S524416_S524416x1_0 : S524416.BroadcastsInDim S524416x1 (![0] : Fin 1 → Fin S524416x1.rank)
  bcast_S_S524416x1 : S_.BroadcastsInDim S524416x1 (![] : Fin 0 → Fin S524416x1.rank)
  bcast_S1_S1x1_1 : S1.BroadcastsInDim S1x1 (![1] : Fin 1 → Fin S1x1.rank)
  bcast_S1x1_S524416x1_0_1 : S1x1.BroadcastsInDim S524416x1 (![0, 1] : Fin 2 → Fin S524416x1.rank)
  reducesTo_S524416x1_S524416_d1 : S524416x1.ReducesTo [1] S524416
  h_S_ : 0 < S_.numel
  bcast_S524416_S524416x128_0 : S524416.BroadcastsInDim S524416x128 (![0] : Fin 1 → Fin S524416x128.rank)
  bcast_S_S524416x128 : S_.BroadcastsInDim S524416x128 (![] : Fin 0 → Fin S524416x128.rank)
  shapeCasts_S524416x128_S128x4097x128 : S524416x128.ShapeCasts S128x4097x128
  bcast_S_S128x4097 : S_.BroadcastsInDim S128x4097 (![] : Fin 0 → Fin S128x4097.rank)
  reducesTo_S128x4097_S_d0_1 : S128x4097.ReducesTo [0, 1] S_
  bcast_S_S128 : S_.BroadcastsInDim S128 (![] : Fin 0 → Fin S128.rank)
  bcast_S128_S128x1_0 : S128.BroadcastsInDim S128x1 (![0] : Fin 1 → Fin S128x1.rank)
  bcast_S_S128x1 : S_.BroadcastsInDim S128x1 (![] : Fin 0 → Fin S128x1.rank)
  bcast_S1x1_S128x1_0_1 : S1x1.BroadcastsInDim S128x1 (![0, 1] : Fin 2 → Fin S128x1.rank)
  reducesTo_S128x1_S128_d1 : S128x1.ReducesTo [1] S128
  bcast_S128_S128x128_0 : S128.BroadcastsInDim S128x128 (![0] : Fin 1 → Fin S128x128.rank)
  bcast_S_S128x128 : S_.BroadcastsInDim S128x128 (![] : Fin 0 → Fin S128x128.rank)
  reducesTo_S128x128_S128_d1 : S128x128.ReducesTo [1] S128
  bcast_S128x1_S128x128_0_1 : S128x1.BroadcastsInDim S128x128 (![0, 1] : Fin 2 → Fin S128x128.rank)
  slices_S128x4097_S128x1_0_0 : S128x4097.Slices ![0, 0] S128x1
  shapeCasts_S128x1_S128 : S128x1.ShapeCasts S128
  slices_S128x4097_S128x4096_0_1 : S128x4097.Slices ![0, 1] S128x4096
  bcast_S_S128x4096 : S_.BroadcastsInDim S128x4096 (![] : Fin 0 → Fin S128x4096.rank)
  reducesTo_S128_S_d0 : S128.ReducesTo [0] S_
  reducesTo_S128x4096_S_d0_1 : S128x4096.ReducesTo [0, 1] S_
  shapeCasts_S_S1 : S_.ShapeCasts S1
  gather_S100000x128_S524416x1_S524416x128_1_0_n_n_0_1_1128_wf : GatherDims.WF S100000x128 S524416x1 S524416x128 [1] [0] [] [0] [] 1 ![1, 128]
  dot_S128x4097x128_S128x128_S128x4097_2_1_1_n_0_0_wf : DotDims.WF S128x4097x128 S128x128 S128x4097 [2] [1] [1] [] [0] [0]
  gather_S100000x128_S128x1_S128x128_1_0_n_n_0_1_1128_wf : GatherDims.WF S100000x128 S128x1 S128x128 [1] [0] [] [0] [] 1 ![1, 128]
  scatter_S100000x128_S128x1_S128x128_1_0_0_1_wf : ScatterDims.WF S100000x128 S128x1 S128x128 [1] [0] [0] 1

variable [Facts₀]

def gather_S100000x128_S524416x1_S524416x128_1_0_n_n_0_1_1128 : GatherDims S100000x128 S524416x1 S524416x128 where
  offsetDims := [1]
  collapsedSliceDims := [0]
  operandBatchingDims := []
  startIndicesBatchingDims := []
  startIndexMap := [0]
  indexVectorDim := 1
  sliceSizes := ![1, 128]
  wf := gather_S100000x128_S524416x1_S524416x128_1_0_n_n_0_1_1128_wf
def dot_S128x4097x128_S128x128_S128x4097_2_1_1_n_0_0 : DotDims S128x4097x128 S128x128 S128x4097 where
  lhsContracting := [2]
  rhsContracting := [1]
  lhsNonContracting := [1]
  rhsNonContracting := []
  lhsBatch := [0]
  rhsBatch := [0]
  wf := dot_S128x4097x128_S128x128_S128x4097_2_1_1_n_0_0_wf
def gather_S100000x128_S128x1_S128x128_1_0_n_n_0_1_1128 : GatherDims S100000x128 S128x1 S128x128 where
  offsetDims := [1]
  collapsedSliceDims := [0]
  operandBatchingDims := []
  startIndicesBatchingDims := []
  startIndexMap := [0]
  indexVectorDim := 1
  sliceSizes := ![1, 128]
  wf := gather_S100000x128_S128x1_S128x128_1_0_n_n_0_1_1128_wf
def scatter_S100000x128_S128x1_S128x128_1_0_0_1 : ScatterDims S100000x128 S128x1 S128x128 where
  updateWindowDims := [1]
  insertedWindowDims := [0]
  scatterDimsToOperandDims := [0]
  indexVectorDim := 1
  wf := scatter_S100000x128_S128x1_S128x128_1_0_0_1_wf

class Facts : Prop extends Facts₀ where

variable [Facts]
-- ==== Proof.Ledger.lean ====
import proofs.«204933_g4492535792355_cont_8to1_c_766_42_alg».proof.Defs

noncomputable section

namespace Cert.Proof.Ledger

open Idealize.ShloMosaic

theorem preserves : Cert.preserves_Kernel_KernelIdeal :=
  ⟨IdealRules.truncf_extf.statement Cert.KernelIdeal.S128x128 .f32 .bf16,
   IdealRules.truncf_extf.statement Cert.KernelIdeal.S4096x128 .f32 .bf16,
   IdealRules.truncf_extf.statement Cert.KernelIdeal.S128x128 .f32 .bf16,
   IdealRules.truncf_extf.statement Cert.KernelIdeal.S4096x128 .f32 .bf16,
   IdealRules.named_const.statement Cert.KernelIdeal.κ "inv_temperature" .f32 0x41649249#32 ((134217728 / 9395241 : ℝ) : EReal) rfl,
   IdealRules.named_const.statement Cert.KernelIdeal.κ "n_over_bk" .f32 0x3E4343CC#32 ((3125 / 16388 : ℝ) : EReal) rfl,
   IdealRules.named_const.statement Cert.KernelIdeal.κ "n_over_bk" .f32 0x3E4343CC#32 ((3125 / 16388 : ℝ) : EReal) rfl⟩

end Cert.Proof.Ledger

end
-- ==== Proof.RefRunA.lean ====
import proofs.«204933_g4492535792355_cont_8to1_c_766_42_alg».proof.ReferenceIdeal
import proofs.«204933_g4492535792355_cont_8to1_c_766_42_alg».proof.Proof.Gen.ReferenceIdeal

noncomputable section

namespace Cert.Proof.A

open Idealize.ShloMosaic Idealize.SL.Sem
open Cert.ReferenceIdeal Cert.ReferenceIdeal.Facts₀

variable {F : FTy → Type} [FloatOps F]

abbrev C (F : FTy → Type) (S : Shape) (e : EltTy) : Type := (⟨S, e⟩ : BufTy).Contents (Elt F)

def idxT (a3 : C F S128x4097 .i32) : C F S524416 .i32 :=
  fun i => shapeCast S524416 a3 shapeCasts_S128x4097_S524416 i

def wrapT (idx : C F S524416 .i32) : C F S524416 .i32 :=
  select (cmpi .slt idx (broadcastInDim S524416 ![] bcast_S_S524416 (constantI S_ 32 0#32)))
    (addi idx (broadcastInDim S524416 ![] bcast_S_S524416 (constantI S_ 32 100000#32))) idx

def colT (idx : C F S524416 .i32) : C F S524416x1 .i32 :=
  broadcastInDim S524416x1 ![0] bcast_S524416_S524416x1_0 (wrapT idx)

def okT (w : C F S524416x1 .i32) : C F S524416 .i1 :=
  Host.reduce IntOp.andi
    (andi (cmpi .sge w (broadcastInDim S524416x1 ![] bcast_S_S524416x1 (constantI S_ 32 0#32)))
      (cmpi .sle w (broadcastInDim S524416x1 ![0, 1] bcast_S1x1_S524416x1_0_1
        (broadcastInDim S1x1 ![1] bcast_S1_S1x1_1 (constantI S1 32 99999#32)))))
    (constantI S_ 1 1#1) reducesTo_S524416x1_S524416_d1 h_S_

def takeT (mem : C F S100000x128 .f32) (idx : C F S524416 .i32) : C F S524416x128 .f32 :=
  select (broadcastInDim S524416x128 ![0] bcast_S524416_S524416x128_0 (okT (colT idx)))
    (Host.gather gather_S100000x128_S524416x1_S524416x128_1_0_n_n_0_1_1128 mem (colT idx))
    (broadcastInDim S524416x128 ![] bcast_S_S524416x128 (constant S_ .f32 0x7FC00000#32))

def wrap0T (idx : C F S128 .i32) : C F S128 .i32 :=
  select (cmpi .slt idx (broadcastInDim S128 ![] bcast_S_S128 (constantI S_ 32 0#32)))
    (addi idx (broadcastInDim S128 ![] bcast_S_S128 (constantI S_ 32 100000#32))) idx

def col0T (idx : C F S128 .i32) : C F S128x1 .i32 :=
  broadcastInDim S128x1 ![0] bcast_S128_S128x1_0 (wrap0T idx)

def ok0T (w : C F S128x1 .i32) : C F S128 .i1 :=
  Host.reduce IntOp.andi
    (andi (cmpi .sge w (broadcastInDim S128x1 ![] bcast_S_S128x1 (constantI S_ 32 0#32)))
      (cmpi .sle w (broadcastInDim S128x1 ![0, 1] bcast_S1x1_S128x1_0_1
        (broadcastInDim S1x1 ![1] bcast_S1_S1x1_1 (constantI S1 32 99999#32)))))
    (constantI S_ 1 1#1) reducesTo_S128x1_S128_d1 h_S_

def take0T (mem : C F S100000x128 .f32) (idx : C F S128 .i32) : C F S128x128 .f32 :=
  select (broadcastInDim S128x128 ![0] bcast_S128_S128x128_0 (ok0T (col0T idx)))
    (Host.gather gather_S100000x128_S128x1_S128x128_1_0_n_n_0_1_1128 mem (col0T idx))
    (broadcastInDim S128x128 ![] bcast_S_S128x128 (constant S_ .f32 0x7FC00000#32))

def simT (mem : C F S100000x128 .f32) (idx : C F S524416 .i32) (emb : C F S128x128 .f32) : C F S128x4097 .f32 :=
  Host.exp (Host.divf
    (Host.dotGeneral dot_S128x4097x128_S128x128_S128x4097_2_1_1_n_0_0 none
      (fun i => shapeCast S128x4097x128 (takeT mem idx) shapeCasts_S524416x128_S128x4097x128 i) emb)
    (broadcastInDim S128x4097 ![] bcast_S_S128x4097 (constant S_ .f32 0x3D8F5C29#32)))

def zT (x : C F S128x4097 .f32) : C F S_ .f32 :=
  mulf (Host.divf (Host.reduceAdd x (constant S_ .f32 0x00000000#32) reducesTo_S128x4097_S_d0_1 h_S_)
    (constant S_ .f32 0x49000800#32)) (constant S_ .f32 0x47C35000#32)

def normT (x : C F S128x4097 .f32) : C F S128x4097 .f32 :=
  Host.divf x (broadcastInDim S128x4097 ![] bcast_S_S128x4097 (zT x))

def mixT (old emb : C F S128x128 .f32) : C F S128x128 .f32 :=
  addf (mulf old (broadcastInDim S128x128 ![] bcast_S_S128x128 (constant S_ .f32 0x3F000000#32)))
    (mulf emb (broadcastInDim S128x128 ![] bcast_S_S128x128 (constant S_ .f32 0x3F000000#32)))

def unitT (s : C F S128x128 .f32) : C F S128x128 .f32 :=
  Host.divf s (broadcastInDim S128x128 ![0, 1] bcast_S128x1_S128x128_0_1
    (Host.sqrt (broadcastInDim S128x1 ![0] bcast_S128_S128x1_0
      (Host.reduceAdd (mulf s s) (constant S_ .f32 0x00000000#32) reducesTo_S128x128_S128_d1 h_S_))))

def mvT (mem : C F S100000x128 .f32) (emb : C F S128x128 .f32) (pos : C F S128 .i32) : C F S100000x128 .f32 :=
  Host.scatter scatter_S100000x128_S128x1_S128x128_1_0_0_1 (fun _ b => b) mem (col0T pos)
    (unitT (mixT (take0T mem pos) emb))

def pos0T (x : C F S128x4097 .f32) : C F S128 .f32 :=
  fun i => shapeCast S128 (extractStridedSlice S128x1 ![0, 0] x slices_S128x4097_S128x1_0_0) shapeCasts_S128x1_S128 i

def logPosT (x : C F S128x4097 .f32) : C F S128 .f32 :=
  Host.log (Host.divf (pos0T x)
    (addf (addf (pos0T x) (broadcastInDim S128 ![] bcast_S_S128 (constant S_ .f32 0x3D27C5AC#32)))
      (broadcastInDim S128 ![] bcast_S_S128 (constant S_ .f32 0x33D6BF95#32))))

def negsT (x : C F S128x4097 .f32) : C F S128x4096 .f32 :=
  extractStridedSlice S128x4096 ![0, 1] x slices_S128x4097_S128x4096_0_1

def logNegT (x : C F S128x4097 .f32) : C F S128x4096 .f32 :=
  Host.log (Host.divf (broadcastInDim S128x4096 ![] bcast_S_S128x4096 (constant S_ .f32 0x3D27C5AC#32))
    (addf (addf (negsT x) (broadcastInDim S128x4096 ![] bcast_S_S128x4096 (constant S_ .f32 0x3D27C5AC#32)))
      (broadcastInDim S128x4096 ![] bcast_S_S128x4096 (constant S_ .f32 0x33D6BF95#32))))

def nceT (x : C F S128x4097 .f32) : C F S_ .f32 :=
  Host.divf (Host.negf (addf
      (Host.reduceAdd (logPosT x) (constant S_ .f32 0x00000000#32) reducesTo_S128_S_d0 h_S_)
      (Host.reduceAdd (logNegT x) (constant S_ .f32 0x00000000#32) reducesTo_S128x4096_S_d0_1 h_S_)))
    (constant S_ .f32 0x43000000#32)

def lossT (a0 a1 : C F S128x128 .f32) (a2 : C F S128 .i32) (a3 : C F S128x4097 .i32)
    (a4 a5 : C F S100000x128 .f32) : C F S1 .f32 :=
  fun i => shapeCast S1
    (addf (nceT (normT (simT a5 (idxT a3) a0))) (nceT (normT (simT a4 (idxT a3) a1)))) shapeCasts_S_S1 i

def mv1T (a0 a1 : C F S128x128 .f32) (a2 : C F S128 .i32) (a3 : C F S128x4097 .i32)
    (a4 a5 : C F S100000x128 .f32) : C F S100000x128 .f32 := mvT a4 a0 a2

def mv2T (a0 a1 : C F S128x128 .f32) (a2 : C F S128 .i32) (a3 : C F S128x4097 .i32)
    (a4 a5 : C F S100000x128 .f32) : C F S100000x128 .f32 := mvT a5 a1 a2

end Cert.Proof.A

end
-- ==== Proof.RefRunB.lean ====
import proofs.«204933_g4492535792355_cont_8to1_c_766_42_alg».proof.Defs
import proofs.«204933_g4492535792355_cont_8to1_c_766_42_alg».proof.Proof.Gen.ReferenceIdeal
import proofs.«204933_g4492535792355_cont_8to1_c_766_42_alg».proof.Proof.Gen.Pre_input_domain
import proofs.«204933_g4492535792355_cont_8to1_c_766_42_alg».proof.Proof.RefRunA
import Idealize.ShloMosaic.Lib.Pipeline.Frame

noncomputable section

namespace Cert.Proof.A

open Idealize.ShloMosaic Idealize.ShloMosaic.TcCoe Idealize.SL.Sem Idealize.ShloMosaic.StableHlo
open Cert.ReferenceIdeal Cert.ReferenceIdeal.Facts₀

variable {F : FTy → Type} [FloatOps F]

abbrev takeOps (arg0 : TRef sig ⟨S100000x128, .f32⟩) (arg1 : TRef sig ⟨S524416, .i32⟩)
    (φ : fn_take.Bufs) : List (HloOp τ sig (Elt F)) :=
  [ TRef.nullary φ.c (constantI S_ 32 0#32),
    TRef.unary φ.c φ.v0 (broadcastInDim S524416 ![] bcast_S_S524416),
    TRef.binary arg1 φ.v0 φ.v1 (cmpi .slt),
    TRef.nullary φ.c_0 (constantI S_ 32 100000#32),
    TRef.unary φ.c_0 φ.v2 (broadcastInDim S524416 ![] bcast_S_S524416),
    TRef.binary arg1 φ.v2 φ.v3 addi,
    TRef.ternary φ.v1 φ.v3 arg1 φ.call0.v0 select,
    TRef.unary φ.call0.v0 φ.v5 (broadcastInDim S524416x1 ![0] bcast_S524416_S524416x1_0),
    TRef.nullary φ.c_1 (constantI S1 32 99999#32),
    TRef.nullary φ.c_2 (constantI S_ 32 0#32),
    TRef.unary φ.c_2 φ.v6 (broadcastInDim S524416x1 ![] bcast_S_S524416x1),
    TRef.binary φ.v5 φ.v6 φ.v7 (cmpi .sge),
    TRef.unary φ.c_1 φ.v8 (broadcastInDim S1x1 ![1] bcast_S1_S1x1_1),
    TRef.unary φ.v8 φ.v9 (broadcastInDim S524416x1 ![0, 1] bcast_S1x1_S524416x1_0_1),
    TRef.binary φ.v5 φ.v9 φ.v10 (cmpi .sle),
    TRef.binary φ.v7 φ.v10 φ.v11 andi,
    TRef.nullary φ.c_3 (constantI S_ 1 1#1),
    TRef.binary φ.v11 φ.c_3 φ.v12 (fun x v => Host.reduce IntOp.andi x v reducesTo_S524416x1_S524416_d1 h_S_),
    TRef.binary arg0 φ.v5 φ.v13 (fun x i => Host.gather gather_S100000x128_S524416x1_S524416x128_1_0_n_n_0_1_1128 x i),
    TRef.unary φ.v12 φ.v14 (broadcastInDim S524416x128 ![0] bcast_S524416_S524416x128_0),
    TRef.nullary φ.cst (constant S_ .f32 0x7FC00000#32),
    TRef.unary φ.cst φ.v15 (broadcastInDim S524416x128 ![] bcast_S_S524416x128),
    TRef.ternary φ.v14 φ.v13 φ.v15 φ.v16 select ]

abbrev take0Ops (arg0 : TRef sig ⟨S100000x128, .f32⟩) (arg1 : TRef sig ⟨S128, .i32⟩)
    (φ : fn_take_0.Bufs) : List (HloOp τ sig (Elt F)) :=
  [ TRef.nullary φ.c (constantI S_ 32 0#32),
    TRef.unary φ.c φ.v0 (broadcastInDim S128 ![] bcast_S_S128),
    TRef.binary arg1 φ.v0 φ.v1 (cmpi .slt),
    TRef.nullary φ.c_0 (constantI S_ 32 100000#32),
    TRef.unary φ.c_0 φ.v2 (broadcastInDim S128 ![] bcast_S_S128),
    TRef.binary arg1 φ.v2 φ.v3 addi,
    TRef.ternary φ.v1 φ.v3 arg1 φ.call0.v0 select,
    TRef.unary φ.call0.v0 φ.v5 (broadcastInDim S128x1 ![0] bcast_S128_S128x1_0),
    TRef.nullary φ.c_1 (constantI S1 32 99999#32),
    TRef.nullary φ.c_2 (constantI S_ 32 0#32),
    TRef.unary φ.c_2 φ.v6 (broadcastInDim S128x1 ![] bcast_S_S128x1),
    TRef.binary φ.v5 φ.v6 φ.v7 (cmpi .sge),
    TRef.unary φ.c_1 φ.v8 (broadcastInDim S1x1 ![1] bcast_S1_S1x1_1),
    TRef.unary φ.v8 φ.v9 (broadcastInDim S128x1 ![0, 1] bcast_S1x1_S128x1_0_1),
    TRef.binary φ.v5 φ.v9 φ.v10 (cmpi .sle),
    TRef.binary φ.v7 φ.v10 φ.v11 andi,
    TRef.nullary φ.c_3 (constantI S_ 1 1#1),
    TRef.binary φ.v11 φ.c_3 φ.v12 (fun x v => Host.reduce IntOp.andi x v reducesTo_S128x1_S128_d1 h_S_),
    TRef.binary arg0 φ.v5 φ.v13 (fun x i => Host.gather gather_S100000x128_S128x1_S128x128_1_0_n_n_0_1_1128 x i),
    TRef.unary φ.v12 φ.v14 (broadcastInDim S128x128 ![0] bcast_S128_S128x128_0),
    TRef.nullary φ.cst (constant S_ .f32 0x7FC00000#32),
    TRef.unary φ.cst φ.v15 (broadcastInDim S128x128 ![] bcast_S_S128x128),
    TRef.ternary φ.v14 φ.v13 φ.v15 φ.v16 select ]

def s0 : List (HloOp τ sig (Elt F)) :=
  [ reshape main_arg3 main_v0 rfl shapeCasts_S128x4097_S524416 ]
def s1 : List (HloOp τ sig (Elt F)) := takeOps (.of main_arg4) (.of main_v0) main_call0 ++
  [ reshape main_v1 main_v2 rfl shapeCasts_S524416x128_S128x4097x128,
    binary main_v2 main_arg1 main_v3 (fun l r => Host.dotGeneral dot_S128x4097x128_S128x128_S128x4097_2_1_1_n_0_0 none l r),
    nullary main_cst (constant S_ .f32 0x3D8F5C29#32),
    unary main_cst main_v4 (broadcastInDim S128x4097 ![] bcast_S_S128x4097),
    binary main_v3 main_v4 main_v5 Host.divf,
    unary main_v5 main_v6 Host.exp ]
def s2 : List (HloOp τ sig (Elt F)) := takeOps (.of main_arg5) (.of main_v0) main_call1 ++
  [ reshape main_v7 main_v8 rfl shapeCasts_S524416x128_S128x4097x128,
    binary main_v8 main_arg0 main_v9 (fun l r => Host.dotGeneral dot_S128x4097x128_S128x128_S128x4097_2_1_1_n_0_0 none l r),
    nullary main_cst_0 (constant S_ .f32 0x3D8F5C29#32),
    unary main_cst_0 main_v10 (broadcastInDim S128x4097 ![] bcast_S_S128x4097),
    binary main_v9 main_v10 main_v11 Host.divf,
    unary main_v11 main_v12 Host.exp ]
def s3 : List (HloOp τ sig (Elt F)) :=
  [ nullary main_cst_1 (constant S_ .f32 0x00000000#32),
    binary main_v12 main_cst_1 main_v13 (fun x v => Host.reduceAdd x v reducesTo_S128x4097_S_d0_1 h_S_),
    nullary main_cst_2 (constant S_ .f32 0x49000800#32),
    binary main_v13 main_cst_2 main_v14 Host.divf,
    nullary main_cst_3 (constant S_ .f32 0x47C35000#32),
    binary main_v14 main_cst_3 main_v15 mulf,
    nullary main_cst_4 (constant S_ .f32 0x00000000#32),
    binary main_v6 main_cst_4 main_v16 (fun x v => Host.reduceAdd x v reducesTo_S128x4097_S_d0_1 h_S_),
    nullary main_cst_5 (constant S_ .f32 0x49000800#32),
    binary main_v16 main_cst_5 main_v17 Host.divf,
    nullary main_cst_6 (constant S_ .f32 0x47C35000#32),
    binary main_v17 main_cst_6 main_v18 mulf,
    unary main_v15 main_v19 (broadcastInDim S128x4097 ![] bcast_S_S128x4097),
    binary main_v12 main_v19 main_v20 Host.divf,
    unary main_v18 main_v21 (broadcastInDim S128x4097 ![] bcast_S_S128x4097),
    binary main_v6 main_v21 main_v22 Host.divf ]
def s4 : List (HloOp τ sig (Elt F)) := take0Ops (.of main_arg4) (.of main_arg2) main_call2 ++
  [ nullary main_cst_7 (constant S_ .f32 0x3F000000#32),
    unary main_cst_7 main_v24 (broadcastInDim S128x128 ![] bcast_S_S128x128),
    binary main_v23 main_v24 main_v25 mulf,
    nullary main_cst_8 (constant S_ .f32 0x3F000000#32),
    unary main_cst_8 main_v26 (broadcastInDim S128x128 ![] bcast_S_S128x128),
    binary main_arg0 main_v26 main_v27 mulf,
    binary main_v25 main_v27 main_v28 addf,
    binary main_v28 main_v28 main_v29 mulf,
    nullary main_cst_9 (constant S_ .f32 0x00000000#32),
    binary main_v29 main_cst_9 main_v30 (fun x v => Host.reduceAdd x v reducesTo_S128x128_S128_d1 h_S_),
    unary main_v30 main_v31 (broadcastInDim S128x1 ![0] bcast_S128_S128x1_0),
    unary main_v31 main_v32 Host.sqrt,
    unary main_v32 main_v33 (broadcastInDim S128x128 ![0, 1] bcast_S128x1_S128x128_0_1),
    binary main_v28 main_v33 main_v34 Host.divf,
    nullary main_c (constantI S_ 32 0#32),
    unary main_c main_v35 (broadcastInDim S128 ![] bcast_S_S128),
    binary main_arg2 main_v35 main_v36 (cmpi .slt),
    nullary main_c_10 (constantI S_ 32 100000#32),
    unary main_c_10 main_v37 (broadcastInDim S128 ![] bcast_S_S128),
    binary main_arg2 main_v37 main_v38 addi,
    ternary main_v36 main_v38 main_arg2 main_v39 select,
    unary main_v39 main_v40 (broadcastInDim S128x1 ![0] bcast_S128_S128x1_0),
    ternary main_arg4 main_v40 main_v34 main_v41 (fun x i u => Host.scatter scatter_S100000x128_S128x1_S128x128_1_0_0_1 (fun _ b => b) x i u) ]
def s5a : List (HloOp τ sig (Elt F)) := take0Ops (.of main_arg5) (.of main_arg2) main_call3 ++
  [ nullary main_cst_11 (constant S_ .f32 0x3F000000#32),
    unary main_cst_11 main_v43 (broadcastInDim S128x128 ![] bcast_S_S128x128),
    binary main_v42 main_v43 main_v44 mulf,
    nullary main_cst_12 (constant S_ .f32 0x3F000000#32) ]
def s5b : List (HloOp τ sig (Elt F)) :=
  [ unary main_cst_12 main_v45 (broadcastInDim S128x128 ![] bcast_S_S128x128),
    binary main_arg1 main_v45 main_v46 mulf,
    binary main_v44 main_v46 main_v47 addf,
    binary main_v47 main_v47 main_v48 mulf,
    nullary main_cst_13 (constant S_ .f32 0x00000000#32),
    binary main_v48 main_cst_13 main_v49 (fun x v => Host.reduceAdd x v reducesTo_S128x128_S128_d1 h_S_),
    unary main_v49 main_v50 (broadcastInDim S128x1 ![0] bcast_S128_S128x1_0),
    unary main_v50 main_v51 Host.sqrt,
    unary main_v51 main_v52 (broadcastInDim S128x128 ![0, 1] bcast_S128x1_S128x128_0_1),
    binary main_v47 main_v52 main_v53 Host.divf,
    nullary main_c_14 (constantI S_ 32 0#32),
    unary main_c_14 main_v54 (broadcastInDim S128 ![] bcast_S_S128),
    binary main_arg2 main_v54 main_v55 (cmpi .slt),
    nullary main_c_15 (constantI S_ 32 100000#32),
    unary main_c_15 main_v56 (broadcastInDim S128 ![] bcast_S_S128),
    binary main_arg2 main_v56 main_v57 addi,
    ternary main_v55 main_v57 main_arg2 main_v58 select,
    unary main_v58 main_v59 (broadcastInDim S128x1 ![0] bcast_S128_S128x1_0),
    ternary main_arg5 main_v59 main_v53 main_v60 (fun x i u => Host.scatter scatter_S100000x128_S128x1_S128x128_1_0_0_1 (fun _ b => b) x i u) ]
def s5 : List (HloOp τ sig (Elt F)) := s5a ++ s5b
def s6 : List (HloOp τ sig (Elt F)) :=
  [ unary main_v20 main_v61 (extractStridedSlice S128x1 ![0, 0] · slices_S128x4097_S128x1_0_0),
    reshape main_v61 main_v62 rfl shapeCasts_S128x1_S128,
    nullary main_cst_16 (constant S_ .f32 0x3D27C5AC#32),
    unary main_cst_16 main_v63 (broadcastInDim S128 ![] bcast_S_S128),
    binary main_v62 main_v63 main_v64 addf,
    nullary main_cst_17 (constant S_ .f32 0x33D6BF95#32),
    unary main_cst_17 main_v65 (broadcastInDim S128 ![] bcast_S_S128),
    binary main_v64 main_v65 main_v66 addf,
    binary main_v62 main_v66 main_v67 Host.divf,
    unary main_v67 main_v68 Host.log,
    unary main_v20 main_v69 (extractStridedSlice S128x4096 ![0, 1] · slices_S128x4097_S128x4096_0_1),
    nullary main_cst_18 (constant S_ .f32 0x3D27C5AC#32),
    unary main_cst_18 main_v70 (broadcastInDim S128x4096 ![] bcast_S_S128x4096),
    binary main_v69 main_v70 main_v71 addf,
    nullary main_cst_19 (constant S_ .f32 0x33D6BF95#32),
    unary main_cst_19 main_v72 (broadcastInDim S128x4096 ![] bcast_S_S128x4096),
    binary main_v71 main_v72 main_v73 addf,
    nullary main_cst_20 (constant S_ .f32 0x3D27C5AC#32),
    unary main_cst_20 main_v74 (broadcastInDim S128x4096 ![] bcast_S_S128x4096),
    binary main_v74 main_v73 main_v75 Host.divf,
    unary main_v75 main_v76 Host.log,
    nullary main_cst_21 (constant S_ .f32 0x00000000#32),
    binary main_v68 main_cst_21 main_v77 (fun x v => Host.reduceAdd x v reducesTo_S128_S_d0 h_S_),
    nullary main_cst_22 (constant S_ .f32 0x00000000#32),
    binary main_v76 main_cst_22 main_v78 (fun x v => Host.reduceAdd x v reducesTo_S128x4096_S_d0_1 h_S_),
    binary main_v77 main_v78 main_v79 addf,
    unary main_v79 main_v80 Host.negf,
    nullary main_cst_23 (constant S_ .f32 0x43000000#32),
    binary main_v80 main_cst_23 main_v81 Host.divf ]
def s7a : List (HloOp τ sig (Elt F)) :=
  [ unary main_v22 main_v82 (extractStridedSlice S128x1 ![0, 0] · slices_S128x4097_S128x1_0_0),
    reshape main_v82 main_v83 rfl shapeCasts_S128x1_S128,
    nullary main_cst_24 (constant S_ .f32 0x3D27C5AC#32),
    unary main_cst_24 main_v84 (broadcastInDim S128 ![] bcast_S_S128),
    binary main_v83 main_v84 main_v85 addf,
    nullary main_cst_25 (constant S_ .f32 0x33D6BF95#32),
    unary main_cst_25 main_v86 (broadcastInDim S128 ![] bcast_S_S128),
    binary main_v85 main_v86 main_v87 addf,
    binary main_v83 main_v87 main_v88 Host.divf,
    unary main_v88 main_v89 Host.log,
    unary main_v22 main_v90 (extractStridedSlice S128x4096 ![0, 1] · slices_S128x4097_S128x4096_0_1),
    nullary main_cst_26 (constant S_ .f32 0x3D27C5AC#32) ]
def s7b : List (HloOp τ sig (Elt F)) :=
  [ unary main_cst_26 main_v91 (broadcastInDim S128x4096 ![] bcast_S_S128x4096),
    binary main_v90 main_v91 main_v92 addf,
    nullary main_cst_27 (constant S_ .f32 0x33D6BF95#32),
    unary main_cst_27 main_v93 (broadcastInDim S128x4096 ![] bcast_S_S128x4096),
    binary main_v92 main_v93 main_v94 addf,
    nullary main_cst_28 (constant S_ .f32 0x3D27C5AC#32),
    unary main_cst_28 main_v95 (broadcastInDim S128x4096 ![] bcast_S_S128x4096),
    binary main_v95 main_v94 main_v96 Host.divf,
    unary main_v96 main_v97 Host.log,
    nullary main_cst_29 (constant S_ .f32 0x00000000#32),
    binary main_v89 main_cst_29 main_v98 (fun x v => Host.reduceAdd x v reducesTo_S128_S_d0 h_S_),
    nullary main_cst_30 (constant S_ .f32 0x00000000#32),
    binary main_v97 main_cst_30 main_v99 (fun x v => Host.reduceAdd x v reducesTo_S128x4096_S_d0_1 h_S_),
    binary main_v98 main_v99 main_v100 addf,
    unary main_v100 main_v101 Host.negf,
    nullary main_cst_31 (constant S_ .f32 0x43000000#32),
    binary main_v101 main_cst_31 main_v102 Host.divf ]
def s7 : List (HloOp τ sig (Elt F)) := s7a ++ s7b
def s8 : List (HloOp τ sig (Elt F)) :=
  [ binary main_v81 main_v102 main_v103 addf,
    reshape main_v103 main_v104 rfl shapeCasts_S_S1 ]

set_option maxRecDepth 4096 in

theorem take_eq (arg0 : TRef sig ⟨S100000x128, .f32⟩) (arg1 : TRef sig ⟨S524416, .i32⟩) (φ : fn_take.Bufs) :
    fn_take.body (F := F) arg0 arg1 φ = seq (takeOps arg0 arg1 φ) := by
  simp only [fn_take.body, fn_where.body, seq, bind_assoc, pure_bind]

set_option maxRecDepth 4096 in

theorem take0_eq (arg0 : TRef sig ⟨S100000x128, .f32⟩) (arg1 : TRef sig ⟨S128, .i32⟩) (φ : fn_take_0.Bufs) :
    fn_take_0.body (F := F) arg0 arg1 φ = seq (take0Ops arg0 arg1 φ) := by
  simp only [fn_take_0.body, fn_where_1.body, seq, bind_assoc, pure_bind]

def ops : List (HloOp τ sig (Elt F)) := s0 ++ (s1 ++ (s2 ++ (s3 ++ (s4 ++ (s5 ++ (s6 ++ (s7 ++ s8)))))))

def w0 : List (HloOp τ sig (Elt F)) := s0 ++ (s1 ++ (s2 ++ (s3 ++ (s4 ++ s5a))))
def w1 : List (HloOp τ sig (Elt F)) := s5b ++ (s6 ++ s7a)
def w2 : List (HloOp τ sig (Elt F)) := s7b ++ s8

set_option maxRecDepth 16384 in
set_option maxHeartbeats 4000000 in
theorem part0_eq (c : Dev nD) : main_part0 (F := F) c = seq w0 := by
  simp only [main_part0, take_eq, take0_eq, w0, s0, s1, s2, s3, s4, s5a, seq_append, seq, bind_assoc, pure_bind]
  rfl

set_option maxRecDepth 16384 in
set_option maxHeartbeats 4000000 in
theorem part1_eq (c : Dev nD) : main_part1 (F := F) c = seq w1 := by
  simp only [main_part1, w1, s5b, s6, s7a, seq_append, seq, bind_assoc, pure_bind]
  rfl

set_option maxRecDepth 16384 in
set_option maxHeartbeats 4000000 in
theorem part2_eq (c : Dev nD) : main_part2 (F := F) c = seq w2 := by
  simp only [main_part2, w2, s7b, s8, seq_append, seq, bind_assoc, pure_bind]
  rfl

theorem main_eq (c : Dev nD) : main (F := F) c = seq ops := by
  have h : (ops : List (HloOp τ sig (Elt F))) = w0 ++ (w1 ++ w2) := by
    simp only [ops, w0, w1, w2, s5, s7, List.append_assoc]
  rw [h, seq_append, seq_append, main, part0_eq, part1_eq, part2_eq]

abbrev Lo (a : Nat) (l : List (HloOp τ sig (Elt F))) : Prop :=
  l.Forall fun op => ∃ y : Ref sig .tc, a ≤ y.idx.1 ∧ op.writes = {Proc.devRef (τ := τ) .tc y}

-- A reference numbered below every reference a line writes keeps its contents through the line.
theorem keep {a : Nat} {l : List (HloOp τ sig (Elt F))} (h : Lo a l) (V : Valuation τ sig (Elt F))
    {r : Ref sig .tc} (hr : r.idx.1 < a) :
    after l V (no_index (Proc.devRef .tc r)) = V (Proc.devRef .tc r) :=
  after_of_forall_not_mem l V fun op hop hb => by
    obtain ⟨y, hy, he⟩ := List.forall_iff_forall_mem.mp h op hop
    rw [he, Finset.mem_singleton] at hb
    cases Proc.devRef_injective _ hb
    exact Nat.not_lt.mpr hy hr

theorem los : Lo 6 (s0 (F := F)) ∧ Lo 7 (s1 (F := F)) ∧ Lo 36 (s2 (F := F)) ∧ Lo 65 (s3 (F := F)) ∧ Lo 81 (s4 (F := F))
    ∧ Lo 127 (s5 (F := F)) ∧ Lo 173 (s6 (F := F)) ∧ Lo 202 (s7 (F := F)) ∧ Lo 231 (s8 (F := F)) := by
  repeat' (first | exact ⟨_, by decide, rfl⟩ | refine ⟨?_, ?_⟩)

theorem ofBuf_toBuf {T : BufTy} (x : TRef sig T) (v : T.Contents (Elt F)) : x.ofBuf (x.toBuf v) = v := by
  obtain ⟨r, rfl, _, _⟩ := x; rfl

section
attribute [local irreducible] Host.reduce Host.gather Host.scatter Host.reduceAdd
set_option maxRecDepth 16384
set_option maxHeartbeats 1000000

theorem out0 (V : Valuation τ sig (Elt F)) :
    after s0 V (no_index (Proc.devRef .tc main_v0)) = idxT (V (Proc.devRef .tc main_arg3)) := by
  simp only [s0]
  after_results_simp
  rfl

theorem out1 (V : Valuation τ sig (Elt F)) :
    after s1 V (no_index (Proc.devRef .tc main_v6)) = simT (V (Proc.devRef .tc main_arg4)) (V (Proc.devRef .tc main_v0)) (V (Proc.devRef .tc main_arg1)) := by
  simp only [s1, takeOps, after_append]
  after_results_simp
  try simp only [ofBuf_toBuf, cast_eq]
  rfl

theorem out2 (V : Valuation τ sig (Elt F)) :
    after s2 V (no_index (Proc.devRef .tc main_v12)) = simT (V (Proc.devRef .tc main_arg5)) (V (Proc.devRef .tc main_v0)) (V (Proc.devRef .tc main_arg0)) := by
  simp only [s2, takeOps, after_append]
  after_results_simp
  try simp only [ofBuf_toBuf, cast_eq]
  rfl

theorem out3 (V : Valuation τ sig (Elt F)) :
    after s3 V (no_index (Proc.devRef .tc main_v20)) = normT (V (Proc.devRef .tc main_v12))
    ∧ after s3 V (no_index (Proc.devRef .tc main_v22)) = normT (V (Proc.devRef .tc main_v6)) := by
  simp only [s3]
  after_results_simp
  exact ⟨rfl, rfl⟩

theorem out4 (V : Valuation τ sig (Elt F)) :
    after s4 V (no_index (Proc.devRef .tc main_v41)) = mvT (V (Proc.devRef .tc main_arg4)) (V (Proc.devRef .tc main_arg0)) (V (Proc.devRef .tc main_arg2)) := by
  simp only [s4, take0Ops, after_append]
  after_results_simp
  try simp only [ofBuf_toBuf, cast_eq]
  rfl

theorem out5 (V : Valuation τ sig (Elt F)) :
    after s5 V (no_index (Proc.devRef .tc main_v60)) = mvT (V (Proc.devRef .tc main_arg5)) (V (Proc.devRef .tc main_arg1)) (V (Proc.devRef .tc main_arg2)) := by
  simp only [s5, s5a, s5b, take0Ops, after_append]
  after_results_simp
  try simp only [ofBuf_toBuf, cast_eq]
  rfl

theorem out6 (V : Valuation τ sig (Elt F)) :
    after s6 V (no_index (Proc.devRef .tc main_v81)) = nceT (V (Proc.devRef .tc main_v20)) := by
  simp only [s6]
  after_results_simp
  rfl

theorem out7 (V : Valuation τ sig (Elt F)) :
    after s7 V (no_index (Proc.devRef .tc main_v102)) = nceT (V (Proc.devRef .tc main_v22)) := by
  simp only [s7, s7a, s7b, after_append]
  after_results_simp
  rfl

theorem out8 (V : Valuation τ sig (Elt F)) :
    after s8 V (no_index (Proc.devRef .tc main_v104)) = fun i => shapeCast S1 (addf (V (Proc.devRef .tc main_v81)) (V (Proc.devRef .tc main_v102))) shapeCasts_S_S1 i := by
  simp only [s8]
  after_results_simp
  rfl

end

theorem ops_sub : (ops (F := F)).Forall fun op => op.bufs ⊆ tcRefs τ sig := by
  simp only [ops, s0, s1, s2, s3, s4, s5, s5a, s5b, s6, s7, s7a, s7b, s8, List.forall_append, List.Forall, nullary_bufs_sub, unary_bufs_sub,
    binary_bufs_sub, ternary_bufs_sub, reshape_bufs_sub, and_self]

set_option maxRecDepth 16384 in
theorem scopedRefs_eq : (Finset.univ.filter fun b : Ref sig .tc => b.isScoped) = ∅ := by decide
theorem scopedSems_eq : (Finset.univ.filter fun sm : SemLoc sig => sm.isScoped .tc) = ∅ := by decide

theorem run (m : (ℓ : Loc nD τ sig) → Buf (Elt F) ℓ) (ρ : Dev nD → PrngReg) :
    θ_run (defs (F := F)) (onTc (τ := τ) (main (F := F))) ⟨m, fun _ => 0, ρ⟩ fun r => ∀ c : Dev nD,
      r.2.mem ((c.tc : Thread nD τ).loc main_v104) = lossT (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_v41) = mv1T (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_v60) = mv2T (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => by
      obtain ⟨l0, l1, l2, l3, l4, l5, l6, l7, l8⟩ := los (F := F)
      simp (disch := decide) only [h c, ops, after_append, out0, out1, out2, out3, out4, out5, out6, out7, out8,
        keep l0, keep l1, keep l2, keep l3, keep l4, keep l5, keep l6, keep l7, keep l8, and_true, and_self]
      and_intros <;> rfl)
    (run_seq scopedRefs_eq scopedSems_eq defs main (fun _ => ops) main_eq (fun _ => ops_sub) m ρ)

theorem frame_ri : Cert.frame_ReferenceIdeal := fun m g _ =>
  (θ_run _ _ _).mono (fun _ h c => (h c).2.2.2) (run m g)

end Cert.Proof.A

end
-- ==== Proof.KICommon.lean ====
import proofs.«204933_g4492535792355_cont_8to1_c_766_42_alg».proof.Defs
import Idealize.ShloMosaic.Lib.SparseCore.Launch
import Idealize.ShloMosaic.Lib.SparseCore.Ops
import Idealize.ShloMosaic.Lib.StableHlo.Run
import Idealize.ShloMosaic.Lib.Pipeline.Regions
import Idealize.ShloMosaic.Lib.Tactic
import proofs.«204933_g4492535792355_cont_8to1_c_766_42_alg».proof.Proof.Gen.KernelIdeal.Launch

noncomputable section

namespace Cert.Proof.KI

open Cert.KernelIdeal Cert.KernelIdeal.Gen

open Idealize.ShloMosaic
open Idealize.ShloMosaic.SparseCore (V)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

abbrev ΛP [FloatOps F] [Named F] : Labels := Pipeline.Sig Λ₀ (Fin 2) fun p => (pcfgs (F := F) p).Adm
abbrev K [FloatOps F] [Named F] : SparseCore.Cfg τ sig (ΛP (F := F)) 2 := sc (F := F)
abbrev D [FloatOps F] [Named F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts [FloatOps F] [Named F] : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev UH : Type := URounds (GSem nD τ sig) ℕ
abbrev UP : Type := URounds (GSem nD τ sig) Unit

abbrev adm [FloatOps F] [Named F] : (p : Fin 2) → (pcfgs (F := F) p).Adm := fun p => (cfgs p).toPCfg_adm

end Cert.Proof.KI

end
-- ==== Proof.LibScRegion.lean ====
import Idealize.ShloMosaic.Lib.SparseCore.Launch
import Idealize.ShloMosaic.Lib.Pipeline.Regions

set_option Elab.async false

noncomputable section

namespace Idealize.ShloMosaic.SparseCore.Cfg

open Idealize.SL Idealize.SL.RA Idealize.SL.BI
open scoped Idealize.SL.BI
open Idealize.SL.BI.BIBase Idealize.SL.BI.Laws Idealize.SL.ProofMode Idealize.SL.Sem
open Idealize.ShloMosaic.Rounds

variable {nD : Nat} {τ : Topo} {sig : RefSig} {Val : EltTy → Type} {Q : Nat}
variable {Name : Type} [DecidableEq Name] {U : Type} [URA U]
variable {Λ₀ : SL.Sem.Labels} {P : Type} [Fintype P]

local notation "𝕄" => MT nD τ sig (HIx Q) Val Name U ℕ

variable (pcs : P → Pipeline.PCfg sig Λ₀ Val) (a : (p : P) → (pcs p).Adm)
variable (K : Cfg τ sig (Pipeline.Sig Λ₀ P fun p => (pcs p).Adm) Q)
variable (pdats : (p : P) → (c : Dev nD) → Pipeline.Dat τ Val (HIx Q) Name U ℕ (Pipeline.pin pcs a p) c)
variable (phinj : Function.Injective (Pipeline.cellOf (nD := nD) (Pipeline.pin pcs a)))
variable (EP : Emb (URounds (GSem nD τ sig) Unit) (MT nD τ sig (HIx Q) Val Name U ℕ))
variable (defs₀ : Defs nD τ sig Val Λ₀) (𝒱₀ : Variants)
variable (L : GSem nD τ sig → Finset (HIx Q)) (lv : GSem nD τ sig → HIx Q → ℕ)

include phinj in

theorem wp_region_lifted [∀ e, Nonempty (Val e)] [Infinite Name] [EP.LandsIn (upEmb : UEmb _ (MT nD τ sig (HIx Q) Val Name U ℕ))] {p : P}
    (R : Pipeline.RegionSeg pcs a pdats none defs₀ 𝒱₀ L lv p) (d : Dev nD)
    {α : Type} (k : PUnit → Prog (TpuEff nD τ sig Val (SparseCore.Sig (Pipeline.Sig Λ₀ P fun p => (pcs p).Adm) Q) .tc) α) (Φ : α → sProp 𝕄) :
    iprop((iprop(boundary (d.tc : Thread nD τ) ∗ R.post d)
            -∗ wp frame (wpE (K.defs (Pipeline.defs pcs defs₀)) (Variants.lift 𝒱₀) (d.tc : Thread nD τ) none) Set.univ (k ⟨⟩) Φ)
        ∗ boundary (d.tc : Thread nD τ) ∗ R.pre d ∗ levAts L lv
        ∗ Pipeline.cellsGhost (Pipeline.pin pcs a) EP p d ∗ Pipeline.toksInit (Pipeline.pin pcs a) EP p d)
      ⊢ wp frame (wpE (K.defs (Pipeline.defs pcs defs₀)) (Variants.lift 𝒱₀) (d.tc : Thread nD τ) none) Set.univ
          (SparseCore.liftProg (Q := Q) (Prog.lift (.customCall (Pipeline.entry p) ())) >>= k) Φ := by
  have hR := Pipeline.RegionSeg.wp pcs a pdats none phinj EP defs₀ 𝒱₀ L lv R d none
    (fun u hu => (Option.not_mem_none u hu).elim) (fun _ => (Prog.ret PUnit.unit : Prog (TpuEff nD τ sig Val (Pipeline.Sig Λ₀ P fun p => (pcs p).Adm) .tc) PUnit))
    (fun _ => wp frame (wpE (K.defs (Pipeline.defs pcs defs₀)) (Variants.lift 𝒱₀) (d.tc : Thread nD τ) none) Set.univ (k ⟨⟩) Φ)
  have hL := K.wp_liftProg (Pipeline.defs pcs defs₀) (Variants.lift 𝒱₀) (d.tc : Thread nD τ) Set.univ none
    (Prog.lift (.customCall (Pipeline.entry p) ()))
    (fun _ => wp frame (wpE (K.defs (Pipeline.defs pcs defs₀)) (Variants.lift 𝒱₀) (d.tc : Thread nD τ) none) Set.univ (k ⟨⟩) Φ)
  rw [wp_bind]
  iintro ⟨Hk, Hb, Hpre, Hlv, Hg, Ht⟩
  iapply hL
  iapply hR
  isplitl [Hk]
  · iintro H
    rw [wp_ret]; imodintro
    iapply Hk; iexact H
  isplitl [Hb]; · iexact Hb
  isplitl [Hpre]; · iexact Hpre
  isplitl [Hlv]; · iexact Hlv
  isplitl [Hg]; · iexact Hg
  iexact Ht

theorem cellsWaits_none (p : P) (hO : ∀ c t g, (pdats p c).owed t g none = 0) (hlv : K.Refines lv) (c : Dev nD) :
    (levAts K.L lv : sProp 𝕄) ⊢ Pipeline.cellsWaits (Pipeline.pin pcs a) pdats none p c :=
  Pipeline.cellsWaits_intro (Pipeline.pin pcs a) pdats none p c fun w s t =>
    K.mayWait_none (thr := (c.tc : Thread nD τ)) (.dma (((Pipeline.pin pcs a p).win w).sem s)) (hO c t) lv hlv

variable (EH : Emb (URounds (GSem nD τ sig) ℕ) (MT nD τ sig (HIx Q) Val Name U ℕ))
variable (Pay₀ : K.Pay (nD := nD) (Val := Val) (Name := Name) (U := U))

include phinj in

theorem wp_region_tcSt [∀ e, Nonempty (Val e)] [Infinite Name] [EP.LandsIn (upEmb : UEmb _ (MT nD τ sig (HIx Q) Val Name U ℕ))] {p : P}
    (R : Pipeline.RegionSeg pcs a pdats none defs₀ 𝒱₀ K.L K.lev p) (d : Dev nD) (n : ℕ)
    (Win Wout : sProp 𝕄) (wp' : Set (SemLoc sig × HIx Q)) (hwp : ∀ x ∈ wp', x.2 = none)
    (hpre : iprop(Win ∗ Pipeline.owesWithin d (K.Otc d n) {x | K.lev ((d.tc : Thread nD τ), x.1) x.2 ≤ 8 * n}) ⊢ R.pre d)
    (hpost : R.post d ⊢ iprop(Wout ∗ Pipeline.owesWithin d (K.Otc d n) ({x | K.lev ((d.tc : Thread nD τ), x.1) x.2 ≤ 8 * n} ∪ wp')))
    {α : Type} (k : PUnit → Prog (TpuEff nD τ sig Val (SparseCore.Sig (Pipeline.Sig Λ₀ P fun p => (pcs p).Adm) Q) .tc) α) (Φ : α → sProp 𝕄) :
    iprop((iprop(boundary (d.tc : Thread nD τ) ∗ Wout ∗ K.tcSt EH d n)
            -∗ wp frame (wpE (K.defs (Pipeline.defs pcs defs₀)) (Variants.lift 𝒱₀) (d.tc : Thread nD τ) none) Set.univ (k ⟨⟩) Φ)
        ∗ boundary (d.tc : Thread nD τ) ∗ Win ∗ K.tcSt EH d n ∗ levAts K.L K.lev
        ∗ Pipeline.cellsGhost (Pipeline.pin pcs a) EP p d ∗ Pipeline.toksInit (Pipeline.pin pcs a) EP p d)
      ⊢ wp frame (wpE (K.defs (Pipeline.defs pcs defs₀)) (Variants.lift 𝒱₀) (d.tc : Thread nD τ) none) Set.univ
          (SparseCore.liftProg (Q := Q) (Prog.lift (.customCall (Pipeline.entry p) ())) >>= k) Φ := by
  unfold tcSt
  iintro ⟨Hk, Hb, Hwin, ⟨⟨%W, %hW, HO⟩, Hrest⟩, Hlv, Hg, Ht⟩
  iapply (wp_region_lifted pcs a K pdats phinj EP defs₀ 𝒱₀ K.L K.lev R d k Φ)
  isplitl [Hk Hrest]
  · iintro ⟨Hb, Hpost⟩
    ihave H2 := hpost $$ Hpost
    icases H2 with ⟨Hwout, %W', %hW', HO⟩
    iapply Hk
    isplitl [Hb]; · iexact Hb
    isplitl [Hwout]; · iexact Hwout
    isplitl [HO]
    · iexists W'; isplitr
      · ipureintro
        intro x hx
        rcases hW' hx with h | h
        · exact h
        · show K.lev ((d.tc : Thread nD τ), x.1) x.2 ≤ 8 * n
          rw [hwp x h]; exact Nat.zero_le _
      · iexact HO
    iexact Hrest
  isplitl [Hb]; · iexact Hb
  isplitl [Hwin HO]
  · iapply hpre
    isplitl [Hwin]; · iexact Hwin
    iexists W; isplitr
    · ipureintro; exact fun x hx => hW x hx
    · iexact HO
  isplitl [Hlv]; · iexact Hlv
  isplitl [Hg]; · iexact Hg
  iexact Ht

theorem Otc_none (d : Dev nD) (n : ℕ) (g : GSem nD τ sig) : K.Otc d n g none = 0 := by
  unfold Otc
  rw [Finset.sum_apply, Finsupp.finset_sum_apply]
  refine Finset.sum_eq_zero fun q _ => ?_
  split
  · rw [Finset.sum_apply, Finsupp.finset_sum_apply]
    refine Finset.sum_eq_zero fun c _ => ?_
    unfold tallyAt tallyOn
    by_cases h : g = K.startCell d (K.core q c)
    · subst h; rw [Pi.single_eq_same, Finsupp.single_apply, if_neg (by simp)]
    · rw [Pi.single_eq_of_ne h]; rfl
  · rfl

variable (D : Defs nD τ sig Val (Pipeline.Sig Λ₀ P fun p => (pcs p).Adm)) (𝒱 : Variants)

theorem wp_host_step (d : Dev nD) (op : HloOp τ sig Val) {S : Finset (DevRef τ sig)} (hS : op.bufs ⊆ S) (hf : op.fresh = ∅)
    (V : Valuation τ sig Val) {α : Type}
    (k : PUnit → Prog (TpuEff nD τ sig Val (SparseCore.Sig (Pipeline.Sig Λ₀ P fun p => (pcs p).Adm) Q) .tc) α) (Φ : α → sProp 𝕄) :
    iprop(boundary (d.tc : Thread nD τ) ∗ (StableHlo.held (d.tc : Thread nD τ) S V : sProp 𝕄)
        ∗ (iprop(boundary (d.tc : Thread nD τ) ∗ (StableHlo.held (d.tc : Thread nD τ) S (op.result V) : sProp 𝕄))
            -∗ wp frame (wpE (K.defs D) 𝒱 (d.tc : Thread nD τ) none) Set.univ (k ⟨⟩) Φ))
      ⊢ wp frame (wpE (K.defs D) 𝒱 (d.tc : Thread nD τ) none) Set.univ
          ((hlo (p := .tc) rfl op fun _ => Prog.ret PUnit.unit) >>= k) Φ := by
  rw [wp_bind]
  iintro ⟨Hb, Hh, Hk⟩
  iapply (StableHlo.wp_hlo_within 𝒱 (d.tc : Thread nD τ) none Set.univ hS (hf := hf)) $$ [Hb Hh]
  · isplitl [Hb]; · iexact Hb
    iexact Hh
  iintro H
  rw [wp_ret]; imodintro
  iapply Hk; iexact H

theorem wp_run_held (κ : GSem nD τ sig → Name) (d : Dev nD) (q : Fin Q) (S : Finset (DevRef τ sig)) (V V' : Valuation τ sig Val)
    (Inv : sProp 𝕄) [BI.Persistent Inv]
    (hsplit : iprop(Inv ∗ (StableHlo.held (d.tc : Thread nD τ) S V : sProp 𝕄))
      ⊢ iprop(|={Set.univ}=> ((bigSep Finset.univ fun c : Fin (K.nCore q) => Pay₀.st q d c)
          ∗ ((bigSep Finset.univ fun c : Fin (K.nCore q) => Pay₀.dn q d c) -∗ |={Set.univ}=> (StableHlo.held (d.tc : Thread nD τ) S V' : sProp 𝕄)))))
    {α : Type} (k : PUnit → Prog (TpuEff nD τ sig Val (SparseCore.Sig (Pipeline.Sig Λ₀ P fun p => (pcs p).Adm) Q) .tc) α) (Φ : α → sProp 𝕄) :
    iprop(K.ctx EH Pay₀ κ ∗ Inv ∗ K.tcSt EH d q.val ∗ (StableHlo.held (d.tc : Thread nD τ) S V : sProp 𝕄)
        ∗ (iprop(K.tcSt EH d (q.val + 1) ∗ (StableHlo.held (d.tc : Thread nD τ) S V' : sProp 𝕄))
            -∗ wp frame (wpE (K.defs D) 𝒱 (d.tc : Thread nD τ) none) Set.univ (k ⟨⟩) Φ))
      ⊢ wp frame (wpE (K.defs D) 𝒱 (d.tc : Thread nD τ) none) Set.univ (K.run d q >>= k) Φ := by
  rw [wp_bind]
  iintro ⟨#Hctx, #Hinv, Hst, Hheld, Hk⟩
  imod hsplit $$ [Hheld] with ⟨Hs, Hback⟩
  · isplitr; · iexact Hinv
    iexact Hheld
  iapply (K.wp_run D 𝒱 (EH := EH) (P := Pay₀) κ d q) $$ [Hst Hs Hk Hback]
  isplitr; · iexact Hctx
  isplitl [Hst]; · iexact Hst
  isplitl [Hs]; · iexact Hs
  iintro ⟨Hst, Hdn⟩
  imod Hback $$ Hdn with Hh'
  iapply Hk
  isplitl [Hst]; · iexact Hst
  iexact Hh'

end Idealize.ShloMosaic.SparseCore.Cfg

end
-- ==== Proof.RegionB.lean ====
import proofs.«204933_g4492535792355_cont_8to1_c_766_42_alg».proof.Proof.Gen.KernelIdeal.Launch
import proofs.«204933_g4492535792355_cont_8to1_c_766_42_alg».proof.Proof.Gen.KernelIdeal.Skeleton
import proofs.«204933_g4492535792355_cont_8to1_c_766_42_alg».proof.Proof.Gen.KernelIdeal.Points
import Idealize.ShloMosaic.Lib.Pipeline.FrameBody
import Idealize.ShloMosaic.Lib.Pipeline.Value
import Idealize.ShloMosaic.Lib.Ring
import Idealize.ShloMosaic.Lib.Tactic
import Idealize.ShloMosaic.Lib.Pipeline.RegionsLoop
import Idealize.ShloMosaic.Lib.Pipeline.FrameSuffix
import Idealize.ShloMosaic.PureOps.Ideal.Laws

noncomputable section

namespace Cert.Proof.C

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Window BodyObligationLoose)

variable {F : FTy → Type} [FloatOps F] [Named F]
variable {Ix : Type} [DecidableEq Ix] {Name : Type} [DecidableEq Name] {U : Type} [URA U] {Lvl : Type}

local notation "𝕄" => MT nD τ sig Ix (Elt F) Name U Lvl

variable [Preorder Lvl]

abbrev rS : Rect S128x128 := Rect.unit (s := S128x128) ![0, 0] S128x128.size inb_S128x128_S128x128_0_0
abbrev rI : Rect S128x1 := Rect.unit (s := S128x1) ![0, 0] S128x1.size inb_S128x1_S128x1_0_0
abbrev rB : Rect S4096x128 := Rect.unit (s := S4096x128) ![0, 0] S4096x128.size inb_S4096x128_S4096x128_0_0

abbrev r7a : Rect S256x4096 := Rect.unit (s := S256x4096) ![0, 0] S128x4096.size inb_S256x4096_S128x4096_0_0

abbrev r7b : Rect S256x4096 := Rect.unit (s := S256x4096) ![128, 0] S128x4096.size inb_S256x4096_S128x4096_128_0

theorem hz2 : (![0, 0] : Fin 2 → Nat) = fun _ => 0 := funext fun a => by fin_cases a <;> rfl

abbrev arg0Of (i : grid1.Coords) : BitVec 32 := BitVec.ofNat 32 (i 0).val

abbrev c29 : F .f32 := Scalar.ofBits .f32 0x3F800000#32
abbrev c30 : F .f32 := Scalar.ofBits .f32 0x00000000#32

def out1_7 (x0 x1 : Vec F S128x128 .f32) (X5 X6 : Vec F S4096x128 .f32) : Vec F S256x4096 .f32 :=
  View.canon [⟨r7b, k1_pay8 x1 X5⟩, ⟨r7a, k1_pay7 x0 X6⟩]

def out1_8 (i : grid1.Coords) (x0 : Vec F S128x128 .f32) (x2 : Vec F S128x1 .i32) (x3 : Vec F S128x128 .f32)
    (X5 : Vec F S4096x128 .f32) : Vec F S4096x128 .f32 :=
  k1_pay3 (arg0Of i) (k1_pay5 x0 x3) (k1_pay10 x2) (k1_pay11 x2) (k1_pay12 (F := F) (arg0Of i) x2) c29 c30 X5

def out1_9 (i : grid1.Coords) (x1 : Vec F S128x128 .f32) (x2 : Vec F S128x1 .i32) (x4 : Vec F S128x128 .f32)
    (X6 : Vec F S4096x128 .f32) : Vec F S4096x128 .f32 :=
  k1_pay4 (arg0Of i) (k1_pay6 x1 x4) (k1_pay10 x2) (k1_pay11 x2) (k1_pay12 (F := F) (arg0Of i) x2) c29 c30 X6

theorem cover1_7 (p1 p0 : Vec F S128x4096 .f32) (y : S256x4096.Idx) :
    ∃ pc ∈ ([⟨r7b, p1⟩, ⟨r7a, p0⟩] : List (View.Piece (Elt F) S256x4096 .f32)), y ∈ pc.1.set :=
  View.cover_of_tiled [⟨r7b, p1⟩, ⟨r7a, p0⟩] S128x4096.size (by rfl) y

theorem cover1_B (p0 : Vec F S4096x128 .f32) (y : S4096x128.Idx) :
    ∃ pc ∈ ([⟨rB, p0⟩] : List (View.Piece (Elt F) S4096x128 .f32)), y ∈ pc.1.set :=
  View.cover_of_tiled [⟨rB, p0⟩] S4096x128.size (by rfl) y

theorem sound_kernel1 (𝒱₀ : Variants) (c : Dev nD) (E : Set Name) (i : grid1.Coords)
    (arg1 : Memref sig .tc .vmem S128x128 .f32) (harg1 : arg1.IsWhole) (arg2 : Memref sig .tc .vmem S128x128 .f32) (harg2 : arg2.IsWhole)
    (arg3 : Memref sig .tc .vmem S128x1 .i32) (harg3 : arg3.IsWhole) (arg4 : Memref sig .tc .vmem S128x128 .f32) (harg4 : arg4.IsWhole)
    (arg5 : Memref sig .tc .vmem S128x128 .f32) (harg5 : arg5.IsWhole) (arg6 : Memref sig .tc .vmem S4096x128 .f32) (harg6 : arg6.IsWhole)
    (arg7 : Memref sig .tc .vmem S4096x128 .f32) (harg7 : arg7.IsWhole) (arg8 : Memref sig .tc .vmem S256x4096 .f32) (harg8 : arg8.IsWhole)
    (arg9 : Memref sig .tc .vmem S4096x128 .f32) (harg9 : arg9.IsWhole) (arg10 : Memref sig .tc .vmem S4096x128 .f32) (harg10 : arg10.IsWhole)
    (x0 x1 : Vec F S128x128 .f32) (x2 : Vec F S128x1 .i32) (x3 x4 : Vec F S128x128 .f32) (x5 x6 : Vec F S4096x128 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6
        ∗ (∃ d, owns (c : Thread nD τ) arg8 fullShare d) ∗ (∃ d, owns (c : Thread nD τ) arg9 fullShare d) ∗ (∃ d, owns (c : Thread nD τ) arg10 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6
            ∗ owns (c : Thread nD τ) arg8 fullShare (out1_7 x0 x1 x5 x6)
            ∗ owns (c : Thread nD τ) arg9 fullShare (out1_8 i x0 x2 x3 x5)
            ∗ owns (c : Thread nD τ) arg10 fullShare (out1_9 i x1 x2 x4 x6)) -∗ K ⟨⟩))
      ⊢ wp frame (wpE (defs₀ (F := F)) 𝒱₀ c none) E (cc1__stage_b_body i arg1 harg1 arg2 harg2 arg3 harg3 arg4 harg4 arg5 harg5 arg6 harg6 arg7 harg7 arg8 harg8 arg9 harg9 arg10 harg10) K := by
  simp only [cc1__stage_b_body_eq_skeleton]; unfold cc1__stage_b_body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, Hk⟩
  subst hf0 hf1 hf2 hf3 hf4 hf5 hf6
  sl_exec
  sl_step

  have e0 : arg1.view.readAt (Elt F) rS.toLoadRect f0 = arg1.view.read (Elt F) f0 := View.ld_unit_zero hz2 _ _
  have e1 : arg2.view.readAt (Elt F) rS.toLoadRect f1 = arg2.view.read (Elt F) f1 := View.ld_unit_zero hz2 _ _
  have e2 : arg3.view.readAt (Elt F) rI.toLoadRect f2 = arg3.view.read (Elt F) f2 := View.ld_unit_zero hz2 _ _
  have e3 : arg4.view.readAt (Elt F) rS.toLoadRect f3 = arg4.view.read (Elt F) f3 := View.ld_unit_zero hz2 _ _
  have e4 : arg5.view.readAt (Elt F) rS.toLoadRect f4 = arg5.view.read (Elt F) f4 := View.ld_unit_zero hz2 _ _
  have e5 : arg6.view.readAt (Elt F) rB.toLoadRect f5 = arg6.view.read (Elt F) f5 := View.ld_unit_zero hz2 _ _
  have e6 : arg7.view.readAt (Elt F) rB.toLoadRect f6 = arg7.view.read (Elt F) f6 := View.ld_unit_zero hz2 _ _
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    refine (View.read_writes_eq_canon _ _ _ (cover1_7 _ _)).trans ?_
    unfold out1_7
    rw [← e0, ← e1, ← e5, ← e6]
    rfl
  isplitl [H8]
  · iexists _; isplitr
    swap; · iexact H8
    ipureintro
    refine (View.read_writes_eq_canon _ _ _ (cover1_B _)).trans ?_
    refine (View.canon_unit_zero hz2 _ _).trans ?_
    unfold out1_8
    rw [← e0, ← e2, ← e3, ← e5]
    rfl
  · iexists _; isplitr
    swap; · iexact H9
    ipureintro
    refine (View.read_writes_eq_canon _ _ _ (cover1_B _)).trans ?_
    refine (View.canon_unit_zero hz2 _ _).trans ?_
    unfold out1_9
    rw [← e1, ← e2, ← e4, ← e6]
    rfl

section Data

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev fz : S4096x128.Idx → Elt F .f32 := fun _ => Scalar.ofBits .f32 0#32

def blk5 (c : Dev nD) (t : Fin cfg1.N) : Vec F S4096x128 .f32 := win1_5.fill (grid1.coords t) fz (iblk1 V c 5 t)

def blk6 (c : Dev nD) (t : Fin cfg1.N) : Vec F S4096x128 .f32 := win1_6.fill (grid1.coords t) fz (iblk1 V c 6 t)

end Data

theorem pay3_congr (a : BitVec 32) (v14 : FVec F S128x128 .f32) (v56 : IVec S1x128 32) (v70 : IVec S128x1 1) (v79 : IVec S128x4096 1)
    (c c' : F .f32) {B B' : Vec F S4096x128 .f32} {y : S4096x128.Idx} (h : B y = B' y) :
    k1_pay3 a v14 v56 v70 v79 c c' B y = k1_pay3 a v14 v56 v70 v79 c c' B' y := by
  simp only [k1_pay3, select]; rw [h]
theorem pay4_congr (a : BitVec 32) (v27 : FVec F S128x128 .f32) (v56 : IVec S1x128 32) (v70 : IVec S128x1 1) (v79 : IVec S128x4096 1)
    (c c' : F .f32) {B B' : Vec F S4096x128 .f32} {y : S4096x128.Idx} (h : B y = B' y) :
    k1_pay4 a v27 v56 v70 v79 c c' B y = k1_pay4 a v27 v56 v70 v79 c c' B' y := by
  simp only [k1_pay4, select]; rw [h]

structure PayLocal (F : FTy → Type) [FloatOps F] [Named F] : Prop where
  pay7 : ∀ (x0 : Vec F S128x128 .f32) (B B' : Vec F S4096x128 .f32) (x : S128x4096.Idx),
    (∀ y : S4096x128.Idx, (y 0).val = (x 1).val → B y = B' y) → k1_pay7 x0 B x = k1_pay7 x0 B' x
  pay8 : ∀ (x1 : Vec F S128x128 .f32) (B B' : Vec F S4096x128 .f32) (x : S128x4096.Idx),
    (∀ y : S4096x128.Idx, (y 0).val = (x 1).val → B y = B' y) → k1_pay8 x1 B x = k1_pay8 x1 B' x

theorem mem_r7b (y : S256x4096.Idx) : y ∈ r7b.set ↔ 128 ≤ (y 0).val := by
  rw [Rect.mem_set_unit, Fin.forall_fin_two]
  have h0 : (y 0).val < 256 := (y 0).isLt
  have h1 : (y 1).val < 4096 := (y 1).isLt
  show (128 ≤ (y 0).val ∧ (y 0).val < 128 + 128) ∧ (0 ≤ (y 1).val ∧ (y 1).val < 0 + 4096) ↔ _
  omega

theorem mem_r7a (y : S256x4096.Idx) : y ∈ r7a.set ↔ (y 0).val < 128 := by
  rw [Rect.mem_set_unit, Fin.forall_fin_two]
  have h1 : (y 1).val < 4096 := (y 1).isLt
  show (0 ≤ (y 0).val ∧ (y 0).val < 0 + 128) ∧ (0 ≤ (y 1).val ∧ (y 1).val < 0 + 4096) ↔ _
  omega

-- Column n of the result depends on the two blocks only through their row n.
theorem out1_7_congr (hloc : PayLocal F) (x0 x1 : Vec F S128x128 .f32) {X5 X5' X6 X6' : Vec F S4096x128 .f32} (y : S256x4096.Idx)
    (h5 : ∀ z : S4096x128.Idx, (z 0).val = (y 1).val → X5 z = X5' z)
    (h6 : ∀ z : S4096x128.Idx, (z 0).val = (y 1).val → X6 z = X6' z) :
    out1_7 x0 x1 X5 X6 y = out1_7 x0 x1 X5' X6' y := by
  unfold out1_7
  by_cases hy : y ∈ r7b.set
  · obtain ⟨x, rfl⟩ : ∃ x, r7b.emb x = y := r7b.exists_idx_of_mem hy
    rw [View.canon_cons_emb, View.canon_cons_emb]
    refine hloc.pay8 x1 X5 X5' x fun z hz => h5 z (hz.trans ?_)
    show (x 1).val = 0 + 1 * (x 1).val
    omega
  · have hy' : y ∈ r7a.set := by
      rw [mem_r7a]; rw [mem_r7b] at hy; omega
    rw [View.canon_cons_of_not_mem (⟨r7b, k1_pay8 x1 X5⟩ : View.Piece (Elt F) S256x4096 .f32) _ hy,
      View.canon_cons_of_not_mem (⟨r7b, k1_pay8 x1 X5'⟩ : View.Piece (Elt F) S256x4096 .f32) _ hy]
    obtain ⟨x, rfl⟩ : ∃ x, r7a.emb x = y := r7a.exists_idx_of_mem hy'
    rw [View.canon_cons_emb, View.canon_cons_emb]
    refine hloc.pay7 x0 X6 X6' x fun z hz => h6 z (hz.trans ?_)
    show (x 1).val = 0 + 1 * (x 1).val
    omega

theorem fill_eq_of_moved {G : Pipeline.Grid} (w : Pipeline.Window sig G) {α : Type} (i : G.Coords) (d d' : w.block.Idx → α)
    (g : (w.xblock i).Idx → α) {j : w.block.Idx} (h : w.moved i j = true) : w.fill i d g j = w.fill i d' g j := by
  unfold Pipeline.Window.fill; rw [dif_pos h, dif_pos h]

theorem xsize7_1 (i : grid1.Coords) : win1_7.xsize i 1 = win1_5.xsize i 0 := rfl
theorem xsize8_0 (i : grid1.Coords) : win1_8.xsize i 0 = win1_5.xsize i 0 := rfl
theorem xsize9_0 (i : grid1.Coords) : win1_9.xsize i 0 = win1_5.xsize i 0 := rfl

theorem moved5 (i : grid1.Coords) (z : S4096x128.Idx) (h : (z 0).val < win1_5.xsize i 0) : win1_5.moved i z = true :=
  (win1_5.moved_iff i z).mpr fun a => by
    match a with
    | ⟨0, _⟩ => exact h
    | ⟨1, _⟩ => exact (z 1).isLt
theorem moved6 (i : grid1.Coords) (z : S4096x128.Idx) (h : (z 0).val < win1_5.xsize i 0) : win1_6.moved i z = true :=
  moved5 i z h

theorem cut_out1_7 (hloc : PayLocal F) (i : grid1.Coords) (x0 x1 : Vec F S128x128 .f32) (d5 d5' d6 d6' : S4096x128.Idx → Elt F .f32)
    (b5 : (win1_5.xblock i).Idx → Elt F .f32) (b6 : (win1_6.xblock i).Idx → Elt F .f32) :
    win1_7.cut i (out1_7 x0 x1 (win1_5.fill i d5 b5) (win1_6.fill i d6 b6))
      = win1_7.cut i (out1_7 x0 x1 (win1_5.fill i d5' b5) (win1_6.fill i d6' b6)) := by
  funext j
  have hj : (j 1).val < win1_5.xsize i 0 := by rw [← xsize7_1]; exact (j 1).isLt
  refine out1_7_congr hloc x0 x1 (win1_7.xinj i j) (fun z hz => ?_) (fun z hz => ?_)
  · exact fill_eq_of_moved win1_5 i d5 d5' b5 (moved5 i z (by rw [hz]; exact hj))
  · exact fill_eq_of_moved win1_6 i d6 d6' b6 (moved6 i z (by rw [hz]; exact hj))

theorem cut_out1_8 (i : grid1.Coords) (x0 : Vec F S128x128 .f32) (x2 : Vec F S128x1 .i32) (x3 : Vec F S128x128 .f32)
    (d5 d5' : S4096x128.Idx → Elt F .f32) (b5 : (win1_5.xblock i).Idx → Elt F .f32) :
    win1_8.cut i (out1_8 i x0 x2 x3 (win1_5.fill i d5 b5)) = win1_8.cut i (out1_8 i x0 x2 x3 (win1_5.fill i d5' b5)) := by
  funext j
  have hj : (j 0).val < win1_5.xsize i 0 := by rw [← xsize8_0]; exact (j 0).isLt
  exact pay3_congr _ _ _ _ _ _ _ (fill_eq_of_moved win1_5 i d5 d5' b5 (moved5 i (win1_8.xinj i j) hj))

theorem cut_out1_9 (i : grid1.Coords) (x1 : Vec F S128x128 .f32) (x2 : Vec F S128x1 .i32) (x4 : Vec F S128x128 .f32)
    (d6 d6' : S4096x128.Idx → Elt F .f32) (b6 : (win1_6.xblock i).Idx → Elt F .f32) :
    win1_9.cut i (out1_9 i x1 x2 x4 (win1_6.fill i d6 b6)) = win1_9.cut i (out1_9 i x1 x2 x4 (win1_6.fill i d6' b6)) := by
  funext j
  have hj : (j 0).val < win1_5.xsize i 0 := by rw [← xsize9_0]; exact (j 0).isLt
  exact pay4_congr _ _ _ _ _ _ _ (fill_eq_of_moved win1_6 i d6 d6' b6 (moved6 i (win1_9.xinj i j) hj))

section Data

variable (V : (c : Dev nD) → (b : Ref sig .tc) → Buf (Elt F) ((c : Thread nD τ).loc b))
variable (O : CellTallies nD τ sig Ix) (B : Set (SemLoc sig × Ix))

def Φ1 (c : Dev nD) : sProp 𝕄 :=
  iprop(Pipeline.scopedRest (Ix := Ix) (Name := Name) (U := U) (Lvl := Lvl) (Val := Elt F) spec1 c ∗ ∃ r, prngReg c r)

def dat1 (c : Dev nD) : Dat τ (Elt F) Ix Name U Lvl cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => blk5 V c t
    | ⟨6, _⟩ => blk6 V c t
    | ⟨7, _⟩ => out1_7 (iblk1 V c 0 t) (iblk1 V c 1 t) (blk5 V c t) (blk6 V c t)
    | ⟨8, _⟩ => out1_8 (grid1.coords t) (iblk1 V c 0 t) (iblk1 V c 2 t) (iblk1 V c 3 t) (blk5 V c t)
    | ⟨9, _⟩ => out1_9 (grid1.coords t) (iblk1 V c 1 t) (iblk1 V c 2 t) (iblk1 V c 4 t) (blk6 V c t)
  Φ _ := Φ1 c
  q _ := fullShare
  owed _ := O
  recorded _ := B

theorem A_eq1 (c : Dev nD) (w : Fin cfg1.W) : (dat1 (Name := Name) (U := U) (Lvl := Lvl) V O B c).A w = V c (Pipeline.arrRef spec1 w) := by
  dsimp only [dat1]

theorem after1_in (c : Dev nD) (t : Fin cfg1.N) :
    (dat1 (Name := Name) (U := U) (Lvl := Lvl) V O B c).after 0 t = iblk1 V c 0 t ∧ (dat1 (Name := Name) (U := U) (Lvl := Lvl) V O B c).after 1 t = iblk1 V c 1 t
    ∧ (dat1 (Name := Name) (U := U) (Lvl := Lvl) V O B c).after 2 t = iblk1 V c 2 t ∧ (dat1 (Name := Name) (U := U) (Lvl := Lvl) V O B c).after 3 t = iblk1 V c 3 t
    ∧ (dat1 (Name := Name) (U := U) (Lvl := Lvl) V O B c).after 4 t = iblk1 V c 4 t ∧ (dat1 (Name := Name) (U := U) (Lvl := Lvl) V O B c).after 5 t = blk5 V c t
    ∧ (dat1 (Name := Name) (U := U) (Lvl := Lvl) V O B c).after 6 t = blk6 V c t := ⟨rfl, rfl, rfl, rfl, rfl, rfl, rfl⟩
theorem after1_7 (c : Dev nD) (t : Fin cfg1.N) :
    (dat1 (Name := Name) (U := U) (Lvl := Lvl) V O B c).after 7 t = out1_7 (iblk1 V c 0 t) (iblk1 V c 1 t) (blk5 V c t) (blk6 V c t) := by dsimp only [dat1]
theorem after1_8 (c : Dev nD) (t : Fin cfg1.N) :
    (dat1 (Name := Name) (U := U) (Lvl := Lvl) V O B c).after 8 t = out1_8 (grid1.coords t) (iblk1 V c 0 t) (iblk1 V c 2 t) (iblk1 V c 3 t) (blk5 V c t) := by dsimp only [dat1]
theorem after1_9 (c : Dev nD) (t : Fin cfg1.N) :
    (dat1 (Name := Name) (U := U) (Lvl := Lvl) V O B c).after 9 t = out1_9 (grid1.coords t) (iblk1 V c 1 t) (iblk1 V c 2 t) (iblk1 V c 4 t) (blk6 V c t) := by dsimp only [dat1]

-- The five whole-array inputs: one argument, the window number being the only difference.
theorem before1_in (c : Dev nD) (t : Fin cfg1.N) :
    (∀ d, (dat1 (Name := Name) (U := U) (Lvl := Lvl) V O B c).before 0 t d = iblk1 V c 0 t) ∧ (∀ d, (dat1 (Name := Name) (U := U) (Lvl := Lvl) V O B c).before 1 t d = iblk1 V c 1 t)
    ∧ (∀ d, (dat1 (Name := Name) (U := U) (Lvl := Lvl) V O B c).before 2 t d = iblk1 V c 2 t) ∧ (∀ d, (dat1 (Name := Name) (U := U) (Lvl := Lvl) V O B c).before 3 t d = iblk1 V c 3 t)
    ∧ (∀ d, (dat1 (Name := Name) (U := U) (Lvl := Lvl) V O B c).before 4 t d = iblk1 V c 4 t) := by
  refine ⟨?_, ?_, ?_, ?_, ?_⟩ <;> intro d <;>
  exact (((dat1 (Name := Name) (U := U) (Lvl := Lvl) V O B c).before_in_eq_fetched _ rfl (fun _ => rfl) (fun _ _ _ => rfl)
    (fun t => by simp only [after1_in V O B c]; unfold Dat.blockOf iblk1; rw [A_eq1]; try rfl) t d).trans
    (by unfold Dat.fetched Dat.blockOf iblk1; rw [A_eq1]; try rfl))

theorem before1_fetched (c : Dev nD) (w : Fin cfg1.W) (t : Fin cfg1.N) (hf : (cfg1.win w).fetch t = true) (d) :
    (dat1 (Name := Name) (U := U) (Lvl := Lvl) V O B c).before w t d = (cfg1.win w).fill (cfg1.grid.coords t) d (iblk1 V c w t) := by
  rw [(dat1 (Name := Name) (U := U) (Lvl := Lvl) V O B c).before_fetched w t hf d]
  unfold Dat.fetched Dat.blockOf iblk1; rw [A_eq1]

theorem before1_out (c : Dev nD) (w : Fin cfg1.W) (hw : (cfg1.win w).isOut = true) (hf : ∀ t, (cfg1.win w).flush t = true)
    (t : Fin cfg1.N) (d) : (dat1 (Name := Name) (U := U) (Lvl := Lvl) V O B c).before w t d = d :=
  (dat1 (Name := Name) (U := U) (Lvl := Lvl) V O B c).before_out_reset w hw t (by
    by_cases h : t.val = 0
    · exact .inl h
    · exact .inr ⟨h, hf _⟩) d

end Data

section Obligation

variable (V : (c : Dev nD) → (b : Ref sig .tc) → Buf (Elt F) ((c : Thread nD τ).loc b))
variable (O : CellTallies nD τ sig Ix) (B : Set (SemLoc sig × Ix)) (𝒱₀ : Variants) (ι : Ix)

theorem owns_fill_of_cut_eq {G : Pipeline.Grid} (w : Pipeline.Window sig G) (i : G.Coords) (c : Dev nD)
    (m : Memref sig .tc (.core w.stageSpace) w.block w.elt) {X Y : w.block.Idx → Elt F w.elt} (h : w.cut i X = w.cut i Y) :
    owns (c : Thread nD τ) m fullShare X ⊢ (iprop(∃ d, owns (c : Thread nD τ) m fullShare (w.fill i d (w.cut i Y))) : sProp 𝕄) := by
  iintro H; iexists X; rw [w.fill_congr_cut i h]; iexact H

def bodyPre1 (c : Dev nD) (D : Dat τ (Elt F) Ix Name U Lvl cfg1 c) (t : Fin cfg1.N) : sProp 𝕄 :=
  iprop(D.Φ t.castSucc ∗ D.owesAt ι t.castSucc
    ∗ (∃ d, owns (c : Thread nD τ) (st1_0 t) fullShare (D.before 0 t d))
    ∗ (∃ d, owns (c : Thread nD τ) (st1_1 t) fullShare (D.before 1 t d))
    ∗ (∃ d, owns (c : Thread nD τ) (st1_2 t) fullShare (D.before 2 t d))
    ∗ (∃ d, owns (c : Thread nD τ) (st1_3 t) fullShare (D.before 3 t d))
    ∗ (∃ d, owns (c : Thread nD τ) (st1_4 t) fullShare (D.before 4 t d))
    ∗ (∃ d, owns (c : Thread nD τ) (st1_5 t) fullShare (D.before 5 t d))
    ∗ (∃ d, owns (c : Thread nD τ) (st1_6 t) fullShare (D.before 6 t d))
    ∗ (∃ d, owns (c : Thread nD τ) (st1_7 t) fullShare (D.before 7 t d))
    ∗ (∃ d, owns (c : Thread nD τ) (st1_8 t) fullShare (D.before 8 t d))
    ∗ (∃ d, owns (c : Thread nD τ) (st1_9 t) fullShare (D.before 9 t d)))

def bodyPost1 (c : Dev nD) (D : Dat τ (Elt F) Ix Name U Lvl cfg1 c) (t : Fin cfg1.N) : sProp 𝕄 :=
  iprop(D.Φ t.succ ∗ D.owesAt ι t.succ
    ∗ owns (c : Thread nD τ) (st1_0 t) fullShare (D.after 0 t)
    ∗ owns (c : Thread nD τ) (st1_1 t) fullShare (D.after 1 t)
    ∗ owns (c : Thread nD τ) (st1_2 t) fullShare (D.after 2 t)
    ∗ owns (c : Thread nD τ) (st1_3 t) fullShare (D.after 3 t)
    ∗ owns (c : Thread nD τ) (st1_4 t) fullShare (D.after 4 t)
    ∗ (∃ d, owns (c : Thread nD τ) (st1_5 t) fullShare ((cfg1.win 5).fill (cfg1.grid.coords t) d ((cfg1.win 5).cut (cfg1.grid.coords t) (D.after 5 t))))
    ∗ (∃ d, owns (c : Thread nD τ) (st1_6 t) fullShare ((cfg1.win 6).fill (cfg1.grid.coords t) d ((cfg1.win 6).cut (cfg1.grid.coords t) (D.after 6 t))))
    ∗ (∃ d, owns (c : Thread nD τ) (st1_7 t) fullShare ((cfg1.win 7).fill (cfg1.grid.coords t) d ((cfg1.win 7).cut (cfg1.grid.coords t) (D.after 7 t))))
    ∗ (∃ d, owns (c : Thread nD τ) (st1_8 t) fullShare ((cfg1.win 8).fill (cfg1.grid.coords t) d ((cfg1.win 8).cut (cfg1.grid.coords t) (D.after 8 t))))
    ∗ (∃ d, owns (c : Thread nD τ) (st1_9 t) fullShare ((cfg1.win 9).fill (cfg1.grid.coords t) d ((cfg1.win 9).cut (cfg1.grid.coords t) (D.after 9 t)))))

theorem sound_body1 (hloc : PayLocal F) (c : Dev nD) (t : Fin cfg1.N) :
    bodyPre1 ι c (dat1 (Name := Name) (U := U) (Lvl := Lvl) V O B c) t ⊢ wp frame (wpE (defs₀ (F := F)) 𝒱₀ c none) Set.univ (bodyAt1 t) (fun _ => bodyPost1 ι c (dat1 (Name := Name) (U := U) (Lvl := Lvl) V O B c) t) := by
  unfold bodyPre1 bodyPost1 bodyAt1
  simp only [before1_in V O B c t, before1_fetched V O B c 5 t (fetch1_5 t), before1_fetched V O B c 6 t (fetch1_6 t),
    before1_out V O B c 7 rfl flush1_7, before1_out V O B c 8 rfl flush1_8, before1_out V O B c 9 rfl flush1_9]
  rw [show (dat1 (Name := Name) (U := U) (Lvl := Lvl) V O B c).Φ t.succ = (dat1 (Name := Name) (U := U) (Lvl := Lvl) V O B c).Φ t.castSucc from rfl,
    show (dat1 (Name := Name) (U := U) (Lvl := Lvl) V O B c).owesAt ι t.succ = (dat1 (Name := Name) (U := U) (Lvl := Lvl) V O B c).owesAt ι t.castSucc from rfl]
  simp only [after1_in V O B c t, after1_7, after1_8, after1_9]
  unfold blk5 blk6
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel1 𝒱₀ c Set.univ (grid1.coords t) _ _ _ _ _ _ _ _ _ _ _ _ _ _ _ _ _ _ _ _
    (iblk1 V c 0 t) (iblk1 V c 1 t) (iblk1 V c 2 t) (iblk1 V c 3 t) (iblk1 V c 4 t)
    (win1_5.fill (grid1.coords t) d5 (iblk1 V c 5 t)) (win1_6.fill (grid1.coords t) d6 (iblk1 V c 6 t)) _)
  iframe H0 H1 H2 H3 H4 H5 H6
  isplitl [H7]; · iexists _; iexact H7
  isplitl [H8]; · iexists _; iexact H8
  isplitl [H9]; · iexists _; iexact H9
  iintro ⟨H0, H1, H2, H3, H4, H5, H6, H7, H8, H9⟩
  iframe HΦ Ho H0 H1 H2 H3 H4
  isplitl [H5]
  · iapply (owns_fill_of_cut_eq win1_5 (grid1.coords t) c _ (X := win1_5.fill (grid1.coords t) d5 (iblk1 V c 5 t))
      (Y := win1_5.fill (grid1.coords t) fz (iblk1 V c 5 t)) ((win1_5.cut_fill _ _ _).trans (win1_5.cut_fill _ _ _).symm))
    iexact H5
  isplitl [H6]
  · iapply (owns_fill_of_cut_eq win1_6 (grid1.coords t) c _ (X := win1_6.fill (grid1.coords t) d6 (iblk1 V c 6 t))
      (Y := win1_6.fill (grid1.coords t) fz (iblk1 V c 6 t)) ((win1_6.cut_fill _ _ _).trans (win1_6.cut_fill _ _ _).symm))
    iexact H6
  isplitl [H7]
  · iapply (owns_fill_of_cut_eq win1_7 (grid1.coords t) c _
      (cut_out1_7 hloc (grid1.coords t) (iblk1 V c 0 t) (iblk1 V c 1 t) d5 fz d6 fz (iblk1 V c 5 t) (iblk1 V c 6 t)))
    iexact H7
  isplitl [H8]
  · iapply (owns_fill_of_cut_eq win1_8 (grid1.coords t) c _
      (cut_out1_8 (grid1.coords t) (iblk1 V c 0 t) (iblk1 V c 2 t) (iblk1 V c 3 t) d5 fz (iblk1 V c 5 t)))
    iexact H8
  · iapply (owns_fill_of_cut_eq win1_9 (grid1.coords t) c _
      (cut_out1_9 (grid1.coords t) (iblk1 V c 1 t) (iblk1 V c 2 t) (iblk1 V c 4 t) d6 fz (iblk1 V c 6 t)))
    iexact H9

theorem body_obligation1 (hloc : PayLocal F) (c : Dev nD) :
    BodyObligationLoose (dat1 (F := F) (Name := Name) (U := U) (Lvl := Lvl) V O B c) (defs₀ (F := F)) 𝒱₀ ι Set.univ := fun t => by
  rw [bigSep_W1, bigSep_W1]
  exact sound_body1 V O B 𝒱₀ ι hloc c t

end Obligation

section Region

variable (W : Dev nD → Valuation τ sig (Elt F))
variable (O : CellTallies nD τ sig Ix) (B : Set (SemLoc sig × Ix)) (𝒱₀ : Variants) (ι : Ix)

abbrev VofW : (c : Dev nD) → (b : Ref sig .tc) → Buf (Elt F) ((c : Thread nD τ).loc b) := fun c b => W c b

abbrev adm : (p : Fin 2) → (pcfgs (F := F) p).Adm := fun p => (cfgs p).toPCfg_adm

local notation "𝔡" => dat1 (F := F) (Ix := Ix) (Name := Name) (U := U) (Lvl := Lvl) (VofW W) O B

def Wexit (c : Dev nD) : Valuation τ sig (Elt F) :=
  Pipeline.withArrays spec1 c (W c) fun w => (𝔡 c).arrAt w cfg1.N

local notation "𝔴" => Wexit (F := F) (Ix := Ix) (Name := Name) (U := U) (Lvl := Lvl) W O B

theorem Wexit_arr (c : Dev nD) (w : Fin cfg1.W) :
    𝔴 c (Proc.devRef .tc (Pipeline.arrRef spec1 w)) = (𝔡 c).arrAt w cfg1.N := by
  unfold Wexit; exact Pipeline.withArrays_arr spec1 launch1.win.arr_inj c _ _ w
theorem Wexit_of_ne (c : Dev nD) (b : Ref sig .tc) (hb : ∀ w, Pipeline.arrRef spec1 w ≠ b) :
    𝔴 c (Proc.devRef .tc b) = W c (Proc.devRef .tc b) := by
  unfold Wexit; exact Pipeline.withArrays_of_ne spec1 c _ _ b hb

theorem hFB (c : Dev nD) (w : Fin cfg1.W) : (𝔡 c).arrAt w cfg1.N = VofW 𝔴 c (Pipeline.arrRef spec1 w) :=
  (Wexit_arr W O B c w).symm
theorem hrestB (c : Dev nD) : ∀ b, b ∉ Finset.univ.image (Pipeline.arrRef spec1) → VofW 𝔴 c b = VofW W c b :=
  fun b hb => Wexit_of_ne W O B c b fun w e => hb (Finset.mem_image.mpr ⟨w, Finset.mem_univ _, e⟩)

def pdatsB (dat3 : (c : Dev nD) → Dat τ (Elt F) Ix Name U Lvl cfg3 c) :
    (p : Fin 2) → (c : Dev nD) → Dat τ (Elt F) Ix Name U Lvl (Pipeline.pin (pcfgs (F := F)) adm p) c
  | ⟨0, _⟩ => fun c => 𝔡 c
  | ⟨1, _⟩ => fun c => dat3 c

set_option backward.isDefEq.respectTransparency.types false in

-- The update region leaves its three outputs at the blockwise terms of its inputs and everything else as entered.
def regB (hloc : PayLocal F) (dat3 : (c : Dev nD) → Dat τ (Elt F) Ix Name U Lvl cfg3 c)
    (L : GSem nD τ sig → Finset Ix) (lv : GSem nD τ sig → Ix → Lvl)
    (hwaits : ∀ c, (levAts L lv : sProp 𝕄) ⊢ Pipeline.cellsWaits (Pipeline.pin (pcfgs (F := F)) adm) (pdatsB W O B dat3) ι 0 c) :
    Pipeline.RegionSeg (pcfgs (F := F)) adm (pdatsB W O B dat3) ι defs₀ 𝒱₀ L lv 0 where
  win := launch1.win.to₀
  block_pos := launch1.block_pos
  stage_whole := launch1.stage_whole
  K := PEmpty
  osem k := k.elim
  ho := Pipeline.OwnSemFacts.none _
  hbody c := body_obligation1 (VofW W) O B 𝒱₀ ι hloc c
  hwaits := hwaits
  pre c := iprop(StableHlo.held (c : Thread nD τ) (Pipeline.ucRefs τ sig) (W c) ∗ (∃ r, prngReg c r) ∗ Pipeline.owesWithin c O B)
  post c := iprop(StableHlo.held (c : Thread nD τ) (Pipeline.ucRefs τ sig) (𝔴 c) ∗ (∃ r, prngReg c r)
    ∗ Pipeline.owesWithin c O (B ∪ cfg1.waitPairs ι))
  X c := iprop(∃ r, prngReg c r)
  Y c := iprop(∃ r, prngReg c r)
  Z c := Pipeline.unscopedRest (Ix := Ix) (Name := Name) (U := U) (Lvl := Lvl) spec1 c (VofW W c)
  hentry c := by
    rw [Pipeline.ownSems0_none]
    have hsplit := Pipeline.arrays_of_unscopedBufs (p := 0) (pcfgs (F := F)) adm (pdatsB W O B dat3) launch1.win launch1.arr_whole c
      ((pdatsB W O B dat3 0 c).share_full fun _ => rfl) (VofW W c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · iapply (Pipeline.owesWithin_mono c O (B := B) (B' := B ∪ cfg1.waitPairs ι) Set.subset_union_left)
      iexact HO
    isplitl [Hp]; · iexact Hp
    iexact Hrest
  hin c := by
    rw [show (pdatsB W O B dat3 0 c).Φ 0 = Φ1 c from rfl]; unfold Φ1
    iintro ⟨Hp, -, Hr⟩
    isplitl [Hr]; · iexact Hr
    iexact Hp
  hout c := by
    rw [Pipeline.ownSems0_none, show (pdatsB W O B dat3 0 c).Φ (Fin.last _) = Φ1 c from rfl]; unfold Φ1
    iintro ⟨Hr, Hp⟩
    isplitl [Hp]; · iexact Hp
    isplitr; · iempintro
    iexact Hr
  hexit c := by
    have hjoin := Pipeline.unscopedBufs_of_arrays (p := 0) (pcfgs (F := F)) adm (Ix := Ix) (Name := Name) (U := U) (Lvl := Lvl)
      launch1.win launch1.arr_whole c (pdatsB W O B dat3) ((pdatsB W O B dat3 0 c).share_full fun _ => rfl)
      (VofW W c) (VofW 𝔴 c) ((pdatsB W O B dat3 0 c).arrAt · cfg1.N) (hFB W O B c) (hrestB W O B c)
    rw [Pipeline.unscopedBufs_held] at hjoin
    iintro ⟨Ha, HO, HY, Hrest⟩
    imodintro
    isplitl [Ha Hrest]
    · iapply hjoin; isplitl [Ha] <;> iassumption
    isplitl [HY]; · iexact HY
    iexact HO

end Region

section IdealOnly

theorem rhsIdx_row (x : S128x4096.Idx) (k : dot_S128x128_S4096x128_S128x4096_1_1_0_0_n_n.contr.Idx) :
    ((dot_S128x128_S4096x128_S128x4096_1_1_0_0_n_n.rhsIdx x k) 0).val = (x 1).val := rfl

-- Entry (b, n) of the matrix product reads only row n of the right factor.
theorem payLocal_ideal : PayLocal Ideal :=
  have p7 : ∀ (x0 : Vec Ideal S128x128 .f32) (B B' : Vec Ideal S4096x128 .f32) (x : S128x4096.Idx),
      (∀ y : S4096x128.Idx, (y 0).val = (x 1).val → B y = B' y) → k1_pay7 x0 B x = k1_pay7 x0 B' x := fun x0 B B' x h => by
    have hB : ∀ k, B (dot_S128x128_S4096x128_S128x4096_1_1_0_0_n_n.rhsIdx x k) = B' (dot_S128x128_S4096x128_S128x4096_1_1_0_0_n_n.rhsIdx x k) :=
      fun k => h _ (rhsIdx_row x k)
    simp only [k1_pay7, addf, subf, matmul, Ideal.matmul_apply, hB]
  ⟨p7, p7⟩

end IdealOnly

end Cert.Proof.C

end
-- ==== Proof.RegionD.lean ====
import proofs.«204933_g4492535792355_cont_8to1_c_766_42_alg».proof.Proof.Gen.KernelIdeal.Launch
import proofs.«204933_g4492535792355_cont_8to1_c_766_42_alg».proof.Proof.Gen.KernelIdeal.Skeleton
import proofs.«204933_g4492535792355_cont_8to1_c_766_42_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Tactic

set_option maxRecDepth 16384

noncomputable section

namespace Cert.Proof.D

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation BodyObligationLoose)

variable {F : FTy → Type} [FloatOps F] [Named F]
variable {Ix : Type} [DecidableEq Ix] {Name : Type} [DecidableEq Name] {U : Type} [URA U] {Lvl : Type} [Preorder Lvl]

local notation "𝕄" => MT nD τ sig Ix (Elt F) Name U Lvl

abbrev rIn : Rect S256x4112 := Rect.unit (s := S256x4112) ![0, 0] S256x4112.size inb_S256x4112_S256x4112_0_0

abbrev rOut : Rect S1x1 := Rect.unit (s := S1x1) ![0, 0] S1x1.size inb_S1x1_S1x1_0_0

def lossOf (x : Vec F S256x4112 .f32) : FVec F S1x1 .f32 :=
  k3_pay1 k3_pay2 k3_pay3 (k3_pay5 x) (k3_pay6 x)

def out3 (x : Vec F S256x4112 .f32) : Vec F S1x1 .f32 :=
  View.canon [⟨rOut, lossOf (View.ld x rIn)⟩]

theorem zeros2 : (![0, 0] : Fin 2 → Nat) = fun _ => 0 := funext fun a => by fin_cases a <;> rfl

theorem out3_eq (x : Vec F S256x4112 .f32) : out3 x = lossOf x := by
  unfold out3
  rw [View.canon_unit_zero (S := S1x1) zeros2 inb_S1x1_S1x1_0_0, View.ld_unit_zero (S := S256x4112) zeros2 inb_S256x4112_S256x4112_0_0]

theorem cover3 (p0 : Vec F S1x1 .f32) (y : S1x1.Idx) :
    ∃ pc ∈ ([⟨rOut, p0⟩] : List (View.Piece (Elt F) S1x1 .f32)), y ∈ pc.1.set :=
  ⟨_, List.mem_singleton_self _, View.mem_set_unit_zero (S := S1x1) zeros2 inb_S1x1_S1x1_0_0 y⟩

set_option maxHeartbeats 1000000 in

theorem sound_kernel (𝒱₀ : Variants) (c : Dev nD) (E : Set Name) (arg0 : Memref sig .tc .vmem S256x4112 .f32) (harg0 : arg0.IsWhole)
    (arg1 : Memref sig .tc .vmem S1x1 .f32) (harg1 : arg1.IsWhole)
    (x : Vec F S256x4112 .f32) (K : PUnit → sProp 𝕄) :
    iprop(owns (c : Thread nD τ) arg0 fullShare x ∗ (∃ d, owns (c : Thread nD τ) arg1 fullShare d)
        ∗ (iprop(owns (c : Thread nD τ) arg0 fullShare x ∗ owns (c : Thread nD τ) arg1 fullShare (out3 x)) -∗ K ⟨⟩))
      ⊢ wp frame (wpE (defs₀ (F := F)) 𝒱₀ c none) E (cc3__stage_d_body arg0 harg0 arg1 harg1) K := by
  rw [cc3__stage_d_body_eq_skeleton]; unfold cc3__stage_d_body_skel
  rw [k3_part1_eq_skeleton]; unfold k3_part1_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover3 _)

section Data

variable (V : (c : Dev nD) → (b : Ref sig .tc) → Buf (Elt F) ((c : Thread nD τ).loc b)) (O : CellTallies nD τ sig Ix)
  (B : Set (SemLoc sig × Ix))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

theorem before3_0_of {c : Dev nD} (dat : Dat τ (Elt F) Ix Name U Lvl cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

def Φ3 (c : Dev nD) : sProp 𝕄 :=
  iprop(Pipeline.scopedRest (Ix := Ix) (Name := Name) (U := U) (Lvl := Lvl) (Val := Elt F) spec3 c ∗ ∃ r, prngReg c r)

def dat3 (c : Dev nD) : Dat τ (Elt F) Ix Name U Lvl cfg3 c where
  A w := V c (Pipeline.arrRef spec3 w)
  after w t := match w with
    | ⟨0, _⟩ => iblk3 V c 0 t
    | ⟨1, _⟩ => out3 (iblk3 V c 0 t)
  Φ _ := Φ3 c
  q _ := fullShare
  owed _ := O
  recorded _ := B

theorem A_eq3 (c : Dev nD) (w : Fin cfg3.W) : (dat3 (Name := Name) (U := U) (Lvl := Lvl) V O B c).A w = V c (Pipeline.arrRef spec3 w) := by
  dsimp only [dat3]

theorem after3_0 (c : Dev nD) (t : Fin cfg3.N) : (dat3 (Name := Name) (U := U) (Lvl := Lvl) V O B c).after 0 t = iblk3 V c 0 t := by dsimp only [dat3]
theorem after3_1 (c : Dev nD) (t : Fin cfg3.N) : (dat3 (Name := Name) (U := U) (Lvl := Lvl) V O B c).after 1 t = out3 (iblk3 V c 0 t) := by dsimp only [dat3]

theorem after3_1_loss (c : Dev nD) (t : Fin cfg3.N) :
    (dat3 (Name := Name) (U := U) (Lvl := Lvl) V O B c).after 1 t = lossOf (iblk3 V c 0 t) := by rw [after3_1, out3_eq]

theorem before3_0 (c : Dev nD) (t : Fin cfg3.N) (d) : (dat3 (Name := Name) (U := U) (Lvl := Lvl) V O B c).before 0 t d = iblk3 V c 0 t :=
  before3_0_of V (dat3 V O B c) (A_eq3 V O B c 0) (after3_0 V O B c) t d

theorem Φ3_eq (c : Dev nD) (t : Fin (cfg3.N + 1)) : (dat3 (Name := Name) (U := U) (Lvl := Lvl) V O B c).Φ t = Φ3 c := rfl

variable (ι : Ix)

def bodyPre3 (c : Dev nD) (t : Fin cfg3.N) : sProp 𝕄 :=
  iprop((dat3 (Name := Name) (U := U) (Lvl := Lvl) V O B c).Φ t.castSucc ∗ (dat3 (Name := Name) (U := U) (Lvl := Lvl) V O B c).owesAt ι t.castSucc
    ∗ (∃ d, owns (c : Thread nD τ) (st3_0 t) fullShare ((dat3 (Name := Name) (U := U) (Lvl := Lvl) V O B c).before 0 t d))
    ∗ (∃ d, owns (c : Thread nD τ) (st3_1 t) fullShare ((dat3 (Name := Name) (U := U) (Lvl := Lvl) V O B c).before 1 t d)))

def bodyPost3 (c : Dev nD) (t : Fin cfg3.N) : sProp 𝕄 :=
  iprop((dat3 (Name := Name) (U := U) (Lvl := Lvl) V O B c).Φ t.succ ∗ (dat3 (Name := Name) (U := U) (Lvl := Lvl) V O B c).owesAt ι t.succ
    ∗ owns (c : Thread nD τ) (st3_0 t) fullShare ((dat3 (Name := Name) (U := U) (Lvl := Lvl) V O B c).after 0 t)
    ∗ owns (c : Thread nD τ) (st3_1 t) fullShare ((dat3 (Name := Name) (U := U) (Lvl := Lvl) V O B c).after 1 t))

theorem sound_body3 (𝒱₀ : Variants) (c : Dev nD) (t : Fin cfg3.N) :
    bodyPre3 (Name := Name) (U := U) (Lvl := Lvl) V O B ι c t ⊢ wp frame (wpE (defs₀ (F := F)) 𝒱₀ c none) Set.univ (bodyAt3 t) (fun _ => bodyPost3 (Name := Name) (U := U) (Lvl := Lvl) V O B ι c t) := by
  unfold bodyPre3 bodyPost3 bodyAt3
  simp only [before3_0]
  rw [show (dat3 (Name := Name) (U := U) (Lvl := Lvl) V O B c).Φ t.succ = (dat3 (Name := Name) (U := U) (Lvl := Lvl) V O B c).Φ t.castSucc from rfl,
    show (dat3 (Name := Name) (U := U) (Lvl := Lvl) V O B c).owesAt ι t.succ = (dat3 (Name := Name) (U := U) (Lvl := Lvl) V O B c).owesAt ι t.castSucc from rfl,
    after3_0, after3_1]
  iintro ⟨HΦ, Ho, ⟨%d0, H0⟩, ⟨%d1, H1⟩⟩
  iapply (sound_kernel 𝒱₀ c Set.univ _ _ _ _ (iblk3 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

theorem body_obligation3 (𝒱₀ : Variants) (c : Dev nD) :
    BodyObligation (dat3 (F := F) (Name := Name) (U := U) (Lvl := Lvl) V O B c) (defs₀ (F := F)) 𝒱₀ ι Set.univ := fun t => by
  rw [bigSep_W3, bigSep_W3]
  exact sound_body3 V O B ι 𝒱₀ c t

theorem body_obligation3_loose (𝒱₀ : Variants) (c : Dev nD) :
    BodyObligationLoose (dat3 (F := F) (Name := Name) (U := U) (Lvl := Lvl) V O B c) (defs₀ (F := F)) 𝒱₀ ι Set.univ :=
  (body_obligation3 V O B ι 𝒱₀ c).loose

end Data

section Region

variable (W : Dev nD → Valuation τ sig (Elt F)) (O : CellTallies nD τ sig Ix) (B : Set (SemLoc sig × Ix)) (ι : Ix)

abbrev V3 : (c : Dev nD) → (b : Ref sig .tc) → Buf (Elt F) ((c : Thread nD τ).loc b) := fun c b => W c (Proc.devRef .tc b)

abbrev adm : (p : Fin 2) → (pcfgs (F := F) p).Adm := fun p => (cfgs p).toPCfg_adm

def Wout (c : Dev nD) : Valuation τ sig (Elt F) :=
  Pipeline.withArrays spec3 c (W c) fun w => (dat3 (Name := Name) (U := U) (Lvl := Lvl) (V3 W) O B c).arrAt w cfg3.N

theorem Wout_arr (c : Dev nD) (w : Fin cfg3.W) :
    Wout (Name := Name) (U := U) (Lvl := Lvl) W O B c (Proc.devRef .tc (Pipeline.arrRef spec3 w))
      = (dat3 (Name := Name) (U := U) (Lvl := Lvl) (V3 W) O B c).arrAt w cfg3.N := by
  unfold Wout; exact Pipeline.withArrays_arr spec3 launch3.win.arr_inj c _ _ w

theorem Wout_of_ne (c : Dev nD) (b : Ref sig .tc) (hb : ∀ w, Pipeline.arrRef spec3 w ≠ b) :
    Wout (Name := Name) (U := U) (Lvl := Lvl) W O B c (Proc.devRef .tc b) = W c (Proc.devRef .tc b) := by
  unfold Wout; exact Pipeline.withArrays_of_ne spec3 c _ _ b hb

abbrev Vout : (c : Dev nD) → (b : Ref sig .tc) → Buf (Elt F) ((c : Thread nD τ).loc b) :=
  fun c b => Wout (Name := Name) (U := U) (Lvl := Lvl) W O B c (Proc.devRef .tc b)

theorem hF3 (c : Dev nD) (w : Fin cfg3.W) :
    (dat3 (Name := Name) (U := U) (Lvl := Lvl) (V3 W) O B c).arrAt w cfg3.N
      = Vout (Name := Name) (U := U) (Lvl := Lvl) W O B c (Pipeline.arrRef spec3 w) :=
  (Wout_arr W O B c w).symm

theorem hrest3 (c : Dev nD) : ∀ b, b ∉ Finset.univ.image (Pipeline.arrRef spec3) →
    Vout (Name := Name) (U := U) (Lvl := Lvl) W O B c b = V3 W c b :=
  fun b hb => Wout_of_ne W O B c b fun w e => hb (Finset.mem_image.mpr ⟨w, Finset.mem_univ _, e⟩)

def pre3 (c : Dev nD) : sProp 𝕄 :=
  iprop(StableHlo.held (c : Thread nD τ) (Pipeline.ucRefs τ sig) (W c) ∗ (∃ r, prngReg c r) ∗ Pipeline.owesWithin c O B)

def post3 (c : Dev nD) : sProp 𝕄 :=
  iprop(StableHlo.held (c : Thread nD τ) (Pipeline.ucRefs τ sig) (Wout (Name := Name) (U := U) (Lvl := Lvl) W O B c) ∗ (∃ r, prngReg c r)
    ∗ Pipeline.owesWithin c O (B ∪ cfg3.waitPairs ι))

variable (pdats : (p : Fin 2) → (c : Dev nD) → Dat τ (Elt F) Ix Name U Lvl (Pipeline.pin (pcfgs (F := F)) adm p) c)
  (hfam : ∀ c, pdats 1 c = dat3 (V3 W) O B c)

include hfam in
theorem share3 (c : Dev nD) (w) : (pdats 1 c).share w = fullShare := by
  rw [hfam c]; exact (dat3 (V3 W) O B c).share_full (fun _ => rfl) w

set_option backward.isDefEq.respectTransparency.types false in
include hfam in

theorem hentry3 (L : GSem nD τ sig → Finset Ix) (lv : GSem nD τ sig → Ix → Lvl) (c : Dev nD) :
    iprop(pre3 (Name := Name) (U := U) (Lvl := Lvl) W O B c ∗ Pipeline.ownSems0 (fun k : PEmpty => k.elim) c ∗ levAts L lv)
    ⊢ |={Set.univ}=> iprop((pdats 1 c).arrays ((pdats 1 c).arrAt · 0) ∗ Pipeline.prefHeld (pcfgs (F := F) 1).pre c (fun _ => fullShare) (adm 1).1
        ∗ (pdats 1 c).owesAt ι 0 ∗ (iprop(∃ r, prngReg c r) : sProp 𝕄)
        ∗ Pipeline.unscopedRest (Ix := Ix) (Name := Name) (U := U) (Lvl := Lvl) spec3 c (V3 W c)) := by
  have hsplit := Pipeline.arrays_of_unscopedBufs (p := 1) (pcfgs (F := F)) adm pdats launch3.win launch3.arr_whole c
    (share3 W O B pdats hfam c) (V3 W c) fun w => by rw [hfam c]; rfl
  rw [Pipeline.unscopedBufs_held] at hsplit
  unfold pre3
  iintro ⟨⟨Hub, Hp, HO⟩, -, -⟩
  ihave H := hsplit $$ Hub
  icases H with ⟨Ha, Hrest⟩
  imodintro
  isplitl [Ha]; · iexact Ha
  isplitr; · unfold Pipeline.prefHeld; rw [show (Finset.univ : Finset (Fin 0)) = ∅ from rfl, BI.bigSep_empty]; iempintro
  isplitl [HO]
  · rw [hfam c]
    iapply (Pipeline.owesWithin_mono c O (B := B) (B' := (dat3 (V3 W) O B c).bound ι 0) (fun _ h => Or.inl h))
    iexact HO
  isplitl [Hp]; · iexact Hp
  iexact Hrest

include hfam in

theorem hin3 (c : Dev nD) :
    iprop((iprop(∃ r, prngReg c r) : sProp 𝕄) ∗ Pipeline.prefHeld (pcfgs (F := F) 1).pre c (fun _ => fullShare) (adm 1).1
      ∗ Pipeline.scopedRest (Pipeline.pin (pcfgs (F := F)) adm 1).spec c) ⊢ (pdats 1 c).Φ 0 := by
  rw [hfam c, Φ3_eq]; unfold Φ3
  iintro ⟨Hp, -, Hr⟩
  isplitl [Hr]; · iexact Hr
  iexact Hp

include hfam in

theorem hout3 (c : Dev nD) :
    (pdats 1 c).Φ (Fin.last (Pipeline.pin (pcfgs (F := F)) adm 1).N)
      ⊢ iprop((iprop(∃ r, prngReg c r) : sProp 𝕄) ∗ Pipeline.ownSems0 (fun k : PEmpty => k.elim) c
        ∗ Pipeline.scopedRest (Pipeline.pin (pcfgs (F := F)) adm 1).spec c) := by
  rw [Pipeline.ownSems0_none, hfam c, Φ3_eq]; unfold Φ3
  iintro ⟨Hr, Hp⟩
  isplitl [Hp]; · iexact Hp
  isplitr; · iempintro
  iexact Hr

set_option backward.isDefEq.respectTransparency.types false in
include hfam in

theorem hexit3 (c : Dev nD) :
    iprop((pdats 1 c).arrays ((pdats 1 c).arrAt · (Pipeline.pin (pcfgs (F := F)) adm 1).N)
        ∗ (pdats 1 c).owesAt ι (Fin.last (Pipeline.pin (pcfgs (F := F)) adm 1).N)
        ∗ (iprop(∃ r, prngReg c r) : sProp 𝕄)
        ∗ Pipeline.unscopedRest (Ix := Ix) (Name := Name) (U := U) (Lvl := Lvl) spec3 c (V3 W c))
      ⊢ |={Set.univ}=> post3 (Name := Name) (U := U) (Lvl := Lvl) W O B ι c := by
  have hjoin := Pipeline.unscopedBufs_of_arrays (p := 1) (pcfgs (F := F)) adm (Ix := Ix) (Name := Name) (U := U) (Lvl := Lvl)
    launch3.win launch3.arr_whole c pdats (share3 W O B pdats hfam c)
    (V3 W c) (Vout W O B c) ((pdats 1 c).arrAt · cfg3.N) (fun w => by rw [hfam c]; exact hF3 W O B c w) (hrest3 W O B c)
  rw [Pipeline.unscopedBufs_held] at hjoin
  unfold post3
  iintro ⟨Ha, HO, HY, Hrest⟩
  imodintro
  isplitl [Ha Hrest]
  · iapply hjoin; isplitl [Ha] <;> iassumption
  isplitl [HY]; · iexact HY
  rw [hfam c]
  iexact HO

-- The loss region leaves the scalar loss of the gathered similarities and everything else as entered.
def reg3 (𝒱₀ : Variants) (L : GSem nD τ sig → Finset Ix) (lv : GSem nD τ sig → Ix → Lvl)
    (hwaits : ∀ c, (levAts L lv : sProp 𝕄) ⊢ Pipeline.cellsWaits (Pipeline.pin (pcfgs (F := F)) adm) pdats ι 1 c) :
    Pipeline.RegionSeg (pcfgs (F := F)) adm pdats ι defs₀ 𝒱₀ L lv 1 where
  win := launch3.win.to₀
  block_pos := launch3.block_pos
  stage_whole := launch3.stage_whole
  K := PEmpty
  osem k := k.elim
  ho := Pipeline.OwnSemFacts.none _
  hbody c := by rw [hfam c]; exact body_obligation3_loose (V3 W) O B ι 𝒱₀ c
  hwaits := hwaits
  pre := pre3 W O B
  post := post3 W O B ι
  X c := iprop(∃ r, prngReg c r)
  Y c := iprop(∃ r, prngReg c r)
  Z c := Pipeline.unscopedRest (Ix := Ix) (Name := Name) (U := U) (Lvl := Lvl) spec3 c (V3 W c)
  hentry := hentry3 W O B ι pdats hfam L lv
  hin := hin3 W O B pdats hfam
  hout := hout3 W O B pdats hfam
  hexit := hexit3 W O B ι pdats hfam

end Region

section Exit

variable (V : (c : Dev nD) → (b : Ref sig .tc) → Buf (Elt F) ((c : Thread nD τ).loc b)) (O : CellTallies nD τ sig Ix)
  (B : Set (SemLoc sig × Ix))

theorem read_arrAt3_1 (c : Dev nD) :
    ((cfg3.win 1).blk t3_0).view.read (Elt F) ((dat3 (Name := Name) (U := U) (Lvl := Lvl) V O B c).arrAt 1 cfg3.N)
      = lossOf (iblk3 V c 0 t3_0) := by
  rw [(dat3 (Name := Name) (U := U) (Lvl := Lvl) V O B c).read_blk_arrAt_eq_flushed 1
    (fun t t' _ _ h => absurd ((fin_N3 t).trans (fin_N3 t').symm) h) cfg3.N t3_0 t3_0.isLt (flush3_1 t3_0)]
  unfold Dat.flushed
  rw [after3_1_loss]
  rfl

end Exit

section ExitNamed

theorem blk3_0_read (f : main_v4.ty.Contents (Elt F)) : ((cfg3.win 0).blk t3_0).view.read (Elt F) f = f :=
  Memref.read_access_unit_zero (Elt F) main_v4 (funext fun a => by fin_cases a <;> rfl) _ f

theorem blk3_1_read (f : main_v5.ty.Contents (Elt F)) : ((cfg3.win 1).blk t3_0).view.read (Elt F) f = f :=
  Memref.read_access_unit_zero (Elt F) main_v5 (funext fun a => by fin_cases a <;> rfl) _ f

variable (W : Dev nD → Valuation τ sig (Elt F)) (O : CellTallies nD τ sig Ix) (B : Set (SemLoc sig × Ix))

theorem Wout_main_v5 (c : Dev nD) :
    Wout (Name := Name) (U := U) (Lvl := Lvl) W O B c (Proc.devRef .tc main_v5) = lossOf (W c (Proc.devRef .tc main_v4)) := by
  have h := read_arrAt3_1 (Name := Name) (U := U) (Lvl := Lvl) (V3 W) O B c
  rw [blk3_1_read] at h
  unfold iblk3 at h
  rw [blk3_0_read] at h
  exact (Wout_arr W O B c 1).trans h

theorem Wout_other (c : Dev nD) (b : Ref sig .tc) (h4 : main_v4 ≠ b) (h5 : main_v5 ≠ b) :
    Wout (Name := Name) (U := U) (Lvl := Lvl) W O B c (Proc.devRef .tc b) = W c (Proc.devRef .tc b) :=
  Wout_of_ne W O B c b fun w => match w with
    | ⟨0, _⟩ => h4
    | ⟨1, _⟩ => h5

end ExitNamed

end Cert.Proof.D

end
-- ==== Proof.KIChain.lean ====
import proofs.«204933_g4492535792355_cont_8to1_c_766_42_alg».proof.Proof.KICommon
import proofs.«204933_g4492535792355_cont_8to1_c_766_42_alg».proof.Proof.LibScRegion
import proofs.«204933_g4492535792355_cont_8to1_c_766_42_alg».proof.Proof.RegionB
import proofs.«204933_g4492535792355_cont_8to1_c_766_42_alg».proof.Proof.RegionD

set_option Elab.async false

noncomputable section

namespace Cert.Proof.KI

open Cert.KernelIdeal Cert.KernelIdeal.Gen

open Idealize.ShloMosaic
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]
variable {U : Type} [URA U]

local notation "𝕄" => MT nD τ sig (HIx 2) (Elt F) ℕ U ℕ

variable (EH : Emb UH (MT nD τ sig (HIx 2) (Elt F) ℕ U ℕ)) (EP : Emb UP (MT nD τ sig (HIx 2) (Elt F) ℕ U ℕ))
variable (P : (K (F := F)).Pay (nD := nD) (Val := Elt F) (Name := ℕ) (U := U))

abbrev callRegion (p : Fin 2) : Prog (TpuEff nD τ sig (Elt F) (ΛP (F := F)) .tc) PUnit :=
  Prog.lift (.customCall (Pipeline.entry p) ())

abbrev opReshapePos : HloOp τ sig (Elt F) := StableHlo.reshape main_arg2 main_v1 rfl shapeCasts_S128_S128x1
abbrev opZero : HloOp τ sig (Elt F) := StableHlo.nullary main_c (constantI S_ 32 0#32)
abbrev opConvert : HloOp τ sig (Elt F) := StableHlo.TRef.unary (.of main_c : StableHlo.TRef sig ⟨S_, .i32⟩) main_call0.v0 id
abbrev opPad : HloOp τ sig (Elt F) :=
  StableHlo.TRef.binary (.of main_arg3 : StableHlo.TRef sig ⟨S128x4097, .i32⟩) main_call0.v0 main_call0.v1 (fun x v => pad S128x4112 ![0, 0] ![0, 15] ![0, 0] x v pads_S128x4097_S128x4112_000_0150 h_S_)
abbrev opReshapeLoss : HloOp τ sig (Elt F) := StableHlo.reshape main_v5 main_v6 rfl shapeCasts_S1x1_S1

theorem main_shape (d : Dev nD) :
    main (F := F) d = (do
      (K (F := F)).run d 0
      hlo rfl (opReshapePos (F := F)) (fun _ => .ret ⟨⟩)
      SparseCore.liftProg (Q := 2) (callRegion (F := F) 0)
      hlo rfl (opZero (F := F)) (fun _ => .ret ⟨⟩)
      (do hlo rfl (opConvert (F := F)) (fun _ => .ret ⟨⟩)
          hlo rfl (opPad (F := F)) (fun _ => .ret ⟨⟩)
          pure ⟨⟩)
      (K (F := F)).run d 1
      SparseCore.liftProg (Q := 2) (callRegion (F := F) 1)
      hlo rfl (opReshapeLoss (F := F)) (fun _ => .ret ⟨⟩)
      pure ⟨⟩) := rfl

section Main

variable (m : (ℓ : Loc nD τ sig) → Buf (Elt F) ℓ) (ρ : Dev nD → PrngReg)
variable (hloc : Cert.Proof.C.PayLocal F)
variable (W1 W5 : Dev nD → Valuation τ sig (Elt F))

def dev0 : Dev nD := ⟨0, by decide⟩
theorem dev_eq (d : Dev nD) : d = dev0 := Subsingleton.elim _ _

abbrev UC : Finset (DevRef τ sig) := Pipeline.ucRefs τ sig

abbrev Bn (n : ℕ) : Set (SemLoc sig × HIx 2) := {x | (K (F := F)).lev (((dev0 : Dev nD).tc : Thread nD τ), x.1) x.2 ≤ 8 * n}
abbrev On (n : ℕ) : CellTallies nD τ sig (HIx 2) := (K (F := F)).Otc dev0 n

abbrev W0 : Dev nD → Valuation τ sig (Elt F) := fun c b => m (c, b)
abbrev W2 : Dev nD → Valuation τ sig (Elt F) := fun c => (opReshapePos (F := F)).result (W1 c)
abbrev dat3' : (c : Dev nD) → Pipeline.Dat τ (Elt F) (HIx 2) ℕ U ℕ cfg3 c :=
  fun c => Cert.Proof.D.dat3 (Cert.Proof.D.V3 W5) (On (F := F) 2) (Bn (F := F) 2) c
abbrev pdats : (p : Fin 2) → (c : Dev nD) → Pipeline.Dat τ (Elt F) (HIx 2) ℕ U ℕ (Pipeline.pin (pcfgs (F := F)) adm p) c :=
  Cert.Proof.C.pdatsB (W2 W1) (On (F := F) 1) (Bn (F := F) 1) (dat3' (U := U) W5)
abbrev W3 : Dev nD → Valuation τ sig (Elt F) :=
  fun c => Cert.Proof.C.Wexit (Ix := HIx 2) (Name := ℕ) (U := U) (Lvl := ℕ) (W2 W1) (On (F := F) 1) (Bn (F := F) 1) c
abbrev W4 : Dev nD → Valuation τ sig (Elt F) :=
  fun c => (opPad (F := F)).result ((opConvert (F := F)).result ((opZero (F := F)).result (W3 (U := U) W1 c)))
abbrev W6 : Dev nD → Valuation τ sig (Elt F) :=
  fun c => Cert.Proof.D.Wout (Ix := HIx 2) (Name := ℕ) (U := U) (Lvl := ℕ) W5 (On (F := F) 2) (Bn (F := F) 2) c
abbrev W7 : Dev nD → Valuation τ sig (Elt F) := fun c => (opReshapeLoss (F := F)).result (W6 (U := U) W5 c)

def reg0 : Pipeline.RegionSeg (pcfgs (F := F)) adm (pdats (U := U) W1 W5) none defs₀ 𝒱₀ (K (F := F)).L (K (F := F)).lev 0 :=
  Cert.Proof.C.regB (W2 W1) (On (F := F) 1) (Bn (F := F) 1) 𝒱₀ none hloc (dat3' (U := U) W5) (K (F := F)).L (K (F := F)).lev
    (SparseCore.Cfg.cellsWaits_none (pcfgs (F := F)) adm (K (F := F)) (pdats (U := U) W1 W5) (K (F := F)).lev 0
      (fun _ _ g => SparseCore.Cfg.Otc_none (pcfgs (F := F)) (K (F := F)) dev0 1 g) (K (F := F)).refines_self)

def reg1 : Pipeline.RegionSeg (pcfgs (F := F)) adm (pdats (U := U) W1 W5) none defs₀ 𝒱₀ (K (F := F)).L (K (F := F)).lev 1 :=
  Cert.Proof.D.reg3 W5 (On (F := F) 2) (Bn (F := F) 2) none (pdats (U := U) W1 W5) (fun _ => rfl) 𝒱₀ (K (F := F)).L (K (F := F)).lev
    (SparseCore.Cfg.cellsWaits_none (pcfgs (F := F)) adm (K (F := F)) (pdats (U := U) W1 W5) (K (F := F)).lev 1
      (fun _ _ g => SparseCore.Cfg.Otc_none (pcfgs (F := F)) (K (F := F)) dev0 2 g) (K (F := F)).refines_self)

end Main

end Cert.Proof.KI

end
-- ==== Proof.TileC.lean ====
import proofs.«204933_g4492535792355_cont_8to1_c_766_42_alg».proof.Proof.Gen.KernelIdeal.Skeleton
import Idealize.ShloMosaic.Lib.SparseCore.Launch
import Idealize.ShloMosaic.Lib.SparseCore.Ops
import Idealize.ShloMosaic.Lib.Tactic

noncomputable section

namespace Cert.Proof.F

open Cert.KernelIdeal Cert.KernelIdeal.Gen

open Idealize.ShloMosaic
open Idealize.ShloMosaic.SparseCore (S V T)
open Idealize.ShloMosaic.SparseCore.Cfg (HIx ownBufs ownSems0 ownCells ownRefs mem_ownCells)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

abbrev cV (L : grid2.Coords) : Fin τ.nSC := (L 0).castLE hcore2
abbrev sV (L : grid2.Coords) : Fin τ.nSub := (L 1).castLE hsub2

abbrev stV : Memref sig .scVector .hbm S256x100000 .f32 := Memref.whole main_v2_0_scv
abbrev ixV : Memref sig .scVector .hbm S128x4112 .i32 := Memref.whole main_v3_scv
abbrev rV : Memref sig .scVector .hbm S256x4112 .f32 := Memref.whole main_v4_scv
abbrev s0 : Memref sig .scVector .vmem S100000 .f32 := Memref.whole cc2_scratch0
abbrev s1 : Memref sig .scVector .vmem S4112 .i32 := Memref.whole cc2_scratch1
abbrev s2 : Memref sig .scVector .vmem S4112 .f32 := Memref.whole cc2_scratch2

theorem hsemN (n : Fin 17) : 19 + n.val + S_.numel ≤ 38 := by
  have h1 : S_.numel = 1 := by decide
  have := n.isLt
  omega
def semsN (n : Fin 17) : DmaSems sig S_ := SemArray.consecutive (19 + n.val) S_ (hsemN n)

def semA (j : Fin 8) : DmaSems sig S_ := semsN ⟨1 + 2 * j.val, by have := j.isLt; omega⟩
def semB (j : Fin 8) : DmaSems sig S_ := semsN ⟨2 + 2 * j.val, by have := j.isLt; omega⟩
abbrev semS : DmaSems sig S_ := cc2_scratch3

abbrev stRow1 (L : grid2.Coords) (j : Fin 8) : Memref sig .scVector .hbm S1x100000 .f32 :=
  (stV).slice (Rect.unit (s := S256x100000) (k2_off1 L (BitVec.ofNat 32 j.val)) S1x100000.size (k2_off1_inb L j)) (fun _ => rfl)
abbrev stRowK (L : grid2.Coords) (j : Fin 8) : Memref sig .scVector .hbm S100000 .f32 :=
  (stRow1 L j).squeeze S100000 squeezes_S1x100000_S100000
abbrev ixRow1 (L : grid2.Coords) (j : Fin 8) : Memref sig .scVector .hbm S1x4112 .i32 :=
  (ixV).slice (Rect.unit (s := S128x4112) (k2_off2 L (BitVec.ofNat 32 j.val)) S1x4112.size (k2_off2_inb L j)) (fun _ => rfl)
abbrev ixRowK (L : grid2.Coords) (j : Fin 8) : Memref sig .scVector .hbm S4112 .i32 :=
  (ixRow1 L j).squeeze S4112 squeezes_S1x4112_S4112
abbrev rRow1 (L : grid2.Coords) (j : Fin 8) : Memref sig .scVector .hbm S1x4112 .f32 :=
  (rV).slice (Rect.unit (s := S256x4112) (k2_off5 L (BitVec.ofNat 32 j.val)) S1x4112.size (k2_off5_inb L j)) (fun _ => rfl)
abbrev rRowK (L : grid2.Coords) (j : Fin 8) : Memref sig .scVector .hbm S4112 .f32 :=
  (rRow1 L j).squeeze S4112 squeezes_S1x4112_S4112

def tBody (L : grid2.Coords) : Fin k2_t1_loop.trips → Unit → Prog (TpuEff nD τ sig (Elt F) Λ₀ (.scVector (cV L) (sV L))) Unit :=
  fun t _ => do
    let v237 : Vec F S16 .i32 ← Prog.lift (.load s1 (Rect.unit (s := S4112) (k2_off3 t) S16.size (k2_off3_inb t)).toLoadRect (View.loadsAt_vmem h_S16))
    have hw : k2_chk1 v237 := (← Prog.lift (TpuEff.assume (k2_chk1 v237) (k2_chk1.dec v237))).down
    let v238 : Vec F S16 .f32 ← SparseCore.vectorLoadIdx s0 ![v237] (k2_idx1_inb v237 hw) (View.loads_vmem h_S100000)
    let _v241 : Vec F S16 .f32 ← Prog.lift (.load s2 (Rect.unit (s := S4112) (k2_off4 t) S16.size (k2_off4_inb t)).toLoadRect (View.loadsAt_vmem h_S16))
    Prog.lift (.store s2 (Rect.unit (s := S4112) (k2_off4 t) S16.size (k2_off4_inb t)) v238 Finset.univ (View.stores_vmem_bits_univ h_S16 rfl) (.inl rfl))
    pure ⟨⟩

def rowK {α : Type} (L : grid2.Coords) (j : Fin 8) (k : Prog (TpuEff nD τ sig (Elt F) Λ₀ (.scVector (cV L) (sV L))) α) :
    Prog (TpuEff nD τ sig (Elt F) Λ₀ (.scVector (cV L) (sV L))) α :=
  .op (.enqueueDma (stRowK L j) (.here s0) (.dma semS.sem) ((View.wordExact_bits rfl).reshape _ _) (Memref.isWhole_whole _).wordExact ⟨Or.inl rfl, trivial⟩) fun _ =>
  .op (.enqueueDma (ixRowK L j) (.here s1) (.dma (semA j).sem) ((View.wordExact_bits rfl).reshape _ _) (Memref.isWhole_whole _).wordExact ⟨Or.inl rfl, trivial⟩) fun _ =>
  .op (.waitDma2 (semA j).sem (ixRowK L j) s1 ((View.wordExact_bits rfl).reshape _ _) (Memref.isWhole_whole _).wordExact) fun _ =>
  .op (.waitDma2 semS.sem (stRowK L j) s0 ((View.wordExact_bits rfl).reshape _ _) (Memref.isWhole_whole _).wordExact) fun _ =>
  (Scf.Loop.for k2_t1_loop k2_t1_ok ⟨⟩ (tBody (F := F) L)) >>= fun _ =>
  .op (.enqueueDma s2 (.here (rRowK L j)) (.dma (semB j).sem) (Memref.isWhole_whole _).wordExact ((View.wordExact_bits rfl).reshape _ _) ⟨Or.inl rfl, trivial⟩) fun _ =>
  .op (.waitDma2 (semB j).sem s2 (rRowK L j) (Memref.isWhole_whole _).wordExact ((View.wordExact_bits rfl).reshape _ _)) fun _ => k

theorem body_eq (L : grid2.Coords) :
    cc2__stage_c_body (F := F) L stV (Memref.isWhole_whole _) ixV (Memref.isWhole_whole _) rV (Memref.isWhole_whole _)
        s0 (Memref.isWhole_whole _) s1 (Memref.isWhole_whole _) s2 (Memref.isWhole_whole _) cc2_scratch3
        cc2_scoped0 cc2_scoped1 cc2_scoped2 cc2_scoped3 cc2_scoped4 cc2_scoped5 cc2_scoped6 cc2_scoped7
        cc2_scoped8 cc2_scoped9 cc2_scoped10 cc2_scoped11 cc2_scoped12 cc2_scoped13 cc2_scoped14 cc2_scoped15
      = rowK L 0 (rowK L 1 (rowK L 2 (rowK L 3 (rowK L 4 (rowK L 5 (rowK L 6 (rowK L 7 (.ret ⟨⟩)))))))) := by
  rw [cc2__stage_c_body_eq_skeleton]
  unfold cc2__stage_c_body_skel
  rw [k2_part1_eq_skeleton, k2_part2_eq_skeleton, k2_part3_eq_skeleton, k2_part4_eq_skeleton, k2_part5_eq_skeleton,
    k2_part6_eq_skeleton, k2_part7_eq_skeleton, k2_part8_eq_skeleton, k2_part9_eq_skeleton, k2_part10_eq_skeleton]
  unfold k2_part1_skel k2_part2_skel k2_part3_skel k2_part4_skel k2_part5_skel k2_part6_skel k2_part7_skel k2_part8_skel
    k2_part9_skel k2_part10_skel rowK
  simp only [Prog.lift, Prog.bind_op, Prog.bind_ret, Prog.pure_eq_ret, Prog.bind_assoc]
  rfl

variable {UU : Type} [URA UU]

local notation "𝕄" => MT nD τ sig (HIx 2) (Elt F) ℕ UU ℕ

abbrev ΛP : Labels := Pipeline.Sig Λ₀ (Fin 2) fun p => (pcfgs (F := F) p).Adm
abbrev K : SparseCore.Cfg τ sig (ΛP (F := F)) 2 := sc (F := F)
abbrev 𝒱₀ : Variants := Variants.none

abbrev UK : Type := URounds (GSem nD τ sig) Unit

abbrev stLoc (d : Dev nD) : Loc nD τ sig := (SparseCore.T d).loc main_v2_0
abbrev ixLoc (d : Dev nD) : Loc nD τ sig := (SparseCore.T d).loc main_v3
abbrev rLoc (d : Dev nD) : Loc nD τ sig := (SparseCore.T d).loc main_v4

def Lof (c : Fin τ.nSC) (s : Fin τ.nSub) : grid2.Coords :=
  fun | 0 => (⟨c.val, c.isLt⟩ : Fin (grid2.bound 0)) | 1 => (⟨s.val, s.isLt⟩ : Fin (grid2.bound 1)) | ⟨_ + 2, h⟩ => absurd h (Nat.not_lt.2 (Nat.le_add_left _ _))
omit [FloatOps F] [Named F] in
theorem Lof_eq (L : grid2.Coords) : Lof (cV L) (sV L) = L := by
  funext a
  match a with
  | 0 => rfl
  | 1 => rfl
omit [FloatOps F] [Named F] in
theorem cV_Lof (c : Fin τ.nSC) (s : Fin τ.nSub) : cV (Lof c s) = c := rfl
omit [FloatOps F] [Named F] in
theorem sV_Lof (c : Fin τ.nSC) (s : Fin τ.nSub) : sV (Lof c s) = s := rfl

def colOf (w : BitVec 32) : S100000.Idx := Shape.ofLane (d := ![100000]) ⟨w.toNat % 100000, Nat.mod_lt _ (by decide)⟩

section Contents

variable (fst : (d : Dev nD) → Buf (Elt F) (stLoc d)) (fix : (d : Dev nD) → Buf (Elt F) (ixLoc d))

def StHolds (d : Dev nD) (c : Fin τ.nSC) (s : Fin τ.nSub) (L : grid2.Coords) (j : Fin 8) (f : Buf (Elt F) ((V d c s).loc cc2_scratch0)) : Prop :=
  ∀ k, f k = fst d ((stRowK L j).view.emb k)

def IxHolds (d : Dev nD) (c : Fin τ.nSC) (s : Fin τ.nSub) (L : grid2.Coords) (j : Fin 8) (f : Buf (Elt F) ((V d c s).loc cc2_scratch1)) : Prop :=
  ∀ k, f k = fix d ((ixRowK L j).view.emb k)

def RHolds (d : Dev nD) (L : grid2.Coords) (j : Fin 8) (f : Buf (Elt F) (rLoc d)) : Prop :=
  ∀ k : S4112.Idx, f ((rRowK L j).view.emb k) = fst d ((stRowK L j).view.emb (colOf (fix d ((ixRowK L j).view.emb k))))

def PreOK : Prop := ∀ (d : Dev nD) (L : grid2.Coords) (j : Fin 8) (k : S4112.Idx), (fix d ((ixRowK L j).view.emb k)).toNat < 100000

end Contents

abbrev cellS (d : Dev nD) (c : Fin τ.nSC) (s : Fin τ.nSub) : GSem nD τ sig := (V d c s, .dma semS.sem)
abbrev cellA (d : Dev nD) (c : Fin τ.nSC) (s : Fin τ.nSub) (j : Fin 8) : GSem nD τ sig := (V d c s, .dma (semA j).sem)
abbrev cellB (d : Dev nD) (c : Fin τ.nSC) (s : Fin τ.nSub) (j : Fin 8) : GSem nD τ sig := (V d c s, .dma (semB j).sem)

abbrev NS : ℕ := (s0 : Memref sig .scVector .vmem S100000 .f32).view.dmaCredit
abbrev NA : ℕ := (s1 : Memref sig .scVector .vmem S4112 .i32).view.dmaCredit
abbrev NB : ℕ := sig.dmaCredit .scVector (Kind.scVector.table .hbm) (main_v4_scv : Ref sig .scVector).idx S4112 .f32
theorem NS_pos : 0 < NS := View.dmaCredit_pos _ (by decide)
theorem NA_pos : 0 < NA := View.dmaCredit_pos _ (by decide)
theorem NB_pos : 0 < NB := sig.dmaCredit_pos _ _ _ _ _ (by decide)

inductive CK | S | A (j : Fin 8) | B (j : Fin 8)
  deriving DecidableEq

def kindOf (v : ℕ) : Option CK :=
  if v = 19 then some .S
  else if h : 20 ≤ v ∧ v < 36 then (if (v - 20) % 2 = 0 then some (.A ⟨(v - 20) / 2, by omega⟩) else some (.B ⟨(v - 20) / 2, by omega⟩))
  else none
theorem kindOf_S : kindOf 19 = some .S := by decide
theorem kindOf_A : ∀ j : Fin 8, kindOf (20 + 2 * j.val) = some (.A j) := by decide
theorem kindOf_B : ∀ j : Fin 8, kindOf (21 + 2 * j.val) = some (.B j) := by decide

def cellKind (g : GSem nD τ sig) : Option CK :=
  match g with
  | ((_, .scVector _ _), .dma sm) => kindOf sm.val
  | _ => none

theorem semS_val : (semS.sem : DmaSem sig).val = 19 := by decide
theorem semA_val : ∀ j : Fin 8, ((semA j).sem : DmaSem sig).val = 20 + 2 * j.val := by decide
theorem semB_val : ∀ j : Fin 8, ((semB j).sem : DmaSem sig).val = 21 + 2 * j.val := by decide

@[simp] theorem cellKind_S (d : Dev nD) (c : Fin τ.nSC) (s : Fin τ.nSub) : cellKind (cellS d c s) = some .S := by
  show kindOf (semS.sem : DmaSem sig).val = _; rw [semS_val, kindOf_S]
@[simp] theorem cellKind_A (d : Dev nD) (c : Fin τ.nSC) (s : Fin τ.nSub) (j : Fin 8) : cellKind (cellA d c s j) = some (.A j) := by
  show kindOf ((semA j).sem : DmaSem sig).val = _; rw [semA_val, kindOf_A]
@[simp] theorem cellKind_B (d : Dev nD) (c : Fin τ.nSC) (s : Fin τ.nSub) (j : Fin 8) : cellKind (cellB d c s j) = some (.B j) := by
  show kindOf ((semB j).sem : DmaSem sig).val = _; rw [semB_val, kindOf_B]

def nRounds : CK → ℕ
  | .S => 8
  | _ => 1

section Sched

variable (fst : (d : Dev nD) → Buf (Elt F) (stLoc d)) (fix : (d : Dev nD) → Buf (Elt F) (ixLoc d))
variable (qI : Dev nD → Fin τ.nSC → Fin τ.nSub → PosShare TreeShare)

def payS (d : Dev nD) (c : Fin τ.nSC) (s : Fin τ.nSub) (j : Fin 8) : sProp 𝕄 :=
  iprop((∃ f, ⌜StHolds fst d c s (Lof c s) j f⌝ ∗ (V d c s).loc cc2_scratch0 ↦{fullShare} f)
    ∗ stLoc d ↦[(stRowK (Lof c s) j).view.set]{fullShare} fst d)
def payA (d : Dev nD) (c : Fin τ.nSC) (s : Fin τ.nSub) (j : Fin 8) : sProp 𝕄 :=
  iprop((∃ f, ⌜IxHolds fix d c s (Lof c s) j f⌝ ∗ (V d c s).loc cc2_scratch1 ↦{fullShare} f)
    ∗ ixLoc d ↦[(ixRowK (Lof c s) j).view.set]{qI d c s} fix d)
def payB (d : Dev nD) (c : Fin τ.nSC) (s : Fin τ.nSub) (j : Fin 8) : sProp 𝕄 :=
  iprop((∃ f, ⌜RHolds fst fix d (Lof c s) j f⌝ ∗ rLoc d ↦[(rRowK (Lof c s) j).view.set]{fullShare} f)
    ∗ ∃ f, (V d c s).loc cc2_scratch2 ↦{fullShare} f)

def payOf (d : Dev nD) (c : Fin τ.nSC) (s : Fin τ.nSub) : CK → ℕ → sProp 𝕄
  | .S, r => if h : r < 8 then payS (UU := UU) fst d c s ⟨r, h⟩ else iprop(emp)
  | .A j, _ => payA (UU := UU) fix qI d c s j
  | .B j, _ => payB (UU := UU) fst fix d c s j

def kPay (g : GSem nD τ sig) (r : ℕ) : sProp 𝕄 :=
  match g with
  | ((d, .scVector c s), .dma sm) =>
    match kindOf sm.val with
    | some k => payOf (UU := UU) fst fix qI d c s k r
    | none => iprop(emp)
  | _ => iprop(emp)

def kRd : Rounds.Schedule (GSem nD τ sig) Unit 𝕄 where
  duties g r := match cellKind g with | some k => if r < nRounds k then {()} else ∅ | none => ∅
  amount g _ _ := match cellKind g with | some .S => NS | some (.A _) => NA | some (.B _) => NB | none => 1
  payload g r _ := kPay (UU := UU) fst fix qI g r
  amount_pos g _ _ _ := by
    rcases cellKind g with _ | ⟨_ | _ | _⟩
    · exact Nat.one_pos
    · exact NS_pos
    · exact NA_pos
    · exact NB_pos

instance kRd_payload_storable (g : GSem nD τ sig) (r : ℕ) (u : Unit) :
    BI.Storable (upEmb : UEmb _ 𝕄) ((kRd (UU := UU) fst fix qI).payload g r u) := by
  show BI.Storable upEmb (kPay (UU := UU) fst fix qI g r)
  unfold kPay
  rcases g with ⟨⟨d, _ | c | ⟨c, s⟩⟩, _ | sm⟩ <;> dsimp only <;> try infer_instance
  cases kindOf sm.val with
  | none => dsimp only; infer_instance
  | some k =>
    dsimp only
    cases k with
    | S => unfold payOf; dsimp only; split <;> (try unfold payS) <;> infer_instance
    | A j => unfold payOf payA; dsimp only; infer_instance
    | B j => unfold payOf payB; dsimp only; infer_instance

variable {g : GSem nD τ sig} {k : CK} {r : ℕ}

theorem kRd_duties (hk : cellKind g = some k) (hr : r < nRounds k) : (kRd (UU := UU) fst fix qI).duties g r = {()} := by
  show (match cellKind g with | some k => if r < nRounds k then {()} else ∅ | none => ∅) = _
  rw [hk]; exact if_pos hr
theorem kRd_mem (hk : cellKind g = some k) (hr : r < nRounds k) : () ∈ (kRd (UU := UU) fst fix qI).duties g r := by
  rw [kRd_duties fst fix qI hk hr]; exact Finset.mem_singleton_self _
theorem kRd_later (hk : cellKind g = some k) : ∀ r, nRounds k ≤ r → (kRd (UU := UU) fst fix qI).duties g r = ∅ := fun r h => by
  show (match cellKind g with | some k => if r < nRounds k then {()} else ∅ | none => ∅) = _
  rw [hk]; exact if_neg (by omega)
theorem kRd_back (hk : cellKind g = some k) (hr : r < nRounds k) :
    bigSep ((kRd (UU := UU) fst fix qI).duties g r \ ∅) (fun u => (kRd (UU := UU) fst fix qI).payload g r u) ⊢ (kRd (UU := UU) fst fix qI).payload g r () := by
  rw [Finset.sdiff_empty, kRd_duties fst fix qI hk hr, bigSep_singleton]
theorem kRd_expect (hk : cellKind g = some k) (hr : r < nRounds k) :
    (kRd (UU := UU) fst fix qI).expect g r = (kRd (UU := UU) fst fix qI).amount g r () := by
  unfold Rounds.Schedule.expect; rw [kRd_duties fst fix qI hk hr]; exact Finset.sum_singleton _ _
theorem kRd_amount_S (hk : cellKind g = some .S) : (kRd (UU := UU) fst fix qI).amount g r () = NS := by
  show (match cellKind g with | some .S => NS | some (.A _) => NA | some (.B _) => NB | none => 1) = _
  rw [hk]
theorem kRd_amount_A {j : Fin 8} (hk : cellKind g = some (.A j)) : (kRd (UU := UU) fst fix qI).amount g r () = NA := by
  show (match cellKind g with | some .S => NS | some (.A _) => NA | some (.B _) => NB | none => 1) = _
  rw [hk]
theorem kRd_amount_B {j : Fin 8} (hk : cellKind g = some (.B j)) : (kRd (UU := UU) fst fix qI).amount g r () = NB := by
  show (match cellKind g with | some .S => NS | some (.A _) => NA | some (.B _) => NB | none => 1) = _
  rw [hk]

theorem kRd_payload_S (d : Dev nD) (c : Fin τ.nSC) (s : Fin τ.nSub) (j : Fin 8) :
    (kRd (UU := UU) fst fix qI).payload (cellS d c s) j.val () = payS (UU := UU) fst d c s j := by
  show (match kindOf (semS.sem : DmaSem sig).val with | some k => payOf (UU := UU) fst fix qI d c s k j.val | none => iprop(emp)) = _
  rw [semS_val, kindOf_S]
  show (if h : j.val < 8 then payS (UU := UU) fst d c s ⟨j.val, h⟩ else iprop(emp)) = _
  rw [dif_pos j.isLt]
theorem kRd_payload_A (d : Dev nD) (c : Fin τ.nSC) (s : Fin τ.nSub) (j : Fin 8) :
    (kRd (UU := UU) fst fix qI).payload (cellA d c s j) 0 () = payA (UU := UU) fix qI d c s j := by
  show (match kindOf ((semA j).sem : DmaSem sig).val with | some k => payOf (UU := UU) fst fix qI d c s k 0 | none => iprop(emp)) = _
  rw [semA_val, kindOf_A]; rfl
theorem kRd_payload_B (d : Dev nD) (c : Fin τ.nSC) (s : Fin τ.nSub) (j : Fin 8) :
    (kRd (UU := UU) fst fix qI).payload (cellB d c s j) 0 () = payB (UU := UU) fst fix d c s j := by
  show (match kindOf ((semB j).sem : DmaSem sig).val with | some k => payOf (UU := UU) fst fix qI d c s k 0 | none => iprop(emp)) = _
  rw [semB_val, kindOf_B]; rfl

end Sched

section Values

variable (d : Dev nD) (c : Fin τ.nSC) (s : Fin τ.nSub)

theorem trips_eq : k2_t1_loop.trips = 257 := by decide

abbrev rI (t : Fin k2_t1_loop.trips) : Rect S4112 := Rect.unit (s := S4112) (k2_off3 t) S16.size (k2_off3_inb t)
abbrev rT (t : Fin k2_t1_loop.trips) : Rect S4112 := Rect.unit (s := S4112) (k2_off4 t) S16.size (k2_off4_inb t)

def Gath (g0 : Buf (Elt F) ((V d c s).loc cc2_scratch0)) (g1 : Buf (Elt F) ((V d c s).loc cc2_scratch1)) (n : ℕ)
    (f2 : Buf (Elt F) ((V d c s).loc cc2_scratch2)) : Prop :=
  ∀ x : S4112.Idx, (x 0).val < n → f2 x = g0 (colOf (g1 x))

omit [FloatOps F] [Named F] in
theorem rI_idx (t : Fin k2_t1_loop.trips) (y : S16.Idx) : (rI t).toLoadRect.idx y = (rT t).toLoadRect.idx y := by
  funext a; apply Fin.ext
  rw [LoadRect.idx_apply, LoadRect.idx_apply]
  show k2_off3 t a + 1 * (y a).val = k2_off4 t a + 1 * (y a).val
  rw [k2_off3_eq, k2_off4_eq]

omit [FloatOps F] [Named F] in
theorem mem_rT (t : Fin k2_t1_loop.trips) (x : S4112.Idx) : x ∈ (rT t).toLoadRect.set ↔ 16 * t.val ≤ (x 0).val ∧ (x 0).val < 16 * t.val + 16 := by
  rw [Rect.mem_set_unit, Fin.forall_fin_one, k2_off4_eq]
  simp

theorem chk_of_lt (g1 : Buf (Elt F) ((V d c s).loc cc2_scratch1)) (hlt : ∀ x : S4112.Idx, (g1 x).toNat < 100000) (t : Fin k2_t1_loop.trips) :
    k2_chk1 ((s1 : Memref sig .scVector .vmem S4112 .i32).view.readAt (Elt F) (rI t).toLoadRect g1) := by
  intro a x
  obtain rfl : a = 0 := Subsingleton.elim _ _
  show ((s1 : Memref sig .scVector .vmem S4112 .i32).view.readAt (Elt F) (rI t).toLoadRect g1 x).toNat < 100000
  simp only [View.readAt_apply, Memref.view_whole, View.read_whole]
  exact hlt _

theorem gath_step (g0 : Buf (Elt F) ((V d c s).loc cc2_scratch0)) (g1 : Buf (Elt F) ((V d c s).loc cc2_scratch1))
    (f2 : Buf (Elt F) ((V d c s).loc cc2_scratch2)) (hlt : ∀ x : S4112.Idx, (g1 x).toNat < 100000) (t : Fin k2_t1_loop.trips)
    (h : Gath d c s g0 g1 (16 * t.val) f2)
    (hchk : k2_chk1 ((s1 : Memref sig .scVector .vmem S4112 .i32).view.readAt (Elt F) (rI t).toLoadRect g1)) :
    Gath d c s g0 g1 (16 * (t.val + 1))
      (((s2 : Memref sig .scVector .vmem S4112 .f32).access (rT t)).write (Elt F) f2
        (loadIdx (((s0 : Memref sig .scVector .vmem S100000 .f32).access (.whole S100000)).read (Elt F) g0)
          ![(s1 : Memref sig .scVector .vmem S4112 .i32).view.readAt (Elt F) (rI t).toLoadRect g1] (k2_idx1_inb _ hchk)) Finset.univ) := by
  intro x hx
  by_cases hm : x ∈ (rT t).toLoadRect.set
  · obtain ⟨y, rfl⟩ := (rT t).toLoadRect.exists_idx_of_mem hm
    have hw := View.write_emb_of_mem (v := (s2 : Memref sig .scVector .vmem S4112 .f32).access (rT t)) (Val := Elt F) f2
      (loadIdx (((s0 : Memref sig .scVector .vmem S100000 .f32).access (.whole S100000)).read (Elt F) g0)
          ![(s1 : Memref sig .scVector .vmem S4112 .i32).view.readAt (Elt F) (rI t).toLoadRect g1] (k2_idx1_inb _ hchk)) (Finset.mem_univ y)
    refine (hw.trans (cast_eq _ _)).trans ?_
    show ((s0 : Memref sig .scVector .vmem S100000 .f32).access (.whole S100000)).read (Elt F) g0 (idxAt _ _ y) = _
    refine (congrFun (Memref.read_access_whole (Elt F) (cc2_scratch0 : Ref sig .scVector) g0) _).trans ?_
    congr 1
    funext a
    obtain rfl : a = 0 := Subsingleton.elim _ _
    apply Fin.ext
    show ((s1 : Memref sig .scVector .vmem S4112 .i32).view.readAt (Elt F) (rI t).toLoadRect g1 y).toNat = (g1 ((rT t).toLoadRect.idx y)).toNat % 100000
    simp only [View.readAt_apply, Memref.view_whole, View.read_whole]
    rw [rI_idx, Nat.mod_eq_of_lt (hlt _)]
  · have hn : x ∉ ((s2 : Memref sig .scVector .vmem S4112 .f32).access (rT t)).setOn Finset.univ := by
      intro hx'
      obtain ⟨y, -, rfl⟩ := Finset.mem_map.mp hx'
      exact hm ((rT t).toLoadRect.idx_mem y)
    rw [View.write_of_not_mem _ _ _ hn]
    refine h x ?_
    have := (mem_rT t x).not.mp hm
    omega

end Values

section Tile

variable (EK : Emb UK (MT nD τ sig (HIx 2) (Elt F) ℕ UU ℕ)) [EK.LandsIn (upEmb : UEmb _ (MT nD τ sig (HIx 2) (Elt F) ℕ UU ℕ))]
variable (fst : (d : Dev nD) → Buf (Elt F) (stLoc d)) (fix : (d : Dev nD) → Buf (Elt F) (ixLoc d))
variable (qI : Dev nD → Fin τ.nSC → Fin τ.nSub → PosShare TreeShare)
variable (d : Dev nD) (L : grid2.Coords)

local notation "𝕋" => (V d (cV L) (sV L) : Thread nD τ)

omit [FloatOps F] [Named F] in
theorem pts_s0 (f : Buf (Elt F) ((𝕋).loc cc2_scratch0)) :
    ((s0 : Memref sig .scVector .vmem S100000 .f32).view.loc 𝕋 ↦[(s0 : Memref sig .scVector .vmem S100000 .f32).view.set]{fullShare} f : sProp 𝕄)
      = (𝕋).loc cc2_scratch0 ↦{fullShare} f := by
  simp only [Memref.view_whole, View.set_whole]
omit [FloatOps F] [Named F] in
theorem pts_s0_access (f : Buf (Elt F) ((𝕋).loc cc2_scratch0)) :
    (((s0 : Memref sig .scVector .vmem S100000 .f32).access (.whole S100000)).loc 𝕋 ↦{fullShare} f : sProp 𝕄) = (𝕋).loc cc2_scratch0 ↦{fullShare} f := rfl
omit [FloatOps F] [Named F] in
theorem pts_s1 (f : Buf (Elt F) ((𝕋).loc cc2_scratch1)) :
    ((s1 : Memref sig .scVector .vmem S4112 .i32).view.loc 𝕋 ↦[(s1 : Memref sig .scVector .vmem S4112 .i32).view.set]{fullShare} f : sProp 𝕄)
      = (𝕋).loc cc2_scratch1 ↦{fullShare} f := by
  simp only [Memref.view_whole, View.set_whole]
omit [FloatOps F] [Named F] in
theorem pts_s1_univ (f : Buf (Elt F) ((𝕋).loc cc2_scratch1)) :
    ((s1 : Memref sig .scVector .vmem S4112 .i32).view.loc 𝕋 ↦{fullShare} f : sProp 𝕄) = (𝕋).loc cc2_scratch1 ↦{fullShare} f := rfl
omit [FloatOps F] [Named F] in
theorem pts_s2 (f : Buf (Elt F) ((𝕋).loc cc2_scratch2)) :
    ((s2 : Memref sig .scVector .vmem S4112 .f32).view.loc 𝕋 ↦[(s2 : Memref sig .scVector .vmem S4112 .f32).view.set]{fullShare} f : sProp 𝕄)
      = (𝕋).loc cc2_scratch2 ↦{fullShare} f := by
  simp only [Memref.view_whole, View.set_whole]
omit [FloatOps F] [Named F] in
theorem pts_s2_univ (f : Buf (Elt F) ((𝕋).loc cc2_scratch2)) :
    ((s2 : Memref sig .scVector .vmem S4112 .f32).view.loc 𝕋 ↦{fullShare} f : sProp 𝕄) = (𝕋).loc cc2_scratch2 ↦{fullShare} f := rfl
omit [FloatOps F] [Named F] in
theorem pts_s2_access (r : Rect S4112) (f : Buf (Elt F) ((𝕋).loc cc2_scratch2)) :
    (((s2 : Memref sig .scVector .vmem S4112 .f32).access r).loc 𝕋 ↦{fullShare} f : sProp 𝕄) = (𝕋).loc cc2_scratch2 ↦{fullShare} f := rfl
omit [FloatOps F] [Named F] in
theorem pts_stRow (j : Fin 8) (f : Buf (Elt F) (stLoc d)) :
    ((stRowK L j).view.loc 𝕋 ↦[(stRowK L j).view.set]{fullShare} f : sProp 𝕄) = stLoc d ↦[(stRowK L j).view.set]{fullShare} f := rfl
omit [FloatOps F] [Named F] in
theorem pts_ixRow (j : Fin 8) (q : PosShare TreeShare) (f : Buf (Elt F) (ixLoc d)) :
    ((ixRowK L j).view.loc 𝕋 ↦[(ixRowK L j).view.set]{q} f : sProp 𝕄) = ixLoc d ↦[(ixRowK L j).view.set]{q} f := rfl
omit [FloatOps F] [Named F] in
theorem pts_rRow (j : Fin 8) (f : Buf (Elt F) (rLoc d)) :
    ((rRowK L j).view.loc 𝕋 ↦[(rRowK L j).view.set]{fullShare} f : sProp 𝕄) = rLoc d ↦[(rRowK L j).view.set]{fullShare} f := rfl

theorem loop_wp (g0 : Buf (Elt F) ((𝕋).loc cc2_scratch0)) (g1 : Buf (Elt F) ((𝕋).loc cc2_scratch1)) (hlt : ∀ x : S4112.Idx, (g1 x).toNat < 100000)
    (f2 : Buf (Elt F) ((𝕋).loc cc2_scratch2)) {α : Type} (k : Unit → Prog (TpuEff nD τ sig (Elt F) Λ₀ (.scVector (cV L) (sV L))) α) (Q : α → sProp 𝕄) :
    iprop(((𝕋).loc cc2_scratch0 ↦{fullShare} g0) ∗ ((𝕋).loc cc2_scratch1 ↦{fullShare} g1) ∗ ((𝕋).loc cc2_scratch2 ↦{fullShare} f2)
        ∗ (∀ f2' : Buf (Elt F) ((𝕋).loc cc2_scratch2), ⌜∀ x : S4112.Idx, f2' x = g0 (colOf (g1 x))⌝ -∗ ((𝕋).loc cc2_scratch0 ↦{fullShare} g0)
            -∗ ((𝕋).loc cc2_scratch1 ↦{fullShare} g1) -∗ ((𝕋).loc cc2_scratch2 ↦{fullShare} f2')
            -∗ wp frame (wpE (defs₀ (F := F)) 𝒱₀ 𝕋 none) Set.univ (k ⟨⟩) Q))
      ⊢ wp frame (wpE (defs₀ (F := F)) 𝒱₀ 𝕋 none) Set.univ (Scf.Loop.for k2_t1_loop k2_t1_ok ⟨⟩ (tBody (F := F) L) >>= k) Q := by
  iintro ⟨H0, H1, H2, Hk⟩
  iapply (Scf.wp_for_bind frame (wpE (defs₀ (F := F)) 𝒱₀ 𝕋 none) Set.univ k2_t1_loop.lb k2_t1_loop.ub k2_t1_loop.st k2_t1_ok ⟨⟩ (tBody (F := F) L)
    (fun n _ => iprop(∃ f2' : Buf (Elt F) ((𝕋).loc cc2_scratch2), ⌜Gath d (cV L) (sV L) g0 g1 (16 * n) f2'⌝ ∗ ((𝕋).loc cc2_scratch0 ↦{fullShare} g0)
      ∗ ((𝕋).loc cc2_scratch1 ↦{fullShare} g1) ∗ ((𝕋).loc cc2_scratch2 ↦{fullShare} f2')) : ℕ → Unit → sProp 𝕄) ?hbody) $$ [H0 H1 H2]
  case hbody =>
    intro t acc
    simp only [tBody, Prog.lift, Prog.bind_op, Prog.bind_ret, Prog.pure_eq_ret]
    iintro ⟨%f2', %hf, H0, H1, H2⟩
    ihave H1' := (Entails.of_eq (pts_s1_univ (F := F) (UU := UU) d L _).symm) $$ H1
    iapply (wp_load 𝒱₀ 𝕋 none Set.univ (m := (s1 : Memref sig .scVector .vmem S4112 .i32)) (S := Finset.univ) (Finset.subset_univ _)) $$ H1'; iintro H1'
    rw [wp_assume_of _ _ _ _ (chk_of_lt d (cV L) (sV L) g1 hlt t)]
    ihave H0' := (Entails.of_eq (pts_s0_access (F := F) (UU := UU) d L _).symm) $$ H0
    iapply (SparseCore.wp_vectorLoadIdx 𝒱₀ 𝕋 none Set.univ (base := (s0 : Memref sig .scVector .vmem S100000 .f32)) (S := Finset.univ) (q := fullShare) (Finset.subset_univ _)) $$ H0'; iintro H0'
    ihave H2' := (Entails.of_eq (pts_s2_univ (F := F) (UU := UU) d L _).symm) $$ H2
    iapply (wp_load 𝒱₀ 𝕋 none Set.univ (m := (s2 : Memref sig .scVector .vmem S4112 .f32)) (S := Finset.univ) (Finset.subset_univ _)) $$ H2'; iintro H2'
    ihave H2 := (Entails.of_eq ((pts_s2_univ (F := F) (UU := UU) d L _).trans (pts_s2_access (F := F) (UU := UU) d L (rT t) _).symm)) $$ H2'
    iapply (wp_store 𝒱₀ 𝕋 none Set.univ (m := (s2 : Memref sig .scVector .vmem S4112 .f32)) (r := rT t) (Mk := Finset.univ) (S := Finset.univ) (Finset.subset_univ _)) $$ H2; iintro H2
    rw [wp_ret]; imodintro
    iexists _; isplitr
    · ipureintro; exact gath_step d (cV L) (sV L) g0 g1 f2' hlt t hf (chk_of_lt d (cV L) (sV L) g1 hlt t)
    ihave H0 := (Entails.of_eq (pts_s0_access (F := F) (UU := UU) d L _)) $$ H0'
    ihave H1 := (Entails.of_eq (pts_s1_univ (F := F) (UU := UU) d L _)) $$ H1'
    ihave H2'' := (Entails.of_eq (pts_s2_access (F := F) (UU := UU) d L (rT t) _)) $$ H2
    isplitl [H0]; · iexact H0
    isplitl [H1]; · iexact H1
    iexact H2''
  · iexists f2; isplitr
    · ipureintro; intro x hx; exact absurd hx (by omega)
    isplitl [H0]; · iexact H0
    isplitl [H1]; · iexact H1
    iexact H2
  iintro %acc ⟨%f2', %hf, H0, H1, H2⟩
  iapply Hk $$ %f2' [] [H0] [H1] [H2]
  · ipureintro; intro x
    refine hf x ?_
    have := (x 0).isLt
    rw [show Scf.trips k2_t1_loop.lb k2_t1_loop.ub k2_t1_loop.st = 257 from trips_eq]
    exact this
  · iexact H0
  · iexact H1
  · iexact H2

local notation "Rd" => kRd (UU := UU) fst fix qI

def kit1 (g : GSem nD τ sig) : sProp 𝕄 :=
  iprop(roundState EK (kRd (UU := UU) fst fix qI) g 0 ∗ atPos EK g 0 ∅ 0 ∗ reached EK g 0 ∗ dutyTok EK g 0 ())

def rowPre (j : Fin 8) (O : CellTallies nD τ sig (HIx 2)) (W : Waits sig (HIx 2)) : sProp 𝕄 :=
  iprop(owes 𝕋 O W ∗ atPos EK (cellS d (cV L) (sV L)) j.val ∅ 0 ∗ reached EK (cellS d (cV L) (sV L)) j.val
    ∗ dutyTok EK (cellS d (cV L) (sV L)) j.val ()
    ∗ kit1 EK fst fix qI (cellA d (cV L) (sV L) j) ∗ kit1 EK fst fix qI (cellB d (cV L) (sV L) j)
    ∗ semVal (cellA d (cV L) (sV L) j) 0 ∗ semVal (cellB d (cV L) (sV L) j) 0
    ∗ (stLoc d ↦[(stRowK L j).view.set]{fullShare} fst d) ∗ (∃ f, rLoc d ↦[(rRowK L j).view.set]{fullShare} f)
    ∗ (ixLoc d ↦{qI d (cV L) (sV L)} fix d)
    ∗ (∃ f, (𝕋).loc cc2_scratch0 ↦{fullShare} f) ∗ (∃ f, (𝕋).loc cc2_scratch1 ↦{fullShare} f) ∗ (∃ f, (𝕋).loc cc2_scratch2 ↦{fullShare} f))

def rowPost (j : Fin 8) (O : CellTallies nD τ sig (HIx 2)) (W : Waits sig (HIx 2)) : sProp 𝕄 :=
  iprop(∃ W', ⌜∀ p ∈ W', p ∈ W ∨ p.2 = none⌝ ∗ owes 𝕋 O W'
    ∗ atPos EK (cellS d (cV L) (sV L)) (j.val + 1) ∅ 0 ∗ reached EK (cellS d (cV L) (sV L)) (j.val + 1)
    ∗ semVal (cellA d (cV L) (sV L) j) 0 ∗ semVal (cellB d (cV L) (sV L) j) 0
    ∗ (stLoc d ↦[(stRowK L j).view.set]{fullShare} fst d)
    ∗ (∃ f, ⌜RHolds fst fix d L j f⌝ ∗ rLoc d ↦[(rRowK L j).view.set]{fullShare} f)
    ∗ (ixLoc d ↦{qI d (cV L) (sV L)} fix d)
    ∗ (∃ f, (𝕋).loc cc2_scratch0 ↦{fullShare} f) ∗ (∃ f, (𝕋).loc cc2_scratch1 ↦{fullShare} f) ∗ (∃ f, (𝕋).loc cc2_scratch2 ↦{fullShare} f))

omit [FloatOps F] [Named F] in
theorem st_holds (j : Fin 8) : StHolds fst d (cV L) (sV L) L j ((stRowK L j).view.read (Elt F) (fst d)) :=
  fun _ => (View.read_apply _ _).trans (cast_eq _ _)
omit [FloatOps F] [Named F] in
theorem ix_holds (j : Fin 8) : IxHolds fix d (cV L) (sV L) L j ((ixRowK L j).view.read (Elt F) (fix d)) :=
  fun _ => (View.read_apply _ _).trans (cast_eq _ _)

omit [FloatOps F] [Named F] in

theorem r_holds (j : Fin 8) (g0 : Buf (Elt F) ((𝕋).loc cc2_scratch0)) (g1 : Buf (Elt F) ((𝕋).loc cc2_scratch1)) (f2 : Buf (Elt F) ((𝕋).loc cc2_scratch2))
    (fr : Buf (Elt F) (rLoc d)) (hg0 : StHolds fst d (cV L) (sV L) L j g0) (hg1 : IxHolds fix d (cV L) (sV L) L j g1)
    (hG : ∀ x : S4112.Idx, f2 x = g0 (colOf (g1 x))) :
    RHolds fst fix d L j ((rRowK L j).view.write (Elt F) fr ((s2 : Memref sig .scVector .vmem S4112 .f32).view.read (Elt F) f2) Finset.univ) := by
  intro k
  rw [View.write_emb_of_mem _ _ (Finset.mem_univ k)]
  refine (cast_eq _ _).trans ?_
  show f2 k = _
  rw [hG, hg0, hg1]

theorem payload_S_at (j : Fin 8) :
    (Rd).payload (cellS d (cV L) (sV L)) j.val ()
      = iprop((∃ f, ⌜StHolds fst d (cV L) (sV L) L j f⌝ ∗ (𝕋).loc cc2_scratch0 ↦{fullShare} f) ∗ stLoc d ↦[(stRowK L j).view.set]{fullShare} fst d) := by
  rw [kRd_payload_S]; unfold payS; rw [Lof_eq]
theorem payload_A_at (j : Fin 8) :
    (Rd).payload (cellA d (cV L) (sV L) j) 0 ()
      = iprop((∃ f, ⌜IxHolds fix d (cV L) (sV L) L j f⌝ ∗ (𝕋).loc cc2_scratch1 ↦{fullShare} f) ∗ ixLoc d ↦[(ixRowK L j).view.set]{qI d (cV L) (sV L)} fix d) := by
  rw [kRd_payload_A]; unfold payA; rw [Lof_eq]
theorem payload_B_at (j : Fin 8) :
    (Rd).payload (cellB d (cV L) (sV L) j) 0 ()
      = iprop((∃ f, ⌜RHolds fst fix d L j f⌝ ∗ rLoc d ↦[(rRowK L j).view.set]{fullShare} f) ∗ ∃ f, (𝕋).loc cc2_scratch2 ↦{fullShare} f) := by
  rw [kRd_payload_B]; unfold payB; rw [Lof_eq]

-- One row: take the similarity row and its index row, pick the indexed entries sixteen at a time, write the result row.
theorem row_wp (hpre : PreOK fix) (κS : ℕ) (j : Fin 8) (O : CellTallies nD τ sig (HIx 2)) (W : Waits sig (HIx 2)) (hO : ∀ g, O g none = 0)
    {α : Type} (k : Prog (TpuEff nD τ sig (Elt F) Λ₀ (.scVector (cV L) (sV L))) α) (Q : α → sProp 𝕄) :
    iprop(levAts (K (F := F)).L (K (F := F)).lev ∗ cellInv EK (Rd) κS (cellS d (cV L) (sV L)) ∗ rowPre EK fst fix qI d L j O W
        ∗ (rowPost EK fst fix qI d L j O W -∗ wp frame (wpE (defs₀ (F := F)) 𝒱₀ 𝕋 none) Set.univ k Q))
      ⊢ wp frame (wpE (defs₀ (F := F)) 𝒱₀ 𝕋 none) Set.univ (rowK L j k) Q := by
  unfold rowK rowPre kit1
  iintro ⟨#Hlv, #HinvS, ⟨HO, HatS, #HrS, HtokS, ⟨HstA, HatA, #HrA, HtokA⟩, ⟨HstB, HatB, #HrB, HtokB⟩, HsemA, HsemB, Hst, ⟨%fr, Hr⟩, Hix,
    ⟨%f0, Hs0⟩, ⟨%f1, Hs1⟩, ⟨%f2, Hs2⟩⟩, Hk⟩
  imod ((Rounds.body_intro EK (Rd) (cellA d (cV L) (sV L) j)).trans inv_alloc) $$ [HsemA HstA] with ⟨%κA, #HinvA⟩
  · isplitl [HsemA] <;> iassumption
  imod ((Rounds.body_intro EK (Rd) (cellB d (cV L) (sV L) j)).trans inv_alloc) $$ [HsemB HstB] with ⟨%κB, #HinvB⟩
  · isplitl [HsemB] <;> iassumption

  ihave Hst' := (Entails.of_eq (pts_stRow (F := F) (UU := UU) d L j _).symm) $$ Hst
  ihave Hs0' := (Entails.of_eq (pts_s0 (F := F) (UU := UU) d L _).symm) $$ Hs0
  iapply (Rounds.wp_copy_pointsTo 𝒱₀ EK (Rd) 𝕋 none (q := fullShare) (fs := fst d) (fd := f0) (κ := κS)
      (kRd_mem fst fix qI (cellKind_S d (cV L) (sV L)) (show j.val < nRounds .S from j.isLt)) none NS rfl
      (kRd_amount_S fst fix qI (cellKind_S d (cV L) (sV L))) ?hpayS) $$ [Hst' Hs0' HtokS]
  case hpayS =>
    rw [payload_S_at, pts_stRow, pts_s0, View.write_whole_univ]
    iintro ⟨Hs, Hst⟩
    isplitl [Hs]
    · iexists _; isplitr; · ipureintro; exact st_holds fst d L j
      iexact Hs
    · iexact Hst
  · isplitr; · iexact HinvS
    isplitl [Hst']; · iexact Hst'
    isplitl [Hs0']; · iexact Hs0'
    isplitl [HtokS]; · iexact HtokS
    iexact HrS
  iintro HcredS

  ihave Hix2 := ((pointsTo_split_subset (ℓ := ixLoc d) (S := Finset.univ) (I := (ixRowK L j).view.set) (q := qI d (cV L) (sV L)) (f := fix d) (Finset.subset_univ _)).1) $$ Hix
  icases Hix2 with ⟨HixR, HixC⟩
  ihave HixR' := (Entails.of_eq (pts_ixRow (F := F) (UU := UU) d L j _ _).symm) $$ HixR
  ihave Hs1' := (Entails.of_eq (pts_s1 (F := F) (UU := UU) d L _).symm) $$ Hs1
  iapply (Rounds.wp_copy_pointsTo 𝒱₀ EK (Rd) 𝕋 none (q := qI d (cV L) (sV L)) (fs := fix d) (fd := f1) (κ := κA)
      (kRd_mem fst fix qI (cellKind_A d (cV L) (sV L) j) (show 0 < nRounds (.A j) from Nat.one_pos)) none NA rfl
      (kRd_amount_A fst fix qI (cellKind_A d (cV L) (sV L) j)) ?hpayA) $$ [HixR' Hs1' HtokA]
  case hpayA =>
    rw [payload_A_at, pts_ixRow, pts_s1, View.write_whole_univ]
    iintro ⟨Hs, Hi⟩
    isplitl [Hs]
    · iexists _; isplitr; · ipureintro; exact ix_holds fix d L j
      iexact Hs
    · iexact Hi
  · isplitr; · iexact HinvA
    isplitl [HixR']; · iexact HixR'
    isplitl [Hs1']; · iexact Hs1'
    isplitl [HtokA]; · iexact HtokA
    iexact HrA
  iintro HcredA
  iapply (Rounds.wp_wait_rest_token 𝒱₀ EK (Rd) 𝕋 none (κ := κA)
      (wpE_waitDma2_eq 𝒱₀ 𝕋 none Set.univ) (Set.mem_univ κA) none (O := O) (W := W) (R := 0) (m := 0) (T := ∅)
      (by rw [Nat.zero_add, kRd_expect fst fix qI (cellKind_A d (cV L) (sV L) j) (show 0 < nRounds (.A j) from Nat.one_pos),
        kRd_amount_A fst fix qI (cellKind_A d (cV L) (sV L) j)])) $$ [HcredA HO HatA]
  · isplitr; · iexact HinvA
    isplitl [HcredA]; · iexact HcredA
    isplitl [HO]; · iexact HO
    isplitr; · iapply ((K (F := F)).mayWait_none (SemLoc.dma (semA j).sem) hO); iexact Hlv
    iexact HatA
  iintro ⟨HO, HatA, -, Hpay⟩
  ihave Hp := ((kRd_back fst fix qI (cellKind_A d (cV L) (sV L) j) (show 0 < nRounds (.A j) from Nat.one_pos)).trans
    (Entails.of_eq (payload_A_at (UU := UU) fst fix qI d L j))) $$ Hpay
  icases Hp with ⟨⟨%g1, %hg1, Hs1⟩, HixR⟩
  imod (Rounds.cell_close EK (Rd) (Set.mem_univ κA) (fun h => h) (R := 0 + 1) (kRd_later fst fix qI (cellKind_A d (cV L) (sV L) j))) $$ [HatA] with HsemA
  · isplitr; · iexact HinvA
    iexact HatA
  ihave Hix := ((pointsTo_split_subset (ℓ := ixLoc d) (S := Finset.univ) (I := (ixRowK L j).view.set) (q := qI d (cV L) (sV L)) (f := fix d) (Finset.subset_univ _)).2) $$ [HixR HixC]
  · isplitl [HixR]; · iexact HixR
    iexact HixC

  iapply (Rounds.wp_wait_rest_token 𝒱₀ EK (Rd) 𝕋 none (κ := κS)
      (wpE_waitDma2_eq 𝒱₀ 𝕋 none Set.univ) (Set.mem_univ κS) none (O := O) (W := insert (SemLoc.dma (semA j).sem, none) W) (R := j.val) (m := 0) (T := ∅)
      (by rw [Nat.zero_add, kRd_expect fst fix qI (cellKind_S d (cV L) (sV L)) (show j.val < nRounds .S from j.isLt),
        kRd_amount_S fst fix qI (cellKind_S d (cV L) (sV L))])) $$ [HcredS HO HatS]
  · isplitr; · iexact HinvS
    isplitl [HcredS]; · iexact HcredS
    isplitl [HO]; · iexact HO
    isplitr; · iapply ((K (F := F)).mayWait_none (SemLoc.dma semS.sem) hO); iexact Hlv
    iexact HatS
  iintro ⟨HO, HatS, #HrS', Hpay⟩
  ihave Hp := ((kRd_back fst fix qI (cellKind_S d (cV L) (sV L)) (show j.val < nRounds .S from j.isLt)).trans
    (Entails.of_eq (payload_S_at (UU := UU) fst fix qI d L j))) $$ Hpay
  icases Hp with ⟨⟨%g0, %hg0, Hs0⟩, Hst⟩

  have hlt : ∀ x : S4112.Idx, (g1 x).toNat < 100000 := fun x => by rw [hg1 x]; exact hpre d L j x
  iapply (loop_wp (UU := UU) d L g0 g1 hlt f2) $$ [Hs0 Hs1 Hs2 Hk HO HatS HsemA Hst Hr Hix HtokB HatB]
  isplitl [Hs0]; · iexact Hs0
  isplitl [Hs1]; · iexact Hs1
  isplitl [Hs2]; · iexact Hs2
  iintro %f2' %hG Hs0 Hs1 Hs2

  ihave Hs2' := (Entails.of_eq (pts_s2 (F := F) (UU := UU) d L _).symm) $$ Hs2
  ihave Hr' := (Entails.of_eq (pts_rRow (F := F) (UU := UU) d L j _).symm) $$ Hr
  iapply (Rounds.wp_copy_pointsTo 𝒱₀ EK (Rd) 𝕋 none (q := fullShare) (fs := f2') (fd := fr) (κ := κB)
      (kRd_mem fst fix qI (cellKind_B d (cV L) (sV L) j) (show 0 < nRounds (.B j) from Nat.one_pos)) none NB rfl
      (kRd_amount_B fst fix qI (cellKind_B d (cV L) (sV L) j)) ?hpayB) $$ [Hs2' Hr' HtokB]
  case hpayB =>
    rw [payload_B_at, pts_rRow, pts_s2]
    iintro ⟨Hr, Hs⟩
    isplitl [Hr]
    · iexists _; isplitr; · ipureintro; exact r_holds fst fix d L j g0 g1 f2' fr hg0 hg1 hG
      iexact Hr
    · iexists _; iexact Hs
  · isplitr; · iexact HinvB
    isplitl [Hs2']; · iexact Hs2'
    isplitl [Hr']; · iexact Hr'
    isplitl [HtokB]; · iexact HtokB
    iexact HrB
  iintro HcredB
  iapply (Rounds.wp_wait_rest_token 𝒱₀ EK (Rd) 𝕋 none (κ := κB)
      (wpE_waitDma2_eq 𝒱₀ 𝕋 none Set.univ) (Set.mem_univ κB) none (O := O)
      (W := insert (SemLoc.dma semS.sem, none) (insert (SemLoc.dma (semA j).sem, none) W)) (R := 0) (m := 0) (T := ∅)
      (by rw [Nat.zero_add, kRd_expect fst fix qI (cellKind_B d (cV L) (sV L) j) (show 0 < nRounds (.B j) from Nat.one_pos),
        kRd_amount_B fst fix qI (cellKind_B d (cV L) (sV L) j)]; try rfl)) $$ [HcredB HO HatB]
  · isplitr; · iexact HinvB
    isplitl [HcredB]; · iexact HcredB
    isplitl [HO]; · iexact HO
    isplitr; · iapply ((K (F := F)).mayWait_none (SemLoc.dma (semB j).sem) hO); iexact Hlv
    iexact HatB
  iintro ⟨HO, HatB, -, Hpay⟩
  ihave Hp := ((kRd_back fst fix qI (cellKind_B d (cV L) (sV L) j) (show 0 < nRounds (.B j) from Nat.one_pos)).trans
    (Entails.of_eq (payload_B_at (UU := UU) fst fix qI d L j))) $$ Hpay
  icases Hp with ⟨⟨%fr', %hfr', Hr⟩, ⟨%f2'', Hs2⟩⟩
  imod (Rounds.cell_close EK (Rd) (Set.mem_univ κB) (fun h => h) (R := 0 + 1) (kRd_later fst fix qI (cellKind_B d (cV L) (sV L) j))) $$ [HatB] with HsemB
  · isplitr; · iexact HinvB
    iexact HatB
  iapply Hk
  unfold rowPost
  iexists (insert (SemLoc.dma (semB j).sem, none) (insert (SemLoc.dma semS.sem, none) (insert (SemLoc.dma (semA j).sem, none) W)))
  isplitr
  · ipureintro; intro p hp
    rcases Finset.mem_insert.mp hp with rfl | hp
    · exact .inr rfl
    rcases Finset.mem_insert.mp hp with rfl | hp
    · exact .inr rfl
    rcases Finset.mem_insert.mp hp with rfl | hp
    · exact .inr rfl
    · exact .inl hp
  isplitl [HO]; · iexact HO
  isplitl [HatS]; · iexact HatS
  isplitr; · iexact HrS'
  isplitl [HsemA]; · iexact HsemA
  isplitl [HsemB]; · iexact HsemB
  isplitl [Hst]; · iexact Hst
  isplitl [Hr]
  · iexists fr'; isplitr; · ipureintro; exact hfr'
    iexact Hr
  isplitl [Hix]; · iexact Hix
  isplitl [Hs0]; · iexists _; iexact Hs0
  isplitl [Hs1]; · iexists _; iexact Hs1
  iexists _; iexact Hs2

def rowsK {α : Type} (L : grid2.Coords) (js : List (Fin 8)) (k : Prog (TpuEff nD τ sig (Elt F) Λ₀ (.scVector (cV L) (sV L))) α) :
    Prog (TpuEff nD τ sig (Elt F) Λ₀ (.scVector (cV L) (sV L))) α :=
  js.foldr (fun j r => rowK L j r) k

theorem rows_eq {α : Type} (k : Prog (TpuEff nD τ sig (Elt F) Λ₀ (.scVector (cV L) (sV L))) α) :
    rowK L 0 (rowK L 1 (rowK L 2 (rowK L 3 (rowK L 4 (rowK L 5 (rowK L 6 (rowK L 7 k))))))) = rowsK L (List.finRange 8) k := by
  rw [show List.finRange 8 = [0, 1, 2, 3, 4, 5, 6, 7] from by decide]; rfl

def kitRow (j : Fin 8) : sProp 𝕄 :=
  iprop(dutyTok EK (cellS d (cV L) (sV L)) j.val () ∗ kit1 EK fst fix qI (cellA d (cV L) (sV L) j) ∗ kit1 EK fst fix qI (cellB d (cV L) (sV L) j))

def goRow (j : Fin 8) : sProp 𝕄 :=
  iprop((stLoc d ↦[(stRowK L j).view.set]{fullShare} fst d) ∗ ∃ f, rLoc d ↦[(rRowK L j).view.set]{fullShare} f)
def tdRow (j : Fin 8) : sProp 𝕄 :=
  iprop((stLoc d ↦[(stRowK L j).view.set]{fullShare} fst d) ∗ ∃ f, ⌜RHolds fst fix d L j f⌝ ∗ rLoc d ↦[(rRowK L j).view.set]{fullShare} f)

def preRow (j : Fin 8) : sProp 𝕄 :=
  iprop(kitRow EK fst fix qI d L j ∗ (semVal (cellA d (cV L) (sV L) j) 0 ∗ semVal (cellB d (cV L) (sV L) j) 0) ∗ goRow (UU := UU) fst d L j)

def doneRow (j : Fin 8) : sProp 𝕄 :=
  iprop((semVal (cellA d (cV L) (sV L) j) 0 ∗ semVal (cellB d (cV L) (sV L) j) 0) ∗ tdRow (UU := UU) fst fix d L j)

def rowsInv (a : ℕ) (O : CellTallies nD τ sig (HIx 2)) (W : Waits sig (HIx 2)) : sProp 𝕄 :=
  iprop(∃ W', ⌜∀ p ∈ W', p ∈ W ∨ p.2 = none⌝ ∗ owes 𝕋 O W'
    ∗ atPos EK (cellS d (cV L) (sV L)) a ∅ 0 ∗ reached EK (cellS d (cV L) (sV L)) a
    ∗ bigSep (Finset.univ.filter fun j : Fin 8 => a ≤ j.val) (preRow EK fst fix qI d L)
    ∗ bigSep (Finset.univ.filter fun j : Fin 8 => j.val < a) (doneRow (UU := UU) fst fix d L)
    ∗ (ixLoc d ↦{qI d (cV L) (sV L)} fix d)
    ∗ (∃ f, (𝕋).loc cc2_scratch0 ↦{fullShare} f) ∗ (∃ f, (𝕋).loc cc2_scratch1 ↦{fullShare} f) ∗ (∃ f, (𝕋).loc cc2_scratch2 ↦{fullShare} f))

omit [FloatOps F] [Named F] in
theorem rowsInv_eq (a : ℕ) (O : CellTallies nD τ sig (HIx 2)) (W : Waits sig (HIx 2)) :
    rowsInv EK fst fix qI d L a O W
      = iprop(∃ W', ⌜∀ p ∈ W', p ∈ W ∨ p.2 = none⌝ ∗ owes 𝕋 O W'
        ∗ atPos EK (cellS d (cV L) (sV L)) a ∅ 0 ∗ reached EK (cellS d (cV L) (sV L)) a
        ∗ bigSep (Finset.univ.filter fun j : Fin 8 => a ≤ j.val) (preRow EK fst fix qI d L)
        ∗ bigSep (Finset.univ.filter fun j : Fin 8 => j.val < a) (doneRow (UU := UU) fst fix d L)
        ∗ (ixLoc d ↦{qI d (cV L) (sV L)} fix d)
        ∗ (∃ f, (𝕋).loc cc2_scratch0 ↦{fullShare} f) ∗ (∃ f, (𝕋).loc cc2_scratch1 ↦{fullShare} f) ∗ (∃ f, (𝕋).loc cc2_scratch2 ↦{fullShare} f)) := rfl

theorem ge_insert (a : ℕ) (h : a < 8) :
    (Finset.univ.filter fun j : Fin 8 => a ≤ j.val) = insert (⟨a, h⟩ : Fin 8) (Finset.univ.filter fun j : Fin 8 => a + 1 ≤ j.val) := by
  ext j; simp only [Finset.mem_filter, Finset.mem_univ, true_and, Finset.mem_insert, Fin.ext_iff]; omega
theorem ge_notMem (a : ℕ) (h : a < 8) : (⟨a, h⟩ : Fin 8) ∉ Finset.univ.filter fun j : Fin 8 => a + 1 ≤ j.val := by
  simp only [Finset.mem_filter, Finset.mem_univ, true_and]; omega
theorem lt_insert (a : ℕ) (h : a < 8) :
    (Finset.univ.filter fun j : Fin 8 => j.val < a + 1) = insert (⟨a, h⟩ : Fin 8) (Finset.univ.filter fun j : Fin 8 => j.val < a) := by
  ext j; simp only [Finset.mem_filter, Finset.mem_univ, true_and, Finset.mem_insert, Fin.ext_iff]; omega
theorem lt_notMem (a : ℕ) (h : a < 8) : (⟨a, h⟩ : Fin 8) ∉ Finset.univ.filter fun j : Fin 8 => j.val < a := by
  simp only [Finset.mem_filter, Finset.mem_univ, true_and]; omega

theorem rows_wp (hpre : PreOK fix) (κS : ℕ) (O : CellTallies nD τ sig (HIx 2)) (W : Waits sig (HIx 2)) (hO : ∀ g, O g none = 0)
    {α : Type} (k : Prog (TpuEff nD τ sig (Elt F) Λ₀ (.scVector (cV L) (sV L))) α) (Q : α → sProp 𝕄) :
    ∀ (n a : ℕ), a + n = 8 →
      iprop(levAts (K (F := F)).L (K (F := F)).lev ∗ cellInv EK (Rd) κS (cellS d (cV L) (sV L)) ∗ rowsInv EK fst fix qI d L a O W
          ∗ (rowsInv EK fst fix qI d L 8 O W -∗ wp frame (wpE (defs₀ (F := F)) 𝒱₀ 𝕋 none) Set.univ k Q))
        ⊢ wp frame (wpE (defs₀ (F := F)) 𝒱₀ 𝕋 none) Set.univ (rowsK L ((List.finRange 8).drop a) k) Q := by
  intro n
  induction n with
  | zero =>
    intro a ha
    obtain rfl : a = 8 := by omega
    rw [List.drop_of_length_le (by simp)]
    show _ ⊢ wp frame (wpE (defs₀ (F := F)) 𝒱₀ 𝕋 none) Set.univ k Q
    iintro ⟨-, -, HI, Hk⟩
    iapply Hk; iexact HI
  | succ n ih =>
    intro a ha
    have hlt : a < 8 := by omega
    rw [List.drop_eq_getElem_cons (by simpa using hlt), List.getElem_finRange, Fin.cast_mk]
    show _ ⊢ wp frame (wpE (defs₀ (F := F)) 𝒱₀ 𝕋 none) Set.univ (rowK L ⟨a, hlt⟩ (rowsK L ((List.finRange 8).drop (a + 1)) k)) Q
    rw [rowsInv_eq EK fst fix qI d L a O W, ge_insert a hlt, SparseCore.bigSep_insert' (ge_notMem a hlt)]
    iintro ⟨#Hlv, #HinvS, ⟨%W1, %hW1, HO, HatS, #HrS, ⟨Hrow, Hge⟩, Hlt, Hix, Hs0, Hs1, Hs2⟩, Hk⟩
    unfold preRow kitRow goRow
    icases Hrow with ⟨⟨HtokS, HkA, HkB⟩, ⟨HsemA, HsemB⟩, ⟨Hst, Hr⟩⟩
    iapply (row_wp EK fst fix qI d L hpre κS ⟨a, hlt⟩ O W1 hO)
    isplitr; · iexact Hlv
    isplitr; · iexact HinvS
    isplitl [HO HatS HtokS HkA HkB HsemA HsemB Hst Hr Hix Hs0 Hs1 Hs2]
    · unfold rowPre
      isplitl [HO]; · iexact HO
      isplitl [HatS]; · iexact HatS
      isplitr; · iexact HrS
      isplitl [HtokS]; · iexact HtokS
      isplitl [HkA]; · iexact HkA
      isplitl [HkB]; · iexact HkB
      isplitl [HsemA]; · iexact HsemA
      isplitl [HsemB]; · iexact HsemB
      isplitl [Hst]; · iexact Hst
      isplitl [Hr]; · iexact Hr
      isplitl [Hix]; · iexact Hix
      isplitl [Hs0]; · iexact Hs0
      isplitl [Hs1]; · iexact Hs1
      iexact Hs2
    unfold rowPost
    iintro ⟨%W2, %hW2, HO, HatS, #HrS2, HsemA, HsemB, Hst, Hr, Hix, Hs0, Hs1, Hs2⟩
    iapply (ih (a + 1) (by omega))
    isplitr; · iexact Hlv
    isplitr; · iexact HinvS
    isplitr [Hk]
    · rw [rowsInv_eq EK fst fix qI d L (a + 1) O W, lt_insert a hlt, SparseCore.bigSep_insert' (lt_notMem a hlt)]
      iexists W2; isplitr
      · ipureintro; intro p hp
        rcases hW2 p hp with h | h
        · exact hW1 p h
        · exact .inr h
      isplitl [HO]; · iexact HO
      isplitl [HatS]; · iexact HatS
      isplitr; · iexact HrS2
      isplitl [Hge]; · iexact Hge
      isplitl [HsemA HsemB Hst Hr Hlt]
      · isplitr [Hlt]
        · unfold doneRow tdRow
          isplitl [HsemA HsemB]
          · isplitl [HsemA]; · iexact HsemA
            iexact HsemB
          isplitl [Hst]; · iexact Hst
          iexact Hr
        · iexact Hlt
      isplitl [Hix]; · iexact Hix
      isplitl [Hs0]; · iexact Hs0
      isplitl [Hs1]; · iexact Hs1
      iexact Hs2
    · iexact Hk

theorem rows_wp0 (hpre : PreOK fix) (κS : ℕ) (O : CellTallies nD τ sig (HIx 2)) (W : Waits sig (HIx 2)) (hO : ∀ g, O g none = 0)
    {α : Type} (k : Prog (TpuEff nD τ sig (Elt F) Λ₀ (.scVector (cV L) (sV L))) α) (Q : α → sProp 𝕄) :
    iprop(levAts (K (F := F)).L (K (F := F)).lev ∗ cellInv EK (Rd) κS (cellS d (cV L) (sV L)) ∗ rowsInv EK fst fix qI d L 0 O W
        ∗ (rowsInv EK fst fix qI d L 8 O W -∗ wp frame (wpE (defs₀ (F := F)) 𝒱₀ 𝕋 none) Set.univ k Q))
      ⊢ wp frame (wpE (defs₀ (F := F)) 𝒱₀ 𝕋 none) Set.univ (rowsK L (List.finRange 8) k) Q := by
  have h := rows_wp EK fst fix qI d L hpre κS O W hO k Q 8 0 rfl
  rwa [List.drop_zero] at h

def kits : sProp 𝕄 :=
  iprop(roundState EK (Rd) (cellS d (cV L) (sV L)) 0 ∗ atPos EK (cellS d (cV L) (sV L)) 0 ∅ 0 ∗ reached EK (cellS d (cV L) (sV L)) 0
    ∗ bigSep Finset.univ fun j : Fin 8 => kitRow EK fst fix qI d L j)

def goRes : sProp 𝕄 :=
  iprop((bigSep Finset.univ fun j : Fin 8 => goRow (UU := UU) fst d L j) ∗ ixLoc d ↦{qI d (cV L) (sV L)} fix d)

def tdRes : sProp 𝕄 :=
  iprop((bigSep Finset.univ fun j : Fin 8 => tdRow (UU := UU) fst fix d L j) ∗ ixLoc d ↦{qI d (cV L) (sV L)} fix d)

def myCells (d : Dev nD) (c : Fin τ.nSC) (s : Fin τ.nSub) : Finset (GSem nD τ sig) :=
  insert (cellS d c s) ((Finset.univ.image fun j : Fin 8 => cellA d c s j) ∪ (Finset.univ.image fun j : Fin 8 => cellB d c s j))

omit [FloatOps F] [Named F] in
theorem scoped_A : ∀ j : Fin 8, (SemLoc.dma (semA j).sem : SemLoc sig).isScoped .scVector = true := by decide
omit [FloatOps F] [Named F] in
theorem scoped_B : ∀ j : Fin 8, (SemLoc.dma (semB j).sem : SemLoc sig).isScoped .scVector = true := by decide
omit [FloatOps F] [Named F] in
theorem scoped_S : (SemLoc.dma semS.sem : SemLoc sig).isScoped .scVector = true := by decide

omit [FloatOps F] [Named F] in
theorem myCells_sub (c : Fin τ.nSC) (s : Fin τ.nSub) : myCells d c s ⊆ ownCells (V d c s) := by
  intro g hg
  unfold myCells at hg
  rcases Finset.mem_insert.mp hg with rfl | hg
  · exact mem_ownCells.mpr ⟨rfl, scoped_S⟩
  rcases Finset.mem_union.mp hg with hg | hg
  · obtain ⟨j, -, rfl⟩ := Finset.mem_image.mp hg
    exact mem_ownCells.mpr ⟨rfl, scoped_A j⟩
  · obtain ⟨j, -, rfl⟩ := Finset.mem_image.mp hg
    exact mem_ownCells.mpr ⟨rfl, scoped_B j⟩

omit [FloatOps F] [Named F] in
theorem injA (c : Fin τ.nSC) (s : Fin τ.nSub) : Set.InjOn (fun j : Fin 8 => cellA d c s j) ((Finset.univ : Finset (Fin 8)) : Set (Fin 8)) := by
  intro a _ b _ e
  have h := congrArg cellKind e
  rw [cellKind_A, cellKind_A] at h
  exact CK.A.inj (Option.some.inj h)
omit [FloatOps F] [Named F] in
theorem injB (c : Fin τ.nSC) (s : Fin τ.nSub) : Set.InjOn (fun j : Fin 8 => cellB d c s j) ((Finset.univ : Finset (Fin 8)) : Set (Fin 8)) := by
  intro a _ b _ e
  have h := congrArg cellKind e
  rw [cellKind_B, cellKind_B] at h
  exact CK.B.inj (Option.some.inj h)
omit [FloatOps F] [Named F] in
theorem disjAB (c : Fin τ.nSC) (s : Fin τ.nSub) :
    Disjoint (Finset.univ.image fun j : Fin 8 => cellA d c s j) (Finset.univ.image fun j : Fin 8 => cellB d c s j) := by
  refine Finset.disjoint_left.mpr fun g h1 h2 => ?_
  obtain ⟨a, -, rfl⟩ := Finset.mem_image.mp h1
  obtain ⟨b, -, e⟩ := Finset.mem_image.mp h2
  have h := congrArg cellKind e
  rw [cellKind_A, cellKind_B] at h
  exact absurd (Option.some.inj h) (by simp)
omit [FloatOps F] [Named F] in
theorem notMemS (c : Fin τ.nSC) (s : Fin τ.nSub) :
    cellS d c s ∉ (Finset.univ.image fun j : Fin 8 => cellA d c s j) ∪ (Finset.univ.image fun j : Fin 8 => cellB d c s j) := by
  intro hg
  rcases Finset.mem_union.mp hg with hg | hg
  · obtain ⟨j, -, e⟩ := Finset.mem_image.mp hg
    have h := congrArg cellKind e
    rw [cellKind_A, cellKind_S] at h
    exact absurd (Option.some.inj h) (by simp)
  · obtain ⟨j, -, e⟩ := Finset.mem_image.mp hg
    have h := congrArg cellKind e
    rw [cellKind_B, cellKind_S] at h
    exact absurd (Option.some.inj h) (by simp)

omit [FloatOps F] [Named F] in

theorem ownSems0_V :
    (ownSems0 𝕋 : sProp 𝕄)
      = iprop((semVal (cellS d (cV L) (sV L)) 0 ∗ (bigSep Finset.univ fun j : Fin 8 => semVal (cellA d (cV L) (sV L) j) 0)
            ∗ bigSep Finset.univ fun j : Fin 8 => semVal (cellB d (cV L) (sV L) j) 0)
          ∗ bigSep (ownCells 𝕋 \ myCells d (cV L) (sV L)) fun g => semVal g 0) := by
  unfold SparseCore.Cfg.ownSems0
  rw [SparseCore.bigSep_sdiff_split' (myCells_sub d (cV L) (sV L))]
  unfold myCells
  rw [SparseCore.bigSep_insert' (notMemS d (cV L) (sV L)), SparseCore.bigSep_union' (disjAB d (cV L) (sV L)),
    SparseCore.bigSep_image_of_injOn (injA d (cV L) (sV L)) (fun g => semVal g 0), SparseCore.bigSep_image_of_injOn (injB d (cV L) (sV L)) (fun g => semVal g 0)]

omit [FloatOps F] [Named F] in

theorem ownBufs_V :
    (ownBufs 𝕋 : sProp 𝕄)
      = iprop((∃ f, (𝕋).loc cc2_scratch0 ↦{fullShare} f) ∗ (∃ f, (𝕋).loc cc2_scratch1 ↦{fullShare} f) ∗ (∃ f, (𝕋).loc cc2_scratch2 ↦{fullShare} f)
          ∗ bigSep ((((ownRefs (τ := τ) (.scVector (cV L) (sV L))).erase ((Proc.scVector (cV L) (sV L)).devRef cc2_scratch0)).erase
              ((Proc.scVector (cV L) (sV L)).devRef cc2_scratch1)).erase ((Proc.scVector (cV L) (sV L)).devRef cc2_scratch2))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (sV L))
    (b := (Proc.scVector (cV L) (sV L)).devRef cc2_scratch0) rfl)).trans ?_
  rw [SparseCore.bigSep_erase' (Finset.mem_erase.mpr ⟨fun e => absurd (Proc.devRef_injective _ e) (show (cc2_scratch1 : Ref sig .scVector) ≠ cc2_scratch0 by decide),
    SparseCore.Cfg.mem_ownRefs_of_owner (p := Proc.scVector (cV L) (sV L)) (b := (Proc.scVector (cV L) (sV L)).devRef cc2_scratch1) rfl⟩),
    SparseCore.bigSep_erase' (Finset.mem_erase.mpr ⟨fun e => absurd (Proc.devRef_injective _ e) (show (cc2_scratch2 : Ref sig .scVector) ≠ cc2_scratch1 by decide),
      Finset.mem_erase.mpr ⟨fun e => absurd (Proc.devRef_injective _ e) (show (cc2_scratch2 : Ref sig .scVector) ≠ cc2_scratch0 by decide),
    SparseCore.Cfg.mem_ownRefs_of_owner (p := Proc.scVector (cV L) (sV L)) (b := (Proc.scVector (cV L) (sV L)).devRef cc2_scratch2) rfl⟩⟩)]

omit [FloatOps F] [Named F] in
theorem preRows_eq :
    bigSep (Finset.univ : Finset (Fin 8)) (fun j => preRow EK fst fix qI d L j)
      = iprop((bigSep Finset.univ fun j : Fin 8 => kitRow EK fst fix qI d L j)
          ∗ ((bigSep Finset.univ fun j : Fin 8 => semVal (cellA d (cV L) (sV L) j) 0) ∗ bigSep Finset.univ fun j : Fin 8 => semVal (cellB d (cV L) (sV L) j) 0)
          ∗ bigSep Finset.univ fun j : Fin 8 => goRow (UU := UU) fst d L j) := by
  unfold preRow
  rw [bigSep_sep', bigSep_sep', bigSep_sep']
omit [FloatOps F] [Named F] in
theorem doneRows_eq :
    bigSep (Finset.univ : Finset (Fin 8)) (fun j => doneRow (UU := UU) fst fix d L j)
      = iprop(((bigSep Finset.univ fun j : Fin 8 => semVal (cellA d (cV L) (sV L) j) 0) ∗ bigSep Finset.univ fun j : Fin 8 => semVal (cellB d (cV L) (sV L) j) 0)
          ∗ bigSep Finset.univ fun j : Fin 8 => tdRow (UU := UU) fst fix d L j) := by
  unfold doneRow
  rw [bigSep_sep', bigSep_sep']

omit [FloatOps F] [Named F] in
theorem filter_ge0 : (Finset.univ.filter fun j : Fin 8 => 0 ≤ j.val) = Finset.univ := Finset.filter_true_of_mem fun _ _ => Nat.zero_le _
omit [FloatOps F] [Named F] in
theorem filter_lt0 : (Finset.univ.filter fun j : Fin 8 => j.val < 0) = ∅ := Finset.filter_false_of_mem fun _ _ => Nat.not_lt_zero _
omit [FloatOps F] [Named F] in
theorem filter_ge8 : (Finset.univ.filter fun j : Fin 8 => 8 ≤ j.val) = ∅ := Finset.filter_false_of_mem fun j _ => by have := j.isLt; omega
omit [FloatOps F] [Named F] in
theorem filter_lt8 : (Finset.univ.filter fun j : Fin 8 => j.val < 8) = Finset.univ := Finset.filter_true_of_mem fun j _ => j.isLt

-- A tile does its eight rows in order; each row's resources return before the next row starts.
theorem tile_body (hF : (K (F := F)).Facts) (hpre : PreOK fix) (O : CellTallies nD τ sig (HIx 2)) (W : Waits sig (HIx 2)) (hO : ∀ g, O g none = 0) :
    iprop(levAts (K (F := F)).L (K (F := F)).lev ∗ kits EK fst fix qI d L ∗ goRes (UU := UU) fst fix qI d L
        ∗ scopedBufs 𝕋 ∗ scopedSems0 𝕋 ∗ owes 𝕋 O W)
      ⊢ wp frame (wpE (defs₀ (F := F)) 𝒱₀ 𝕋 none) Set.univ
          (cc2__stage_c_body (F := F) L stV (Memref.isWhole_whole _) ixV (Memref.isWhole_whole _) rV (Memref.isWhole_whole _)
            s0 (Memref.isWhole_whole _) s1 (Memref.isWhole_whole _) s2 (Memref.isWhole_whole _) cc2_scratch3
            cc2_scoped0 cc2_scoped1 cc2_scoped2 cc2_scoped3 cc2_scoped4 cc2_scoped5 cc2_scoped6 cc2_scoped7
            cc2_scoped8 cc2_scoped9 cc2_scoped10 cc2_scoped11 cc2_scoped12 cc2_scoped13 cc2_scoped14 cc2_scoped15)
          fun _ => iprop(tdRes (UU := UU) fst fix qI d L ∗ scopedBufs 𝕋 ∗ scopedSems0 𝕋
            ∗ ∃ W', ⌜∀ p ∈ W', p ∈ W ∨ p.2 = none⌝ ∗ owes 𝕋 O W') := by
  rw [body_eq, rows_eq]
  rw [(K (F := F)).scopedBufs_V hF d (cV L) (sV L), SparseCore.Cfg.scopedSems0_V (Val := Elt F) d (cV L) (sV L), ownSems0_V, ownBufs_V]
  unfold kits goRes tdRes
  iintro ⟨#Hlv, ⟨HstS, HatS, #HrS, Hkrows⟩, ⟨Hgo, Hix⟩, ⟨Hs0, Hs1, Hs2, Hbufs⟩, ⟨⟨HsemS, HsA, HsB⟩, Hsems⟩, HO⟩
  imod ((Rounds.body_intro EK (Rd) (cellS d (cV L) (sV L))).trans inv_alloc) $$ [HsemS HstS] with ⟨%κS, #HinvS⟩
  · isplitl [HsemS] <;> iassumption
  iapply (rows_wp0 EK fst fix qI d L hpre κS O W hO (.ret ⟨⟩))
  isplitr; · iexact Hlv
  isplitr; · iexact HinvS
  isplitl [Hkrows Hgo Hix Hs0 Hs1 Hs2 HsA HsB HO HatS]
  · rw [rowsInv_eq EK fst fix qI d L 0 O W, filter_ge0, filter_lt0, bigSep_empty,
      show bigSep (Finset.univ : Finset (Fin 8)) (preRow EK fst fix qI d L) = bigSep Finset.univ (fun j => preRow EK fst fix qI d L j) from rfl, preRows_eq]
    iexists W; isplitr
    · ipureintro; exact fun p hp => .inl hp
    isplitl [HO]; · iexact HO
    isplitl [HatS]; · iexact HatS
    isplitr; · iexact HrS
    isplitl [Hkrows HsA HsB Hgo]
    · isplitl [Hkrows]; · iexact Hkrows
      isplitl [HsA HsB]
      · isplitl [HsA]; · iexact HsA
        iexact HsB
      iexact Hgo
    isplitr; · iempintro
    isplitl [Hix]; · iexact Hix
    isplitl [Hs0]; · iexact Hs0
    isplitl [Hs1]; · iexact Hs1
    iexact Hs2
  rw [rowsInv_eq EK fst fix qI d L 8 O W, filter_ge8, filter_lt8, bigSep_empty,
    show bigSep (Finset.univ : Finset (Fin 8)) (doneRow (UU := UU) fst fix d L) = bigSep Finset.univ (fun j => doneRow (UU := UU) fst fix d L j) from rfl, doneRows_eq]
  iintro ⟨%W', %hW', HO, HatS, -, -, ⟨⟨HsA, HsB⟩, Htd⟩, Hix, Hs0, Hs1, Hs2⟩
  imod (Rounds.cell_close EK (Rd) (Set.mem_univ κS) (fun h => h) (R := 8) (kRd_later fst fix qI (cellKind_S d (cV L) (sV L)))) $$ [HatS] with HsemS
  · isplitr; · iexact HinvS
    iexact HatS
  rw [wp_ret]; imodintro
  isplitl [Htd Hix]
  · isplitl [Htd]; · iexact Htd
    iexact Hix
  isplitl [Hs0 Hs1 Hs2 Hbufs]
  · isplitl [Hs0]; · iexact Hs0
    isplitl [Hs1]; · iexact Hs1
    isplitl [Hs2]; · iexact Hs2
    iexact Hbufs
  isplitl [HsemS HsA HsB Hsems]
  · isplitl [HsemS HsA HsB]
    · isplitl [HsemS]; · iexact HsemS
      isplitl [HsA]; · iexact HsA
      iexact HsB
    iexact Hsems
  iexists W'; isplitr
  · ipureintro; exact hW'
  iexact HO

end Tile

omit [FloatOps F] [Named F] in

theorem mem_stRow (L : grid2.Coords) (j : Fin 8) (i : S256x100000.Idx) :
    i ∈ (stRowK L j).view.set ↔ (i 0).val = 16 * (L 1).val + 8 * (L 0).val + j.val := by
  show i ∈ (((stV : Memref sig .scVector .hbm S256x100000 .f32).view.slice
      (Rect.unit (s := S256x100000) (k2_off1 L (BitVec.ofNat 32 j.val)) S1x100000.size (k2_off1_inb L j))).reshape S100000 squeezes_S1x100000_S100000.numel_eq).set ↔ _
  rw [View.set_reshape, View.set_slice, Finset.mem_map]
  have key : ∀ x : S256x100000.Idx, x ∈ (Rect.unit (s := S256x100000) (k2_off1 L (BitVec.ofNat 32 j.val)) S1x100000.size (k2_off1_inb L j)).toLoadRect.set
      ↔ (x 0).val = 16 * (L 1).val + 8 * (L 0).val + j.val := by
    intro x
    rw [Rect.mem_set_unit, Fin.forall_fin_two, k2_off1_eq]
    have h1 : (x 1).val < 100000 := (x 1).isLt
    have e0 : S1x100000.size 0 = 1 := rfl
    have e1 : S1x100000.size 1 = 100000 := rfl
    simp only [Matrix.cons_val_zero, Matrix.cons_val_one, e0, e1]
    omega
  constructor
  · rintro ⟨x, hx, rfl⟩; exact (key x).mp hx
  · intro h; exact ⟨i, (key i).mpr h, rfl⟩
omit [FloatOps F] [Named F] in

theorem mem_rRow (L : grid2.Coords) (j : Fin 8) (i : S256x4112.Idx) :
    i ∈ (rRowK L j).view.set ↔ (i 0).val = 16 * (L 1).val + 8 * (L 0).val + j.val := by
  show i ∈ (((rV : Memref sig .scVector .hbm S256x4112 .f32).view.slice
      (Rect.unit (s := S256x4112) (k2_off5 L (BitVec.ofNat 32 j.val)) S1x4112.size (k2_off5_inb L j))).reshape S4112 squeezes_S1x4112_S4112.numel_eq).set ↔ _
  rw [View.set_reshape, View.set_slice, Finset.mem_map]
  have key : ∀ x : S256x4112.Idx, x ∈ (Rect.unit (s := S256x4112) (k2_off5 L (BitVec.ofNat 32 j.val)) S1x4112.size (k2_off5_inb L j)).toLoadRect.set
      ↔ (x 0).val = 16 * (L 1).val + 8 * (L 0).val + j.val := by
    intro x
    rw [Rect.mem_set_unit, Fin.forall_fin_two, k2_off5_eq]
    have h1 : (x 1).val < 4112 := (x 1).isLt
    have e0 : S1x4112.size 0 = 1 := rfl
    have e1 : S1x4112.size 1 = 4112 := rfl
    simp only [Matrix.cons_val_zero, Matrix.cons_val_one, e0, e1]
    omega
  constructor
  · rintro ⟨x, hx, rfl⟩; exact (key x).mp hx
  · intro h; exact ⟨i, (key i).mpr h, rfl⟩

end Cert.Proof.F

end
-- ==== Proof.SplitC.lean ====
import proofs.«204933_g4492535792355_cont_8to1_c_766_42_alg».proof.Proof.TileC
import Idealize.ShloMosaic.Lib.Transfers
import Idealize.ShloMosaic.Lib.ValueIdx
import Idealize.ShloMosaic.Lib.StableHlo.Run
import Idealize.ShloMosaic.Lib.Pipeline.Frame

noncomputable section

namespace Cert.Proof.SC

open Cert.KernelIdeal Cert.KernelIdeal.Gen Cert.Proof.F
open Idealize.ShloMosaic
open Idealize.ShloMosaic.SparseCore (S)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]
variable {UU : Type} [URA UU]

local notation "𝕄" => MT nD τ sig (HIx 2) (Elt F) ℕ UU ℕ

def rowNo (L : grid2.Coords) (j : Fin 8) : ℕ := 16 * (L 1).val + 8 * (L 0).val + j.val

theorem rowNo_lt (L : grid2.Coords) (j : Fin 8) : rowNo L j < 256 := by
  have h0 : (L 0).val < 2 := (L 0).isLt
  have h1 : (L 1).val < 16 := (L 1).isLt
  have := j.isLt
  unfold rowNo; omega

theorem row_iff {R N : ℕ} (r : ℕ) (i : (⟨2, ![R, N]⟩ : Shape).Idx) :
    (∀ a : Fin 2, (![r, 0] : Fin 2 → ℕ) a ≤ (i a).val ∧ (i a).val < (![r, 0] : Fin 2 → ℕ) a + (![1, N] : Fin 2 → ℕ) a) ↔ (i 0).val = r := by
  rw [Fin.forall_fin_two]
  have h1 : (i 1).val < N := (i 1).isLt
  show ((r ≤ (i 0).val ∧ (i 0).val < r + 1) ∧ (0 ≤ (i 1).val ∧ (i 1).val < 0 + N)) ↔ _
  omega

theorem mem_stRow (L : grid2.Coords) (j : Fin 8) (i : S256x100000.Idx) :
    i ∈ (stRowK L j).view.set ↔ (i 0).val = rowNo L j := by
  simp only [Memref.view_squeeze, Memref.view_slice, Memref.view_whole, View.set_reshape, View.set_slice_whole, Rect.mem_set_unit,
    k2_off1_eq]
  exact row_iff _ i

theorem mem_rRow (L : grid2.Coords) (j : Fin 8) (i : S256x4112.Idx) :
    i ∈ (rRowK L j).view.set ↔ (i 0).val = rowNo L j := by
  simp only [Memref.view_squeeze, Memref.view_slice, Memref.view_whole, View.set_reshape, View.set_slice_whole, Rect.mem_set_unit,
    k2_off5_eq]
  exact row_iff _ i

theorem k2_off2_closed : ∀ i : grid2.Coords, ∀ r : Fin 8,
    k2_off2 i (BitVec.ofNat 32 r.val) = ![(16 * (i 1).val + 8 * (i 0).val + r.val) % 128, 0] := by decide +kernel

abbrev TJ : Type := Fin 2 × Fin 16 × Fin 8

def rowT (t : TJ) : ℕ := 16 * t.2.1.val + 8 * t.1.val + t.2.2.val

theorem rowT_inj : Function.Injective rowT := by
  rintro ⟨c, s, j⟩ ⟨c', s', j'⟩ h
  have := c.isLt; have := s.isLt; have := j.isLt; have := c'.isLt; have := s'.isLt; have := j'.isLt
  unfold rowT at h; simp only at h
  have hc : c.val = c'.val := by omega
  have hs : s.val = s'.val := by omega
  have hj : j.val = j'.val := by omega
  rw [Fin.ext hc, Fin.ext hs, Fin.ext hj]

theorem rowT_surj (r : ℕ) (hr : r < 256) : ∃ t : TJ, rowT t = r :=
  ⟨(⟨(r % 16) / 8, by omega⟩, ⟨r / 16, by omega⟩, ⟨r % 8, by omega⟩), by unfold rowT; simp only; omega⟩

section Tiles

variable (Lc : Fin 2 → Fin 16 → grid2.Coords) (hL0 : ∀ c s, (Lc c s 0).val = c.val) (hL1 : ∀ c s, (Lc c s 1).val = s.val)

include hL0 hL1 in
theorem rowNo_Lc (t : TJ) : rowNo (Lc t.1 t.2.1) t.2.2 = rowT t := by unfold rowNo rowT; rw [hL0, hL1]

def stK (t : TJ) : Finset S256x100000.Idx := (stRowK (Lc t.1 t.2.1) t.2.2).view.set
def rK (t : TJ) : Finset S256x4112.Idx := (rRowK (Lc t.1 t.2.1) t.2.2).view.set

include hL0 hL1 in
theorem st_disjoint : ∀ t ∈ (Finset.univ : Finset TJ), ∀ t' ∈ (Finset.univ : Finset TJ), t ≠ t' → Disjoint (stK Lc t) (stK Lc t') := by
  intro t _ t' _ h
  rw [Finset.disjoint_left]; intro i hi hi'
  have e := ((mem_stRow _ _ i).mp hi).symm.trans ((mem_stRow _ _ i).mp hi')
  rw [rowNo_Lc Lc hL0 hL1, rowNo_Lc Lc hL0 hL1] at e
  exact h (rowT_inj e)

include hL0 hL1 in
theorem st_cover : (Finset.univ : Finset TJ).biUnion (stK Lc) = Finset.univ := by
  ext i
  simp only [Finset.mem_biUnion, Finset.mem_univ, true_and, iff_true]
  obtain ⟨t, ht⟩ := rowT_surj (i 0).val (i 0).isLt
  exact ⟨t, (mem_stRow _ _ i).mpr (by rw [rowNo_Lc Lc hL0 hL1]; exact ht.symm)⟩

include hL0 hL1 in
theorem r_disjoint : ∀ t ∈ (Finset.univ : Finset TJ), ∀ t' ∈ (Finset.univ : Finset TJ), t ≠ t' → Disjoint (rK Lc t) (rK Lc t') := by
  intro t _ t' _ h
  rw [Finset.disjoint_left]; intro i hi hi'
  have e := ((mem_rRow _ _ i).mp hi).symm.trans ((mem_rRow _ _ i).mp hi')
  rw [rowNo_Lc Lc hL0 hL1, rowNo_Lc Lc hL0 hL1] at e
  exact h (rowT_inj e)

include hL0 hL1 in
theorem r_cover : (Finset.univ : Finset TJ).biUnion (rK Lc) = Finset.univ := by
  ext i
  simp only [Finset.mem_biUnion, Finset.mem_univ, true_and, iff_true]
  obtain ⟨t, ht⟩ := rowT_surj (i 0).val (i 0).isLt
  exact ⟨t, (mem_rRow _ _ i).mpr (by rw [rowNo_Lc Lc hL0 hL1]; exact ht.symm)⟩

end Tiles

theorem row_emb {R N : ℕ} (off : Fin 2 → ℕ) (r : ℕ) (hoff : off = ![r, 0]) (inb : ∀ a, off a + (![1, N] : Fin 2 → ℕ) a ≤ (⟨2, ![R, N]⟩ : Shape).size a)
    (h : (⟨1, ![N]⟩ : Shape).numel = (⟨2, ![1, N]⟩ : Shape).numel) (x : (⟨1, ![N]⟩ : Shape).Idx) (a : Fin 2) :
    ((Rect.unit (s := ⟨2, ![R, N]⟩) off ![1, N] inb).emb (Shape.reshapeEquiv h x) a).val = (![r, (x 0).val] : Fin 2 → ℕ) a := by
  subst hoff
  rw [Rect.emb_apply, Shape.reshapeEquiv_cons_one]
  match a with
  | ⟨0, _⟩ => show r + 1 * 0 = r; omega
  | ⟨1, _⟩ => show 0 + 1 * (x 0).val = (x 0).val; omega

theorem emb_rRow (L : grid2.Coords) (j : Fin 8) (x : S4112.Idx) :
    (rRowK L j).view.emb x = ValueIdx.ix2 (⟨rowNo L j, rowNo_lt L j⟩ : Fin 256) (x 0) := by
  funext a
  apply Fin.ext
  refine (row_emb (R := 256) (N := 4112) _ (rowNo L j) (k2_off5_eq L j) _ _ x a).trans ?_
  match a with
  | ⟨0, _⟩ => rfl
  | ⟨1, _⟩ => rfl

theorem emb_stRow (L : grid2.Coords) (j : Fin 8) (x : S100000.Idx) :
    (stRowK L j).view.emb x = ValueIdx.ix2 (⟨rowNo L j, rowNo_lt L j⟩ : Fin 256) (x 0) := by
  funext a
  apply Fin.ext
  refine (row_emb (R := 256) (N := 100000) _ (rowNo L j) (k2_off1_eq L j) _ _ x a).trans ?_
  match a with
  | ⟨0, _⟩ => rfl
  | ⟨1, _⟩ => rfl

theorem emb_ixRow (L : grid2.Coords) (j : Fin 8) (x : S4112.Idx) :
    (ixRowK L j).view.emb x = ValueIdx.ix2 (⟨rowNo L j % 128, Nat.mod_lt _ (by decide)⟩ : Fin 128) (x 0) := by
  funext a
  apply Fin.ext
  refine (row_emb (R := 128) (N := 4112) _ (rowNo L j % 128) (k2_off2_closed L j) _ _ x a).trans ?_
  match a with
  | ⟨0, _⟩ => rfl
  | ⟨1, _⟩ => rfl

def shareOf (q : PosShare TreeShare) (n i : ℕ) : PosShare TreeShare :=
  if i < n then Transfers.shareTokN q i else Transfers.shareDrop q n

theorem pointsTo_shares {ℓ : Loc nD τ sig} {S : Finset _} {f : Buf (Elt F) ℓ} (q : PosShare TreeShare) (n : ℕ) :
    (ℓ ↦[S]{q} f : sProp 𝕄) ⊣⊢ bigSep Finset.univ (fun i : Fin (n + 1) => ℓ ↦[S]{shareOf q n i.val} f) := by
  have e : bigSep Finset.univ (fun i : Fin (n + 1) => (ℓ ↦[S]{shareOf q n i.val} f : sProp 𝕄))
      = iprop((ℓ ↦[S]{Transfers.shareDrop q n} f) ∗ bigSep (Finset.range n) (fun i => ℓ ↦[S]{Transfers.shareTokN q i} f)) := by
    rw [show bigSep Finset.univ (fun i : Fin (n + 1) => (ℓ ↦[S]{shareOf q n i.val} f : sProp 𝕄))
        = bigSep (Finset.range (n + 1)) (fun i => ℓ ↦[S]{shareOf q n i} f) by
      rw [← Nat.Iio_eq_range, ← Fin.map_valEmbedding_univ, BI.bigSep_map]; rfl]
    rw [Finset.range_add_one, BI.bigSep_insert Finset.notMem_range_self,
      show shareOf q n n = Transfers.shareDrop q n from if_neg (lt_irrefl n),
      BI.bigSep_congr (Ψ := fun i => (ℓ ↦[S]{Transfers.shareTokN q i} f : sProp 𝕄)) fun i hi => by
        rw [show shareOf q n i = Transfers.shareTokN q i from if_pos (Finset.mem_range.mp hi)]]
    rfl
  rw [e]; exact Transfers.pointsTo_toks_range q n

def qI (d : Dev nD) (c : Fin τ.nSC) (s : Fin τ.nSub) : PosShare TreeShare := shareOf (shareOf fullShare 1 c.val) 15 s.val

theorem bigSep_TJ (Φ : TJ → sProp 𝕄) :
    bigSep Finset.univ Φ = bigSep Finset.univ fun c : Fin 2 => bigSep Finset.univ fun s : Fin 16 => bigSep Finset.univ fun j : Fin 8 => Φ (c, s, j) := by
  rw [bigSep_univ_prod]; exact bigSep_congr fun c _ => bigSep_univ_prod _

section Main

variable (Lc : Fin 2 → Fin 16 → grid2.Coords) (hL0 : ∀ c s, (Lc c s 0).val = c.val) (hL1 : ∀ c s, (Lc c s 1).val = s.val)
variable (fst : (d : Dev nD) → Buf (Elt F) (stLoc d)) (fix : (d : Dev nD) → Buf (Elt F) (ixLoc d)) (d : Dev nD)

include hL0 hL1 in
theorem qI_Lc (c : Fin 2) (s : Fin 16) : qI d (cV (Lc c s)) (sV (Lc c s)) = shareOf (shareOf fullShare 1 c.val) 15 s.val := by
  show shareOf (shareOf fullShare 1 (Lc c s 0).val) 15 (Lc c s 1).val = _
  rw [hL0, hL1]

include hL0 hL1 in

theorem ix_shares : (ixLoc d ↦{fullShare} fix d : sProp 𝕄)
    ⊣⊢ bigSep Finset.univ fun c : Fin 2 => bigSep Finset.univ fun s : Fin 16 => ixLoc d ↦{qI d (cV (Lc c s)) (sV (Lc c s))} fix d := by
  have h1 := pointsTo_shares (F := F) (UU := UU) (ℓ := ixLoc d) (S := Finset.univ) (f := fix d) fullShare 1
  have h2 : ∀ c : Fin 2, (ixLoc d ↦{shareOf fullShare 1 c.val} fix d : sProp 𝕄)
      ⊣⊢ bigSep Finset.univ fun s : Fin 16 => ixLoc d ↦{qI d (cV (Lc c s)) (sV (Lc c s))} fix d := fun c => by
    have h := pointsTo_shares (F := F) (UU := UU) (ℓ := ixLoc d) (S := Finset.univ) (f := fix d) (shareOf fullShare 1 c.val) 15
    rw [show (bigSep Finset.univ fun s : Fin 16 => (ixLoc d ↦{qI d (cV (Lc c s)) (sV (Lc c s))} fix d : sProp 𝕄))
      = bigSep Finset.univ fun s : Fin 16 => ixLoc d ↦{shareOf (shareOf fullShare 1 c.val) 15 s.val} fix d from
      bigSep_congr fun s _ => by rw [qI_Lc Lc hL0 hL1 d c s]]
    exact h
  exact ⟨h1.1.trans (bigSep_mono fun c _ => (h2 c).1), (bigSep_mono fun c _ => (h2 c).2).trans h1.2⟩

include hL0 hL1 in

theorem st_rows : (stLoc d ↦{fullShare} fst d : sProp 𝕄)
    = bigSep Finset.univ fun c : Fin 2 => bigSep Finset.univ fun s : Fin 16 => bigSep Finset.univ fun j : Fin 8 =>
        stLoc d ↦[(stRowK (Lc c s) j).view.set]{fullShare} fst d :=
  (show (stLoc d ↦{fullShare} fst d : sProp 𝕄) = bigSep Finset.univ (fun t : TJ => stLoc d ↦[stK Lc t]{fullShare} fst d) by
    rw [← pointsTo_biUnion Finset.univ (ℓ := stLoc d) (stK Lc) (st_disjoint Lc hL0 hL1), st_cover Lc hL0 hL1]).trans (bigSep_TJ _)

include hL0 hL1 in

theorem r_rows (f : Buf (Elt F) (rLoc d)) : (rLoc d ↦{fullShare} f : sProp 𝕄)
    = bigSep Finset.univ fun c : Fin 2 => bigSep Finset.univ fun s : Fin 16 => bigSep Finset.univ fun j : Fin 8 =>
        rLoc d ↦[(rRowK (Lc c s) j).view.set]{fullShare} f :=
  (show (rLoc d ↦{fullShare} f : sProp 𝕄) = bigSep Finset.univ (fun t : TJ => rLoc d ↦[rK Lc t]{fullShare} f) by
    rw [← pointsTo_biUnion Finset.univ (ℓ := rLoc d) (rK Lc) (r_disjoint Lc hL0 hL1), r_cover Lc hL0 hL1]).trans (bigSep_TJ _)

include hL0 hL1 in

theorem split_c :
    iprop((stLoc d ↦{fullShare} fst d) ∗ (ixLoc d ↦{fullShare} fix d) ∗ (∃ f, rLoc d ↦{fullShare} f))
      ⊢ (bigSep Finset.univ fun c : Fin 2 => bigSep Finset.univ fun s : Fin 16 => goRes (UU := UU) fst fix qI d (Lc c s) : sProp 𝕄) := by
  unfold goRes goRow
  simp only [bigSep_sep']
  iintro ⟨Hst, Hix, Hr⟩
  isplitl [Hst Hr]
  · isplitl [Hst]
    · iapply (Entails.of_eq (st_rows (UU := UU) Lc hL0 hL1 fst d)); iexact Hst
    · icases Hr with ⟨%f, Hr⟩
      ihave H := (Entails.of_eq (r_rows (UU := UU) Lc hL0 hL1 d f)) $$ Hr
      have hmono : (bigSep Finset.univ fun c : Fin 2 => bigSep Finset.univ fun s : Fin 16 => bigSep Finset.univ fun j : Fin 8 =>
            (rLoc d ↦[(rRowK (Lc c s) j).view.set]{fullShare} f : sProp 𝕄))
          ⊢ bigSep Finset.univ fun c : Fin 2 => bigSep Finset.univ fun s : Fin 16 => bigSep Finset.univ fun j : Fin 8 =>
            iprop(∃ f, rLoc d ↦[(rRowK (Lc c s) j).view.set]{fullShare} f) :=
        bigSep_mono fun c _ => bigSep_mono fun s _ => bigSep_mono fun j _ =>
          (show (rLoc d ↦[(rRowK (Lc c s) j).view.set]{fullShare} f : sProp 𝕄)
            ⊢ iprop(∃ f, rLoc d ↦[(rRowK (Lc c s) j).view.set]{fullShare} f) from by iintro H; iexists f; iexact H)
      iapply hmono
      iexact H
  · iapply (ix_shares (UU := UU) Lc hL0 hL1 fix d).1; iexact Hix

include hL0 hL1 in

theorem value_of (fs : TJ → Buf (Elt F) (rLoc d)) (g : Buf (Elt F) (rLoc d))
    (hR : ∀ t ∈ (Finset.univ : Finset TJ), RHolds fst fix d (Lc t.1 t.2.1) t.2.2 (fs t))
    (hg : ∀ t ∈ (Finset.univ : Finset TJ), ∀ i ∈ rK Lc t, g i = fs t i) (row : Fin 256) (k : Fin 4112) :
    g (ValueIdx.ix2 row k)
      = fst d (ValueIdx.ix2 row (colOf (fix d (ValueIdx.ix2 (⟨row.val % 128, Nat.mod_lt _ (by decide)⟩ : Fin 128) k)) 0)) := by
  obtain ⟨t, ht⟩ := rowT_surj row.val row.isLt
  have hrow : rowNo (Lc t.1 t.2.1) t.2.2 = row.val := (rowNo_Lc Lc hL0 hL1 t).trans ht
  have e1 : ValueIdx.ix2 row k = (rRowK (Lc t.1 t.2.1) t.2.2).view.emb (ValueIdx.ix1 k) := by
    rw [emb_rRow]; congr 1; exact Fin.ext hrow.symm
  rw [e1, hg t (Finset.mem_univ _) _ (View.emb_mem_set _ _), hR t (Finset.mem_univ _) (ValueIdx.ix1 k), emb_stRow, emb_ixRow]
  simp only [hrow]
  rfl

include hL0 hL1 in

theorem r_join :
    (bigSep Finset.univ fun c : Fin 2 => bigSep Finset.univ fun s : Fin 16 => bigSep Finset.univ fun j : Fin 8 =>
        iprop(∃ f, ⌜RHolds fst fix d (Lc c s) j f⌝ ∗ rLoc d ↦[(rRowK (Lc c s) j).view.set]{fullShare} f) : sProp 𝕄)
      ⊢ iprop(∃ f : Buf (Elt F) (rLoc d), ⌜∀ (row : Fin 256) (k : Fin 4112), f (ValueIdx.ix2 row k)
              = fst d (ValueIdx.ix2 row (colOf (fix d (ValueIdx.ix2 (⟨row.val % 128, Nat.mod_lt _ (by decide)⟩ : Fin 128) k)) 0))⌝
            ∗ rLoc d ↦{fullShare} f) := by
  refine (Entails.of_eq (bigSep_TJ (UU := UU) (F := F) (fun t : TJ =>
    iprop(∃ f, ⌜RHolds fst fix d (Lc t.1 t.2.1) t.2.2 f⌝ ∗ rLoc d ↦[rK Lc t]{fullShare} f))).symm).trans ?_
  refine (bigSep_exists_pi Finset.univ (fun (t : TJ) (f : Buf (Elt F) (rLoc d)) =>
    iprop(⌜RHolds fst fix d (Lc t.1 t.2.1) t.2.2 f⌝ ∗ rLoc d ↦[rK Lc t]{fullShare} f))).trans ?_
  iintro ⟨%fs, H2⟩
  ihave H3 := (bigSep_pure_sep Finset.univ (fun t : TJ => RHolds fst fix d (Lc t.1 t.2.1) t.2.2 (fs t))
    (fun t => (rLoc d ↦[rK Lc t]{fullShare} fs t : sProp 𝕄))) $$ H2
  icases H3 with ⟨%hR, H3⟩
  ihave H4 := (pointsTo_biUnion_join Finset.univ (rK Lc) fs (fs (0, 0, 0)) (r_disjoint Lc hL0 hL1)) $$ H3
  icases H4 with ⟨%g, %hg, H4⟩
  rw [r_cover Lc hL0 hL1]
  iexists g
  isplitr
  · ipureintro; exact value_of Lc hL0 hL1 fst fix d fs g hR hg
  · iexact H4

include hL0 hL1 in

theorem join_c :
    (bigSep Finset.univ fun c : Fin 2 => bigSep Finset.univ fun s : Fin 16 => tdRes (UU := UU) fst fix qI d (Lc c s) : sProp 𝕄)
      ⊢ iprop((stLoc d ↦{fullShare} fst d) ∗ (ixLoc d ↦{fullShare} fix d)
          ∗ ∃ f : Buf (Elt F) (rLoc d), ⌜∀ (row : Fin 256) (k : Fin 4112), f (ValueIdx.ix2 row k)
              = fst d (ValueIdx.ix2 row (colOf (fix d (ValueIdx.ix2 (⟨row.val % 128, Nat.mod_lt _ (by decide)⟩ : Fin 128) k)) 0))⌝
            ∗ rLoc d ↦{fullShare} f) := by
  unfold tdRes tdRow
  simp only [bigSep_sep']
  iintro ⟨⟨Hst, Hr⟩, Hix⟩
  isplitl [Hst]
  · iapply (Entails.of_eq (st_rows (UU := UU) Lc hL0 hL1 fst d).symm); iexact Hst
  isplitl [Hix]
  · iapply (ix_shares (UU := UU) Lc hL0 hL1 fix d).2; iexact Hix
  iapply (r_join (UU := UU) Lc hL0 hL1 fst fix d); iexact Hr

end Main

section Held

variable (Lc : Fin 2 → Fin 16 → grid2.Coords) (hL0 : ∀ c s, (Lc c s 0).val = c.val) (hL1 : ∀ c s, (Lc c s 1).val = s.val)

def rOf (st : (Proc.devRef .tc main_v2_0 : DevRef τ sig).ty.Contents (Elt F)) (ix : (Proc.devRef .tc main_v3 : DevRef τ sig).ty.Contents (Elt F)) :
    (Proc.devRef .tc main_v4 : DevRef τ sig).ty.Contents (Elt F) :=
  fun i : S256x4112.Idx => st (ValueIdx.ix2 (i 0)
    (colOf (ix (ValueIdx.ix2 (⟨(i 0).val % 128, Nat.mod_lt _ (by decide)⟩ : Fin 128) (i 1))) 0))

theorem rOf_apply (st : (Proc.devRef .tc main_v2_0 : DevRef τ sig).ty.Contents (Elt F)) (ix : (Proc.devRef .tc main_v3 : DevRef τ sig).ty.Contents (Elt F))
    (row : Fin 256) (k : Fin 4112) :
    rOf st ix (ValueIdx.ix2 row k)
      = st (ValueIdx.ix2 row (colOf (ix (ValueIdx.ix2 (⟨row.val % 128, Nat.mod_lt _ (by decide)⟩ : Fin 128) k)) 0)) := rfl

def W5of (Vv : Valuation τ sig (Elt F)) : Valuation τ sig (Elt F) :=
  Function.update Vv (Proc.devRef .tc main_v4) (rOf (Vv (Proc.devRef .tc main_v2_0)) (Vv (Proc.devRef .tc main_v3)))

def T3 : Finset (DevRef τ sig) := {Proc.devRef .tc main_v2_0, Proc.devRef .tc main_v3, Proc.devRef .tc main_v4}

theorem ne_20_3 : (Proc.devRef .tc main_v2_0 : DevRef τ sig) ≠ Proc.devRef .tc main_v3 := fun e => absurd (Proc.devRef_injective _ e) (by decide)
theorem ne_20_4 : (Proc.devRef .tc main_v2_0 : DevRef τ sig) ≠ Proc.devRef .tc main_v4 := fun e => absurd (Proc.devRef_injective _ e) (by decide)
theorem ne_3_4 : (Proc.devRef .tc main_v3 : DevRef τ sig) ≠ Proc.devRef .tc main_v4 := fun e => absurd (Proc.devRef_injective _ e) (by decide)

theorem T3_sub : (T3 : Finset (DevRef τ sig)) ⊆ Pipeline.ucRefs τ sig := by
  intro b hb
  simp only [T3, Finset.mem_insert, Finset.mem_singleton] at hb
  rcases hb with rfl | rfl | rfl <;>
    exact Finset.mem_filter.mpr ⟨StableHlo.devRef_mem_tcRefs _, by decide⟩

theorem held_T3 (d : Dev nD) (Vv : Valuation τ sig (Elt F)) :
    (StableHlo.held (d.tc : Thread nD τ) T3 Vv : sProp 𝕄)
      = iprop((stLoc d ↦{fullShare} Vv (Proc.devRef .tc main_v2_0)) ∗ (ixLoc d ↦{fullShare} Vv (Proc.devRef .tc main_v3))
          ∗ (rLoc d ↦{fullShare} Vv (Proc.devRef .tc main_v4))) := by
  unfold StableHlo.held T3
  rw [bigSep_insert (by simp only [Finset.mem_insert, Finset.mem_singleton]; exact fun h => h.elim ne_20_3 ne_20_4),
    bigSep_insert (by simp only [Finset.mem_singleton]; exact ne_3_4), bigSep_singleton]
  rfl

include hL0 hL1 in

-- The call splits the three arrays into the tiles' rows and joins them back; the result is the row-wise gather.
theorem call1_held (d : Dev nD) (Vv : Valuation τ sig (Elt F)) :
    (StableHlo.held (d.tc : Thread nD τ) (Pipeline.ucRefs τ sig) Vv : sProp 𝕄)
      ⊢ iprop((bigSep Finset.univ fun c : Fin 2 => bigSep Finset.univ fun s : Fin 16 =>
            goRes (UU := UU) (fun d => Vv (Proc.devRef .tc main_v2_0)) (fun d => Vv (Proc.devRef .tc main_v3)) qI d (Lc c s))
        ∗ ((bigSep Finset.univ fun c : Fin 2 => bigSep Finset.univ fun s : Fin 16 =>
            tdRes (UU := UU) (fun d => Vv (Proc.devRef .tc main_v2_0)) (fun d => Vv (Proc.devRef .tc main_v3)) qI d (Lc c s))
          -∗ (StableHlo.held (d.tc : Thread nD τ) (Pipeline.ucRefs τ sig) (W5of Vv) : sProp 𝕄))) := by
  rw [StableHlo.held_sub_split (d.tc : Thread nD τ) T3_sub Vv, StableHlo.held_sub_split (d.tc : Thread nD τ) T3_sub (W5of Vv),
    held_T3, held_T3]
  have hrest : (StableHlo.held (d.tc : Thread nD τ) (Pipeline.ucRefs τ sig \ T3) (W5of Vv) : sProp 𝕄)
      = StableHlo.held (d.tc : Thread nD τ) (Pipeline.ucRefs τ sig \ T3) Vv :=
    StableHlo.held_congr (d.tc : Thread nD τ) fun b hb => by
      unfold W5of
      rw [Function.update_of_ne]
      rintro rfl
      exact (Finset.mem_sdiff.mp hb).2 (by simp [T3])
  rw [hrest]
  have e20 : W5of Vv (Proc.devRef .tc main_v2_0) = Vv (Proc.devRef .tc main_v2_0) := by
    unfold W5of; rw [Function.update_of_ne ne_20_4]
  have e3 : W5of Vv (Proc.devRef .tc main_v3) = Vv (Proc.devRef .tc main_v3) := by
    unfold W5of; rw [Function.update_of_ne ne_3_4]
  have e4 : W5of Vv (Proc.devRef .tc main_v4) = rOf (Vv (Proc.devRef .tc main_v2_0)) (Vv (Proc.devRef .tc main_v3)) := by
    unfold W5of; rw [Function.update_self]
  rw [e20, e3, e4]
  iintro ⟨⟨Hst, Hix, Hr⟩, Hrest⟩
  isplitl [Hst Hix Hr]
  · iapply (split_c (UU := UU) Lc hL0 hL1 (fun d => Vv (Proc.devRef .tc main_v2_0)) (fun d => Vv (Proc.devRef .tc main_v3)) d)
    isplitl [Hst]; · iexact Hst
    isplitl [Hix]; · iexact Hix
    iexists _; iexact Hr
  iintro Htd
  ihave H := (join_c (UU := UU) Lc hL0 hL1 (fun d => Vv (Proc.devRef .tc main_v2_0)) (fun d => Vv (Proc.devRef .tc main_v3)) d) $$ Htd
  icases H with ⟨Hst, Hix, %f, %hf, Hr⟩
  isplitr [Hrest]
  swap; · iexact Hrest
  isplitl [Hst]; · iexact Hst
  isplitl [Hix]; · iexact Hix
  have ef : f = rOf (Vv (Proc.devRef .tc main_v2_0)) (Vv (Proc.devRef .tc main_v3)) := by
    funext i
    rw [ValueIdx.eq_ix2 i]
    exact hf (i 0) (i 1)
  rw [← ef]
  iexact Hr

theorem goRes_congr (fst fst' : (d : Dev nD) → Buf (Elt F) (stLoc d)) (fix fix' : (d : Dev nD) → Buf (Elt F) (ixLoc d))
    (q : Dev nD → Fin τ.nSC → Fin τ.nSub → PosShare TreeShare) (d : Dev nD) (L : grid2.Coords) (h1 : fst d = fst' d) (h2 : fix d = fix' d) :
    (goRes (UU := UU) fst fix q d L : sProp 𝕄) = goRes (UU := UU) fst' fix' q d L := by
  unfold goRes goRow; rw [h1, h2]

theorem tdRes_congr (fst fst' : (d : Dev nD) → Buf (Elt F) (stLoc d)) (fix fix' : (d : Dev nD) → Buf (Elt F) (ixLoc d))
    (q : Dev nD → Fin τ.nSC → Fin τ.nSub → PosShare TreeShare) (d : Dev nD) (L : grid2.Coords) (h1 : fst d = fst' d) (h2 : fix d = fix' d) :
    (tdRes (UU := UU) fst fix q d L : sProp 𝕄) = tdRes (UU := UU) fst' fix' q d L := by
  unfold tdRes tdRow RHolds; rw [h1, h2]

include hL0 hL1 in

theorem call1_held_at (fst : (d : Dev nD) → Buf (Elt F) (stLoc d)) (fix : (d : Dev nD) → Buf (Elt F) (ixLoc d))
    (d : Dev nD) (Vv : Valuation τ sig (Elt F))
    (hst : fst d = Vv (Proc.devRef .tc main_v2_0)) (hix : fix d = Vv (Proc.devRef .tc main_v3)) :
    (StableHlo.held (d.tc : Thread nD τ) (Pipeline.ucRefs τ sig) Vv : sProp 𝕄)
      ⊢ iprop((bigSep Finset.univ fun c : Fin 2 => bigSep Finset.univ fun s : Fin 16 => goRes (UU := UU) fst fix qI d (Lc c s))
        ∗ ((bigSep Finset.univ fun c : Fin 2 => bigSep Finset.univ fun s : Fin 16 => tdRes (UU := UU) fst fix qI d (Lc c s))
          -∗ (StableHlo.held (d.tc : Thread nD τ) (Pipeline.ucRefs τ sig) (W5of Vv) : sProp 𝕄))) := by
  have hg : ∀ c s, (goRes (UU := UU) fst fix qI d (Lc c s) : sProp 𝕄)
      = goRes (UU := UU) (fun _ => Vv (Proc.devRef .tc main_v2_0)) (fun _ => Vv (Proc.devRef .tc main_v3)) qI d (Lc c s) :=
    fun c s => goRes_congr _ _ _ _ qI d (Lc c s) hst hix
  have ht : ∀ c s, (tdRes (UU := UU) fst fix qI d (Lc c s) : sProp 𝕄)
      = tdRes (UU := UU) (fun _ => Vv (Proc.devRef .tc main_v2_0)) (fun _ => Vv (Proc.devRef .tc main_v3)) qI d (Lc c s) :=
    fun c s => tdRes_congr _ _ _ _ qI d (Lc c s) hst hix
  simp only [hg, ht]
  exact call1_held Lc hL0 hL1 d Vv

end Held

end Cert.Proof.SC

end
-- ==== Proof.TileA.lean ====
import Idealize.ShloMosaic.Lib.SparseCore.Launch
import Idealize.ShloMosaic.Lib.SparseCore.Ops
import Idealize.ShloMosaic.Lib.SparseCore.Stream
import Idealize.ShloMosaic.Lib.WriteMode
import Idealize.ShloMosaic.Lib.Tactic
import proofs.«204933_g4492535792355_cont_8to1_c_766_42_alg».proof.Proof.Gen.KernelIdeal.Skeleton

noncomputable section

namespace Cert.Proof.E

open Cert.KernelIdeal Cert.KernelIdeal.Gen

open Idealize.ShloMosaic
open Idealize.ShloMosaic.SparseCore (S V T)
open Idealize.ShloMosaic.SparseCore.Cfg (HIx ownBufs ownSems0 ownCells ownRefs mem_ownCells)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

abbrev ΛP : Labels := Pipeline.Sig Λ₀ (Fin 2) fun p => (pcfgs (F := F) p).Adm
abbrev K : SparseCore.Cfg τ sig (ΛP (F := F)) 2 := sc (F := F)
abbrev 𝒱₀ : Variants := Variants.none

def chunk (L : grid0.Coords) : Fin 16 := ⟨(2 * (L 1).val + (L 0).val) % 16, Nat.mod_lt _ (by decide)⟩

theorem k0_off1_eq : ∀ L : grid0.Coords, k0_off1 L = ![8 * (chunk L).val] := by decide +kernel
theorem k0_off2_eq : ∀ L : grid0.Coords, k0_off2 L = ![8 * (chunk L).val, 0] := by decide +kernel

variable {UU : Type} [URA UU]

local notation "𝕄" => MT nD τ sig (HIx 2) (Elt F) ℕ UU ℕ

abbrev UK : Type := URounds (GSem nD τ sig) Unit

variable (EK : Emb UK (MT nD τ sig (HIx 2) (Elt F) ℕ UU ℕ)) [EK.LandsIn (upEmb : UEmb _ (MT nD τ sig (HIx 2) (Elt F) ℕ UU ℕ))]
variable (EC : UEmb Counters (MT nD τ sig (HIx 2) (Elt F) ℕ UU ℕ)) [EC.LandsIn (upEmb : UEmb _ (MT nD τ sig (HIx 2) (Elt F) ℕ UU ℕ))]
variable (emb : UEmb (WmRA nD τ sig (Elt F)) UU)

local notation:60 ℓ " ⇝[" I "]{" q "} " f:max " ⇒ " g:max " @ " W:max => willBeTo (Ix := HIx 2) (Name := ℕ) (Lvl := ℕ) emb ℓ I q f g W

variable (m : (ℓ : Loc nD τ sig) → Buf (Elt F) ℓ)

abbrev v1Loc (d : Dev nD) : Loc nD τ sig := (SparseCore.T d).loc main_arg4
abbrev v2Loc (d : Dev nD) : Loc nD τ sig := (SparseCore.T d).loc main_arg5
abbrev pLoc (d : Dev nD) : Loc nD τ sig := (SparseCore.T d).loc main_arg2
abbrev g1Loc (d : Dev nD) : Loc nD τ sig := (SparseCore.T d).loc main_v0_0
abbrev g2Loc (d : Dev nD) : Loc nD τ sig := (SparseCore.T d).loc main_v0_1

abbrev v1V : Memref sig .scVector .hbm S100000x128 .f32 := Memref.whole main_arg4_scv
abbrev v2V : Memref sig .scVector .hbm S100000x128 .f32 := Memref.whole main_arg5_scv
abbrev pV : Memref sig .scVector .hbm S128 .i32 := Memref.whole main_arg2_scv
abbrev g1V : Memref sig .scVector .hbm S128x128 .f32 := Memref.whole main_v0_0_scv
abbrev g2V : Memref sig .scVector .hbm S128x128 .f32 := Memref.whole main_v0_1_scv

abbrev sI : Memref sig .scVector .vmem S8 .i32 := Memref.whole cc0_scratch0
abbrev sR : Memref sig .scVector .vmem S8x128 .f32 := Memref.whole cc0_scratch1

theorem pdiv : 16 ∣ S128.size 0 := ⟨8, rfl⟩
theorem gdiv : 16 ∣ S128x128.size 0 := ⟨8, rfl⟩

abbrev pPart (j : Fin 16) : Rect S128 := Rect.part (s := S128) (a₀ := 0) pdiv j
abbrev gPart (j : Fin 16) : Rect S128x128 := Rect.part (s := S128x128) (a₀ := 0) gdiv j
abbrev pSet (j : Fin 16) : Finset S128.Idx := ((pV : Memref sig .scVector .hbm S128 .i32).view.slice (pPart j)).set
abbrev gSet (j : Fin 16) : Finset S128x128.Idx := ((g1V : Memref sig .scVector .hbm S128x128 .f32).view.slice (gPart j)).set

theorem gathers128 : S100000x128.Gathers 0 S128x128 := by decide
theorem numel128 : S128.numel = S128x128.size gathers128.axis' := by decide

def PreOK : Prop := ∀ (d : Dev nD) (x : S128.Idx), (m (pLoc d) x).toNat < S100000x128.size gathers128.axis

def agreed (hpre : PreOK m) (d : Dev nD) (tab : S100000x128.Idx → Elt F .f32) : S128x128.Idx → Elt F .f32 :=
  SparseCore.gatherPayload gathers128 tab (SparseCore.rows (m (pLoc d)) numel128 (hpre d))

abbrev G1 (hpre : PreOK m) (d : Dev nD) : Buf (Elt F) (g1Loc d) := agreed m hpre d (m (v1Loc d))
abbrev G2 (hpre : PreOK m) (d : Dev nD) : Buf (Elt F) (g2Loc d) := agreed m hpre d (m (v2Loc d))

def chunkN (c s : ℕ) : Fin 16 := ⟨(2 * s + c) % 16, Nat.mod_lt _ (by decide)⟩

section Tile

variable (d : Dev nD) (L : grid0.Coords)

abbrev cV (L : grid0.Coords) : Fin τ.nSC := (L 0).castLE hcore0
abbrev jV (L : grid0.Coords) : Fin τ.nSub := (L 1).castLE hsub0

abbrev pRectK (L : grid0.Coords) : Rect S128 := Rect.unit (s := S128) (k0_off1 L) S8.size (k0_off1_inb L)
abbrev gRectK (L : grid0.Coords) : Rect S128x128 := Rect.unit (s := S128x128) (k0_off2 L) S8x128.size (k0_off2_inb L)
abbrev wRect : Rect S100000x128 := Rect.unit (s := S100000x128) ![0, 0] S100000x128.size inb_S100000x128_S100000x128_0_0
abbrev pK (L : grid0.Coords) : Memref sig .scVector .hbm S8 .i32 := (pV : Memref sig .scVector .hbm S128 .i32).slice (pRectK L) (fun _ => rfl)
abbrev g1K (L : grid0.Coords) : Memref sig .scVector .hbm S8x128 .f32 := (g1V : Memref sig .scVector .hbm S128x128 .f32).slice (gRectK L) (fun _ => rfl)
abbrev g2K (L : grid0.Coords) : Memref sig .scVector .hbm S8x128 .f32 := (g2V : Memref sig .scVector .hbm S128x128 .f32).slice (gRectK L) (fun _ => rfl)
abbrev v1K : Memref sig .scVector .hbm S100000x128 .f32 := (v1V : Memref sig .scVector .hbm S100000x128 .f32).slice wRect (fun _ => rfl)
abbrev v2K : Memref sig .scVector .hbm S100000x128 .f32 := (v2V : Memref sig .scVector .hbm S100000x128 .f32).slice wRect (fun _ => rfl)

theorem pRectK_eq : pRectK L = pPart (chunk L) := by
  unfold pRectK pPart Rect.part Rect.block
  congr 1
  · rw [k0_off1_eq]; funext a
    obtain rfl : a = 0 := Subsingleton.elim _ _
    simp [Shape.partIx, Shape.partSize]; omega
  · funext a
    obtain rfl : a = 0 := Subsingleton.elim _ _
    simp [Shape.partSize]

theorem gRectK_eq : gRectK L = gPart (chunk L) := by
  unfold gRectK gPart Rect.part Rect.block
  congr 1
  · rw [k0_off2_eq]; funext a
    match a with
    | 0 => simp [Shape.partIx, Shape.partSize]; omega
    | 1 => simp [Shape.partIx, Shape.partSize]
  · funext a
    match a with
    | 0 => simp [Shape.partSize]
    | 1 => simp [Shape.partSize]

theorem set_pK : (pK L).view.set = pSet (chunk L) := by
  show ((pV : Memref sig .scVector .hbm S128 .i32).view.slice (pRectK L)).set = _
  rw [pRectK_eq]
theorem set_g1K : (g1K L).view.set = gSet (chunk L) := by
  show ((g1V : Memref sig .scVector .hbm S128x128 .f32).view.slice (gRectK L)).set = _
  rw [gRectK_eq]
theorem set_g2K : (g2K L).view.set = gSet (chunk L) := by
  show ((g2V : Memref sig .scVector .hbm S128x128 .f32).view.slice (gRectK L)).set = ((g1V : Memref sig .scVector .hbm S128x128 .f32).view.slice (gPart (chunk L))).set
  rw [gRectK_eq]; rfl

theorem wRect_emb (x : S100000x128.Idx) : wRect.emb x = x := by
  funext a; apply Fin.ext
  rw [Rect.emb_apply]
  match a with
  | 0 => simp
  | 1 => simp

theorem set_v1K : (v1K : Memref sig .scVector .hbm S100000x128 .f32).view.set = Finset.univ := by
  ext i
  simp only [Finset.mem_univ, iff_true]
  show i ∈ ((v1V : Memref sig .scVector .hbm S100000x128 .f32).view.slice wRect).set
  rw [View.set_slice, Finset.mem_map]
  refine ⟨i, Rect.mem_set_unit.mpr fun a => ?_, rfl⟩
  match a with
  | 0 => exact ⟨by simp, by simp; exact (i 0).isLt⟩
  | 1 => exact ⟨by simp, by simp; exact (i 1).isLt⟩

def IdxHolds (d : Dev nD) (j : Fin 16) (fo : S8.Idx → Elt F .i32) : Prop :=
  ∀ (x : S8.Idx) (i : S128.Idx), (i 0).val = 8 * j.val + (x 0).val → fo x = m (pLoc d) i

theorem fetch_holds : IdxHolds m d (chunk L) ((pK L).view.read (Elt F) (m (pLoc d))) := by
  intro x i hi
  rw [View.read_apply]
  refine (cast_eq _ _).trans (congrArg (m (pLoc d)) ?_)
  funext a
  have ha : a = (0 : Fin 1) := Subsingleton.elim (α := Fin 1) a 0
  subst ha
  apply Fin.ext
  rw [hi]
  show ((pRectK L).emb x 0 : ℕ) = _
  rw [Rect.emb_apply, Rect.off_unit, Rect.stride_unit, k0_off1_eq]
  simp

theorem hin_of_holds (hpre : PreOK m) {fo : S8.Idx → Elt F .i32} {j : Fin 16} (hfo : IdxHolds m d j fo) :
    ∀ x, (fo x).toNat < S100000x128.size gathers_S100000x128_S8x128.axis := by
  intro x
  have hlt : 8 * j.val + (x 0).val < 128 := by
    have h1 : ((x 0 : Fin (S8.size 0)) : ℕ) < 8 := (x 0).isLt
    have h2 := j.isLt
    omega
  rw [hfo x (fun a => ⟨8 * j.val + (x 0).val, by
    have ha : a = (0 : Fin 1) := Subsingleton.elim (α := Fin 1) a 0
    subst ha; exact hlt⟩) rfl]
  exact hpre d _

theorem gather_agrees (hpre : PreOK m) {fo : S8.Idx → Elt F .i32} (hfo : IdxHolds m d (chunk L) fo)
    (hin : ∀ x, (fo x).toNat < S100000x128.size gathers_S100000x128_S8x128.axis) (tab : S100000x128.Idx → Elt F .f32) (x : S8x128.Idx) :
    SparseCore.gatherPayload gathers_S100000x128_S8x128 tab (SparseCore.rows fo (rfl : S8.numel = S8x128.size gathers_S100000x128_S8x128.axis') hin) x
      = agreed m hpre d tab ((gRectK L).emb x) := by
  unfold agreed SparseCore.gatherPayload
  congr 1
  funext b
  apply Fin.ext
  match b with
  | 0 =>
    have e1 := Shape.Gathers.idx_axis gathers_S100000x128_S8x128 (SparseCore.rows fo (rfl : S8.numel = S8x128.size gathers_S100000x128_S8x128.axis') hin) x
    have e2 := Shape.Gathers.idx_axis gathers128 (SparseCore.rows (m (pLoc d)) numel128 (hpre d)) ((gRectK L).emb x)
    show ((gathers_S100000x128_S8x128.idx _ x gathers_S100000x128_S8x128.axis : Fin _) : ℕ) = ((gathers128.idx _ _ gathers128.axis : Fin _) : ℕ)
    rw [e1, e2]
    show (fo _).toNat = (m (pLoc d) _).toNat
    refine congrArg _ (hfo _ _ ?_)
    have r1 := Shape.rowMajor_val_one (S128.rowMajor.symm ((((gRectK L).emb x) gathers128.axis').cast numel128.symm))
    have r2 := Shape.rowMajor_val_one (S8.rowMajor.symm ((x gathers_S100000x128_S8x128.axis').cast (rfl : S8.numel = S8x128.size gathers_S100000x128_S8x128.axis').symm))
    rw [Equiv.apply_symm_apply] at r1 r2
    refine r1.symm.trans (Eq.trans ?_ (congrArg (fun t => 8 * (chunk L).val + t) r2))
    show ((gRectK L).emb x 0 : ℕ) = 8 * (chunk L).val + (x 0 : ℕ)
    rw [Rect.emb_apply, Rect.off_unit, Rect.stride_unit, k0_off2_eq]
    simp
  | 1 =>
    rw [Shape.Gathers.idx_of_ne _ _ _ _ (by decide), Shape.Gathers.idx_of_ne _ _ _ _ (by decide)]
    show (x 1 : ℕ) = ((gRectK L).emb x 1 : ℕ)
    rw [Rect.emb_apply, Rect.off_unit, Rect.stride_unit, k0_off2_eq]
    simp

end Tile

abbrev cAcell (d : Dev nD) (c : Fin τ.nSC) (i : Fin τ.nSub) : GSem nD τ sig := (V d c i, .dma cc0_scoped0.sem)
abbrev cBcell (d : Dev nD) (c : Fin τ.nSC) (i : Fin τ.nSub) : GSem nD τ sig := (V d c i, .dma cc0_scoped1.sem)
abbrev cCcell (d : Dev nD) (c : Fin τ.nSC) (i : Fin τ.nSub) : GSem nD τ sig := (V d c i, .dma cc0_scoped2.sem)

abbrev cGcell (d : Dev nD) (c : Fin τ.nSC) (i : Fin τ.nSub) : GSem nD τ sig := (V d c i, .dma cc0_scratch2.sem)

abbrev NA : ℕ := (sI : Memref sig .scVector .vmem S8 .i32).view.dmaCredit
abbrev NB : ℕ := sig.dmaCredit .scVector (Kind.scVector.table .hbm) (main_v0_0_scv : Ref sig .scVector).idx S8x128 .f32
abbrev NC : ℕ := sig.dmaCredit .scVector (Kind.scVector.table .hbm) (main_v0_1_scv : Ref sig .scVector).idx S8x128 .f32
theorem NA_pos : 0 < NA := View.dmaCredit_pos _ (by decide)
theorem NB_pos : 0 < NB := sig.dmaCredit_pos _ _ _ _ _ (by decide)
theorem NC_pos : 0 < NC := sig.dmaCredit_pos _ _ _ _ _ (by decide)

inductive CellKind | cA | cB | cC
  deriving DecidableEq

def cellKind (g : GSem nD τ sig) : Option CellKind :=
  match g with
  | ((_, .scVector _ _), sm) =>
      if sm = .dma cc0_scoped0.sem then some .cA else if sm = .dma cc0_scoped1.sem then some .cB
      else if sm = .dma cc0_scoped2.sem then some .cC else none
  | _ => none

@[simp] theorem cellKind_cA (d : Dev nD) (c : Fin τ.nSC) (i : Fin τ.nSub) : cellKind (cAcell d c i) = some .cA := by simp [cellKind]
@[simp] theorem cellKind_cB (d : Dev nD) (c : Fin τ.nSC) (i : Fin τ.nSub) : cellKind (cBcell d c i) = some .cB := by
  simp [cellKind, show (cc0_scoped1.sem : DmaSem sig) ≠ cc0_scoped0.sem from by decide]
@[simp] theorem cellKind_cC (d : Dev nD) (c : Fin τ.nSC) (i : Fin τ.nSub) : cellKind (cCcell d c i) = some .cC := by
  simp [cellKind, show (cc0_scoped2.sem : DmaSem sig) ≠ cc0_scoped0.sem from by decide, show (cc0_scoped2.sem : DmaSem sig) ≠ cc0_scoped1.sem from by decide]

section Cells

variable (hpre : PreOK m)
variable (qP qG : Fin τ.nSC → Fin τ.nSub → PosShare TreeShare)

abbrev tg1 (d : Dev nD) : Tgt (Elt F) (g1Loc d) := fun i => some (G1 m hpre d i)
abbrev tg2 (d : Dev nD) : Tgt (Elt F) (g2Loc d) := fun i => some (G2 m hpre d i)

def kPay (g : GSem nD τ sig) : sProp 𝕄 :=
  match g with
  | ((d, .scVector c i), sm) =>
      if sm = .dma cc0_scoped0.sem then
        iprop((∃ fo : Buf (Elt F) ((V d c i).loc cc0_scratch0), ⌜IdxHolds m d (chunkN c.val i.val) fo⌝ ∗ (V d c i).loc cc0_scratch0 ↦{fullShare} fo)
          ∗ pLoc d ↦[pSet (chunkN c.val i.val)]{qP c i} m (pLoc d))
      else if sm = .dma cc0_scoped1.sem then
        iprop((g1Loc d ⇝[gSet (chunkN c.val i.val)]{qG c i} (m (g1Loc d)) ⇒ (tg1 m hpre d) @ (gSet (chunkN c.val i.val)))
          ∗ ∃ f, (V d c i).loc cc0_scratch1 ↦{fullShare} f)
      else
        iprop((g2Loc d ⇝[gSet (chunkN c.val i.val)]{qG c i} (m (g2Loc d)) ⇒ (tg2 m hpre d) @ (gSet (chunkN c.val i.val)))
          ∗ ∃ f, (V d c i).loc cc0_scratch1 ↦{fullShare} f)
  | _ => iprop(emp)

def kRd : Rounds.Schedule (GSem nD τ sig) Unit 𝕄 where
  duties g r := if (cellKind g).isSome ∧ r = 0 then {()} else ∅
  amount g _ _ := match cellKind g with | some .cA => NA | some .cB => NB | _ => NC
  payload g _ _ := kPay emb m hpre qP qG g
  amount_pos g _ _ _ := by
    rcases cellKind g with _ | ⟨_ | _ | _⟩
    · exact NC_pos
    · exact NA_pos
    · exact NB_pos
    · exact NC_pos

instance kRd_payload_storable (g : GSem nD τ sig) (r : ℕ) (u : Unit) :
    BI.Storable (upEmb : UEmb _ 𝕄) ((kRd (F := F) emb m hpre qP qG).payload g r u) := by
  show BI.Storable upEmb (kPay emb m hpre qP qG g)
  unfold kPay
  rcases g with ⟨⟨d, _ | c | ⟨c, i⟩⟩, sm⟩ <;> dsimp only <;> (repeat' split) <;> infer_instance

theorem kRd_duties₀ {g : GSem nD τ sig} (h : (cellKind g).isSome) : (kRd (F := F) emb m hpre qP qG).duties g 0 = {()} := if_pos ⟨h, rfl⟩
theorem kRd_mem₀ {g : GSem nD τ sig} (h : (cellKind g).isSome) : () ∈ (kRd (F := F) emb m hpre qP qG).duties g 0 := by
  rw [kRd_duties₀ emb m hpre qP qG h]; exact Finset.mem_singleton_self _
theorem kRd_later (g : GSem nD τ sig) : ∀ r, 0 + 1 ≤ r → (kRd (F := F) emb m hpre qP qG).duties g r = ∅ :=
  fun r hr => if_neg fun ⟨_, h⟩ => by omega
theorem kRd_back {g : GSem nD τ sig} (h : (cellKind g).isSome) :
    bigSep ((kRd (F := F) emb m hpre qP qG).duties g 0 \ ∅) (fun u => (kRd (F := F) emb m hpre qP qG).payload g 0 u)
      ⊢ (kRd (F := F) emb m hpre qP qG).payload g 0 () := by
  rw [Finset.sdiff_empty, kRd_duties₀ emb m hpre qP qG h, bigSep_singleton]
theorem kRd_expect {g : GSem nD τ sig} (h : (cellKind g).isSome) :
    (kRd (F := F) emb m hpre qP qG).expect g 0 = (kRd (F := F) emb m hpre qP qG).amount g 0 () := by
  unfold Rounds.Schedule.expect; rw [kRd_duties₀ emb m hpre qP qG h]; exact Finset.sum_singleton _ _
theorem kRd_amount_cA (d : Dev nD) (c : Fin τ.nSC) (i : Fin τ.nSub) : (kRd (F := F) emb m hpre qP qG).amount (cAcell d c i) 0 () = NA := by simp [kRd]
theorem kRd_amount_cB (d : Dev nD) (c : Fin τ.nSC) (i : Fin τ.nSub) : (kRd (F := F) emb m hpre qP qG).amount (cBcell d c i) 0 () = NB := by simp [kRd]
theorem kRd_amount_cC (d : Dev nD) (c : Fin τ.nSC) (i : Fin τ.nSub) : (kRd (F := F) emb m hpre qP qG).amount (cCcell d c i) 0 () = NC := by simp [kRd]
theorem kRd_payload_cA (d : Dev nD) (c : Fin τ.nSC) (i : Fin τ.nSub) :
    (kRd (F := F) emb m hpre qP qG).payload (cAcell d c i) 0 ()
      = iprop((∃ fo : Buf (Elt F) ((V d c i).loc cc0_scratch0), ⌜IdxHolds m d (chunkN c.val i.val) fo⌝ ∗ (V d c i).loc cc0_scratch0 ↦{fullShare} fo)
          ∗ pLoc d ↦[pSet (chunkN c.val i.val)]{qP c i} m (pLoc d)) := by
  show kPay emb m hpre qP qG (cAcell d c i) = _; unfold kPay; exact if_pos rfl
theorem kRd_payload_cB (d : Dev nD) (c : Fin τ.nSC) (i : Fin τ.nSub) :
    (kRd (F := F) emb m hpre qP qG).payload (cBcell d c i) 0 ()
      = iprop((g1Loc d ⇝[gSet (chunkN c.val i.val)]{qG c i} (m (g1Loc d)) ⇒ (tg1 m hpre d) @ (gSet (chunkN c.val i.val)))
          ∗ ∃ f, (V d c i).loc cc0_scratch1 ↦{fullShare} f) := by
  show kPay emb m hpre qP qG (cBcell d c i) = _; unfold kPay; exact (if_neg (by decide)).trans (if_pos rfl)
theorem kRd_payload_cC (d : Dev nD) (c : Fin τ.nSC) (i : Fin τ.nSub) :
    (kRd (F := F) emb m hpre qP qG).payload (cCcell d c i) 0 ()
      = iprop((g2Loc d ⇝[gSet (chunkN c.val i.val)]{qG c i} (m (g2Loc d)) ⇒ (tg2 m hpre d) @ (gSet (chunkN c.val i.val)))
          ∗ ∃ f, (V d c i).loc cc0_scratch1 ↦{fullShare} f) := by
  show kPay emb m hpre qP qG (cCcell d c i) = _; unfold kPay; exact (if_neg (by decide)).trans (if_neg (by decide))

def kit (g : GSem nD τ sig) : sProp 𝕄 :=
  iprop(roundState EK (kRd emb m hpre qP qG) g 0 ∗ atPos EK g 0 ∅ 0 ∗ reached EK g 0 ∗ dutyTok EK g 0 ())

end Cells

section Body

variable (d : Dev nD) (L : grid0.Coords)
variable (hpre : PreOK m) (qP qG : Fin τ.nSC → Fin τ.nSub → PosShare TreeShare)

theorem kRd_payload_cA' :
    (kRd (F := F) emb m hpre qP qG).payload (cAcell d (cV L) (jV L)) 0 ()
      = iprop((∃ fo : Buf (Elt F) ((V d (cV L) (jV L)).loc cc0_scratch0), ⌜IdxHolds m d (chunk L) fo⌝ ∗ (V d (cV L) (jV L)).loc cc0_scratch0 ↦{fullShare} fo)
          ∗ pLoc d ↦[pSet (chunk L)]{qP (cV L) (jV L)} m (pLoc d)) :=
  kRd_payload_cA emb m hpre qP qG d (cV L) (jV L)
theorem kRd_payload_cB' :
    (kRd (F := F) emb m hpre qP qG).payload (cBcell d (cV L) (jV L)) 0 ()
      = iprop((g1Loc d ⇝[gSet (chunk L)]{qG (cV L) (jV L)} (m (g1Loc d)) ⇒ (tg1 m hpre d) @ (gSet (chunk L)))
          ∗ ∃ f, (V d (cV L) (jV L)).loc cc0_scratch1 ↦{fullShare} f) :=
  kRd_payload_cB emb m hpre qP qG d (cV L) (jV L)
theorem kRd_payload_cC' :
    (kRd (F := F) emb m hpre qP qG).payload (cCcell d (cV L) (jV L)) 0 ()
      = iprop((g2Loc d ⇝[gSet (chunk L)]{qG (cV L) (jV L)} (m (g2Loc d)) ⇒ (tg2 m hpre d) @ (gSet (chunk L)))
          ∗ ∃ f, (V d (cV L) (jV L)).loc cc0_scratch1 ↦{fullShare} f) :=
  kRd_payload_cC emb m hpre qP qG d (cV L) (jV L)

theorem pts_pK (q : PosShare TreeShare) (f : Buf (Elt F) (pLoc d)) :
    ((pK L).view.loc (V d (cV L) (jV L)) ↦[(pK L).view.set]{q} f : sProp 𝕄) = pLoc d ↦[pSet (chunk L)]{q} f := by
  rw [set_pK]
theorem pts_v1K (q : PosShare TreeShare) (f : Buf (Elt F) (v1Loc d)) :
    ((v1K : Memref sig .scVector .hbm S100000x128 .f32).view.loc (V d (cV L) (jV L)) ↦[(v1K : Memref sig .scVector .hbm S100000x128 .f32).view.set]{q} f : sProp 𝕄)
      = v1Loc d ↦{q} f := by
  rw [set_v1K]
theorem pts_v2K (q : PosShare TreeShare) (f : Buf (Elt F) (v2Loc d)) :
    ((v2K : Memref sig .scVector .hbm S100000x128 .f32).view.loc (V d (cV L) (jV L)) ↦[(v2K : Memref sig .scVector .hbm S100000x128 .f32).view.set]{q} f : sProp 𝕄)
      = v2Loc d ↦{q} f := by
  rw [show (v2K : Memref sig .scVector .hbm S100000x128 .f32).view.set = Finset.univ from set_v1K]
theorem pts_sI (f : Buf (Elt F) ((V d (cV L) (jV L)).loc cc0_scratch0)) :
    ((sI : Memref sig .scVector .vmem S8 .i32).view.loc (V d (cV L) (jV L)) ↦[(sI : Memref sig .scVector .vmem S8 .i32).view.set]{fullShare} f : sProp 𝕄)
      = (V d (cV L) (jV L)).loc cc0_scratch0 ↦{fullShare} f := by
  simp only [Memref.view_whole, View.set_whole]
theorem pts_sR (f : Buf (Elt F) ((V d (cV L) (jV L)).loc cc0_scratch1)) :
    ((sR : Memref sig .scVector .vmem S8x128 .f32).view.loc (V d (cV L) (jV L)) ↦[(sR : Memref sig .scVector .vmem S8x128 .f32).view.set]{fullShare} f : sProp 𝕄)
      = (V d (cV L) (jV L)).loc cc0_scratch1 ↦{fullShare} f := by
  simp only [Memref.view_whole, View.set_whole]
theorem wb_g1K (q : PosShare TreeShare) (f : Buf (Elt F) (g1Loc d)) (g : Tgt (Elt F) (g1Loc d)) (W : Finset (Idx (g1Loc d))) :
    ((g1K L).view.loc (V d (cV L) (jV L)) ⇝[(g1K L).view.set]{q} f ⇒ g @ W : sProp 𝕄) = g1Loc d ⇝[gSet (chunk L)]{q} f ⇒ g @ W := by
  rw [set_g1K]
theorem wb_g2K (q : PosShare TreeShare) (f : Buf (Elt F) (g2Loc d)) (g : Tgt (Elt F) (g2Loc d)) (W : Finset (Idx (g2Loc d))) :
    ((g2K L).view.loc (V d (cV L) (jV L)) ⇝[(g2K L).view.set]{q} f ⇒ g @ W : sProp 𝕄) = g2Loc d ⇝[gSet (chunk L)]{q} f ⇒ g @ W := by
  rw [set_g2K]

theorem ownSems0_V :
    (ownSems0 (V d (cV L) (jV L)) : sProp 𝕄)
      = iprop(semVal (cAcell d (cV L) (jV L)) 0 ∗ semVal (cBcell d (cV L) (jV L)) 0 ∗ semVal (cCcell d (cV L) (jV L)) 0 ∗ semVal (cGcell d (cV L) (jV L)) 0
          ∗ bigSep (((((ownCells (V d (cV L) (jV L))).erase (cAcell d (cV L) (jV L))).erase (cBcell d (cV L) (jV L))).erase (cCcell d (cV L) (jV L))).erase (cGcell d (cV L) (jV L)))
              fun g => semVal g 0) := by
  unfold SparseCore.Cfg.ownSems0
  rw [SparseCore.bigSep_erase' ((mem_ownCells (g := cAcell d (cV L) (jV L))).mpr ⟨rfl, by
      show (SemLoc.dma cc0_scoped0.sem : SemLoc sig).isScoped .scVector = true; decide⟩),
    SparseCore.bigSep_erase' (Finset.mem_erase.mpr ⟨by simp [cAcell, cBcell]; decide, (mem_ownCells (g := cBcell d (cV L) (jV L))).mpr ⟨rfl, by
      show (SemLoc.dma cc0_scoped1.sem : SemLoc sig).isScoped .scVector = true; decide⟩⟩),
    SparseCore.bigSep_erase' (Finset.mem_erase.mpr ⟨by simp [cBcell, cCcell]; decide, Finset.mem_erase.mpr ⟨by simp [cAcell, cCcell]; decide,
      (mem_ownCells (g := cCcell d (cV L) (jV L))).mpr ⟨rfl, by show (SemLoc.dma cc0_scoped2.sem : SemLoc sig).isScoped .scVector = true; decide⟩⟩⟩),
    SparseCore.bigSep_erase' (Finset.mem_erase.mpr ⟨by simp [cCcell, cGcell]; decide, Finset.mem_erase.mpr ⟨by simp [cBcell, cGcell]; decide,
      Finset.mem_erase.mpr ⟨by simp [cAcell, cGcell]; decide,
      (mem_ownCells (g := cGcell d (cV L) (jV L))).mpr ⟨rfl, by show (SemLoc.dma cc0_scratch2.sem : SemLoc sig).isScoped .scVector = true; decide⟩⟩⟩⟩)]

theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

theorem read_v1K (f : S100000x128.Idx → Elt F .f32) : (v1K : Memref sig .scVector .hbm S100000x128 .f32).view.read (Elt F) f = f := by
  funext x
  rw [View.read_apply]
  refine (cast_eq _ _).trans (congrArg f ?_)
  show wRect.emb x = x
  exact wRect_emb x
theorem read_v2K (f : S100000x128.Idx → Elt F .f32) : (v2K : Memref sig .scVector .hbm S100000x128 .f32).view.read (Elt F) f = f := by
  funext x
  rw [View.read_apply]
  refine (cast_eq _ _).trans (congrArg f ?_)
  show wRect.emb x = x
  exact wRect_emb x

theorem scratch_holds1 {fo : S8.Idx → Elt F .i32} (hfo : IdxHolds m d (chunk L) fo)
    (hin : ∀ x, (fo x).toNat < S100000x128.size gathers_S100000x128_S8x128.axis) (fr : S8x128.Idx → Elt F .f32) :
    (sR : Memref sig .scVector .vmem S8x128 .f32).view.write (Elt F) fr
        (SparseCore.gatherPayload gathers_S100000x128_S8x128 ((v1K : Memref sig .scVector .hbm S100000x128 .f32).view.read (Elt F) (m (v1Loc d)))
          (SparseCore.rows ((sI : Memref sig .scVector .vmem S8 .i32).view.read (Elt F) fo) rfl hin)) Finset.univ
      = (g1K L).view.read (Elt F) (G1 m hpre d) := by
  refine (View.write_whole_univ (cc0_scratch1 : Ref sig .scVector) fr _).trans (funext fun x => ?_)
  refine (congrArg (fun t => SparseCore.gatherPayload gathers_S100000x128_S8x128 t _ x) (read_v1K (m (v1Loc d)))).trans ?_
  exact (gather_agrees m d L hpre hfo hin (m (v1Loc d)) x).trans ((View.read_apply _ _).trans (cast_eq _ _)).symm

theorem scratch_holds2 {fo : S8.Idx → Elt F .i32} (hfo : IdxHolds m d (chunk L) fo)
    (hin : ∀ x, (fo x).toNat < S100000x128.size gathers_S100000x128_S8x128.axis) (fr : S8x128.Idx → Elt F .f32) :
    (sR : Memref sig .scVector .vmem S8x128 .f32).view.write (Elt F) fr
        (SparseCore.gatherPayload gathers_S100000x128_S8x128 ((v2K : Memref sig .scVector .hbm S100000x128 .f32).view.read (Elt F) (m (v2Loc d)))
          (SparseCore.rows ((sI : Memref sig .scVector .vmem S8 .i32).view.read (Elt F) fo) rfl hin)) Finset.univ
      = (g2K L).view.read (Elt F) (G2 m hpre d) := by
  refine (View.write_whole_univ (cc0_scratch1 : Ref sig .scVector) fr _).trans (funext fun x => ?_)
  refine (congrArg (fun t => SparseCore.gatherPayload gathers_S100000x128_S8x128 t _ x) (read_v2K (m (v2Loc d)))).trans ?_
  exact (gather_agrees m d L hpre hfo hin (m (v2Loc d)) x).trans ((View.read_apply _ _).trans (cast_eq _ _)).symm

theorem admitted1 :
    (g1K L).view.Admitted (Elt F) (tg1 m hpre d)
      ((sR : Memref sig .scVector .vmem S8x128 .f32).view.read (Elt F) ((g1K L).view.read (Elt F) (G1 m hpre d))) Finset.univ :=
  View.admitted_some_iff.mpr fun _ _ => rfl
theorem admitted2 :
    (g2K L).view.Admitted (Elt F) (tg2 m hpre d)
      ((sR : Memref sig .scVector .vmem S8x128 .f32).view.read (Elt F) ((g2K L).view.read (Elt F) (G2 m hpre d))) Finset.univ :=
  View.admitted_some_iff.mpr fun _ _ => rfl

variable [FloatOps F] [Named F]

abbrev NR : ℕ := (sR : Memref sig .scVector .vmem S8x128 .f32).view.dmaCredit

include EC

set_option maxHeartbeats 1600000 in

-- One tile reads its eight positions, gathers those rows of each bank and writes them to its eight rows of each result.
theorem tile_body (hF : (K (F := F)).Facts) {ιwm : ℕ} {q1 q2 : PosShare TreeShare}
    (O : CellTallies nD τ sig (HIx 2)) (W : Waits sig (HIx 2)) (hO : ∀ g, O g none = 0) :
    iprop(levAts (K (F := F)).L (K (F := F)).lev ∗ wmInv (Ix := HIx 2) (Lvl := ℕ) emb ιwm
        ∗ (kit EK emb m hpre qP qG (cAcell d (cV L) (jV L)) ∗ kit EK emb m hpre qP qG (cBcell d (cV L) (jV L)) ∗ kit EK emb m hpre qP qG (cCcell d (cV L) (jV L)))
        ∗ ((pLoc d ↦[pSet (chunk L)]{qP (cV L) (jV L)} m (pLoc d)) ∗ (v1Loc d ↦{q1} m (v1Loc d)) ∗ (v2Loc d ↦{q2} m (v2Loc d))
          ∗ (g1Loc d ⇝[gSet (chunk L)]{qG (cV L) (jV L)} (m (g1Loc d)) ⇒ (tg1 m hpre d) @ ∅)
          ∗ (g2Loc d ⇝[gSet (chunk L)]{qG (cV L) (jV L)} (m (g2Loc d)) ⇒ (tg2 m hpre d) @ ∅))
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__stage_a_body L v1V (Memref.isWhole_whole _) v2V (Memref.isWhole_whole _) pV (Memref.isWhole_whole _)
            g1V (Memref.isWhole_whole _) g2V (Memref.isWhole_whole _) sI (Memref.isWhole_whole _) sR (Memref.isWhole_whole _)
            cc0_scratch2 cc0_scoped0 cc0_scoped1 cc0_scoped2)
          fun _ => iprop(((pLoc d ↦[pSet (chunk L)]{qP (cV L) (jV L)} m (pLoc d)) ∗ (v1Loc d ↦{q1} m (v1Loc d)) ∗ (v2Loc d ↦{q2} m (v2Loc d))
              ∗ (g1Loc d ⇝[gSet (chunk L)]{qG (cV L) (jV L)} (m (g1Loc d)) ⇒ (tg1 m hpre d) @ (gSet (chunk L)))
              ∗ (g2Loc d ⇝[gSet (chunk L)]{qG (cV L) (jV L)} (m (g2Loc d)) ⇒ (tg2 m hpre d) @ (gSet (chunk L))))
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0__stage_a_body_eq_skeleton]; unfold cc0__stage_a_body_skel
  simp only [k0_part1_eq_skeleton]; unfold k0_part1_skel
  simp only [SparseCore.waitIndirectGather, Prog.lift, Prog.bind_op, Prog.bind_ret, Prog.pure_eq_ret, Prog.bind_assoc]
  rw [(K (F := F)).scopedBufs_V hF d (cV L) (jV L), SparseCore.Cfg.scopedSems0_V (Val := Elt F) d (cV L) (jV L), ownSems0_V, ownBufs_V]
  unfold kit
  iintro ⟨#Hlv, #Hwm, ⟨⟨HstA, HatA, #HrA, HtokA⟩, ⟨HstB, HatB, #HrB, HtokB⟩, ⟨HstC, HatC, #HrC, HtokC⟩⟩, ⟨Hp, Hv1, Hv2, Hg1, Hg2⟩,
    ⟨⟨%fs, Hs⟩, ⟨%fr, Hr⟩, Hbufs⟩, ⟨HsemA, HsemB, HsemC, HsemG, Hsems⟩, HO⟩
  imod ((Rounds.body_intro EK (kRd emb m hpre qP qG) (cAcell d (cV L) (jV L))).trans inv_alloc) $$ [HsemA HstA] with ⟨%κA, #HinvA⟩
  · isplitl [HsemA] <;> iassumption
  imod ((Rounds.body_intro EK (kRd emb m hpre qP qG) (cBcell d (cV L) (jV L))).trans inv_alloc) $$ [HsemB HstB] with ⟨%κB, #HinvB⟩
  · isplitl [HsemB] <;> iassumption
  imod ((Rounds.body_intro EK (kRd emb m hpre qP qG) (cCcell d (cV L) (jV L))).trans inv_alloc) $$ [HsemC HstC] with ⟨%κC, #HinvC⟩
  · isplitl [HsemC] <;> iassumption

  ihave Hp' := (Entails.of_eq (pts_pK (F := F) d L _ _).symm) $$ Hp
  ihave Hs' := (Entails.of_eq (pts_sI (F := F) d L _).symm) $$ Hs
  iapply (Rounds.wp_copy_pointsTo 𝒱₀ EK (kRd emb m hpre qP qG) (V d (cV L) (jV L)) none (q := qP (cV L) (jV L)) (fs := m (pLoc d)) (fd := fs) (κ := κA)
      (kRd_mem₀ emb m hpre qP qG (by rw [cellKind_cA]; rfl)) none NA rfl (kRd_amount_cA emb m hpre qP qG d _ _) ?hpayA) $$ [Hp' Hs' HtokA]
  case hpayA =>
    rw [kRd_payload_cA', pts_pK, pts_sI, View.write_whole_univ]
    iintro ⟨Hs, Hp⟩
    isplitl [Hs]
    · iexists _; isplitr; · ipureintro; exact fetch_holds m d L
      iexact Hs
    · iexact Hp
  · isplitr; · iexact HinvA
    isplitl [Hp']; · iexact Hp'
    isplitl [Hs']; · iexact Hs'
    isplitl [HtokA]; · iexact HtokA
    iexact HrA
  iintro HcredA
  iapply (Rounds.wp_wait_rest_token 𝒱₀ EK (kRd emb m hpre qP qG) (V d (cV L) (jV L)) none (κ := κA)
      (wpE_waitDma2_eq 𝒱₀ (V d (cV L) (jV L)) none Set.univ) (Set.mem_univ κA) none (O := O) (W := W) (R := 0) (m := 0) (T := ∅)
      (by rw [Nat.zero_add, kRd_expect emb m hpre qP qG (by rw [cellKind_cA]; rfl), kRd_amount_cA]; try rfl)) $$ [HcredA HO HatA]
  · isplitr; · iexact HinvA
    isplitl [HcredA]; · iexact HcredA
    isplitl [HO]; · iexact HO
    isplitr; · iapply ((K (F := F)).mayWait_none (SemLoc.dma cc0_scoped0.sem) hO); iexact Hlv
    iexact HatA
  iintro ⟨HO, HatA, -, Hpay⟩
  ihave Hpy := ((kRd_back emb m hpre qP qG (g := cAcell d (cV L) (jV L)) (by rw [cellKind_cA]; rfl)).trans (Entails.of_eq (kRd_payload_cA' emb m d L hpre qP qG))) $$ Hpay
  icases Hpy with ⟨⟨%fo, %hfo, Hs⟩, Hp⟩
  imod (Rounds.cell_close EK (kRd emb m hpre qP qG) (Set.mem_univ κA) (fun h => h) (R := 0 + 1) (kRd_later emb m hpre qP qG (cAcell d _ _))) $$ [HatA] with HsemA
  · isplitr; · iexact HinvA
    iexact HatA
  have hin := hin_of_holds m d hpre hfo
  have hNR : ∑ j, ((sR : Memref sig .scVector .vmem S8x128 .f32).slice (S8x128.rowRect gathers_S100000x128_S8x128.axis' j) (S8x128.stride_rowRect gathers_S100000x128_S8x128.axis' j)).view.dmaCredit = NR :=
    SparseCore.sum_rowCredit_eq_dmaCredit (sR : Memref sig .scVector .vmem S8x128 .f32) _ (fun _ => rfl)

  ihave Hv1' := (Entails.of_eq (pts_v1K (F := F) d L _ _).symm) $$ Hv1
  ihave Hr' := (Entails.of_eq (pts_sR (F := F) d L _).symm) $$ Hr
  ihave Hs' := (Entails.of_eq (pts_sI (F := F) d L _).symm) $$ Hs
  iapply (SparseCore.wp_indirectGatherLocal EC 𝒱₀ (V d (cV L) (jV L)) none (src := v1K) (dst := sR) (hg := gathers_S100000x128_S8x128) (offs := sI)
      (q := q1) (qo := fullShare) (fs := m (v1Loc d)) (fd := fr) (fo := fo) none NR hNR (by decide) hin) $$ [Hv1' Hr' Hs' HsemG]
  · isplitl [Hv1']; · iexact Hv1'
    isplitl [Hr']; · iexact Hr'
    isplitl [Hs']; · iexact Hs'
    iexact HsemG
  iintro Hfl
  iapply (Transfers.wp_waitLocalO EC 𝒱₀ (V d (cV L) (jV L)) none none (N := NR) rfl (O := O) (W := (insert (SemLoc.dma cc0_scoped0.sem, (none : HIx 2)) W))) $$ [Hfl HO]
  · isplitl [Hfl]; · iexact Hfl
    isplitl [HO]; · iexact HO
    iapply ((K (F := F)).mayWait_none (SemLoc.dma cc0_scratch2.sem) hO); iexact Hlv
  iintro ⟨⟨Hr', Hv1', Hs'⟩, HsemG, HO⟩
  ihave Hv1 := (Entails.of_eq (pts_v1K (F := F) d L _ _)) $$ Hv1'
  ihave Hs := (Entails.of_eq (pts_sI (F := F) d L _)) $$ Hs'
  ihave Hr' := (Entails.of_eq (congrArg (fun f => ((sR : Memref sig .scVector .vmem S8x128 .f32).view.loc (V d (cV L) (jV L)) ↦[(sR : Memref sig .scVector .vmem S8x128 .f32).view.set]{fullShare} f : sProp 𝕄))
      (scratch_holds1 m d L hpre hfo hin fr))) $$ Hr'

  iapply (Rounds.wp_copy 𝒱₀ EK (kRd emb m hpre qP qG) (V d (cV L) (jV L)) none (src := sR) (dst := g1K L) (q := fullShare) (fs := (g1K L).view.read (Elt F) (G1 m hpre d))
      (R := ((g1K L).view.loc (V d (cV L) (jV L)) ⇝[(g1K L).view.set]{qG (cV L) (jV L)} (m (g1Loc d)) ⇒ (tg1 m hpre d) @ (∅ ∪ (g1K L).view.set)))
      (κ := κB) (kRd_mem₀ emb m hpre qP qG (by rw [cellKind_cB]; rfl)) none NB rfl (kRd_amount_cB emb m hpre qP qG d _ _) ?hpayB) $$ [Hr' Hg1 HtokB]
  case hpayB =>
    rw [kRd_payload_cB', wb_g1K, Finset.empty_union, set_g1K, pts_sR]
    iintro ⟨Hg, Hr⟩
    isplitl [Hg]; · iexact Hg
    iexists _; iexact Hr
  · isplitr; · iexact HinvB
    isplitl [Hr']; · iexact Hr'
    isplitl [Hg1]
    · iapply (willBeTo_writeUpdate (Ix := HIx 2) (Lvl := ℕ) (emb := emb) (ιwm := ιwm) (V d (cV L) (jV L)) (v := (g1K L).view) (S := (g1K L).view.set)
        (q := qG (cV L) (jV L)) (f := m (g1Loc d)) (g := tg1 m hpre d) (W := ∅) subset_rfl (admitted1 m d L hpre))
      isplitr; · iexact Hwm
      iapply (Entails.of_eq (wb_g1K (F := F) emb d L _ _ _ _).symm); iexact Hg1
    isplitl [HtokB]; · iexact HtokB
    iexact HrB
  iintro HcredB
  iapply (Rounds.wp_wait_rest_token 𝒱₀ EK (kRd emb m hpre qP qG) (V d (cV L) (jV L)) none (κ := κB)
      (wpE_waitDma2_eq 𝒱₀ (V d (cV L) (jV L)) none Set.univ) (Set.mem_univ κB) none (O := O) (W := (insert (SemLoc.dma cc0_scratch2.sem, (none : HIx 2)) (insert (SemLoc.dma cc0_scoped0.sem, (none : HIx 2)) W))) (R := 0) (m := 0) (T := ∅)
      (by rw [Nat.zero_add, kRd_expect emb m hpre qP qG (by rw [cellKind_cB]; rfl), kRd_amount_cB]; try rfl)) $$ [HcredB HO HatB]
  · isplitr; · iexact HinvB
    isplitl [HcredB]; · iexact HcredB
    isplitl [HO]; · iexact HO
    isplitr; · iapply ((K (F := F)).mayWait_none (SemLoc.dma cc0_scoped1.sem) hO); iexact Hlv
    iexact HatB
  iintro ⟨HO, HatB, -, Hpay⟩
  ihave Hpy := ((kRd_back emb m hpre qP qG (g := cBcell d (cV L) (jV L)) (by rw [cellKind_cB]; rfl)).trans (Entails.of_eq (kRd_payload_cB' emb m d L hpre qP qG))) $$ Hpay
  icases Hpy with ⟨Hg1, ⟨%fr2, Hr⟩⟩
  imod (Rounds.cell_close EK (kRd emb m hpre qP qG) (Set.mem_univ κB) (fun h => h) (R := 0 + 1) (kRd_later emb m hpre qP qG (cBcell d _ _))) $$ [HatB] with HsemB
  · isplitr; · iexact HinvB
    iexact HatB

  ihave Hv2' := (Entails.of_eq (pts_v2K (F := F) d L _ _).symm) $$ Hv2
  ihave Hr' := (Entails.of_eq (pts_sR (F := F) d L _).symm) $$ Hr
  ihave Hs' := (Entails.of_eq (pts_sI (F := F) d L _).symm) $$ Hs
  iapply (SparseCore.wp_indirectGatherLocal EC 𝒱₀ (V d (cV L) (jV L)) none (src := v2K) (dst := sR) (hg := gathers_S100000x128_S8x128) (offs := sI)
      (q := q2) (qo := fullShare) (fs := m (v2Loc d)) (fd := fr2) (fo := fo) none NR hNR (by decide) hin) $$ [Hv2' Hr' Hs' HsemG]
  · isplitl [Hv2']; · iexact Hv2'
    isplitl [Hr']; · iexact Hr'
    isplitl [Hs']; · iexact Hs'
    iexact HsemG
  iintro Hfl
  iapply (Transfers.wp_waitLocalO EC 𝒱₀ (V d (cV L) (jV L)) none none (N := NR) rfl (O := O) (W := (insert (SemLoc.dma cc0_scoped1.sem, (none : HIx 2)) (insert (SemLoc.dma cc0_scratch2.sem, (none : HIx 2)) (insert (SemLoc.dma cc0_scoped0.sem, (none : HIx 2)) W))))) $$ [Hfl HO]
  · isplitl [Hfl]; · iexact Hfl
    isplitl [HO]; · iexact HO
    iapply ((K (F := F)).mayWait_none (SemLoc.dma cc0_scratch2.sem) hO); iexact Hlv
  iintro ⟨⟨Hr', Hv2', Hs'⟩, HsemG, HO⟩
  ihave Hv2 := (Entails.of_eq (pts_v2K (F := F) d L _ _)) $$ Hv2'
  ihave Hs := (Entails.of_eq (pts_sI (F := F) d L _)) $$ Hs'
  ihave Hr' := (Entails.of_eq (congrArg (fun f => ((sR : Memref sig .scVector .vmem S8x128 .f32).view.loc (V d (cV L) (jV L)) ↦[(sR : Memref sig .scVector .vmem S8x128 .f32).view.set]{fullShare} f : sProp 𝕄))
      (scratch_holds2 m d L hpre hfo hin fr2))) $$ Hr'

  iapply (Rounds.wp_copy 𝒱₀ EK (kRd emb m hpre qP qG) (V d (cV L) (jV L)) none (src := sR) (dst := g2K L) (q := fullShare) (fs := (g2K L).view.read (Elt F) (G2 m hpre d))
      (R := ((g2K L).view.loc (V d (cV L) (jV L)) ⇝[(g2K L).view.set]{qG (cV L) (jV L)} (m (g2Loc d)) ⇒ (tg2 m hpre d) @ (∅ ∪ (g2K L).view.set)))
      (κ := κC) (kRd_mem₀ emb m hpre qP qG (by rw [cellKind_cC]; rfl)) none NC rfl (kRd_amount_cC emb m hpre qP qG d _ _) ?hpayC) $$ [Hr' Hg2 HtokC]
  case hpayC =>
    rw [kRd_payload_cC', wb_g2K, Finset.empty_union, set_g2K, pts_sR]
    iintro ⟨Hg, Hr⟩
    isplitl [Hg]; · iexact Hg
    iexists _; iexact Hr
  · isplitr; · iexact HinvC
    isplitl [Hr']; · iexact Hr'
    isplitl [Hg2]
    · iapply (willBeTo_writeUpdate (Ix := HIx 2) (Lvl := ℕ) (emb := emb) (ιwm := ιwm) (V d (cV L) (jV L)) (v := (g2K L).view) (S := (g2K L).view.set)
        (q := qG (cV L) (jV L)) (f := m (g2Loc d)) (g := tg2 m hpre d) (W := ∅) subset_rfl (admitted2 m d L hpre))
      isplitr; · iexact Hwm
      iapply (Entails.of_eq (wb_g2K (F := F) emb d L _ _ _ _).symm); iexact Hg2
    isplitl [HtokC]; · iexact HtokC
    iexact HrC
  iintro HcredC
  iapply (Rounds.wp_wait_rest_token 𝒱₀ EK (kRd emb m hpre qP qG) (V d (cV L) (jV L)) none (κ := κC)
      (wpE_waitDma2_eq 𝒱₀ (V d (cV L) (jV L)) none Set.univ) (Set.mem_univ κC) none (O := O) (W := (insert (SemLoc.dma cc0_scratch2.sem, (none : HIx 2)) (insert (SemLoc.dma cc0_scoped1.sem, (none : HIx 2)) (insert (SemLoc.dma cc0_scratch2.sem, (none : HIx 2)) (insert (SemLoc.dma cc0_scoped0.sem, (none : HIx 2)) W))))) (R := 0) (m := 0) (T := ∅)
      (by rw [Nat.zero_add, kRd_expect emb m hpre qP qG (by rw [cellKind_cC]; rfl), kRd_amount_cC]; try rfl)) $$ [HcredC HO HatC]
  · isplitr; · iexact HinvC
    isplitl [HcredC]; · iexact HcredC
    isplitl [HO]; · iexact HO
    isplitr; · iapply ((K (F := F)).mayWait_none (SemLoc.dma cc0_scoped2.sem) hO); iexact Hlv
    iexact HatC
  iintro ⟨HO, HatC, -, Hpay⟩
  ihave Hpy := ((kRd_back emb m hpre qP qG (g := cCcell d (cV L) (jV L)) (by rw [cellKind_cC]; rfl)).trans (Entails.of_eq (kRd_payload_cC' emb m d L hpre qP qG))) $$ Hpay
  icases Hpy with ⟨Hg2, ⟨%fr3, Hr⟩⟩
  imod (Rounds.cell_close EK (kRd emb m hpre qP qG) (Set.mem_univ κC) (fun h => h) (R := 0 + 1) (kRd_later emb m hpre qP qG (cCcell d _ _))) $$ [HatC] with HsemC
  · isplitr; · iexact HinvC
    iexact HatC
  rw [wp_ret]; imodintro
  isplitl [Hp Hv1 Hv2 Hg1 Hg2]
  · isplitl [Hp]; · iexact Hp
    isplitl [Hv1]; · iexact Hv1
    isplitl [Hv2]; · iexact Hv2
    isplitl [Hg1]; · iexact Hg1
    iexact Hg2
  isplitl [Hs Hr Hbufs]
  · isplitl [Hs]
    · iexists _; iexact Hs
    isplitl [Hr]
    · iexists _; iexact Hr
    · iexact Hbufs
  isplitl [HsemA HsemB HsemC HsemG Hsems]
  · isplitl [HsemA]; · iexact HsemA
    isplitl [HsemB]; · iexact HsemB
    isplitl [HsemC]; · iexact HsemC
    isplitl [HsemG]; · iexact HsemG
    iexact Hsems
  iexists (insert (SemLoc.dma cc0_scoped2.sem, (none : HIx 2)) (insert (SemLoc.dma cc0_scratch2.sem, (none : HIx 2)) (insert (SemLoc.dma cc0_scoped1.sem, (none : HIx 2)) (insert (SemLoc.dma cc0_scratch2.sem, (none : HIx 2)) (insert (SemLoc.dma cc0_scoped0.sem, (none : HIx 2)) W))))); isplitr
  · ipureintro; intro p hp
    rcases Finset.mem_insert.mp hp with rfl | hp
    · exact .inr rfl
    rcases Finset.mem_insert.mp hp with rfl | hp
    · exact .inr rfl
    rcases Finset.mem_insert.mp hp with rfl | hp
    · exact .inr rfl
    rcases Finset.mem_insert.mp hp with rfl | hp
    · exact .inr rfl
    rcases Finset.mem_insert.mp hp with rfl | hp
    · exact .inr rfl
    · exact .inl hp
  iexact HO

end Body

end Cert.Proof.E
-- ==== Proof.BankSpec.lean ====
import Idealize.ShloMosaic.PureOps.Ideal.Laws
import Idealize.ShloMosaic.Lib.ValueIdx
import Mathlib.Data.Finset.Max
import Mathlib.Data.List.Sort
import Idealize.ShloMosaic.Lib.StableHlo.Predicate

noncomputable section

namespace Cert.Proof.G

open Idealize.ShloMosaic Idealize.ShloMosaic.ValueIdx

section Fold
variable {ι κ α : Type}

theorem foldl_keep (step : (ι → α) → κ → ι → α) (g : κ → Option ι) (i' : ι)
    (hkeep : ∀ r k, g k ≠ some i' → step r k i' = r i') :
    ∀ (l : List κ) (x : ι → α), (∀ k ∈ l, g k ≠ some i') → l.foldl step x i' = x i'
  | [], _, _ => rfl
  | a :: t, x, h => by
    rw [List.foldl_cons, foldl_keep step g i' hkeep t (step x a) (fun k hk => h k (List.mem_cons_of_mem _ hk))]
    exact hkeep x a (h a List.mem_cons_self)

theorem foldl_last (step : (ι → α) → κ → ι → α) (g : κ → Option ι) (v : κ → α) (i' : ι) (R : κ → κ → Prop)
    (hkeep : ∀ r k, g k ≠ some i' → step r k i' = r i')
    (hset : ∀ r k, g k = some i' → step r k i' = v k) :
    ∀ (l : List κ) (x : ι → α), l.Pairwise R → ∀ k ∈ l, g k = some i' → (∀ k' ∈ l, R k k' → g k' ≠ some i') →
      l.foldl step x i' = v k
  | [], _, _, k, hk, _, _ => absurd hk List.not_mem_nil
  | a :: t, x, hp, k, hk, hg, hl => by
    rw [List.foldl_cons]
    rw [List.pairwise_cons] at hp
    rcases List.mem_cons.mp hk with rfl | hkt
    · rw [foldl_keep step g i' hkeep t _ (fun b hb => hl b (List.mem_cons_of_mem _ hb) (hp.1 b hb))]
      exact hset x k hg
    · exact foldl_last step g v i' R hkeep hset t _ hp.2 k hkt hg (fun b hb => hl b (List.mem_cons_of_mem _ hb))

end Fold

abbrev rowScatterDims (N C n : Nat) (wf : ScatterDims.WF ⟨2, ![N, C]⟩ ⟨2, ![n, 1]⟩ ⟨2, ![n, C]⟩ [1] [0] [0] 1) :
    ScatterDims ⟨2, ![N, C]⟩ ⟨2, ![n, 1]⟩ ⟨2, ![n, C]⟩ where
  updateWindowDims := [1]
  insertedWindowDims := [0]
  scatterDimsToOperandDims := [0]
  indexVectorDim := 1
  wf := wf

-- The update lands at t when start plus window is t's coordinate on every axis.
theorem resultIdx?_eq_some {s si u : Shape} (d : ScatterDims s si u) {w : Nat} (j : u.Idx) (idx : IVec si w) (t : s.Idx)
    (h : ∀ a, d.start j idx a + d.window j a = (t a).val) : d.resultIdx? j idx = some t := by
  unfold ScatterDims.resultIdx?
  rw [dif_pos fun a => by have := h a; have := (t a).isLt; omega]
  exact congrArg some (funext fun a => Fin.ext (by have := h a; show (d.start j idx a + d.window j a).toNat = _; omega))

theorem rowScatter_resultIdx {N C n : Nat} (wf : ScatterDims.WF ⟨2, ![N, C]⟩ ⟨2, ![n, 1]⟩ ⟨2, ![n, C]⟩ [1] [0] [0] 1)
    (idx : IVec ⟨2, ![n, 1]⟩ 32) (j : (⟨2, ![n, C]⟩ : Shape).Idx)
    (hin : (idx (ix2 (j 0) (0 : Fin 1))).toNat < N) (hN : N < 2 ^ 31) :
    (rowScatterDims N C n wf).resultIdx? j idx = some (ix2 ⟨(idx (ix2 (j 0) (0 : Fin 1))).toNat, hin⟩ (j 1)) := by
  set D := rowScatterDims N C n wf
  have hs0 : D.start j idx 0 = ((idx (ix2 (j 0) (0 : Fin 1))).toNat : Int) := by
    unfold ScatterDims.start
    rw [dif_pos (show (0 : Fin 2) ∈ D.scatterDimsToOperandDims from List.mem_singleton.mpr rfl)]
    have hsi : D.siIdx j ⟨List.idxOf (0 : Fin 2) D.scatterDimsToOperandDims,
        List.idxOf_lt_length_iff.2 (List.mem_singleton.mpr rfl)⟩ = ix2 (j 0) (0 : Fin 1) := by
      funext b; refine Fin.ext ?_
      match b with
      | ⟨0, _⟩ => rfl
      | ⟨1, _⟩ => rfl
    rw [hsi]
    exact StableHlo.Predicate.toInt_eq_toNat_of_lt (Nat.lt_trans hin hN)
  have hs1 : D.start j idx 1 = 0 := by
    unfold ScatterDims.start
    rw [dif_neg (show (1 : Fin 2) ∉ ([0] : List (Fin 2)) by decide)]
  have hw0 : D.window j 0 = 0 := by
    unfold ScatterDims.window
    rw [dif_neg (show (0 : Fin 2) ∉ D.sKept from (by decide : (0 : Fin 2) ∉ ([1] : List (Fin 2))))]
  have hw1 : D.window j 1 = (j 1).val := by
    unfold ScatterDims.window
    rw [dif_pos (show (1 : Fin 2) ∈ D.sKept from (by decide : (1 : Fin 2) ∈ ([1] : List (Fin 2))))]
    rfl
  refine resultIdx?_eq_some _ j idx _ fun a => ?_
  match a with
  | ⟨0, _⟩ =>
    show ScatterDims.start _ j idx 0 + (ScatterDims.window _ j 0 : Int) = _
    rw [hs0, hw0]; simp
  | ⟨1, _⟩ =>
    show ScatterDims.start _ j idx 1 + (ScatterDims.window _ j 1 : Int) = _
    rw [hs1, hw1]; simp

abbrev rowGatherDims (N C n : Nat) (wf : GatherDims.WF ⟨2, ![N, C]⟩ ⟨2, ![n, 1]⟩ ⟨2, ![n, C]⟩ [1] [0] [] [0] [] 1 ![1, C]) :
    GatherDims ⟨2, ![N, C]⟩ ⟨2, ![n, 1]⟩ ⟨2, ![n, C]⟩ where
  offsetDims := [1]
  collapsedSliceDims := [0]
  operandBatchingDims := []
  startIndicesBatchingDims := []
  startIndexMap := [0]
  indexVectorDim := 1
  sliceSizes := ![1, C]
  wf := wf

theorem rowGather_apply {α : Type} {N C n w : Nat} (hN : 0 < N)
    (wf : GatherDims.WF ⟨2, ![N, C]⟩ ⟨2, ![n, 1]⟩ ⟨2, ![n, C]⟩ [1] [0] [] [0] [] 1 ![1, C])
    (x : (⟨2, ![N, C]⟩ : Shape).Idx → α) (idx : IVec ⟨2, ![n, 1]⟩ w) (j : (⟨2, ![n, C]⟩ : Shape).Idx) :
    Host.gather (rowGatherDims N C n wf) x idx j
      = x (ix2 ⟨min (idx (ix2 (j 0) (0 : Fin 1))).toInt.toNat (N - 1), by omega⟩ (j 1)) := by
  set D := rowGatherDims N C n wf
  unfold Host.gather
  congr 1
  funext a
  refine Fin.ext ?_
  match a with
  | ⟨0, _⟩ =>
    show D.start j idx 0 + D.batchCoord j 0 + D.offCoord j 0 = _
    rw [GatherDims.batchCoord_eq_zero _ _ _ List.not_mem_nil,
      GatherDims.offCoord_eq_zero _ _ _ (show (0 : Fin 2) ∉ D.sKept from (by decide : (0 : Fin 2) ∉ ([1] : List (Fin 2))))]
    simp only [Nat.add_zero]
    unfold GatherDims.start
    rw [dif_pos (show (0 : Fin 2) ∈ D.startIndexMap from List.mem_singleton.mpr rfl)]
    have hsi : D.siIdx j ⟨List.idxOf (0 : Fin 2) D.startIndexMap,
        List.idxOf_lt_length_iff.2 (List.mem_singleton.mpr rfl)⟩ = ix2 (j 0) (0 : Fin 1) := by
      funext b; refine Fin.ext ?_
      match b with
      | ⟨0, _⟩ => rfl
      | ⟨1, _⟩ => rfl
    rw [hsi]
    rfl
  | ⟨1, _⟩ =>
    show D.start j idx 1 + D.batchCoord j 1 + D.offCoord j 1 = _
    rw [GatherDims.batchCoord_eq_zero _ _ _ List.not_mem_nil]
    unfold GatherDims.start GatherDims.offCoord
    rw [dif_neg (show (1 : Fin 2) ∉ D.startIndexMap from (by decide : (1 : Fin 2) ∉ ([0] : List (Fin 2)))), dif_pos (show (1 : Fin 2) ∈ D.sKept from (by decide : (1 : Fin 2) ∈ ([1] : List (Fin 2))))]
    simp only [Nat.add_zero, Nat.zero_add]
    rfl

def hits {n : Nat} (pos : Fin n → BitVec 32) (r : Nat) : Finset (Fin n) :=
  Finset.univ.filter fun p => (pos p).toNat = r

theorem mem_hits {n : Nat} (pos : Fin n → BitVec 32) (r : Nat) (p : Fin n) : p ∈ hits pos r ↔ (pos p).toNat = r := by
  simp [hits]

theorem rowScatter_set_apply {α : Type} {N C n : Nat}
    (wf : ScatterDims.WF ⟨2, ![N, C]⟩ ⟨2, ![n, 1]⟩ ⟨2, ![n, C]⟩ [1] [0] [0] 1) (hN : N < 2 ^ 31)
    (x : (⟨2, ![N, C]⟩ : Shape).Idx → α) (idx : IVec ⟨2, ![n, 1]⟩ 32) (upd : (⟨2, ![n, C]⟩ : Shape).Idx → α)
    (hin : ∀ p : Fin n, (idx (ix2 p (0 : Fin 1))).toNat < N) (i : (⟨2, ![N, C]⟩ : Shape).Idx) :
    Host.scatter (rowScatterDims N C n wf) (fun _ b => b) x idx upd i
      = if h : (hits (fun p => idx (ix2 p (0 : Fin 1))) (i 0).val).Nonempty
        then upd (ix2 ((hits (fun p => idx (ix2 p (0 : Fin 1))) (i 0).val).max' h) (i 1)) else x i := by
  unfold Host.scatter
  set D := rowScatterDims N C n wf
  set H := hits (fun p => idx (ix2 p (0 : Fin 1))) (i 0).val
  have hg : ∀ m : Fin (⟨2, ![n, C]⟩ : Shape).numel,
      D.resultIdx? ((⟨2, ![n, C]⟩ : Shape).rowMajor.symm m) idx
        = some (ix2 ⟨(idx (ix2 (((⟨2, ![n, C]⟩ : Shape).rowMajor.symm m) 0) (0 : Fin 1))).toNat, hin _⟩
            (((⟨2, ![n, C]⟩ : Shape).rowMajor.symm m) 1)) :=
    fun m => rowScatter_resultIdx wf idx _ (hin _) hN
  have hland : ∀ m : Fin (⟨2, ![n, C]⟩ : Shape).numel,
      D.resultIdx? ((⟨2, ![n, C]⟩ : Shape).rowMajor.symm m) idx = some i →
        (idx (ix2 (((⟨2, ![n, C]⟩ : Shape).rowMajor.symm m) 0) (0 : Fin 1))).toNat = (i 0).val ∧
        (((⟨2, ![n, C]⟩ : Shape).rowMajor.symm m) 1) = i 1 := by
    intro m hm
    rw [hg m] at hm
    have h' := Option.some.inj hm
    exact ⟨congrArg (fun f => (f 0).val) h', congrFun h' 1⟩
  by_cases h : H.Nonempty
  · rw [dif_pos h]
    have hmem := Finset.max'_mem _ h
    rw [mem_hits] at hmem
    have hk : D.resultIdx? ((⟨2, ![n, C]⟩ : Shape).rowMajor.symm
        ((⟨2, ![n, C]⟩ : Shape).rowMajor (ix2 (H.max' h) (i 1)))) idx = some i := by
      rw [hg, Equiv.symm_apply_apply]
      congr 1
      funext a; refine Fin.ext ?_
      match a with
      | ⟨0, _⟩ => exact hmem
      | ⟨1, _⟩ => rfl
    refine (foldl_last _
      (fun k => D.resultIdx? ((⟨2, ![n, C]⟩ : Shape).rowMajor.symm k) idx)
      (fun k => upd ((⟨2, ![n, C]⟩ : Shape).rowMajor.symm k)) i (· < ·) ?_ ?_
      (List.finRange (⟨2, ![n, C]⟩ : Shape).numel) x (List.sortedLT_finRange _).pairwise
      ((⟨2, ![n, C]⟩ : Shape).rowMajor (ix2 (H.max' h) (i 1)))
      (List.mem_finRange _) hk ?_).trans (congrArg upd (Equiv.symm_apply_apply _ _))
    · intro r k hk'
      simp only at hk' ⊢
      rw [hg k] at hk' ⊢
      simp only
      rw [if_neg (fun h' => hk' (congrArg some h'.symm))]
    · intro r k hk'
      simp only at hk' ⊢
      rw [hk']
      simp
    · intro k' _ hlt hk'
      obtain ⟨h0, h1⟩ := hland k' hk'
      have hle := Finset.le_max' H _ ((mem_hits _ _ _).mpr h0)
      have hv : k'.val = ((⟨2, ![n, C]⟩ : Shape).rowMajor ((⟨2, ![n, C]⟩ : Shape).rowMajor.symm k')).val := by
        rw [Equiv.apply_symm_apply]
      rw [Shape.rowMajor_val_two] at hv
      have hlt' : ((⟨2, ![n, C]⟩ : Shape).rowMajor (ix2 (H.max' h) (i 1))).val < k'.val := hlt
      rw [Shape.rowMajor_val_two] at hlt'
      rw [h1] at hv
      have hmul := Nat.mul_le_mul_right C (Fin.le_def.mp hle)
      change (H.max' h).val * C + (i 1).val < k'.val at hlt'
      change k'.val = (((⟨2, ![n, C]⟩ : Shape).rowMajor.symm k') 0).val * C + (i 1).val at hv
      omega
  · rw [dif_neg h]
    refine foldl_keep _ (fun k => D.resultIdx? ((⟨2, ![n, C]⟩ : Shape).rowMajor.symm k) idx) i ?_ _ x
      (fun k _ hk => h ⟨_, (mem_hits _ _ _).mpr (hland k hk).1⟩)
    intro r k hk'
    simp only at hk' ⊢
    rw [hg k] at hk' ⊢
    simp only
    rw [if_neg (fun h' => hk' (congrArg some h'.symm))]

theorem hits_last_iff {n : Nat} (pos : Fin n → BitVec 32) (r : Nat) (h : (hits pos r).Nonempty) (k : Fin n) :
    ((pos k).toNat = r ∧ ∀ j : Fin n, k < j → (pos j).toNat ≠ r) ↔ k = (hits pos r).max' h := by
  rw [eq_comm (a := k), Finset.max'_eq_iff, mem_hits]
  exact and_congr_right fun _ => forall_congr' fun j => by
    rw [mem_hits]
    exact ⟨fun h hj => not_lt.mp fun hlt => h hlt hj, fun h hlt hj => not_le.mpr hlt (h hj)⟩

theorem hits_empty {n : Nat} (pos : Fin n → BitVec 32) (r : Nat) (h : ¬(hits pos r).Nonempty) (k : Fin n) :
    (pos k).toNat ≠ r :=
  fun hk => h ⟨k, (mem_hits pos r k).mpr hk⟩

abbrev SM : Shape := ⟨2, ![100000, 128]⟩
abbrev SX : Shape := ⟨2, ![128, 128]⟩

def rowIx (p : BitVec 32) : Fin 100000 := ⟨min p.toNat 99999, by omega⟩

def half : EReal := Ideal.ofBits .f32 0x3F000000#32

def Lrow (M : SM.Idx → EReal) (X : SX.Idx → EReal) (pos : Fin 128 → BitVec 32) (j d : Fin 128) : EReal :=
  M (ix2 (rowIx (pos j)) d) * half + X (ix2 j d) * half

def Urow (M : SM.Idx → EReal) (X : SX.Idx → EReal) (pos : Fin 128 → BitVec 32) (j d : Fin 128) : EReal :=
  Ideal.div (Lrow M X pos j d) (Ideal.sqrt (∑ k : Fin 128, Lrow M X pos j k * Lrow M X pos j k))

def G_bank (M : SM.Idx → EReal) (X : SX.Idx → EReal) (pos : Fin 128 → BitVec 32) : SM.Idx → EReal := fun i =>
  if h : (hits pos (i 0).val).Nonempty then Urow M X pos ((hits pos (i 0).val).max' h) (i 1) else M i

theorem G_bank_hit (M : SM.Idx → EReal) (X : SX.Idx → EReal) (pos : Fin 128 → BitVec 32) (i : SM.Idx)
    (h : (hits pos (i 0).val).Nonempty) : G_bank M X pos i = Urow M X pos ((hits pos (i 0).val).max' h) (i 1) := by
  unfold G_bank; rw [dif_pos h]

theorem G_bank_miss (M : SM.Idx → EReal) (X : SX.Idx → EReal) (pos : Fin 128 → BitVec 32) (i : SM.Idx)
    (h : ¬(hits pos (i 0).val).Nonempty) : G_bank M X pos i = M i := by
  unfold G_bank; rw [dif_neg h]

theorem sum_indicator_mul {n : Nat} (k₀ : Fin n) (c : Fin n → EReal) (u : Fin n → EReal)
    (h1 : c k₀ = 1) (h0 : ∀ k, k ≠ k₀ → c k = 0) : ∑ k : Fin n, c k * u k = u k₀ := by
  rw [Finset.sum_eq_single k₀ (fun k _ hk => by rw [h0 k hk, zero_mul]) (fun h => absurd (Finset.mem_univ _) h), h1, one_mul]

end Cert.Proof.G
-- ==== Proof.SplitA.lean ====
import proofs.«204933_g4492535792355_cont_8to1_c_766_42_alg».proof.Proof.TileA
import proofs.«204933_g4492535792355_cont_8to1_c_766_42_alg».proof.Proof.BankSpec
import Idealize.ShloMosaic.Lib.Transfers
import Idealize.ShloMosaic.Lib.StableHlo.Run
import Idealize.ShloMosaic.Lib.Pipeline.Frame
import Idealize.ShloMosaic.Lib.ValueIdx

noncomputable section

namespace Cert.Proof.SA

open Idealize.ShloMosaic
open Idealize.SL Idealize.SL.RA Idealize.SL.BI
open scoped Idealize.SL.BI
open Idealize.SL.BI.BIBase Idealize.SL.BI.Laws Idealize.SL.ProofMode Idealize.SL.Sem
open PCS URA Auth

def chunkOf (c : Fin 2) (s : Fin 16) : Fin 16 := ⟨(2 * s.val + c.val) % 16, Nat.mod_lt _ (by decide)⟩

def tileEquiv : Fin 2 × Fin 16 ≃ Fin 16 × Fin 2 :=
  Equiv.ofBijective (fun t => (chunkOf t.1 t.2, ⟨t.2.val / 8, by have := t.2.isLt; omega⟩)) (by decide)

theorem bigSep_tiles {M : Type} [URA M] (Φ : Fin 16 → Fin 2 → sProp M) :
    (bigSep Finset.univ fun j : Fin 16 => bigSep Finset.univ fun h : Fin 2 => Φ j h)
      = bigSep Finset.univ fun c : Fin 2 => bigSep Finset.univ fun s : Fin 16 =>
          Φ (chunkOf c s) ⟨s.val / 8, by have := s.isLt; omega⟩ := by
  rw [← bigSep_univ_prod (fun p : Fin 16 × Fin 2 => Φ p.1 p.2), bigSep_univ_equiv tileEquiv,
    bigSep_univ_prod (fun t : Fin 2 × Fin 16 => Φ (tileEquiv t).1 (tileEquiv t).2)]
  rfl

def halfN (q : PosShare TreeShare) (n : ℕ) : PosShare TreeShare := if n < 8 then q.left else q.right

theorem halfN_div (q : PosShare TreeShare) (s : ℕ) : halfN q (8 * (s / 8)) = halfN q s := if_congr (by omega) rfl rfl

/-- Sixteen pairwise disjoint index sets whose union is `I₀`. -/
def Tiling {α : Type} [DecidableEq α] (Kf : Fin 16 → Finset α) (I₀ : Finset α) : Prop :=
  (∀ j j' : Fin 16, j ≠ j' → Disjoint (Kf j) (Kf j')) ∧ (Finset.univ : Finset (Fin 16)).biUnion Kf = I₀

theorem part_tiling {s : Shape} {a₀ : Fin s.rank} (h : 16 ∣ s.size a₀) : Tiling (fun j => (Rect.part h j).set) Finset.univ :=
  ⟨fun _ _ => Rect.part_disjoint h, Rect.biUnion_part h⟩

section Held

variable {K : Type} [DecidableEq K] {Ix : K → Type} [∀ k, DecidableEq (Ix k)] {E : K → Type} [∀ k, RA (E k)]
variable {M : Type} [URA M] (ι : UEmb (Auth (Region.Carrier Ix E)) M)
variable {k : K} {q : PosShare TreeShare} {x : Ix k → E k}

theorem held_empty : Region.held ι.toEmb k ∅ q x = (BI.emp : sProp M) := by
  unfold Region.held RA.Region.part
  rw [RA.Region.cells_empty, IProd.single_one, Auth.frag_one]
  show BI.own (ι 1) = BI.emp
  rw [ι.map_one]
  exact BI.own_one

/-- A region over a union of pairwise disjoint sets is the separating product of its pieces (induction on the family). -/
theorem held_biUnion {T : Type} (S : Finset T) (Kf : T → Finset (Ix k))
    (h : ∀ t t', t ≠ t' → Disjoint (Kf t) (Kf t')) :
    Region.held ι.toEmb k (S.biUnion Kf) q x = bigSep S fun t => Region.held ι.toEmb k (Kf t) q x := by
  classical
  induction S using Finset.induction_on with
  | empty => rw [Finset.biUnion_empty, held_empty, bigSep_empty]
  | insert t S ht ih =>
    rw [Finset.biUnion_insert, bigSep_insert ht]
    have hd : Disjoint (Kf t) (S.biUnion Kf) :=
      (Finset.disjoint_biUnion_right _ _ _).mpr fun t' ht' => h t t' fun e => ht (e ▸ ht')
    have hu := Region.held_union (ι := ι.toEmb) (k := k) (q := q) (x := x) hd
    rw [BI.equiv_iff.mp ⟨hu.1, hu.2⟩, ih]
    rfl

theorem held_halves (I : Finset (Ix k)) (hx : ∀ i ∈ I, x i ∈ x i ·? x i) :
    Region.held ι.toEmb k I q x = bigSep Finset.univ fun h : Fin 2 => Region.held ι.toEmb k I (halfN q (8 * h.val)) x := by
  have hs := Region.held_share (ι := ι.toEmb) (k := k) (I := I) (PosShare.mem_left_op_right q) hx
  rw [bigSep_fin_two, BI.equiv_iff.mp ⟨hs.1, hs.2⟩]
  rfl

/-- Sixteen tiles, each at both half-shares, re-indexed by the bijection `(c, s) ↦ ((2s + c) mod 16, s / 8)`. -/
theorem held_tiles {Kf : Fin 16 → Finset (Ix k)} {I₀ : Finset (Ix k)} (h : Tiling Kf I₀) (hx : ∀ i, x i ∈ x i ·? x i) :
    Region.held ι.toEmb k I₀ q x
      = bigSep Finset.univ fun c : Fin 2 => bigSep Finset.univ fun s : Fin 16 =>
          Region.held ι.toEmb k (Kf (chunkOf c s)) (halfN q s.val) x := by
  obtain ⟨hdis, rfl⟩ := h
  rw [held_biUnion ι Finset.univ Kf hdis,
    bigSep_congr (fun j _ => held_halves ι (Kf j) (fun i _ => hx i)), bigSep_tiles]
  simp only [halfN_div]

end Held

open Cert.KernelIdeal Cert.KernelIdeal.Gen Cert.Proof.E
open Idealize.ShloMosaic.SparseCore.Cfg (HIx)

variable {F : FTy → Type}
variable {UU : Type} [URA UU]

local notation "𝕄" => MT nD τ sig (HIx 2) (Elt F) ℕ UU ℕ

variable (emb : UEmb (WmRA nD τ sig (Elt F)) UU)

local notation:60 ℓ " ⇝[" I "]{" q "} " f:max " ⇒ " g:max " @ " W:max => willBeTo (Ix := HIx 2) (Name := ℕ) (Lvl := ℕ) emb ℓ I q f g W

theorem pSet_ok : Tiling pSet Finset.univ := by
  rw [show pSet = fun j => (pPart j).set from funext fun _ => View.set_slice_whole main_arg2_scv _]; exact part_tiling pdiv

theorem gSet_ok : Tiling gSet Finset.univ := by
  rw [show gSet = fun j => (gPart j).set from funext fun _ => View.set_slice_whole main_v0_0_scv _]; exact part_tiling gdiv

theorem pos_tiles {ℓ : Loc nD τ sig} {Kf : Fin 16 → Finset (Idx ℓ)} (hK : Tiling Kf Finset.univ) (f : Buf (Elt F) ℓ) :
    (ℓ ↦{fullShare} f : sProp 𝕄)
      = bigSep Finset.univ fun c : Fin 2 => bigSep Finset.univ fun s : Fin 16 =>
          ℓ ↦[Kf (chunkOf c s)]{halfN fullShare s.val} f :=
  held_tiles (memEmb (nD := nD) (τ := τ) (sig := sig) (Ix := HIx 2) (Val := Elt F) (Name := ℕ) (U := UU) (Lvl := ℕ))
    (k := ℓ) (q := fullShare) (x := fun i => (f i : Ag _)) hK (fun i => Ag.idem _)

theorem wb_tiles {ℓ : Loc nD τ sig} {Kf : Fin 16 → Finset (Idx ℓ)} (hK : Tiling Kf Finset.univ) (f : Buf (Elt F) ℓ) (g : Tgt (Elt F) ℓ)
    (W : Finset (Idx ℓ)) :
    (ℓ ⇝[Finset.univ]{fullShare} f ⇒ g @ W : sProp 𝕄)
      = bigSep Finset.univ fun c : Fin 2 => bigSep Finset.univ fun s : Fin 16 =>
          ℓ ⇝[Kf (chunkOf c s)]{halfN fullShare s.val} f ⇒ g @ W :=
  held_tiles (wmEmb (HIx 2) emb : UEmb (WmRA nD τ sig (Elt F)) 𝕄)
    (k := ℓ) (q := fullShare) (x := fun i => Region.WB.mk (f i) (g i) (decide (i ∈ W))) hK
    (fun i => by have := Region.WB.mem_mk_op_mk (f i) (g i) (decide (i ∈ W)) (decide (i ∈ W)); rwa [Bool.or_self] at this)

/-- Inside `I`, membership in `I` and membership in the whole index set agree. -/
theorem wb_self {ℓ : Loc nD τ sig} (I : Finset (Idx ℓ)) (q : PosShare TreeShare) (f : Buf (Elt F) ℓ) (g : Tgt (Elt F) ℓ) :
    (ℓ ⇝[I]{q} f ⇒ g @ I : sProp 𝕄) = ℓ ⇝[I]{q} f ⇒ g @ Finset.univ :=
  Region.willBe_congr (fun _ _ => rfl) (fun _ _ => rfl) (fun i hi => ⟨fun _ => Finset.mem_univ _, fun _ => hi⟩)

def shareOf (q : PosShare TreeShare) (n i : ℕ) : PosShare TreeShare :=
  if i < n then Transfers.shareTokN q i else Transfers.shareDrop q n

/-- The `n` tokens of a share and its remainder, as one family over `Fin (n + 1)`: the remainder sits at index `n`. -/
theorem pointsTo_shares {ℓ : Loc nD τ sig} {S : Finset (Idx ℓ)} {f : Buf (Elt F) ℓ} (q : PosShare TreeShare) (n : ℕ) :
    (ℓ ↦[S]{q} f : sProp 𝕄) = bigSep Finset.univ (fun i : Fin (n + 1) => ℓ ↦[S]{shareOf q n i.val} f) := by
  have h : (ℓ ↦[S]{q} f : sProp 𝕄) ⊣⊢ _ := Transfers.pointsTo_toks_range q n
  rw [BI.equiv_iff.mp ⟨h.1, h.2⟩]
  symm
  trans bigSep (Finset.range (n + 1)) fun i => ℓ ↦[S]{shareOf q n i} f
  · rw [← Nat.Iio_eq_range, ← Fin.map_valEmbedding_univ, BI.bigSep_map]; rfl
  rw [Finset.range_add_one, BI.bigSep_insert Finset.notMem_range_self, show shareOf q n n = _ from if_neg (lt_irrefl n)]
  congr 1
  exact BI.bigSep_congr fun i hi => by rw [shareOf, if_pos (Finset.mem_range.mp hi)]

def qV (c s : ℕ) : PosShare TreeShare := shareOf (shareOf fullShare 1 c) 15 s

theorem v_tiles {ℓ : Loc nD τ sig} (f : Buf (Elt F) ℓ) :
    (ℓ ↦{fullShare} f : sProp 𝕄)
      = bigSep Finset.univ fun c : Fin 2 => bigSep Finset.univ fun s : Fin 16 => ℓ ↦{qV c.val s.val} f := by
  rw [pointsTo_shares (S := Finset.univ) (f := f) fullShare 1]
  exact bigSep_congr fun c _ => pointsTo_shares _ 15

def qH (c : Fin τ.nSC) (s : Fin τ.nSub) : PosShare TreeShare := halfN fullShare s.val

def qT (c : Fin τ.nSC) (s : Fin τ.nSub) : PosShare TreeShare := qV c.val s.val

variable (m : (ℓ : Loc nD τ sig) → Buf (Elt F) ℓ) (hpre : PreOK m)

def goA (d : Dev nD) (L : grid0.Coords) : sProp 𝕄 :=
  iprop((pLoc d ↦[pSet (chunk L)]{qH (cV L) (jV L)} m (pLoc d)) ∗ (v1Loc d ↦{qT (cV L) (jV L)} m (v1Loc d))
    ∗ (v2Loc d ↦{qT (cV L) (jV L)} m (v2Loc d))
    ∗ (g1Loc d ⇝[gSet (chunk L)]{qH (cV L) (jV L)} (m (g1Loc d)) ⇒ (tg1 m hpre d) @ ∅)
    ∗ (g2Loc d ⇝[gSet (chunk L)]{qH (cV L) (jV L)} (m (g2Loc d)) ⇒ (tg2 m hpre d) @ ∅))

def tdA (d : Dev nD) (L : grid0.Coords) : sProp 𝕄 :=
  iprop((pLoc d ↦[pSet (chunk L)]{qH (cV L) (jV L)} m (pLoc d)) ∗ (v1Loc d ↦{qT (cV L) (jV L)} m (v1Loc d))
    ∗ (v2Loc d ↦{qT (cV L) (jV L)} m (v2Loc d))
    ∗ (g1Loc d ⇝[gSet (chunk L)]{qH (cV L) (jV L)} (m (g1Loc d)) ⇒ (tg1 m hpre d) @ (gSet (chunk L)))
    ∗ (g2Loc d ⇝[gSet (chunk L)]{qH (cV L) (jV L)} (m (g2Loc d)) ⇒ (tg2 m hpre d) @ (gSet (chunk L))))

section Bridge

open Idealize.ShloMosaic.ValueIdx

/-- On the gathered axis the payload reads the row the index list names; the other axis is kept. -/
theorem agreed_apply (d : Dev nD) (tab : S100000x128.Idx → Elt F .f32) (j dd : Fin 128) :
    agreed m hpre d tab (ix2 j dd) = tab (ix2 (Cert.Proof.G.rowIx (m (pLoc d) (ix1 j))) dd) := by
  unfold agreed SparseCore.gatherPayload
  congr 1
  funext b
  apply Fin.ext
  match b with
  | ⟨0, h0⟩ =>
    refine (congrArg Fin.val (Shape.Gathers.idx_axis gathers128 (SparseCore.rows (m (pLoc d)) numel128 (hpre d)) (ix2 j dd))).trans ?_
    refine (congrArg (fun x => (m (pLoc d) x).toNat) ((Equiv.symm_apply_eq _).mpr (Fin.ext (Shape.rowMajor_val_one (ix1 j)).symm))).trans ?_
    show (m (pLoc d) (ix1 j)).toNat = min (m (pLoc d) (ix1 j)).toNat 99999
    have := hpre d (ix1 j)
    have h2 : S100000x128.size gathers128.axis = 100000 := rfl
    omega
  | ⟨1, h1⟩ =>
    exact (Shape.Gathers.idx_of_ne gathers128 _ (ix2 j dd) ⟨1, h1⟩ Nat.one_ne_zero).trans rfl

theorem G1_apply (d : Dev nD) (j dd : Fin 128) :
    G1 m hpre d (ix2 j dd) = m (v1Loc d) (ix2 (Cert.Proof.G.rowIx (m (pLoc d) (ix1 j))) dd) := agreed_apply m hpre d _ j dd

theorem G2_apply (d : Dev nD) (j dd : Fin 128) :
    G2 m hpre d (ix2 j dd) = m (v2Loc d) (ix2 (Cert.Proof.G.rowIx (m (pLoc d) (ix1 j))) dd) := agreed_apply m hpre d _ j dd

end Bridge

section Held

variable (Lc : Fin 2 → Fin 16 → grid0.Coords) (hL0 : ∀ c s, (Lc c s 0).val = c.val) (hL1 : ∀ c s, (Lc c s 1).val = s.val)

def W0 (d : Dev nD) : Valuation τ sig (Elt F) := fun b => m (d, b)

def W1of (d : Dev nD) : Valuation τ sig (Elt F) :=
  Function.update (Function.update (W0 m d) (Proc.devRef .tc main_v0_0) (G1 m hpre d)) (Proc.devRef .tc main_v0_1) (G2 m hpre d)

def T5 : Finset (DevRef τ sig) :=
  {Proc.devRef .tc main_arg4, Proc.devRef .tc main_arg5, Proc.devRef .tc main_arg2, Proc.devRef .tc main_v0_0, Proc.devRef .tc main_v0_1}

theorem ne_a4_g1 : (Proc.devRef .tc main_arg4 : DevRef τ sig) ≠ Proc.devRef .tc main_v0_0 := StableHlo.devRef_ne_of_ne (by decide)
theorem ne_a4_g2 : (Proc.devRef .tc main_arg4 : DevRef τ sig) ≠ Proc.devRef .tc main_v0_1 := StableHlo.devRef_ne_of_ne (by decide)
theorem ne_a5_g1 : (Proc.devRef .tc main_arg5 : DevRef τ sig) ≠ Proc.devRef .tc main_v0_0 := StableHlo.devRef_ne_of_ne (by decide)
theorem ne_a5_g2 : (Proc.devRef .tc main_arg5 : DevRef τ sig) ≠ Proc.devRef .tc main_v0_1 := StableHlo.devRef_ne_of_ne (by decide)
theorem ne_a2_g1 : (Proc.devRef .tc main_arg2 : DevRef τ sig) ≠ Proc.devRef .tc main_v0_0 := StableHlo.devRef_ne_of_ne (by decide)
theorem ne_a2_g2 : (Proc.devRef .tc main_arg2 : DevRef τ sig) ≠ Proc.devRef .tc main_v0_1 := StableHlo.devRef_ne_of_ne (by decide)
theorem ne_g1_g2 : (Proc.devRef .tc main_v0_0 : DevRef τ sig) ≠ Proc.devRef .tc main_v0_1 := StableHlo.devRef_ne_of_ne (by decide)

theorem T5_sub : (T5 : Finset (DevRef τ sig)) ⊆ Pipeline.ucRefs τ sig := by
  intro b hb
  simp only [T5, Finset.mem_insert, Finset.mem_singleton] at hb
  rcases hb with rfl | rfl | rfl | rfl | rfl <;>
    exact Finset.mem_filter.mpr ⟨StableHlo.devRef_mem_tcRefs _, by decide⟩

theorem held_T5 (d : Dev nD) (Vv : Valuation τ sig (Elt F)) :
    (StableHlo.held (d.tc : Thread nD τ) T5 Vv : sProp 𝕄)
      = iprop((v1Loc d ↦{fullShare} Vv (Proc.devRef .tc main_arg4)) ∗ (v2Loc d ↦{fullShare} Vv (Proc.devRef .tc main_arg5))
          ∗ (pLoc d ↦{fullShare} Vv (Proc.devRef .tc main_arg2)) ∗ (g1Loc d ↦{fullShare} Vv (Proc.devRef .tc main_v0_0))
          ∗ (g2Loc d ↦{fullShare} Vv (Proc.devRef .tc main_v0_1))) := by
  unfold StableHlo.held T5
  rw [bigSep_insert (by decide), bigSep_insert (by decide), bigSep_insert (by decide), bigSep_insert (by decide), bigSep_singleton]
  rfl

variable {ιwm : ℕ}

include hL0 hL1 in
theorem call0_held (d : Dev nD) :
    (iprop(wmInv (Ix := HIx 2) (Name := ℕ) (Lvl := ℕ) emb ιwm
        ∗ (StableHlo.held (d.tc : Thread nD τ) (Pipeline.ucRefs τ sig) (W0 m d) : sProp 𝕄)) : sProp 𝕄)
      ⊢ iprop(|={Set.univ}=> ((bigSep Finset.univ fun c : Fin 2 => bigSep Finset.univ fun s : Fin 16 => goA emb m hpre d (Lc c s))
        ∗ ((bigSep Finset.univ fun c : Fin 2 => bigSep Finset.univ fun s : Fin 16 => tdA emb m hpre d (Lc c s))
          -∗ |={Set.univ}=> (StableHlo.held (d.tc : Thread nD τ) (Pipeline.ucRefs τ sig) (W1of m hpre d) : sProp 𝕄)))) := by
  have e : ∀ b, b ≠ Proc.devRef .tc main_v0_0 → b ≠ Proc.devRef .tc main_v0_1 → W1of m hpre d b = W0 m d b := fun b h1 h2 =>
    (Function.update_of_ne h2 _ _).trans (Function.update_of_ne h1 _ _)
  rw [StableHlo.held_sub_split _ T5_sub, StableHlo.held_sub_split _ T5_sub, held_T5, held_T5,
    StableHlo.held_congr _ (V := W1of m hpre d) (V' := W0 m d) fun b hb => by
      apply e <;> rintro rfl <;> exact (Finset.mem_sdiff.mp hb).2 (by simp [T5]),
    e _ ne_a4_g1 ne_a4_g2, e _ ne_a5_g1 ne_a5_g2, e _ ne_a2_g1 ne_a2_g2]
  unfold W1of goA tdA qH qT
  rw [Function.update_self, Function.update_of_ne ne_g1_g2, Function.update_self]
  simp only [W0, show ∀ c s, chunk (Lc c s) = chunkOf c s from fun c s => by simp only [chunk, chunkOf, hL0, hL1],
    show ∀ c s, (jV (Lc c s)).val = s.val from hL1, show ∀ c s, (cV (Lc c s)).val = c.val from hL0, wb_self, bigSep_sep']
  rw [← pos_tiles (ℓ := pLoc d) pSet_ok, ← v_tiles (ℓ := v1Loc d), ← v_tiles (ℓ := v2Loc d), ← wb_tiles emb (ℓ := g1Loc d) gSet_ok,
    ← wb_tiles emb (ℓ := g2Loc d) gSet_ok, ← wb_tiles emb (ℓ := g1Loc d) gSet_ok, ← wb_tiles emb (ℓ := g2Loc d) gSet_ok]
  iintro ⟨#Hwm, ⟨Hv1, Hv2, Hp, Hg1, Hg2⟩, Hrest⟩
  imod (pointsTo_castIn (emb := emb) (tg1 m hpre d) (Set.mem_univ ιwm)) $$ [Hg1] with Hg1
  · iframe Hwm Hg1
  imod (pointsTo_castIn (emb := emb) (tg2 m hpre d) (Set.mem_univ ιwm)) $$ [Hg2] with Hg2
  · iframe Hwm Hg2
  imodintro
  iframe
  iintro ⟨Hp, Hv1, Hv2, Hg1, Hg2⟩
  imod (willBeTo_castOut_some (emb := emb) (Set.mem_univ ιwm)) $$ [Hg1] with Hg1
  · iframe Hwm Hg1
  imod (willBeTo_castOut_some (emb := emb) (Set.mem_univ ιwm)) $$ [Hg2] with Hg2
  · iframe Hwm Hg2
  rw [Finset.piecewise_univ, Finset.piecewise_univ]
  imodintro
  iframe

end Held

end Cert.Proof.SA

end
-- ==== Proof.KIValueArgs.lean ====
import proofs.«204933_g4492535792355_cont_8to1_c_766_42_alg».proof.Proof.KIChain
import proofs.«204933_g4492535792355_cont_8to1_c_766_42_alg».proof.Proof.SplitC
import proofs.«204933_g4492535792355_cont_8to1_c_766_42_alg».proof.Proof.SplitA

noncomputable section

namespace Cert.Proof.KV

open Cert.KernelIdeal Cert.KernelIdeal.Gen
open Idealize.ShloMosaic
open Idealize.ShloMosaic.SparseCore.Cfg (HIx)
open Idealize.SL Idealize.SL.RA Idealize.SL.BI Idealize.SL.Sem
open Cert.Proof.KI

variable {F : FTy → Type} [FloatOps F] [Named F]
variable {U : Type} [URA U]
variable (m : (ℓ : Loc nD τ sig) → Buf (Elt F) ℓ)
variable (W1 W5 : Dev nD → Valuation τ sig (Elt F))

theorem back3 (d : Dev nD) {r : Ref sig .tc} (h : ∀ w, Pipeline.arrRef spec1 w ≠ r) :
    W3 (U := U) W1 d (Proc.devRef .tc r) = W2 W1 d (Proc.devRef .tc r) :=
  Cert.Proof.C.Wexit_of_ne (W2 W1) _ _ d r h

theorem back3_in (d : Dev nD) (w : Fin cfg1.W) (hin : (cfg1.win w).isOut = false) :
    W3 (U := U) W1 d (Proc.devRef .tc (Pipeline.arrRef spec1 w)) = W2 W1 d (Proc.devRef .tc (Pipeline.arrRef spec1 w)) :=
  (Cert.Proof.C.Wexit_arr (W2 W1) _ _ d w).trans
    ((Pipeline.Dat.arrAt_in _ w hin _).trans (Cert.Proof.C.A_eq1 _ _ _ d w))

theorem back2 (d : Dev nD) {r : Ref sig .tc} (h : r ≠ main_v1) :
    W2 W1 d (Proc.devRef .tc r) = W1 d (Proc.devRef .tc r) :=
  StableHlo.reshape_result_ne _ _ _ _ _ _ _ h

def KeepsArgs (d : Dev nD) (W : Valuation τ sig (Elt F)) : Prop :=
  W (Proc.devRef .tc main_arg0) = m ((d.tc : Thread nD τ).loc main_arg0)
  ∧ W (Proc.devRef .tc main_arg1) = m ((d.tc : Thread nD τ).loc main_arg1)
  ∧ W (Proc.devRef .tc main_arg2) = m ((d.tc : Thread nD τ).loc main_arg2)
  ∧ W (Proc.devRef .tc main_arg3) = m ((d.tc : Thread nD τ).loc main_arg3)
  ∧ W (Proc.devRef .tc main_arg4) = m ((d.tc : Thread nD τ).loc main_arg4)
  ∧ W (Proc.devRef .tc main_arg5) = m ((d.tc : Thread nD τ).loc main_arg5)

abbrev OnlyV4 (d : Dev nD) : Prop :=
  ∀ b : DevRef τ sig, b ≠ Proc.devRef .tc main_v4 → W5 d b = W4 (U := U) W1 d b

section Fold

variable (d : Dev nD) (hW5 : OnlyV4 (U := U) W1 W5 d)
include hW5

-- a reference that none of the later operations writes has the same value after them
theorem back7_to_3 {r : Ref sig .tc}
    (h : r ≠ main_v6 ∧ main_v5 ≠ r ∧ main_v4 ≠ r ∧ r ≠ main_v3 ∧ r ≠ main_call0_v0 ∧ r ≠ main_c) :
    W7 (U := U) W5 d (Proc.devRef .tc r) = W3 (U := U) W1 d (Proc.devRef .tc r) :=
  (StableHlo.reshape_result_ne _ _ _ _ _ _ _ h.1).trans ((Cert.Proof.D.Wout_other W5 _ _ d r h.2.2.1 h.2.1).trans
    ((hW5 _ (StableHlo.devRef_ne_of_ne (Ne.symm h.2.2.1))).trans ((StableHlo.binary_result_ne _ _ _ _ _ _ _ _ h.2.2.2.1).trans
      ((StableHlo.unary_result_ne _ _ _ _ _ _ h.2.2.2.2.1).trans (StableHlo.nullary_result_ne _ _ _ _ h.2.2.2.2.2)))))

theorem args_kept (hW1 : KeepsArgs m d (W1 d)) : KeepsArgs m d (W7 (U := U) W5 d) :=
  ⟨(back7_to_3 W1 W5 d hW5 (by decide)).trans
      ((back3_in W1 d 0 rfl).trans ((back2 W1 d (by decide)).trans hW1.1)),
   (back7_to_3 W1 W5 d hW5 (by decide)).trans
      ((back3_in W1 d 1 rfl).trans ((back2 W1 d (by decide)).trans hW1.2.1)),
   (back7_to_3 W1 W5 d hW5 (by decide)).trans
      ((back3 W1 d (by decide)).trans ((back2 W1 d (by decide)).trans hW1.2.2.1)),
   (back7_to_3 W1 W5 d hW5 (by decide)).trans
      ((back3 W1 d (by decide)).trans ((back2 W1 d (by decide)).trans hW1.2.2.2.1)),
   (back7_to_3 W1 W5 d hW5 (by decide)).trans
      ((back3_in W1 d 5 rfl).trans ((back2 W1 d (by decide)).trans hW1.2.2.2.2.1)),
   (back7_to_3 W1 W5 d hW5 (by decide)).trans
      ((back3_in W1 d 6 rfl).trans ((back2 W1 d (by decide)).trans hW1.2.2.2.2.2))⟩

abbrev datB (d : Dev nD) : Pipeline.Dat τ (Elt F) (HIx 2) ℕ U ℕ cfg1 d :=
  Cert.Proof.C.dat1 (Ix := HIx 2) (Name := ℕ) (U := U) (Lvl := ℕ) (Cert.Proof.C.VofW (W2 W1)) (On (F := F) 1) (Bn (F := F) 1) d

theorem W7_main_v2_1 :
    W7 (U := U) W5 d (Proc.devRef .tc main_v2_1) = (datB (U := U) W1 d).arrAt 8 cfg1.N :=
  (back7_to_3 W1 W5 d hW5 (by decide)).trans
    (Cert.Proof.C.Wexit_arr (W2 W1) _ _ d 8)

theorem W7_main_v2_2 :
    W7 (U := U) W5 d (Proc.devRef .tc main_v2_2) = (datB (U := U) W1 d).arrAt 9 cfg1.N :=
  (back7_to_3 W1 W5 d hW5 (by decide)).trans
    (Cert.Proof.C.Wexit_arr (W2 W1) _ _ d 9)

end Fold

-- updating a function at two other points does not change its value at r
theorem upd2_ne {V : Valuation τ sig (Elt F)} {r a b : Ref sig .tc} (ha : r ≠ a) (hb : r ≠ b)
    (g1 : (Proc.devRef .tc a : DevRef τ sig).ty.Contents (Elt F)) (g2 : (Proc.devRef .tc b : DevRef τ sig).ty.Contents (Elt F)) :
    Function.update (Function.update V (Proc.devRef .tc a) g1) (Proc.devRef .tc b) g2 (Proc.devRef .tc r) = V (Proc.devRef .tc r) :=
  (Function.update_of_ne (StableHlo.devRef_ne_of_ne hb) _ _).trans (Function.update_of_ne (StableHlo.devRef_ne_of_ne ha) _ _)

theorem onlyV4_W5of (d : Dev nD) :
    OnlyV4 (U := U) W1 (fun d => Cert.Proof.SC.W5of (W4 (U := U) W1 d)) d :=
  fun b h => by unfold Cert.Proof.SC.W5of; exact Function.update_of_ne h _ _

theorem keeps_W1of (hpre : Cert.Proof.E.PreOK m) (d : Dev nD) : KeepsArgs m d (Cert.Proof.SA.W1of m hpre d) :=
  ⟨upd2_ne (by decide) (by decide) _ _, upd2_ne (by decide) (by decide) _ _, upd2_ne (by decide) (by decide) _ _,
    upd2_ne (by decide) (by decide) _ _, upd2_ne (by decide) (by decide) _ _, upd2_ne (by decide) (by decide) _ _⟩

end Cert.Proof.KV

end
-- ==== Proof.PreFacts.lean ====
import proofs.«204933_g4492535792355_cont_8to1_c_766_42_alg».proof.Pre_input_domain
import Idealize.ShloMosaic.Lib.ReduceAll
import Idealize.ShloMosaic.PureOps.Ideal

namespace Cert.Proof.Pre

open Idealize.ShloMosaic Cert.Pre_input_domain

variable [Facts]
open Facts

instance : Subsingleton S_.Idx := ⟨fun a b => funext fun d => d.elim0⟩

def ix0 : S_.Idx := fun d => d.elim0

theorem toNat_lt_of_signed_range (v : BitVec 32) (h0 : (0#32 : BitVec 32).toInt ≤ v.toInt)
    (h1 : v.toInt ≤ (99999#32 : BitVec 32).toInt) : v.toNat < 100000 := by
  have hv := BitVec.toInt_eq_toNat_cond v
  have e0 : (0#32 : BitVec 32).toInt = 0 := by decide
  have e1 : (99999#32 : BitVec 32).toInt = 99999 := by decide
  rw [e0] at h0; rw [e1] at h1
  split at hv <;> omega

section Generic

variable {F : FTy → Type} [FloatOps F]

def finBit (x : F .f32) : BitVec 1 :=
  FloatOps.cmpf .olt (FloatOps.hostAbsf x) (FloatOps.ofBits .f32 0x7F800000#32)

variable (a0 a1 : FVec F S128x128 .f32) (a2 : IVec S128 32) (a3 : IVec S128x4097 32) (a4 a5 : FVec F S100000x128 .f32)

theorem split (h : fn a0 a1 a2 a3 a4 a5 = fun _ => 1#1) :
    (∀ i, finBit (a0 i) = 1#1) ∧ (∀ i, finBit (a1 i) = 1#1) ∧ (∀ i, finBit (a4 i) = 1#1) ∧ (∀ i, finBit (a5 i) = 1#1)
      ∧ (∀ j, IntOp.cmpi .sge (a2 j) 0#32 = 1#1 ∧ IntOp.cmpi .sle (a2 j) 99999#32 = 1#1)
      ∧ (∀ i, IntOp.cmpi .sge (a3 i) 0#32 = 1#1 ∧ IntOp.cmpi .sle (a3 i) 99999#32 = 1#1) := by
  have e := congrFun h ix0
  dsimp only [fn, fn_part1] at e
  simp only [Idealize.ShloMosaic.andi, IntOp.andi_eq_one] at e
  obtain ⟨⟨⟨⟨⟨e0, e1⟩, e4⟩, e5⟩, e2⟩, e3⟩ := e
  refine ⟨fun i => ?_, fun i => ?_, fun i => ?_, fun i => ?_, fun j => ?_, fun i => ?_⟩
  · exact Host.reduce_andi_all _ _ _ _ ix0 e0 i
  · exact Host.reduce_andi_all _ _ _ _ ix0 e1 i
  · exact Host.reduce_andi_all _ _ _ _ ix0 e4 i
  · exact Host.reduce_andi_all _ _ _ _ ix0 e5 i
  · exact IntOp.andi_eq_one.1 (Host.reduce_andi_all _ _ _ _ ix0 e2 j)
  · exact IntOp.andi_eq_one.1 (Host.reduce_andi_all _ _ _ _ ix0 e3 i)

theorem pos_lt (h : fn a0 a1 a2 a3 a4 a5 = fun _ => 1#1) (j : S128.Idx) : (a2 j).toNat < 100000 :=
  let ⟨hge, hle⟩ := (split a0 a1 a2 a3 a4 a5 h).2.2.2.2.1 j
  toNat_lt_of_signed_range _ (IntOp.cmpi_sge.1 hge) (IntOp.cmpi_sle.1 hle)

theorem cidx_lt (h : fn a0 a1 a2 a3 a4 a5 = fun _ => 1#1) (i : S128x4097.Idx) : (a3 i).toNat < 100000 :=
  let ⟨hge, hle⟩ := (split a0 a1 a2 a3 a4 a5 h).2.2.2.2.2 i
  toNat_lt_of_signed_range _ (IntOp.cmpi_sge.1 hge) (IntOp.cmpi_sle.1 hle)

end Generic

section AtIdeal

theorem ofBits_inf : Ideal.ofBits .f32 0x7F800000#32 = (⊤ : EReal) := by
  simp [Ideal.ofBits, Ideal.ieee]

theorem real_of_finBit (x : Ideal .f32) (hx : finBit (F := Ideal) x = 1#1) : ∃ r : ℝ, x = (r : EReal) := by
  have h : max x (-x) < Ideal.ofBits .f32 0x7F800000#32 := by
    by_contra hn
    have h0 : finBit (F := Ideal) x = 0#1 := by
      show BitVec.ofBool (decide (max x (-x) < Ideal.ofBits .f32 0x7F800000#32)) = 0#1
      rw [decide_eq_false hn]; rfl
    rw [h0] at hx
    exact absurd hx (by decide)
  rw [ofBits_inf] at h
  induction x using EReal.rec with
  | bot => simp at h
  | coe r => exact ⟨r, rfl⟩
  | top => simp at h

variable (a0 a1 : FVec Ideal S128x128 .f32) (a2 : IVec S128 32) (a3 : IVec S128x4097 32) (a4 a5 : FVec Ideal S100000x128 .f32)
  (h : fn (F := Ideal) a0 a1 a2 a3 a4 a5 = fun _ => 1#1)

include h in
theorem real_a0 (i : S128x128.Idx) : ∃ x : ℝ, a0 i = (x : EReal) := real_of_finBit _ ((split a0 a1 a2 a3 a4 a5 h).1 i)
include h in
theorem real_a1 (i : S128x128.Idx) : ∃ x : ℝ, a1 i = (x : EReal) := real_of_finBit _ ((split a0 a1 a2 a3 a4 a5 h).2.1 i)
include h in
theorem real_a4 (i : S100000x128.Idx) : ∃ x : ℝ, a4 i = (x : EReal) := real_of_finBit _ ((split a0 a1 a2 a3 a4 a5 h).2.2.1 i)
include h in
theorem real_a5 (i : S100000x128.Idx) : ∃ x : ℝ, a5 i = (x : EReal) := real_of_finBit _ ((split a0 a1 a2 a3 a4 a5 h).2.2.2.1 i)

end AtIdeal

end Cert.Proof.Pre
-- ==== Proof.LossSpec.lean ====
import Idealize.ShloMosaic.PureOps.Ideal
import Idealize.ShloMosaic.PureOps.Ideal.Laws
import Idealize.ShloMosaic.Lib.ValueIdx
import Idealize.ShloMosaic.Lib.Pipeline.Value
import Idealize.ShloMosaic.Lib.StableHlo.Predicate

noncomputable section

open scoped BigOperators
open Idealize.ShloMosaic Idealize.ShloMosaic.ValueIdx

namespace Cert.Proof.B

def Tp : ℝ := 9395241 / 134217728

def cR : ℝ := 10995116 / 268435456

def eR : ℝ := 14073749 / 140737488355328

theorem Tp_pos : 0 < Tp := by unfold Tp; norm_num
theorem cR_pos : 0 < cR := by unfold cR; norm_num
theorem eR_pos : 0 < eR := by unfold eR; norm_num

theorem ofBits_temperature : Ideal.ofBits .f32 0x3D8F5C29#32 = ((Tp : ℝ) : EReal) := by
  unfold Tp; simp [Ideal.ofBits, Ideal.ieee, -EReal.coe_mul]; norm_num
theorem ofBits_c : Ideal.ofBits .f32 0x3D27C5AC#32 = ((cR : ℝ) : EReal) := by
  unfold cR; simp [Ideal.ofBits, Ideal.ieee, -EReal.coe_mul]; norm_num
theorem ofBits_eps : Ideal.ofBits .f32 0x33D6BF95#32 = ((eR : ℝ) : EReal) := by
  unfold eR; simp [Ideal.ofBits, Ideal.ieee, -EReal.coe_mul]; norm_num
theorem ofBits_count : Ideal.ofBits .f32 0x49000800#32 = ((524416 : ℝ) : EReal) := by
  simp [Ideal.ofBits, Ideal.ieee, -EReal.coe_mul]; norm_num
theorem ofBits_size : Ideal.ofBits .f32 0x47C35000#32 = ((100000 : ℝ) : EReal) := by
  simp [Ideal.ofBits, Ideal.ieee, -EReal.coe_mul]; norm_num
theorem ofBits_batch : Ideal.ofBits .f32 0x43000000#32 = ((128 : ℝ) : EReal) := by
  simp [Ideal.ofBits, Ideal.ieee, -EReal.coe_mul]; norm_num
theorem ofBits_zero : Ideal.ofBits .f32 0x00000000#32 = ((0 : ℝ) : EReal) := by
  rw [Ideal.ofBits_zero_f32, EReal.coe_zero]

theorem coe_sum {ι : Type*} (s : Finset ι) (f : ι → ℝ) : ((∑ i ∈ s, f i : ℝ) : EReal) = ∑ i ∈ s, (f i : EReal) := by
  exact Finset.sum_hom_rel (r := fun a b => ((a : ℝ) : EReal) = b) rfl fun _ _ _ h => by rw [EReal.coe_add, h]

theorem div_coe_coe (a : ℝ) {b : ℝ} (hb : b ≠ 0) : Ideal.div (a : EReal) (b : EReal) = ((a / b : ℝ) : EReal) := by
  rw [Ideal.div_coe hb, ← EReal.coe_mul, mul_one_div]

theorem log_coe_pos {a : ℝ} (ha : 0 < a) : Ideal.log (a : EReal) = ((Real.log a : ℝ) : EReal) := by
  rw [Ideal.log_coe, if_neg (not_le.mpr ha)]

theorem exp_coe' (a : ℝ) : Ideal.exp (a : EReal) = ((Real.exp a : ℝ) : EReal) := Ideal.exp_coe a

section Real
variable (x : Fin 128 → Fin 4097 → ℝ)

def outR (b : Fin 128) (k : Fin 4097) : ℝ := Real.exp (x b k / Tp)

def sumR : ℝ := ∑ b, ∑ k, outR x b k

def zR : ℝ := sumR x / 524416 * 100000

def pR (b : Fin 128) (k : Fin 4097) : ℝ := outR x b k / zR x

def posTerm (b : Fin 128) : ℝ := Real.log (pR x b 0 / (pR x b 0 + cR + eR))

def negTerm (b : Fin 128) (k : Fin 4097) : ℝ := Real.log (cR / (pR x b k + cR + eR))

def lossR : ℝ := -((∑ b, posTerm x b) + ∑ b, ∑ k : Fin 4096, negTerm x b k.succ) / 128

theorem outR_pos (b : Fin 128) (k : Fin 4097) : 0 < outR x b k := Real.exp_pos _

theorem sumR_pos : 0 < sumR x :=
  Finset.sum_pos (fun b _ => Finset.sum_pos (fun k _ => outR_pos x b k) ⟨0, Finset.mem_univ _⟩) ⟨0, Finset.mem_univ _⟩

theorem zR_pos : 0 < zR x := by
  unfold zR; have := sumR_pos x; positivity

theorem pR_pos (b : Fin 128) (k : Fin 4097) : 0 < pR x b k := div_pos (outR_pos x b k) (zR_pos x)

theorem den_pos (b : Fin 128) (k : Fin 4097) : 0 < pR x b k + cR + eR :=
  add_pos (add_pos (pR_pos x b k) cR_pos) eR_pos

theorem posArg_pos (b : Fin 128) : 0 < pR x b 0 / (pR x b 0 + cR + eR) := div_pos (pR_pos x b 0) (den_pos x b 0)

theorem negArg_pos (b : Fin 128) (k : Fin 4097) : 0 < cR / (pR x b k + cR + eR) := div_pos cR_pos (den_pos x b k)

end Real

theorem slt_word (n m : ℕ) (hn : n < 2 ^ 31) (hm : m < 2 ^ 31) :
    IntOp.cmpi .slt (BitVec.ofNat 32 n) (BitVec.ofNat 32 m) = if n < m then 1#1 else 0#1 := by
  have e := StableHlo.Predicate.slt_ofNat_iff n m hn hm
  unfold IntOp.cmpi
  by_cases h : n < m
  · rw [if_pos h]; exact e.2 h
  · rw [if_neg h]; exact eq_zero_of_ne_one (h ∘ e.1)

theorem eq_word (n : ℕ) (hn : n < 2 ^ 32) :
    IntOp.cmpi .eq (BitVec.ofNat 32 n) (BitVec.ofNat 32 0) = if n = 0 then 1#1 else 0#1 := by
  by_cases h : n = 0
  · subst h; rfl
  · rw [if_neg h]
    refine eq_zero_of_ne_one fun h1 => h ?_
    have h2 := congrArg BitVec.toNat (StableHlo.Predicate.cmpi_eq_iff.mp h1)
    simp only [BitVec.toNat_ofNat] at h2
    omega

theorem select_ite {α : Type} (c : Prop) [Decidable c] (a b : α) :
    Scalar.select (if c then 1#1 else 0#1) a b = if c then a else b := by
  split_ifs
  exacts [select_one a b, select_zero a b]

theorem size_one : ∀ b, (⟨1, ![1]⟩ : Shape).size b = 1 := by decide

theorem total_sum (v : FVec Ideal ⟨2, ![256, 4112]⟩ .f32) (h1 : (⟨2, ![256, 4112]⟩ : Shape).ShapeCasts ⟨3, ![1, 256, 4112]⟩)
    (h2 : (⟨3, ![1, 256, 4112]⟩ : Shape).Reduces [1, 2] ⟨1, ![1]⟩) (h3 : (⟨1, ![1]⟩ : Shape).ShapeCasts ⟨3, ![1, 1, 1]⟩)
    (h4 : ∀ a, (![0, 0, 0] : Fin 3 → Nat) a < (⟨3, ![1, 1, 1]⟩ : Shape).size a) (hφ : FKind.Formats .f32)
    (hacc : (0x00000000#32 : BitVec 32) = FKind.add.neutral .f32 hφ) :
    extractAt ![0, 0, 0] (shapeCast ⟨3, ![1, 1, 1]⟩ (multiReduction .add [1, 2] ⟨1, ![1]⟩ (shapeCast ⟨3, ![1, 256, 4112]⟩ v h1)
      0x00000000#32 h2 hφ hacc) h3) h4
      = ∑ a : Fin 256, ∑ b : Fin 4112, v (ix2 a b) := by
  show multiReduction .add [1, 2] ⟨1, ![1]⟩ (shapeCast ⟨3, ![1, 256, 4112]⟩ v h1) 0x00000000#32 h2 hφ hacc _ = _
  rw [Ideal.multiReduction_add_total (φ := .f32) _ _ h2 size_one]
  exact (Equiv.sum_comp (Shape.reshapeEquiv h1) v).trans (sum_idx2 v)

theorem total_sum_coe (f : Fin 256 → Fin 4112 → ℝ) :
    ∑ a : Fin 256, ∑ b : Fin 4112, ((f a b : ℝ) : EReal) = ((∑ a : Fin 256, ∑ b : Fin 4112, f a b : ℝ) : EReal) := by
  rw [coe_sum]; exact Finset.sum_congr rfl fun a _ => (coe_sum _ _).symm

section Kern
variable (X : Fin 256 → Fin 4112 → ℝ)

def invT : ℝ := 134217728 / 9395241

def nbk : ℝ := 3125 / 16388

def kE (row : Fin 256) (k : Fin 4112) : ℝ := if k.val < 4097 then Real.exp (X row k * invT) else 0

def kZ1 : ℝ := (∑ row, ∑ k, if row.val < 128 then kE X row k else 0) * nbk

def kZ2 : ℝ := (∑ row, ∑ k, if row.val < 128 then 0 else kE X row k) * nbk

def kP (row : Fin 256) (k : Fin 4112) : ℝ := kE X row k / (if row.val < 128 then kZ1 X else kZ2 X)

def kT (row : Fin 256) (k : Fin 4112) : ℝ :=
  if k.val = 0 then Real.log (kP X row k / (kP X row k + cR + eR))
  else if k.val < 4097 then Real.log (cR / (kP X row k + cR + eR)) else 0

def kLoss : ℝ := (0 - ∑ row, ∑ k, kT X row k) / 128

def xTop (b : Fin 128) (k : Fin 4097) : ℝ := X (Fin.castAdd 128 b) (Fin.castAdd 15 k)

def xBot (b : Fin 128) (k : Fin 4097) : ℝ := X (Fin.natAdd 128 b) (Fin.castAdd 15 k)

theorem sum_rows (g : Fin 256 → ℝ) :
    ∑ row, g row = (∑ b : Fin 128, g (Fin.castAdd 128 b)) + ∑ b : Fin 128, g (Fin.natAdd 128 b) :=
  Fin.sum_univ_add (a := 128) (b := 128) g

theorem sum_cols (g : Fin 4112 → ℝ) :
    ∑ k, g k = (∑ k : Fin 4097, g (Fin.castAdd 15 k)) + ∑ j : Fin 15, g (Fin.natAdd 4097 j) :=
  Fin.sum_univ_add (a := 4097) (b := 15) g

theorem mul_invT (a : ℝ) : a * invT = a / Tp := by unfold invT Tp; field_simp

theorem castAdd_lt {m n : ℕ} (i : Fin m) : (Fin.castAdd n i).val < m := i.isLt

theorem natAdd_not_lt {m n : ℕ} (i : Fin n) : ¬ (Fin.natAdd m i).val < m := Nat.not_lt.2 (Nat.le_add_right _ _)

theorem kE_valid (row : Fin 256) (k : Fin 4097) : kE X row (Fin.castAdd 15 k) = Real.exp (X row (Fin.castAdd 15 k) / Tp) := by
  unfold kE; rw [if_pos (castAdd_lt k), mul_invT]

theorem kE_pad (row : Fin 256) (j : Fin 15) : kE X row (Fin.natAdd 4097 j) = 0 := by
  unfold kE; rw [if_neg (natAdd_not_lt j)]

theorem kZ_eq : kZ1 X = zR (xTop X) ∧ kZ2 X = zR (xBot X) := by
  unfold kZ1 kZ2 zR sumR
  simp only [sum_rows, sum_cols, castAdd_lt, natAdd_not_lt, if_true, if_false, kE_valid, kE_pad, Finset.sum_const_zero, add_zero, zero_add]
  unfold outR xTop xBot nbk
  constructor <;> ring

theorem kP_top (b : Fin 128) (k : Fin 4097) : kP X (Fin.castAdd 128 b) (Fin.castAdd 15 k) = pR (xTop X) b k := by
  unfold kP pR
  rw [if_pos (castAdd_lt b), (kZ_eq X).1, kE_valid]; rfl

theorem kP_bot (b : Fin 128) (k : Fin 4097) : kP X (Fin.natAdd 128 b) (Fin.castAdd 15 k) = pR (xBot X) b k := by
  unfold kP pR
  rw [if_neg (natAdd_not_lt b), (kZ_eq X).2, kE_valid]; rfl

theorem kT_pad (row : Fin 256) (j : Fin 15) : kT X row (Fin.natAdd 4097 j) = 0 := by
  unfold kT
  rw [if_neg (by rw [Fin.coe_natAdd]; omega), if_neg (natAdd_not_lt j)]

theorem kT_row (row : Fin 256) (x : Fin 128 → Fin 4097 → ℝ) (b : Fin 128)
    (hP : ∀ k : Fin 4097, kP X row (Fin.castAdd 15 k) = pR x b k) :
    ∑ k : Fin 4097, kT X row (Fin.castAdd 15 k) = posTerm x b + ∑ k : Fin 4096, negTerm x b k.succ := by
  rw [Fin.sum_univ_succ]
  congr 1
  · unfold kT posTerm
    rw [if_pos (by rfl), hP]
  · refine Finset.sum_congr rfl fun k _ => ?_
    unfold kT negTerm
    rw [if_neg (by rw [Fin.coe_castAdd, Fin.val_succ]; omega), if_pos (castAdd_lt k.succ), hP]

theorem kLoss_eq : kLoss X = lossR (xTop X) + lossR (xBot X) := by
  unfold kLoss
  simp only [sum_rows, sum_cols, kT_pad, Finset.sum_const_zero, add_zero]
  rw [Finset.sum_congr rfl fun b _ => kT_row X (Fin.castAdd 128 b) (xTop X) b (kP_top X b),
    Finset.sum_congr rfl fun b _ => kT_row X (Fin.natAdd 128 b) (xBot X) b (kP_bot X b)]
  unfold lossR
  rw [Finset.sum_add_distrib, Finset.sum_add_distrib]
  ring

theorem kZ1_pos : 0 < kZ1 X := by rw [(kZ_eq X).1]; exact zR_pos _
theorem kZ2_pos : 0 < kZ2 X := by rw [(kZ_eq X).2]; exact zR_pos _

theorem kE_nonneg (row : Fin 256) (k : Fin 4112) : 0 ≤ kE X row k := by
  unfold kE; split_ifs
  exacts [(Real.exp_pos _).le, le_rfl]

theorem kE_pos (row : Fin 256) (k : Fin 4112) (hk : k.val < 4097) : 0 < kE X row k := by
  unfold kE; rw [if_pos hk]; exact Real.exp_pos _

theorem kZ_pos (row : Fin 256) : 0 < (if row.val < 128 then kZ1 X else kZ2 X) := by
  split_ifs
  exacts [kZ1_pos X, kZ2_pos X]

theorem kP_pos (row : Fin 256) (k : Fin 4112) (hk : k.val < 4097) : 0 < kP X row k := div_pos (kE_pos X row k hk) (kZ_pos X row)

theorem kDen_pos (row : Fin 256) (k : Fin 4112) : 0 < kP X row k + cR + eR :=
  add_pos (add_pos_of_nonneg_of_pos (div_nonneg (kE_nonneg X row k) (kZ_pos X row).le) cR_pos) eR_pos

end Kern

def bankRow (w : BitVec 32) : Fin 100000 := ⟨min w.toInt.toNat 99999, by omega⟩

def dotR (A : (⟨2, ![128, 128]⟩ : Shape).Idx → EReal) (M : (⟨2, ![100000, 128]⟩ : Shape).Idx → EReal)
    (C : (⟨2, ![128, 4097]⟩ : Shape).Idx → BitVec 32) (b : Fin 128) (k : Fin 4097) : ℝ :=
  ∑ d : Fin 128, (M (ix2 (bankRow (C (ix2 b k))) d)).toReal * (A (ix2 b d)).toReal

def IsReal {ι : Type} (A : ι → EReal) : Prop := ∀ i, ∃ a : ℝ, A i = (a : EReal)

theorem dot_eq_dotR (A : (⟨2, ![128, 128]⟩ : Shape).Idx → EReal) (M : (⟨2, ![100000, 128]⟩ : Shape).Idx → EReal)
    (C : (⟨2, ![128, 4097]⟩ : Shape).Idx → BitVec 32) (hA : IsReal A) (hM : IsReal M) (b : Fin 128) (k : Fin 4097) :
    ∑ d : Fin 128, M (ix2 (bankRow (C (ix2 b k))) d) * A (ix2 b d) = ((dotR A M C b k : ℝ) : EReal) := by
  unfold dotR
  rw [coe_sum]
  refine Finset.sum_congr rfl fun d _ => ?_
  obtain ⟨m, hm⟩ := hM (ix2 (bankRow (C (ix2 b k))) d)
  obtain ⟨a, ha⟩ := hA (ix2 b d)
  rw [hm, ha, EReal.toReal_coe, EReal.toReal_coe, EReal.coe_mul]

def G_loss (S Tt : (⟨2, ![128, 128]⟩ : Shape).Idx → EReal) (M1 M2 : (⟨2, ![100000, 128]⟩ : Shape).Idx → EReal)
    (C : (⟨2, ![128, 4097]⟩ : Shape).Idx → BitVec 32) : (⟨1, ![1]⟩ : Shape).Idx → EReal :=
  fun _ => ((lossR (dotR S M2 C) + lossR (dotR Tt M1 C) : ℝ) : EReal)

end Cert.Proof.B

end
-- ==== Proof.LossRef.lean ====
import proofs.«204933_g4492535792355_cont_8to1_c_766_42_alg».proof.Proof.RefRunA
import proofs.«204933_g4492535792355_cont_8to1_c_766_42_alg».proof.Proof.LossSpec
import Idealize.ShloMosaic.Lib.ValueIdxRank1

noncomputable section

open scoped BigOperators
open Idealize.ShloMosaic Idealize.ShloMosaic.ValueIdx
open Cert.ReferenceIdeal Cert.ReferenceIdeal.Facts₀
open Cert.Proof.A

namespace Cert.Proof.B

theorem foldl_andi_one {ι : Type} (f : ι → BitVec 1) :
    ∀ (l : List ι) (init : BitVec 1), init = 1#1 → (∀ n ∈ l, f n = 1#1) →
      l.foldl (fun r n => IntOp.andi r (f n)) init = 1#1
  | [], _, h, _ => h
  | a :: l, init, h, hl =>
    foldl_andi_one f l _ (by show IntOp.andi init (f a) = 1#1; rw [h, hl a (List.mem_cons_self ..)]; rfl)
      (fun n hn => hl n (List.mem_cons_of_mem _ hn))

section Take
variable (mem : C Ideal S100000x128 .f32) (idx : C Ideal S524416 .i32) (hidx : ∀ i, (idx i).toNat < 100000)
include hidx

theorem wrapT_apply (i : S524416.Idx) : wrapT (F := Ideal) idx i = idx i := by
  show Scalar.select (IntOp.cmpi .slt (idx i) 0#32) _ (idx i) = idx i
  have h0 : IntOp.cmpi .slt (idx i) 0#32 = 0#1 := eq_zero_of_ne_one fun h1 => by
    have := (StableHlo.Predicate.slt_iff_toNat (by have := hidx i; omega) (by decide)).mp h1
    simp at this
  rw [h0, select_zero]

theorem colT_apply (j : S524416x1.Idx) : colT (F := Ideal) idx j = idx (ix1 (j 0)) := by
  rw [← wrapT_apply idx hidx]
  unfold colT broadcastInDim
  congr 1
  funext a
  have : a = 0 := Subsingleton.elim _ _
  subst this
  rw [dif_neg (by decide)]
  rfl

theorem okT_apply (i : S524416.Idx) : okT (F := Ideal) (colT (F := Ideal) idx) i = 1#1 := by
  unfold okT
  rw [Host.reduce_eq_foldl]
  refine foldl_andi_one _ _ _ rfl fun n _ => ?_
  have hn := colT_apply idx hidx n
  have hlt := hidx (ix1 (n 0))
  show IntOp.andi (IntOp.cmpi .sge (colT (F := Ideal) idx n) 0#32) (IntOp.cmpi .sle (colT (F := Ideal) idx n) 99999#32) = 1#1
  rw [hn, (StableHlo.Predicate.sge_iff_toNat (by omega) (by decide)).mpr (by simp),
    (StableHlo.Predicate.sle_iff_toNat (by omega) (by decide)).mpr (by simp; omega)]
  rfl

theorem gather_apply (flat : Fin 524416) (d : Fin 128) :
    Host.gather gather_S100000x128_S524416x1_S524416x128_1_0_n_n_0_1_1128 mem (colT (F := Ideal) idx) (ix2 flat d)
      = mem (ix2 (bankRow (idx (ix1 flat))) d) := by
  unfold Host.gather
  congr 1
  funext a
  refine Fin.ext ?_
  match a with
  | ⟨0, _⟩ =>
    show min ((colT (F := Ideal) idx) _).toInt.toNat (100000 - 1) + 0 + 0 = min (idx (ix1 flat)).toInt.toNat 99999
    rw [colT_apply idx hidx]
    rfl
  | ⟨1, _⟩ =>
    show 0 + 0 + d.val = d.val
    exact Nat.zero_add _

theorem takeT_apply (flat : Fin 524416) (d : Fin 128) :
    takeT mem idx (ix2 flat d) = mem (ix2 (bankRow (idx (ix1 flat))) d) := by
  unfold takeT
  rw [select_apply]
  have hok : broadcastInDim S524416x128 ![0] bcast_S524416_S524416x128_0 (okT (F := Ideal) (colT (F := Ideal) idx)) (ix2 flat d) = 1#1 := by
    unfold broadcastInDim
    exact okT_apply idx hidx _
  rw [hok, select_one, gather_apply mem idx hidx]

end Take

section Sim
variable (mem : C Ideal S100000x128 .f32) (emb : C Ideal S128x128 .f32) (a3 : C Ideal S128x4097 .i32)
  (hC : ∀ i, (a3 i).toNat < 100000)

theorem idxT_apply (b : Fin 128) (k : Fin 4097) :
    idxT (F := Ideal) a3 (ix1 ⟨b.val * 4097 + k.val, by have := b.isLt; have := k.isLt; omega⟩) = a3 (ix2 b k) := by
  unfold idxT
  refine shapeCast_apply a3 _ _ (ix2 b k) ?_
  rw [Shape.rowMajor_val_two, Shape.rowMajor_val_one]
  rfl

theorem simRhs_apply (b : Fin 128) (k : Fin 4097) (d : Fin 128) :
    emb (dot_S128x4097x128_S128x128_S128x4097_2_1_1_n_0_0.rhsIdx (ix2 b k)
          ((contrEquiv1 dot_S128x4097x128_S128x128_S128x4097_2_1_1_n_0_0 128 rfl rfl).symm d))
      = emb (ix2 b d) :=
  congrArg emb (Shape.idx_ext₂ rfl (contrEquiv1_symm_val dot_S128x4097x128_S128x128_S128x4097_2_1_1_n_0_0 128 rfl rfl d))

include hC

theorem simLhs_apply (b : Fin 128) (k : Fin 4097) (d : Fin 128) :
    shapeCast S128x4097x128 (takeT mem (idxT (F := Ideal) a3)) shapeCasts_S524416x128_S128x4097x128
        (dot_S128x4097x128_S128x128_S128x4097_2_1_1_n_0_0.lhsIdx (ix2 b k)
          ((contrEquiv1 dot_S128x4097x128_S128x128_S128x4097_2_1_1_n_0_0 128 rfl rfl).symm d))
      = mem (ix2 (bankRow (a3 (ix2 b k))) d) := by
  rw [shapeCast_apply _ _ _ (ix2 ⟨b.val * 4097 + k.val, by have := b.isLt; have := k.isLt; omega⟩ d) ?_]
  · rw [takeT_apply mem (idxT (F := Ideal) a3) fun _ => hC _, idxT_apply]
  · rw [Shape.rowMajor_val_two, Shape.rowMajor_val_three]
    exact congrArg (fun t => (b.val * 4097 + k.val) * 128 + t)
      (contrEquiv1_symm_val dot_S128x4097x128_S128x128_S128x4097_2_1_1_n_0_0 128 rfl rfl d).symm

theorem simT_apply (hmem : IsReal mem) (hemb : IsReal emb) (b : Fin 128) (k : Fin 4097) :
    simT mem (idxT (F := Ideal) a3) emb (ix2 b k) = ((outR (dotR emb mem a3) b k : ℝ) : EReal) := by
  simp only [simT, Host.exp, Host.divf, Host.dotGeneral, Ideal.hostUnary_exp_def, Ideal.hostDivf_def, broadcastInDim,
    constant_apply, ofBits_temperature]
  rw [Ideal.dotGeneral_apply,
    ← Equiv.sum_comp (contrEquiv1 dot_S128x4097x128_S128x128_S128x4097_2_1_1_n_0_0 128 rfl rfl).symm,
    Finset.sum_congr rfl fun d _ => by rw [simLhs_apply mem a3 hC b k d, simRhs_apply emb b k d],
    dot_eq_dotR emb mem a3 hemb hmem, div_coe_coe _ Tp_pos.ne', exp_coe']
  rfl

end Sim

theorem sum_idx1 {M : Type*} [AddCommMonoid M] {n : ℕ} (f : (⟨1, ![n]⟩ : Shape).Idx → M) :
    ∑ i, f i = ∑ a : Fin n, f (ix1 a) :=
  (Equiv.sum_comp (idxEquiv1 (n := n)).symm f).symm

section Norm
variable (x : C Ideal S128x4097 .f32) (x' : Fin 128 → Fin 4097 → ℝ)
  (hx : ∀ b k, x (ix2 b k) = ((outR x' b k : ℝ) : EReal))
include hx

theorem zT_apply (j : S_.Idx) : zT x j = ((zR x' : ℝ) : EReal) := by
  show (Ideal.div (Ideal.hostReduceAdd reducesTo_S128x4097_S_d0_1 x (Ideal.ofBits .f32 0x00000000#32) j)
    (Ideal.ofBits .f32 0x49000800#32)) * Ideal.ofBits .f32 0x47C35000#32 = _
  rw [Ideal.hostReduceAdd_total _ (fun b => b.elim0), sum_idx2, ofBits_zero, ofBits_count, ofBits_size]
  simp only [hx, ← coe_sum]
  rw [← EReal.coe_add, zero_add, div_coe_coe _ (by norm_num : (524416 : ℝ) ≠ 0), ← EReal.coe_mul]
  rfl

theorem normT_apply (b : Fin 128) (k : Fin 4097) :
    normT x (ix2 b k) = ((pR x' b k : ℝ) : EReal) := by
  show Ideal.div (x (ix2 b k)) (zT x _) = _
  rw [hx, zT_apply x x' hx, div_coe_coe _ (zR_pos x').ne']
  rfl

end Norm

section Nce
variable (y : C Ideal S128x4097 .f32) (x' : Fin 128 → Fin 4097 → ℝ)
  (hy : ∀ b k, y (ix2 b k) = ((pR x' b k : ℝ) : EReal))

theorem pos0T_apply (b : Fin 128) : pos0T y (ix1 b) = y (ix2 b 0) := by
  unfold pos0T
  refine (shapeCast_apply _ _ (ix1 b) (ix2 b (0 : Fin 1) : S128x1.Idx) ?_).trans ?_
  · rw [Shape.rowMajor_val_two, Shape.rowMajor_val_one]
    show b.val * 1 + 0 = b.val
    omega
  · exact extractStridedSlice_apply _ _ _ _ (ix2 b 0) fun a => match a with
      | ⟨0, _⟩ => by show b.val = 0 + b.val; omega
      | ⟨1, _⟩ => rfl

theorem negsT_apply (b : Fin 128) (k : Fin 4096) : negsT y (ix2 b k) = y (ix2 b k.succ) := by
  unfold negsT
  exact extractStridedSlice_apply _ _ _ _ (ix2 b k.succ) fun a => match a with
    | ⟨0, _⟩ => by show b.val = 0 + b.val; omega
    | ⟨1, _⟩ => by show (Fin.succ k).val = 1 + k.val; rw [Fin.val_succ]; omega

include hy

theorem logPosT_apply (b : Fin 128) : logPosT y (ix1 b) = ((posTerm x' b : ℝ) : EReal) := by
  show Ideal.log (Ideal.div (pos0T y (ix1 b))
    ((pos0T y (ix1 b) + Ideal.ofBits .f32 0x3D27C5AC#32) + Ideal.ofBits .f32 0x33D6BF95#32)) = _
  rw [pos0T_apply, hy, ofBits_c, ofBits_eps, ← EReal.coe_add, ← EReal.coe_add, div_coe_coe _ (den_pos x' b 0).ne',
    log_coe_pos (posArg_pos x' b)]
  rfl

theorem logNegT_apply (b : Fin 128) (k : Fin 4096) :
    logNegT y (ix2 b k) = ((negTerm x' b k.succ : ℝ) : EReal) := by
  show Ideal.log (Ideal.div (Ideal.ofBits .f32 0x3D27C5AC#32)
    ((negsT y (ix2 b k) + Ideal.ofBits .f32 0x3D27C5AC#32) + Ideal.ofBits .f32 0x33D6BF95#32)) = _
  rw [negsT_apply, hy, ofBits_c, ofBits_eps, ← EReal.coe_add, ← EReal.coe_add, div_coe_coe _ (den_pos x' b k.succ).ne',
    log_coe_pos (negArg_pos x' b k.succ)]
  rfl

theorem nceT_apply (j : S_.Idx) : nceT y j = ((lossR x' : ℝ) : EReal) := by
  show Ideal.div (-(Ideal.hostReduceAdd reducesTo_S128_S_d0 (logPosT y) (Ideal.ofBits .f32 0x00000000#32) j
      + Ideal.hostReduceAdd reducesTo_S128x4096_S_d0_1 (logNegT y) (Ideal.ofBits .f32 0x00000000#32) j))
    (Ideal.ofBits .f32 0x43000000#32) = _
  rw [Ideal.hostReduceAdd_total _ (fun b => b.elim0), Ideal.hostReduceAdd_total _ (fun b => b.elim0), sum_idx1, sum_idx2]
  simp only [logPosT_apply y x' hy, logNegT_apply y x' hy, ← coe_sum]
  rw [ofBits_zero, ofBits_batch, ← EReal.coe_add, ← EReal.coe_add, ← EReal.coe_add, ← EReal.coe_neg,
    div_coe_coe _ (by norm_num : (128 : ℝ) ≠ 0)]
  unfold lossR
  rw [zero_add, zero_add]

end Nce

theorem ref_loss_eq (a0 a1 : C Ideal S128x128 .f32) (a2 : C Ideal S128 .i32) (a3 : C Ideal S128x4097 .i32)
    (a4 a5 : C Ideal S100000x128 .f32) (h0 : IsReal a0) (h1 : IsReal a1) (h4 : IsReal a4) (h5 : IsReal a5)
    (hC : ∀ i, (a3 i).toNat < 100000) :
    lossT (F := Ideal) a0 a1 a2 a3 a4 a5 = G_loss a0 a1 a4 a5 a3 := by
  funext i
  unfold G_loss
  show nceT (normT (simT a5 (idxT (F := Ideal) a3) a0)) _
      + nceT (normT (simT a4 (idxT (F := Ideal) a3) a1)) _ = _
  rw [nceT_apply _ (dotR a0 a5 a3) (normT_apply _ (dotR a0 a5 a3) (simT_apply a5 a0 a3 hC h5 h0)),
    nceT_apply _ (dotR a1 a4 a3) (normT_apply _ (dotR a1 a4 a3) (simT_apply a4 a1 a3 hC h4 h1)), ← EReal.coe_add]

end Cert.Proof.B

end
-- ==== Proof.BankRef.lean ====
import proofs.«204933_g4492535792355_cont_8to1_c_766_42_alg».proof.Proof.RefRunA
import proofs.«204933_g4492535792355_cont_8to1_c_766_42_alg».proof.Proof.BankSpec

noncomputable section

namespace Cert.Proof.G

open Idealize.ShloMosaic Idealize.ShloMosaic.ValueIdx
open Cert.ReferenceIdeal Cert.ReferenceIdeal.Facts₀
open Cert.Proof.A

abbrev posOf (pos : C Ideal S128 .i32) : Fin 128 → BitVec 32 := fun j => pos (ix1 j)

theorem fold_andi_ones {ι : Type} (s : Finset ι) (f : ι → BitVec 1) (hf : ∀ i, f i = 1#1) :
    s.fold IntOp.andi 1#1 f = 1#1 := by
  classical
  induction s using Finset.induction_on with
  | empty => rfl
  | insert a s ha ih => rw [Finset.fold_insert ha, ih, hf]; rfl

theorem eq_col (i : S128x1.Idx) : ∃ p : Fin 128, i = ix2 p (0 : Fin 1) :=
  ⟨i 0, by rw [eq_ix2 i]; congr 1; exact Fin.ext (Nat.lt_one_iff.mp (i 1).isLt)⟩

theorem bcast01_apply {α : Type} (v : S128x1.Idx → α) (p d : Fin 128) :
    broadcastInDim S128x128 ![0, 1] bcast_S128x1_S128x128_0_1 v (ix2 p d) = v (ix2 p (0 : Fin 1)) := by
  unfold broadcastInDim
  congr 1
  funext a
  match a with
  | ⟨0, _⟩ => rfl
  | ⟨1, _⟩ => rfl

theorem bcast0_apply {α : Type} (v : S128.Idx → α) (p : Fin 128) :
    broadcastInDim S128x1 ![0] bcast_S128_S128x1_0 v (ix2 p (0 : Fin 1)) = v (ix1 p) := by
  unfold broadcastInDim
  congr 1
  funext a
  obtain rfl : a = 0 := Subsingleton.elim _ _
  rfl

section
variable (M : C Ideal S100000x128 .f32) (X : C Ideal S128x128 .f32)
variable (pos : C Ideal S128 .i32) (hpos : ∀ j : Fin 128, (pos (ix1 j)).toNat < 100000)
include hpos

-- An in-range position is not negative, so the wrap leaves it as it is.
theorem col0T_apply (p : Fin 128) : col0T (F := Ideal) pos (ix2 p (0 : Fin 1)) = pos (ix1 p) := by
  refine (bcast0_apply (wrap0T (F := Ideal) pos) p).trans ?_
  show Scalar.select (IntOp.cmpi .slt (pos (ix1 p)) 0#32) _ _ = _
  have h0 : IntOp.cmpi .slt (pos (ix1 p)) 0#32 = 0#1 := eq_zero_of_ne_one fun h1 => by
    have := (StableHlo.Predicate.slt_iff_toNat (a := pos (ix1 p)) (b := 0#32) (by have := hpos p; omega) (by decide)).mp h1
    simp at this
  rw [h0, select_zero]

theorem ok0T_apply (j : S128.Idx) : ok0T (F := Ideal) (col0T (F := Ideal) pos) j = 1#1 := by
  unfold ok0T
  rw [Host.reduce_eq_fold_single IntOp.andi _ _ reducesTo_S128x1_S128_d1 (by decide : S128x1.Reduces [1] S128) h_S_]
  refine fold_andi_ones _ _ fun k => ?_
  obtain ⟨p, hp⟩ := eq_col ((by decide : S128x1.Reduces [1] S128).lift j k)
  rw [Function.comp_apply, hp]
  show IntOp.andi (IntOp.cmpi .sge (col0T (F := Ideal) pos (ix2 p (0 : Fin 1))) 0#32)
    (IntOp.cmpi .sle (col0T (F := Ideal) pos (ix2 p (0 : Fin 1))) 99999#32) = 1#1
  rw [col0T_apply pos hpos]
  have hp' := hpos p
  rw [(StableHlo.Predicate.sge_iff_toNat (by omega) (by decide)).mpr (by simp),
    (StableHlo.Predicate.sle_iff_toNat (by omega) (by decide)).mpr (by simp; omega)]
  rfl

theorem take0T_apply (p d : Fin 128) :
    take0T (F := Ideal) M pos (ix2 p d) = M (ix2 (rowIx (pos (ix1 p))) d) := by
  show Scalar.select (ok0T (F := Ideal) (col0T (F := Ideal) pos) _)
    (Host.gather gather_S100000x128_S128x1_S128x128_1_0_n_n_0_1_1128 M (col0T (F := Ideal) pos) (ix2 p d)) _ = _
  rw [ok0T_apply pos hpos, select_one]
  have hd : gather_S100000x128_S128x1_S128x128_1_0_n_n_0_1_1128
      = rowGatherDims 100000 128 128 gather_S100000x128_S128x1_S128x128_1_0_n_n_0_1_1128_wf := rfl
  rw [hd, rowGather_apply (by norm_num)]
  refine congrArg (fun r => M (ix2 r d)) (Fin.ext ?_)
  show min (col0T (F := Ideal) pos (ix2 p (0 : Fin 1))).toInt.toNat (100000 - 1) = min (pos (ix1 p)).toNat 99999
  rw [col0T_apply pos hpos, StableHlo.Predicate.toInt_eq_toNat_of_lt (by have := hpos p; omega)]
  simp

theorem mix_apply (p d : Fin 128) :
    mixT (F := Ideal) (take0T (F := Ideal) M pos) X (ix2 p d) = Lrow M X (posOf pos) p d := by
  show take0T (F := Ideal) M pos (ix2 p d) * half + X (ix2 p d) * half = _
  rw [take0T_apply M pos hpos]
  rfl
end

-- Dividing a row by the root of its sum of squares, read at (p, d); ℓ names the row's entries.
theorem unit_apply (s : C Ideal S128x128 .f32) (p d : Fin 128) (ℓ : Fin 128 → EReal) (hs : ∀ k, s (ix2 p k) = ℓ k) :
    unitT (F := Ideal) s (ix2 p d) = Ideal.div (ℓ d) (Ideal.sqrt (∑ k : Fin 128, ℓ k * ℓ k)) := by
  have hR : S128x128.Reduces [1] S128 := by decide
  show Ideal.div _ (broadcastInDim _ _ bcast_S128x1_S128x128_0_1 _ (ix2 p d)) = _
  rw [bcast01_apply, hs]
  show Ideal.div _ (Ideal.sqrt (broadcastInDim _ _ bcast_S128_S128x1_0 _ (ix2 p (0 : Fin 1)))) = _
  rw [bcast0_apply]
  show Ideal.div _ (Ideal.sqrt (Ideal.hostReduceAdd reducesTo_S128x128_S128_d1 (mulf (F := Ideal) s s) (Ideal.ofBits .f32 0x00000000#32) (ix1 p))) = _
  rw [Ideal.hostReduceAdd_single reducesTo_S128x128_S128_d1 hR, Ideal.ofBits_zero_f32, zero_add]
  congr 2
  refine Finset.sum_congr rfl fun k _ => ?_
  have hl : hR.lift (ix1 p) k = ix2 p k := by
    funext a
    match a with
    | ⟨0, _⟩ => rfl
    | ⟨1, _⟩ => rfl
  exact (congrArg (fun i => s i * s i) hl).trans (congrArg₂ (· * ·) (hs k) (hs k))

theorem ref_bank_eq (M : C Ideal S100000x128 .f32) (X : C Ideal S128x128 .f32) (pos : C Ideal S128 .i32)
    (hpos : ∀ j : Fin 128, (pos (ix1 j)).toNat < 100000) :
    mvT (F := Ideal) M X pos = G_bank M X (posOf pos) := by
  funext i
  unfold mvT
  have hd : scatter_S100000x128_S128x1_S128x128_1_0_0_1
      = rowScatterDims 100000 128 128 scatter_S100000x128_S128x1_S128x128_1_0_0_1_wf := rfl
  rw [hd, rowScatter_set_apply _ (by norm_num) M _ _ (fun p => by rw [col0T_apply pos hpos]; exact hpos _) i]
  have hh : (fun p : Fin 128 => col0T (F := Ideal) pos (ix2 p (0 : Fin 1))) = posOf pos := by
    funext p; rw [col0T_apply pos hpos]
  simp only [hh]
  unfold G_bank
  by_cases h : (hits (posOf pos) (i 0).val).Nonempty
  · rw [dif_pos h, dif_pos h]
    exact unit_apply _ _ _ _ fun k => mix_apply M X pos hpos _ k
  · rw [dif_neg h, dif_neg h]

end Cert.Proof.G

end
-- ==== Proof.KIClaims.lean ====
import proofs.«204933_g4492535792355_cont_8to1_c_766_42_alg».proof.Proof.KIValueArgs
import proofs.«204933_g4492535792355_cont_8to1_c_766_42_alg».proof.Proof.RefRunB
import proofs.«204933_g4492535792355_cont_8to1_c_766_42_alg».proof.Proof.PreFacts
import proofs.«204933_g4492535792355_cont_8to1_c_766_42_alg».proof.Proof.LossRef
import proofs.«204933_g4492535792355_cont_8to1_c_766_42_alg».proof.Proof.BankRef

noncomputable section

namespace Cert.Proof.KC

open Cert.KernelIdeal Cert.KernelIdeal.Gen
open Idealize.ShloMosaic
open Idealize.SL Idealize.SL.RA Idealize.SL.BI Idealize.SL.Sem
open Cert.Proof.KI Cert.Proof.KV

variable {U : Type} [URA U]

theorem mem_uc (b : Ref sig .tc) (h : ¬ (Proc.devRef .tc b : DevRef τ sig).isScoped) :
    Proc.devRef .tc b ∈ Pipeline.ucRefs τ sig :=
  Finset.mem_filter.mpr ⟨StableHlo.devRef_mem_tcRefs b, h⟩

def RunsTo (m : (ℓ : Loc nD τ sig) → Buf (Elt Ideal) ℓ) (ρ : Dev nD → PrngReg)
    (W5 : Dev nD → Valuation τ sig (Elt Ideal)) : Prop :=
  θ_run (Cert.KernelIdeal.defs (F := Ideal)) (Cert.KernelIdeal.threads (F := Ideal)) ⟨m, fun _ => 0, ρ⟩
    (fun r => ∀ c : Dev nD, ∀ b ∈ Pipeline.ucRefs τ sig, r.2.mem (c, b) = W7 (U := U) W5 c b)

-- each argument is read at the final valuation, which agrees with the initial memory on the six arguments
theorem kept (m : (ℓ : Loc nD τ sig) → Buf (Elt Ideal) ℓ) (W1 W5 : Dev nD → Valuation τ sig (Elt Ideal))
    (hW1 : ∀ d, KeepsArgs m d (W1 d)) (hW5 : ∀ d, OnlyV4 (U := U) W1 W5 d) (mem : (ℓ : Loc nD τ sig) → Buf (Elt Ideal) ℓ)
    (h : ∀ c : Dev nD, ∀ b ∈ Pipeline.ucRefs τ sig, mem (c, b) = W7 (U := U) W5 c b) (c : Dev nD) :
    KeepsArgs m c (fun b => mem (c, b)) :=
  have k := args_kept m W1 W5 c (hW5 c) (hW1 c)
  ⟨(h c _ (mem_uc main_arg0 (by decide))).trans k.1, (h c _ (mem_uc main_arg1 (by decide))).trans k.2.1,
    (h c _ (mem_uc main_arg2 (by decide))).trans k.2.2.1, (h c _ (mem_uc main_arg3 (by decide))).trans k.2.2.2.1,
    (h c _ (mem_uc main_arg4 (by decide))).trans k.2.2.2.2.1, (h c _ (mem_uc main_arg5 (by decide))).trans k.2.2.2.2.2⟩

def RunFacts (m : (ℓ : Loc nD τ sig) → Buf (Elt Ideal) ℓ) (ρ : Dev nD → PrngReg) : Prop :=
  ∃ W1 W5 : Dev nD → Valuation τ sig (Elt Ideal),
    RunsTo (U := U) m ρ W5 ∧ (∀ d, KeepsArgs m d (W1 d)) ∧ (∀ d, OnlyV4 (U := U) W1 W5 d)
    ∧ (∀ c : Dev nD, W7 (U := U) W5 c (Proc.devRef .tc main_v6)
        = Cert.Proof.B.G_loss (m ((c.tc : Thread nD τ).loc main_arg0)) (m ((c.tc : Thread nD τ).loc main_arg1)) (m ((c.tc : Thread nD τ).loc main_arg4)) (m ((c.tc : Thread nD τ).loc main_arg5)) (m ((c.tc : Thread nD τ).loc main_arg3)))
    ∧ (∀ c : Dev nD, W7 (U := U) W5 c (Proc.devRef .tc main_v2_1)
        = Cert.Proof.G.G_bank (m ((c.tc : Thread nD τ).loc main_arg4)) (m ((c.tc : Thread nD τ).loc main_arg0)) (Cert.Proof.G.posOf (m ((c.tc : Thread nD τ).loc main_arg2))))
    ∧ (∀ c : Dev nD, W7 (U := U) W5 c (Proc.devRef .tc main_v2_2)
        = Cert.Proof.G.G_bank (m ((c.tc : Thread nD τ).loc main_arg5)) (m ((c.tc : Thread nD τ).loc main_arg1)) (Cert.Proof.G.posOf (m ((c.tc : Thread nD τ).loc main_arg2))))

theorem frame_ki (h : ∀ m ρ, Cert.Pre_KernelIdeal m → RunFacts (U := U) m ρ) : Cert.frame_KernelIdeal := fun m g hpre => by
  obtain ⟨W1, W5, hr, h1, h5, -, -, -⟩ := h m g hpre
  exact (θ_run _ _ _).mono (fun r q c => kept m W1 W5 h1 h5 r.2.mem q c) hr

theorem algebraic (h : ∀ m ρ, Cert.Pre_KernelIdeal m → RunFacts (U := U) m ρ) : Cert.algebraic_KernelIdeal_ReferenceIdeal :=
  fun m g m' g' hpre hagree => by
    obtain ⟨W1, W5, hr, h1, h5, hl, hb1, hb2⟩ := h m g hpre
    refine ⟨_, _, _, (θ_run _ _ _).mono (fun r q c =>
      ⟨(q c _ (mem_uc main_v6 (by decide))).trans (hl c), (q c _ (mem_uc main_v2_1 (by decide))).trans (hb1 c),
        (q c _ (mem_uc main_v2_2 (by decide))).trans (hb2 c), kept m W1 W5 h1 h5 r.2.mem q c⟩) hr,
      (θ_run _ _ _).mono (fun r q c => ?_) (Cert.Proof.A.run (F := Ideal) m' g')⟩
    obtain ⟨e0, e1, e2, e3, e4, e5⟩ := hagree c
    obtain ⟨hl, hb1, hb2, hargs⟩ := q c
    have hp := hpre c
    have hpos : ∀ j : Fin 128, ((m ((c.tc : Thread nD τ).loc main_arg2)) (ValueIdx.ix1 j)).toNat < 100000 := fun j =>
      Cert.Proof.Pre.pos_lt _ _ _ _ _ _ hp (ValueIdx.ix1 j)
    rw [e0, e1, e2, e3, e4, e5] at hl hb1 hb2
    exact ⟨hl.trans (Cert.Proof.B.ref_loss_eq _ _ _ _ _ _ (Cert.Proof.Pre.real_a0 _ _ _ _ _ _ hp) (Cert.Proof.Pre.real_a1 _ _ _ _ _ _ hp)
        (Cert.Proof.Pre.real_a4 _ _ _ _ _ _ hp) (Cert.Proof.Pre.real_a5 _ _ _ _ _ _ hp) (Cert.Proof.Pre.cidx_lt _ _ _ _ _ _ hp)),
      hb1.trans (Cert.Proof.G.ref_bank_eq _ _ _ hpos), hb2.trans (Cert.Proof.G.ref_bank_eq _ _ _ hpos), hargs⟩

end Cert.Proof.KC

end
-- ==== Proof.RegionBArr.lean ====
import proofs.«204933_g4492535792355_cont_8to1_c_766_42_alg».proof.Proof.RegionB
import Idealize.ShloMosaic.Lib.Pipeline.Value

noncomputable section

namespace Cert.Proof.C

open Cert.KernelIdeal Cert.KernelIdeal.Gen
open Idealize.ShloMosaic Idealize.ShloMosaic.TcCoe
open Idealize.SL Idealize.SL.RA
open Idealize.ShloMosaic.Pipeline (Window)

variable {F : FTy → Type} [FloatOps F] [Named F]
variable {Ix : Type} [DecidableEq Ix] {Name : Type} [DecidableEq Name] {U : Type} [URA U] {Lvl : Type}

variable [Preorder Lvl]

theorem index1_7 : ∀ t : Fin grid1.N, win1_7.index t 0 = 0 ∧ win1_7.index t 1 = t.val := by decide +kernel
theorem index1_5 : ∀ t : Fin grid1.N, win1_5.index t 0 = t.val ∧ win1_5.index t 1 = 0 := by decide +kernel

theorem xsize1_5 : ∀ t : Fin grid1.N, win1_5.xsize (grid1.coords t) 0 = min 4096 (100000 - 4096 * t.val) := by decide +kernel
theorem xsize1_7 : ∀ t : Fin grid1.N, win1_7.xsize (grid1.coords t) 0 = 256 := by decide +kernel

def ptB (i : S100000x128.Idx) : Fin cfg1.N := ⟨(i 0).val / 4096, by
  have hN : cfg1.N = 25 := N_1
  have h0 : (i 0).val < 100000 := (i 0).isLt
  rw [hN]; omega⟩

def pt7 (i : S256x100000.Idx) : Fin cfg1.N := ⟨(i 1).val / 4096, by
  have hN : cfg1.N = 25 := N_1
  have h1 : (i 1).val < 100000 := (i 1).isLt
  rw [hN]; omega⟩

theorem ptB_val (i : S100000x128.Idx) : (ptB i).val = (i 0).val / 4096 := rfl
theorem pt7_val (i : S256x100000.Idx) : (pt7 i).val = (i 1).val / 4096 := rfl

def inBlkB (i : S100000x128.Idx) : S4096x128.Idx := fun a => match a with
  | ⟨0, _⟩ => ⟨(i 0).val % 4096, Nat.mod_lt _ (by decide)⟩
  | ⟨1, _⟩ => i 1

def inBlk7 (i : S256x100000.Idx) : S256x4096.Idx := fun a => match a with
  | ⟨0, _⟩ => i 0
  | ⟨1, _⟩ => ⟨(i 1).val % 4096, Nat.mod_lt _ (by decide)⟩

section Arr

variable (V : (c : Dev nD) → (b : Ref sig .tc) → Buf (Elt F) ((c : Thread nD τ).loc b))
variable (O : CellTallies nD τ sig Ix) (B : Set (SemLoc sig × Ix))

local notation "𝔡" => dat1 (F := F) (Ix := Ix) (Name := Name) (U := U) (Lvl := Lvl) V O B

-- Two points whose block indices differ on one axis have disjoint blocks.
theorem hdisj (w : Window sig grid1) (a : Fin w.shape.rank) (h : ∀ t, w.index t a = t.val) (t t' : Fin grid1.N) (hne : t ≠ t') :
    Disjoint (w.blk t).view.set (w.blk t').view.set :=
  w.disjoint_blk fun e => hne (Fin.ext (by have := congrFun e a; rwa [h, h] at this))

-- Element i of a 100000×128 array lies in block i₀ / 4096, at in-block position (i₀ mod 4096, i₁).
theorem embB (i : S100000x128.Idx) :
    ∃ y : (win1_5.xblock (grid1.coords (ptB i))).Idx, (win1_5.rect (ptB i)).emb y = i ∧ win1_5.xinj _ y = inBlkB i := by
  have hm : i ∈ (win1_5.rect (ptB i)).set := by
    refine Rect.mem_set_unit.mpr fun a => ?_
    have h0 : (i 0).val < 100000 := (i 0).isLt
    have h1 : (i 1).val < 128 := (i 1).isLt
    match a with
    | ⟨0, _⟩ =>
      show win1_5.index _ 0 * 4096 ≤ (i 0).val ∧ (i 0).val < win1_5.index _ 0 * 4096 + win1_5.xsize _ 0
      rw [(index1_5 _).1, xsize1_5, ptB_val]; omega
    | ⟨1, _⟩ =>
      show win1_5.index _ 1 * 128 ≤ (i 1).val ∧ (i 1).val < win1_5.index _ 1 * 128 + 128
      rw [(index1_5 _).2]; omega
  obtain ⟨y, hy⟩ : ∃ y, (win1_5.rect (ptB i)).emb y = i := (win1_5.rect (ptB i)).exists_idx_of_mem hm
  have h0 : ((win1_5.rect (ptB i)).emb y 0 : Nat) = (i 0 : Nat) := congrArg (fun j : S100000x128.Idx => (j 0 : Nat)) hy
  have h1 : ((win1_5.rect (ptB i)).emb y 1 : Nat) = (i 1 : Nat) := congrArg (fun j : S100000x128.Idx => (j 1 : Nat)) hy
  rw [Pipeline.Window.rect_emb_val, (index1_5 _).1, ptB_val, show win1_5.size 0 = 4096 from rfl] at h0
  rw [Pipeline.Window.rect_emb_val, (index1_5 _).2] at h1
  exact ⟨y, hy, Shape.idx_ext₂ (by show (y 0 : Nat) = (i 0).val % 4096; omega) (by show (y 1 : Nat) = (i 1).val; omega)⟩

theorem arrAt8_apply (c : Dev nD) (i : S100000x128.Idx) :
    (𝔡 c).arrAt 8 cfg1.N i
      = out1_8 (grid1.coords (ptB i)) (iblk1 V c 0 (ptB i)) (iblk1 V c 2 (ptB i))
          (iblk1 V c 3 (ptB i)) (blk5 V c (ptB i)) (inBlkB i) := by
  obtain ⟨y, hy, hx⟩ := embB i
  exact ((congrArg ((𝔡 c).arrAt 8 cfg1.N) hy).symm.trans
    ((𝔡 c).arrAt_emb_eq_flushed 8 (fun t t' _ _ => hdisj win1_8 0 (fun t => (index1_5 t).1) t t') (ptB i) (flush1_8 _) y)).trans
    (congrArg ((𝔡 c).after 8 (ptB i)) hx)

theorem arrAt9_apply (c : Dev nD) (i : S100000x128.Idx) :
    (𝔡 c).arrAt 9 cfg1.N i
      = out1_9 (grid1.coords (ptB i)) (iblk1 V c 1 (ptB i)) (iblk1 V c 2 (ptB i))
          (iblk1 V c 4 (ptB i)) (blk6 V c (ptB i)) (inBlkB i) := by
  obtain ⟨y, hy, hx⟩ := embB i
  exact ((congrArg ((𝔡 c).arrAt 9 cfg1.N) hy).symm.trans
    ((𝔡 c).arrAt_emb_eq_flushed 9 (fun t t' _ _ => hdisj win1_9 0 (fun t => (index1_5 t).1) t t') (ptB i) (flush1_9 _) y)).trans
    (congrArg ((𝔡 c).after 9 (ptB i)) hx)

-- Element i of the 256×100000 array lies in block i₁ / 4096, at in-block position (i₀, i₁ mod 4096).
theorem emb7 (i : S256x100000.Idx) :
    ∃ y : (win1_7.xblock (grid1.coords (pt7 i))).Idx, (win1_7.blk (pt7 i)).view.emb y = i ∧ win1_7.xinj _ y = inBlk7 i := by
  have hm : i ∈ (win1_7.rect (pt7 i)).set := by
    refine Rect.mem_set_unit.mpr fun a => ?_
    have h0 : (i 0).val < 256 := (i 0).isLt
    have h1 : (i 1).val < 100000 := (i 1).isLt
    match a with
    | ⟨0, _⟩ =>
      show win1_7.index _ 0 * 256 ≤ (i 0).val ∧ (i 0).val < win1_7.index _ 0 * 256 + win1_7.xsize _ 0
      rw [(index1_7 _).1, xsize1_7]; omega
    | ⟨1, _⟩ =>
      show win1_7.index _ 1 * 4096 ≤ (i 1).val ∧ (i 1).val < win1_7.index _ 1 * 4096 + win1_7.xsize _ 1
      rw [(index1_7 _).2, xsize7_1, xsize1_5, pt7_val]; omega
  obtain ⟨y, hy⟩ : ∃ y, (win1_7.rect (pt7 i)).emb y = i := (win1_7.rect (pt7 i)).exists_idx_of_mem hm
  have h0 : ((win1_7.rect (pt7 i)).emb y 0 : Nat) = (i 0 : Nat) := congrArg (fun j : S256x100000.Idx => (j 0 : Nat)) hy
  have h1 : ((win1_7.rect (pt7 i)).emb y 1 : Nat) = (i 1 : Nat) := congrArg (fun j : S256x100000.Idx => (j 1 : Nat)) hy
  rw [Pipeline.Window.rect_emb_val, (index1_7 _).1] at h0
  rw [Pipeline.Window.rect_emb_val, (index1_7 _).2, pt7_val, show win1_7.size 1 = 4096 from rfl] at h1
  exact ⟨y, hy, Shape.idx_ext₂ (by show (y 0 : Nat) = (i 0).val; omega) (by show (y 1 : Nat) = (i 1).val % 4096; omega)⟩

theorem arrAt7_apply (c : Dev nD) (i : S256x100000.Idx) :
    (𝔡 c).arrAt 7 cfg1.N i
      = out1_7 (iblk1 V c 0 (pt7 i)) (iblk1 V c 1 (pt7 i)) (blk5 V c (pt7 i)) (blk6 V c (pt7 i)) (inBlk7 i) := by
  obtain ⟨y, hy, hx⟩ := emb7 i
  have hfl := (𝔡 c).arrAt_emb_eq_flushed 7 (fun t t' _ _ => hdisj win1_7 1 (fun t => (index1_7 t).2) t t') (pt7 i) (flush1_7 _) y
  rw [hy] at hfl
  refine hfl.trans ?_
  show (𝔡 c).after 7 _ (win1_7.xinj _ y) = _
  rw [after1_7]
  exact congrArg _ hx

theorem index1_small : ∀ t : Fin grid1.N, (win1_0.index t 0 = 0 ∧ win1_0.index t 1 = 0) ∧ (win1_2.index t 0 = 0 ∧ win1_2.index t 1 = 0) := by
  decide +kernel

-- A block that is the whole array, at block index zero, keeps every coordinate.
theorem emb128 (t : Fin cfg1.N) (x : S128x128.Idx) : (win1_0.rect t).emb x = x :=
  Shape.idx_ext₂ (win1_0.rect_emb_val_of_index_zero t 0 (index1_small t).1.1 x) (win1_0.rect_emb_val_of_index_zero t 1 (index1_small t).1.2 x)

theorem iblk1_0_apply (c : Dev nD) (t : Fin cfg1.N) (x : S128x128.Idx) : iblk1 V c 0 t x = V c main_arg0 x :=
  congrArg (V c main_arg0) (emb128 t x)
theorem iblk1_1_apply (c : Dev nD) (t : Fin cfg1.N) (x : S128x128.Idx) : iblk1 V c 1 t x = V c main_arg1 x :=
  congrArg (V c main_arg1) (emb128 t x)
theorem iblk1_2_apply (c : Dev nD) (t : Fin cfg1.N) (x : S128x1.Idx) : iblk1 V c 2 t x = V c main_v1 x :=
  congrArg (V c main_v1) (Shape.idx_ext₂ (win1_2.rect_emb_val_of_index_zero t 0 (index1_small t).2.1 x)
    (win1_2.rect_emb_val_of_index_zero t 1 (index1_small t).2.2 x))
theorem iblk1_3_apply (c : Dev nD) (t : Fin cfg1.N) (x : S128x128.Idx) : iblk1 V c 3 t x = V c main_v0_0 x :=
  congrArg (V c main_v0_0) (emb128 t x)
theorem iblk1_4_apply (c : Dev nD) (t : Fin cfg1.N) (x : S128x128.Idx) : iblk1 V c 4 t x = V c main_v0_1 x :=
  congrArg (V c main_v0_1) (emb128 t x)

def arrIdxB (t : Fin cfg1.N) (z : S4096x128.Idx) (h : 4096 * t.val + (z 0).val < 100000) : S100000x128.Idx := fun a => match a with
  | ⟨0, _⟩ => ⟨4096 * t.val + (z 0).val, h⟩
  | ⟨1, _⟩ => z 1

-- Row z₀ of block t is row 4096 · t + z₀ of the array.
theorem embIdxB (t : Fin cfg1.N) (z : S4096x128.Idx) (h : 4096 * t.val + (z 0).val < 100000)
    (y : (win1_5.xblock (grid1.coords t)).Idx) (hy : ∀ a, (y a : Nat) = z a) : (win1_5.rect t).emb y = arrIdxB t z h :=
  Shape.idx_ext₂
    (by rw [Pipeline.Window.rect_emb_val, (index1_5 t).1, hy]; show t.val * 4096 + (z 0).val = 4096 * t.val + (z 0).val; omega)
    (by rw [Pipeline.Window.rect_emb_val, (index1_5 t).2, hy]; show 0 * 128 + (z 1).val = (z 1).val; omega)

theorem blk5_apply (c : Dev nD) (t : Fin cfg1.N) (z : S4096x128.Idx) (h : 4096 * t.val + (z 0).val < 100000) :
    blk5 V c t z = V c main_arg4 (arrIdxB t z h) := by
  have hm := moved5 (grid1.coords t) z (by rw [xsize1_5]; have : (z 0).val < 4096 := (z 0).isLt; omega)
  unfold blk5 Pipeline.Window.fill
  rw [dif_pos hm]
  show V c main_arg4 ((win1_5.rect t).emb _) = _
  exact congrArg _ (embIdxB t z h _ fun _ => rfl)

theorem blk6_apply (c : Dev nD) (t : Fin cfg1.N) (z : S4096x128.Idx) (h : 4096 * t.val + (z 0).val < 100000) :
    blk6 V c t z = V c main_arg5 (arrIdxB t z h) := by
  have hm := moved6 (grid1.coords t) z (by rw [xsize1_5]; have : (z 0).val < 4096 := (z 0).isLt; omega)
  unfold blk6 Pipeline.Window.fill
  rw [dif_pos hm]
  show V c main_arg5 ((win1_5.rect t).emb _) = _
  exact congrArg _ (embIdxB t z h _ fun _ => rfl)

end Arr

theorem coords1_val : ∀ t : Fin grid1.N, (grid1.coords t 0).val = t.val := by decide +kernel

end Cert.Proof.C

end
-- ==== Proof.BankKern.lean ====
import proofs.«204933_g4492535792355_cont_8to1_c_766_42_alg».proof.Proof.Gen.KernelIdeal.Skeleton
import proofs.«204933_g4492535792355_cont_8to1_c_766_42_alg».proof.Proof.BankSpec
import Idealize.ShloMosaic.Lib.Pipeline.Value
import Idealize.ShloMosaic.Lib.WordSum
import Idealize.ShloMosaic.Lib.ValueLayout

noncomputable section

namespace Cert.Proof.G

open Idealize.ShloMosaic Idealize.ShloMosaic.ValueIdx
open Cert.KernelIdeal Cert.KernelIdeal.Gen

section Layout
variable {α : Type}

theorem bTo_col {n m : Nat} (hn : n ≠ 1) (x : (⟨2, ![n, 1]⟩ : Shape).Idx → α)
    (h : (⟨2, ![n, 1]⟩ : Shape).Broadcasts ⟨2, ![n, m]⟩) (p : Fin n) (q : Fin m) :
    broadcastTo ⟨2, ![n, m]⟩ x h (ix2 p q) = x (ix2 p (0 : Fin 1)) := by
  unfold broadcastTo
  congr 1
  funext a
  match a with
  | ⟨0, _⟩ =>
    split
    · next h1 => exact absurd h1 hn
    · rfl
  | ⟨1, _⟩ => rfl

theorem sc_col_row {n : Nat} (x : (⟨2, ![n, 1]⟩ : Shape).Idx → α)
    (h : (⟨2, ![n, 1]⟩ : Shape).ShapeCasts ⟨2, ![1, n]⟩) (q : Fin n) :
    shapeCast ⟨2, ![1, n]⟩ x h (ix2 (0 : Fin 1) q) = x (ix2 q (0 : Fin 1)) :=
  shapeCast_apply x h _ _ (by
    rw [Shape.rowMajor_val_two, Shape.rowMajor_val_two]
    show q.val * 1 + 0 = 0 * n + q.val
    omega)

theorem sc_vec_col {n : Nat} (x : (⟨1, ![n]⟩ : Shape).Idx → α)
    (h : (⟨1, ![n]⟩ : Shape).ShapeCasts ⟨2, ![n, 1]⟩) (p : Fin n) :
    shapeCast ⟨2, ![n, 1]⟩ x h (ix2 p (0 : Fin 1)) = x (ix1 p) :=
  shapeCast_apply x h _ _ (by
    rw [Shape.rowMajor_val_one, Shape.rowMajor_val_two]
    show p.val = p.val * 1 + 0
    omega)

end Layout

-- Inserting coordinate j on the second axis of the rank-1 index k gives (k, j).
theorem lift_ix2 {n m : Nat} (h : (⟨2, ![n, m]⟩ : Shape).Reduces [1] ⟨1, ![n]⟩) (k : Fin n) (j : Fin m) :
    h.lift (ix1 k) j = ix2 k j := by
  funext a
  match a with
  | ⟨0, _⟩ => rfl
  | ⟨1, _⟩ => rfl

theorem andi_one_iff (a b : BitVec 1) : IntOp.andi a b = 1#1 ↔ a = 1#1 ∧ b = 1#1 := by
  rcases BitVec.eq_zero_or_eq_one a with rfl | rfl <;> rcases BitVec.eq_zero_or_eq_one b with rfl | rfl <;> decide

theorem sel_bit_toNat (b : BitVec 1) : (Scalar.select b (1#32) (0#32)).toNat = if b = 1#1 then 1 else 0 := by
  rcases BitVec.eq_zero_or_eq_one b with rfl | rfl <;> rfl

theorem sgt_ofNat_iff (a b : Nat) (ha : a < 2 ^ 31) (hb : b < 2 ^ 31) :
    IntOp.cmpi .sgt (BitVec.ofNat 32 a) (BitVec.ofNat 32 b) = 1#1 ↔ b < a := by
  unfold IntOp.cmpi; exact StableHlo.Predicate.slt_ofNat_iff b a hb ha

def lastOf (pos : Fin 128 → BitVec 32) (k : Fin 128) : Prop := ∀ j : Fin 128, k < j → pos j ≠ pos k

-- A row of 0/1 words sums to zero exactly when no word is 1; the sum stays below 2^32.
theorem count_zero_iff (W : IVec S128x128 32) (h : S128x128.Reduces [1] S128) (hacc : (0#32 : BitVec 32) = IKind.add.neutral)
    (hsc : S128.ShapeCasts S128x1) (k : Fin 128) (b : Fin 128 → Prop) [DecidablePred b]
    (hW : ∀ j : Fin 128, (W (ix2 k j)).toNat = if b j then 1 else 0) :
    cmpi .eq (shapeCast S128x1 (multiReductionI .add [1] S128 W 0#32 h hacc) hsc) (broadcast S128x1 0#32) (ix2 k (0 : Fin 1)) = 1#1
      ↔ ∀ j : Fin 128, ¬b j := by
  show IntOp.cmpi .eq (shapeCast S128x1 _ hsc (ix2 k (0 : Fin 1))) 0#32 = 1#1 ↔ _
  rw [StableHlo.Predicate.cmpi_eq_iff, sc_vec_col]
  have hsum : ∑ i ∈ Finset.univ.filter (fun i => h.drop i = ix1 k), (W i).toNat = ∑ j : Fin 128, if b j then 1 else 0 := by
    rw [h.sum_filter_drop_single (fun i => (W i).toNat) (ix1 k)]
    exact Finset.sum_congr rfl fun j _ => (congrArg (fun i => (W i).toNat) (lift_ix2 h k j)).trans (hW j)
  have hle : ∑ j : Fin 128, (if b j then 1 else 0) ≤ 128 :=
    (Finset.sum_le_sum (g := fun _ => 1) fun j _ => by split <;> omega).trans (by simp)
  have htn := WordSum.toNat_multiReductionI_add W h hacc (ix1 k) (by rw [hsum]; omega)
  rw [hsum] at htn
  constructor
  · intro h0 j hb
    have h1 := Finset.sum_eq_zero_iff.mp (htn.symm.trans (congrArg BitVec.toNat h0)) j (Finset.mem_univ _)
    rw [if_pos hb] at h1
    exact absurd h1 (by decide)
  · intro h0
    apply BitVec.eq_of_toNat_eq
    rw [htn]
    exact Finset.sum_eq_zero fun j _ => if_neg (h0 j)

theorem keep_iff (P : Vec Ideal S128x1 .i32) (k : Fin 128) :
    k1_pay11 (F := Ideal) P (ix2 k (0 : Fin 1)) = 1#1 ↔ lastOf (fun j => P (ix2 j (0 : Fin 1))) k := by
  unfold k1_pay11 k1_pay10 k1_pay9
  simp only []
  refine (count_zero_iff _ _ _ _ k (fun j => P (ix2 k (0 : Fin 1)) = P (ix2 j (0 : Fin 1)) ∧ k.val < j.val) fun j => ?_).trans
    (forall_congr' fun j => ⟨fun h hkj heq => h ⟨heq.symm, Fin.lt_def.mp hkj⟩, fun h hc => h (Fin.lt_def.mpr hc.2) hc.1.symm⟩)
  show (Scalar.select (IntOp.andi (IntOp.cmpi .eq (broadcastTo _ _ _ (ix2 k j)) (broadcastTo _ _ _ (ix2 k j)))
    (IntOp.cmpi .sgt (iota _ _ _ _ _ (ix2 k j)) (iota _ _ _ _ _ (ix2 k j)))) 1#32 0#32).toNat = _
  rw [bTo_col (by decide), broadcastTo_1b_ab_apply, sc_col_row, shapeCast_self, iota_single_apply, iota_single_apply,
    sel_bit_toNat]
  refine if_congr ?_ rfl rfl
  show IntOp.andi (IntOp.cmpi .eq _ _) (IntOp.cmpi .sgt (BitVec.ofNat 32 j.val) (BitVec.ofNat 32 k.val)) = 1#1 ↔ _
  rw [andi_one_iff, StableHlo.Predicate.cmpi_eq_iff, sgt_ofNat_iff _ _ (by omega) (by omega)]

theorem gid_eq (i n : Nat) (hi : i < 25) (hn : n < 4096) :
    IntOp.addi (Scalar.muli (BitVec.ofNat 32 i) 4096#32) (BitVec.ofNat 32 n) = BitVec.ofNat 32 (4096 * i + n) := by
  apply BitVec.eq_of_toNat_eq
  show ((BitVec.ofNat 32 i * 4096#32) + BitVec.ofNat 32 n).toNat = (BitVec.ofNat 32 (4096 * i + n)).toNat
  simp only [BitVec.toNat_add, BitVec.toNat_mul, BitVec.toNat_ofNat]
  omega

theorem word_eq_iff (w : BitVec 32) (r : Nat) (hr : r < 2 ^ 32) : w = BitVec.ofNat 32 r ↔ w.toNat = r := by
  rw [← BitVec.toNat_inj, BitVec.toNat_ofNat, Nat.mod_eq_of_lt hr]

theorem pay12_iff (a0 : BitVec 32) (P : Vec Ideal S128x1 .i32) (k : Fin 128) (n : Fin 4096) :
    k1_pay12 (F := Ideal) a0 P (ix2 k n) = 1#1
      ↔ P (ix2 k (0 : Fin 1)) = IntOp.addi (Scalar.muli a0 4096#32) (BitVec.ofNat 32 n.val)
        ∧ k1_pay11 (F := Ideal) P (ix2 k (0 : Fin 1)) = 1#1 := by
  unfold k1_pay12 k1_pay9
  simp only []
  show IntOp.andi (IntOp.cmpi .eq (broadcastTo _ _ _ (ix2 k n)) (broadcastTo _ _ _ (ix2 k n)))
    (broadcastTo _ _ _ (ix2 k n)) = 1#1 ↔ _
  rw [andi_one_iff, StableHlo.Predicate.cmpi_eq_iff, bTo_col (by decide), broadcastTo_1b_ab_apply, bTo_col (by decide),
    shapeCast_self]
  show P (ix2 k (0 : Fin 1)) = IntOp.addi _ (iota _ _ _ _ _ (ix2 (0 : Fin 1) n)) ∧ _ ↔ _
  rw [iota_single_apply]
  exact Iff.rfl

-- Dividing a row by the root of its sum of squares, read at (k, d); ℓ names the row's entries.
theorem kunit_apply (L : FVec Ideal S128x128 .f32) (h : S128x128.Reduces [1] S128) (hφ : FKind.Formats .f32)
    (hacc : (0x00000000#32 : BitVec 32) = FKind.add.neutral .f32 hφ) (hsc : S128.ShapeCasts S128x1)
    (hb : S128x1.Broadcasts S128x128) (k d : Fin 128) (ℓ : Fin 128 → EReal) (hL : ∀ c, L (ix2 k c) = ℓ c) :
    divf L (broadcastTo S128x128 (sqrt (shapeCast S128x1 (multiReduction .add [1] S128 (mulf L L) 0x00000000#32 h hφ hacc) hsc)) hb)
        (ix2 k d)
      = Ideal.div (ℓ d) (Ideal.sqrt (∑ c : Fin 128, ℓ c * ℓ c)) := by
  rw [divf_apply, bTo_col (by decide), hL]
  show Ideal.div _ (Ideal.sqrt (shapeCast S128x1 _ hsc (ix2 k (0 : Fin 1)))) = _
  rw [sc_vec_col, Ideal.multiReduction_add_single]
  congr 2
  exact Finset.sum_congr rfl fun c _ => (congrArg (fun i => L i * L i) (lift_ix2 h k c)).trans (congrArg₂ (· * ·) (hL c) (hL c))

theorem pay5_apply (M : SM.Idx → EReal) (X G : Vec Ideal S128x128 .f32) (pos : Fin 128 → BitVec 32)
    (hG : ∀ j d : Fin 128, G (ix2 j d) = M (ix2 (rowIx (pos j)) d)) (k d : Fin 128) :
    k1_pay5 (F := Ideal) X G (ix2 k d) = Urow M X pos k d := by
  unfold k1_pay5
  exact kunit_apply _ _ _ _ _ _ k d (Lrow M X pos k) fun c => by
    show shapeCast S128x128 G _ (ix2 k c) * half + X (ix2 k c) * half = _
    rw [shapeCast_self, hG]
    rfl

theorem ofBits_neg_inf : Ideal.ofBits .f32 0xFF800000#32 = ⊥ := by
  simp [Ideal.ofBits, Ideal.ieee]

theorem ofBits_one : Ideal.ofBits .f32 0x3F800000#32 = 1 := IdealRules.sign_bit.ideal_onePat .f32

-- A row of 0/1 values has a positive maximum exactly when some entry is 1.
theorem any_row_iff (V : FVec Ideal S4096x128 .f32) (h : S4096x128.Reduces [1] S4096) (hφ : FKind.Formats .f32)
    (hacc : (0xFF800000#32 : BitVec 32) = FKind.maximumf.neutral .f32 hφ) (hsc : S4096.ShapeCasts S4096x1)
    (z : Ideal .f32) (hz : z = (0 : EReal))
    (n : Fin 4096) (b : Fin 128 → Prop) [DecidablePred b]
    (hV : ∀ k : Fin 128, V (ix2 n k) = if b k then 1 else 0) :
    shapeCast S4096x1 (cmpf .ogt (multiReduction .maximumf [1] S4096 V 0xFF800000#32 h hφ hacc)
        (broadcast S4096 z)) hsc (ix2 n (0 : Fin 1)) = 1#1
      ↔ ∃ k : Fin 128, b k := by
  rw [sc_vec_col, cmpf_apply, Ideal.cmpf_def, broadcast_apply, hz, Ideal.multiReduction_maximumf_single]
  unfold Ideal.cmp
  rw [StableHlo.Predicate.ofBool_eq_one_iff]
  simp only [decide_eq_true_eq]
  rw [Finset.lt_fold_max]
  have hk : ∀ k : Fin 128, (0 : EReal) < (V ∘ h.lift (ix1 n)) k ↔ b k := fun k => by
    show (0 : EReal) < V (h.lift (ix1 n) k) ↔ b k
    rw [congrArg V (lift_ix2 h n k), hV]
    by_cases hb : b k
    · rw [if_pos hb]; exact iff_of_true zero_lt_one hb
    · rw [if_neg hb]; exact iff_of_false (lt_irrefl _) hb
  constructor
  · rintro (h0 | ⟨k, _, hk'⟩)
    · rw [show FloatOps.ofBits (F := Ideal) .f32 0xFF800000#32 = ⊥ from ofBits_neg_inf] at h0
      exact absurd h0 (by simp)
    · exact ⟨k, (hk k).mp hk'⟩
  · rintro ⟨k, hk'⟩
    exact Or.inr ⟨k, Finset.mem_univ _, (hk k).mpr hk'⟩

theorem scat_apply (A : FVec Ideal S128x4096 .f32) (U : FVec Ideal S128x128 .f32) (n : Fin 4096) (d : Fin 128) :
    matmul dot_S128x4096_S128x128_S4096x128_0_0_1_1_n_n none A U (constant S4096x128 .f32 0x00000000#32) (ix2 n d)
      = ∑ k : Fin 128, A (ix2 k n) * U (ix2 k d) := by
  simp only [matmul]
  rw [Ideal.matmul_constant_zero_apply]
  refine (Equiv.sum_comp (contrEquiv1 dot_S128x4096_S128x128_S4096x128_0_0_1_1_n_n 128 rfl rfl).symm _).symm.trans ?_
  refine Finset.sum_congr rfl fun c _ => ?_
  congr 2 <;> (funext a; match a with | ⟨0, _⟩ => rfl | ⟨1, _⟩ => rfl)

theorem pay2_iff (a0 : BitVec 32) (v56 : IVec S1x128 32) (v70 : IVec S128x1 1) (n : Fin 4096) :
    k1_pay2 (F := Ideal) a0 v56 v70 (ix2 n (0 : Fin 1)) = 1#1
      ↔ ∃ k : Fin 128, IntOp.addi (Scalar.muli a0 4096#32) (BitVec.ofNat 32 n.val) = v56 (ix2 (0 : Fin 1) k)
          ∧ v70 (ix2 k (0 : Fin 1)) = 1#1 := by
  unfold k1_pay2
  simp only []
  refine any_row_iff _ _ _ _ _ _ Ideal.ofBits_zero_f32 n _ fun k => ?_
  show Scalar.select (IntOp.andi (IntOp.cmpi .eq (broadcastTo _ _ _ (ix2 n k)) (broadcastTo _ _ _ (ix2 n k)))
      (broadcastTo _ _ _ (ix2 n k))) (Ideal.ofBits .f32 0x3F800000#32) (Ideal.ofBits .f32 0x00000000#32) = _
  rw [bTo_col (by decide), broadcastTo_1b_ab_apply, broadcastTo_1b_ab_apply, sc_col_row, ofBits_one, Ideal.ofBits_zero_f32]
  show (if IntOp.andi (IntOp.cmpi .eq (IntOp.addi _ (iota _ _ _ _ _ (ix2 n (0 : Fin 1)))) _) _ = 1#1 then (1 : EReal) else 0) = _
  rw [iota_single_apply]
  refine if_congr ?_ rfl rfl
  rw [andi_one_iff, StableHlo.Predicate.cmpi_eq_iff]
  exact Iff.rfl

theorem mark_iff (pos : Fin 128 → BitVec 32) (r : Nat) (h : (hits pos r).Nonempty) (k : Fin 128) :
    ((pos k).toNat = r ∧ lastOf pos k) ↔ k = (hits pos r).max' h :=
  (and_congr_right fun hk => forall_congr' fun j => imp_congr_right fun _ => not_congr
    ⟨fun e => (congrArg BitVec.toNat e).trans hk, fun e => BitVec.eq_of_toNat_eq (e.trans hk.symm)⟩).trans (hits_last_iff pos r h k)

theorem pay10_apply (P : Vec Ideal S128x1 .i32) (k : Fin 128) :
    k1_pay10 (F := Ideal) P (ix2 (0 : Fin 1) k) = P (ix2 k (0 : Fin 1)) := by
  unfold k1_pay10 k1_pay9
  simp only []
  rw [sc_col_row, shapeCast_self]

theorem pay1_apply (v79 : IVec S128x4096 1) (c1 c0 : Ideal .f32) (k : Fin 128) (n : Fin 4096) :
    k1_pay1 (F := Ideal) v79 c1 c0 (ix2 k n) = if v79 (ix2 k n) = 1#1 then c1 else c0 := rfl

-- Row r = 4096 i + n of the bank: the block product picks the last position that names r, else the old row stays.
theorem pay3_core (i : Fin 25) (n : Fin 4096) (r : Fin 100000) (hr : 4096 * i.val + n.val = r.val)
    (M : SM.Idx → EReal) (X : SX.Idx → EReal) (U : FVec Ideal S128x128 .f32)
    (P : Vec Ideal S128x1 .i32) (B : Vec Ideal S4096x128 .f32)
    (hU : ∀ k d : Fin 128, U (ix2 k d) = Urow M X (fun j => P (ix2 j (0 : Fin 1))) k d)
    (d : Fin 128) (hB : B (ix2 n d) = M (ix2 r d)) :
    k1_pay3 (F := Ideal) (BitVec.ofNat 32 i.val) U (k1_pay10 P) (k1_pay11 P) (k1_pay12 (BitVec.ofNat 32 i.val) P)
        (Scalar.ofBits .f32 0x3F800000#32) (Scalar.ofBits .f32 0x00000000#32) B (ix2 n d)
      = G_bank M X (fun j => P (ix2 j (0 : Fin 1))) (ix2 r d) := by
  have hgid := gid_eq i.val n.val i.isLt n.isLt
  rw [hr] at hgid
  have hlt := r.isLt
  have hmark : ∀ k : Fin 128, k1_pay12 (F := Ideal) (BitVec.ofNat 32 i.val) P (ix2 k n) = 1#1
      ↔ ((P (ix2 k (0 : Fin 1))).toNat = r.val ∧ lastOf (fun j => P (ix2 j (0 : Fin 1))) k) := fun k => by
    rw [pay12_iff, hgid, word_eq_iff _ _ (by omega), keep_iff]
  have hcov : k1_pay2 (F := Ideal) (BitVec.ofNat 32 i.val) (k1_pay10 P) (k1_pay11 P) (ix2 n (0 : Fin 1)) = 1#1
      ↔ ∃ k : Fin 128, (P (ix2 k (0 : Fin 1))).toNat = r.val ∧ lastOf (fun j => P (ix2 j (0 : Fin 1))) k := by
    rw [pay2_iff]
    refine exists_congr fun k => ?_
    rw [pay10_apply, hgid, eq_comm, word_eq_iff _ _ (by omega), keep_iff]
  unfold k1_pay3
  rw [select_apply, bTo_col (by decide), shapeCast_self, scat_apply]
  by_cases h : (hits (fun j => P (ix2 j (0 : Fin 1))) r.val).Nonempty
  · rw [hcov.mpr ⟨_, (mark_iff _ _ h _).mpr rfl⟩, select_one]
    refine (sum_indicator_mul ((hits (fun j => P (ix2 j (0 : Fin 1))) r.val).max' h) _ _ ?_ ?_).trans ?_
    · show k1_pay1 (F := Ideal) _ _ _ (ix2 _ n) = 1
      rw [pay1_apply, if_pos ((hmark _).mpr ((mark_iff _ _ h _).mpr rfl))]
      exact ofBits_one
    · intro k hk
      show k1_pay1 (F := Ideal) _ _ _ (ix2 k n) = 0
      rw [pay1_apply, if_neg fun hm => hk ((mark_iff _ _ h k).mp ((hmark k).mp hm))]
      exact Ideal.ofBits_zero_f32
    · exact (hU _ _).trans (G_bank_hit M X _ (ix2 r d) h).symm
  · rw [eq_zero_of_ne_one fun h1 => (hcov.mp h1).elim fun k hk => hits_empty _ _ h k hk.1, select_zero, hB]
    exact (G_bank_miss M X _ (ix2 r d) h).symm

theorem kern_row_eq (M : SM.Idx → EReal) (X G : Vec Ideal S128x128 .f32) (P : Vec Ideal S128x1 .i32)
    (B : Vec Ideal S4096x128 .f32)
    (hG : ∀ j d : Fin 128, G (ix2 j d) = M (ix2 (rowIx (P (ix2 j (0 : Fin 1)))) d))
    (r : Fin 100000) (d : Fin 128)
    (hB : B (ix2 (⟨r.val % 4096, Nat.mod_lt _ (by decide)⟩ : Fin 4096) d) = M (ix2 r d)) :
    k1_pay3 (F := Ideal) (BitVec.ofNat 32 (r.val / 4096)) (k1_pay5 X G) (k1_pay10 P) (k1_pay11 P)
        (k1_pay12 (BitVec.ofNat 32 (r.val / 4096)) P) (Scalar.ofBits .f32 0x3F800000#32) (Scalar.ofBits .f32 0x00000000#32) B
        (ix2 (⟨r.val % 4096, Nat.mod_lt _ (by decide)⟩ : Fin 4096) d)
      = G_bank M X (fun j => P (ix2 j (0 : Fin 1))) (ix2 r d) :=
  pay3_core ⟨r.val / 4096, by have := r.isLt; omega⟩ ⟨r.val % 4096, Nat.mod_lt _ (by decide)⟩ r (Nat.div_add_mod _ _) M X _ P B
    (fun k d => pay5_apply M X G _ hG k d) d hB

theorem kern_row_eq' (M : SM.Idx → EReal) (X G : Vec Ideal S128x128 .f32) (P : Vec Ideal S128x1 .i32)
    (B : Vec Ideal S4096x128 .f32)
    (hG : ∀ j d : Fin 128, G (ix2 j d) = M (ix2 (rowIx (P (ix2 j (0 : Fin 1)))) d))
    (r : Fin 100000) (d : Fin 128)
    (hB : B (ix2 (⟨r.val % 4096, Nat.mod_lt _ (by decide)⟩ : Fin 4096) d) = M (ix2 r d)) :
    k1_pay4 (F := Ideal) (BitVec.ofNat 32 (r.val / 4096)) (k1_pay6 X G) (k1_pay10 P) (k1_pay11 P)
        (k1_pay12 (BitVec.ofNat 32 (r.val / 4096)) P) (Scalar.ofBits .f32 0x3F800000#32) (Scalar.ofBits .f32 0x00000000#32) B
        (ix2 (⟨r.val % 4096, Nat.mod_lt _ (by decide)⟩ : Fin 4096) d)
      = G_bank M X (fun j => P (ix2 j (0 : Fin 1))) (ix2 r d) :=
  kern_row_eq M X G P B hG r d hB

end Cert.Proof.G

end
-- ==== Proof.LossKern.lean ====
import proofs.«204933_g4492535792355_cont_8to1_c_766_42_alg».proof.Proof.Gen.KernelIdeal.Skeleton
import proofs.«204933_g4492535792355_cont_8to1_c_766_42_alg».proof.Proof.LossSpec

noncomputable section

open scoped BigOperators
open Idealize.ShloMosaic Idealize.ShloMosaic.ValueIdx
open Cert.KernelIdeal Cert.KernelIdeal.Gen

namespace Cert.Proof.B

theorem named_invT : Named.named (F := Ideal) κ "inv_temperature" (φ := .f32) 0x41649249#32 = ((invT : ℝ) : EReal) :=
  IdealRules.named_const.ideal_named_scalar _ _ _ _ rfl

theorem named_nbk : Named.named (F := Ideal) κ "n_over_bk" (φ := .f32) 0x3E4343CC#32 = ((nbk : ℝ) : EReal) :=
  IdealRules.named_const.ideal_named_scalar _ _ _ _ rfl

theorem valid_apply (row : Fin 256) (k : Fin 4112) : k3_pay2 (ix2 row k) = if k.val < 4097 then 1#1 else 0#1 := by
  unfold k3_pay2
  simp only [cmpi, broadcast]
  rw [iota_single_apply]
  exact slt_word _ _ (by have := k.isLt; show k.val < _; omega) (by norm_num)

theorem pos_apply (row : Fin 256) (k : Fin 4112) : k3_pay3 (ix2 row k) = if k.val = 0 then 1#1 else 0#1 := by
  unfold k3_pay3
  simp only [cmpi, broadcast]
  rw [iota_single_apply]
  exact eq_word _ (by have := k.isLt; show k.val < _; omega)

def bankMask : IVec S256x4112 1 :=
  cmpi .slt (iota .tc S256x4112 32 [0] iota_S256x4112_d0_w32) (broadcast S256x4112 128#32)

theorem bank_apply (row : Fin 256) (k : Fin 4112) : bankMask (ix2 row k) = if row.val < 128 then 1#1 else 0#1 := by
  unfold bankMask
  simp only [cmpi, broadcast]
  rw [iota_single_apply]
  exact slt_word _ _ (by have := row.isLt; show row.val < _; omega) (by norm_num)

def total (v : FVec Ideal S256x4112 .f32) : Ideal .f32 :=
  extractAt ![0, 0, 0] (shapeCast S1x1x1 (multiReduction .add [1, 2] S1
    (shapeCast S1x256x4112 v shapeCasts_S256x4112_S1x256x4112) 0x00000000#32 reduces_S1x256x4112_S1 (.inl rfl) rfl)
    shapeCasts_S1_S1x1x1) inpos_S1x1x1_p0_0_0

theorem total_coe (v : FVec Ideal S256x4112 .f32) (f : Fin 256 → Fin 4112 → ℝ)
    (hv : ∀ row k, v (ix2 row k) = ((f row k : ℝ) : EReal)) :
    total v = ((∑ row, ∑ k, f row k : ℝ) : EReal) := by
  rw [← total_sum_coe]
  exact (total_sum v shapeCasts_S256x4112_S1x256x4112 reduces_S1x256x4112_S1 shapeCasts_S1_S1x1x1 inpos_S1x1x1_p0_0_0
    (.inl rfl) rfl).trans (Finset.sum_congr rfl fun a _ => Finset.sum_congr rfl fun b _ => hv a b)

def scaledTotal (v : FVec Ideal S256x4112 .f32) : Ideal .f32 :=
  Scalar.mulf (total v) (Named.named (F := Ideal) κ "n_over_bk" (φ := .f32) 0x3E4343CC#32)

theorem scaledTotal_coe (v : FVec Ideal S256x4112 .f32) (f : Fin 256 → Fin 4112 → ℝ)
    (hv : ∀ row k, v (ix2 row k) = ((f row k : ℝ) : EReal)) :
    scaledTotal v = (((∑ row, ∑ k, f row k) * nbk : ℝ) : EReal) := by
  unfold scaledTotal
  rw [total_coe v f hv, named_nbk, EReal.coe_mul]
  rfl

section
variable (r : Vec Ideal S256x4112 .f32) (X : Fin 256 → Fin 4112 → ℝ)

def e14 : FVec Ideal S256x4112 .f32 :=
  select k3_pay2
    (exp (mulf (shapeCast S256x4112 r shapeCasts_S256x4112_S256x4112)
      (broadcast S256x4112 (Named.named (F := Ideal) κ "inv_temperature" (φ := .f32) 0x41649249#32))))
    (broadcast S256x4112 (Scalar.ofBits .f32 0x00000000#32))

def z1 : Ideal .f32 := scaledTotal (select bankMask (e14 r) (broadcast S256x4112 (Scalar.ofBits .f32 0x00000000#32)))

def z2 : Ideal .f32 := scaledTotal (select bankMask (broadcast S256x4112 (Scalar.ofBits .f32 0x00000000#32)) (e14 r))

theorem pay4_eq : k3_pay4 r
    = divf (e14 r) (select bankMask (broadcast S256x4112 (z1 r)) (broadcast S256x4112 (z2 r))) := rfl

variable (hr : ∀ (row : Fin 256) (k : Fin 4112), k.val < 4097 → r (ix2 row k) = ((X row k : ℝ) : EReal))
include hr

theorem e14_apply (row : Fin 256) (k : Fin 4112) : e14 r (ix2 row k) = ((kE X row k : ℝ) : EReal) := by
  unfold e14
  rw [select_apply, valid_apply, select_ite]
  unfold kE
  by_cases hk : k.val < 4097
  · rw [if_pos hk, if_pos hk]
    show Ideal.exp (shapeCast S256x4112 r shapeCasts_S256x4112_S256x4112 (ix2 row k)
      * Named.named (F := Ideal) κ "inv_temperature" (φ := .f32) 0x41649249#32) = _
    rw [shapeCast_self, hr row k hk, named_invT, ← EReal.coe_mul]
    exact exp_coe' _
  · rw [if_neg hk, if_neg hk]; exact ofBits_zero

theorem z1_eq : z1 r = ((kZ1 X : ℝ) : EReal) := by
  unfold z1 kZ1
  refine scaledTotal_coe _ _ fun row k => ?_
  rw [select_apply, bank_apply, select_ite]
  by_cases h : row.val < 128
  · rw [if_pos h, if_pos h]; exact e14_apply r X hr row k
  · rw [if_neg h, if_neg h]; exact ofBits_zero

theorem z2_eq : z2 r = ((kZ2 X : ℝ) : EReal) := by
  unfold z2 kZ2
  refine scaledTotal_coe _ _ fun row k => ?_
  rw [select_apply, bank_apply, select_ite]
  by_cases h : row.val < 128
  · rw [if_pos h, if_pos h]; exact ofBits_zero
  · rw [if_neg h, if_neg h]; exact e14_apply r X hr row k

theorem pay4_apply (row : Fin 256) (k : Fin 4112) : k3_pay4 r (ix2 row k) = ((kP X row k : ℝ) : EReal) := by
  rw [pay4_eq, divf_apply, select_apply, bank_apply, select_ite, e14_apply r X hr, broadcast_apply, broadcast_apply,
    z1_eq r X hr, z2_eq r X hr]
  unfold kP
  by_cases h : row.val < 128
  · rw [if_pos h, if_pos h]; exact div_coe_coe _ (kZ1_pos X).ne'
  · rw [if_neg h, if_neg h]; exact div_coe_coe _ (kZ2_pos X).ne'

theorem pay6_apply (row : Fin 256) (k : Fin 4112) :
    k3_pay6 r (ix2 row k) = ((kP X row k + cR + eR : ℝ) : EReal) := by
  unfold k3_pay6
  show (k3_pay4 r (ix2 row k) + Ideal.ofBits .f32 0x3D27C5AC#32) + Ideal.ofBits .f32 0x33D6BF95#32 = _
  rw [pay4_apply r X hr, ofBits_c, ofBits_eps, ← EReal.coe_add, ← EReal.coe_add]

theorem pay5_apply (row : Fin 256) (k : Fin 4112) (hk : k.val < 4097) :
    k3_pay5 r (ix2 row k) = ((Real.log (kP X row k / (kP X row k + cR + eR)) : ℝ) : EReal) := by
  show Ideal.log (Ideal.div (k3_pay4 r (ix2 row k)) (k3_pay6 r (ix2 row k))) = _
  rw [pay6_apply r X hr, pay4_apply r X hr, div_coe_coe _ (kDen_pos X row k).ne',
    log_coe_pos (div_pos (kP_pos X row k hk) (kDen_pos X row k))]

def termsV (v3 v5 : IVec S256x4112 1) (v38 v42 : FVec Ideal S256x4112 .f32) : FVec Ideal S256x4112 .f32 :=
  select v5 v38 (select v3 (log (divf (broadcast S256x4112 (Scalar.ofBits .f32 0x3D27C5AC#32)) v42))
    (broadcast S256x4112 (Scalar.ofBits .f32 0x00000000#32)))

omit hr in

theorem pay1_eq (v3 v5 : IVec S256x4112 1) (v38 v42 : FVec Ideal S256x4112 .f32) :
    k3_pay1 v3 v5 v38 v42
      = broadcast S1x1 (Scalar.divf (Scalar.subf (Scalar.ofBits .f32 0x00000000#32) (total (termsV v3 v5 v38 v42)))
          (Scalar.ofBits .f32 0x43000000#32)) := rfl

theorem terms_apply (row : Fin 256) (k : Fin 4112) :
    termsV k3_pay2 k3_pay3 (k3_pay5 r) (k3_pay6 r) (ix2 row k) = ((kT X row k : ℝ) : EReal) := by
  unfold termsV
  rw [select_apply, pos_apply, select_ite, select_apply, valid_apply, select_ite]
  unfold kT
  by_cases h0 : k.val = 0
  · rw [if_pos h0, if_pos h0]; exact pay5_apply r X hr row k (by omega)
  · rw [if_neg h0, if_neg h0]
    by_cases hk : k.val < 4097
    · rw [if_pos hk, if_pos hk]
      show Ideal.log (Ideal.div (Ideal.ofBits .f32 0x3D27C5AC#32) (k3_pay6 r (ix2 row k))) = _
      rw [pay6_apply r X hr, ofBits_c, div_coe_coe _ (kDen_pos X row k).ne',
        log_coe_pos (div_pos cR_pos (kDen_pos X row k))]
    · rw [if_neg hk, if_neg hk]; exact ofBits_zero

theorem kern_core :
    k3_pay1 k3_pay2 k3_pay3 (k3_pay5 r) (k3_pay6 r)
      = fun _ => ((kLoss X : ℝ) : EReal) := by
  rw [pay1_eq]
  funext j
  rw [broadcast_apply]
  show Ideal.div (Ideal.ofBits .f32 0x00000000#32
      - total (termsV k3_pay2 k3_pay3 (k3_pay5 r) (k3_pay6 r)))
    (Ideal.ofBits .f32 0x43000000#32) = _
  rw [total_coe _ (kT X) (terms_apply r X hr), ofBits_zero, ofBits_batch, ← EReal.coe_sub,
    div_coe_coe _ (by norm_num : (128 : ℝ) ≠ 0)]
  rfl

end

theorem kern_loss_eq (r : Vec Ideal S256x4112 .f32) (S Tt : S128x128.Idx → EReal) (M1 M2 : S100000x128.Idx → EReal)
    (C : S128x4097.Idx → BitVec 32)
    (h1 : ∀ (b : Fin 128) (k : Fin 4097),
      r (ix2 (Fin.castAdd 128 b) (Fin.castAdd 15 k)) = ((dotR S M2 C b k : ℝ) : EReal))
    (h2 : ∀ (b : Fin 128) (k : Fin 4097),
      r (ix2 (Fin.natAdd 128 b) (Fin.castAdd 15 k)) = ((dotR Tt M1 C b k : ℝ) : EReal)) :
    k3_pay1 (F := Ideal) k3_pay2 k3_pay3 (k3_pay5 (F := Ideal) r) (k3_pay6 (F := Ideal) r)
      = fun _ => G_loss S Tt M1 M2 C (ix1 0) := by
  have hX : ∀ (row : Fin 256) (k : Fin 4112), k.val < 4097 →
      r (ix2 row k) = (((r (ix2 row k)).toReal : ℝ) : EReal) := by
    intro row k hk
    obtain ⟨k', rfl⟩ : ∃ k' : Fin 4097, k = Fin.castAdd 15 k' := ⟨⟨k.val, hk⟩, Fin.ext rfl⟩
    refine Fin.addCases (m := 128) (n := 128) (fun b => ?_) (fun b => ?_) row
    · rw [h1, EReal.toReal_coe]
    · rw [h2, EReal.toReal_coe]
  have e1 : xTop (fun row k => (r (ix2 row k)).toReal) = dotR S M2 C := by
    funext b k; show EReal.toReal (r _) = _; rw [h1, EReal.toReal_coe]
  have e2 : xBot (fun row k => (r (ix2 row k)).toReal) = dotR Tt M1 C := by
    funext b k; show EReal.toReal (r _) = _; rw [h2, EReal.toReal_coe]
  rw [kern_core r _ hX, kLoss_eq, e1, e2]
  rfl

theorem sub_self_of_real {a : EReal} (h : ∃ x : ℝ, a = (x : EReal)) : a - a = 0 := by
  obtain ⟨x, rfl⟩ := h
  rw [← EReal.coe_sub, sub_self, EReal.coe_zero]

theorem mm3_apply {sl sr so : Shape} (D : DotDims sl sr so) (a : FVec Ideal sl .f32) (w : FVec Ideal sr .f32)
    (ha : IsReal a) (hw : IsReal w) (j : so.Idx) :
    addf (addf (matmul D none a w (constant so .f32 0x00000000#32)) (matmul D none (subf a a) w (constant so .f32 0x00000000#32)))
      (matmul D none a (subf w w) (constant so .f32 0x00000000#32)) j
      = ∑ q : D.contr.Idx, a (D.lhsIdx j q) * w (D.rhsIdx j q) := by
  rw [addf_apply, addf_apply, show subf a a = fun _ => (0 : EReal) from funext fun i => sub_self_of_real (ha i),
    show subf w w = fun _ => (0 : EReal) from funext fun i => sub_self_of_real (hw i)]
  simp only [matmul, Ideal.matmul_constant_zero_apply, zero_mul, mul_zero, Finset.sum_const_zero, add_zero]

theorem pay8_eq_pay7 (a : FVec Ideal S128x128 .f32) (w : FVec Ideal S4096x128 .f32) :
    k1_pay8 (F := Ideal) a w = k1_pay7 (F := Ideal) a w := rfl

theorem mm3_coord' (a : FVec Ideal S128x128 .f32) (w : FVec Ideal S4096x128 .f32) (ha : IsReal a) (hw : IsReal w)
    (b : Fin 128) (n : Fin 4096) :
    k1_pay7 (F := Ideal) a w (ix2 b n) = ∑ d : Fin 128, w (ix2 n d) * a (ix2 b d) := by
  refine (mm3_apply dot_S128x128_S4096x128_S128x4096_1_1_0_0_n_n a w ha hw _).trans ?_
  rw [← Equiv.sum_comp (contrEquiv1 dot_S128x128_S4096x128_S128x4096_1_1_0_0_n_n 128 rfl rfl).symm]
  refine Finset.sum_congr rfl fun d _ => ?_
  have hd := contrEquiv1_symm_val dot_S128x128_S4096x128_S128x4096_1_1_0_0_n_n 128 rfl rfl d
  rw [mul_comm]
  congr 2 <;> exact Shape.idx_ext₂ rfl hd

theorem bankRow_val (w : BitVec 32) (h : w.toNat < 100000) : (bankRow w).val = w.toNat := by
  unfold bankRow
  show min w.toInt.toNat 99999 = w.toNat
  rw [StableHlo.Predicate.toInt_eq_toNat_of_lt (by omega)]
  simp only [Int.toNat_natCast]
  omega

end Cert.Proof.B

end
-- ==== Proof.ArrB.lean ====
import proofs.«204933_g4492535792355_cont_8to1_c_766_42_alg».proof.Proof.RegionBArr
import proofs.«204933_g4492535792355_cont_8to1_c_766_42_alg».proof.Proof.BankKern
import proofs.«204933_g4492535792355_cont_8to1_c_766_42_alg».proof.Proof.LossKern
import Idealize.ShloMosaic.Lib.Pipeline.Value
import Idealize.ShloMosaic.Lib.Pipeline.FrameBody

noncomputable section

open Idealize.ShloMosaic Idealize.ShloMosaic.ValueIdx Idealize.ShloMosaic.TcCoe
open Idealize.SL Idealize.SL.RA
open Cert.KernelIdeal Cert.KernelIdeal.Gen
open Cert.Proof.B

namespace Cert.Proof.B2

def Gst (S Tt : S128x128.Idx → EReal) (M1 M2 : S100000x128.Idx → EReal) : S256x100000.Idx → EReal := fun i =>
  if h : (i 0).val < 128 then ∑ d : Fin 128, M2 (ix2 (⟨(i 1).val, (i 1).isLt⟩ : Fin 100000) d) * S (ix2 (⟨(i 0).val, h⟩ : Fin 128) d)
  else ∑ d : Fin 128, M1 (ix2 (⟨(i 1).val, (i 1).isLt⟩ : Fin 100000) d)
    * Tt (ix2 (⟨(i 0).val - 128, by have := (i 0).isLt; show _ < 128; change (i 0).val < 256 at this; omega⟩ : Fin 128) d)

-- A block completed with zeros is real-valued when its part taken from the array is.
theorem isReal_fill (w : Pipeline.Window sig grid1) (i : grid1.Coords)
    (g : (w.xblock i).Idx → EReal) (hg : IsReal g) :
    IsReal (w.fill i (fun _ => (Scalar.ofBits (F := Ideal) .f32 0#32 : EReal)) g) := by
  intro j
  unfold Pipeline.Window.fill
  split
  · exact hg _
  · exact ⟨0, ofBits_zero⟩

open Cert.Proof.C

theorem Gst_lo (S Tt : S128x128.Idx → EReal) (M1 M2 : S100000x128.Idx → EReal) (i : S256x100000.Idx)
    (b : Fin 128) (n : Fin 100000) (hb : b.val = (i 0).val) (hn : n.val = (i 1).val) :
    Gst S Tt M1 M2 i = ∑ d : Fin 128, M2 (ix2 n d) * S (ix2 b d) := by
  unfold Gst
  rw [dif_pos (by rw [← hb]; exact b.isLt)]
  refine Finset.sum_congr rfl fun d _ => ?_
  congr 2
  · exact Shape.idx_ext₂ hn.symm rfl
  · exact Shape.idx_ext₂ hb.symm rfl

theorem Gst_hi (S Tt : S128x128.Idx → EReal) (M1 M2 : S100000x128.Idx → EReal) (i : S256x100000.Idx)
    (b : Fin 128) (n : Fin 100000) (hb : b.val + 128 = (i 0).val) (hn : n.val = (i 1).val) :
    Gst S Tt M1 M2 i = ∑ d : Fin 128, M1 (ix2 n d) * Tt (ix2 b d) := by
  unfold Gst
  rw [dif_neg (by omega)]
  refine Finset.sum_congr rfl fun d _ => ?_
  congr 2
  · exact Shape.idx_ext₂ hn.symm rfl
  · exact Shape.idx_ext₂ (by show (i 0).val - 128 = b.val; omega) rfl

theorem out1_7_lo (x0 x1 : Vec Ideal S128x128 .f32) (X5 X6 : Vec Ideal S4096x128 .f32) (y : S256x4096.Idx)
    (h : (y 0).val < 128) :
    out1_7 x0 x1 X5 X6 y = k1_pay7 (F := Ideal) x0 X6 (ix2 (⟨(y 0).val, h⟩ : Fin 128) (⟨(y 1).val, (y 1).isLt⟩ : Fin 4096)) := by
  have hnb : y ∉ r7b.set := by rw [mem_r7b]; omega
  have hya : y ∈ r7a.set := (mem_r7a y).mpr h
  unfold out1_7
  rw [View.canon_cons_of_not_mem (⟨r7b, k1_pay8 x1 X5⟩ : View.Piece (Elt Ideal) S256x4096 .f32) _ hnb]
  obtain ⟨x, rfl⟩ : ∃ x, r7a.emb x = y := r7a.exists_idx_of_mem hya
  rw [View.canon_cons_emb]
  exact congrArg _ (Shape.idx_ext₂ (by show (x 0).val = 0 + 1 * (x 0).val; omega) (by show (x 1).val = 0 + 1 * (x 1).val; omega))

theorem out1_7_hi (x0 x1 : Vec Ideal S128x128 .f32) (X5 X6 : Vec Ideal S4096x128 .f32) (y : S256x4096.Idx)
    (h : 128 ≤ (y 0).val) :
    out1_7 x0 x1 X5 X6 y = k1_pay7 (F := Ideal) x1 X5
      (ix2 (⟨(y 0).val - 128, by have := (y 0).isLt; change (y 0).val < 256 at this; omega⟩ : Fin 128) (⟨(y 1).val, (y 1).isLt⟩ : Fin 4096)) := by
  have hyb : y ∈ r7b.set := (mem_r7b y).mpr h
  unfold out1_7
  obtain ⟨x, rfl⟩ : ∃ x, r7b.emb x = y := r7b.exists_idx_of_mem hyb
  rw [View.canon_cons_emb, pay8_eq_pay7]
  exact congrArg _ (Shape.idx_ext₂ (by show (x 0).val = 128 + 1 * (x 0).val - 128; omega) (by show (x 1).val = 0 + 1 * (x 1).val; omega))

section Data
variable (V : (c : Dev nD) → (b : Ref sig .tc) → Buf (Elt Ideal) ((c : Thread nD τ).loc b))

abbrev aS (c : Dev nD) : S128x128.Idx → EReal := V c main_arg0
abbrev aT (c : Dev nD) : S128x128.Idx → EReal := V c main_arg1
abbrev aM1 (c : Dev nD) : S100000x128.Idx → EReal := V c main_arg4
abbrev aM2 (c : Dev nD) : S100000x128.Idx → EReal := V c main_arg5

end Data

section Array
variable {Ix : Type} [DecidableEq Ix] {Name : Type} [DecidableEq Name] {U : Type} [URA U] {Lvl : Type} [Preorder Lvl]
variable (V : (c : Dev nD) → (b : Ref sig .tc) → Buf (Elt Ideal) ((c : Thread nD τ).loc b))
variable (O : CellTallies nD τ sig Ix) (B : Set (SemLoc sig × Ix))

theorem isReal_iblk0 (c : Dev nD) (t : Fin cfg1.N) (h : IsReal (aS V c)) :
    IsReal (iblk1 V c 0 t : S128x128.Idx → EReal) := fun x => h ((win1_0.rect t).emb x)

theorem isReal_iblk1 (c : Dev nD) (t : Fin cfg1.N) (h : IsReal (aT V c)) :
    IsReal (iblk1 V c 1 t : S128x128.Idx → EReal) := fun x => h ((win1_1.rect t).emb x)

theorem isReal_blk5 (c : Dev nD) (t : Fin cfg1.N) (h : IsReal (aM1 V c)) : IsReal (blk5 V c t : S4096x128.Idx → EReal) :=
  isReal_fill win1_5 (grid1.coords t) _ fun z => h ((win1_5.rect t).emb z)

theorem isReal_blk6 (c : Dev nD) (t : Fin cfg1.N) (h : IsReal (aM2 V c)) : IsReal (blk6 V c t : S4096x128.Idx → EReal) :=
  isReal_fill win1_6 (grid1.coords t) _ fun z => h ((win1_6.rect t).emb z)

-- Rows below 128 of the result are products of S with rows of M2, the other rows products of Tt with rows of M1.
theorem st_array (c : Dev nD) (hS : IsReal (aS V c)) (hT : IsReal (aT V c)) (hM1 : IsReal (aM1 V c)) (hM2 : IsReal (aM2 V c)) :
    (dat1 (Name := Name) (U := U) (Lvl := Lvl) V O B c).arrAt 7 cfg1.N
      = Gst (aS V c) (aT V c) (aM1 V c) (aM2 V c) := by
  refine funext fun i : S256x100000.Idx => ?_
  rw [arrAt7_apply]
  have h1 : (i 1).val < 100000 := (i 1).isLt
  have h0 : (i 0).val < 256 := (i 0).isLt
  have hdm : 4096 * (pt7 i).val + (i 1).val % 4096 = (i 1).val := by rw [pt7_val]; omega
  have hn (d : Fin 128) : 4096 * (pt7 i).val + ((ix2 (⟨(inBlk7 i 1).val, (inBlk7 i 1).isLt⟩ : Fin 4096) d : S4096x128.Idx) 0).val < 100000 := by
    show 4096 * (pt7 i).val + (i 1).val % 4096 < 100000; omega
  have hx (d : Fin 128) : arrIdxB (pt7 i) (ix2 (⟨(inBlk7 i 1).val, (inBlk7 i 1).isLt⟩ : Fin 4096) d) (hn d) = ix2 (⟨(i 1).val, h1⟩ : Fin 100000) d :=
    Shape.idx_ext₂ hdm rfl
  by_cases hlo : (i 0).val < 128
  · rw [out1_7_lo _ _ _ _ _ (show ((inBlk7 i) 0).val < 128 from hlo),
      mm3_coord' _ _ (isReal_iblk0 V c (pt7 i) hS) (isReal_blk6 V c (pt7 i) hM2),
      Gst_lo _ _ _ _ i (⟨(i 0).val, hlo⟩ : Fin 128) (⟨(i 1).val, h1⟩ : Fin 100000) rfl rfl]
    show (Finset.sum Finset.univ _ : EReal) = Finset.sum Finset.univ _
    refine Finset.sum_congr rfl fun d _ => ?_
    exact congrArg₂ (fun a b : EReal => a * b) ((blk6_apply V c (pt7 i) _ (hn d)).trans (congrArg (aM2 V c) (hx d)))
      (iblk1_0_apply V c (pt7 i) (ix2 (⟨(inBlk7 i 0).val, hlo⟩ : Fin 128) d))
  · rw [out1_7_hi _ _ _ _ _ (show 128 ≤ ((inBlk7 i) 0).val from by show 128 ≤ (i 0).val; omega),
      mm3_coord' _ _ (isReal_iblk1 V c (pt7 i) hT) (isReal_blk5 V c (pt7 i) hM1),
      Gst_hi _ _ _ _ i (⟨(i 0).val - 128, by omega⟩ : Fin 128) (⟨(i 1).val, h1⟩ : Fin 100000)
        (by show (i 0).val - 128 + 128 = _; omega) rfl]
    show (Finset.sum Finset.univ _ : EReal) = Finset.sum Finset.univ _
    refine Finset.sum_congr rfl fun d _ => ?_
    exact congrArg₂ (fun a b : EReal => a * b) ((blk5_apply V c (pt7 i) _ (hn d)).trans (congrArg (aM1 V c) (hx d)))
      (iblk1_1_apply V c (pt7 i) (ix2 (⟨(inBlk7 i 0).val - 128, by show (i 0).val - 128 < 128; omega⟩ : Fin 128) d))

end Array

end Cert.Proof.B2

end
-- ==== Proof.KIValueLoss.lean ====
import proofs.«204933_g4492535792355_cont_8to1_c_766_42_alg».proof.Proof.ArrB
import proofs.«204933_g4492535792355_cont_8to1_c_766_42_alg».proof.Proof.SplitC
import proofs.«204933_g4492535792355_cont_8to1_c_766_42_alg».proof.Proof.RegionD
import Idealize.ShloMosaic.Lib.KernelVsHost

noncomputable section

open scoped BigOperators
open Idealize.ShloMosaic Idealize.ShloMosaic.ValueIdx
open Cert.KernelIdeal Cert.KernelIdeal.Gen
open Cert.Proof.B

namespace Cert.Proof.B2

theorem pad_read (x : S128x4097.Idx → BitVec 32) (v : S_.Idx → BitVec 32) (b : Fin 128) (k : Fin 4097) :
    pad S128x4112 ![0, 0] ![0, 15] ![0, 0] x v pads_S128x4097_S128x4112_000_0150 h_S_ (ix2 b (Fin.castAdd 15 k))
      = x (ix2 b k) :=
  pad_apply_of_inside _ _ _ x v _ _ _ (ix2 b k) fun a => match a with
    | ⟨0, _⟩ => by show b.val = 0 + b.val * (0 + 1); omega
    | ⟨1, _⟩ => by show (Fin.castAdd 15 k).val = 0 + k.val * (0 + 1); rw [Fin.coe_castAdd]; omega

section
variable (S Tt : S128x128.Idx → EReal) (M1 M2 : S100000x128.Idx → EReal) (C : S128x4097.Idx → BitVec 32)
  (ixpad : S128x4112.Idx → BitVec 32)
  (hpad : ∀ (b : Fin 128) (k : Fin 4097), ixpad (ix2 b (Fin.castAdd 15 k)) = C (ix2 b k))
  (hC : ∀ i, (C i).toNat < 100000)
include hpad hC

theorem rOf_top (hS : IsReal S) (hM2 : IsReal M2) (b : Fin 128) (k : Fin 4097) :
    Cert.Proof.SC.rOf (F := Ideal) (Gst S Tt M1 M2) ixpad (ix2 (Fin.castAdd 128 b) (Fin.castAdd 15 k))
      = ((dotR S M2 C b k : ℝ) : EReal) := by
  rw [Cert.Proof.SC.rOf_apply]
  have hrow : (⟨(Fin.castAdd 128 b : Fin 256).val % 128, Nat.mod_lt _ (by decide)⟩ : Fin 128) = b :=
    Fin.ext (by show b.val % 128 = b.val; exact Nat.mod_eq_of_lt b.isLt)
  rw [hrow, hpad]
  have hw := hC (ix2 b k)
  rw [Gst_lo S Tt M1 M2 _ b (bankRow (C (ix2 b k))) rfl
    (by rw [bankRow_val _ hw]; show _ = (C (ix2 b k)).toNat % 100000; omega)]
  exact dot_eq_dotR S M2 C hS hM2 b k

theorem rOf_bot (hT : IsReal Tt) (hM1 : IsReal M1) (b : Fin 128) (k : Fin 4097) :
    Cert.Proof.SC.rOf (F := Ideal) (Gst S Tt M1 M2) ixpad (ix2 (Fin.natAdd 128 b) (Fin.castAdd 15 k))
      = ((dotR Tt M1 C b k : ℝ) : EReal) := by
  rw [Cert.Proof.SC.rOf_apply]
  have hrow : (⟨(Fin.natAdd 128 b : Fin 256).val % 128, Nat.mod_lt _ (by decide)⟩ : Fin 128) = b :=
    Fin.ext (by show (128 + b.val) % 128 = b.val; have := b.isLt; omega)
  rw [hrow, hpad]
  have hw := hC (ix2 b k)
  rw [Gst_hi S Tt M1 M2 _ b (bankRow (C (ix2 b k))) (by show b.val + 128 = 128 + b.val; omega)
    (by rw [bankRow_val _ hw]; show _ = (C (ix2 b k)).toNat % 100000; omega)]
  exact dot_eq_dotR Tt M1 C hT hM1 b k

theorem kern_loss_value (hS : IsReal S) (hT : IsReal Tt) (hM1 : IsReal M1) (hM2 : IsReal M2) :
    Cert.Proof.D.lossOf (F := Ideal) (Cert.Proof.SC.rOf (F := Ideal) (Gst S Tt M1 M2) ixpad)
      = fun _ => G_loss S Tt M1 M2 C (ix1 0) :=
  kern_loss_eq _ S Tt M1 M2 C (rOf_top S Tt M1 M2 C ixpad hpad hC hS hM2) (rOf_bot S Tt M1 M2 C ixpad hpad hC hT hM1)

end

end Cert.Proof.B2

end
-- ==== Proof.KIValueLossChain.lean ====
import proofs.«204933_g4492535792355_cont_8to1_c_766_42_alg».proof.Proof.KIChain
import proofs.«204933_g4492535792355_cont_8to1_c_766_42_alg».proof.Proof.SplitA
import proofs.«204933_g4492535792355_cont_8to1_c_766_42_alg».proof.Proof.KIValueLoss
import Idealize.ShloMosaic.Lib.StableHlo.Run

noncomputable section

open scoped BigOperators
open Idealize.ShloMosaic Idealize.ShloMosaic.ValueIdx
open Idealize.SL Idealize.SL.RA
open Idealize.ShloMosaic.Rounds
open Cert.KernelIdeal Cert.KernelIdeal.Gen
open Cert.Proof.B Cert.Proof.B2 Cert.Proof.KI

namespace Cert.Proof.KV

variable {U : Type} [URA U]
variable (m : (ℓ : Loc nD τ sig) → Buf (Elt Ideal) ℓ) (hpre : Cert.Proof.E.PreOK m)

abbrev W1 : Dev nD → Valuation τ sig (Elt Ideal) := fun d => Cert.Proof.SA.W1of m hpre d
abbrev W5 : Dev nD → Valuation τ sig (Elt Ideal) := fun d => Cert.Proof.SC.W5of (W4 (U := U) (W1 m hpre) d)

theorem W2_kept (d : Dev nD) (r : Ref sig .tc) (h1 : r ≠ main_v1) (h2 : r ≠ main_v0_0) (h3 : r ≠ main_v0_1) :
    W2 (W1 m hpre) d (Proc.devRef .tc r) = m (d, Proc.devRef .tc r) :=
  (StableHlo.reshape_result_ne _ _ _ _ _ _ _ h1).trans ((Function.update_of_ne (StableHlo.devRef_ne_of_ne h3) _ _).trans
    (Function.update_of_ne (StableHlo.devRef_ne_of_ne h2) _ _))

abbrev Wc (d : Dev nD) : Valuation τ sig (Elt Ideal) :=
  (opConvert (F := Ideal)).result ((opZero (F := Ideal)).result (W3 (U := U) (W1 m hpre) d))

-- the padded index array is the pad of argument 3 by the constant 0
theorem W4_v3 (d : Dev nD) :
    W4 (U := U) (W1 m hpre) d (Proc.devRef .tc main_v3)
      = pad S128x4112 ![0, 0] ![0, 15] ![0, 0] (m (d, Proc.devRef .tc main_arg3) : S128x4097.Idx → BitVec 32)
          (fun _ => 0#32 : S_.Idx → BitVec 32) pads_S128x4097_S128x4112_000_0150 h_S_ := by
  have h3 : Wc (U := U) m hpre d (Proc.devRef .tc main_arg3) = m (d, Proc.devRef .tc main_arg3) :=
    (StableHlo.unary_result_ne _ _ _ _ _ _ (by decide)).trans ((StableHlo.nullary_result_ne _ _ _ _ (by decide)).trans
      ((Cert.Proof.C.Wexit_of_ne (W2 (W1 m hpre)) _ _ d _ (by decide)).trans (W2_kept m hpre d _ (by decide) (by decide) (by decide))))
  have hv : Wc (U := U) m hpre d (Proc.devRef .tc main_call0_v0) = (fun _ => 0#32 : S_.Idx → BitVec 32) :=
    (StableHlo.unary_result _ _ _ _ _ _).trans (by rw [StableHlo.nullary_result]; rfl)
  refine (StableHlo.binary_result _ _ _ _ _ _ _ (Wc (U := U) m hpre d)).trans ?_
  rw [h3, hv]
  rfl

theorem kern_loss_chain (d : Dev nD)
    (hS : IsReal (m (d, Proc.devRef .tc main_arg0) : S128x128.Idx → EReal))
    (hT : IsReal (m (d, Proc.devRef .tc main_arg1) : S128x128.Idx → EReal))
    (hM1 : IsReal (m (d, Proc.devRef .tc main_arg4) : S100000x128.Idx → EReal))
    (hM2 : IsReal (m (d, Proc.devRef .tc main_arg5) : S100000x128.Idx → EReal))
    (hC : ∀ i, ((m (d, Proc.devRef .tc main_arg3) : S128x4097.Idx → BitVec 32) i).toNat < 100000) :
    W6 (U := U) (W5 (U := U) m hpre) d (Proc.devRef .tc main_v5)
      = fun _ => G_loss (m (d, Proc.devRef .tc main_arg0)) (m (d, Proc.devRef .tc main_arg1))
          (m (d, Proc.devRef .tc main_arg4)) (m (d, Proc.devRef .tc main_arg5)) (m (d, Proc.devRef .tc main_arg3)) (ix1 0) := by
  show Cert.Proof.D.Wout (W5 (U := U) m hpre) _ _ d (Proc.devRef .tc main_v5) = _
  rw [Cert.Proof.D.Wout_main_v5]
  have e4 : W5 (U := U) m hpre d (Proc.devRef .tc main_v4)
      = Cert.Proof.SC.rOf (W4 (U := U) (W1 m hpre) d (Proc.devRef .tc main_v2_0))
          (W4 (U := U) (W1 m hpre) d (Proc.devRef .tc main_v3)) := by
    show Cert.Proof.SC.W5of _ _ = _
    unfold Cert.Proof.SC.W5of; rw [Function.update_self]
  have hk0 := W2_kept m hpre d main_arg0 (by decide) (by decide) (by decide)
  have hk1 := W2_kept m hpre d main_arg1 (by decide) (by decide) (by decide)
  have hk4 := W2_kept m hpre d main_arg4 (by decide) (by decide) (by decide)
  have hk5 := W2_kept m hpre d main_arg5 (by decide) (by decide) (by decide)
  have est : W4 (U := U) (W1 m hpre) d (Proc.devRef .tc main_v2_0)
      = Gst (m (d, Proc.devRef .tc main_arg0)) (m (d, Proc.devRef .tc main_arg1))
          (m (d, Proc.devRef .tc main_arg4)) (m (d, Proc.devRef .tc main_arg5)) := by
    refine ((StableHlo.binary_result_ne _ _ _ _ _ _ _ _ (by decide)).trans ((StableHlo.unary_result_ne _ _ _ _ _ _ (by decide)).trans
      (StableHlo.nullary_result_ne _ _ _ _ (by decide)))).trans ?_
    show Cert.Proof.C.Wexit (W2 (W1 m hpre)) _ _ d (Proc.devRef .tc (Pipeline.arrRef spec1 7)) = _
    rw [Cert.Proof.C.Wexit_arr]
    have h := st_array (Ix := Idealize.ShloMosaic.SparseCore.Cfg.HIx 2) (Name := ℕ) (U := U) (Lvl := ℕ)
      (Cert.Proof.C.VofW (W2 (W1 m hpre))) (On (F := Ideal) 1) (Bn (F := Ideal) 1) d
      (by rw [← hk0] at hS; exact hS) (by rw [← hk1] at hT; exact hT) (by rw [← hk4] at hM1; exact hM1)
      (by rw [← hk5] at hM2; exact hM2)
    exact h.trans (congr (congr (congr (congrArg Gst hk0) hk1) hk4) hk5)
  rw [e4, est]
  exact kern_loss_value _ _ _ _ (m (d, Proc.devRef .tc main_arg3)) _ (fun b k => by rw [W4_v3, pad_read]) hC hS hT hM1 hM2

end Cert.Proof.KV

end
-- ==== Proof.RegionBArrPay.lean ====
import proofs.«204933_g4492535792355_cont_8to1_c_766_42_alg».proof.Proof.RegionBArr
import Idealize.ShloMosaic.Lib.Pipeline.Value

noncomputable section

namespace Cert.Proof.C

open Cert.KernelIdeal Cert.KernelIdeal.Gen
open Idealize.ShloMosaic

variable {F : FTy → Type} [FloatOps F] [Named F]

-- The first coordinate of grid point t is t.
theorem arg0Of_coords (t : Fin cfg1.N) : arg0Of (grid1.coords t) = BitVec.ofNat 32 t.val :=
  congrArg (BitVec.ofNat 32) (coords1_val t)

theorem out1_8_eq (t : Fin cfg1.N) (X : Vec F S128x128 .f32) (P : Vec F S128x1 .i32) (G : Vec F S128x128 .f32) (Bk : Vec F S4096x128 .f32) :
    out1_8 (grid1.coords t) X P G Bk
      = k1_pay3 (BitVec.ofNat 32 t.val) (k1_pay5 X G) (k1_pay10 P) (k1_pay11 P) (k1_pay12 (F := F) (BitVec.ofNat 32 t.val) P)
          (Scalar.ofBits .f32 0x3F800000#32) (Scalar.ofBits .f32 0x00000000#32) Bk := by
  unfold out1_8
  rw [arg0Of_coords]

theorem out1_9_eq (t : Fin cfg1.N) (X : Vec F S128x128 .f32) (P : Vec F S128x1 .i32) (G : Vec F S128x128 .f32) (Bk : Vec F S4096x128 .f32) :
    out1_9 (grid1.coords t) X P G Bk
      = k1_pay4 (BitVec.ofNat 32 t.val) (k1_pay6 X G) (k1_pay10 P) (k1_pay11 P) (k1_pay12 (F := F) (BitVec.ofNat 32 t.val) P)
          (Scalar.ofBits .f32 0x3F800000#32) (Scalar.ofBits .f32 0x00000000#32) Bk := by
  unfold out1_9
  rw [arg0Of_coords]

end Cert.Proof.C

end
-- ==== Proof.KIValueBank.lean ====
import proofs.«204933_g4492535792355_cont_8to1_c_766_42_alg».proof.Proof.RegionBArrPay
import proofs.«204933_g4492535792355_cont_8to1_c_766_42_alg».proof.Proof.SplitA
import proofs.«204933_g4492535792355_cont_8to1_c_766_42_alg».proof.Proof.BankKern

noncomputable section

namespace Cert.Proof.KV

open Cert.KernelIdeal Cert.KernelIdeal.Gen Cert.Proof.C Cert.Proof.G
open Idealize.ShloMosaic Idealize.ShloMosaic.TcCoe Idealize.ShloMosaic.ValueIdx
open Idealize.SL Idealize.SL.RA Idealize.SL.BI
open Idealize.SL.Sem

variable {Ix : Type} [DecidableEq Ix] {Name : Type} [DecidableEq Name] {U : Type} [URA U] {Lvl : Type} [Preorder Lvl]

section Core

variable (V : (c : Dev nD) → (b : Ref sig .tc) → Buf (Elt Ideal) ((c : Thread nD τ).loc b))
variable (O : CellTallies nD τ sig Ix) (B : Set (SemLoc sig × Ix))

abbrev inB (i : S100000x128.Idx) : S4096x128.Idx := ix2 (⟨(i 0).val % 4096, Nat.mod_lt _ (by decide)⟩ : Fin 4096) (i 1)

theorem inBlkB_eq (i : S100000x128.Idx) : inBlkB i = inB i := by
  funext a
  match a with
  | ⟨0, _⟩ => rfl
  | ⟨1, _⟩ => rfl

-- 4096 * (r / 4096) + r % 4096 = r, and r < 100000
theorem blk_lt (i : S100000x128.Idx) : 4096 * (ptB i).val + (inB i 0).val < 100000 := by
  show 4096 * ((i 0).val / 4096) + (i 0).val % 4096 < 100000
  have h2 : (i 0).val < 100000 := (i 0).isLt
  omega

theorem arrIdxB_eq (i : S100000x128.Idx) : arrIdxB (ptB i) (inB i) (blk_lt i) = i := by
  funext a
  apply Fin.ext
  match a with
  | ⟨0, _⟩ =>
    show 4096 * ((i 0).val / 4096) + (i 0).val % 4096 = (i 0).val
    exact Nat.div_add_mod _ _
  | ⟨1, _⟩ => rfl

theorem bank1_of_V (c : Dev nD)
    (hG : ∀ j dd : Fin 128, V c main_v0_0 (ix2 j dd) = V c main_arg4 (ix2 (rowIx (V c main_v1 (ix2 j (0 : Fin 1)))) dd)) :
    (dat1 (F := Ideal) (Ix := Ix) (Name := Name) (U := U) (Lvl := Lvl) V O B c).arrAt 8 cfg1.N
      = G_bank (V c main_arg4) (V c main_arg0) (fun j => V c main_v1 (ix2 j (0 : Fin 1))) := by
  funext i
  rw [arrAt8_apply, out1_8_eq, inBlkB_eq]
  have h := kern_row_eq (V c main_arg4) (iblk1 V c 0 (ptB i)) (iblk1 V c 3 (ptB i)) (iblk1 V c 2 (ptB i)) (blk5 V c (ptB i))
    (fun j dd => by rw [iblk1_3_apply, iblk1_2_apply]; exact hG j dd) (i 0) (i 1)
    (by rw [blk5_apply V c (ptB i) _ (blk_lt i), arrIdxB_eq i]; exact congrArg (V c main_arg4) (eq_ix2 i))
  refine h.trans ?_
  rw [show iblk1 V c 0 (ptB i) = V c main_arg0 from funext (iblk1_0_apply V c (ptB i)),
    funext fun j : Fin 128 => iblk1_2_apply V c (ptB i) (ix2 j (0 : Fin 1))]
  exact congrArg _ (eq_ix2 i).symm

theorem bank2_of_V (c : Dev nD)
    (hG : ∀ j dd : Fin 128, V c main_v0_1 (ix2 j dd) = V c main_arg5 (ix2 (rowIx (V c main_v1 (ix2 j (0 : Fin 1)))) dd)) :
    (dat1 (F := Ideal) (Ix := Ix) (Name := Name) (U := U) (Lvl := Lvl) V O B c).arrAt 9 cfg1.N
      = G_bank (V c main_arg5) (V c main_arg1) (fun j => V c main_v1 (ix2 j (0 : Fin 1))) := by
  funext i
  rw [arrAt9_apply, out1_9_eq, inBlkB_eq]
  have h := kern_row_eq' (V c main_arg5) (iblk1 V c 1 (ptB i)) (iblk1 V c 4 (ptB i)) (iblk1 V c 2 (ptB i)) (blk6 V c (ptB i))
    (fun j dd => by rw [iblk1_4_apply, iblk1_2_apply]; exact hG j dd) (i 0) (i 1)
    (by rw [blk6_apply V c (ptB i) _ (blk_lt i), arrIdxB_eq i]; exact congrArg (V c main_arg5) (eq_ix2 i))
  refine h.trans ?_
  rw [show iblk1 V c 1 (ptB i) = V c main_arg1 from funext (iblk1_1_apply V c (ptB i)),
    funext fun j : Fin 128 => iblk1_2_apply V c (ptB i) (ix2 j (0 : Fin 1))]
  exact congrArg _ (eq_ix2 i).symm

end Core

section Chain

open Cert.Proof.E Cert.Proof.SA

variable {U : Type} [URA U]
variable (m : (ℓ : Loc nD τ sig) → Buf (Elt Ideal) ℓ) (hpre : PreOK m)

abbrev W2r (W1 : Dev nD → Valuation τ sig (Elt Ideal)) : Dev nD → Valuation τ sig (Elt Ideal) :=
  fun c => (StableHlo.reshape main_arg2 main_v1 rfl shapeCasts_S128_S128x1 : HloOp τ sig (Elt Ideal)).result (W1 c)

abbrev Vb : (c : Dev nD) → (b : Ref sig .tc) → Buf (Elt Ideal) ((c : Thread nD τ).loc b) :=
  Cert.Proof.C.VofW (W2r (W1of m hpre))

-- b is none of the three references written before this point
theorem Vb_kept (c : Dev nD) (b : Ref sig .tc) (h1 : b ≠ main_v1) (h2 : b ≠ main_v0_0) (h3 : b ≠ main_v0_1) :
    Vb m hpre c b = m ((c : Thread nD τ).loc b) :=
  (StableHlo.reshape_result_ne _ _ _ _ _ _ _ h1).trans ((Function.update_of_ne (StableHlo.devRef_ne_of_ne h3) _ _).trans
    (Function.update_of_ne (StableHlo.devRef_ne_of_ne h2) _ _))

theorem Vb_arg4 (c : Dev nD) : Vb m hpre c main_arg4 = m (v1Loc c) := Vb_kept m hpre c _ (by decide) (by decide) (by decide)

theorem Vb_arg5 (c : Dev nD) : Vb m hpre c main_arg5 = m (v2Loc c) := Vb_kept m hpre c _ (by decide) (by decide) (by decide)

theorem Vb_g1 (c : Dev nD) : Vb m hpre c main_v0_0 = G1 m hpre c :=
  (StableHlo.reshape_result_ne _ _ _ _ _ _ _ (by decide)).trans ((Function.update_of_ne ne_g1_g2 _ _).trans (Function.update_self _ _ _))

theorem Vb_g2 (c : Dev nD) : Vb m hpre c main_v0_1 = G2 m hpre c :=
  (StableHlo.reshape_result_ne _ _ _ _ _ _ _ (by decide)).trans (Function.update_self _ _ _)

theorem Vb_pos (c : Dev nD) (j : Fin 128) : Vb m hpre c main_v1 (ix2 j (0 : Fin 1)) = m (pLoc c) (ix1 j) := by
  show W2r (W1of m hpre) c (Proc.devRef .tc main_v1) (ix2 j (0 : Fin 1)) = _
  unfold W2r
  rw [StableHlo.reshape_result]
  show shapeCast S128x1 (W1of m hpre c (Proc.devRef .tc main_arg2)) _ (ix2 j (0 : Fin 1)) = _
  rw [sc_vec_col]
  unfold W1of
  rw [Function.update_of_ne ne_a2_g2, Function.update_of_ne ne_a2_g1]
  rfl

theorem kern_bank1_value (O : CellTallies nD τ sig (SparseCore.Cfg.HIx 2)) (B : Set (SemLoc sig × SparseCore.Cfg.HIx 2)) (d : Dev nD) :
    (dat1 (F := Ideal) (Ix := SparseCore.Cfg.HIx 2) (Name := ℕ) (U := U) (Lvl := ℕ) (Vb m hpre) O B d).arrAt 8 cfg1.N
      = G_bank (m (v1Loc d)) (m ((d : Thread nD τ).loc main_arg0)) (fun j => m (pLoc d) (ix1 j)) := by
  rw [bank1_of_V (Vb m hpre) O B d (fun j dd => by rw [Vb_g1, Vb_arg4, Vb_pos, G1_apply])]
  rw [Vb_arg4, Vb_kept m hpre d main_arg0 (by decide) (by decide) (by decide), funext (Vb_pos m hpre d)]

theorem kern_bank2_value (O : CellTallies nD τ sig (SparseCore.Cfg.HIx 2)) (B : Set (SemLoc sig × SparseCore.Cfg.HIx 2)) (d : Dev nD) :
    (dat1 (F := Ideal) (Ix := SparseCore.Cfg.HIx 2) (Name := ℕ) (U := U) (Lvl := ℕ) (Vb m hpre) O B d).arrAt 9 cfg1.N
      = G_bank (m (v2Loc d)) (m ((d : Thread nD τ).loc main_arg1)) (fun j => m (pLoc d) (ix1 j)) := by
  rw [bank2_of_V (Vb m hpre) O B d (fun j dd => by rw [Vb_g2, Vb_arg5, Vb_pos, G2_apply])]
  rw [Vb_arg5, Vb_kept m hpre d main_arg1 (by decide) (by decide) (by decide), funext (Vb_pos m hpre d)]

end Chain

end Cert.Proof.KV

end
-- ==== Proof.PrePad.lean ====
import Idealize.ShloMosaic.Lib.KernelVsHost
import Idealize.ShloMosaic.Lib.ValueIdx

noncomputable section

namespace Cert.Proof.Pre

open Idealize.ShloMosaic Idealize.ShloMosaic.ValueIdx

section Any

variable {α : Type} {s t u : Shape}

theorem pad_cases (lo hi interior : Fin s.rank → Nat) (x : s.Idx → α) (v : u.Idx → α)
    (h : s.Pads lo hi interior t) (hu : 0 < u.numel) (j : t.Idx) :
    (∃ k, pad t lo hi interior x v h hu j = x k) ∨ pad t lo hi interior x v h hu j = v (Shape.Idx.first hu) := by
  unfold pad
  split
  · exact Or.inl ⟨_, rfl⟩
  · exact Or.inr rfl

theorem pad_all (p : α → Prop) (lo hi interior : Fin s.rank → Nat) (x : s.Idx → α) (v : u.Idx → α)
    (h : s.Pads lo hi interior t) (hu : 0 < u.numel) (hx : ∀ i, p (x i)) (hv : p (v (Shape.Idx.first hu))) (j : t.Idx) :
    p (pad t lo hi interior x v h hu j) := by
  rcases pad_cases lo hi interior x v h hu j with ⟨k, hk⟩ | hk
  · rw [hk]; exact hx k
  · rw [hk]; exact hv

theorem pad_lt (N : ℕ) (lo hi interior : Fin s.rank → Nat) (x : s.Idx → BitVec 32) (v : u.Idx → BitVec 32)
    (h : s.Pads lo hi interior t) (hu : 0 < u.numel) (hx : ∀ i, (x i).toNat < N) (hv : (v (Shape.Idx.first hu)).toNat < N)
    (j : t.Idx) : (pad t lo hi interior x v h hu j).toNat < N :=
  pad_all (fun w => w.toNat < N) lo hi interior x v h hu hx hv j

end Any

theorem pad15_lt {u : Shape} (x : (⟨2, ![128, 4097]⟩ : Shape).Idx → BitVec 32) (v : u.Idx → BitVec 32)
    (h : (⟨2, ![128, 4097]⟩ : Shape).Pads ![0, 0] ![0, 15] ![0, 0] ⟨2, ![128, 4112]⟩) (hu : 0 < u.numel)
    (hx : ∀ i, (x i).toNat < 100000) (hv : v (Shape.Idx.first hu) = 0#32) (j : (⟨2, ![128, 4112]⟩ : Shape).Idx) :
    (pad ⟨2, ![128, 4112]⟩ ![0, 0] ![0, 15] ![0, 0] x v h hu j).toNat < 100000 :=
  pad_lt 100000 _ _ _ x v h hu hx (by rw [hv]; decide) j

end Cert.Proof.Pre

end
-- ==== Proof.KIFacts.lean ====
import proofs.«204933_g4492535792355_cont_8to1_c_766_42_alg».proof.Proof.KIClaims
import proofs.«204933_g4492535792355_cont_8to1_c_766_42_alg».proof.Proof.KIValueLossChain
import proofs.«204933_g4492535792355_cont_8to1_c_766_42_alg».proof.Proof.KIValueBank
import proofs.«204933_g4492535792355_cont_8to1_c_766_42_alg».proof.Proof.PrePad

noncomputable section

namespace Cert.Proof.KC

open Cert.KernelIdeal Cert.KernelIdeal.Gen
open Idealize.ShloMosaic Idealize.ShloMosaic.ValueIdx
open Idealize.SL Idealize.SL.RA Idealize.SL.BI Idealize.SL.Sem
open Cert.Proof.KI Cert.Proof.KV

variable {U : Type} [URA U]

theorem preOK0 (m : (ℓ : Loc nD τ sig) → Buf (Elt Ideal) ℓ) (hpre : Cert.Pre_KernelIdeal m) : Cert.Proof.E.PreOK m :=
  fun d x => Cert.Proof.Pre.pos_lt _ _ _ _ _ _ (hpre d) x

-- every entry of the padded index array is an entry of argument 3 or 0
theorem padded_lt (m : (ℓ : Loc nD τ sig) → Buf (Elt Ideal) ℓ) (h0 : Cert.Proof.E.PreOK m) (hpre : Cert.Pre_KernelIdeal m)
    (d : Dev nD) (i : S128x4112.Idx) :
    ((W4 (U := U) (Cert.Proof.KV.W1 m h0) d (Proc.devRef .tc main_v3) : S128x4112.Idx → BitVec 32) i).toNat < 100000 := by
  rw [W4_v3]
  exact Cert.Proof.Pre.pad15_lt _ _ _ _ (Cert.Proof.Pre.cidx_lt _ _ _ _ _ _ (hpre d)) rfl i

theorem preOK1 (m : (ℓ : Loc nD τ sig) → Buf (Elt Ideal) ℓ) (h0 : Cert.Proof.E.PreOK m) (hpre : Cert.Pre_KernelIdeal m) :
    Cert.Proof.F.PreOK (F := Ideal) (fun d => W4 (U := U) (fun d => Cert.Proof.SA.W1of m h0 d) d (Proc.devRef .tc main_v3)) :=
  fun d L j k => padded_lt m h0 hpre d _

theorem run_facts_of_run
    (run_ki : ∀ (m : (ℓ : Loc nD τ sig) → Buf (Elt Ideal) ℓ) (ρ : Dev nD → PrngReg) (h0 : Cert.Proof.E.PreOK m)
      (h1 : Cert.Proof.F.PreOK (F := Ideal) (fun d => W4 (U := U) (fun d => Cert.Proof.SA.W1of m h0 d) d (Proc.devRef .tc main_v3))),
      RunsTo (U := U) m ρ (fun d => Cert.Proof.SC.W5of (W4 (U := U) (fun d => Cert.Proof.SA.W1of m h0 d) d))) :
    ∀ (m : (ℓ : Loc nD τ sig) → Buf (Elt Ideal) ℓ) (ρ : Dev nD → PrngReg), Cert.Pre_KernelIdeal m → RunFacts (U := U) m ρ :=
  fun m ρ hpre => by
  have h0 := preOK0 m hpre
  have hW1 : ∀ d, KeepsArgs m d (Cert.Proof.SA.W1of m h0 d) := keeps_W1of m h0
  refine ⟨_, _, run_ki m ρ h0 (preOK1 (U := U) m h0 hpre), hW1, fun d => onlyV4_W5of _ d, fun c => ?_, fun c => ?_, fun c => ?_⟩
  · refine (StableHlo.reshape_result _ _ _ _ _ _ _).trans ?_
    have hp := hpre c
    rw [kern_loss_chain m h0 c (Cert.Proof.Pre.real_a0 _ _ _ _ _ _ hp) (Cert.Proof.Pre.real_a1 _ _ _ _ _ _ hp)
      (Cert.Proof.Pre.real_a4 _ _ _ _ _ _ hp) (Cert.Proof.Pre.real_a5 _ _ _ _ _ _ hp) (Cert.Proof.Pre.cidx_lt _ _ _ _ _ _ hp)]
    funext i
    rfl
  · exact (W7_main_v2_1 _ _ c (onlyV4_W5of _ c)).trans (kern_bank1_value m h0 _ _ c)
  · exact (W7_main_v2_2 _ _ c (onlyV4_W5of _ c)).trans (kern_bank2_value m h0 _ _ c)

end Cert.Proof.KC

end
-- ==== Proof.Call1.lean ====
import proofs.«204933_g4492535792355_cont_8to1_c_766_42_alg».proof.Proof.TileC

noncomputable section

namespace Cert.Proof.F1

open Cert.KernelIdeal Cert.KernelIdeal.Gen Cert.Proof.F

open Idealize.ShloMosaic
open Idealize.ShloMosaic.SparseCore (V)
open Idealize.ShloMosaic.SparseCore.Cfg (HIx Pay mem_ownCells)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]
variable {UU : Type} [URA UU]

local notation "𝕄" => MT nD τ sig (HIx 2) (Elt F) ℕ UU ℕ

abbrev D : Defs nD τ sig (Elt F) (ΛP (F := F)) := Pipeline.defs pcfgs defs₀
abbrev 𝒱 : Variants := (𝒱₀).lift
abbrev v₀ : 𝒱.V := Sum.inl none

variable (EK : Emb UK (MT nD τ sig (HIx 2) (Elt F) ℕ UU ℕ)) [EK.LandsIn (upEmb : UEmb _ (MT nD τ sig (HIx 2) (Elt F) ℕ UU ℕ))]
variable (fst : (d : Dev nD) → Buf (Elt F) (stLoc d)) (fix : (d : Dev nD) → Buf (Elt F) (ixLoc d))
variable (qI : Dev nD → Fin τ.nSC → Fin τ.nSub → PosShare TreeShare)

def coordsV (c : Fin (grid2.bound 0)) (s : Fin (grid2.bound 1)) : grid2.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 2 ()
      = SparseCore.onTile hcore2 hsub2 (fun c s => cc2__stage_c_body (F := F) (coordsV c s)
          stV (Memref.isWhole_whole _) ixV (Memref.isWhole_whole _) rV (Memref.isWhole_whole _)
          s0 (Memref.isWhole_whole _) s1 (Memref.isWhole_whole _) s2 (Memref.isWhole_whole _) cc2_scratch3
          cc2_scoped0 cc2_scoped1 cc2_scoped2 cc2_scoped3 cc2_scoped4 cc2_scoped5 cc2_scoped6 cc2_scoped7
          cc2_scoped8 cc2_scoped9 cc2_scoped10 cc2_scoped11 cc2_scoped12 cc2_scoped13 cc2_scoped14 cc2_scoped15) ⟨⟩ c s := rfl

omit [FloatOps F] [Named F] in
theorem obl_post {thr : Thread nD τ} {A B C : sProp 𝕄} {O : CellTallies nD τ sig (HIx 2)} {W : Waits sig (HIx 2)} {q : Fin 2} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  iframe HA HB HC
  iexists W'; iframe HO
  ipureintro; exact fun p hp => (hW' p hp).imp_right Or.inl

theorem tileObl1 (P : (K (F := F)).Pay (nD := nD) (Val := Elt F) (Name := ℕ) (U := UU))
    (hgo : ∀ d c i, P.go 1 d c i = goRes (UU := UU) fst fix qI d (Lof ((K (F := F)).core 1 c) ((K (F := F)).sub 1 i)))
    (htd : ∀ d c i, P.td 1 d c i = tdRes (UU := UU) fst fix qI d (Lof ((K (F := F)).core 1 c) ((K (F := F)).sub 1 i)))
    (hx : ∀ d c i, P.x 1 (V d c i) = kits EK fst fix qI d (Lof c i))
    (hox : P.ox = fun _ _ => 0) (hF : (K (F := F)).Facts) (hpre : PreOK fix) :
    (K (F := F)).TileObl (D (F := F)) 𝒱 P v₀ 1 := by
  intro d c i O W hO _ _
  simp only [hox, add_zero]
  rw [hgo, htd, hx]
  refine BI.Entails.trans ?_ (Pipeline.wp_liftProg (D (F := F)) (Pipeline.defs_kernel pcfgs defs₀) 𝒱₀ _ Set.univ none _ _)
  have hc : ((K (F := F)).core 1 c).val < grid2.bound 0 ∧ ((K (F := F)).sub 1 i).val < grid2.bound 1 := ⟨c.isLt, i.isLt⟩
  rw [defs₀_vector]; simp only [SparseCore.onTile, hc, and_self, ↓reduceDIte]
  exact (tile_body EK fst fix qI d (Lof ((K (F := F)).core 1 c) ((K (F := F)).sub 1 i)) hF hpre O W hO).trans (wp_mono frame _ _ fun _ => obl_post)

theorem vecSplit1 (P : (K (F := F)).Pay (nD := nD) (Val := Elt F) (Name := ℕ) (U := UU))
    (hst : ∀ d c, P.st 1 d c = bigSep Finset.univ fun i : Fin ((K (F := F)).nSub 1) => goRes (UU := UU) fst fix qI d (Lof ((K (F := F)).core 1 c) ((K (F := F)).sub 1 i)))
    (hdn : ∀ d c, P.dn 1 d c = bigSep Finset.univ fun i : Fin ((K (F := F)).nSub 1) => tdRes (UU := UU) fst fix qI d (Lof ((K (F := F)).core 1 c) ((K (F := F)).sub 1 i)))
    (hgo : ∀ d c i, P.go 1 d c i = goRes (UU := UU) fst fix qI d (Lof ((K (F := F)).core 1 c) ((K (F := F)).sub 1 i)))
    (htd : ∀ d c i, P.td 1 d c i = tdRes (UU := UU) fst fix qI d (Lof ((K (F := F)).core 1 c) ((K (F := F)).sub 1 i))) :
    (K (F := F)).VecSplit' P 1 := by
  intro d c
  rw [hst, hdn, bigSep_congr fun i _ => hgo d c i, bigSep_congr fun i _ => htd d c i]
  iintro H; imodintro; iframe H
  iintro H; iexact H

def myToks (d : Dev nD) (c : Fin τ.nSC) (s : Fin τ.nSub) : Finset (GSem nD τ sig × ℕ × Unit) :=
  ((Finset.univ.image fun j : Fin 8 => ((cellS d c s, j.val, ()) : GSem nD τ sig × ℕ × Unit))
    ∪ (Finset.univ.image fun j : Fin 8 => ((cellA d c s j, 0, ()) : GSem nD τ sig × ℕ × Unit)))
    ∪ (Finset.univ.image fun j : Fin 8 => ((cellB d c s j, 0, ()) : GSem nD τ sig × ℕ × Unit))

def kCells1 : Finset (GSem nD τ sig) := Finset.univ.biUnion fun t : Dev nD × Fin τ.nSC × Fin τ.nSub => myCells t.1 t.2.1 t.2.2
def kToks1 : Finset (GSem nD τ sig × ℕ × Unit) := Finset.univ.biUnion fun t : Dev nD × Fin τ.nSC × Fin τ.nSub => myToks t.1 t.2.1 t.2.2

omit [FloatOps F] [Named F] in
-- A token in both families would give its cell two different kinds.
theorem disjK {f g : Fin 8 → GSem nD τ sig × ℕ × Unit} (h : ∀ a b, cellKind (f a).1 ≠ cellKind (g b).1) :
    Disjoint (Finset.univ.image f) (Finset.univ.image g) := by
  refine Finset.disjoint_left.mpr fun x h1 h2 => ?_
  obtain ⟨a, -, rfl⟩ := Finset.mem_image.mp h1
  obtain ⟨b, -, e⟩ := Finset.mem_image.mp h2
  exact h a b (congrArg (fun y => cellKind y.1) e).symm

omit [FloatOps F] [Named F] in
theorem injT {f : Fin 8 → GSem nD τ sig} {s : Set (Fin 8)} (h : Set.InjOn f s) :
    Set.InjOn (fun j => ((f j, 0, ()) : GSem nD τ sig × ℕ × Unit)) s :=
  fun _ ha _ hb e => h ha hb (Prod.mk.inj e).1

omit [FloatOps F] [Named F] in
-- An element of both sets would lie on two vector threads, and the thread determines the triple.
theorem disjV {α : Type} (th : α → Thread nD τ) {S : Dev nD × Fin τ.nSC × Fin τ.nSub → Finset α}
    (h : ∀ t x, x ∈ S t → th x = V t.1 t.2.1 t.2.2) :
    ∀ t ∈ Finset.univ, ∀ t' ∈ Finset.univ, t ≠ t' → Disjoint (S t) (S t') :=
  fun t _ t' _ hne => Finset.disjoint_left.mpr fun x h1 h2 => hne <| by
    obtain ⟨e1, e2⟩ := Prod.mk.inj ((h t x h1).symm.trans (h t' x h2)); obtain ⟨e3, e4⟩ := Proc.scVector.inj e2
    exact Prod.ext e1 (Prod.ext e3 e4)

omit [FloatOps F] [Named F] in
theorem bigSep_kCells1 (Φ : GSem nD τ sig → sProp 𝕄) :
    bigSep kCells1 Φ = bigSep Finset.univ fun t : Dev nD × Fin τ.nSC × Fin τ.nSub =>
      iprop(Φ (cellS t.1 t.2.1 t.2.2) ∗ (bigSep Finset.univ fun j : Fin 8 => Φ (cellA t.1 t.2.1 t.2.2 j)) ∗ bigSep Finset.univ fun j : Fin 8 => Φ (cellB t.1 t.2.1 t.2.2 j)) := by
  unfold kCells1
  rw [SparseCore.Cfg.bigSep_biUnion_eq _ _ Φ ?h]
  · refine bigSep_congr fun t _ => ?_
    unfold myCells
    rw [SparseCore.bigSep_insert' (notMemS t.1 t.2.1 t.2.2), SparseCore.bigSep_union' (disjAB t.1 t.2.1 t.2.2),
      SparseCore.bigSep_image_of_injOn (injA t.1 t.2.1 t.2.2) Φ, SparseCore.bigSep_image_of_injOn (injB t.1 t.2.1 t.2.2) Φ]
  case h => exact disjV (fun g => g.1) fun t _ h => (mem_ownCells.mp (myCells_sub t.1 t.2.1 t.2.2 h)).1

omit [FloatOps F] [Named F] in
theorem bigSep_kToks1 (Ψ : GSem nD τ sig × ℕ × Unit → sProp 𝕄) :
    bigSep kToks1 Ψ = bigSep Finset.univ fun t : Dev nD × Fin τ.nSC × Fin τ.nSub =>
      iprop(((bigSep Finset.univ fun j : Fin 8 => Ψ (cellS t.1 t.2.1 t.2.2, j.val, ())) ∗ bigSep Finset.univ fun j : Fin 8 => Ψ (cellA t.1 t.2.1 t.2.2 j, 0, ()))
          ∗ bigSep Finset.univ fun j : Fin 8 => Ψ (cellB t.1 t.2.1 t.2.2 j, 0, ())) := by
  unfold kToks1
  rw [SparseCore.Cfg.bigSep_biUnion_eq _ _ Ψ ?h]
  · refine bigSep_congr fun t _ => ?_
    unfold myToks
    rw [SparseCore.bigSep_union' ?d2, SparseCore.bigSep_union' ?d1,
      SparseCore.bigSep_image_of_injOn ?i1 Ψ, SparseCore.bigSep_image_of_injOn (injT (injA t.1 t.2.1 t.2.2)) Ψ,
      SparseCore.bigSep_image_of_injOn (injT (injB t.1 t.2.1 t.2.2)) Ψ]
    case i1 => intro a _ b _ e; exact Fin.ext (Prod.mk.inj (Prod.mk.inj e).2).1
    case d1 => exact disjK fun _ _ => by simp
    case d2 => exact Finset.disjoint_union_left.mpr ⟨disjK fun _ _ => by simp, disjK fun _ _ => by simp⟩
  case h =>
    refine disjV (fun x => x.1.1) fun t x h => ?_
    simp only [myToks, Finset.mem_union, Finset.mem_image] at h
    rcases h with (⟨j, -, rfl⟩ | ⟨j, -, rfl⟩) | ⟨j, -, rfl⟩ <;> rfl

theorem kits_intro1 :
    (BI.own (EK (initOf kCells1 kToks1)) : sProp 𝕄)
      ⊢ iprop(|==> bigSep Finset.univ fun t : Dev nD × Fin τ.nSC × Fin τ.nSub => kits EK fst fix qI t.1 (Lof t.2.1 t.2.2)) := by
  refine (Rounds.fund EK (kRd (UU := UU) fst fix qI) kCells1 kToks1).trans (BI.bupd_mono ?_)
  rw [bigSep_kCells1, bigSep_kCells1, bigSep_kCells1, bigSep_kToks1, ← bigSep_sep', ← bigSep_sep', ← bigSep_sep']
  refine bigSep_mono fun t _ => ?_
  simp only [kits, kitRow, kit1, cV_Lof, sV_Lof, bigSep_sep']
  show (_ : sProp 𝕄) ⊢ _
  iintro ⟨⟨HrsS, HrsA, HrsB⟩, ⟨HreS, HreA, HreB⟩, ⟨HatS, HatA, HatB⟩, ⟨⟨HtS, HtA⟩, HtB⟩⟩
  iframe

end Cert.Proof.F1

end
-- ==== Proof.KIPay.lean ====
import proofs.«204933_g4492535792355_cont_8to1_c_766_42_alg».proof.Proof.KICommon
import proofs.«204933_g4492535792355_cont_8to1_c_766_42_alg».proof.Proof.Call1
import Idealize.ShloMosaic.Lib.WriteMode
import Idealize.ShloMosaic.Lib.Pipeline.Kit

noncomputable section

namespace Cert.Proof.KI

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

abbrev R5 : Type := WmRA nD τ sig (Elt F) × Counters
abbrev R4 : Type := UP × R5 (F := F)
abbrev R3 : Type := UP × R4 (F := F)
abbrev R2 : Type := UP × R3 (F := F)
abbrev UU : Type := UH × R2 (F := F)

local notation "𝕄" => MT nD τ sig (HIx 2) (Elt F) ℕ (UU (F := F)) ℕ

abbrev uE : Emb (UU (F := F)) 𝕄 := (uEmb : UEmb (UU (F := F)) 𝕄).toEmb

def EH : Emb UH 𝕄 := Emb.inl.trans uE
def E2 : Emb (R2 (F := F)) 𝕄 := Emb.inr.trans uE

def EK0 : Emb UP 𝕄 := Emb.inl.trans E2
def E3 : Emb (R3 (F := F)) 𝕄 := Emb.inr.trans E2

def EK1 : Emb UP 𝕄 := Emb.inl.trans E3
def E4 : Emb (R4 (F := F)) 𝕄 := Emb.inr.trans E3

def EP : Emb UP 𝕄 := Emb.inl.trans E4
def E5 : Emb (R5 (F := F)) 𝕄 := Emb.inr.trans E4

def wmU : UEmb (WmRA nD τ sig (Elt F)) (UU (F := F)) :=
  (UEmb.inl : UEmb (WmRA nD τ sig (Elt F)) (R5 (F := F))).trans ((UEmb.inr : UEmb (R5 (F := F)) (R4 (F := F))).trans
    ((UEmb.inr : UEmb (R4 (F := F)) (R3 (F := F))).trans ((UEmb.inr : UEmb (R3 (F := F)) (R2 (F := F))).trans (UEmb.inr : UEmb (R2 (F := F)) (UU (F := F))))))

abbrev EC : UEmb Counters 𝕄 := countersEmb

instance EH_landsIn : (EH : Emb UH 𝕄).LandsIn (upEmb : UEmb _ 𝕄) := by unfold EH; infer_instance
instance EK0_landsIn : (EK0 : Emb UP 𝕄).LandsIn (upEmb : UEmb _ 𝕄) := by unfold EK0 E2; infer_instance
instance EK1_landsIn : (EK1 : Emb UP 𝕄).LandsIn (upEmb : UEmb _ 𝕄) := by unfold EK1 E3 E2; infer_instance
instance EP_landsIn : (EP : Emb UP 𝕄).LandsIn (upEmb : UEmb _ 𝕄) := by unfold EP E4 E3 E2; infer_instance
instance EC_landsIn : (EC : UEmb Counters 𝕄).LandsIn (upEmb : UEmb _ 𝕄) := by infer_instance

/-- The nested pair is split one level at a time by `own_pair_emb`; the last level keeps only its left half. -/
theorem ownU_split (a : UH) (b c p : UP) (w : WmRA nD τ sig (Elt F)) (k : Counters) :
    (ownU ((a, (b, (c, (p, (w, k))))) : UU (F := F)) : sProp 𝕄)
      ⊢ iprop(BI.own (EH a) ∗ BI.own (EK0 b) ∗ BI.own (EK1 c) ∗ BI.own (EP p) ∗ (ownU (wmU (F := F) w) : sProp 𝕄)) :=
  (own_pair_emb uE a _).trans <| sep_mono_r <| (own_pair_emb E2 b _).trans <| sep_mono_r <|
    (own_pair_emb E3 c _).trans <| sep_mono_r <| (own_pair_emb E4 p _).trans <| sep_mono_r <|
    (own_pair_emb E5 w k).trans sep_elim_left

variable (fst : (d : Dev nD) → Buf (Elt F) (Cert.Proof.F.stLoc d)) (fix : (d : Dev nD) → Buf (Elt F) (Cert.Proof.F.ixLoc d))
variable (qI : Dev nD → Fin τ.nSC → Fin τ.nSub → PosShare TreeShare)
variable (st0 dn0 : Dev nD → Fin ((K (F := F)).nCore 0) → sProp (MT nD τ sig (HIx 2) (Elt F) ℕ (UU (F := F)) ℕ))
variable (go0 td0 : Dev nD → Fin ((K (F := F)).nCore 0) → Fin ((K (F := F)).nSub 0) → sProp (MT nD τ sig (HIx 2) (Elt F) ℕ (UU (F := F)) ℕ))
variable (X0 : Dev nD → Fin τ.nSC → Fin τ.nSub → sProp (MT nD τ sig (HIx 2) (Elt F) ℕ (UU (F := F)) ℕ))

section PayRecord

def wmI : sProp 𝕄 := iprop(∃ ιwm : ℕ, wmInv (Ix := HIx 2) (Lvl := ℕ) (wmU (F := F)) ιwm)

instance wmI_persistent : BI.Persistent (wmI (F := F)) := by unfold wmI; infer_instance

/-- `goRes` on device `d` at the coordinates of core `c` and subcore `i` of phase 1; `tdT` likewise for `tdRes`. -/
abbrev goT (d : Dev nD) (c : Fin ((K (F := F)).nCore 1)) (i : Fin ((K (F := F)).nSub 1)) : sProp 𝕄 :=
  Cert.Proof.F.goRes (UU := UU (F := F)) fst fix qI d (Cert.Proof.F.Lof ((K (F := F)).core 1 c) ((K (F := F)).sub 1 i))
abbrev tdT (d : Dev nD) (c : Fin ((K (F := F)).nCore 1)) (i : Fin ((K (F := F)).nSub 1)) : sProp 𝕄 :=
  Cert.Proof.F.tdRes (UU := UU (F := F)) fst fix qI d (Cert.Proof.F.Lof ((K (F := F)).core 1 c) ((K (F := F)).sub 1 i))

def P : (K (F := F)).Pay (nD := nD) (Val := Elt F) (Name := ℕ) (U := UU (F := F)) where
  st := fun q d c => match q with
    | 0 => st0 d c
    | 1 => bigSep Finset.univ (goT fst fix qI d c)
  dn := fun q d c => match q with
    | 0 => dn0 d c
    | 1 => bigSep Finset.univ (tdT fst fix qI d c)
  go := fun q d c i => match q with
    | 0 => go0 d c i
    | 1 => goT fst fix qI d c i
  td := fun q d c i => match q with
    | 0 => td0 d c i
    | 1 => tdT fst fix qI d c i
  x := fun q thr => match q, thr with
    | 0, (d, .scVector c i) => iprop(wmI (F := F) ∗ X0 d c i)
    | 1, (d, .scVector c i) => Cert.Proof.F.kits (EK1 (F := F)) fst fix qI d (Cert.Proof.F.Lof c i)
    | _, _ => iprop(emp)

variable [hst0 : ∀ d c, BI.Storable (upEmb : UEmb _ (MT nD τ sig (HIx 2) (Elt F) ℕ (UU (F := F)) ℕ)) (st0 d c)]
variable [hdn0 : ∀ d c, BI.Storable (upEmb : UEmb _ (MT nD τ sig (HIx 2) (Elt F) ℕ (UU (F := F)) ℕ)) (dn0 d c)]
variable [hgo0 : ∀ d c i, BI.Storable (upEmb : UEmb _ (MT nD τ sig (HIx 2) (Elt F) ℕ (UU (F := F)) ℕ)) (go0 d c i)]
variable [htd0 : ∀ d c i, BI.Storable (upEmb : UEmb _ (MT nD τ sig (HIx 2) (Elt F) ℕ (UU (F := F)) ℕ)) (td0 d c i)]

instance goRes_storable (d : Dev nD) (L : grid2.Coords) :
    BI.Storable (upEmb : UEmb _ 𝕄) (Cert.Proof.F.goRes (UU := UU (F := F)) fst fix qI d L) := by
  unfold Cert.Proof.F.goRes Cert.Proof.F.goRow; infer_instance
instance tdRes_storable (d : Dev nD) (L : grid2.Coords) :
    BI.Storable (upEmb : UEmb _ 𝕄) (Cert.Proof.F.tdRes (UU := UU (F := F)) fst fix qI d L) := by
  unfold Cert.Proof.F.tdRes Cert.Proof.F.tdRow; infer_instance

instance P_storable : (P (F := F) fst fix qI st0 dn0 go0 td0 X0).IsStorable where
  st q d c := match q with
    | 0 => hst0 d c
    | 1 => (inferInstance : BI.Storable (upEmb : UEmb _ 𝕄) (bigSep Finset.univ (goT fst fix qI d c)))
  dn q d c := match q with
    | 0 => hdn0 d c
    | 1 => (inferInstance : BI.Storable (upEmb : UEmb _ 𝕄) (bigSep Finset.univ (tdT fst fix qI d c)))
  go q d c i := match q with
    | 0 => hgo0 d c i
    | 1 => goRes_storable fst fix qI d _
  td q d c i := match q with
    | 0 => htd0 d c i
    | 1 => tdRes_storable fst fix qI d _

end PayRecord

section Launch

variable (kCells0 : Finset (GSem nD τ sig)) (kToks0 : Finset (GSem nD τ sig × ℕ × Unit))

theorem pin_inj : Function.Injective (Pipeline.cellOf (nD := nD) (τ := τ) (Pipeline.pin (pcfgs (F := F)) adm)) := cellOf_inj

def u₀ : UU (F := F) :=
  (initOf (K (F := F)).hsCells (K (F := F)).hsToks, (initOf kCells0 kToks0, (initOf Cert.Proof.F1.kCells1 Cert.Proof.F1.kToks1,
    (initOf (Pipeline.cells (Pipeline.pin (pcfgs (F := F)) adm) pin_inj) (Pipeline.launchToks (Pipeline.pin (pcfgs (F := F)) adm) pin_inj),
      (wm₀ nD τ sig (Elt F), 1)))))

omit [FloatOps F] [Named F] in
theorem fin2 (Φ : Fin 2 → sProp 𝕄) : bigSep Finset.univ Φ = iprop(Φ 0 ∗ Φ 1) := bigSep_univ_two Φ

theorem Px_T (d : Dev nD) :
    (bigSep Finset.univ fun q : Fin 2 => (P fst fix qI st0 dn0 go0 td0 X0).x q (T d)) = iprop(emp ∗ emp) := fin2 _
theorem Px_S (d : Dev nD) (c : Fin τ.nSC) :
    (bigSep Finset.univ fun q : Fin 2 => (P fst fix qI st0 dn0 go0 td0 X0).x q (S d c)) = iprop(emp ∗ emp) := fin2 _
theorem Px_V (d : Dev nD) (c : Fin τ.nSC) (i : Fin τ.nSub) :
    (bigSep Finset.univ fun q : Fin 2 => (P fst fix qI st0 dn0 go0 td0 X0).x q (V d c i))
      = iprop((wmI ∗ X0 d c i) ∗ Cert.Proof.F.kits EK1 fst fix qI d (Cert.Proof.F.Lof c i)) := fin2 _

omit [FloatOps F] [Named F] in
theorem emps {I : Type} (s : Finset I) : (iprop(emp) : sProp 𝕄) ⊢ bigSep s fun _ : I => (iprop(emp ∗ emp) : sProp 𝕄) :=
  (Entails.of_eq (bigSep_emp_const s).symm).trans (bigSep_mono fun _ _ => sep_emp.2)

theorem hu₀ (mw : MemSt nD τ sig (Elt F))
    (hk0 : (BI.own (EK0 (F := F) (initOf kCells0 kToks0)) : sProp 𝕄)
      ⊢ iprop(|==> bigSep Finset.univ fun t : Dev nD × Fin τ.nSC × Fin τ.nSub => X0 t.1 t.2.1 t.2.2)) :
    iprop(ownU (u₀ (F := F) kCells0 kToks0) ∗ (P (F := F) fst fix qI st0 dn0 go0 td0 X0).oxCred ∗ (K (F := F)).freeSems0)
      ⊢ |={Set.univ}=> iprop(BI.own (EH (F := F) (initOf (K (F := F)).hsCells (K (F := F)).hsToks))
        ∗ (bigSep Finset.univ fun d : Dev nD =>
            iprop((bigSep Finset.univ fun p : Fin 2 => iprop(Pipeline.cellsGhost (Pipeline.pin (pcfgs (F := F)) adm) (EP (F := F)) p d
              ∗ Pipeline.toksInit (Pipeline.pin (pcfgs (F := F)) adm) (EP (F := F)) p d)) ∗ wmI (F := F)))
        ∗ bigSep Finset.univ fun thr : Thread nD τ => bigSep Finset.univ fun q : Fin 2 => (P (F := F) fst fix qI st0 dn0 go0 td0 X0).x q thr) := by
  unfold u₀
  iintro ⟨Hu, -, -⟩
  icases (ownU_split _ _ _ _ _ _) $$ Hu with ⟨HH, H0, H1, HP, Hw⟩
  imod (wmInv_alloc (Ix := HIx 2) (Lvl := ℕ) (emb := wmU) mw (E := Set.univ)) $$ Hw with ⟨%ιwm, -, #Hwm'⟩
  ihave #HwmI : wmI $$ []
  · unfold wmI; iexists ιwm; iexact Hwm'
  imod hk0 $$ H0 with HX0
  imod (Cert.Proof.F1.kits_intro1 EK1 fst fix qI) $$ H1 with Hk1
  imod (Pipeline.fund_ghost _ EP pin_inj) $$ HP with ⟨Hcg, Htk⟩
  imodintro
  rw [SparseCore.Cfg.bigSep_threads]
  simp only [Px_T, Px_S, Px_V]
  iframe HH
  isplitl [Hcg Htk]
  · simp only [bigSep_sep']; iframe Hcg Htk; iapply (bigSep_of_persistent _ _); iexact HwmI
  isplitr; · iapply (emps _); iempintro
  isplitr; · iapply (emps _); iempintro
  simp only [bigSep_sep']; iframe HX0 Hk1; iapply (bigSep_of_persistent _ _); iexact HwmI

end Launch

end Cert.Proof.KI

end
-- ==== Proof.Call0.lean ====
import proofs.«204933_g4492535792355_cont_8to1_c_766_42_alg».proof.Proof.TileA

noncomputable section

namespace Cert.Proof.E0

open Cert.KernelIdeal Cert.KernelIdeal.Gen
open Cert.Proof.E

open Idealize.ShloMosaic
open Idealize.ShloMosaic.SparseCore (V)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}
variable {UU : Type} [URA UU]

local notation "𝕄" => MT nD τ sig (HIx 2) (Elt F) ℕ UU ℕ

variable (EK : Emb UK (MT nD τ sig (HIx 2) (Elt F) ℕ UU ℕ)) [EK.LandsIn (upEmb : UEmb _ (MT nD τ sig (HIx 2) (Elt F) ℕ UU ℕ))]
variable (EC : UEmb Counters (MT nD τ sig (HIx 2) (Elt F) ℕ UU ℕ)) [EC.LandsIn (upEmb : UEmb _ (MT nD τ sig (HIx 2) (Elt F) ℕ UU ℕ))]
variable (emb : UEmb (WmRA nD τ sig (Elt F)) UU)

local notation:60 ℓ " ⇝[" I "]{" q "} " f:max " ⇒ " g:max " @ " W:max => willBeTo (Ix := HIx 2) (Name := ℕ) (Lvl := ℕ) emb ℓ I q f g W

variable (m : (ℓ : Loc nD τ sig) → Buf (Elt F) ℓ)

variable [FloatOps F] [Named F]

abbrev D : Defs nD τ sig (Elt F) (ΛP (F := F)) := Pipeline.defs pcfgs defs₀
abbrev 𝒱 : Variants := 𝒱₀.lift
abbrev v₀ : 𝒱.V := Sum.inl none

def coordsV (c : Fin (grid0.bound 0)) (s : Fin (grid0.bound 1)) : grid0.Coords :=
  fun | 0 => c | 1 => s | ⟨_ + 2, h⟩ => absurd h (Nat.not_lt.2 (Nat.le_add_left _ _))

theorem nSC_le : τ.nSC ≤ grid0.bound 0 := by decide
theorem nSub_le : τ.nSub ≤ grid0.bound 1 := by decide

def Lof (c : Fin τ.nSC) (s : Fin τ.nSub) : grid0.Coords :=
  coordsV ⟨c.val, Nat.lt_of_lt_of_le c.isLt nSC_le⟩ ⟨s.val, Nat.lt_of_lt_of_le s.isLt nSub_le⟩

theorem defs₀_vector (c : Fin τ.nSC) (s : Fin τ.nSub) :
    defs₀ (F := F) (.scVector c s) 0 ()
      = SparseCore.onTile hcore0 hsub0 (fun c s => cc0__stage_a_body (coordsV c s)
          v1V (Memref.isWhole_whole _) v2V (Memref.isWhole_whole _) pV (Memref.isWhole_whole _)
          g1V (Memref.isWhole_whole _) g2V (Memref.isWhole_whole _) sI (Memref.isWhole_whole _) sR (Memref.isWhole_whole _)
          cc0_scratch2 cc0_scoped0 cc0_scoped1 cc0_scoped2) ⟨⟩ c s := rfl

section Obl

variable (hpre : PreOK m) (qP qG q1 q2 : Fin τ.nSC → Fin τ.nSub → PosShare TreeShare) (ιwm : ℕ)

abbrev goRes (d : Dev nD) (c : Fin τ.nSC) (s : Fin τ.nSub) : sProp 𝕄 :=
  iprop((pLoc d ↦[pSet (chunk (Lof c s))]{qP c s} m (pLoc d)) ∗ (v1Loc d ↦{q1 c s} m (v1Loc d)) ∗ (v2Loc d ↦{q2 c s} m (v2Loc d))
    ∗ (g1Loc d ⇝[gSet (chunk (Lof c s))]{qG c s} (m (g1Loc d)) ⇒ (tg1 m hpre d) @ ∅)
    ∗ (g2Loc d ⇝[gSet (chunk (Lof c s))]{qG c s} (m (g2Loc d)) ⇒ (tg2 m hpre d) @ ∅))
abbrev tdRes (d : Dev nD) (c : Fin τ.nSC) (s : Fin τ.nSub) : sProp 𝕄 :=
  iprop((pLoc d ↦[pSet (chunk (Lof c s))]{qP c s} m (pLoc d)) ∗ (v1Loc d ↦{q1 c s} m (v1Loc d)) ∗ (v2Loc d ↦{q2 c s} m (v2Loc d))
    ∗ (g1Loc d ⇝[gSet (chunk (Lof c s))]{qG c s} (m (g1Loc d)) ⇒ (tg1 m hpre d) @ (gSet (chunk (Lof c s))))
    ∗ (g2Loc d ⇝[gSet (chunk (Lof c s))]{qG c s} (m (g2Loc d)) ⇒ (tg2 m hpre d) @ (gSet (chunk (Lof c s)))))

theorem obl_post {thr : Thread nD τ} {A B C : sProp 𝕄} {O : CellTallies nD τ sig (HIx 2)} {W : Waits sig (HIx 2)} {q : Fin 2} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  iframe HA HB HC
  iexists W'; iframe HO
  ipureintro; exact fun p hp => (hW' p hp).imp_right Or.inl

abbrev xRes' (d : Dev nD) (c : Fin τ.nSC) (s : Fin τ.nSub) : sProp 𝕄 :=
  iprop((∃ ιwm : ℕ, wmInv (Ix := HIx 2) (Lvl := ℕ) emb ιwm)
    ∗ kit EK emb m hpre qP qG (cAcell d c s) ∗ kit EK emb m hpre qP qG (cBcell d c s) ∗ kit EK emb m hpre qP qG (cCcell d c s))

include EC in

theorem tileObl0' (P : (K (F := F)).Pay (nD := nD) (Val := Elt F) (Name := ℕ) (U := UU))
    (hgo : ∀ d c i, P.go 0 d c i = goRes emb m hpre qP qG q1 q2 d ((K (F := F)).core 0 c) ((K (F := F)).sub 0 i))
    (htd : ∀ d c i, P.td 0 d c i = tdRes emb m hpre qP qG q1 q2 d ((K (F := F)).core 0 c) ((K (F := F)).sub 0 i))
    (hx : ∀ d c i, P.x 0 (V d c i) = xRes' EK emb m hpre qP qG d c i)
    (hox : P.ox = fun _ _ => 0) (hF : (K (F := F)).Facts) :
    (K (F := F)).TileObl (D (F := F)) 𝒱 P v₀ 0 := by
  intro d c i O W hO _ _
  simp only [hox, add_zero]
  rw [hgo, htd, hx]
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  show (_ : sProp 𝕄) ⊢ _
  iintro ⟨HA, ⟨⟨%ι, HΦ⟩, HB⟩, HR⟩
  iapply ((tile_body EK EC emb m d (Lof ((K (F := F)).core 0 c) ((K (F := F)).sub 0 i)) hpre qP qG hF
    (ιwm := ι) (q1 := q1 _ _) (q2 := q2 _ _) O W hO).trans (wp_mono frame _ _ fun _ => obl_post))
  iframe HA HΦ
  isplitl [HB]; · iexact HB
  iexact HR

theorem vecSplit0 (P : (K (F := F)).Pay (nD := nD) (Val := Elt F) (Name := ℕ) (U := UU))
    (hgo : ∀ d c i, P.go 0 d c i = goRes emb m hpre qP qG q1 q2 d ((K (F := F)).core 0 c) ((K (F := F)).sub 0 i))
    (htd : ∀ d c i, P.td 0 d c i = tdRes emb m hpre qP qG q1 q2 d ((K (F := F)).core 0 c) ((K (F := F)).sub 0 i))
    (hst : ∀ d c, P.st 0 d c = bigSep Finset.univ fun i : Fin ((K (F := F)).nSub 0) =>
      goRes emb m hpre qP qG q1 q2 d ((K (F := F)).core 0 c) ((K (F := F)).sub 0 i))
    (hdn : ∀ d c, P.dn 0 d c = bigSep Finset.univ fun i : Fin ((K (F := F)).nSub 0) =>
      tdRes emb m hpre qP qG q1 q2 d ((K (F := F)).core 0 c) ((K (F := F)).sub 0 i)) :
    (K (F := F)).VecSplit' P 0 := by
  intro d c
  rw [hst, hdn, bigSep_congr fun i _ => hgo d c i, bigSep_congr fun i _ => htd d c i]
  iintro H; imodintro; iframe H
  iintro H; iexact H

end Obl

section Launch

variable (hpre : PreOK m) (qP qG : Fin τ.nSC → Fin τ.nSub → PosShare TreeShare)

def kCells0 : Finset (GSem nD τ sig) :=
  ((Finset.univ.image fun dci : Dev nD × Fin τ.nSC × Fin τ.nSub => cAcell dci.1 dci.2.1 dci.2.2)
    ∪ (Finset.univ.image fun dci : Dev nD × Fin τ.nSC × Fin τ.nSub => cBcell dci.1 dci.2.1 dci.2.2))
    ∪ (Finset.univ.image fun dci : Dev nD × Fin τ.nSC × Fin τ.nSub => cCcell dci.1 dci.2.1 dci.2.2)

def kToks0 : Finset (GSem nD τ sig × ℕ × Unit) := kCells0.map ⟨fun g => (g, 0, ()), fun _ _ e => (Prod.mk.inj e).1⟩

theorem inj3 (sm : SemLoc sig) {s : Set (Dev nD × Fin τ.nSC × Fin τ.nSub)} :
    Set.InjOn (fun dci => ((V dci.1 dci.2.1 dci.2.2, sm) : GSem nD τ sig)) s := by
  intro a _ b _ e
  obtain ⟨h1, h2⟩ := Prod.mk.inj (Prod.mk.inj e).1; obtain ⟨h3, h4⟩ := Proc.scVector.inj h2
  exact Prod.ext h1 (Prod.ext h3 h4)

theorem kits0 :
    (BI.own (EK (initOf kCells0 kToks0)) : sProp 𝕄)
      ⊢ iprop(|==> bigSep Finset.univ fun dci : Dev nD × Fin τ.nSC × Fin τ.nSub =>
          iprop(kit EK emb m hpre qP qG (cAcell dci.1 dci.2.1 dci.2.2) ∗ kit EK emb m hpre qP qG (cBcell dci.1 dci.2.1 dci.2.2)
            ∗ kit EK emb m hpre qP qG (cCcell dci.1 dci.2.1 dci.2.2))) := by
  refine (Rounds.fund EK (kRd emb m hpre qP qG) kCells0 kToks0).trans (BI.bupd_mono ?_)
  unfold kToks0 kCells0
  rw [bigSep_map, ← bigSep_sep', ← bigSep_sep', ← bigSep_sep',
    SparseCore.bigSep_union' (Finset.disjoint_union_left.mpr ⟨?_, ?_⟩), SparseCore.bigSep_union' ?_,
    SparseCore.bigSep_image_of_injOn (inj3 _) _, SparseCore.bigSep_image_of_injOn (inj3 _) _,
    SparseCore.bigSep_image_of_injOn (inj3 _) _, ← bigSep_sep', ← bigSep_sep']
  · refine bigSep_mono fun dci _ => ?_
    simp only [kit, Function.Embedding.coeFn_mk]
    show (_ : sProp 𝕄) ⊢ _
    iintro ⟨⟨⟨HsA, HrA, HaA, HtA⟩, HsB, HrB, HaB, HtB⟩, HsC, HrC, HaC, HtC⟩
    iframe
  all_goals
    refine Finset.disjoint_left.mpr fun g h1 h2 => ?_
    obtain ⟨a, -, rfl⟩ := Finset.mem_image.mp h1
    obtain ⟨b, -, e⟩ := Finset.mem_image.mp h2
    exact absurd (Prod.mk.inj e).2 (by decide)

end Launch

end Cert.Proof.E0
-- ==== Proof.KIFin.lean ====
import proofs.«204933_g4492535792355_cont_8to1_c_766_42_alg».proof.Proof.KIChain
import Idealize.ShloMosaic.Lib.Pipeline.Frame

noncomputable section

namespace Cert.Proof.KI

open Cert.KernelIdeal Cert.KernelIdeal.Gen

open Idealize.ShloMosaic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]
variable {U : Type} [URA U]

local notation "𝕄" => MT nD τ sig (HIx 2) (Elt F) ℕ U ℕ

variable (W5 : Dev nD → Valuation τ sig (Elt F))

abbrev FIN (d : Dev nD) : sProp 𝕄 := StableHlo.held (d.tc : Thread nD τ) (Pipeline.ucRefs τ sig) (W7 (U := U) W5 d)

def fq (d : Dev nD) (s' : Phys nD τ sig (Elt F)) : Prop :=
  ∀ b ∈ Pipeline.ucRefs τ sig, s'.mem.mem (d, b) = W7 (U := U) W5 d b

theorem hfin (d : Dev nD) (s' : Phys nD τ sig (Elt F)) : iprop(FIN (U := U) W5 d ∗ SI s') ⊢ (⌜fq (U := U) W5 d s'⌝ : sProp 𝕄) := by
  iintro ⟨Hh, HSI⟩
  unfold FIN StableHlo.held
  ihave H := (pointsTo_read_all (Pipeline.ucRefs τ sig) (fun b => (((d.tc : Thread nD τ)).1, b)) (W7 (U := U) W5 d) s') $$ [Hh HSI]
  · isplitl [Hh] <;> iassumption
  icases H with ⟨%h, -⟩
  ipureintro
  exact h

def QC : PUnit × MemSt nD τ sig (Elt F) → Prop :=
  fun r => ∀ c b, b ∈ Pipeline.ucRefs τ sig → r.2.mem (c, b) = W7 (U := U) W5 c b

theorem hQ : ∀ s' : Phys nD τ sig (Elt F), (∀ d, fq (U := U) W5 d s') → QC (U := U) W5 (⟨⟩, s'.mem) :=
  fun _ h c b hb => h c b hb

end Cert.Proof.KI
-- ==== Proof.KILaunch.lean ====
import proofs.«204933_g4492535792355_cont_8to1_c_766_42_alg».proof.Proof.KIFin

set_option Elab.async false

noncomputable section

namespace Cert.Proof.KI

open Cert.KernelIdeal Cert.KernelIdeal.Gen

open Idealize.ShloMosaic
open Idealize.ShloMosaic.SparseCore (S T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]
variable {U : Type} [URA U]

local notation "𝕄" => MT nD τ sig (HIx 2) (Elt F) ℕ U ℕ

variable (EH : Emb UH (MT nD τ sig (HIx 2) (Elt F) ℕ U ℕ)) (EP : Emb UP (MT nD τ sig (HIx 2) (Elt F) ℕ U ℕ))
variable (P : (K (F := F)).Pay (nD := nD) (Val := Elt F) (Name := ℕ) (U := U))

section Run

variable (m : (ℓ : Loc nD τ sig) → Buf (Elt F) ℓ) (ρ : Dev nD → PrngReg)
variable (hloc : Cert.Proof.C.PayLocal F)
variable (W1 W5 : Dev nD → Valuation τ sig (Elt F))

theorem ops_sub : (opReshapePos (F := F)).bufs ⊆ UC ∧ (opZero (F := F)).bufs ⊆ UC ∧ (opConvert (F := F)).bufs ⊆ UC
    ∧ (opPad (F := F)).bufs ⊆ UC ∧ (opReshapeLoss (F := F)).bufs ⊆ UC :=
  ⟨Pipeline.sub_ucRefs _ (StableHlo.reshape_bufs_sub ..), Pipeline.sub_ucRefs _ (StableHlo.nullary_bufs_sub ..),
    Pipeline.sub_ucRefs _ (StableHlo.unary_bufs_sub ..), Pipeline.sub_ucRefs _ (StableHlo.binary_bufs_sub ..),
    Pipeline.sub_ucRefs _ (StableHlo.reshape_bufs_sub ..)⟩

theorem waitPairs_none (cfg : Pipeline.Cfg sig Λ₀) : ∀ x ∈ cfg.waitPairs (none : HIx 2), x.2 = none :=
  fun x ⟨_, _, h⟩ => by rw [h]

abbrev GP (d : Dev nD) : sProp 𝕄 :=
  bigSep Finset.univ fun p : Fin 2 => iprop(Pipeline.cellsGhost (Pipeline.pin (pcfgs (F := F)) adm) EP p d ∗ Pipeline.toksInit (Pipeline.pin (pcfgs (F := F)) adm) EP p d)

include hloc in
set_option backward.isDefEq.respectTransparency.types false in
set_option maxHeartbeats 2000000 in

theorem hmain [∀ e, Nonempty (Elt F e)] [EP.LandsIn (upEmb : UEmb _ (MT nD τ sig (HIx 2) (Elt F) ℕ U ℕ))]
    (κ : GSem nD τ sig → ℕ) (d : Dev nD) (Inv : sProp 𝕄) [BI.Persistent Inv]
    (hcall0 : iprop(Inv ∗ (StableHlo.held (d.tc : Thread nD τ) UC (W0 m d) : sProp 𝕄))
      ⊢ iprop(|={Set.univ}=> ((bigSep Finset.univ fun c : Fin ((K (F := F)).nCore 0) => P.st 0 d c)
          ∗ ((bigSep Finset.univ fun c : Fin ((K (F := F)).nCore 0) => P.dn 0 d c) -∗ |={Set.univ}=> (StableHlo.held (d.tc : Thread nD τ) UC (W1 d) : sProp 𝕄)))))
    (hcall1 : iprop(Inv ∗ (StableHlo.held (d.tc : Thread nD τ) UC (W4 (U := U) W1 d) : sProp 𝕄))
      ⊢ iprop(|={Set.univ}=> ((bigSep Finset.univ fun c : Fin ((K (F := F)).nCore 1) => P.st 1 d c)
          ∗ ((bigSep Finset.univ fun c : Fin ((K (F := F)).nCore 1) => P.dn 1 d c) -∗ |={Set.univ}=> (StableHlo.held (d.tc : Thread nD τ) UC (W5 d) : sProp 𝕄))))) :
    iprop((K (F := F)).ctx EH P κ ∗ (K (F := F)).tcSt EH d 0 ∗ (K (F := F)).tcRes m ρ d ∗ (GP EP d ∗ Inv))
      ⊢ wp frame (wpE ((K (F := F)).defs (D (F := F))) 𝒱 (SparseCore.T d) none) Set.univ (main (F := F) d)
          fun _ => iprop((K (F := F)).tcSt EH d 2 ∗ FIN (U := U) W5 d) := by
  have hd := dev_eq d
  subst hd
  have hs := fun op => SparseCore.Cfg.wp_host_step (Name := ℕ) (U := U) (pcfgs (F := F)) (K (F := F)) (D (F := F)) 𝒱 dev0 op (S := UC)
  rw [main_shape]
  unfold SparseCore.Cfg.tcRes GP
  rw [show (unscopedBufs dev0 (fun b => m ((SparseCore.T dev0).loc b)) : sProp 𝕄) = StableHlo.held ((dev0 : Dev nD).tc : Thread nD τ) UC (W0 m dev0)
    from Pipeline.unscopedBufs_held dev0 (W0 m dev0), bigSep_W3]
  iintro ⟨#Hctx, Hst, ⟨Hb, Hh, -, Hp⟩, ⟨⟨Hg0, Ht0⟩, ⟨Hg1, Ht1⟩⟩, #Hinv⟩
  ihave #Hlv := (SparseCore.Cfg.ctx_levAts κ) $$ Hctx

  iapply (SparseCore.Cfg.wp_run_held (pcs := pcfgs (F := F)) (K := K (F := F)) (EH := EH) (Pay₀ := P) (D := D (F := F)) (𝒱 := 𝒱)
    κ dev0 0 UC (W0 m dev0) (W1 dev0) Inv hcall0)
  isplitr; · iexact Hctx
  isplitr; · iexact Hinv
  isplitl [Hst]; · iexact Hst
  isplitl [Hh]; · iexact Hh
  iintro ⟨Hst, Hh⟩

  iapply (hs (opReshapePos (F := F)) ops_sub.1 rfl (W1 dev0))
  isplitl [Hb]; · iexact Hb
  isplitl [Hh]; · iexact Hh
  iintro ⟨Hb, Hh⟩

  have hpre0 : iprop(iprop((StableHlo.held ((dev0 : Dev nD).tc : Thread nD τ) UC (W2 W1 dev0) : sProp 𝕄) ∗ ∃ r, prngReg dev0 r)
        ∗ Pipeline.owesWithin dev0 _ _)
      ⊢ (reg0 (U := U) hloc W1 W5).pre dev0 := sep_assoc
  have hpost0 : (reg0 (U := U) hloc W1 W5).post dev0
      ⊢ iprop(iprop((StableHlo.held ((dev0 : Dev nD).tc : Thread nD τ) UC (W3 (U := U) W1 dev0) : sProp 𝕄) ∗ ∃ r, prngReg dev0 r)
        ∗ Pipeline.owesWithin dev0 _ _) := sep_assoc'
  iapply (SparseCore.Cfg.wp_region_tcSt (pcs := pcfgs (F := F)) (a := adm) (K := K (F := F)) (pdats := pdats (U := U) W1 W5)
    (phinj := cellOf_inj) (EP := EP) (defs₀ := defs₀) (𝒱₀ := 𝒱₀) (EH := EH) (reg0 (U := U) hloc W1 W5) dev0 1 _ _
    (cfg1.waitPairs none) (waitPairs_none cfg1) hpre0 hpost0)
  isplitr [Hb Hh Hp Hst Hg0 Ht0]
  swap
  · isplitl [Hb]; · iexact Hb
    isplitl [Hh Hp]
    · isplitl [Hh]; · iexact Hh
      iexists _; iexact Hp
    isplitl [Hst]; · iexact Hst
    isplitr; · iexact Hlv
    isplitl [Hg0]; · iexact Hg0
    iexact Ht0
  iintro ⟨Hb, ⟨Hh, Hp⟩, Hst⟩

  iapply (hs (opZero (F := F)) ops_sub.2.1 rfl (W3 (U := U) W1 dev0))
  isplitl [Hb]; · iexact Hb
  isplitl [Hh]; · iexact Hh
  iintro ⟨Hb, Hh⟩
  simp only [bind_assoc, pure_bind]
  iapply (hs (opConvert (F := F)) ops_sub.2.2.1 rfl ((opZero (F := F)).result (W3 (U := U) W1 dev0)))
  isplitl [Hb]; · iexact Hb
  isplitl [Hh]; · iexact Hh
  iintro ⟨Hb, Hh⟩
  iapply (hs (opPad (F := F)) ops_sub.2.2.2.1 rfl ((opConvert (F := F)).result ((opZero (F := F)).result (W3 (U := U) W1 dev0))))
  isplitl [Hb]; · iexact Hb
  isplitl [Hh]; · iexact Hh
  iintro ⟨Hb, Hh⟩

  iapply (SparseCore.Cfg.wp_run_held (pcs := pcfgs (F := F)) (K := K (F := F)) (EH := EH) (Pay₀ := P) (D := D (F := F)) (𝒱 := 𝒱)
    κ dev0 1 UC (W4 (U := U) W1 dev0) (W5 dev0) Inv hcall1)
  isplitr; · iexact Hctx
  isplitr; · iexact Hinv
  isplitl [Hst]; · iexact Hst
  isplitl [Hh]; · iexact Hh
  iintro ⟨Hst, Hh⟩

  have hpre1 : iprop(iprop((StableHlo.held ((dev0 : Dev nD).tc : Thread nD τ) UC (W5 dev0) : sProp 𝕄) ∗ ∃ r, prngReg dev0 r)
        ∗ Pipeline.owesWithin dev0 _ _)
      ⊢ (reg1 (U := U) W1 W5).pre dev0 := sep_assoc
  have hpost1 : (reg1 (U := U) W1 W5).post dev0
      ⊢ iprop(iprop((StableHlo.held ((dev0 : Dev nD).tc : Thread nD τ) UC (W6 (U := U) W5 dev0) : sProp 𝕄) ∗ ∃ r, prngReg dev0 r)
        ∗ Pipeline.owesWithin dev0 _ _) := sep_assoc'
  iapply (SparseCore.Cfg.wp_region_tcSt (pcs := pcfgs (F := F)) (a := adm) (K := K (F := F)) (pdats := pdats (U := U) W1 W5)
    (phinj := cellOf_inj) (EP := EP) (defs₀ := defs₀) (𝒱₀ := 𝒱₀) (EH := EH) (reg1 (U := U) W1 W5) dev0 2 _ _
    (cfg3.waitPairs none) (waitPairs_none cfg3) hpre1 hpost1)
  isplitr [Hb Hh Hp Hst Hg1 Ht1]
  swap
  · isplitl [Hb]; · iexact Hb
    isplitl [Hh Hp]
    · isplitl [Hh]; · iexact Hh
      iexact Hp
    isplitl [Hst]; · iexact Hst
    isplitr; · iexact Hlv
    isplitl [Hg1]; · iexact Hg1
    iexact Ht1
  iintro ⟨Hb, ⟨Hh, Hp⟩, Hst⟩

  iapply (hs (opReshapeLoss (F := F)) ops_sub.2.2.2.2 rfl (W6 (U := U) W5 dev0))
  isplitl [Hb]; · iexact Hb
  isplitl [Hh]; · iexact Hh
  iintro ⟨Hb, Hh⟩
  rw [wp_pure]; imodintro
  isplitl [Hst]; · iexact Hst
  iexact Hh

end Run

end Cert.Proof.KI

end
-- ==== Proof.KIRun.lean ====
import proofs.«204933_g4492535792355_cont_8to1_c_766_42_alg».proof.Proof.KIPay
import proofs.«204933_g4492535792355_cont_8to1_c_766_42_alg».proof.Proof.Call0
import proofs.«204933_g4492535792355_cont_8to1_c_766_42_alg».proof.Proof.SplitA
import proofs.«204933_g4492535792355_cont_8to1_c_766_42_alg».proof.Proof.SplitC
import proofs.«204933_g4492535792355_cont_8to1_c_766_42_alg».proof.Proof.KILaunch

noncomputable section

namespace Cert.Proof.KI

open Cert.KernelIdeal Cert.KernelIdeal.Gen

open Idealize.ShloMosaic
open Idealize.ShloMosaic.SparseCore (T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig (HIx 2) (Elt F) ℕ (UU (F := F)) ℕ

section Run

variable (m : (ℓ : Loc nD τ sig) → Buf (Elt F) ℓ) (ρ : Dev nD → PrngReg) (hpre0 : Cert.Proof.E.PreOK m)

abbrev W1k : Dev nD → Valuation τ sig (Elt F) := Cert.Proof.SA.W1of m hpre0
abbrev W4k : Dev nD → Valuation τ sig (Elt F) := W4 (F := F) (U := UU (F := F)) (W1k m hpre0)
abbrev fstK (d : Dev nD) : Buf (Elt F) (Cert.Proof.F.stLoc d) := W4k m hpre0 d (Proc.devRef .tc main_v2_0)
abbrev fixK (d : Dev nD) : Buf (Elt F) (Cert.Proof.F.ixLoc d) := W4k m hpre0 d (Proc.devRef .tc main_v3)
abbrev W5k : Dev nD → Valuation τ sig (Elt F) := fun d => Cert.Proof.SC.W5of (W4k m hpre0 d)

abbrev go0k (d : Dev nD) (c : Fin ((K (F := F)).nCore 0)) (i : Fin ((K (F := F)).nSub 0)) : sProp 𝕄 :=
  Cert.Proof.E0.goRes (UU := UU (F := F)) (wmU (F := F)) m hpre0 Cert.Proof.SA.qH Cert.Proof.SA.qH Cert.Proof.SA.qT Cert.Proof.SA.qT d
    ((K (F := F)).core 0 c) ((K (F := F)).sub 0 i)
abbrev td0k (d : Dev nD) (c : Fin ((K (F := F)).nCore 0)) (i : Fin ((K (F := F)).nSub 0)) : sProp 𝕄 :=
  Cert.Proof.E0.tdRes (UU := UU (F := F)) (wmU (F := F)) m hpre0 Cert.Proof.SA.qH Cert.Proof.SA.qH Cert.Proof.SA.qT Cert.Proof.SA.qT d
    ((K (F := F)).core 0 c) ((K (F := F)).sub 0 i)
abbrev st0k (d : Dev nD) (c : Fin ((K (F := F)).nCore 0)) : sProp 𝕄 := bigSep Finset.univ fun i : Fin ((K (F := F)).nSub 0) => go0k m hpre0 d c i
abbrev dn0k (d : Dev nD) (c : Fin ((K (F := F)).nCore 0)) : sProp 𝕄 := bigSep Finset.univ fun i : Fin ((K (F := F)).nSub 0) => td0k m hpre0 d c i
abbrev X0k (d : Dev nD) (c : Fin τ.nSC) (i : Fin τ.nSub) : sProp 𝕄 :=
  iprop(Cert.Proof.E.kit (EK0 (F := F)) (wmU (F := F)) m hpre0 Cert.Proof.SA.qH Cert.Proof.SA.qH (Cert.Proof.E.cAcell d c i)
    ∗ Cert.Proof.E.kit (EK0 (F := F)) (wmU (F := F)) m hpre0 Cert.Proof.SA.qH Cert.Proof.SA.qH (Cert.Proof.E.cBcell d c i)
    ∗ Cert.Proof.E.kit (EK0 (F := F)) (wmU (F := F)) m hpre0 Cert.Proof.SA.qH Cert.Proof.SA.qH (Cert.Proof.E.cCcell d c i))

instance go0k_storable (d : Dev nD) (c : Fin ((K (F := F)).nCore 0)) (i : Fin ((K (F := F)).nSub 0)) :
    BI.Storable (upEmb : UEmb _ 𝕄) (go0k m hpre0 d c i) := by
  unfold go0k Cert.Proof.E0.goRes; infer_instance
instance td0k_storable (d : Dev nD) (c : Fin ((K (F := F)).nCore 0)) (i : Fin ((K (F := F)).nSub 0)) :
    BI.Storable (upEmb : UEmb _ 𝕄) (td0k m hpre0 d c i) := by
  unfold td0k Cert.Proof.E0.tdRes; infer_instance
instance st0k_storable (d : Dev nD) (c : Fin ((K (F := F)).nCore 0)) : BI.Storable (upEmb : UEmb _ 𝕄) (st0k m hpre0 d c) := by
  unfold st0k; infer_instance
instance dn0k_storable (d : Dev nD) (c : Fin ((K (F := F)).nCore 0)) : BI.Storable (upEmb : UEmb _ 𝕄) (dn0k m hpre0 d c) := by
  unfold dn0k; infer_instance

abbrev PK : (K (F := F)).Pay (nD := nD) (Val := Elt F) (Name := ℕ) (U := UU (F := F)) :=
  P (F := F) (fstK m hpre0) (fixK m hpre0) Cert.Proof.SC.qI (st0k m hpre0) (dn0k m hpre0) (go0k m hpre0) (td0k m hpre0) (X0k m hpre0)

def Lc0 (c : Fin 2) (s : Fin 16) : grid0.Coords := Cert.Proof.E0.Lof c s
def Lc1 (c : Fin 2) (s : Fin 16) : grid2.Coords := Cert.Proof.F.Lof c s

theorem hcall0 (d : Dev nD) :
    iprop(wmI (F := F) ∗ (StableHlo.held (d.tc : Thread nD τ) UC (W0 m d) : sProp 𝕄))
      ⊢ iprop(|={Set.univ}=> ((bigSep Finset.univ fun c : Fin ((K (F := F)).nCore 0) => (PK m hpre0).st 0 d c)
          ∗ ((bigSep Finset.univ fun c : Fin ((K (F := F)).nCore 0) => (PK m hpre0).dn 0 d c)
            -∗ |={Set.univ}=> (StableHlo.held (d.tc : Thread nD τ) UC (W1k m hpre0 d) : sProp 𝕄)))) := by
  unfold wmI
  iintro ⟨⟨%ι, #Hi⟩, Hh⟩
  iapply (Cert.Proof.SA.call0_held (UU := UU (F := F)) (wmU (F := F)) m hpre0 Lc0 (fun _ _ => rfl) (fun _ _ => rfl) (ιwm := ι) d)
  isplitr; · iexact Hi
  iexact Hh

theorem hcall1 (d : Dev nD) :
    iprop(wmI (F := F) ∗ (StableHlo.held (d.tc : Thread nD τ) UC (W4k m hpre0 d) : sProp 𝕄))
      ⊢ iprop(|={Set.univ}=> ((bigSep Finset.univ fun c : Fin ((K (F := F)).nCore 1) => (PK m hpre0).st 1 d c)
          ∗ ((bigSep Finset.univ fun c : Fin ((K (F := F)).nCore 1) => (PK m hpre0).dn 1 d c)
            -∗ |={Set.univ}=> (StableHlo.held (d.tc : Thread nD τ) UC (W5k m hpre0 d) : sProp 𝕄)))) := by
  iintro ⟨-, Hh⟩
  imodintro
  ihave H := (Cert.Proof.SC.call1_held_at (UU := UU (F := F)) Lc1 (fun _ _ => rfl) (fun _ _ => rfl) (fstK m hpre0) (fixK m hpre0) d (W4k m hpre0 d) rfl rfl) $$ Hh
  icases H with ⟨Hgo, Hback⟩
  isplitl [Hgo]; · iexact Hgo
  iintro Htd
  imodintro
  iapply Hback; iexact Htd

abbrev Gk (d : Dev nD) : sProp 𝕄 :=
  iprop((bigSep Finset.univ fun p : Fin 2 => iprop(Pipeline.cellsGhost (Pipeline.pin (pcfgs (F := F)) adm) (EP (F := F)) p d
      ∗ Pipeline.toksInit (Pipeline.pin (pcfgs (F := F)) adm) (EP (F := F)) p d)) ∗ wmI (F := F))

-- The whole run in @main's order: first gather, update region, padding of the index table, second gather, loss region.
theorem run_ki [∀ e, Nonempty (Elt F e)] (hpre1 : Cert.Proof.F.PreOK (fixK m hpre0))
    (hmainH : ∀ (κ : GSem nD τ sig → ℕ) (d : Dev nD),
      iprop((K (F := F)).ctx (EH (F := F)) (PK m hpre0) κ ∗ (K (F := F)).tcSt (EH (F := F)) d 0 ∗ (K (F := F)).tcRes m ρ d ∗ Gk (F := F) d)
        ⊢ wp frame (wpE ((K (F := F)).defs (D (F := F))) 𝒱 (T d) none) Set.univ (main (F := F) d)
            fun _ => iprop((K (F := F)).tcSt (EH (F := F)) d 2 ∗ FIN (U := UU (F := F)) (W5k m hpre0) d)) :
    θ_run (Cert.KernelIdeal.defs (F := F)) (Cert.KernelIdeal.threads (F := F)) ⟨m, fun _ => 0, ρ⟩ (QC (U := UU (F := F)) (W5k m hpre0)) :=
  SparseCore.Cfg.θ_run_sc (K := K (F := F)) (D := D (F := F)) (𝒱 := 𝒱) (EH := EH (F := F)) (P := PK m hpre0) facts v₀
    (fun q hq => match q with
      | 0 => nomatch hq
      | 1 => nomatch hq)
    (fun q _ => match q with
      | 0 => Cert.Proof.E0.tileObl0' (EK0 (F := F)) (EC (F := F)) (wmU (F := F)) m hpre0 Cert.Proof.SA.qH Cert.Proof.SA.qH Cert.Proof.SA.qT Cert.Proof.SA.qT
          (PK m hpre0) (fun _ _ _ => rfl) (fun _ _ _ => rfl) (fun _ _ _ => rfl) rfl facts
      | 1 => Cert.Proof.F1.tileObl1 (EK1 (F := F)) (fstK m hpre0) (fixK m hpre0) Cert.Proof.SC.qI (PK m hpre0)
          (fun _ _ _ => rfl) (fun _ _ _ => rfl) (fun _ _ _ => rfl) rfl facts hpre1)
    (fun q _ => match q with
      | 0 => SparseCore.Cfg.VecSplit.of_plain (Cert.Proof.E0.vecSplit0 (wmU (F := F)) m hpre0 Cert.Proof.SA.qH Cert.Proof.SA.qH Cert.Proof.SA.qT Cert.Proof.SA.qT
          (PK m hpre0) (fun _ _ _ => rfl) (fun _ _ _ => rfl) (fun _ _ => rfl) (fun _ _ => rfl))
      | 1 => SparseCore.Cfg.VecSplit.of_plain (Cert.Proof.F1.vecSplit1 (fstK m hpre0) (fixK m hpre0) Cert.Proof.SC.qI (PK m hpre0)
          (fun _ _ => rfl) (fun _ _ => rfl) (fun _ _ _ => rfl) (fun _ _ _ => rfl)))
    m ρ main (Gk (F := F)) (FIN (U := UU (F := F)) (W5k m hpre0)) (u₀ (F := F) Cert.Proof.E0.kCells0 Cert.Proof.E0.kToks0)
    (hu₀ (F := F) (fstK m hpre0) (fixK m hpre0) Cert.Proof.SC.qI (st0k m hpre0) (dn0k m hpre0) (go0k m hpre0) (td0k m hpre0) (X0k m hpre0)
      Cert.Proof.E0.kCells0 Cert.Proof.E0.kToks0 ⟨m, fun _ => 0, ρ⟩
      (Cert.Proof.E0.kits0 (EK0 (F := F)) (wmU (F := F)) m hpre0 Cert.Proof.SA.qH Cert.Proof.SA.qH))
    hmainH (fq (U := UU (F := F)) (W5k m hpre0)) (hfin (U := UU (F := F)) (W5k m hpre0))
    (QC (U := UU (F := F)) (W5k m hpre0)) (hQ (U := UU (F := F)) (W5k m hpre0))

theorem run_ki' [∀ e, Nonempty (Elt F e)] (hloc : Cert.Proof.C.PayLocal F) (hpre1 : Cert.Proof.F.PreOK (fixK m hpre0)) :
    θ_run (Cert.KernelIdeal.defs (F := F)) (Cert.KernelIdeal.threads (F := F)) ⟨m, fun _ => 0, ρ⟩ (QC (U := UU (F := F)) (W5k m hpre0)) :=
  run_ki m ρ hpre0 hpre1 fun κ d =>
    hmain (EH (F := F)) (EP (F := F)) (PK m hpre0) m ρ hloc (W1k m hpre0) (W5k m hpre0) κ d (wmI (F := F)) (hcall0 m hpre0 d) (hcall1 m hpre0 d)

end Run

end Cert.Proof.KI

end
-- ==== Proof.KIFinal.lean ====
import proofs.«204933_g4492535792355_cont_8to1_c_766_42_alg».proof.Proof.KIFacts
import proofs.«204933_g4492535792355_cont_8to1_c_766_42_alg».proof.Proof.KIRun

noncomputable section

namespace Cert.Proof.KC

open Cert.KernelIdeal Cert.KernelIdeal.Gen
open Idealize.ShloMosaic
open Idealize.SL Idealize.SL.RA Idealize.SL.BI Idealize.SL.Sem
open Cert.Proof.KI Cert.Proof.KV

theorem run_ki_ideal : ∀ (m : (ℓ : Loc nD τ sig) → Buf (Elt Ideal) ℓ) (ρ : Dev nD → PrngReg) (h0 : Cert.Proof.E.PreOK m)
    (h1 : Cert.Proof.F.PreOK (F := Ideal) (fun d => W4 (U := UU (F := Ideal)) (fun d => Cert.Proof.SA.W1of m h0 d) d (Proc.devRef .tc main_v3))),
    RunsTo (U := UU (F := Ideal)) m ρ (fun d => Cert.Proof.SC.W5of (W4 (U := UU (F := Ideal)) (fun d => Cert.Proof.SA.W1of m h0 d) d)) :=
  fun m ρ h0 h1 => Cert.Proof.KI.run_ki' m ρ h0 Cert.Proof.C.payLocal_ideal h1

-- The idealized kernel's frame is its value-carrying run with the values dropped.
theorem frame_KernelIdeal [hKernelIdeal : Cert.KernelIdeal.Facts] [hPre_input_domain : Cert.Pre_input_domain.Facts] :
    Cert.frame_KernelIdeal (hKernelIdeal := hKernelIdeal) (hPre_input_domain := hPre_input_domain) :=
  frame_ki (U := UU (F := Ideal)) (run_facts_of_run run_ki_ideal)

-- Loss and both updated banks agree with the reference because each is the same function of the six arguments.
theorem algebraic_KernelIdeal_ReferenceIdeal [hKernelIdeal : Cert.KernelIdeal.Facts] [hReferenceIdeal : Cert.ReferenceIdeal.Facts]
    [hPre_input_domain : Cert.Pre_input_domain.Facts] :
    Cert.algebraic_KernelIdeal_ReferenceIdeal (hKernelIdeal := hKernelIdeal) (hReferenceIdeal := hReferenceIdeal)
      (hPre_input_domain := hPre_input_domain) :=
  algebraic (U := UU (F := Ideal)) (run_facts_of_run run_ki_ideal)

end Cert.Proof.KC

end
-- ==== Proof.KICommonK.lean ====
import proofs.«204933_g4492535792355_cont_8to1_c_766_42_alg».proof.Defs
import Idealize.ShloMosaic.Lib.SparseCore.Launch
import Idealize.ShloMosaic.Lib.SparseCore.Ops
import Idealize.ShloMosaic.Lib.StableHlo.Run
import Idealize.ShloMosaic.Lib.Pipeline.Regions
import Idealize.ShloMosaic.Lib.Tactic
import proofs.«204933_g4492535792355_cont_8to1_c_766_42_alg».proof.Proof.Gen.Kernel.Launch

noncomputable section

namespace Cert.Proof.KIK

open Cert.Kernel Cert.Kernel.Gen

open Idealize.ShloMosaic
open Idealize.ShloMosaic.SparseCore (V)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

abbrev ΛP [FloatOps F] : Labels := Pipeline.Sig Λ₀ (Fin 2) fun p => (pcfgs (F := F) p).Adm
abbrev K [FloatOps F] : SparseCore.Cfg τ sig (ΛP (F := F)) 2 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts [FloatOps F] : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev UH : Type := URounds (GSem nD τ sig) ℕ
abbrev UP : Type := URounds (GSem nD τ sig) Unit

abbrev adm [FloatOps F] : (p : Fin 2) → (pcfgs (F := F) p).Adm := fun p => (cfgs p).toPCfg_adm

end Cert.Proof.KIK

end
-- ==== Proof.TileCK.lean ====
import proofs.«204933_g4492535792355_cont_8to1_c_766_42_alg».proof.Proof.Gen.Kernel.Skeleton
import Idealize.ShloMosaic.Lib.SparseCore.Launch
import Idealize.ShloMosaic.Lib.SparseCore.Ops
import Idealize.ShloMosaic.Lib.Tactic

noncomputable section

namespace Cert.Proof.FK

open Cert.Kernel Cert.Kernel.Gen

open Idealize.ShloMosaic
open Idealize.ShloMosaic.SparseCore (S V T)
open Idealize.ShloMosaic.SparseCore.Cfg (HIx ownBufs ownSems0 ownCells ownRefs mem_ownCells)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

abbrev cV (L : grid2.Coords) : Fin τ.nSC := (L 0).castLE hcore2
abbrev sV (L : grid2.Coords) : Fin τ.nSub := (L 1).castLE hsub2

abbrev stV : Memref sig .scVector .hbm S256x100000 .f32 := Memref.whole main_v2_0_scv
abbrev ixV : Memref sig .scVector .hbm S128x4112 .i32 := Memref.whole main_v3_scv
abbrev rV : Memref sig .scVector .hbm S256x4112 .f32 := Memref.whole main_v4_scv
abbrev s0 : Memref sig .scVector .vmem S100000 .f32 := Memref.whole cc2_scratch0
abbrev s1 : Memref sig .scVector .vmem S4112 .i32 := Memref.whole cc2_scratch1
abbrev s2 : Memref sig .scVector .vmem S4112 .f32 := Memref.whole cc2_scratch2

theorem hsemN (n : Fin 17) : 19 + n.val + S_.numel ≤ 38 := by
  have h1 : S_.numel = 1 := by decide
  have := n.isLt
  omega
def semsN (n : Fin 17) : DmaSems sig S_ := SemArray.consecutive (19 + n.val) S_ (hsemN n)

def semA (j : Fin 8) : DmaSems sig S_ := semsN ⟨1 + 2 * j.val, by have := j.isLt; omega⟩
def semB (j : Fin 8) : DmaSems sig S_ := semsN ⟨2 + 2 * j.val, by have := j.isLt; omega⟩
abbrev semS : DmaSems sig S_ := cc2_scratch3

abbrev stRow1 (L : grid2.Coords) (j : Fin 8) : Memref sig .scVector .hbm S1x100000 .f32 :=
  (stV).slice (Rect.unit (s := S256x100000) (k2_off1 L (BitVec.ofNat 32 j.val)) S1x100000.size (k2_off1_inb L j)) (fun _ => rfl)
abbrev stRowK (L : grid2.Coords) (j : Fin 8) : Memref sig .scVector .hbm S100000 .f32 :=
  (stRow1 L j).squeeze S100000 squeezes_S1x100000_S100000
abbrev ixRow1 (L : grid2.Coords) (j : Fin 8) : Memref sig .scVector .hbm S1x4112 .i32 :=
  (ixV).slice (Rect.unit (s := S128x4112) (k2_off2 L (BitVec.ofNat 32 j.val)) S1x4112.size (k2_off2_inb L j)) (fun _ => rfl)
abbrev ixRowK (L : grid2.Coords) (j : Fin 8) : Memref sig .scVector .hbm S4112 .i32 :=
  (ixRow1 L j).squeeze S4112 squeezes_S1x4112_S4112
abbrev rRow1 (L : grid2.Coords) (j : Fin 8) : Memref sig .scVector .hbm S1x4112 .f32 :=
  (rV).slice (Rect.unit (s := S256x4112) (k2_off5 L (BitVec.ofNat 32 j.val)) S1x4112.size (k2_off5_inb L j)) (fun _ => rfl)
abbrev rRowK (L : grid2.Coords) (j : Fin 8) : Memref sig .scVector .hbm S4112 .f32 :=
  (rRow1 L j).squeeze S4112 squeezes_S1x4112_S4112

def tBody (L : grid2.Coords) : Fin k2_t1_loop.trips → Unit → Prog (TpuEff nD τ sig (Elt F) Λ₀ (.scVector (cV L) (sV L))) Unit :=
  fun t _ => do
    let v237 : Vec F S16 .i32 ← Prog.lift (.load s1 (Rect.unit (s := S4112) (k2_off3 t) S16.size (k2_off3_inb t)).toLoadRect (View.loadsAt_vmem h_S16))
    have hw : k2_chk1 v237 := (← Prog.lift (TpuEff.assume (k2_chk1 v237) (k2_chk1.dec v237))).down
    let v238 : Vec F S16 .f32 ← SparseCore.vectorLoadIdx s0 ![v237] (k2_idx1_inb v237 hw) (View.loads_vmem h_S100000)
    let _v241 : Vec F S16 .f32 ← Prog.lift (.load s2 (Rect.unit (s := S4112) (k2_off4 t) S16.size (k2_off4_inb t)).toLoadRect (View.loadsAt_vmem h_S16))
    Prog.lift (.store s2 (Rect.unit (s := S4112) (k2_off4 t) S16.size (k2_off4_inb t)) v238 Finset.univ (View.stores_vmem_bits_univ h_S16 rfl) (.inl rfl))
    pure ⟨⟩

def rowK {α : Type} (L : grid2.Coords) (j : Fin 8) (k : Prog (TpuEff nD τ sig (Elt F) Λ₀ (.scVector (cV L) (sV L))) α) :
    Prog (TpuEff nD τ sig (Elt F) Λ₀ (.scVector (cV L) (sV L))) α :=
  .op (.enqueueDma (stRowK L j) (.here s0) (.dma semS.sem) ((View.wordExact_bits rfl).reshape _ _) (Memref.isWhole_whole _).wordExact ⟨Or.inl rfl, trivial⟩) fun _ =>
  .op (.enqueueDma (ixRowK L j) (.here s1) (.dma (semA j).sem) ((View.wordExact_bits rfl).reshape _ _) (Memref.isWhole_whole _).wordExact ⟨Or.inl rfl, trivial⟩) fun _ =>
  .op (.waitDma2 (semA j).sem (ixRowK L j) s1 ((View.wordExact_bits rfl).reshape _ _) (Memref.isWhole_whole _).wordExact) fun _ =>
  .op (.waitDma2 semS.sem (stRowK L j) s0 ((View.wordExact_bits rfl).reshape _ _) (Memref.isWhole_whole _).wordExact) fun _ =>
  (Scf.Loop.for k2_t1_loop k2_t1_ok ⟨⟩ (tBody (F := F) L)) >>= fun _ =>
  .op (.enqueueDma s2 (.here (rRowK L j)) (.dma (semB j).sem) (Memref.isWhole_whole _).wordExact ((View.wordExact_bits rfl).reshape _ _) ⟨Or.inl rfl, trivial⟩) fun _ =>
  .op (.waitDma2 (semB j).sem s2 (rRowK L j) (Memref.isWhole_whole _).wordExact ((View.wordExact_bits rfl).reshape _ _)) fun _ => k

theorem body_eq (L : grid2.Coords) :
    cc2__stage_c_body (F := F) L stV (Memref.isWhole_whole _) ixV (Memref.isWhole_whole _) rV (Memref.isWhole_whole _)
        s0 (Memref.isWhole_whole _) s1 (Memref.isWhole_whole _) s2 (Memref.isWhole_whole _) cc2_scratch3
        cc2_scoped0 cc2_scoped1 cc2_scoped2 cc2_scoped3 cc2_scoped4 cc2_scoped5 cc2_scoped6 cc2_scoped7
        cc2_scoped8 cc2_scoped9 cc2_scoped10 cc2_scoped11 cc2_scoped12 cc2_scoped13 cc2_scoped14 cc2_scoped15
      = rowK L 0 (rowK L 1 (rowK L 2 (rowK L 3 (rowK L 4 (rowK L 5 (rowK L 6 (rowK L 7 (.ret ⟨⟩)))))))) := by
  rw [cc2__stage_c_body_eq_skeleton]
  unfold cc2__stage_c_body_skel
  rw [k2_part1_eq_skeleton, k2_part2_eq_skeleton, k2_part3_eq_skeleton, k2_part4_eq_skeleton, k2_part5_eq_skeleton,
    k2_part6_eq_skeleton, k2_part7_eq_skeleton, k2_part8_eq_skeleton, k2_part9_eq_skeleton, k2_part10_eq_skeleton]
  unfold k2_part1_skel k2_part2_skel k2_part3_skel k2_part4_skel k2_part5_skel k2_part6_skel k2_part7_skel k2_part8_skel
    k2_part9_skel k2_part10_skel rowK
  simp only [Prog.lift, Prog.bind_op, Prog.bind_ret, Prog.pure_eq_ret, Prog.bind_assoc]
  rfl

variable {UU : Type} [URA UU]

local notation "𝕄" => MT nD τ sig (HIx 2) (Elt F) ℕ UU ℕ

abbrev ΛP : Labels := Pipeline.Sig Λ₀ (Fin 2) fun p => (pcfgs (F := F) p).Adm
abbrev K : SparseCore.Cfg τ sig (ΛP (F := F)) 2 := sc (F := F)
abbrev 𝒱₀ : Variants := Variants.none

abbrev UK : Type := URounds (GSem nD τ sig) Unit

abbrev stLoc (d : Dev nD) : Loc nD τ sig := (SparseCore.T d).loc main_v2_0
abbrev ixLoc (d : Dev nD) : Loc nD τ sig := (SparseCore.T d).loc main_v3
abbrev rLoc (d : Dev nD) : Loc nD τ sig := (SparseCore.T d).loc main_v4

def Lof (c : Fin τ.nSC) (s : Fin τ.nSub) : grid2.Coords :=
  fun | 0 => (⟨c.val, c.isLt⟩ : Fin (grid2.bound 0)) | 1 => (⟨s.val, s.isLt⟩ : Fin (grid2.bound 1)) | ⟨_ + 2, h⟩ => absurd h (Nat.not_lt.2 (Nat.le_add_left _ _))
omit [FloatOps F] in
theorem Lof_eq (L : grid2.Coords) : Lof (cV L) (sV L) = L := by
  funext a
  match a with
  | 0 => rfl
  | 1 => rfl
omit [FloatOps F] in
theorem cV_Lof (c : Fin τ.nSC) (s : Fin τ.nSub) : cV (Lof c s) = c := rfl
omit [FloatOps F] in
theorem sV_Lof (c : Fin τ.nSC) (s : Fin τ.nSub) : sV (Lof c s) = s := rfl

def colOf (w : BitVec 32) : S100000.Idx := Shape.ofLane (d := ![100000]) ⟨w.toNat % 100000, Nat.mod_lt _ (by decide)⟩

section Contents

variable (fst : (d : Dev nD) → Buf (Elt F) (stLoc d)) (fix : (d : Dev nD) → Buf (Elt F) (ixLoc d))

def StHolds (d : Dev nD) (c : Fin τ.nSC) (s : Fin τ.nSub) (L : grid2.Coords) (j : Fin 8) (f : Buf (Elt F) ((V d c s).loc cc2_scratch0)) : Prop :=
  ∀ k, f k = fst d ((stRowK L j).view.emb k)

def IxHolds (d : Dev nD) (c : Fin τ.nSC) (s : Fin τ.nSub) (L : grid2.Coords) (j : Fin 8) (f : Buf (Elt F) ((V d c s).loc cc2_scratch1)) : Prop :=
  ∀ k, f k = fix d ((ixRowK L j).view.emb k)

def RHolds (d : Dev nD) (L : grid2.Coords) (j : Fin 8) (f : Buf (Elt F) (rLoc d)) : Prop :=
  ∀ k : S4112.Idx, f ((rRowK L j).view.emb k) = fst d ((stRowK L j).view.emb (colOf (fix d ((ixRowK L j).view.emb k))))

def PreOK : Prop := ∀ (d : Dev nD) (L : grid2.Coords) (j : Fin 8) (k : S4112.Idx), (fix d ((ixRowK L j).view.emb k)).toNat < 100000

end Contents

abbrev cellS (d : Dev nD) (c : Fin τ.nSC) (s : Fin τ.nSub) : GSem nD τ sig := (V d c s, .dma semS.sem)
abbrev cellA (d : Dev nD) (c : Fin τ.nSC) (s : Fin τ.nSub) (j : Fin 8) : GSem nD τ sig := (V d c s, .dma (semA j).sem)
abbrev cellB (d : Dev nD) (c : Fin τ.nSC) (s : Fin τ.nSub) (j : Fin 8) : GSem nD τ sig := (V d c s, .dma (semB j).sem)

abbrev NS : ℕ := (s0 : Memref sig .scVector .vmem S100000 .f32).view.dmaCredit
abbrev NA : ℕ := (s1 : Memref sig .scVector .vmem S4112 .i32).view.dmaCredit
abbrev NB : ℕ := sig.dmaCredit .scVector (Kind.scVector.table .hbm) (main_v4_scv : Ref sig .scVector).idx S4112 .f32
theorem NS_pos : 0 < NS := View.dmaCredit_pos _ (by decide)
theorem NA_pos : 0 < NA := View.dmaCredit_pos _ (by decide)
theorem NB_pos : 0 < NB := sig.dmaCredit_pos _ _ _ _ _ (by decide)

inductive CK | S | A (j : Fin 8) | B (j : Fin 8)
  deriving DecidableEq

def kindOf (v : ℕ) : Option CK :=
  if v = 19 then some .S
  else if h : 20 ≤ v ∧ v < 36 then (if (v - 20) % 2 = 0 then some (.A ⟨(v - 20) / 2, by omega⟩) else some (.B ⟨(v - 20) / 2, by omega⟩))
  else none
theorem kindOf_S : kindOf 19 = some .S := by decide
theorem kindOf_A : ∀ j : Fin 8, kindOf (20 + 2 * j.val) = some (.A j) := by decide
theorem kindOf_B : ∀ j : Fin 8, kindOf (21 + 2 * j.val) = some (.B j) := by decide

def cellKind (g : GSem nD τ sig) : Option CK :=
  match g with
  | ((_, .scVector _ _), .dma sm) => kindOf sm.val
  | _ => none

theorem semS_val : (semS.sem : DmaSem sig).val = 19 := by decide
theorem semA_val : ∀ j : Fin 8, ((semA j).sem : DmaSem sig).val = 20 + 2 * j.val := by decide
theorem semB_val : ∀ j : Fin 8, ((semB j).sem : DmaSem sig).val = 21 + 2 * j.val := by decide

@[simp] theorem cellKind_S (d : Dev nD) (c : Fin τ.nSC) (s : Fin τ.nSub) : cellKind (cellS d c s) = some .S := by
  show kindOf (semS.sem : DmaSem sig).val = _; rw [semS_val, kindOf_S]
@[simp] theorem cellKind_A (d : Dev nD) (c : Fin τ.nSC) (s : Fin τ.nSub) (j : Fin 8) : cellKind (cellA d c s j) = some (.A j) := by
  show kindOf ((semA j).sem : DmaSem sig).val = _; rw [semA_val, kindOf_A]
@[simp] theorem cellKind_B (d : Dev nD) (c : Fin τ.nSC) (s : Fin τ.nSub) (j : Fin 8) : cellKind (cellB d c s j) = some (.B j) := by
  show kindOf ((semB j).sem : DmaSem sig).val = _; rw [semB_val, kindOf_B]

def nRounds : CK → ℕ
  | .S => 8
  | _ => 1

section Sched

variable (fst : (d : Dev nD) → Buf (Elt F) (stLoc d)) (fix : (d : Dev nD) → Buf (Elt F) (ixLoc d))
variable (qI : Dev nD → Fin τ.nSC → Fin τ.nSub → PosShare TreeShare)

def payS (d : Dev nD) (c : Fin τ.nSC) (s : Fin τ.nSub) (j : Fin 8) : sProp 𝕄 :=
  iprop((∃ f, ⌜StHolds fst d c s (Lof c s) j f⌝ ∗ (V d c s).loc cc2_scratch0 ↦{fullShare} f)
    ∗ stLoc d ↦[(stRowK (Lof c s) j).view.set]{fullShare} fst d)
def payA (d : Dev nD) (c : Fin τ.nSC) (s : Fin τ.nSub) (j : Fin 8) : sProp 𝕄 :=
  iprop((∃ f, ⌜IxHolds fix d c s (Lof c s) j f⌝ ∗ (V d c s).loc cc2_scratch1 ↦{fullShare} f)
    ∗ ixLoc d ↦[(ixRowK (Lof c s) j).view.set]{qI d c s} fix d)
def payB (d : Dev nD) (c : Fin τ.nSC) (s : Fin τ.nSub) (j : Fin 8) : sProp 𝕄 :=
  iprop((∃ f, ⌜RHolds fst fix d (Lof c s) j f⌝ ∗ rLoc d ↦[(rRowK (Lof c s) j).view.set]{fullShare} f)
    ∗ ∃ f, (V d c s).loc cc2_scratch2 ↦{fullShare} f)

def payOf (d : Dev nD) (c : Fin τ.nSC) (s : Fin τ.nSub) : CK → ℕ → sProp 𝕄
  | .S, r => if h : r < 8 then payS (UU := UU) fst d c s ⟨r, h⟩ else iprop(emp)
  | .A j, _ => payA (UU := UU) fix qI d c s j
  | .B j, _ => payB (UU := UU) fst fix d c s j

def kPay (g : GSem nD τ sig) (r : ℕ) : sProp 𝕄 :=
  match g with
  | ((d, .scVector c s), .dma sm) =>
    match kindOf sm.val with
    | some k => payOf (UU := UU) fst fix qI d c s k r
    | none => iprop(emp)
  | _ => iprop(emp)

def kRd : Rounds.Schedule (GSem nD τ sig) Unit 𝕄 where
  duties g r := match cellKind g with | some k => if r < nRounds k then {()} else ∅ | none => ∅
  amount g _ _ := match cellKind g with | some .S => NS | some (.A _) => NA | some (.B _) => NB | none => 1
  payload g r _ := kPay (UU := UU) fst fix qI g r
  amount_pos g _ _ _ := by
    rcases cellKind g with _ | ⟨_ | _ | _⟩
    · exact Nat.one_pos
    · exact NS_pos
    · exact NA_pos
    · exact NB_pos

instance kRd_payload_storable (g : GSem nD τ sig) (r : ℕ) (u : Unit) :
    BI.Storable (upEmb : UEmb _ 𝕄) ((kRd (UU := UU) fst fix qI).payload g r u) := by
  show BI.Storable upEmb (kPay (UU := UU) fst fix qI g r)
  unfold kPay
  rcases g with ⟨⟨d, _ | c | ⟨c, s⟩⟩, _ | sm⟩ <;> dsimp only <;> try infer_instance
  cases kindOf sm.val with
  | none => dsimp only; infer_instance
  | some k =>
    dsimp only
    cases k with
    | S => unfold payOf; dsimp only; split <;> (try unfold payS) <;> infer_instance
    | A j => unfold payOf payA; dsimp only; infer_instance
    | B j => unfold payOf payB; dsimp only; infer_instance

variable {g : GSem nD τ sig} {k : CK} {r : ℕ}

end Sched

section Values

variable (d : Dev nD) (c : Fin τ.nSC) (s : Fin τ.nSub)

abbrev rI (t : Fin k2_t1_loop.trips) : Rect S4112 := Rect.unit (s := S4112) (k2_off3 t) S16.size (k2_off3_inb t)
abbrev rT (t : Fin k2_t1_loop.trips) : Rect S4112 := Rect.unit (s := S4112) (k2_off4 t) S16.size (k2_off4_inb t)

theorem chk_of_lt (g1 : Buf (Elt F) ((V d c s).loc cc2_scratch1)) (hlt : ∀ x : S4112.Idx, (g1 x).toNat < 100000) (t : Fin k2_t1_loop.trips) :
    k2_chk1 ((s1 : Memref sig .scVector .vmem S4112 .i32).view.readAt (Elt F) (rI t).toLoadRect g1) := by
  intro a x
  obtain rfl : a = 0 := Subsingleton.elim _ _
  show ((s1 : Memref sig .scVector .vmem S4112 .i32).view.readAt (Elt F) (rI t).toLoadRect g1 x).toNat < 100000
  simp only [View.readAt_apply, Memref.view_whole, View.read_whole]
  exact hlt _

end Values

section Tile

variable (EK : Emb UK (MT nD τ sig (HIx 2) (Elt F) ℕ UU ℕ)) [EK.LandsIn (upEmb : UEmb _ (MT nD τ sig (HIx 2) (Elt F) ℕ UU ℕ))]
variable (fst : (d : Dev nD) → Buf (Elt F) (stLoc d)) (fix : (d : Dev nD) → Buf (Elt F) (ixLoc d))
variable (qI : Dev nD → Fin τ.nSC → Fin τ.nSub → PosShare TreeShare)
variable (d : Dev nD) (L : grid2.Coords)

local notation "𝕋" => (V d (cV L) (sV L) : Thread nD τ)

omit [FloatOps F] in
theorem pts_s0 (f : Buf (Elt F) ((𝕋).loc cc2_scratch0)) :
    ((s0 : Memref sig .scVector .vmem S100000 .f32).view.loc 𝕋 ↦[(s0 : Memref sig .scVector .vmem S100000 .f32).view.set]{fullShare} f : sProp 𝕄)
      = (𝕋).loc cc2_scratch0 ↦{fullShare} f := by
  simp only [Memref.view_whole, View.set_whole]
omit [FloatOps F] in
theorem pts_s0_access (f : Buf (Elt F) ((𝕋).loc cc2_scratch0)) :
    (((s0 : Memref sig .scVector .vmem S100000 .f32).access (.whole S100000)).loc 𝕋 ↦{fullShare} f : sProp 𝕄) = (𝕋).loc cc2_scratch0 ↦{fullShare} f := rfl
omit [FloatOps F] in
theorem pts_s1 (f : Buf (Elt F) ((𝕋).loc cc2_scratch1)) :
    ((s1 : Memref sig .scVector .vmem S4112 .i32).view.loc 𝕋 ↦[(s1 : Memref sig .scVector .vmem S4112 .i32).view.set]{fullShare} f : sProp 𝕄)
      = (𝕋).loc cc2_scratch1 ↦{fullShare} f := by
  simp only [Memref.view_whole, View.set_whole]
omit [FloatOps F] in
theorem pts_s1_univ (f : Buf (Elt F) ((𝕋).loc cc2_scratch1)) :
    ((s1 : Memref sig .scVector .vmem S4112 .i32).view.loc 𝕋 ↦{fullShare} f : sProp 𝕄) = (𝕋).loc cc2_scratch1 ↦{fullShare} f := rfl
omit [FloatOps F] in
theorem pts_s2 (f : Buf (Elt F) ((𝕋).loc cc2_scratch2)) :
    ((s2 : Memref sig .scVector .vmem S4112 .f32).view.loc 𝕋 ↦[(s2 : Memref sig .scVector .vmem S4112 .f32).view.set]{fullShare} f : sProp 𝕄)
      = (𝕋).loc cc2_scratch2 ↦{fullShare} f := by
  simp only [Memref.view_whole, View.set_whole]
omit [FloatOps F] in
theorem pts_s2_univ (f : Buf (Elt F) ((𝕋).loc cc2_scratch2)) :
    ((s2 : Memref sig .scVector .vmem S4112 .f32).view.loc 𝕋 ↦{fullShare} f : sProp 𝕄) = (𝕋).loc cc2_scratch2 ↦{fullShare} f := rfl
omit [FloatOps F] in
theorem pts_s2_access (r : Rect S4112) (f : Buf (Elt F) ((𝕋).loc cc2_scratch2)) :
    (((s2 : Memref sig .scVector .vmem S4112 .f32).access r).loc 𝕋 ↦{fullShare} f : sProp 𝕄) = (𝕋).loc cc2_scratch2 ↦{fullShare} f := rfl
omit [FloatOps F] in
theorem pts_stRow (j : Fin 8) (f : Buf (Elt F) (stLoc d)) :
    ((stRowK L j).view.loc 𝕋 ↦[(stRowK L j).view.set]{fullShare} f : sProp 𝕄) = stLoc d ↦[(stRowK L j).view.set]{fullShare} f := rfl
omit [FloatOps F] in
theorem pts_ixRow (j : Fin 8) (q : PosShare TreeShare) (f : Buf (Elt F) (ixLoc d)) :
    ((ixRowK L j).view.loc 𝕋 ↦[(ixRowK L j).view.set]{q} f : sProp 𝕄) = ixLoc d ↦[(ixRowK L j).view.set]{q} f := rfl
omit [FloatOps F] in
theorem pts_rRow (j : Fin 8) (f : Buf (Elt F) (rLoc d)) :
    ((rRowK L j).view.loc 𝕋 ↦[(rRowK L j).view.set]{fullShare} f : sProp 𝕄) = rLoc d ↦[(rRowK L j).view.set]{fullShare} f := rfl

local notation "Rd" => kRd (UU := UU) fst fix qI

def kit1 (g : GSem nD τ sig) : sProp 𝕄 :=
  iprop(roundState EK (kRd (UU := UU) fst fix qI) g 0 ∗ atPos EK g 0 ∅ 0 ∗ reached EK g 0 ∗ dutyTok EK g 0 ())

omit [FloatOps F] in
theorem ix_holds (j : Fin 8) : IxHolds fix d (cV L) (sV L) L j ((ixRowK L j).view.read (Elt F) (fix d)) :=
  fun _ => (View.read_apply _ _).trans (cast_eq _ _)

def rowsK {α : Type} (L : grid2.Coords) (js : List (Fin 8)) (k : Prog (TpuEff nD τ sig (Elt F) Λ₀ (.scVector (cV L) (sV L))) α) :
    Prog (TpuEff nD τ sig (Elt F) Λ₀ (.scVector (cV L) (sV L))) α :=
  js.foldr (fun j r => rowK L j r) k

theorem rows_eq {α : Type} (k : Prog (TpuEff nD τ sig (Elt F) Λ₀ (.scVector (cV L) (sV L))) α) :
    rowK L 0 (rowK L 1 (rowK L 2 (rowK L 3 (rowK L 4 (rowK L 5 (rowK L 6 (rowK L 7 k))))))) = rowsK L (List.finRange 8) k := by
  rw [show List.finRange 8 = [0, 1, 2, 3, 4, 5, 6, 7] from by decide]; rfl

def kitRow (j : Fin 8) : sProp 𝕄 :=
  iprop(dutyTok EK (cellS d (cV L) (sV L)) j.val () ∗ kit1 EK fst fix qI (cellA d (cV L) (sV L) j) ∗ kit1 EK fst fix qI (cellB d (cV L) (sV L) j))

def goRow (j : Fin 8) : sProp 𝕄 :=
  iprop((stLoc d ↦[(stRowK L j).view.set]{fullShare} fst d) ∗ ∃ f, rLoc d ↦[(rRowK L j).view.set]{fullShare} f)
def tdRow (j : Fin 8) : sProp 𝕄 :=
  iprop((stLoc d ↦[(stRowK L j).view.set]{fullShare} fst d) ∗ ∃ f, ⌜RHolds fst fix d L j f⌝ ∗ rLoc d ↦[(rRowK L j).view.set]{fullShare} f)

theorem ge_insert (a : ℕ) (h : a < 8) :
    (Finset.univ.filter fun j : Fin 8 => a ≤ j.val) = insert (⟨a, h⟩ : Fin 8) (Finset.univ.filter fun j : Fin 8 => a + 1 ≤ j.val) := by
  ext j; simp only [Finset.mem_filter, Finset.mem_univ, true_and, Finset.mem_insert, Fin.ext_iff]; omega
theorem ge_notMem (a : ℕ) (h : a < 8) : (⟨a, h⟩ : Fin 8) ∉ Finset.univ.filter fun j : Fin 8 => a + 1 ≤ j.val := by
  simp only [Finset.mem_filter, Finset.mem_univ, true_and]; omega
theorem lt_insert (a : ℕ) (h : a < 8) :
    (Finset.univ.filter fun j : Fin 8 => j.val < a + 1) = insert (⟨a, h⟩ : Fin 8) (Finset.univ.filter fun j : Fin 8 => j.val < a) := by
  ext j; simp only [Finset.mem_filter, Finset.mem_univ, true_and, Finset.mem_insert, Fin.ext_iff]; omega
theorem lt_notMem (a : ℕ) (h : a < 8) : (⟨a, h⟩ : Fin 8) ∉ Finset.univ.filter fun j : Fin 8 => j.val < a := by
  simp only [Finset.mem_filter, Finset.mem_univ, true_and]; omega

def kits : sProp 𝕄 :=
  iprop(roundState EK (Rd) (cellS d (cV L) (sV L)) 0 ∗ atPos EK (cellS d (cV L) (sV L)) 0 ∅ 0 ∗ reached EK (cellS d (cV L) (sV L)) 0
    ∗ bigSep Finset.univ fun j : Fin 8 => kitRow EK fst fix qI d L j)

def goRes : sProp 𝕄 :=
  iprop((bigSep Finset.univ fun j : Fin 8 => goRow (UU := UU) fst d L j) ∗ ixLoc d ↦{qI d (cV L) (sV L)} fix d)

def tdRes : sProp 𝕄 :=
  iprop((bigSep Finset.univ fun j : Fin 8 => tdRow (UU := UU) fst fix d L j) ∗ ixLoc d ↦{qI d (cV L) (sV L)} fix d)

def myCells (d : Dev nD) (c : Fin τ.nSC) (s : Fin τ.nSub) : Finset (GSem nD τ sig) :=
  insert (cellS d c s) ((Finset.univ.image fun j : Fin 8 => cellA d c s j) ∪ (Finset.univ.image fun j : Fin 8 => cellB d c s j))

omit [FloatOps F] in
theorem scoped_A : ∀ j : Fin 8, (SemLoc.dma (semA j).sem : SemLoc sig).isScoped .scVector = true := by decide
omit [FloatOps F] in
theorem scoped_B : ∀ j : Fin 8, (SemLoc.dma (semB j).sem : SemLoc sig).isScoped .scVector = true := by decide
omit [FloatOps F] in
theorem scoped_S : (SemLoc.dma semS.sem : SemLoc sig).isScoped .scVector = true := by decide

omit [FloatOps F] in
theorem myCells_sub (c : Fin τ.nSC) (s : Fin τ.nSub) : myCells d c s ⊆ ownCells (V d c s) := by
  intro g hg
  unfold myCells at hg
  rcases Finset.mem_insert.mp hg with rfl | hg
  · exact mem_ownCells.mpr ⟨rfl, scoped_S⟩
  rcases Finset.mem_union.mp hg with hg | hg
  · obtain ⟨j, -, rfl⟩ := Finset.mem_image.mp hg
    exact mem_ownCells.mpr ⟨rfl, scoped_A j⟩
  · obtain ⟨j, -, rfl⟩ := Finset.mem_image.mp hg
    exact mem_ownCells.mpr ⟨rfl, scoped_B j⟩

omit [FloatOps F] in
theorem injA (c : Fin τ.nSC) (s : Fin τ.nSub) : Set.InjOn (fun j : Fin 8 => cellA d c s j) ((Finset.univ : Finset (Fin 8)) : Set (Fin 8)) := by
  intro a _ b _ e
  have h := congrArg cellKind e
  rw [cellKind_A, cellKind_A] at h
  exact CK.A.inj (Option.some.inj h)
omit [FloatOps F] in
theorem injB (c : Fin τ.nSC) (s : Fin τ.nSub) : Set.InjOn (fun j : Fin 8 => cellB d c s j) ((Finset.univ : Finset (Fin 8)) : Set (Fin 8)) := by
  intro a _ b _ e
  have h := congrArg cellKind e
  rw [cellKind_B, cellKind_B] at h
  exact CK.B.inj (Option.some.inj h)
omit [FloatOps F] in
theorem disjAB (c : Fin τ.nSC) (s : Fin τ.nSub) :
    Disjoint (Finset.univ.image fun j : Fin 8 => cellA d c s j) (Finset.univ.image fun j : Fin 8 => cellB d c s j) := by
  refine Finset.disjoint_left.mpr fun g h1 h2 => ?_
  obtain ⟨a, -, rfl⟩ := Finset.mem_image.mp h1
  obtain ⟨b, -, e⟩ := Finset.mem_image.mp h2
  have h := congrArg cellKind e
  rw [cellKind_A, cellKind_B] at h
  exact absurd (Option.some.inj h) (by simp)
omit [FloatOps F] in
theorem notMemS (c : Fin τ.nSC) (s : Fin τ.nSub) :
    cellS d c s ∉ (Finset.univ.image fun j : Fin 8 => cellA d c s j) ∪ (Finset.univ.image fun j : Fin 8 => cellB d c s j) := by
  intro hg
  rcases Finset.mem_union.mp hg with hg | hg
  · obtain ⟨j, -, e⟩ := Finset.mem_image.mp hg
    have h := congrArg cellKind e
    rw [cellKind_A, cellKind_S] at h
    exact absurd (Option.some.inj h) (by simp)
  · obtain ⟨j, -, e⟩ := Finset.mem_image.mp hg
    have h := congrArg cellKind e
    rw [cellKind_B, cellKind_S] at h
    exact absurd (Option.some.inj h) (by simp)

omit [FloatOps F] in

theorem ownSems0_V :
    (ownSems0 𝕋 : sProp 𝕄)
      = iprop((semVal (cellS d (cV L) (sV L)) 0 ∗ (bigSep Finset.univ fun j : Fin 8 => semVal (cellA d (cV L) (sV L) j) 0)
            ∗ bigSep Finset.univ fun j : Fin 8 => semVal (cellB d (cV L) (sV L) j) 0)
          ∗ bigSep (ownCells 𝕋 \ myCells d (cV L) (sV L)) fun g => semVal g 0) := by
  unfold SparseCore.Cfg.ownSems0
  rw [SparseCore.bigSep_sdiff_split' (myCells_sub d (cV L) (sV L))]
  unfold myCells
  rw [SparseCore.bigSep_insert' (notMemS d (cV L) (sV L)), SparseCore.bigSep_union' (disjAB d (cV L) (sV L)),
    SparseCore.bigSep_image_of_injOn (injA d (cV L) (sV L)) (fun g => semVal g 0), SparseCore.bigSep_image_of_injOn (injB d (cV L) (sV L)) (fun g => semVal g 0)]

omit [FloatOps F] in

theorem ownBufs_V :
    (ownBufs 𝕋 : sProp 𝕄)
      = iprop((∃ f, (𝕋).loc cc2_scratch0 ↦{fullShare} f) ∗ (∃ f, (𝕋).loc cc2_scratch1 ↦{fullShare} f) ∗ (∃ f, (𝕋).loc cc2_scratch2 ↦{fullShare} f)
          ∗ bigSep ((((ownRefs (τ := τ) (.scVector (cV L) (sV L))).erase ((Proc.scVector (cV L) (sV L)).devRef cc2_scratch0)).erase
              ((Proc.scVector (cV L) (sV L)).devRef cc2_scratch1)).erase ((Proc.scVector (cV L) (sV L)).devRef cc2_scratch2))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (sV L))
    (b := (Proc.scVector (cV L) (sV L)).devRef cc2_scratch0) rfl)).trans ?_
  rw [SparseCore.bigSep_erase' (Finset.mem_erase.mpr ⟨fun e => absurd (Proc.devRef_injective _ e) (show (cc2_scratch1 : Ref sig .scVector) ≠ cc2_scratch0 by decide),
    SparseCore.Cfg.mem_ownRefs_of_owner (p := Proc.scVector (cV L) (sV L)) (b := (Proc.scVector (cV L) (sV L)).devRef cc2_scratch1) rfl⟩),
    SparseCore.bigSep_erase' (Finset.mem_erase.mpr ⟨fun e => absurd (Proc.devRef_injective _ e) (show (cc2_scratch2 : Ref sig .scVector) ≠ cc2_scratch1 by decide),
      Finset.mem_erase.mpr ⟨fun e => absurd (Proc.devRef_injective _ e) (show (cc2_scratch2 : Ref sig .scVector) ≠ cc2_scratch0 by decide),
    SparseCore.Cfg.mem_ownRefs_of_owner (p := Proc.scVector (cV L) (sV L)) (b := (Proc.scVector (cV L) (sV L)).devRef cc2_scratch2) rfl⟩⟩)]

omit [FloatOps F] in
theorem filter_ge0 : (Finset.univ.filter fun j : Fin 8 => 0 ≤ j.val) = Finset.univ := Finset.filter_true_of_mem fun _ _ => Nat.zero_le _
omit [FloatOps F] in
theorem filter_lt0 : (Finset.univ.filter fun j : Fin 8 => j.val < 0) = ∅ := Finset.filter_false_of_mem fun _ _ => Nat.not_lt_zero _
omit [FloatOps F] in
theorem filter_ge8 : (Finset.univ.filter fun j : Fin 8 => 8 ≤ j.val) = ∅ := Finset.filter_false_of_mem fun j _ => by have := j.isLt; omega
omit [FloatOps F] in
theorem filter_lt8 : (Finset.univ.filter fun j : Fin 8 => j.val < 8) = Finset.univ := Finset.filter_true_of_mem fun j _ => j.isLt

end Tile

omit [FloatOps F] in

theorem mem_stRow (L : grid2.Coords) (j : Fin 8) (i : S256x100000.Idx) :
    i ∈ (stRowK L j).view.set ↔ (i 0).val = 16 * (L 1).val + 8 * (L 0).val + j.val := by
  show i ∈ (((stV : Memref sig .scVector .hbm S256x100000 .f32).view.slice
      (Rect.unit (s := S256x100000) (k2_off1 L (BitVec.ofNat 32 j.val)) S1x100000.size (k2_off1_inb L j))).reshape S100000 squeezes_S1x100000_S100000.numel_eq).set ↔ _
  rw [View.set_reshape, View.set_slice, Finset.mem_map]
  have key : ∀ x : S256x100000.Idx, x ∈ (Rect.unit (s := S256x100000) (k2_off1 L (BitVec.ofNat 32 j.val)) S1x100000.size (k2_off1_inb L j)).toLoadRect.set
      ↔ (x 0).val = 16 * (L 1).val + 8 * (L 0).val + j.val := by
    intro x
    rw [Rect.mem_set_unit, Fin.forall_fin_two, k2_off1_eq]
    have h1 : (x 1).val < 100000 := (x 1).isLt
    have e0 : S1x100000.size 0 = 1 := rfl
    have e1 : S1x100000.size 1 = 100000 := rfl
    simp only [Matrix.cons_val_zero, Matrix.cons_val_one, e0, e1]
    omega
  constructor
  · rintro ⟨x, hx, rfl⟩; exact (key x).mp hx
  · intro h; exact ⟨i, (key i).mpr h, rfl⟩
omit [FloatOps F] in

theorem mem_rRow (L : grid2.Coords) (j : Fin 8) (i : S256x4112.Idx) :
    i ∈ (rRowK L j).view.set ↔ (i 0).val = 16 * (L 1).val + 8 * (L 0).val + j.val := by
  show i ∈ (((rV : Memref sig .scVector .hbm S256x4112 .f32).view.slice
      (Rect.unit (s := S256x4112) (k2_off5 L (BitVec.ofNat 32 j.val)) S1x4112.size (k2_off5_inb L j))).reshape S4112 squeezes_S1x4112_S4112.numel_eq).set ↔ _
  rw [View.set_reshape, View.set_slice, Finset.mem_map]
  have key : ∀ x : S256x4112.Idx, x ∈ (Rect.unit (s := S256x4112) (k2_off5 L (BitVec.ofNat 32 j.val)) S1x4112.size (k2_off5_inb L j)).toLoadRect.set
      ↔ (x 0).val = 16 * (L 1).val + 8 * (L 0).val + j.val := by
    intro x
    rw [Rect.mem_set_unit, Fin.forall_fin_two, k2_off5_eq]
    have h1 : (x 1).val < 4112 := (x 1).isLt
    have e0 : S1x4112.size 0 = 1 := rfl
    have e1 : S1x4112.size 1 = 4112 := rfl
    simp only [Matrix.cons_val_zero, Matrix.cons_val_one, e0, e1]
    omega
  constructor
  · rintro ⟨x, hx, rfl⟩; exact (key x).mp hx
  · intro h; exact ⟨i, (key i).mpr h, rfl⟩

end Cert.Proof.FK

end
-- ==== Proof.Call1K.lean ====
import proofs.«204933_g4492535792355_cont_8to1_c_766_42_alg».proof.Proof.TileCK

noncomputable section

namespace Cert.Proof.F1K

open Cert.Kernel Cert.Kernel.Gen Cert.Proof.FK

open Idealize.ShloMosaic
open Idealize.ShloMosaic.SparseCore (V)
open Idealize.ShloMosaic.SparseCore.Cfg (HIx Pay mem_ownCells)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable {UU : Type} [URA UU]

local notation "𝕄" => MT nD τ sig (HIx 2) (Elt F) ℕ UU ℕ

abbrev D : Defs nD τ sig (Elt F) (ΛP (F := F)) := Pipeline.defs pcfgs defs₀
abbrev 𝒱 : Variants := (𝒱₀).lift
abbrev v₀ : 𝒱.V := Sum.inl none

variable (EK : Emb UK (MT nD τ sig (HIx 2) (Elt F) ℕ UU ℕ)) [EK.LandsIn (upEmb : UEmb _ (MT nD τ sig (HIx 2) (Elt F) ℕ UU ℕ))]
variable (fst : (d : Dev nD) → Buf (Elt F) (stLoc d)) (fix : (d : Dev nD) → Buf (Elt F) (ixLoc d))
variable (qI : Dev nD → Fin τ.nSC → Fin τ.nSub → PosShare TreeShare)

def coordsV (c : Fin (grid2.bound 0)) (s : Fin (grid2.bound 1)) : grid2.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 2 ()
      = SparseCore.onTile hcore2 hsub2 (fun c s => cc2__stage_c_body (F := F) (coordsV c s)
          stV (Memref.isWhole_whole _) ixV (Memref.isWhole_whole _) rV (Memref.isWhole_whole _)
          s0 (Memref.isWhole_whole _) s1 (Memref.isWhole_whole _) s2 (Memref.isWhole_whole _) cc2_scratch3
          cc2_scoped0 cc2_scoped1 cc2_scoped2 cc2_scoped3 cc2_scoped4 cc2_scoped5 cc2_scoped6 cc2_scoped7
          cc2_scoped8 cc2_scoped9 cc2_scoped10 cc2_scoped11 cc2_scoped12 cc2_scoped13 cc2_scoped14 cc2_scoped15) ⟨⟩ c s := rfl

omit [FloatOps F] in
theorem obl_post {thr : Thread nD τ} {A B C : sProp 𝕄} {O : CellTallies nD τ sig (HIx 2)} {W : Waits sig (HIx 2)} {q : Fin 2} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  iframe HA HB HC
  iexists W'; iframe HO
  ipureintro; exact fun p hp => (hW' p hp).imp_right Or.inl

def myToks (d : Dev nD) (c : Fin τ.nSC) (s : Fin τ.nSub) : Finset (GSem nD τ sig × ℕ × Unit) :=
  ((Finset.univ.image fun j : Fin 8 => ((cellS d c s, j.val, ()) : GSem nD τ sig × ℕ × Unit))
    ∪ (Finset.univ.image fun j : Fin 8 => ((cellA d c s j, 0, ()) : GSem nD τ sig × ℕ × Unit)))
    ∪ (Finset.univ.image fun j : Fin 8 => ((cellB d c s j, 0, ()) : GSem nD τ sig × ℕ × Unit))

def kCells1 : Finset (GSem nD τ sig) := Finset.univ.biUnion fun t : Dev nD × Fin τ.nSC × Fin τ.nSub => myCells t.1 t.2.1 t.2.2
def kToks1 : Finset (GSem nD τ sig × ℕ × Unit) := Finset.univ.biUnion fun t : Dev nD × Fin τ.nSC × Fin τ.nSub => myToks t.1 t.2.1 t.2.2

omit [FloatOps F] in
-- A token in both families would give its cell two different kinds.
theorem disjK {f g : Fin 8 → GSem nD τ sig × ℕ × Unit} (h : ∀ a b, cellKind (f a).1 ≠ cellKind (g b).1) :
    Disjoint (Finset.univ.image f) (Finset.univ.image g) := by
  refine Finset.disjoint_left.mpr fun x h1 h2 => ?_
  obtain ⟨a, -, rfl⟩ := Finset.mem_image.mp h1
  obtain ⟨b, -, e⟩ := Finset.mem_image.mp h2
  exact h a b (congrArg (fun y => cellKind y.1) e).symm

omit [FloatOps F] in
theorem injT {f : Fin 8 → GSem nD τ sig} {s : Set (Fin 8)} (h : Set.InjOn f s) :
    Set.InjOn (fun j => ((f j, 0, ()) : GSem nD τ sig × ℕ × Unit)) s :=
  fun _ ha _ hb e => h ha hb (Prod.mk.inj e).1

omit [FloatOps F] in
-- An element of both sets would lie on two vector threads, and the thread determines the triple.
theorem disjV {α : Type} (th : α → Thread nD τ) {S : Dev nD × Fin τ.nSC × Fin τ.nSub → Finset α}
    (h : ∀ t x, x ∈ S t → th x = V t.1 t.2.1 t.2.2) :
    ∀ t ∈ Finset.univ, ∀ t' ∈ Finset.univ, t ≠ t' → Disjoint (S t) (S t') :=
  fun t _ t' _ hne => Finset.disjoint_left.mpr fun x h1 h2 => hne <| by
    obtain ⟨e1, e2⟩ := Prod.mk.inj ((h t x h1).symm.trans (h t' x h2)); obtain ⟨e3, e4⟩ := Proc.scVector.inj e2
    exact Prod.ext e1 (Prod.ext e3 e4)

omit [FloatOps F] in
theorem bigSep_kCells1 (Φ : GSem nD τ sig → sProp 𝕄) :
    bigSep kCells1 Φ = bigSep Finset.univ fun t : Dev nD × Fin τ.nSC × Fin τ.nSub =>
      iprop(Φ (cellS t.1 t.2.1 t.2.2) ∗ (bigSep Finset.univ fun j : Fin 8 => Φ (cellA t.1 t.2.1 t.2.2 j)) ∗ bigSep Finset.univ fun j : Fin 8 => Φ (cellB t.1 t.2.1 t.2.2 j)) := by
  unfold kCells1
  rw [SparseCore.Cfg.bigSep_biUnion_eq _ _ Φ ?h]
  · refine bigSep_congr fun t _ => ?_
    unfold myCells
    rw [SparseCore.bigSep_insert' (notMemS t.1 t.2.1 t.2.2), SparseCore.bigSep_union' (disjAB t.1 t.2.1 t.2.2),
      SparseCore.bigSep_image_of_injOn (injA t.1 t.2.1 t.2.2) Φ, SparseCore.bigSep_image_of_injOn (injB t.1 t.2.1 t.2.2) Φ]
  case h => exact disjV (fun g => g.1) fun t _ h => (mem_ownCells.mp (myCells_sub t.1 t.2.1 t.2.2 h)).1

omit [FloatOps F] in
theorem bigSep_kToks1 (Ψ : GSem nD τ sig × ℕ × Unit → sProp 𝕄) :
    bigSep kToks1 Ψ = bigSep Finset.univ fun t : Dev nD × Fin τ.nSC × Fin τ.nSub =>
      iprop(((bigSep Finset.univ fun j : Fin 8 => Ψ (cellS t.1 t.2.1 t.2.2, j.val, ())) ∗ bigSep Finset.univ fun j : Fin 8 => Ψ (cellA t.1 t.2.1 t.2.2 j, 0, ()))
          ∗ bigSep Finset.univ fun j : Fin 8 => Ψ (cellB t.1 t.2.1 t.2.2 j, 0, ())) := by
  unfold kToks1
  rw [SparseCore.Cfg.bigSep_biUnion_eq _ _ Ψ ?h]
  · refine bigSep_congr fun t _ => ?_
    unfold myToks
    rw [SparseCore.bigSep_union' ?d2, SparseCore.bigSep_union' ?d1,
      SparseCore.bigSep_image_of_injOn ?i1 Ψ, SparseCore.bigSep_image_of_injOn (injT (injA t.1 t.2.1 t.2.2)) Ψ,
      SparseCore.bigSep_image_of_injOn (injT (injB t.1 t.2.1 t.2.2)) Ψ]
    case i1 => intro a _ b _ e; exact Fin.ext (Prod.mk.inj (Prod.mk.inj e).2).1
    case d1 => exact disjK fun _ _ => by simp
    case d2 => exact Finset.disjoint_union_left.mpr ⟨disjK fun _ _ => by simp, disjK fun _ _ => by simp⟩
  case h =>
    refine disjV (fun x => x.1.1) fun t x h => ?_
    simp only [myToks, Finset.mem_union, Finset.mem_image] at h
    rcases h with (⟨j, -, rfl⟩ | ⟨j, -, rfl⟩) | ⟨j, -, rfl⟩ <;> rfl

theorem kits_intro1 :
    (BI.own (EK (initOf kCells1 kToks1)) : sProp 𝕄)
      ⊢ iprop(|==> bigSep Finset.univ fun t : Dev nD × Fin τ.nSC × Fin τ.nSub => kits EK fst fix qI t.1 (Lof t.2.1 t.2.2)) := by
  refine (Rounds.fund EK (kRd (UU := UU) fst fix qI) kCells1 kToks1).trans (BI.bupd_mono ?_)
  rw [bigSep_kCells1, bigSep_kCells1, bigSep_kCells1, bigSep_kToks1, ← bigSep_sep', ← bigSep_sep', ← bigSep_sep']
  refine bigSep_mono fun t _ => ?_
  simp only [kits, kitRow, kit1, cV_Lof, sV_Lof, bigSep_sep']
  show (_ : sProp 𝕄) ⊢ _
  iintro ⟨⟨HrsS, HrsA, HrsB⟩, ⟨HreS, HreA, HreB⟩, ⟨HatS, HatA, HatB⟩, ⟨⟨HtS, HtA⟩, HtB⟩⟩
  iframe

end Cert.Proof.F1K

end
-- ==== Proof.KIPayK.lean ====
import proofs.«204933_g4492535792355_cont_8to1_c_766_42_alg».proof.Proof.KICommonK
import proofs.«204933_g4492535792355_cont_8to1_c_766_42_alg».proof.Proof.Call1K
import Idealize.ShloMosaic.Lib.WriteMode
import Idealize.ShloMosaic.Lib.Pipeline.Kit

noncomputable section

namespace Cert.Proof.KIK

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

abbrev R5 : Type := WmRA nD τ sig (Elt F) × Counters
abbrev R4 : Type := UP × R5 (F := F)
abbrev R3 : Type := UP × R4 (F := F)
abbrev R2 : Type := UP × R3 (F := F)
abbrev UU : Type := UH × R2 (F := F)

local notation "𝕄" => MT nD τ sig (HIx 2) (Elt F) ℕ (UU (F := F)) ℕ

abbrev uE : Emb (UU (F := F)) 𝕄 := (uEmb : UEmb (UU (F := F)) 𝕄).toEmb

def EH : Emb UH 𝕄 := Emb.inl.trans uE
def E2 : Emb (R2 (F := F)) 𝕄 := Emb.inr.trans uE

def EK0 : Emb UP 𝕄 := Emb.inl.trans E2
def E3 : Emb (R3 (F := F)) 𝕄 := Emb.inr.trans E2

def EK1 : Emb UP 𝕄 := Emb.inl.trans E3
def E4 : Emb (R4 (F := F)) 𝕄 := Emb.inr.trans E3

def EP : Emb UP 𝕄 := Emb.inl.trans E4
def E5 : Emb (R5 (F := F)) 𝕄 := Emb.inr.trans E4

def wmU : UEmb (WmRA nD τ sig (Elt F)) (UU (F := F)) :=
  (UEmb.inl : UEmb (WmRA nD τ sig (Elt F)) (R5 (F := F))).trans ((UEmb.inr : UEmb (R5 (F := F)) (R4 (F := F))).trans
    ((UEmb.inr : UEmb (R4 (F := F)) (R3 (F := F))).trans ((UEmb.inr : UEmb (R3 (F := F)) (R2 (F := F))).trans (UEmb.inr : UEmb (R2 (F := F)) (UU (F := F))))))

abbrev EC : UEmb Counters 𝕄 := countersEmb

instance EH_landsIn : (EH : Emb UH 𝕄).LandsIn (upEmb : UEmb _ 𝕄) := by unfold EH; infer_instance
instance EK0_landsIn : (EK0 : Emb UP 𝕄).LandsIn (upEmb : UEmb _ 𝕄) := by unfold EK0 E2; infer_instance
instance EK1_landsIn : (EK1 : Emb UP 𝕄).LandsIn (upEmb : UEmb _ 𝕄) := by unfold EK1 E3 E2; infer_instance
instance EP_landsIn : (EP : Emb UP 𝕄).LandsIn (upEmb : UEmb _ 𝕄) := by unfold EP E4 E3 E2; infer_instance
instance EC_landsIn : (EC : UEmb Counters 𝕄).LandsIn (upEmb : UEmb _ 𝕄) := by infer_instance

/-- The nested pair is split one level at a time by `own_pair_emb`; the last level keeps only its left half. -/
theorem ownU_split (a : UH) (b c p : UP) (w : WmRA nD τ sig (Elt F)) (k : Counters) :
    (ownU ((a, (b, (c, (p, (w, k))))) : UU (F := F)) : sProp 𝕄)
      ⊢ iprop(BI.own (EH a) ∗ BI.own (EK0 b) ∗ BI.own (EK1 c) ∗ BI.own (EP p) ∗ (ownU (wmU (F := F) w) : sProp 𝕄)) :=
  (own_pair_emb uE a _).trans <| sep_mono_r <| (own_pair_emb E2 b _).trans <| sep_mono_r <|
    (own_pair_emb E3 c _).trans <| sep_mono_r <| (own_pair_emb E4 p _).trans <| sep_mono_r <|
    (own_pair_emb E5 w k).trans sep_elim_left

variable (fst : (d : Dev nD) → Buf (Elt F) (Cert.Proof.FK.stLoc d)) (fix : (d : Dev nD) → Buf (Elt F) (Cert.Proof.FK.ixLoc d))
variable (qI : Dev nD → Fin τ.nSC → Fin τ.nSub → PosShare TreeShare)
variable (st0 dn0 : Dev nD → Fin ((K (F := F)).nCore 0) → sProp (MT nD τ sig (HIx 2) (Elt F) ℕ (UU (F := F)) ℕ))
variable (go0 td0 : Dev nD → Fin ((K (F := F)).nCore 0) → Fin ((K (F := F)).nSub 0) → sProp (MT nD τ sig (HIx 2) (Elt F) ℕ (UU (F := F)) ℕ))
variable (X0 : Dev nD → Fin τ.nSC → Fin τ.nSub → sProp (MT nD τ sig (HIx 2) (Elt F) ℕ (UU (F := F)) ℕ))

section PayRecord

def wmI : sProp 𝕄 := iprop(∃ ιwm : ℕ, wmInv (Ix := HIx 2) (Lvl := ℕ) (wmU (F := F)) ιwm)

instance wmI_persistent : BI.Persistent (wmI (F := F)) := by unfold wmI; infer_instance

/-- `goRes` on device `d` at the coordinates of core `c` and subcore `i` of phase 1; `tdT` likewise for `tdRes`. -/
abbrev goT (d : Dev nD) (c : Fin ((K (F := F)).nCore 1)) (i : Fin ((K (F := F)).nSub 1)) : sProp 𝕄 :=
  Cert.Proof.FK.goRes (UU := UU (F := F)) fst fix qI d (Cert.Proof.FK.Lof ((K (F := F)).core 1 c) ((K (F := F)).sub 1 i))
abbrev tdT (d : Dev nD) (c : Fin ((K (F := F)).nCore 1)) (i : Fin ((K (F := F)).nSub 1)) : sProp 𝕄 :=
  Cert.Proof.FK.tdRes (UU := UU (F := F)) fst fix qI d (Cert.Proof.FK.Lof ((K (F := F)).core 1 c) ((K (F := F)).sub 1 i))

def P : (K (F := F)).Pay (nD := nD) (Val := Elt F) (Name := ℕ) (U := UU (F := F)) where
  st := fun q d c => match q with
    | 0 => st0 d c
    | 1 => bigSep Finset.univ (goT fst fix qI d c)
  dn := fun q d c => match q with
    | 0 => dn0 d c
    | 1 => bigSep Finset.univ (tdT fst fix qI d c)
  go := fun q d c i => match q with
    | 0 => go0 d c i
    | 1 => goT fst fix qI d c i
  td := fun q d c i => match q with
    | 0 => td0 d c i
    | 1 => tdT fst fix qI d c i
  x := fun q thr => match q, thr with
    | 0, (d, .scVector c i) => iprop(wmI (F := F) ∗ X0 d c i)
    | 1, (d, .scVector c i) => Cert.Proof.FK.kits (EK1 (F := F)) fst fix qI d (Cert.Proof.FK.Lof c i)
    | _, _ => iprop(emp)

variable [hst0 : ∀ d c, BI.Storable (upEmb : UEmb _ (MT nD τ sig (HIx 2) (Elt F) ℕ (UU (F := F)) ℕ)) (st0 d c)]
variable [hdn0 : ∀ d c, BI.Storable (upEmb : UEmb _ (MT nD τ sig (HIx 2) (Elt F) ℕ (UU (F := F)) ℕ)) (dn0 d c)]
variable [hgo0 : ∀ d c i, BI.Storable (upEmb : UEmb _ (MT nD τ sig (HIx 2) (Elt F) ℕ (UU (F := F)) ℕ)) (go0 d c i)]
variable [htd0 : ∀ d c i, BI.Storable (upEmb : UEmb _ (MT nD τ sig (HIx 2) (Elt F) ℕ (UU (F := F)) ℕ)) (td0 d c i)]

instance goRes_storable (d : Dev nD) (L : grid2.Coords) :
    BI.Storable (upEmb : UEmb _ 𝕄) (Cert.Proof.FK.goRes (UU := UU (F := F)) fst fix qI d L) := by
  unfold Cert.Proof.FK.goRes Cert.Proof.FK.goRow; infer_instance
instance tdRes_storable (d : Dev nD) (L : grid2.Coords) :
    BI.Storable (upEmb : UEmb _ 𝕄) (Cert.Proof.FK.tdRes (UU := UU (F := F)) fst fix qI d L) := by
  unfold Cert.Proof.FK.tdRes Cert.Proof.FK.tdRow; infer_instance

instance P_storable : (P (F := F) fst fix qI st0 dn0 go0 td0 X0).IsStorable where
  st q d c := match q with
    | 0 => hst0 d c
    | 1 => (inferInstance : BI.Storable (upEmb : UEmb _ 𝕄) (bigSep Finset.univ (goT fst fix qI d c)))
  dn q d c := match q with
    | 0 => hdn0 d c
    | 1 => (inferInstance : BI.Storable (upEmb : UEmb _ 𝕄) (bigSep Finset.univ (tdT fst fix qI d c)))
  go q d c i := match q with
    | 0 => hgo0 d c i
    | 1 => goRes_storable fst fix qI d _
  td q d c i := match q with
    | 0 => htd0 d c i
    | 1 => tdRes_storable fst fix qI d _

end PayRecord

section Launch

variable (kCells0 : Finset (GSem nD τ sig)) (kToks0 : Finset (GSem nD τ sig × ℕ × Unit))

theorem pin_inj : Function.Injective (Pipeline.cellOf (nD := nD) (τ := τ) (Pipeline.pin (pcfgs (F := F)) adm)) := cellOf_inj

def u₀ : UU (F := F) :=
  (initOf (K (F := F)).hsCells (K (F := F)).hsToks, (initOf kCells0 kToks0, (initOf Cert.Proof.F1K.kCells1 Cert.Proof.F1K.kToks1,
    (initOf (Pipeline.cells (Pipeline.pin (pcfgs (F := F)) adm) pin_inj) (Pipeline.launchToks (Pipeline.pin (pcfgs (F := F)) adm) pin_inj),
      (wm₀ nD τ sig (Elt F), 1)))))

omit [FloatOps F] in
theorem fin2 (Φ : Fin 2 → sProp 𝕄) : bigSep Finset.univ Φ = iprop(Φ 0 ∗ Φ 1) := bigSep_univ_two Φ

theorem Px_T (d : Dev nD) :
    (bigSep Finset.univ fun q : Fin 2 => (P fst fix qI st0 dn0 go0 td0 X0).x q (T d)) = iprop(emp ∗ emp) := fin2 _
theorem Px_S (d : Dev nD) (c : Fin τ.nSC) :
    (bigSep Finset.univ fun q : Fin 2 => (P fst fix qI st0 dn0 go0 td0 X0).x q (S d c)) = iprop(emp ∗ emp) := fin2 _
theorem Px_V (d : Dev nD) (c : Fin τ.nSC) (i : Fin τ.nSub) :
    (bigSep Finset.univ fun q : Fin 2 => (P fst fix qI st0 dn0 go0 td0 X0).x q (V d c i))
      = iprop((wmI ∗ X0 d c i) ∗ Cert.Proof.FK.kits EK1 fst fix qI d (Cert.Proof.FK.Lof c i)) := fin2 _

omit [FloatOps F] in
theorem emps {I : Type} (s : Finset I) : (iprop(emp) : sProp 𝕄) ⊢ bigSep s fun _ : I => (iprop(emp ∗ emp) : sProp 𝕄) :=
  (Entails.of_eq (bigSep_emp_const s).symm).trans (bigSep_mono fun _ _ => sep_emp.2)

theorem hu₀ (mw : MemSt nD τ sig (Elt F))
    (hk0 : (BI.own (EK0 (F := F) (initOf kCells0 kToks0)) : sProp 𝕄)
      ⊢ iprop(|==> bigSep Finset.univ fun t : Dev nD × Fin τ.nSC × Fin τ.nSub => X0 t.1 t.2.1 t.2.2)) :
    iprop(ownU (u₀ (F := F) kCells0 kToks0) ∗ (P (F := F) fst fix qI st0 dn0 go0 td0 X0).oxCred ∗ (K (F := F)).freeSems0)
      ⊢ |={Set.univ}=> iprop(BI.own (EH (F := F) (initOf (K (F := F)).hsCells (K (F := F)).hsToks))
        ∗ (bigSep Finset.univ fun d : Dev nD =>
            iprop((bigSep Finset.univ fun p : Fin 2 => iprop(Pipeline.cellsGhost (Pipeline.pin (pcfgs (F := F)) adm) (EP (F := F)) p d
              ∗ Pipeline.toksInit (Pipeline.pin (pcfgs (F := F)) adm) (EP (F := F)) p d)) ∗ wmI (F := F)))
        ∗ bigSep Finset.univ fun thr : Thread nD τ => bigSep Finset.univ fun q : Fin 2 => (P (F := F) fst fix qI st0 dn0 go0 td0 X0).x q thr) := by
  unfold u₀
  iintro ⟨Hu, -, -⟩
  icases (ownU_split _ _ _ _ _ _) $$ Hu with ⟨HH, H0, H1, HP, Hw⟩
  imod (wmInv_alloc (Ix := HIx 2) (Lvl := ℕ) (emb := wmU) mw (E := Set.univ)) $$ Hw with ⟨%ιwm, -, #Hwm'⟩
  ihave #HwmI : wmI $$ []
  · unfold wmI; iexists ιwm; iexact Hwm'
  imod hk0 $$ H0 with HX0
  imod (Cert.Proof.F1K.kits_intro1 EK1 fst fix qI) $$ H1 with Hk1
  imod (Pipeline.fund_ghost _ EP pin_inj) $$ HP with ⟨Hcg, Htk⟩
  imodintro
  rw [SparseCore.Cfg.bigSep_threads]
  simp only [Px_T, Px_S, Px_V]
  iframe HH
  isplitl [Hcg Htk]
  · simp only [bigSep_sep']; iframe Hcg Htk; iapply (bigSep_of_persistent _ _); iexact HwmI
  isplitr; · iapply (emps _); iempintro
  isplitr; · iapply (emps _); iempintro
  simp only [bigSep_sep']; iframe HX0 Hk1; iapply (bigSep_of_persistent _ _); iexact HwmI

end Launch

end Cert.Proof.KIK

end
-- ==== Proof.TileAK.lean ====
import Idealize.ShloMosaic.Lib.SparseCore.Launch
import Idealize.ShloMosaic.Lib.SparseCore.Ops
import Idealize.ShloMosaic.Lib.SparseCore.Stream
import Idealize.ShloMosaic.Lib.WriteMode
import Idealize.ShloMosaic.Lib.Tactic
import proofs.«204933_g4492535792355_cont_8to1_c_766_42_alg».proof.Proof.Gen.Kernel.Skeleton

noncomputable section

namespace Cert.Proof.EK

open Cert.Kernel Cert.Kernel.Gen

open Idealize.ShloMosaic
open Idealize.ShloMosaic.SparseCore (S V T)
open Idealize.ShloMosaic.SparseCore.Cfg (HIx ownBufs ownSems0 ownCells ownRefs mem_ownCells)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

abbrev ΛP : Labels := Pipeline.Sig Λ₀ (Fin 2) fun p => (pcfgs (F := F) p).Adm
abbrev K : SparseCore.Cfg τ sig (ΛP (F := F)) 2 := sc (F := F)
abbrev 𝒱₀ : Variants := Variants.none

def chunk (L : grid0.Coords) : Fin 16 := ⟨(2 * (L 1).val + (L 0).val) % 16, Nat.mod_lt _ (by decide)⟩

theorem k0_off1_eq : ∀ L : grid0.Coords, k0_off1 L = ![8 * (chunk L).val] := by decide +kernel
theorem k0_off2_eq : ∀ L : grid0.Coords, k0_off2 L = ![8 * (chunk L).val, 0] := by decide +kernel

variable {UU : Type} [URA UU]

local notation "𝕄" => MT nD τ sig (HIx 2) (Elt F) ℕ UU ℕ

abbrev UK : Type := URounds (GSem nD τ sig) Unit

variable (EK : Emb UK (MT nD τ sig (HIx 2) (Elt F) ℕ UU ℕ)) [EK.LandsIn (upEmb : UEmb _ (MT nD τ sig (HIx 2) (Elt F) ℕ UU ℕ))]
variable (EC : UEmb Counters (MT nD τ sig (HIx 2) (Elt F) ℕ UU ℕ)) [EC.LandsIn (upEmb : UEmb _ (MT nD τ sig (HIx 2) (Elt F) ℕ UU ℕ))]
variable (emb : UEmb (WmRA nD τ sig (Elt F)) UU)

local notation:60 ℓ " ⇝[" I "]{" q "} " f:max " ⇒ " g:max " @ " W:max => willBeTo (Ix := HIx 2) (Name := ℕ) (Lvl := ℕ) emb ℓ I q f g W

variable (m : (ℓ : Loc nD τ sig) → Buf (Elt F) ℓ)

abbrev v1Loc (d : Dev nD) : Loc nD τ sig := (SparseCore.T d).loc main_arg4
abbrev v2Loc (d : Dev nD) : Loc nD τ sig := (SparseCore.T d).loc main_arg5
abbrev pLoc (d : Dev nD) : Loc nD τ sig := (SparseCore.T d).loc main_arg2
abbrev g1Loc (d : Dev nD) : Loc nD τ sig := (SparseCore.T d).loc main_v0_0
abbrev g2Loc (d : Dev nD) : Loc nD τ sig := (SparseCore.T d).loc main_v0_1

abbrev v1V : Memref sig .scVector .hbm S100000x128 .f32 := Memref.whole main_arg4_scv
abbrev v2V : Memref sig .scVector .hbm S100000x128 .f32 := Memref.whole main_arg5_scv
abbrev pV : Memref sig .scVector .hbm S128 .i32 := Memref.whole main_arg2_scv
abbrev g1V : Memref sig .scVector .hbm S128x128 .f32 := Memref.whole main_v0_0_scv
abbrev g2V : Memref sig .scVector .hbm S128x128 .f32 := Memref.whole main_v0_1_scv

abbrev sI : Memref sig .scVector .vmem S8 .i32 := Memref.whole cc0_scratch0
abbrev sR : Memref sig .scVector .vmem S8x128 .f32 := Memref.whole cc0_scratch1

theorem pdiv : 16 ∣ S128.size 0 := ⟨8, rfl⟩
theorem gdiv : 16 ∣ S128x128.size 0 := ⟨8, rfl⟩

abbrev pPart (j : Fin 16) : Rect S128 := Rect.part (s := S128) (a₀ := 0) pdiv j
abbrev gPart (j : Fin 16) : Rect S128x128 := Rect.part (s := S128x128) (a₀ := 0) gdiv j
abbrev pSet (j : Fin 16) : Finset S128.Idx := ((pV : Memref sig .scVector .hbm S128 .i32).view.slice (pPart j)).set
abbrev gSet (j : Fin 16) : Finset S128x128.Idx := ((g1V : Memref sig .scVector .hbm S128x128 .f32).view.slice (gPart j)).set

theorem gathers128 : S100000x128.Gathers 0 S128x128 := by decide
theorem numel128 : S128.numel = S128x128.size gathers128.axis' := by decide

def PreOK : Prop := ∀ (d : Dev nD) (x : S128.Idx), (m (pLoc d) x).toNat < S100000x128.size gathers128.axis

def agreed (hpre : PreOK m) (d : Dev nD) (tab : S100000x128.Idx → Elt F .f32) : S128x128.Idx → Elt F .f32 :=
  SparseCore.gatherPayload gathers128 tab (SparseCore.rows (m (pLoc d)) numel128 (hpre d))

abbrev G1 (hpre : PreOK m) (d : Dev nD) : Buf (Elt F) (g1Loc d) := agreed m hpre d (m (v1Loc d))
abbrev G2 (hpre : PreOK m) (d : Dev nD) : Buf (Elt F) (g2Loc d) := agreed m hpre d (m (v2Loc d))

def chunkN (c s : ℕ) : Fin 16 := ⟨(2 * s + c) % 16, Nat.mod_lt _ (by decide)⟩

section Tile

variable (d : Dev nD) (L : grid0.Coords)

abbrev cV (L : grid0.Coords) : Fin τ.nSC := (L 0).castLE hcore0
abbrev jV (L : grid0.Coords) : Fin τ.nSub := (L 1).castLE hsub0

abbrev pRectK (L : grid0.Coords) : Rect S128 := Rect.unit (s := S128) (k0_off1 L) S8.size (k0_off1_inb L)
abbrev gRectK (L : grid0.Coords) : Rect S128x128 := Rect.unit (s := S128x128) (k0_off2 L) S8x128.size (k0_off2_inb L)
abbrev wRect : Rect S100000x128 := Rect.unit (s := S100000x128) ![0, 0] S100000x128.size inb_S100000x128_S100000x128_0_0
abbrev pK (L : grid0.Coords) : Memref sig .scVector .hbm S8 .i32 := (pV : Memref sig .scVector .hbm S128 .i32).slice (pRectK L) (fun _ => rfl)
abbrev g1K (L : grid0.Coords) : Memref sig .scVector .hbm S8x128 .f32 := (g1V : Memref sig .scVector .hbm S128x128 .f32).slice (gRectK L) (fun _ => rfl)
abbrev g2K (L : grid0.Coords) : Memref sig .scVector .hbm S8x128 .f32 := (g2V : Memref sig .scVector .hbm S128x128 .f32).slice (gRectK L) (fun _ => rfl)
abbrev v1K : Memref sig .scVector .hbm S100000x128 .f32 := (v1V : Memref sig .scVector .hbm S100000x128 .f32).slice wRect (fun _ => rfl)
abbrev v2K : Memref sig .scVector .hbm S100000x128 .f32 := (v2V : Memref sig .scVector .hbm S100000x128 .f32).slice wRect (fun _ => rfl)

theorem pRectK_eq : pRectK L = pPart (chunk L) := by
  unfold pRectK pPart Rect.part Rect.block
  congr 1
  · rw [k0_off1_eq]; funext a
    obtain rfl : a = 0 := Subsingleton.elim _ _
    simp [Shape.partIx, Shape.partSize]; omega
  · funext a
    obtain rfl : a = 0 := Subsingleton.elim _ _
    simp [Shape.partSize]

theorem gRectK_eq : gRectK L = gPart (chunk L) := by
  unfold gRectK gPart Rect.part Rect.block
  congr 1
  · rw [k0_off2_eq]; funext a
    match a with
    | 0 => simp [Shape.partIx, Shape.partSize]; omega
    | 1 => simp [Shape.partIx, Shape.partSize]
  · funext a
    match a with
    | 0 => simp [Shape.partSize]
    | 1 => simp [Shape.partSize]

theorem set_pK : (pK L).view.set = pSet (chunk L) := by
  show ((pV : Memref sig .scVector .hbm S128 .i32).view.slice (pRectK L)).set = _
  rw [pRectK_eq]
theorem set_g1K : (g1K L).view.set = gSet (chunk L) := by
  show ((g1V : Memref sig .scVector .hbm S128x128 .f32).view.slice (gRectK L)).set = _
  rw [gRectK_eq]
theorem set_g2K : (g2K L).view.set = gSet (chunk L) := by
  show ((g2V : Memref sig .scVector .hbm S128x128 .f32).view.slice (gRectK L)).set = ((g1V : Memref sig .scVector .hbm S128x128 .f32).view.slice (gPart (chunk L))).set
  rw [gRectK_eq]; rfl

theorem wRect_emb (x : S100000x128.Idx) : wRect.emb x = x := by
  funext a; apply Fin.ext
  rw [Rect.emb_apply]
  match a with
  | 0 => simp
  | 1 => simp

theorem set_v1K : (v1K : Memref sig .scVector .hbm S100000x128 .f32).view.set = Finset.univ := by
  ext i
  simp only [Finset.mem_univ, iff_true]
  show i ∈ ((v1V : Memref sig .scVector .hbm S100000x128 .f32).view.slice wRect).set
  rw [View.set_slice, Finset.mem_map]
  refine ⟨i, Rect.mem_set_unit.mpr fun a => ?_, rfl⟩
  match a with
  | 0 => exact ⟨by simp, by simp; exact (i 0).isLt⟩
  | 1 => exact ⟨by simp, by simp; exact (i 1).isLt⟩

def IdxHolds (d : Dev nD) (j : Fin 16) (fo : S8.Idx → Elt F .i32) : Prop :=
  ∀ (x : S8.Idx) (i : S128.Idx), (i 0).val = 8 * j.val + (x 0).val → fo x = m (pLoc d) i

theorem fetch_holds : IdxHolds m d (chunk L) ((pK L).view.read (Elt F) (m (pLoc d))) := by
  intro x i hi
  rw [View.read_apply]
  refine (cast_eq _ _).trans (congrArg (m (pLoc d)) ?_)
  funext a
  have ha : a = (0 : Fin 1) := Subsingleton.elim (α := Fin 1) a 0
  subst ha
  apply Fin.ext
  rw [hi]
  show ((pRectK L).emb x 0 : ℕ) = _
  rw [Rect.emb_apply, Rect.off_unit, Rect.stride_unit, k0_off1_eq]
  simp

theorem hin_of_holds (hpre : PreOK m) {fo : S8.Idx → Elt F .i32} {j : Fin 16} (hfo : IdxHolds m d j fo) :
    ∀ x, (fo x).toNat < S100000x128.size gathers_S100000x128_S8x128.axis := by
  intro x
  have hlt : 8 * j.val + (x 0).val < 128 := by
    have h1 : ((x 0 : Fin (S8.size 0)) : ℕ) < 8 := (x 0).isLt
    have h2 := j.isLt
    omega
  rw [hfo x (fun a => ⟨8 * j.val + (x 0).val, by
    have ha : a = (0 : Fin 1) := Subsingleton.elim (α := Fin 1) a 0
    subst ha; exact hlt⟩) rfl]
  exact hpre d _

theorem gather_agrees (hpre : PreOK m) {fo : S8.Idx → Elt F .i32} (hfo : IdxHolds m d (chunk L) fo)
    (hin : ∀ x, (fo x).toNat < S100000x128.size gathers_S100000x128_S8x128.axis) (tab : S100000x128.Idx → Elt F .f32) (x : S8x128.Idx) :
    SparseCore.gatherPayload gathers_S100000x128_S8x128 tab (SparseCore.rows fo (rfl : S8.numel = S8x128.size gathers_S100000x128_S8x128.axis') hin) x
      = agreed m hpre d tab ((gRectK L).emb x) := by
  unfold agreed SparseCore.gatherPayload
  congr 1
  funext b
  apply Fin.ext
  match b with
  | 0 =>
    have e1 := Shape.Gathers.idx_axis gathers_S100000x128_S8x128 (SparseCore.rows fo (rfl : S8.numel = S8x128.size gathers_S100000x128_S8x128.axis') hin) x
    have e2 := Shape.Gathers.idx_axis gathers128 (SparseCore.rows (m (pLoc d)) numel128 (hpre d)) ((gRectK L).emb x)
    show ((gathers_S100000x128_S8x128.idx _ x gathers_S100000x128_S8x128.axis : Fin _) : ℕ) = ((gathers128.idx _ _ gathers128.axis : Fin _) : ℕ)
    rw [e1, e2]
    show (fo _).toNat = (m (pLoc d) _).toNat
    refine congrArg _ (hfo _ _ ?_)
    have r1 := Shape.rowMajor_val_one (S128.rowMajor.symm ((((gRectK L).emb x) gathers128.axis').cast numel128.symm))
    have r2 := Shape.rowMajor_val_one (S8.rowMajor.symm ((x gathers_S100000x128_S8x128.axis').cast (rfl : S8.numel = S8x128.size gathers_S100000x128_S8x128.axis').symm))
    rw [Equiv.apply_symm_apply] at r1 r2
    refine r1.symm.trans (Eq.trans ?_ (congrArg (fun t => 8 * (chunk L).val + t) r2))
    show ((gRectK L).emb x 0 : ℕ) = 8 * (chunk L).val + (x 0 : ℕ)
    rw [Rect.emb_apply, Rect.off_unit, Rect.stride_unit, k0_off2_eq]
    simp
  | 1 =>
    rw [Shape.Gathers.idx_of_ne _ _ _ _ (by decide), Shape.Gathers.idx_of_ne _ _ _ _ (by decide)]
    show (x 1 : ℕ) = ((gRectK L).emb x 1 : ℕ)
    rw [Rect.emb_apply, Rect.off_unit, Rect.stride_unit, k0_off2_eq]
    simp

end Tile

abbrev cAcell (d : Dev nD) (c : Fin τ.nSC) (i : Fin τ.nSub) : GSem nD τ sig := (V d c i, .dma cc0_scoped0.sem)
abbrev cBcell (d : Dev nD) (c : Fin τ.nSC) (i : Fin τ.nSub) : GSem nD τ sig := (V d c i, .dma cc0_scoped1.sem)
abbrev cCcell (d : Dev nD) (c : Fin τ.nSC) (i : Fin τ.nSub) : GSem nD τ sig := (V d c i, .dma cc0_scoped2.sem)

abbrev cGcell (d : Dev nD) (c : Fin τ.nSC) (i : Fin τ.nSub) : GSem nD τ sig := (V d c i, .dma cc0_scratch2.sem)

abbrev NA : ℕ := (sI : Memref sig .scVector .vmem S8 .i32).view.dmaCredit
abbrev NB : ℕ := sig.dmaCredit .scVector (Kind.scVector.table .hbm) (main_v0_0_scv : Ref sig .scVector).idx S8x128 .f32
abbrev NC : ℕ := sig.dmaCredit .scVector (Kind.scVector.table .hbm) (main_v0_1_scv : Ref sig .scVector).idx S8x128 .f32
theorem NA_pos : 0 < NA := View.dmaCredit_pos _ (by decide)
theorem NB_pos : 0 < NB := sig.dmaCredit_pos _ _ _ _ _ (by decide)
theorem NC_pos : 0 < NC := sig.dmaCredit_pos _ _ _ _ _ (by decide)

inductive CellKind | cA | cB | cC
  deriving DecidableEq

def cellKind (g : GSem nD τ sig) : Option CellKind :=
  match g with
  | ((_, .scVector _ _), sm) =>
      if sm = .dma cc0_scoped0.sem then some .cA else if sm = .dma cc0_scoped1.sem then some .cB
      else if sm = .dma cc0_scoped2.sem then some .cC else none
  | _ => none

@[simp] theorem cellKind_cA (d : Dev nD) (c : Fin τ.nSC) (i : Fin τ.nSub) : cellKind (cAcell d c i) = some .cA := by simp [cellKind]
@[simp] theorem cellKind_cB (d : Dev nD) (c : Fin τ.nSC) (i : Fin τ.nSub) : cellKind (cBcell d c i) = some .cB := by
  simp [cellKind, show (cc0_scoped1.sem : DmaSem sig) ≠ cc0_scoped0.sem from by decide]
@[simp] theorem cellKind_cC (d : Dev nD) (c : Fin τ.nSC) (i : Fin τ.nSub) : cellKind (cCcell d c i) = some .cC := by
  simp [cellKind, show (cc0_scoped2.sem : DmaSem sig) ≠ cc0_scoped0.sem from by decide, show (cc0_scoped2.sem : DmaSem sig) ≠ cc0_scoped1.sem from by decide]

section Cells

variable (hpre : PreOK m)
variable (qP qG : Fin τ.nSC → Fin τ.nSub → PosShare TreeShare)

abbrev tg1 (d : Dev nD) : Tgt (Elt F) (g1Loc d) := fun i => some (G1 m hpre d i)
abbrev tg2 (d : Dev nD) : Tgt (Elt F) (g2Loc d) := fun i => some (G2 m hpre d i)

def kPay (g : GSem nD τ sig) : sProp 𝕄 :=
  match g with
  | ((d, .scVector c i), sm) =>
      if sm = .dma cc0_scoped0.sem then
        iprop((∃ fo : Buf (Elt F) ((V d c i).loc cc0_scratch0), ⌜IdxHolds m d (chunkN c.val i.val) fo⌝ ∗ (V d c i).loc cc0_scratch0 ↦{fullShare} fo)
          ∗ pLoc d ↦[pSet (chunkN c.val i.val)]{qP c i} m (pLoc d))
      else if sm = .dma cc0_scoped1.sem then
        iprop((g1Loc d ⇝[gSet (chunkN c.val i.val)]{qG c i} (m (g1Loc d)) ⇒ (tg1 m hpre d) @ (gSet (chunkN c.val i.val)))
          ∗ ∃ f, (V d c i).loc cc0_scratch1 ↦{fullShare} f)
      else
        iprop((g2Loc d ⇝[gSet (chunkN c.val i.val)]{qG c i} (m (g2Loc d)) ⇒ (tg2 m hpre d) @ (gSet (chunkN c.val i.val)))
          ∗ ∃ f, (V d c i).loc cc0_scratch1 ↦{fullShare} f)
  | _ => iprop(emp)

def kRd : Rounds.Schedule (GSem nD τ sig) Unit 𝕄 where
  duties g r := if (cellKind g).isSome ∧ r = 0 then {()} else ∅
  amount g _ _ := match cellKind g with | some .cA => NA | some .cB => NB | _ => NC
  payload g _ _ := kPay emb m hpre qP qG g
  amount_pos g _ _ _ := by
    rcases cellKind g with _ | ⟨_ | _ | _⟩
    · exact NC_pos
    · exact NA_pos
    · exact NB_pos
    · exact NC_pos

instance kRd_payload_storable (g : GSem nD τ sig) (r : ℕ) (u : Unit) :
    BI.Storable (upEmb : UEmb _ 𝕄) ((kRd (F := F) emb m hpre qP qG).payload g r u) := by
  show BI.Storable upEmb (kPay emb m hpre qP qG g)
  unfold kPay
  rcases g with ⟨⟨d, _ | c | ⟨c, i⟩⟩, sm⟩ <;> dsimp only <;> (repeat' split) <;> infer_instance

theorem kRd_duties₀ {g : GSem nD τ sig} (h : (cellKind g).isSome) : (kRd (F := F) emb m hpre qP qG).duties g 0 = {()} := if_pos ⟨h, rfl⟩
theorem kRd_mem₀ {g : GSem nD τ sig} (h : (cellKind g).isSome) : () ∈ (kRd (F := F) emb m hpre qP qG).duties g 0 := by
  rw [kRd_duties₀ emb m hpre qP qG h]; exact Finset.mem_singleton_self _
theorem kRd_later (g : GSem nD τ sig) : ∀ r, 0 + 1 ≤ r → (kRd (F := F) emb m hpre qP qG).duties g r = ∅ :=
  fun r hr => if_neg fun ⟨_, h⟩ => by omega
theorem kRd_back {g : GSem nD τ sig} (h : (cellKind g).isSome) :
    bigSep ((kRd (F := F) emb m hpre qP qG).duties g 0 \ ∅) (fun u => (kRd (F := F) emb m hpre qP qG).payload g 0 u)
      ⊢ (kRd (F := F) emb m hpre qP qG).payload g 0 () := by
  rw [Finset.sdiff_empty, kRd_duties₀ emb m hpre qP qG h, bigSep_singleton]
theorem kRd_expect {g : GSem nD τ sig} (h : (cellKind g).isSome) :
    (kRd (F := F) emb m hpre qP qG).expect g 0 = (kRd (F := F) emb m hpre qP qG).amount g 0 () := by
  unfold Rounds.Schedule.expect; rw [kRd_duties₀ emb m hpre qP qG h]; exact Finset.sum_singleton _ _
theorem kRd_amount_cA (d : Dev nD) (c : Fin τ.nSC) (i : Fin τ.nSub) : (kRd (F := F) emb m hpre qP qG).amount (cAcell d c i) 0 () = NA := by simp [kRd]
theorem kRd_amount_cB (d : Dev nD) (c : Fin τ.nSC) (i : Fin τ.nSub) : (kRd (F := F) emb m hpre qP qG).amount (cBcell d c i) 0 () = NB := by simp [kRd]
theorem kRd_amount_cC (d : Dev nD) (c : Fin τ.nSC) (i : Fin τ.nSub) : (kRd (F := F) emb m hpre qP qG).amount (cCcell d c i) 0 () = NC := by simp [kRd]
theorem kRd_payload_cA (d : Dev nD) (c : Fin τ.nSC) (i : Fin τ.nSub) :
    (kRd (F := F) emb m hpre qP qG).payload (cAcell d c i) 0 ()
      = iprop((∃ fo : Buf (Elt F) ((V d c i).loc cc0_scratch0), ⌜IdxHolds m d (chunkN c.val i.val) fo⌝ ∗ (V d c i).loc cc0_scratch0 ↦{fullShare} fo)
          ∗ pLoc d ↦[pSet (chunkN c.val i.val)]{qP c i} m (pLoc d)) := by
  show kPay emb m hpre qP qG (cAcell d c i) = _; unfold kPay; exact if_pos rfl
theorem kRd_payload_cB (d : Dev nD) (c : Fin τ.nSC) (i : Fin τ.nSub) :
    (kRd (F := F) emb m hpre qP qG).payload (cBcell d c i) 0 ()
      = iprop((g1Loc d ⇝[gSet (chunkN c.val i.val)]{qG c i} (m (g1Loc d)) ⇒ (tg1 m hpre d) @ (gSet (chunkN c.val i.val)))
          ∗ ∃ f, (V d c i).loc cc0_scratch1 ↦{fullShare} f) := by
  show kPay emb m hpre qP qG (cBcell d c i) = _; unfold kPay; exact (if_neg (by decide)).trans (if_pos rfl)
theorem kRd_payload_cC (d : Dev nD) (c : Fin τ.nSC) (i : Fin τ.nSub) :
    (kRd (F := F) emb m hpre qP qG).payload (cCcell d c i) 0 ()
      = iprop((g2Loc d ⇝[gSet (chunkN c.val i.val)]{qG c i} (m (g2Loc d)) ⇒ (tg2 m hpre d) @ (gSet (chunkN c.val i.val)))
          ∗ ∃ f, (V d c i).loc cc0_scratch1 ↦{fullShare} f) := by
  show kPay emb m hpre qP qG (cCcell d c i) = _; unfold kPay; exact (if_neg (by decide)).trans (if_neg (by decide))

def kit (g : GSem nD τ sig) : sProp 𝕄 :=
  iprop(roundState EK (kRd emb m hpre qP qG) g 0 ∗ atPos EK g 0 ∅ 0 ∗ reached EK g 0 ∗ dutyTok EK g 0 ())

end Cells

section Body

variable (d : Dev nD) (L : grid0.Coords)
variable (hpre : PreOK m) (qP qG : Fin τ.nSC → Fin τ.nSub → PosShare TreeShare)

theorem kRd_payload_cA' :
    (kRd (F := F) emb m hpre qP qG).payload (cAcell d (cV L) (jV L)) 0 ()
      = iprop((∃ fo : Buf (Elt F) ((V d (cV L) (jV L)).loc cc0_scratch0), ⌜IdxHolds m d (chunk L) fo⌝ ∗ (V d (cV L) (jV L)).loc cc0_scratch0 ↦{fullShare} fo)
          ∗ pLoc d ↦[pSet (chunk L)]{qP (cV L) (jV L)} m (pLoc d)) :=
  kRd_payload_cA emb m hpre qP qG d (cV L) (jV L)
theorem kRd_payload_cB' :
    (kRd (F := F) emb m hpre qP qG).payload (cBcell d (cV L) (jV L)) 0 ()
      = iprop((g1Loc d ⇝[gSet (chunk L)]{qG (cV L) (jV L)} (m (g1Loc d)) ⇒ (tg1 m hpre d) @ (gSet (chunk L)))
          ∗ ∃ f, (V d (cV L) (jV L)).loc cc0_scratch1 ↦{fullShare} f) :=
  kRd_payload_cB emb m hpre qP qG d (cV L) (jV L)
theorem kRd_payload_cC' :
    (kRd (F := F) emb m hpre qP qG).payload (cCcell d (cV L) (jV L)) 0 ()
      = iprop((g2Loc d ⇝[gSet (chunk L)]{qG (cV L) (jV L)} (m (g2Loc d)) ⇒ (tg2 m hpre d) @ (gSet (chunk L)))
          ∗ ∃ f, (V d (cV L) (jV L)).loc cc0_scratch1 ↦{fullShare} f) :=
  kRd_payload_cC emb m hpre qP qG d (cV L) (jV L)

theorem pts_pK (q : PosShare TreeShare) (f : Buf (Elt F) (pLoc d)) :
    ((pK L).view.loc (V d (cV L) (jV L)) ↦[(pK L).view.set]{q} f : sProp 𝕄) = pLoc d ↦[pSet (chunk L)]{q} f := by
  rw [set_pK]
theorem pts_v1K (q : PosShare TreeShare) (f : Buf (Elt F) (v1Loc d)) :
    ((v1K : Memref sig .scVector .hbm S100000x128 .f32).view.loc (V d (cV L) (jV L)) ↦[(v1K : Memref sig .scVector .hbm S100000x128 .f32).view.set]{q} f : sProp 𝕄)
      = v1Loc d ↦{q} f := by
  rw [set_v1K]
theorem pts_v2K (q : PosShare TreeShare) (f : Buf (Elt F) (v2Loc d)) :
    ((v2K : Memref sig .scVector .hbm S100000x128 .f32).view.loc (V d (cV L) (jV L)) ↦[(v2K : Memref sig .scVector .hbm S100000x128 .f32).view.set]{q} f : sProp 𝕄)
      = v2Loc d ↦{q} f := by
  rw [show (v2K : Memref sig .scVector .hbm S100000x128 .f32).view.set = Finset.univ from set_v1K]
theorem pts_sI (f : Buf (Elt F) ((V d (cV L) (jV L)).loc cc0_scratch0)) :
    ((sI : Memref sig .scVector .vmem S8 .i32).view.loc (V d (cV L) (jV L)) ↦[(sI : Memref sig .scVector .vmem S8 .i32).view.set]{fullShare} f : sProp 𝕄)
      = (V d (cV L) (jV L)).loc cc0_scratch0 ↦{fullShare} f := by
  simp only [Memref.view_whole, View.set_whole]
theorem pts_sR (f : Buf (Elt F) ((V d (cV L) (jV L)).loc cc0_scratch1)) :
    ((sR : Memref sig .scVector .vmem S8x128 .f32).view.loc (V d (cV L) (jV L)) ↦[(sR : Memref sig .scVector .vmem S8x128 .f32).view.set]{fullShare} f : sProp 𝕄)
      = (V d (cV L) (jV L)).loc cc0_scratch1 ↦{fullShare} f := by
  simp only [Memref.view_whole, View.set_whole]
theorem wb_g1K (q : PosShare TreeShare) (f : Buf (Elt F) (g1Loc d)) (g : Tgt (Elt F) (g1Loc d)) (W : Finset (Idx (g1Loc d))) :
    ((g1K L).view.loc (V d (cV L) (jV L)) ⇝[(g1K L).view.set]{q} f ⇒ g @ W : sProp 𝕄) = g1Loc d ⇝[gSet (chunk L)]{q} f ⇒ g @ W := by
  rw [set_g1K]
theorem wb_g2K (q : PosShare TreeShare) (f : Buf (Elt F) (g2Loc d)) (g : Tgt (Elt F) (g2Loc d)) (W : Finset (Idx (g2Loc d))) :
    ((g2K L).view.loc (V d (cV L) (jV L)) ⇝[(g2K L).view.set]{q} f ⇒ g @ W : sProp 𝕄) = g2Loc d ⇝[gSet (chunk L)]{q} f ⇒ g @ W := by
  rw [set_g2K]

theorem ownSems0_V :
    (ownSems0 (V d (cV L) (jV L)) : sProp 𝕄)
      = iprop(semVal (cAcell d (cV L) (jV L)) 0 ∗ semVal (cBcell d (cV L) (jV L)) 0 ∗ semVal (cCcell d (cV L) (jV L)) 0 ∗ semVal (cGcell d (cV L) (jV L)) 0
          ∗ bigSep (((((ownCells (V d (cV L) (jV L))).erase (cAcell d (cV L) (jV L))).erase (cBcell d (cV L) (jV L))).erase (cCcell d (cV L) (jV L))).erase (cGcell d (cV L) (jV L)))
              fun g => semVal g 0) := by
  unfold SparseCore.Cfg.ownSems0
  rw [SparseCore.bigSep_erase' ((mem_ownCells (g := cAcell d (cV L) (jV L))).mpr ⟨rfl, by
      show (SemLoc.dma cc0_scoped0.sem : SemLoc sig).isScoped .scVector = true; decide⟩),
    SparseCore.bigSep_erase' (Finset.mem_erase.mpr ⟨by simp [cAcell, cBcell]; decide, (mem_ownCells (g := cBcell d (cV L) (jV L))).mpr ⟨rfl, by
      show (SemLoc.dma cc0_scoped1.sem : SemLoc sig).isScoped .scVector = true; decide⟩⟩),
    SparseCore.bigSep_erase' (Finset.mem_erase.mpr ⟨by simp [cBcell, cCcell]; decide, Finset.mem_erase.mpr ⟨by simp [cAcell, cCcell]; decide,
      (mem_ownCells (g := cCcell d (cV L) (jV L))).mpr ⟨rfl, by show (SemLoc.dma cc0_scoped2.sem : SemLoc sig).isScoped .scVector = true; decide⟩⟩⟩),
    SparseCore.bigSep_erase' (Finset.mem_erase.mpr ⟨by simp [cCcell, cGcell]; decide, Finset.mem_erase.mpr ⟨by simp [cBcell, cGcell]; decide,
      Finset.mem_erase.mpr ⟨by simp [cAcell, cGcell]; decide,
      (mem_ownCells (g := cGcell d (cV L) (jV L))).mpr ⟨rfl, by show (SemLoc.dma cc0_scratch2.sem : SemLoc sig).isScoped .scVector = true; decide⟩⟩⟩⟩)]

theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

theorem read_v1K (f : S100000x128.Idx → Elt F .f32) : (v1K : Memref sig .scVector .hbm S100000x128 .f32).view.read (Elt F) f = f := by
  funext x
  rw [View.read_apply]
  refine (cast_eq _ _).trans (congrArg f ?_)
  show wRect.emb x = x
  exact wRect_emb x
theorem read_v2K (f : S100000x128.Idx → Elt F .f32) : (v2K : Memref sig .scVector .hbm S100000x128 .f32).view.read (Elt F) f = f := by
  funext x
  rw [View.read_apply]
  refine (cast_eq _ _).trans (congrArg f ?_)
  show wRect.emb x = x
  exact wRect_emb x

theorem scratch_holds1 {fo : S8.Idx → Elt F .i32} (hfo : IdxHolds m d (chunk L) fo)
    (hin : ∀ x, (fo x).toNat < S100000x128.size gathers_S100000x128_S8x128.axis) (fr : S8x128.Idx → Elt F .f32) :
    (sR : Memref sig .scVector .vmem S8x128 .f32).view.write (Elt F) fr
        (SparseCore.gatherPayload gathers_S100000x128_S8x128 ((v1K : Memref sig .scVector .hbm S100000x128 .f32).view.read (Elt F) (m (v1Loc d)))
          (SparseCore.rows ((sI : Memref sig .scVector .vmem S8 .i32).view.read (Elt F) fo) rfl hin)) Finset.univ
      = (g1K L).view.read (Elt F) (G1 m hpre d) := by
  refine (View.write_whole_univ (cc0_scratch1 : Ref sig .scVector) fr _).trans (funext fun x => ?_)
  refine (congrArg (fun t => SparseCore.gatherPayload gathers_S100000x128_S8x128 t _ x) (read_v1K (m (v1Loc d)))).trans ?_
  exact (gather_agrees m d L hpre hfo hin (m (v1Loc d)) x).trans ((View.read_apply _ _).trans (cast_eq _ _)).symm

theorem scratch_holds2 {fo : S8.Idx → Elt F .i32} (hfo : IdxHolds m d (chunk L) fo)
    (hin : ∀ x, (fo x).toNat < S100000x128.size gathers_S100000x128_S8x128.axis) (fr : S8x128.Idx → Elt F .f32) :
    (sR : Memref sig .scVector .vmem S8x128 .f32).view.write (Elt F) fr
        (SparseCore.gatherPayload gathers_S100000x128_S8x128 ((v2K : Memref sig .scVector .hbm S100000x128 .f32).view.read (Elt F) (m (v2Loc d)))
          (SparseCore.rows ((sI : Memref sig .scVector .vmem S8 .i32).view.read (Elt F) fo) rfl hin)) Finset.univ
      = (g2K L).view.read (Elt F) (G2 m hpre d) := by
  refine (View.write_whole_univ (cc0_scratch1 : Ref sig .scVector) fr _).trans (funext fun x => ?_)
  refine (congrArg (fun t => SparseCore.gatherPayload gathers_S100000x128_S8x128 t _ x) (read_v2K (m (v2Loc d)))).trans ?_
  exact (gather_agrees m d L hpre hfo hin (m (v2Loc d)) x).trans ((View.read_apply _ _).trans (cast_eq _ _)).symm

theorem admitted1 :
    (g1K L).view.Admitted (Elt F) (tg1 m hpre d)
      ((sR : Memref sig .scVector .vmem S8x128 .f32).view.read (Elt F) ((g1K L).view.read (Elt F) (G1 m hpre d))) Finset.univ :=
  View.admitted_some_iff.mpr fun _ _ => rfl
theorem admitted2 :
    (g2K L).view.Admitted (Elt F) (tg2 m hpre d)
      ((sR : Memref sig .scVector .vmem S8x128 .f32).view.read (Elt F) ((g2K L).view.read (Elt F) (G2 m hpre d))) Finset.univ :=
  View.admitted_some_iff.mpr fun _ _ => rfl

variable [FloatOps F]

abbrev NR : ℕ := (sR : Memref sig .scVector .vmem S8x128 .f32).view.dmaCredit

include EC

set_option maxHeartbeats 1600000 in

-- One tile reads its eight positions, gathers those rows of each bank and writes them to its eight rows of each result.
theorem tile_body (hF : (K (F := F)).Facts) {ιwm : ℕ} {q1 q2 : PosShare TreeShare}
    (O : CellTallies nD τ sig (HIx 2)) (W : Waits sig (HIx 2)) (hO : ∀ g, O g none = 0) :
    iprop(levAts (K (F := F)).L (K (F := F)).lev ∗ wmInv (Ix := HIx 2) (Lvl := ℕ) emb ιwm
        ∗ (kit EK emb m hpre qP qG (cAcell d (cV L) (jV L)) ∗ kit EK emb m hpre qP qG (cBcell d (cV L) (jV L)) ∗ kit EK emb m hpre qP qG (cCcell d (cV L) (jV L)))
        ∗ ((pLoc d ↦[pSet (chunk L)]{qP (cV L) (jV L)} m (pLoc d)) ∗ (v1Loc d ↦{q1} m (v1Loc d)) ∗ (v2Loc d ↦{q2} m (v2Loc d))
          ∗ (g1Loc d ⇝[gSet (chunk L)]{qG (cV L) (jV L)} (m (g1Loc d)) ⇒ (tg1 m hpre d) @ ∅)
          ∗ (g2Loc d ⇝[gSet (chunk L)]{qG (cV L) (jV L)} (m (g2Loc d)) ⇒ (tg2 m hpre d) @ ∅))
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__stage_a_body L v1V (Memref.isWhole_whole _) v2V (Memref.isWhole_whole _) pV (Memref.isWhole_whole _)
            g1V (Memref.isWhole_whole _) g2V (Memref.isWhole_whole _) sI (Memref.isWhole_whole _) sR (Memref.isWhole_whole _)
            cc0_scratch2 cc0_scoped0 cc0_scoped1 cc0_scoped2)
          fun _ => iprop(((pLoc d ↦[pSet (chunk L)]{qP (cV L) (jV L)} m (pLoc d)) ∗ (v1Loc d ↦{q1} m (v1Loc d)) ∗ (v2Loc d ↦{q2} m (v2Loc d))
              ∗ (g1Loc d ⇝[gSet (chunk L)]{qG (cV L) (jV L)} (m (g1Loc d)) ⇒ (tg1 m hpre d) @ (gSet (chunk L)))
              ∗ (g2Loc d ⇝[gSet (chunk L)]{qG (cV L) (jV L)} (m (g2Loc d)) ⇒ (tg2 m hpre d) @ (gSet (chunk L))))
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0__stage_a_body_eq_skeleton]; unfold cc0__stage_a_body_skel
  simp only [k0_part1_eq_skeleton]; unfold k0_part1_skel
  simp only [SparseCore.waitIndirectGather, Prog.lift, Prog.bind_op, Prog.bind_ret, Prog.pure_eq_ret, Prog.bind_assoc]
  rw [(K (F := F)).scopedBufs_V hF d (cV L) (jV L), SparseCore.Cfg.scopedSems0_V (Val := Elt F) d (cV L) (jV L), ownSems0_V, ownBufs_V]
  unfold kit
  iintro ⟨#Hlv, #Hwm, ⟨⟨HstA, HatA, #HrA, HtokA⟩, ⟨HstB, HatB, #HrB, HtokB⟩, ⟨HstC, HatC, #HrC, HtokC⟩⟩, ⟨Hp, Hv1, Hv2, Hg1, Hg2⟩,
    ⟨⟨%fs, Hs⟩, ⟨%fr, Hr⟩, Hbufs⟩, ⟨HsemA, HsemB, HsemC, HsemG, Hsems⟩, HO⟩
  imod ((Rounds.body_intro EK (kRd emb m hpre qP qG) (cAcell d (cV L) (jV L))).trans inv_alloc) $$ [HsemA HstA] with ⟨%κA, #HinvA⟩
  · isplitl [HsemA] <;> iassumption
  imod ((Rounds.body_intro EK (kRd emb m hpre qP qG) (cBcell d (cV L) (jV L))).trans inv_alloc) $$ [HsemB HstB] with ⟨%κB, #HinvB⟩
  · isplitl [HsemB] <;> iassumption
  imod ((Rounds.body_intro EK (kRd emb m hpre qP qG) (cCcell d (cV L) (jV L))).trans inv_alloc) $$ [HsemC HstC] with ⟨%κC, #HinvC⟩
  · isplitl [HsemC] <;> iassumption

  ihave Hp' := (Entails.of_eq (pts_pK (F := F) d L _ _).symm) $$ Hp
  ihave Hs' := (Entails.of_eq (pts_sI (F := F) d L _).symm) $$ Hs
  iapply (Rounds.wp_copy_pointsTo 𝒱₀ EK (kRd emb m hpre qP qG) (V d (cV L) (jV L)) none (q := qP (cV L) (jV L)) (fs := m (pLoc d)) (fd := fs) (κ := κA)
      (kRd_mem₀ emb m hpre qP qG (by rw [cellKind_cA]; rfl)) none NA rfl (kRd_amount_cA emb m hpre qP qG d _ _) ?hpayA) $$ [Hp' Hs' HtokA]
  case hpayA =>
    rw [kRd_payload_cA', pts_pK, pts_sI, View.write_whole_univ]
    iintro ⟨Hs, Hp⟩
    isplitl [Hs]
    · iexists _; isplitr; · ipureintro; exact fetch_holds m d L
      iexact Hs
    · iexact Hp
  · isplitr; · iexact HinvA
    isplitl [Hp']; · iexact Hp'
    isplitl [Hs']; · iexact Hs'
    isplitl [HtokA]; · iexact HtokA
    iexact HrA
  iintro HcredA
  iapply (Rounds.wp_wait_rest_token 𝒱₀ EK (kRd emb m hpre qP qG) (V d (cV L) (jV L)) none (κ := κA)
      (wpE_waitDma2_eq 𝒱₀ (V d (cV L) (jV L)) none Set.univ) (Set.mem_univ κA) none (O := O) (W := W) (R := 0) (m := 0) (T := ∅)
      (by rw [Nat.zero_add, kRd_expect emb m hpre qP qG (by rw [cellKind_cA]; rfl), kRd_amount_cA]; try rfl)) $$ [HcredA HO HatA]
  · isplitr; · iexact HinvA
    isplitl [HcredA]; · iexact HcredA
    isplitl [HO]; · iexact HO
    isplitr; · iapply ((K (F := F)).mayWait_none (SemLoc.dma cc0_scoped0.sem) hO); iexact Hlv
    iexact HatA
  iintro ⟨HO, HatA, -, Hpay⟩
  ihave Hpy := ((kRd_back emb m hpre qP qG (g := cAcell d (cV L) (jV L)) (by rw [cellKind_cA]; rfl)).trans (Entails.of_eq (kRd_payload_cA' emb m d L hpre qP qG))) $$ Hpay
  icases Hpy with ⟨⟨%fo, %hfo, Hs⟩, Hp⟩
  imod (Rounds.cell_close EK (kRd emb m hpre qP qG) (Set.mem_univ κA) (fun h => h) (R := 0 + 1) (kRd_later emb m hpre qP qG (cAcell d _ _))) $$ [HatA] with HsemA
  · isplitr; · iexact HinvA
    iexact HatA
  have hin := hin_of_holds m d hpre hfo
  have hNR : ∑ j, ((sR : Memref sig .scVector .vmem S8x128 .f32).slice (S8x128.rowRect gathers_S100000x128_S8x128.axis' j) (S8x128.stride_rowRect gathers_S100000x128_S8x128.axis' j)).view.dmaCredit = NR :=
    SparseCore.sum_rowCredit_eq_dmaCredit (sR : Memref sig .scVector .vmem S8x128 .f32) _ (fun _ => rfl)

  ihave Hv1' := (Entails.of_eq (pts_v1K (F := F) d L _ _).symm) $$ Hv1
  ihave Hr' := (Entails.of_eq (pts_sR (F := F) d L _).symm) $$ Hr
  ihave Hs' := (Entails.of_eq (pts_sI (F := F) d L _).symm) $$ Hs
  iapply (SparseCore.wp_indirectGatherLocal EC 𝒱₀ (V d (cV L) (jV L)) none (src := v1K) (dst := sR) (hg := gathers_S100000x128_S8x128) (offs := sI)
      (q := q1) (qo := fullShare) (fs := m (v1Loc d)) (fd := fr) (fo := fo) none NR hNR (by decide) hin) $$ [Hv1' Hr' Hs' HsemG]
  · isplitl [Hv1']; · iexact Hv1'
    isplitl [Hr']; · iexact Hr'
    isplitl [Hs']; · iexact Hs'
    iexact HsemG
  iintro Hfl
  iapply (Transfers.wp_waitLocalO EC 𝒱₀ (V d (cV L) (jV L)) none none (N := NR) rfl (O := O) (W := (insert (SemLoc.dma cc0_scoped0.sem, (none : HIx 2)) W))) $$ [Hfl HO]
  · isplitl [Hfl]; · iexact Hfl
    isplitl [HO]; · iexact HO
    iapply ((K (F := F)).mayWait_none (SemLoc.dma cc0_scratch2.sem) hO); iexact Hlv
  iintro ⟨⟨Hr', Hv1', Hs'⟩, HsemG, HO⟩
  ihave Hv1 := (Entails.of_eq (pts_v1K (F := F) d L _ _)) $$ Hv1'
  ihave Hs := (Entails.of_eq (pts_sI (F := F) d L _)) $$ Hs'
  ihave Hr' := (Entails.of_eq (congrArg (fun f => ((sR : Memref sig .scVector .vmem S8x128 .f32).view.loc (V d (cV L) (jV L)) ↦[(sR : Memref sig .scVector .vmem S8x128 .f32).view.set]{fullShare} f : sProp 𝕄))
      (scratch_holds1 m d L hpre hfo hin fr))) $$ Hr'

  iapply (Rounds.wp_copy 𝒱₀ EK (kRd emb m hpre qP qG) (V d (cV L) (jV L)) none (src := sR) (dst := g1K L) (q := fullShare) (fs := (g1K L).view.read (Elt F) (G1 m hpre d))
      (R := ((g1K L).view.loc (V d (cV L) (jV L)) ⇝[(g1K L).view.set]{qG (cV L) (jV L)} (m (g1Loc d)) ⇒ (tg1 m hpre d) @ (∅ ∪ (g1K L).view.set)))
      (κ := κB) (kRd_mem₀ emb m hpre qP qG (by rw [cellKind_cB]; rfl)) none NB rfl (kRd_amount_cB emb m hpre qP qG d _ _) ?hpayB) $$ [Hr' Hg1 HtokB]
  case hpayB =>
    rw [kRd_payload_cB', wb_g1K, Finset.empty_union, set_g1K, pts_sR]
    iintro ⟨Hg, Hr⟩
    isplitl [Hg]; · iexact Hg
    iexists _; iexact Hr
  · isplitr; · iexact HinvB
    isplitl [Hr']; · iexact Hr'
    isplitl [Hg1]
    · iapply (willBeTo_writeUpdate (Ix := HIx 2) (Lvl := ℕ) (emb := emb) (ιwm := ιwm) (V d (cV L) (jV L)) (v := (g1K L).view) (S := (g1K L).view.set)
        (q := qG (cV L) (jV L)) (f := m (g1Loc d)) (g := tg1 m hpre d) (W := ∅) subset_rfl (admitted1 m d L hpre))
      isplitr; · iexact Hwm
      iapply (Entails.of_eq (wb_g1K (F := F) emb d L _ _ _ _).symm); iexact Hg1
    isplitl [HtokB]; · iexact HtokB
    iexact HrB
  iintro HcredB
  iapply (Rounds.wp_wait_rest_token 𝒱₀ EK (kRd emb m hpre qP qG) (V d (cV L) (jV L)) none (κ := κB)
      (wpE_waitDma2_eq 𝒱₀ (V d (cV L) (jV L)) none Set.univ) (Set.mem_univ κB) none (O := O) (W := (insert (SemLoc.dma cc0_scratch2.sem, (none : HIx 2)) (insert (SemLoc.dma cc0_scoped0.sem, (none : HIx 2)) W))) (R := 0) (m := 0) (T := ∅)
      (by rw [Nat.zero_add, kRd_expect emb m hpre qP qG (by rw [cellKind_cB]; rfl), kRd_amount_cB]; try rfl)) $$ [HcredB HO HatB]
  · isplitr; · iexact HinvB
    isplitl [HcredB]; · iexact HcredB
    isplitl [HO]; · iexact HO
    isplitr; · iapply ((K (F := F)).mayWait_none (SemLoc.dma cc0_scoped1.sem) hO); iexact Hlv
    iexact HatB
  iintro ⟨HO, HatB, -, Hpay⟩
  ihave Hpy := ((kRd_back emb m hpre qP qG (g := cBcell d (cV L) (jV L)) (by rw [cellKind_cB]; rfl)).trans (Entails.of_eq (kRd_payload_cB' emb m d L hpre qP qG))) $$ Hpay
  icases Hpy with ⟨Hg1, ⟨%fr2, Hr⟩⟩
  imod (Rounds.cell_close EK (kRd emb m hpre qP qG) (Set.mem_univ κB) (fun h => h) (R := 0 + 1) (kRd_later emb m hpre qP qG (cBcell d _ _))) $$ [HatB] with HsemB
  · isplitr; · iexact HinvB
    iexact HatB

  ihave Hv2' := (Entails.of_eq (pts_v2K (F := F) d L _ _).symm) $$ Hv2
  ihave Hr' := (Entails.of_eq (pts_sR (F := F) d L _).symm) $$ Hr
  ihave Hs' := (Entails.of_eq (pts_sI (F := F) d L _).symm) $$ Hs
  iapply (SparseCore.wp_indirectGatherLocal EC 𝒱₀ (V d (cV L) (jV L)) none (src := v2K) (dst := sR) (hg := gathers_S100000x128_S8x128) (offs := sI)
      (q := q2) (qo := fullShare) (fs := m (v2Loc d)) (fd := fr2) (fo := fo) none NR hNR (by decide) hin) $$ [Hv2' Hr' Hs' HsemG]
  · isplitl [Hv2']; · iexact Hv2'
    isplitl [Hr']; · iexact Hr'
    isplitl [Hs']; · iexact Hs'
    iexact HsemG
  iintro Hfl
  iapply (Transfers.wp_waitLocalO EC 𝒱₀ (V d (cV L) (jV L)) none none (N := NR) rfl (O := O) (W := (insert (SemLoc.dma cc0_scoped1.sem, (none : HIx 2)) (insert (SemLoc.dma cc0_scratch2.sem, (none : HIx 2)) (insert (SemLoc.dma cc0_scoped0.sem, (none : HIx 2)) W))))) $$ [Hfl HO]
  · isplitl [Hfl]; · iexact Hfl
    isplitl [HO]; · iexact HO
    iapply ((K (F := F)).mayWait_none (SemLoc.dma cc0_scratch2.sem) hO); iexact Hlv
  iintro ⟨⟨Hr', Hv2', Hs'⟩, HsemG, HO⟩
  ihave Hv2 := (Entails.of_eq (pts_v2K (F := F) d L _ _)) $$ Hv2'
  ihave Hs := (Entails.of_eq (pts_sI (F := F) d L _)) $$ Hs'
  ihave Hr' := (Entails.of_eq (congrArg (fun f => ((sR : Memref sig .scVector .vmem S8x128 .f32).view.loc (V d (cV L) (jV L)) ↦[(sR : Memref sig .scVector .vmem S8x128 .f32).view.set]{fullShare} f : sProp 𝕄))
      (scratch_holds2 m d L hpre hfo hin fr2))) $$ Hr'

  iapply (Rounds.wp_copy 𝒱₀ EK (kRd emb m hpre qP qG) (V d (cV L) (jV L)) none (src := sR) (dst := g2K L) (q := fullShare) (fs := (g2K L).view.read (Elt F) (G2 m hpre d))
      (R := ((g2K L).view.loc (V d (cV L) (jV L)) ⇝[(g2K L).view.set]{qG (cV L) (jV L)} (m (g2Loc d)) ⇒ (tg2 m hpre d) @ (∅ ∪ (g2K L).view.set)))
      (κ := κC) (kRd_mem₀ emb m hpre qP qG (by rw [cellKind_cC]; rfl)) none NC rfl (kRd_amount_cC emb m hpre qP qG d _ _) ?hpayC) $$ [Hr' Hg2 HtokC]
  case hpayC =>
    rw [kRd_payload_cC', wb_g2K, Finset.empty_union, set_g2K, pts_sR]
    iintro ⟨Hg, Hr⟩
    isplitl [Hg]; · iexact Hg
    iexists _; iexact Hr
  · isplitr; · iexact HinvC
    isplitl [Hr']; · iexact Hr'
    isplitl [Hg2]
    · iapply (willBeTo_writeUpdate (Ix := HIx 2) (Lvl := ℕ) (emb := emb) (ιwm := ιwm) (V d (cV L) (jV L)) (v := (g2K L).view) (S := (g2K L).view.set)
        (q := qG (cV L) (jV L)) (f := m (g2Loc d)) (g := tg2 m hpre d) (W := ∅) subset_rfl (admitted2 m d L hpre))
      isplitr; · iexact Hwm
      iapply (Entails.of_eq (wb_g2K (F := F) emb d L _ _ _ _).symm); iexact Hg2
    isplitl [HtokC]; · iexact HtokC
    iexact HrC
  iintro HcredC
  iapply (Rounds.wp_wait_rest_token 𝒱₀ EK (kRd emb m hpre qP qG) (V d (cV L) (jV L)) none (κ := κC)
      (wpE_waitDma2_eq 𝒱₀ (V d (cV L) (jV L)) none Set.univ) (Set.mem_univ κC) none (O := O) (W := (insert (SemLoc.dma cc0_scratch2.sem, (none : HIx 2)) (insert (SemLoc.dma cc0_scoped1.sem, (none : HIx 2)) (insert (SemLoc.dma cc0_scratch2.sem, (none : HIx 2)) (insert (SemLoc.dma cc0_scoped0.sem, (none : HIx 2)) W))))) (R := 0) (m := 0) (T := ∅)
      (by rw [Nat.zero_add, kRd_expect emb m hpre qP qG (by rw [cellKind_cC]; rfl), kRd_amount_cC]; try rfl)) $$ [HcredC HO HatC]
  · isplitr; · iexact HinvC
    isplitl [HcredC]; · iexact HcredC
    isplitl [HO]; · iexact HO
    isplitr; · iapply ((K (F := F)).mayWait_none (SemLoc.dma cc0_scoped2.sem) hO); iexact Hlv
    iexact HatC
  iintro ⟨HO, HatC, -, Hpay⟩
  ihave Hpy := ((kRd_back emb m hpre qP qG (g := cCcell d (cV L) (jV L)) (by rw [cellKind_cC]; rfl)).trans (Entails.of_eq (kRd_payload_cC' emb m d L hpre qP qG))) $$ Hpay
  icases Hpy with ⟨Hg2, ⟨%fr3, Hr⟩⟩
  imod (Rounds.cell_close EK (kRd emb m hpre qP qG) (Set.mem_univ κC) (fun h => h) (R := 0 + 1) (kRd_later emb m hpre qP qG (cCcell d _ _))) $$ [HatC] with HsemC
  · isplitr; · iexact HinvC
    iexact HatC
  rw [wp_ret]; imodintro
  isplitl [Hp Hv1 Hv2 Hg1 Hg2]
  · isplitl [Hp]; · iexact Hp
    isplitl [Hv1]; · iexact Hv1
    isplitl [Hv2]; · iexact Hv2
    isplitl [Hg1]; · iexact Hg1
    iexact Hg2
  isplitl [Hs Hr Hbufs]
  · isplitl [Hs]
    · iexists _; iexact Hs
    isplitl [Hr]
    · iexists _; iexact Hr
    · iexact Hbufs
  isplitl [HsemA HsemB HsemC HsemG Hsems]
  · isplitl [HsemA]; · iexact HsemA
    isplitl [HsemB]; · iexact HsemB
    isplitl [HsemC]; · iexact HsemC
    isplitl [HsemG]; · iexact HsemG
    iexact Hsems
  iexists (insert (SemLoc.dma cc0_scoped2.sem, (none : HIx 2)) (insert (SemLoc.dma cc0_scratch2.sem, (none : HIx 2)) (insert (SemLoc.dma cc0_scoped1.sem, (none : HIx 2)) (insert (SemLoc.dma cc0_scratch2.sem, (none : HIx 2)) (insert (SemLoc.dma cc0_scoped0.sem, (none : HIx 2)) W))))); isplitr
  · ipureintro; intro p hp
    rcases Finset.mem_insert.mp hp with rfl | hp
    · exact .inr rfl
    rcases Finset.mem_insert.mp hp with rfl | hp
    · exact .inr rfl
    rcases Finset.mem_insert.mp hp with rfl | hp
    · exact .inr rfl
    rcases Finset.mem_insert.mp hp with rfl | hp
    · exact .inr rfl
    rcases Finset.mem_insert.mp hp with rfl | hp
    · exact .inr rfl
    · exact .inl hp
  iexact HO

end Body

end Cert.Proof.EK
-- ==== Proof.Call0K.lean ====
import proofs.«204933_g4492535792355_cont_8to1_c_766_42_alg».proof.Proof.TileAK

noncomputable section

namespace Cert.Proof.E0K

open Cert.Kernel Cert.Kernel.Gen
open Cert.Proof.EK

open Idealize.ShloMosaic
open Idealize.ShloMosaic.SparseCore (V)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}
variable {UU : Type} [URA UU]

local notation "𝕄" => MT nD τ sig (HIx 2) (Elt F) ℕ UU ℕ

variable (EK : Emb UK (MT nD τ sig (HIx 2) (Elt F) ℕ UU ℕ)) [EK.LandsIn (upEmb : UEmb _ (MT nD τ sig (HIx 2) (Elt F) ℕ UU ℕ))]
variable (EC : UEmb Counters (MT nD τ sig (HIx 2) (Elt F) ℕ UU ℕ)) [EC.LandsIn (upEmb : UEmb _ (MT nD τ sig (HIx 2) (Elt F) ℕ UU ℕ))]
variable (emb : UEmb (WmRA nD τ sig (Elt F)) UU)

local notation:60 ℓ " ⇝[" I "]{" q "} " f:max " ⇒ " g:max " @ " W:max => willBeTo (Ix := HIx 2) (Name := ℕ) (Lvl := ℕ) emb ℓ I q f g W

variable (m : (ℓ : Loc nD τ sig) → Buf (Elt F) ℓ)

variable [FloatOps F]

abbrev D : Defs nD τ sig (Elt F) (ΛP (F := F)) := Pipeline.defs pcfgs defs₀
abbrev 𝒱 : Variants := 𝒱₀.lift
abbrev v₀ : 𝒱.V := Sum.inl none

def coordsV (c : Fin (grid0.bound 0)) (s : Fin (grid0.bound 1)) : grid0.Coords :=
  fun | 0 => c | 1 => s | ⟨_ + 2, h⟩ => absurd h (Nat.not_lt.2 (Nat.le_add_left _ _))

theorem nSC_le : τ.nSC ≤ grid0.bound 0 := by decide
theorem nSub_le : τ.nSub ≤ grid0.bound 1 := by decide

def Lof (c : Fin τ.nSC) (s : Fin τ.nSub) : grid0.Coords :=
  coordsV ⟨c.val, Nat.lt_of_lt_of_le c.isLt nSC_le⟩ ⟨s.val, Nat.lt_of_lt_of_le s.isLt nSub_le⟩

theorem defs₀_vector (c : Fin τ.nSC) (s : Fin τ.nSub) :
    defs₀ (F := F) (.scVector c s) 0 ()
      = SparseCore.onTile hcore0 hsub0 (fun c s => cc0__stage_a_body (coordsV c s)
          v1V (Memref.isWhole_whole _) v2V (Memref.isWhole_whole _) pV (Memref.isWhole_whole _)
          g1V (Memref.isWhole_whole _) g2V (Memref.isWhole_whole _) sI (Memref.isWhole_whole _) sR (Memref.isWhole_whole _)
          cc0_scratch2 cc0_scoped0 cc0_scoped1 cc0_scoped2) ⟨⟩ c s := rfl

section Obl

variable (hpre : PreOK m) (qP qG q1 q2 : Fin τ.nSC → Fin τ.nSub → PosShare TreeShare) (ιwm : ℕ)

abbrev goRes (d : Dev nD) (c : Fin τ.nSC) (s : Fin τ.nSub) : sProp 𝕄 :=
  iprop((pLoc d ↦[pSet (chunk (Lof c s))]{qP c s} m (pLoc d)) ∗ (v1Loc d ↦{q1 c s} m (v1Loc d)) ∗ (v2Loc d ↦{q2 c s} m (v2Loc d))
    ∗ (g1Loc d ⇝[gSet (chunk (Lof c s))]{qG c s} (m (g1Loc d)) ⇒ (tg1 m hpre d) @ ∅)
    ∗ (g2Loc d ⇝[gSet (chunk (Lof c s))]{qG c s} (m (g2Loc d)) ⇒ (tg2 m hpre d) @ ∅))
abbrev tdRes (d : Dev nD) (c : Fin τ.nSC) (s : Fin τ.nSub) : sProp 𝕄 :=
  iprop((pLoc d ↦[pSet (chunk (Lof c s))]{qP c s} m (pLoc d)) ∗ (v1Loc d ↦{q1 c s} m (v1Loc d)) ∗ (v2Loc d ↦{q2 c s} m (v2Loc d))
    ∗ (g1Loc d ⇝[gSet (chunk (Lof c s))]{qG c s} (m (g1Loc d)) ⇒ (tg1 m hpre d) @ (gSet (chunk (Lof c s))))
    ∗ (g2Loc d ⇝[gSet (chunk (Lof c s))]{qG c s} (m (g2Loc d)) ⇒ (tg2 m hpre d) @ (gSet (chunk (Lof c s)))))

theorem obl_post {thr : Thread nD τ} {A B C : sProp 𝕄} {O : CellTallies nD τ sig (HIx 2)} {W : Waits sig (HIx 2)} {q : Fin 2} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  iframe HA HB HC
  iexists W'; iframe HO
  ipureintro; exact fun p hp => (hW' p hp).imp_right Or.inl

abbrev xRes' (d : Dev nD) (c : Fin τ.nSC) (s : Fin τ.nSub) : sProp 𝕄 :=
  iprop((∃ ιwm : ℕ, wmInv (Ix := HIx 2) (Lvl := ℕ) emb ιwm)
    ∗ kit EK emb m hpre qP qG (cAcell d c s) ∗ kit EK emb m hpre qP qG (cBcell d c s) ∗ kit EK emb m hpre qP qG (cCcell d c s))

include EC in

theorem tileObl0' (P : (K (F := F)).Pay (nD := nD) (Val := Elt F) (Name := ℕ) (U := UU))
    (hgo : ∀ d c i, P.go 0 d c i = goRes emb m hpre qP qG q1 q2 d ((K (F := F)).core 0 c) ((K (F := F)).sub 0 i))
    (htd : ∀ d c i, P.td 0 d c i = tdRes emb m hpre qP qG q1 q2 d ((K (F := F)).core 0 c) ((K (F := F)).sub 0 i))
    (hx : ∀ d c i, P.x 0 (V d c i) = xRes' EK emb m hpre qP qG d c i)
    (hox : P.ox = fun _ _ => 0) (hF : (K (F := F)).Facts) :
    (K (F := F)).TileObl (D (F := F)) 𝒱 P v₀ 0 := by
  intro d c i O W hO _ _
  simp only [hox, add_zero]
  rw [hgo, htd, hx]
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  show (_ : sProp 𝕄) ⊢ _
  iintro ⟨HA, ⟨⟨%ι, HΦ⟩, HB⟩, HR⟩
  iapply ((tile_body EK EC emb m d (Lof ((K (F := F)).core 0 c) ((K (F := F)).sub 0 i)) hpre qP qG hF
    (ιwm := ι) (q1 := q1 _ _) (q2 := q2 _ _) O W hO).trans (wp_mono frame _ _ fun _ => obl_post))
  iframe HA HΦ
  isplitl [HB]; · iexact HB
  iexact HR

theorem vecSplit0 (P : (K (F := F)).Pay (nD := nD) (Val := Elt F) (Name := ℕ) (U := UU))
    (hgo : ∀ d c i, P.go 0 d c i = goRes emb m hpre qP qG q1 q2 d ((K (F := F)).core 0 c) ((K (F := F)).sub 0 i))
    (htd : ∀ d c i, P.td 0 d c i = tdRes emb m hpre qP qG q1 q2 d ((K (F := F)).core 0 c) ((K (F := F)).sub 0 i))
    (hst : ∀ d c, P.st 0 d c = bigSep Finset.univ fun i : Fin ((K (F := F)).nSub 0) =>
      goRes emb m hpre qP qG q1 q2 d ((K (F := F)).core 0 c) ((K (F := F)).sub 0 i))
    (hdn : ∀ d c, P.dn 0 d c = bigSep Finset.univ fun i : Fin ((K (F := F)).nSub 0) =>
      tdRes emb m hpre qP qG q1 q2 d ((K (F := F)).core 0 c) ((K (F := F)).sub 0 i)) :
    (K (F := F)).VecSplit' P 0 := by
  intro d c
  rw [hst, hdn, bigSep_congr fun i _ => hgo d c i, bigSep_congr fun i _ => htd d c i]
  iintro H; imodintro; iframe H
  iintro H; iexact H

end Obl

section Launch

variable (hpre : PreOK m) (qP qG : Fin τ.nSC → Fin τ.nSub → PosShare TreeShare)

def kCells0 : Finset (GSem nD τ sig) :=
  ((Finset.univ.image fun dci : Dev nD × Fin τ.nSC × Fin τ.nSub => cAcell dci.1 dci.2.1 dci.2.2)
    ∪ (Finset.univ.image fun dci : Dev nD × Fin τ.nSC × Fin τ.nSub => cBcell dci.1 dci.2.1 dci.2.2))
    ∪ (Finset.univ.image fun dci : Dev nD × Fin τ.nSC × Fin τ.nSub => cCcell dci.1 dci.2.1 dci.2.2)

def kToks0 : Finset (GSem nD τ sig × ℕ × Unit) := kCells0.map ⟨fun g => (g, 0, ()), fun _ _ e => (Prod.mk.inj e).1⟩

theorem inj3 (sm : SemLoc sig) {s : Set (Dev nD × Fin τ.nSC × Fin τ.nSub)} :
    Set.InjOn (fun dci => ((V dci.1 dci.2.1 dci.2.2, sm) : GSem nD τ sig)) s := by
  intro a _ b _ e
  obtain ⟨h1, h2⟩ := Prod.mk.inj (Prod.mk.inj e).1; obtain ⟨h3, h4⟩ := Proc.scVector.inj h2
  exact Prod.ext h1 (Prod.ext h3 h4)

theorem kits0 :
    (BI.own (EK (initOf kCells0 kToks0)) : sProp 𝕄)
      ⊢ iprop(|==> bigSep Finset.univ fun dci : Dev nD × Fin τ.nSC × Fin τ.nSub =>
          iprop(kit EK emb m hpre qP qG (cAcell dci.1 dci.2.1 dci.2.2) ∗ kit EK emb m hpre qP qG (cBcell dci.1 dci.2.1 dci.2.2)
            ∗ kit EK emb m hpre qP qG (cCcell dci.1 dci.2.1 dci.2.2))) := by
  refine (Rounds.fund EK (kRd emb m hpre qP qG) kCells0 kToks0).trans (BI.bupd_mono ?_)
  unfold kToks0 kCells0
  rw [bigSep_map, ← bigSep_sep', ← bigSep_sep', ← bigSep_sep',
    SparseCore.bigSep_union' (Finset.disjoint_union_left.mpr ⟨?_, ?_⟩), SparseCore.bigSep_union' ?_,
    SparseCore.bigSep_image_of_injOn (inj3 _) _, SparseCore.bigSep_image_of_injOn (inj3 _) _,
    SparseCore.bigSep_image_of_injOn (inj3 _) _, ← bigSep_sep', ← bigSep_sep']
  · refine bigSep_mono fun dci _ => ?_
    simp only [kit, Function.Embedding.coeFn_mk]
    show (_ : sProp 𝕄) ⊢ _
    iintro ⟨⟨⟨HsA, HrA, HaA, HtA⟩, HsB, HrB, HaB, HtB⟩, HsC, HrC, HaC, HtC⟩
    iframe
  all_goals
    refine Finset.disjoint_left.mpr fun g h1 h2 => ?_
    obtain ⟨a, -, rfl⟩ := Finset.mem_image.mp h1
    obtain ⟨b, -, e⟩ := Finset.mem_image.mp h2
    exact absurd (Prod.mk.inj e).2 (by decide)

end Launch

end Cert.Proof.E0K
-- ==== Proof.SplitAK.lean ====
import proofs.«204933_g4492535792355_cont_8to1_c_766_42_alg».proof.Proof.TileAK
import proofs.«204933_g4492535792355_cont_8to1_c_766_42_alg».proof.Proof.BankSpec
import Idealize.ShloMosaic.Lib.Transfers
import Idealize.ShloMosaic.Lib.StableHlo.Run
import Idealize.ShloMosaic.Lib.Pipeline.Frame
import Idealize.ShloMosaic.Lib.ValueIdx

noncomputable section

namespace Cert.Proof.SAK

open Idealize.ShloMosaic
open Idealize.SL Idealize.SL.RA Idealize.SL.BI
open scoped Idealize.SL.BI
open Idealize.SL.BI.BIBase Idealize.SL.BI.Laws Idealize.SL.ProofMode Idealize.SL.Sem
open PCS URA Auth

def chunkOf (c : Fin 2) (s : Fin 16) : Fin 16 := ⟨(2 * s.val + c.val) % 16, Nat.mod_lt _ (by decide)⟩

def tileEquiv : Fin 2 × Fin 16 ≃ Fin 16 × Fin 2 :=
  Equiv.ofBijective (fun t => (chunkOf t.1 t.2, ⟨t.2.val / 8, by have := t.2.isLt; omega⟩)) (by decide)

theorem bigSep_tiles {M : Type} [URA M] (Φ : Fin 16 → Fin 2 → sProp M) :
    (bigSep Finset.univ fun j : Fin 16 => bigSep Finset.univ fun h : Fin 2 => Φ j h)
      = bigSep Finset.univ fun c : Fin 2 => bigSep Finset.univ fun s : Fin 16 =>
          Φ (chunkOf c s) ⟨s.val / 8, by have := s.isLt; omega⟩ := by
  rw [← bigSep_univ_prod (fun p : Fin 16 × Fin 2 => Φ p.1 p.2), bigSep_univ_equiv tileEquiv,
    bigSep_univ_prod (fun t : Fin 2 × Fin 16 => Φ (tileEquiv t).1 (tileEquiv t).2)]
  rfl

def halfN (q : PosShare TreeShare) (n : ℕ) : PosShare TreeShare := if n < 8 then q.left else q.right

theorem halfN_div (q : PosShare TreeShare) (s : ℕ) : halfN q (8 * (s / 8)) = halfN q s := if_congr (by omega) rfl rfl

/-- Sixteen pairwise disjoint index sets whose union is `I₀`. -/
def Tiling {α : Type} [DecidableEq α] (Kf : Fin 16 → Finset α) (I₀ : Finset α) : Prop :=
  (∀ j j' : Fin 16, j ≠ j' → Disjoint (Kf j) (Kf j')) ∧ (Finset.univ : Finset (Fin 16)).biUnion Kf = I₀

theorem part_tiling {s : Shape} {a₀ : Fin s.rank} (h : 16 ∣ s.size a₀) : Tiling (fun j => (Rect.part h j).set) Finset.univ :=
  ⟨fun _ _ => Rect.part_disjoint h, Rect.biUnion_part h⟩

section Held

variable {K : Type} [DecidableEq K] {Ix : K → Type} [∀ k, DecidableEq (Ix k)] {E : K → Type} [∀ k, RA (E k)]
variable {M : Type} [URA M] (ι : UEmb (Auth (Region.Carrier Ix E)) M)
variable {k : K} {q : PosShare TreeShare} {x : Ix k → E k}

theorem held_empty : Region.held ι.toEmb k ∅ q x = (BI.emp : sProp M) := by
  unfold Region.held RA.Region.part
  rw [RA.Region.cells_empty, IProd.single_one, Auth.frag_one]
  show BI.own (ι 1) = BI.emp
  rw [ι.map_one]
  exact BI.own_one

/-- A region over a union of pairwise disjoint sets is the separating product of its pieces (induction on the family). -/
theorem held_biUnion {T : Type} (S : Finset T) (Kf : T → Finset (Ix k))
    (h : ∀ t t', t ≠ t' → Disjoint (Kf t) (Kf t')) :
    Region.held ι.toEmb k (S.biUnion Kf) q x = bigSep S fun t => Region.held ι.toEmb k (Kf t) q x := by
  classical
  induction S using Finset.induction_on with
  | empty => rw [Finset.biUnion_empty, held_empty, bigSep_empty]
  | insert t S ht ih =>
    rw [Finset.biUnion_insert, bigSep_insert ht]
    have hd : Disjoint (Kf t) (S.biUnion Kf) :=
      (Finset.disjoint_biUnion_right _ _ _).mpr fun t' ht' => h t t' fun e => ht (e ▸ ht')
    have hu := Region.held_union (ι := ι.toEmb) (k := k) (q := q) (x := x) hd
    rw [BI.equiv_iff.mp ⟨hu.1, hu.2⟩, ih]
    rfl

theorem held_halves (I : Finset (Ix k)) (hx : ∀ i ∈ I, x i ∈ x i ·? x i) :
    Region.held ι.toEmb k I q x = bigSep Finset.univ fun h : Fin 2 => Region.held ι.toEmb k I (halfN q (8 * h.val)) x := by
  have hs := Region.held_share (ι := ι.toEmb) (k := k) (I := I) (PosShare.mem_left_op_right q) hx
  rw [bigSep_fin_two, BI.equiv_iff.mp ⟨hs.1, hs.2⟩]
  rfl

/-- Sixteen tiles, each at both half-shares, re-indexed by the bijection `(c, s) ↦ ((2s + c) mod 16, s / 8)`. -/
theorem held_tiles {Kf : Fin 16 → Finset (Ix k)} {I₀ : Finset (Ix k)} (h : Tiling Kf I₀) (hx : ∀ i, x i ∈ x i ·? x i) :
    Region.held ι.toEmb k I₀ q x
      = bigSep Finset.univ fun c : Fin 2 => bigSep Finset.univ fun s : Fin 16 =>
          Region.held ι.toEmb k (Kf (chunkOf c s)) (halfN q s.val) x := by
  obtain ⟨hdis, rfl⟩ := h
  rw [held_biUnion ι Finset.univ Kf hdis,
    bigSep_congr (fun j _ => held_halves ι (Kf j) (fun i _ => hx i)), bigSep_tiles]
  simp only [halfN_div]

end Held

open Cert.Kernel Cert.Kernel.Gen Cert.Proof.EK
open Idealize.ShloMosaic.SparseCore.Cfg (HIx)

variable {F : FTy → Type}
variable {UU : Type} [URA UU]

local notation "𝕄" => MT nD τ sig (HIx 2) (Elt F) ℕ UU ℕ

variable (emb : UEmb (WmRA nD τ sig (Elt F)) UU)

local notation:60 ℓ " ⇝[" I "]{" q "} " f:max " ⇒ " g:max " @ " W:max => willBeTo (Ix := HIx 2) (Name := ℕ) (Lvl := ℕ) emb ℓ I q f g W

theorem pSet_ok : Tiling pSet Finset.univ := by
  rw [show pSet = fun j => (pPart j).set from funext fun _ => View.set_slice_whole main_arg2_scv _]; exact part_tiling pdiv

theorem gSet_ok : Tiling gSet Finset.univ := by
  rw [show gSet = fun j => (gPart j).set from funext fun _ => View.set_slice_whole main_v0_0_scv _]; exact part_tiling gdiv

theorem pos_tiles {ℓ : Loc nD τ sig} {Kf : Fin 16 → Finset (Idx ℓ)} (hK : Tiling Kf Finset.univ) (f : Buf (Elt F) ℓ) :
    (ℓ ↦{fullShare} f : sProp 𝕄)
      = bigSep Finset.univ fun c : Fin 2 => bigSep Finset.univ fun s : Fin 16 =>
          ℓ ↦[Kf (chunkOf c s)]{halfN fullShare s.val} f :=
  held_tiles (memEmb (nD := nD) (τ := τ) (sig := sig) (Ix := HIx 2) (Val := Elt F) (Name := ℕ) (U := UU) (Lvl := ℕ))
    (k := ℓ) (q := fullShare) (x := fun i => (f i : Ag _)) hK (fun i => Ag.idem _)

theorem wb_tiles {ℓ : Loc nD τ sig} {Kf : Fin 16 → Finset (Idx ℓ)} (hK : Tiling Kf Finset.univ) (f : Buf (Elt F) ℓ) (g : Tgt (Elt F) ℓ)
    (W : Finset (Idx ℓ)) :
    (ℓ ⇝[Finset.univ]{fullShare} f ⇒ g @ W : sProp 𝕄)
      = bigSep Finset.univ fun c : Fin 2 => bigSep Finset.univ fun s : Fin 16 =>
          ℓ ⇝[Kf (chunkOf c s)]{halfN fullShare s.val} f ⇒ g @ W :=
  held_tiles (wmEmb (HIx 2) emb : UEmb (WmRA nD τ sig (Elt F)) 𝕄)
    (k := ℓ) (q := fullShare) (x := fun i => Region.WB.mk (f i) (g i) (decide (i ∈ W))) hK
    (fun i => by have := Region.WB.mem_mk_op_mk (f i) (g i) (decide (i ∈ W)) (decide (i ∈ W)); rwa [Bool.or_self] at this)

/-- Inside `I`, membership in `I` and membership in the whole index set agree. -/
theorem wb_self {ℓ : Loc nD τ sig} (I : Finset (Idx ℓ)) (q : PosShare TreeShare) (f : Buf (Elt F) ℓ) (g : Tgt (Elt F) ℓ) :
    (ℓ ⇝[I]{q} f ⇒ g @ I : sProp 𝕄) = ℓ ⇝[I]{q} f ⇒ g @ Finset.univ :=
  Region.willBe_congr (fun _ _ => rfl) (fun _ _ => rfl) (fun i hi => ⟨fun _ => Finset.mem_univ _, fun _ => hi⟩)

def shareOf (q : PosShare TreeShare) (n i : ℕ) : PosShare TreeShare :=
  if i < n then Transfers.shareTokN q i else Transfers.shareDrop q n

/-- The `n` tokens of a share and its remainder, as one family over `Fin (n + 1)`: the remainder sits at index `n`. -/
theorem pointsTo_shares {ℓ : Loc nD τ sig} {S : Finset (Idx ℓ)} {f : Buf (Elt F) ℓ} (q : PosShare TreeShare) (n : ℕ) :
    (ℓ ↦[S]{q} f : sProp 𝕄) = bigSep Finset.univ (fun i : Fin (n + 1) => ℓ ↦[S]{shareOf q n i.val} f) := by
  have h : (ℓ ↦[S]{q} f : sProp 𝕄) ⊣⊢ _ := Transfers.pointsTo_toks_range q n
  rw [BI.equiv_iff.mp ⟨h.1, h.2⟩]
  symm
  trans bigSep (Finset.range (n + 1)) fun i => ℓ ↦[S]{shareOf q n i} f
  · rw [← Nat.Iio_eq_range, ← Fin.map_valEmbedding_univ, BI.bigSep_map]; rfl
  rw [Finset.range_add_one, BI.bigSep_insert Finset.notMem_range_self, show shareOf q n n = _ from if_neg (lt_irrefl n)]
  congr 1
  exact BI.bigSep_congr fun i hi => by rw [shareOf, if_pos (Finset.mem_range.mp hi)]

def qV (c s : ℕ) : PosShare TreeShare := shareOf (shareOf fullShare 1 c) 15 s

theorem v_tiles {ℓ : Loc nD τ sig} (f : Buf (Elt F) ℓ) :
    (ℓ ↦{fullShare} f : sProp 𝕄)
      = bigSep Finset.univ fun c : Fin 2 => bigSep Finset.univ fun s : Fin 16 => ℓ ↦{qV c.val s.val} f := by
  rw [pointsTo_shares (S := Finset.univ) (f := f) fullShare 1]
  exact bigSep_congr fun c _ => pointsTo_shares _ 15

def qH (c : Fin τ.nSC) (s : Fin τ.nSub) : PosShare TreeShare := halfN fullShare s.val

def qT (c : Fin τ.nSC) (s : Fin τ.nSub) : PosShare TreeShare := qV c.val s.val

variable (m : (ℓ : Loc nD τ sig) → Buf (Elt F) ℓ) (hpre : PreOK m)

def goA (d : Dev nD) (L : grid0.Coords) : sProp 𝕄 :=
  iprop((pLoc d ↦[pSet (chunk L)]{qH (cV L) (jV L)} m (pLoc d)) ∗ (v1Loc d ↦{qT (cV L) (jV L)} m (v1Loc d))
    ∗ (v2Loc d ↦{qT (cV L) (jV L)} m (v2Loc d))
    ∗ (g1Loc d ⇝[gSet (chunk L)]{qH (cV L) (jV L)} (m (g1Loc d)) ⇒ (tg1 m hpre d) @ ∅)
    ∗ (g2Loc d ⇝[gSet (chunk L)]{qH (cV L) (jV L)} (m (g2Loc d)) ⇒ (tg2 m hpre d) @ ∅))

def tdA (d : Dev nD) (L : grid0.Coords) : sProp 𝕄 :=
  iprop((pLoc d ↦[pSet (chunk L)]{qH (cV L) (jV L)} m (pLoc d)) ∗ (v1Loc d ↦{qT (cV L) (jV L)} m (v1Loc d))
    ∗ (v2Loc d ↦{qT (cV L) (jV L)} m (v2Loc d))
    ∗ (g1Loc d ⇝[gSet (chunk L)]{qH (cV L) (jV L)} (m (g1Loc d)) ⇒ (tg1 m hpre d) @ (gSet (chunk L)))
    ∗ (g2Loc d ⇝[gSet (chunk L)]{qH (cV L) (jV L)} (m (g2Loc d)) ⇒ (tg2 m hpre d) @ (gSet (chunk L))))

section Bridge

open Idealize.ShloMosaic.ValueIdx

end Bridge

section Held

variable (Lc : Fin 2 → Fin 16 → grid0.Coords) (hL0 : ∀ c s, (Lc c s 0).val = c.val) (hL1 : ∀ c s, (Lc c s 1).val = s.val)

def W0 (d : Dev nD) : Valuation τ sig (Elt F) := fun b => m (d, b)

def W1of (d : Dev nD) : Valuation τ sig (Elt F) :=
  Function.update (Function.update (W0 m d) (Proc.devRef .tc main_v0_0) (G1 m hpre d)) (Proc.devRef .tc main_v0_1) (G2 m hpre d)

def T5 : Finset (DevRef τ sig) :=
  {Proc.devRef .tc main_arg4, Proc.devRef .tc main_arg5, Proc.devRef .tc main_arg2, Proc.devRef .tc main_v0_0, Proc.devRef .tc main_v0_1}

theorem ne_a4_g1 : (Proc.devRef .tc main_arg4 : DevRef τ sig) ≠ Proc.devRef .tc main_v0_0 := StableHlo.devRef_ne_of_ne (by decide)
theorem ne_a4_g2 : (Proc.devRef .tc main_arg4 : DevRef τ sig) ≠ Proc.devRef .tc main_v0_1 := StableHlo.devRef_ne_of_ne (by decide)
theorem ne_a5_g1 : (Proc.devRef .tc main_arg5 : DevRef τ sig) ≠ Proc.devRef .tc main_v0_0 := StableHlo.devRef_ne_of_ne (by decide)
theorem ne_a5_g2 : (Proc.devRef .tc main_arg5 : DevRef τ sig) ≠ Proc.devRef .tc main_v0_1 := StableHlo.devRef_ne_of_ne (by decide)
theorem ne_a2_g1 : (Proc.devRef .tc main_arg2 : DevRef τ sig) ≠ Proc.devRef .tc main_v0_0 := StableHlo.devRef_ne_of_ne (by decide)
theorem ne_a2_g2 : (Proc.devRef .tc main_arg2 : DevRef τ sig) ≠ Proc.devRef .tc main_v0_1 := StableHlo.devRef_ne_of_ne (by decide)
theorem ne_g1_g2 : (Proc.devRef .tc main_v0_0 : DevRef τ sig) ≠ Proc.devRef .tc main_v0_1 := StableHlo.devRef_ne_of_ne (by decide)

theorem T5_sub : (T5 : Finset (DevRef τ sig)) ⊆ Pipeline.ucRefs τ sig := by
  intro b hb
  simp only [T5, Finset.mem_insert, Finset.mem_singleton] at hb
  rcases hb with rfl | rfl | rfl | rfl | rfl <;>
    exact Finset.mem_filter.mpr ⟨StableHlo.devRef_mem_tcRefs _, by decide⟩

theorem held_T5 (d : Dev nD) (Vv : Valuation τ sig (Elt F)) :
    (StableHlo.held (d.tc : Thread nD τ) T5 Vv : sProp 𝕄)
      = iprop((v1Loc d ↦{fullShare} Vv (Proc.devRef .tc main_arg4)) ∗ (v2Loc d ↦{fullShare} Vv (Proc.devRef .tc main_arg5))
          ∗ (pLoc d ↦{fullShare} Vv (Proc.devRef .tc main_arg2)) ∗ (g1Loc d ↦{fullShare} Vv (Proc.devRef .tc main_v0_0))
          ∗ (g2Loc d ↦{fullShare} Vv (Proc.devRef .tc main_v0_1))) := by
  unfold StableHlo.held T5
  rw [bigSep_insert (by decide), bigSep_insert (by decide), bigSep_insert (by decide), bigSep_insert (by decide), bigSep_singleton]
  rfl

variable {ιwm : ℕ}

include hL0 hL1 in
theorem call0_held (d : Dev nD) :
    (iprop(wmInv (Ix := HIx 2) (Name := ℕ) (Lvl := ℕ) emb ιwm
        ∗ (StableHlo.held (d.tc : Thread nD τ) (Pipeline.ucRefs τ sig) (W0 m d) : sProp 𝕄)) : sProp 𝕄)
      ⊢ iprop(|={Set.univ}=> ((bigSep Finset.univ fun c : Fin 2 => bigSep Finset.univ fun s : Fin 16 => goA emb m hpre d (Lc c s))
        ∗ ((bigSep Finset.univ fun c : Fin 2 => bigSep Finset.univ fun s : Fin 16 => tdA emb m hpre d (Lc c s))
          -∗ |={Set.univ}=> (StableHlo.held (d.tc : Thread nD τ) (Pipeline.ucRefs τ sig) (W1of m hpre d) : sProp 𝕄)))) := by
  have e : ∀ b, b ≠ Proc.devRef .tc main_v0_0 → b ≠ Proc.devRef .tc main_v0_1 → W1of m hpre d b = W0 m d b := fun b h1 h2 =>
    (Function.update_of_ne h2 _ _).trans (Function.update_of_ne h1 _ _)
  rw [StableHlo.held_sub_split _ T5_sub, StableHlo.held_sub_split _ T5_sub, held_T5, held_T5,
    StableHlo.held_congr _ (V := W1of m hpre d) (V' := W0 m d) fun b hb => by
      apply e <;> rintro rfl <;> exact (Finset.mem_sdiff.mp hb).2 (by simp [T5]),
    e _ ne_a4_g1 ne_a4_g2, e _ ne_a5_g1 ne_a5_g2, e _ ne_a2_g1 ne_a2_g2]
  unfold W1of goA tdA qH qT
  rw [Function.update_self, Function.update_of_ne ne_g1_g2, Function.update_self]
  simp only [W0, show ∀ c s, chunk (Lc c s) = chunkOf c s from fun c s => by simp only [chunk, chunkOf, hL0, hL1],
    show ∀ c s, (jV (Lc c s)).val = s.val from hL1, show ∀ c s, (cV (Lc c s)).val = c.val from hL0, wb_self, bigSep_sep']
  rw [← pos_tiles (ℓ := pLoc d) pSet_ok, ← v_tiles (ℓ := v1Loc d), ← v_tiles (ℓ := v2Loc d), ← wb_tiles emb (ℓ := g1Loc d) gSet_ok,
    ← wb_tiles emb (ℓ := g2Loc d) gSet_ok, ← wb_tiles emb (ℓ := g1Loc d) gSet_ok, ← wb_tiles emb (ℓ := g2Loc d) gSet_ok]
  iintro ⟨#Hwm, ⟨Hv1, Hv2, Hp, Hg1, Hg2⟩, Hrest⟩
  imod (pointsTo_castIn (emb := emb) (tg1 m hpre d) (Set.mem_univ ιwm)) $$ [Hg1] with Hg1
  · iframe Hwm Hg1
  imod (pointsTo_castIn (emb := emb) (tg2 m hpre d) (Set.mem_univ ιwm)) $$ [Hg2] with Hg2
  · iframe Hwm Hg2
  imodintro
  iframe
  iintro ⟨Hp, Hv1, Hv2, Hg1, Hg2⟩
  imod (willBeTo_castOut_some (emb := emb) (Set.mem_univ ιwm)) $$ [Hg1] with Hg1
  · iframe Hwm Hg1
  imod (willBeTo_castOut_some (emb := emb) (Set.mem_univ ιwm)) $$ [Hg2] with Hg2
  · iframe Hwm Hg2
  rw [Finset.piecewise_univ, Finset.piecewise_univ]
  imodintro
  iframe

end Held

end Cert.Proof.SAK

end
-- ==== Proof.RegionBK.lean ====
import proofs.«204933_g4492535792355_cont_8to1_c_766_42_alg».proof.Proof.Gen.Kernel.Launch
import proofs.«204933_g4492535792355_cont_8to1_c_766_42_alg».proof.Proof.Gen.Kernel.Skeleton
import proofs.«204933_g4492535792355_cont_8to1_c_766_42_alg».proof.Proof.Gen.Kernel.Points
import Idealize.ShloMosaic.Lib.Pipeline.FrameBody
import Idealize.ShloMosaic.Lib.Pipeline.Value
import Idealize.ShloMosaic.Lib.Ring
import Idealize.ShloMosaic.Lib.Tactic
import Idealize.ShloMosaic.Lib.Pipeline.RegionsLoop
import Idealize.ShloMosaic.Lib.Pipeline.FrameSuffix
import Idealize.ShloMosaic.PureOps.Ideal.Laws

set_option maxRecDepth 16384

noncomputable section

namespace Cert.Proof.CK

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Window BodyObligationLoose)

variable {F : FTy → Type} [FloatOps F]
variable {Ix : Type} [DecidableEq Ix] {Name : Type} [DecidableEq Name] {U : Type} [URA U] {Lvl : Type}

local notation "𝕄" => MT nD τ sig Ix (Elt F) Name U Lvl

variable [Preorder Lvl]

abbrev rS : Rect S128x128 := Rect.unit (s := S128x128) ![0, 0] S128x128.size inb_S128x128_S128x128_0_0
abbrev rI : Rect S128x1 := Rect.unit (s := S128x1) ![0, 0] S128x1.size inb_S128x1_S128x1_0_0
abbrev rB : Rect S4096x128 := Rect.unit (s := S4096x128) ![0, 0] S4096x128.size inb_S4096x128_S4096x128_0_0

abbrev r7a : Rect S256x4096 := Rect.unit (s := S256x4096) ![0, 0] S128x4096.size inb_S256x4096_S128x4096_0_0

abbrev r7b : Rect S256x4096 := Rect.unit (s := S256x4096) ![128, 0] S128x4096.size inb_S256x4096_S128x4096_128_0

theorem hz2 : (![0, 0] : Fin 2 → Nat) = fun _ => 0 := funext fun a => by fin_cases a <;> rfl

abbrev arg0Of (i : grid1.Coords) : BitVec 32 := BitVec.ofNat 32 (i 0).val

abbrev c29 : F .f32 := Scalar.ofBits .f32 0x3F800000#32
abbrev c30 : F .f32 := Scalar.ofBits .f32 0x00000000#32

def out1_7 (x0 x1 : Vec F S128x128 .f32) (X5 X6 : Vec F S4096x128 .f32) : Vec F S256x4096 .f32 :=
  View.canon [⟨r7b, k1_pay8 x1 X5⟩, ⟨r7a, k1_pay7 x0 X6⟩]

def out1_8 (i : grid1.Coords) (x0 : Vec F S128x128 .f32) (x2 : Vec F S128x1 .i32) (x3 : Vec F S128x128 .f32)
    (X5 : Vec F S4096x128 .f32) : Vec F S4096x128 .f32 :=
  k1_pay3 (arg0Of i) (k1_pay5 x0 x3) (k1_pay10 x2) (k1_pay11 x2) (k1_pay12 (F := F) (arg0Of i) x2) c29 c30 X5

def out1_9 (i : grid1.Coords) (x1 : Vec F S128x128 .f32) (x2 : Vec F S128x1 .i32) (x4 : Vec F S128x128 .f32)
    (X6 : Vec F S4096x128 .f32) : Vec F S4096x128 .f32 :=
  k1_pay4 (arg0Of i) (k1_pay6 x1 x4) (k1_pay10 x2) (k1_pay11 x2) (k1_pay12 (F := F) (arg0Of i) x2) c29 c30 X6

theorem cover1_7 (p1 p0 : Vec F S128x4096 .f32) (y : S256x4096.Idx) :
    ∃ pc ∈ ([⟨r7b, p1⟩, ⟨r7a, p0⟩] : List (View.Piece (Elt F) S256x4096 .f32)), y ∈ pc.1.set :=
  View.cover_of_tiled [⟨r7b, p1⟩, ⟨r7a, p0⟩] S128x4096.size (by rfl) y

theorem cover1_B (p0 : Vec F S4096x128 .f32) (y : S4096x128.Idx) :
    ∃ pc ∈ ([⟨rB, p0⟩] : List (View.Piece (Elt F) S4096x128 .f32)), y ∈ pc.1.set :=
  View.cover_of_tiled [⟨rB, p0⟩] S4096x128.size (by rfl) y

set_option maxHeartbeats 4000000 in

theorem sound_kernel1 (𝒱₀ : Variants) (c : Dev nD) (E : Set Name) (i : grid1.Coords)
    (arg1 : Memref sig .tc .vmem S128x128 .f32) (harg1 : arg1.IsWhole) (arg2 : Memref sig .tc .vmem S128x128 .f32) (harg2 : arg2.IsWhole)
    (arg3 : Memref sig .tc .vmem S128x1 .i32) (harg3 : arg3.IsWhole) (arg4 : Memref sig .tc .vmem S128x128 .f32) (harg4 : arg4.IsWhole)
    (arg5 : Memref sig .tc .vmem S128x128 .f32) (harg5 : arg5.IsWhole) (arg6 : Memref sig .tc .vmem S4096x128 .f32) (harg6 : arg6.IsWhole)
    (arg7 : Memref sig .tc .vmem S4096x128 .f32) (harg7 : arg7.IsWhole) (arg8 : Memref sig .tc .vmem S256x4096 .f32) (harg8 : arg8.IsWhole)
    (arg9 : Memref sig .tc .vmem S4096x128 .f32) (harg9 : arg9.IsWhole) (arg10 : Memref sig .tc .vmem S4096x128 .f32) (harg10 : arg10.IsWhole)
    (x0 x1 : Vec F S128x128 .f32) (x2 : Vec F S128x1 .i32) (x3 x4 : Vec F S128x128 .f32) (x5 x6 : Vec F S4096x128 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6
        ∗ (∃ d, owns (c : Thread nD τ) arg8 fullShare d) ∗ (∃ d, owns (c : Thread nD τ) arg9 fullShare d) ∗ (∃ d, owns (c : Thread nD τ) arg10 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6
            ∗ owns (c : Thread nD τ) arg8 fullShare (out1_7 x0 x1 x5 x6)
            ∗ owns (c : Thread nD τ) arg9 fullShare (out1_8 i x0 x2 x3 x5)
            ∗ owns (c : Thread nD τ) arg10 fullShare (out1_9 i x1 x2 x4 x6)) -∗ K ⟨⟩))
      ⊢ wp frame (wpE (defs₀ (F := F)) 𝒱₀ c none) E (cc1__stage_b_body i arg1 harg1 arg2 harg2 arg3 harg3 arg4 harg4 arg5 harg5 arg6 harg6 arg7 harg7 arg8 harg8 arg9 harg9 arg10 harg10) K := by
  simp only [cc1__stage_b_body_eq_skeleton]; unfold cc1__stage_b_body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, Hk⟩
  subst hf0 hf1 hf2 hf3 hf4 hf5 hf6
  sl_exec
  sl_step

  have e0 : arg1.view.readAt (Elt F) rS.toLoadRect f0 = arg1.view.read (Elt F) f0 := View.ld_unit_zero hz2 _ _
  have e1 : arg2.view.readAt (Elt F) rS.toLoadRect f1 = arg2.view.read (Elt F) f1 := View.ld_unit_zero hz2 _ _
  have e2 : arg3.view.readAt (Elt F) rI.toLoadRect f2 = arg3.view.read (Elt F) f2 := View.ld_unit_zero hz2 _ _
  have e3 : arg4.view.readAt (Elt F) rS.toLoadRect f3 = arg4.view.read (Elt F) f3 := View.ld_unit_zero hz2 _ _
  have e4 : arg5.view.readAt (Elt F) rS.toLoadRect f4 = arg5.view.read (Elt F) f4 := View.ld_unit_zero hz2 _ _
  have e5 : arg6.view.readAt (Elt F) rB.toLoadRect f5 = arg6.view.read (Elt F) f5 := View.ld_unit_zero hz2 _ _
  have e6 : arg7.view.readAt (Elt F) rB.toLoadRect f6 = arg7.view.read (Elt F) f6 := View.ld_unit_zero hz2 _ _
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    refine (View.read_writes_eq_canon _ _ _ (cover1_7 _ _)).trans ?_
    unfold out1_7
    rw [← e0, ← e1, ← e5, ← e6]
    rfl
  isplitl [H8]
  · iexists _; isplitr
    swap; · iexact H8
    ipureintro
    refine (View.read_writes_eq_canon _ _ _ (cover1_B _)).trans ?_
    refine (View.canon_unit_zero hz2 _ _).trans ?_
    unfold out1_8
    rw [← e0, ← e2, ← e3, ← e5]
    rfl
  · iexists _; isplitr
    swap; · iexact H9
    ipureintro
    refine (View.read_writes_eq_canon _ _ _ (cover1_B _)).trans ?_
    refine (View.canon_unit_zero hz2 _ _).trans ?_
    unfold out1_9
    rw [← e1, ← e2, ← e4, ← e6]
    rfl

section Data

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev fz : S4096x128.Idx → Elt F .f32 := fun _ => Scalar.ofBits .f32 0#32

def blk5 (c : Dev nD) (t : Fin cfg1.N) : Vec F S4096x128 .f32 := win1_5.fill (grid1.coords t) fz (iblk1 V c 5 t)

def blk6 (c : Dev nD) (t : Fin cfg1.N) : Vec F S4096x128 .f32 := win1_6.fill (grid1.coords t) fz (iblk1 V c 6 t)

end Data

structure PayLocal (F : FTy → Type) [FloatOps F] : Prop where
  pay7 : ∀ (x0 : Vec F S128x128 .f32) (B B' : Vec F S4096x128 .f32) (x : S128x4096.Idx),
    (∀ y : S4096x128.Idx, (y 0).val = (x 1).val → B y = B' y) → k1_pay7 x0 B x = k1_pay7 x0 B' x
  pay8 : ∀ (x1 : Vec F S128x128 .f32) (B B' : Vec F S4096x128 .f32) (x : S128x4096.Idx),
    (∀ y : S4096x128.Idx, (y 0).val = (x 1).val → B y = B' y) → k1_pay8 x1 B x = k1_pay8 x1 B' x

section Data

variable (V : (c : Dev nD) → (b : Ref sig .tc) → Buf (Elt F) ((c : Thread nD τ).loc b))
variable (O : CellTallies nD τ sig Ix) (B : Set (SemLoc sig × Ix))

def Φ1 (c : Dev nD) : sProp 𝕄 :=
  iprop(Pipeline.scopedRest (Ix := Ix) (Name := Name) (U := U) (Lvl := Lvl) (Val := Elt F) spec1 c ∗ ∃ r, prngReg c r)

def dat1 (c : Dev nD) : Dat τ (Elt F) Ix Name U Lvl cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => blk5 V c t
    | ⟨6, _⟩ => blk6 V c t
    | ⟨7, _⟩ => out1_7 (iblk1 V c 0 t) (iblk1 V c 1 t) (blk5 V c t) (blk6 V c t)
    | ⟨8, _⟩ => out1_8 (grid1.coords t) (iblk1 V c 0 t) (iblk1 V c 2 t) (iblk1 V c 3 t) (blk5 V c t)
    | ⟨9, _⟩ => out1_9 (grid1.coords t) (iblk1 V c 1 t) (iblk1 V c 2 t) (iblk1 V c 4 t) (blk6 V c t)
  Φ _ := Φ1 c
  q _ := fullShare
  owed _ := O
  recorded _ := B

theorem A_eq1 (c : Dev nD) (w : Fin cfg1.W) : (dat1 (Name := Name) (U := U) (Lvl := Lvl) V O B c).A w = V c (Pipeline.arrRef spec1 w) := by
  dsimp only [dat1]

theorem after1_0 (c : Dev nD) (t : Fin cfg1.N) : (dat1 (Name := Name) (U := U) (Lvl := Lvl) V O B c).after 0 t = iblk1 V c 0 t := by dsimp only [dat1]
theorem after1_1 (c : Dev nD) (t : Fin cfg1.N) : (dat1 (Name := Name) (U := U) (Lvl := Lvl) V O B c).after 1 t = iblk1 V c 1 t := by dsimp only [dat1]
theorem after1_2 (c : Dev nD) (t : Fin cfg1.N) : (dat1 (Name := Name) (U := U) (Lvl := Lvl) V O B c).after 2 t = iblk1 V c 2 t := by dsimp only [dat1]
theorem after1_3 (c : Dev nD) (t : Fin cfg1.N) : (dat1 (Name := Name) (U := U) (Lvl := Lvl) V O B c).after 3 t = iblk1 V c 3 t := by dsimp only [dat1]
theorem after1_4 (c : Dev nD) (t : Fin cfg1.N) : (dat1 (Name := Name) (U := U) (Lvl := Lvl) V O B c).after 4 t = iblk1 V c 4 t := by dsimp only [dat1]
theorem after1_5 (c : Dev nD) (t : Fin cfg1.N) : (dat1 (Name := Name) (U := U) (Lvl := Lvl) V O B c).after 5 t = blk5 V c t := by dsimp only [dat1]
theorem after1_6 (c : Dev nD) (t : Fin cfg1.N) : (dat1 (Name := Name) (U := U) (Lvl := Lvl) V O B c).after 6 t = blk6 V c t := by dsimp only [dat1]

theorem before1_0 (c : Dev nD) (t : Fin cfg1.N) (d) : (dat1 (Name := Name) (U := U) (Lvl := Lvl) V O B c).before 0 t d = iblk1 V c 0 t :=
  ((dat1 (Name := Name) (U := U) (Lvl := Lvl) V O B c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 (Name := Name) (U := U) (Lvl := Lvl) V O B c).before 1 t d = iblk1 V c 1 t :=
  ((dat1 (Name := Name) (U := U) (Lvl := Lvl) V O B c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 (Name := Name) (U := U) (Lvl := Lvl) V O B c).before 2 t d = iblk1 V c 2 t :=
  ((dat1 (Name := Name) (U := U) (Lvl := Lvl) V O B c).before_in_eq_fetched 2 rfl (fun _ => rfl) (fun _ _ _ => rfl)
    (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 (Name := Name) (U := U) (Lvl := Lvl) V O B c).before 3 t d = iblk1 V c 3 t :=
  ((dat1 (Name := Name) (U := U) (Lvl := Lvl) V O B c).before_in_eq_fetched 3 rfl (fun _ => rfl) (fun _ _ _ => rfl)
    (fun t => by rw [after1_3]; unfold Dat.blockOf iblk1; rw [A_eq1]; try rfl) t d).trans
    (by unfold Dat.fetched Dat.blockOf iblk1; rw [A_eq1]; try rfl)
theorem before1_4 (c : Dev nD) (t : Fin cfg1.N) (d) : (dat1 (Name := Name) (U := U) (Lvl := Lvl) V O B c).before 4 t d = iblk1 V c 4 t :=
  ((dat1 (Name := Name) (U := U) (Lvl := Lvl) V O B c).before_in_eq_fetched 4 rfl (fun _ => rfl) (fun _ _ _ => rfl)
    (fun t => by rw [after1_4]; unfold Dat.blockOf iblk1; rw [A_eq1]; try rfl) t d).trans
    (by unfold Dat.fetched Dat.blockOf iblk1; rw [A_eq1]; try rfl)

theorem before1_5 (c : Dev nD) (t : Fin cfg1.N) (d) :
    (dat1 (Name := Name) (U := U) (Lvl := Lvl) V O B c).before 5 t d = win1_5.fill (grid1.coords t) d (iblk1 V c 5 t) := by
  rw [(dat1 (Name := Name) (U := U) (Lvl := Lvl) V O B c).before_fetched 5 t (fetch1_5 t) d]
  unfold Dat.fetched Dat.blockOf iblk1; rw [A_eq1]; try rfl
theorem before1_6 (c : Dev nD) (t : Fin cfg1.N) (d) :
    (dat1 (Name := Name) (U := U) (Lvl := Lvl) V O B c).before 6 t d = win1_6.fill (grid1.coords t) d (iblk1 V c 6 t) := by
  rw [(dat1 (Name := Name) (U := U) (Lvl := Lvl) V O B c).before_fetched 6 t (fetch1_6 t) d]
  unfold Dat.fetched Dat.blockOf iblk1; rw [A_eq1]; try rfl

end Data

section Obligation

variable (V : (c : Dev nD) → (b : Ref sig .tc) → Buf (Elt F) ((c : Thread nD τ).loc b))
variable (O : CellTallies nD τ sig Ix) (B : Set (SemLoc sig × Ix)) (𝒱₀ : Variants) (ι : Ix)

theorem owns_fill_of_cut_eq {G : Pipeline.Grid} (w : Pipeline.Window sig G) (i : G.Coords) (c : Dev nD)
    (m : Memref sig .tc (.core w.stageSpace) w.block w.elt) {X Y : w.block.Idx → Elt F w.elt} (h : w.cut i X = w.cut i Y) :
    owns (c : Thread nD τ) m fullShare X ⊢ (iprop(∃ d, owns (c : Thread nD τ) m fullShare (w.fill i d (w.cut i Y))) : sProp 𝕄) := by
  iintro H; iexists X; rw [w.fill_congr_cut i h]; iexact H

def bodyPre1F (c : Dev nD) (t : Fin cfg1.N) : sProp 𝕄 :=
  iprop((dat1 (Name := Name) (U := U) (Lvl := Lvl) V O B c).Φ t.castSucc ∗ (dat1 (Name := Name) (U := U) (Lvl := Lvl) V O B c).owesAt ι t.castSucc
    ∗ (∃ d, owns (c : Thread nD τ) (st1_0 t) fullShare ((dat1 (Name := Name) (U := U) (Lvl := Lvl) V O B c).before 0 t d))
    ∗ (∃ d, owns (c : Thread nD τ) (st1_1 t) fullShare ((dat1 (Name := Name) (U := U) (Lvl := Lvl) V O B c).before 1 t d))
    ∗ (∃ d, owns (c : Thread nD τ) (st1_2 t) fullShare ((dat1 (Name := Name) (U := U) (Lvl := Lvl) V O B c).before 2 t d))
    ∗ (∃ d, owns (c : Thread nD τ) (st1_3 t) fullShare ((dat1 (Name := Name) (U := U) (Lvl := Lvl) V O B c).before 3 t d))
    ∗ (∃ d, owns (c : Thread nD τ) (st1_4 t) fullShare ((dat1 (Name := Name) (U := U) (Lvl := Lvl) V O B c).before 4 t d))
    ∗ (∃ d, owns (c : Thread nD τ) (st1_5 t) fullShare ((dat1 (Name := Name) (U := U) (Lvl := Lvl) V O B c).before 5 t d))
    ∗ (∃ d, owns (c : Thread nD τ) (st1_6 t) fullShare ((dat1 (Name := Name) (U := U) (Lvl := Lvl) V O B c).before 6 t d))
    ∗ (∃ X, owns (c : Thread nD τ) (st1_7 t) fullShare X)
    ∗ (∃ X, owns (c : Thread nD τ) (st1_8 t) fullShare X)
    ∗ (∃ X, owns (c : Thread nD τ) (st1_9 t) fullShare X))

def bodyPost1F (c : Dev nD) (t : Fin cfg1.N) : sProp 𝕄 :=
  iprop((dat1 (Name := Name) (U := U) (Lvl := Lvl) V O B c).Φ t.succ ∗ (dat1 (Name := Name) (U := U) (Lvl := Lvl) V O B c).owesAt ι t.succ
    ∗ owns (c : Thread nD τ) (st1_0 t) fullShare ((dat1 (Name := Name) (U := U) (Lvl := Lvl) V O B c).after 0 t)
    ∗ owns (c : Thread nD τ) (st1_1 t) fullShare ((dat1 (Name := Name) (U := U) (Lvl := Lvl) V O B c).after 1 t)
    ∗ owns (c : Thread nD τ) (st1_2 t) fullShare ((dat1 (Name := Name) (U := U) (Lvl := Lvl) V O B c).after 2 t)
    ∗ owns (c : Thread nD τ) (st1_3 t) fullShare ((dat1 (Name := Name) (U := U) (Lvl := Lvl) V O B c).after 3 t)
    ∗ owns (c : Thread nD τ) (st1_4 t) fullShare ((dat1 (Name := Name) (U := U) (Lvl := Lvl) V O B c).after 4 t)
    ∗ (∃ d, owns (c : Thread nD τ) (st1_5 t) fullShare ((cfg1.win 5).fill (cfg1.grid.coords t) d ((cfg1.win 5).cut (cfg1.grid.coords t) ((dat1 (Name := Name) (U := U) (Lvl := Lvl) V O B c).after 5 t))))
    ∗ (∃ d, owns (c : Thread nD τ) (st1_6 t) fullShare ((cfg1.win 6).fill (cfg1.grid.coords t) d ((cfg1.win 6).cut (cfg1.grid.coords t) ((dat1 (Name := Name) (U := U) (Lvl := Lvl) V O B c).after 6 t))))
    ∗ (∃ X, owns (c : Thread nD τ) (st1_7 t) fullShare X)
    ∗ (∃ X, owns (c : Thread nD τ) (st1_8 t) fullShare X)
    ∗ (∃ X, owns (c : Thread nD τ) (st1_9 t) fullShare X))

set_option maxHeartbeats 2000000 in

theorem sound_body1F (c : Dev nD) (t : Fin cfg1.N) :
    bodyPre1F (Name := Name) (U := U) (Lvl := Lvl) V O B ι c t ⊢ wp frame (wpE (defs₀ (F := F)) 𝒱₀ c none) Set.univ (bodyAt1 t) (fun _ => bodyPost1F (Name := Name) (U := U) (Lvl := Lvl) V O B ι c t) := by
  unfold bodyPre1F bodyPost1F bodyAt1
  simp only [before1_0, before1_1, before1_2, before1_3, before1_4, before1_5, before1_6]
  rw [show (dat1 (Name := Name) (U := U) (Lvl := Lvl) V O B c).Φ t.succ = (dat1 (Name := Name) (U := U) (Lvl := Lvl) V O B c).Φ t.castSucc from rfl,
    show (dat1 (Name := Name) (U := U) (Lvl := Lvl) V O B c).owesAt ι t.succ = (dat1 (Name := Name) (U := U) (Lvl := Lvl) V O B c).owesAt ι t.castSucc from rfl,
    after1_0, after1_1, after1_2, after1_3, after1_4, after1_5, after1_6]
  unfold blk5 blk6
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel1 𝒱₀ c Set.univ (grid1.coords t) _ _ _ _ _ _ _ _ _ _ _ _ _ _ _ _ _ _ _ _
    (iblk1 V c 0 t) (iblk1 V c 1 t) (iblk1 V c 2 t) (iblk1 V c 3 t) (iblk1 V c 4 t)
    (win1_5.fill (grid1.coords t) d5 (iblk1 V c 5 t)) (win1_6.fill (grid1.coords t) d6 (iblk1 V c 6 t)) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]
  · iapply (owns_fill_of_cut_eq win1_5 (grid1.coords t) c _ (X := win1_5.fill (grid1.coords t) d5 (iblk1 V c 5 t))
      (Y := win1_5.fill (grid1.coords t) fz (iblk1 V c 5 t)) ((win1_5.cut_fill _ _ _).trans (win1_5.cut_fill _ _ _).symm))
    iexact H5
  isplitl [H6]
  · iapply (owns_fill_of_cut_eq win1_6 (grid1.coords t) c _ (X := win1_6.fill (grid1.coords t) d6 (iblk1 V c 6 t))
      (Y := win1_6.fill (grid1.coords t) fz (iblk1 V c 6 t)) ((win1_6.cut_fill _ _ _).trans (win1_6.cut_fill _ _ _).symm))
    iexact H6
  isplitl [H7]; · iexists _; iexact H7
  isplitl [H8]; · iexists _; iexact H8
  iexists _; iexact H9

abbrev fgt1 : Fin cfg1.W → Bool :=
  fun | 0 => false | 1 => false | 2 => false | 3 => false | 4 => false | 5 => false | 6 => false | 7 => true | 8 => true | 9 => true
      | ⟨_ + 10, h⟩ => absurd h (Nat.not_lt.2 (Nat.le_add_left _ _))

theorem body_obligation1_fgt (c : Dev nD) :
    BodyObligationLoose (dat1 (F := F) (Name := Name) (U := U) (Lvl := Lvl) V O B c) (defs₀ (F := F)) 𝒱₀ ι Set.univ fgt1 := fun t => by
  rw [bigSep_W1, bigSep_W1]
  exact sound_body1F V O B 𝒱₀ ι c t

end Obligation

section Region

variable (W : Dev nD → Valuation τ sig (Elt F))
variable (O : CellTallies nD τ sig Ix) (B : Set (SemLoc sig × Ix)) (𝒱₀ : Variants) (ι : Ix)

abbrev VofW : (c : Dev nD) → (b : Ref sig .tc) → Buf (Elt F) ((c : Thread nD τ).loc b) := fun c b => W c b

abbrev adm : (p : Fin 2) → (pcfgs (F := F) p).Adm := fun p => (cfgs p).toPCfg_adm

local notation "𝔡" => dat1 (F := F) (Ix := Ix) (Name := Name) (U := U) (Lvl := Lvl) (VofW W) O B

def Wexit (c : Dev nD) : Valuation τ sig (Elt F) :=
  Pipeline.withArrays spec1 c (W c) fun w => (𝔡 c).arrAt w cfg1.N

local notation "𝔴" => Wexit (F := F) (Ix := Ix) (Name := Name) (U := U) (Lvl := Lvl) W O B

end Region

end Cert.Proof.CK

end
-- ==== Proof.RegionDK.lean ====
import proofs.«204933_g4492535792355_cont_8to1_c_766_42_alg».proof.Proof.Gen.Kernel.Launch
import proofs.«204933_g4492535792355_cont_8to1_c_766_42_alg».proof.Proof.Gen.Kernel.Skeleton
import proofs.«204933_g4492535792355_cont_8to1_c_766_42_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Tactic

set_option maxRecDepth 16384

noncomputable section

namespace Cert.Proof.DK

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation BodyObligationLoose)

variable {F : FTy → Type} [FloatOps F]
variable {Ix : Type} [DecidableEq Ix] {Name : Type} [DecidableEq Name] {U : Type} [URA U] {Lvl : Type} [Preorder Lvl]

local notation "𝕄" => MT nD τ sig Ix (Elt F) Name U Lvl

abbrev rIn : Rect S256x4112 := Rect.unit (s := S256x4112) ![0, 0] S256x4112.size inb_S256x4112_S256x4112_0_0

abbrev rOut : Rect S1x1 := Rect.unit (s := S1x1) ![0, 0] S1x1.size inb_S1x1_S1x1_0_0

def lossOf (x : Vec F S256x4112 .f32) : FVec F S1x1 .f32 :=
  k3_pay1 k3_pay2 k3_pay3 (k3_pay5 x) (k3_pay6 x)

def out3 (x : Vec F S256x4112 .f32) : Vec F S1x1 .f32 :=
  View.canon [⟨rOut, lossOf (View.ld x rIn)⟩]

theorem zeros2 : (![0, 0] : Fin 2 → Nat) = fun _ => 0 := funext fun a => by fin_cases a <;> rfl

theorem cover3 (p0 : Vec F S1x1 .f32) (y : S1x1.Idx) :
    ∃ pc ∈ ([⟨rOut, p0⟩] : List (View.Piece (Elt F) S1x1 .f32)), y ∈ pc.1.set :=
  ⟨_, List.mem_singleton_self _, View.mem_set_unit_zero (S := S1x1) zeros2 inb_S1x1_S1x1_0_0 y⟩

set_option maxHeartbeats 1000000 in

theorem sound_kernel (𝒱₀ : Variants) (c : Dev nD) (E : Set Name) (arg0 : Memref sig .tc .vmem S256x4112 .f32) (harg0 : arg0.IsWhole)
    (arg1 : Memref sig .tc .vmem S1x1 .f32) (harg1 : arg1.IsWhole)
    (x : Vec F S256x4112 .f32) (K : PUnit → sProp 𝕄) :
    iprop(owns (c : Thread nD τ) arg0 fullShare x ∗ (∃ d, owns (c : Thread nD τ) arg1 fullShare d)
        ∗ (iprop(owns (c : Thread nD τ) arg0 fullShare x ∗ owns (c : Thread nD τ) arg1 fullShare (out3 x)) -∗ K ⟨⟩))
      ⊢ wp frame (wpE (defs₀ (F := F)) 𝒱₀ c none) E (cc3__stage_d_body arg0 harg0 arg1 harg1) K := by
  rw [cc3__stage_d_body_eq_skeleton]; unfold cc3__stage_d_body_skel
  rw [k3_part1_eq_skeleton]; unfold k3_part1_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover3 _)

section Data

variable (V : (c : Dev nD) → (b : Ref sig .tc) → Buf (Elt F) ((c : Thread nD τ).loc b)) (O : CellTallies nD τ sig Ix)
  (B : Set (SemLoc sig × Ix))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

theorem before3_0_of {c : Dev nD} (dat : Dat τ (Elt F) Ix Name U Lvl cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

def Φ3 (c : Dev nD) : sProp 𝕄 :=
  iprop(Pipeline.scopedRest (Ix := Ix) (Name := Name) (U := U) (Lvl := Lvl) (Val := Elt F) spec3 c ∗ ∃ r, prngReg c r)

def dat3 (c : Dev nD) : Dat τ (Elt F) Ix Name U Lvl cfg3 c where
  A w := V c (Pipeline.arrRef spec3 w)
  after w t := match w with
    | ⟨0, _⟩ => iblk3 V c 0 t
    | ⟨1, _⟩ => out3 (iblk3 V c 0 t)
  Φ _ := Φ3 c
  q _ := fullShare
  owed _ := O
  recorded _ := B

theorem A_eq3 (c : Dev nD) (w : Fin cfg3.W) : (dat3 (Name := Name) (U := U) (Lvl := Lvl) V O B c).A w = V c (Pipeline.arrRef spec3 w) := by
  dsimp only [dat3]

theorem after3_0 (c : Dev nD) (t : Fin cfg3.N) : (dat3 (Name := Name) (U := U) (Lvl := Lvl) V O B c).after 0 t = iblk3 V c 0 t := by dsimp only [dat3]
theorem after3_1 (c : Dev nD) (t : Fin cfg3.N) : (dat3 (Name := Name) (U := U) (Lvl := Lvl) V O B c).after 1 t = out3 (iblk3 V c 0 t) := by dsimp only [dat3]

theorem before3_0 (c : Dev nD) (t : Fin cfg3.N) (d) : (dat3 (Name := Name) (U := U) (Lvl := Lvl) V O B c).before 0 t d = iblk3 V c 0 t :=
  before3_0_of V (dat3 V O B c) (A_eq3 V O B c 0) (after3_0 V O B c) t d

theorem Φ3_eq (c : Dev nD) (t : Fin (cfg3.N + 1)) : (dat3 (Name := Name) (U := U) (Lvl := Lvl) V O B c).Φ t = Φ3 c := rfl

variable (ι : Ix)

def bodyPre3 (c : Dev nD) (t : Fin cfg3.N) : sProp 𝕄 :=
  iprop((dat3 (Name := Name) (U := U) (Lvl := Lvl) V O B c).Φ t.castSucc ∗ (dat3 (Name := Name) (U := U) (Lvl := Lvl) V O B c).owesAt ι t.castSucc
    ∗ (∃ d, owns (c : Thread nD τ) (st3_0 t) fullShare ((dat3 (Name := Name) (U := U) (Lvl := Lvl) V O B c).before 0 t d))
    ∗ (∃ d, owns (c : Thread nD τ) (st3_1 t) fullShare ((dat3 (Name := Name) (U := U) (Lvl := Lvl) V O B c).before 1 t d)))

def bodyPost3 (c : Dev nD) (t : Fin cfg3.N) : sProp 𝕄 :=
  iprop((dat3 (Name := Name) (U := U) (Lvl := Lvl) V O B c).Φ t.succ ∗ (dat3 (Name := Name) (U := U) (Lvl := Lvl) V O B c).owesAt ι t.succ
    ∗ owns (c : Thread nD τ) (st3_0 t) fullShare ((dat3 (Name := Name) (U := U) (Lvl := Lvl) V O B c).after 0 t)
    ∗ owns (c : Thread nD τ) (st3_1 t) fullShare ((dat3 (Name := Name) (U := U) (Lvl := Lvl) V O B c).after 1 t))

theorem sound_body3 (𝒱₀ : Variants) (c : Dev nD) (t : Fin cfg3.N) :
    bodyPre3 (Name := Name) (U := U) (Lvl := Lvl) V O B ι c t ⊢ wp frame (wpE (defs₀ (F := F)) 𝒱₀ c none) Set.univ (bodyAt3 t) (fun _ => bodyPost3 (Name := Name) (U := U) (Lvl := Lvl) V O B ι c t) := by
  unfold bodyPre3 bodyPost3 bodyAt3
  simp only [before3_0]
  rw [show (dat3 (Name := Name) (U := U) (Lvl := Lvl) V O B c).Φ t.succ = (dat3 (Name := Name) (U := U) (Lvl := Lvl) V O B c).Φ t.castSucc from rfl,
    show (dat3 (Name := Name) (U := U) (Lvl := Lvl) V O B c).owesAt ι t.succ = (dat3 (Name := Name) (U := U) (Lvl := Lvl) V O B c).owesAt ι t.castSucc from rfl,
    after3_0, after3_1]
  iintro ⟨HΦ, Ho, ⟨%d0, H0⟩, ⟨%d1, H1⟩⟩
  iapply (sound_kernel 𝒱₀ c Set.univ _ _ _ _ (iblk3 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

theorem body_obligation3 (𝒱₀ : Variants) (c : Dev nD) :
    BodyObligation (dat3 (F := F) (Name := Name) (U := U) (Lvl := Lvl) V O B c) (defs₀ (F := F)) 𝒱₀ ι Set.univ := fun t => by
  rw [bigSep_W3, bigSep_W3]
  exact sound_body3 V O B ι 𝒱₀ c t

theorem body_obligation3_loose (𝒱₀ : Variants) (c : Dev nD) :
    BodyObligationLoose (dat3 (F := F) (Name := Name) (U := U) (Lvl := Lvl) V O B c) (defs₀ (F := F)) 𝒱₀ ι Set.univ :=
  (body_obligation3 V O B ι 𝒱₀ c).loose

end Data

section Region

variable (W : Dev nD → Valuation τ sig (Elt F)) (O : CellTallies nD τ sig Ix) (B : Set (SemLoc sig × Ix)) (ι : Ix)

abbrev V3 : (c : Dev nD) → (b : Ref sig .tc) → Buf (Elt F) ((c : Thread nD τ).loc b) := fun c b => W c (Proc.devRef .tc b)

abbrev adm : (p : Fin 2) → (pcfgs (F := F) p).Adm := fun p => (cfgs p).toPCfg_adm

def Wout (c : Dev nD) : Valuation τ sig (Elt F) :=
  Pipeline.withArrays spec3 c (W c) fun w => (dat3 (Name := Name) (U := U) (Lvl := Lvl) (V3 W) O B c).arrAt w cfg3.N

theorem Wout_arr (c : Dev nD) (w : Fin cfg3.W) :
    Wout (Name := Name) (U := U) (Lvl := Lvl) W O B c (Proc.devRef .tc (Pipeline.arrRef spec3 w))
      = (dat3 (Name := Name) (U := U) (Lvl := Lvl) (V3 W) O B c).arrAt w cfg3.N := by
  unfold Wout; exact Pipeline.withArrays_arr spec3 launch3.win.arr_inj c _ _ w

theorem Wout_of_ne (c : Dev nD) (b : Ref sig .tc) (hb : ∀ w, Pipeline.arrRef spec3 w ≠ b) :
    Wout (Name := Name) (U := U) (Lvl := Lvl) W O B c (Proc.devRef .tc b) = W c (Proc.devRef .tc b) := by
  unfold Wout; exact Pipeline.withArrays_of_ne spec3 c _ _ b hb

abbrev Vout : (c : Dev nD) → (b : Ref sig .tc) → Buf (Elt F) ((c : Thread nD τ).loc b) :=
  fun c b => Wout (Name := Name) (U := U) (Lvl := Lvl) W O B c (Proc.devRef .tc b)

theorem hF3 (c : Dev nD) (w : Fin cfg3.W) :
    (dat3 (Name := Name) (U := U) (Lvl := Lvl) (V3 W) O B c).arrAt w cfg3.N
      = Vout (Name := Name) (U := U) (Lvl := Lvl) W O B c (Pipeline.arrRef spec3 w) :=
  (Wout_arr W O B c w).symm

theorem hrest3 (c : Dev nD) : ∀ b, b ∉ Finset.univ.image (Pipeline.arrRef spec3) →
    Vout (Name := Name) (U := U) (Lvl := Lvl) W O B c b = V3 W c b :=
  fun b hb => Wout_of_ne W O B c b fun w e => hb (Finset.mem_image.mpr ⟨w, Finset.mem_univ _, e⟩)

def pre3 (c : Dev nD) : sProp 𝕄 :=
  iprop(StableHlo.held (c : Thread nD τ) (Pipeline.ucRefs τ sig) (W c) ∗ (∃ r, prngReg c r) ∗ Pipeline.owesWithin c O B)

def post3 (c : Dev nD) : sProp 𝕄 :=
  iprop(StableHlo.held (c : Thread nD τ) (Pipeline.ucRefs τ sig) (Wout (Name := Name) (U := U) (Lvl := Lvl) W O B c) ∗ (∃ r, prngReg c r)
    ∗ Pipeline.owesWithin c O (B ∪ cfg3.waitPairs ι))

variable (pdats : (p : Fin 2) → (c : Dev nD) → Dat τ (Elt F) Ix Name U Lvl (Pipeline.pin (pcfgs (F := F)) adm p) c)
  (hfam : ∀ c, pdats 1 c = dat3 (V3 W) O B c)

include hfam in
theorem share3 (c : Dev nD) (w) : (pdats 1 c).share w = fullShare := by
  rw [hfam c]; exact (dat3 (V3 W) O B c).share_full (fun _ => rfl) w

set_option backward.isDefEq.respectTransparency.types false in
include hfam in

theorem hentry3 (L : GSem nD τ sig → Finset Ix) (lv : GSem nD τ sig → Ix → Lvl) (c : Dev nD) :
    iprop(pre3 (Name := Name) (U := U) (Lvl := Lvl) W O B c ∗ Pipeline.ownSems0 (fun k : PEmpty => k.elim) c ∗ levAts L lv)
    ⊢ |={Set.univ}=> iprop((pdats 1 c).arrays ((pdats 1 c).arrAt · 0) ∗ Pipeline.prefHeld (pcfgs (F := F) 1).pre c (fun _ => fullShare) (adm 1).1
        ∗ (pdats 1 c).owesAt ι 0 ∗ (iprop(∃ r, prngReg c r) : sProp 𝕄)
        ∗ Pipeline.unscopedRest (Ix := Ix) (Name := Name) (U := U) (Lvl := Lvl) spec3 c (V3 W c)) := by
  have hsplit := Pipeline.arrays_of_unscopedBufs (p := 1) (pcfgs (F := F)) adm pdats launch3.win launch3.arr_whole c
    (share3 W O B pdats hfam c) (V3 W c) fun w => by rw [hfam c]; rfl
  rw [Pipeline.unscopedBufs_held] at hsplit
  unfold pre3
  iintro ⟨⟨Hub, Hp, HO⟩, -, -⟩
  ihave H := hsplit $$ Hub
  icases H with ⟨Ha, Hrest⟩
  imodintro
  isplitl [Ha]; · iexact Ha
  isplitr; · unfold Pipeline.prefHeld; rw [show (Finset.univ : Finset (Fin 0)) = ∅ from rfl, BI.bigSep_empty]; iempintro
  isplitl [HO]
  · rw [hfam c]
    iapply (Pipeline.owesWithin_mono c O (B := B) (B' := (dat3 (V3 W) O B c).bound ι 0) (fun _ h => Or.inl h))
    iexact HO
  isplitl [Hp]; · iexact Hp
  iexact Hrest

include hfam in

theorem hin3 (c : Dev nD) :
    iprop((iprop(∃ r, prngReg c r) : sProp 𝕄) ∗ Pipeline.prefHeld (pcfgs (F := F) 1).pre c (fun _ => fullShare) (adm 1).1
      ∗ Pipeline.scopedRest (Pipeline.pin (pcfgs (F := F)) adm 1).spec c) ⊢ (pdats 1 c).Φ 0 := by
  rw [hfam c, Φ3_eq]; unfold Φ3
  iintro ⟨Hp, -, Hr⟩
  isplitl [Hr]; · iexact Hr
  iexact Hp

include hfam in

theorem hout3 (c : Dev nD) :
    (pdats 1 c).Φ (Fin.last (Pipeline.pin (pcfgs (F := F)) adm 1).N)
      ⊢ iprop((iprop(∃ r, prngReg c r) : sProp 𝕄) ∗ Pipeline.ownSems0 (fun k : PEmpty => k.elim) c
        ∗ Pipeline.scopedRest (Pipeline.pin (pcfgs (F := F)) adm 1).spec c) := by
  rw [Pipeline.ownSems0_none, hfam c, Φ3_eq]; unfold Φ3
  iintro ⟨Hr, Hp⟩
  isplitl [Hp]; · iexact Hp
  isplitr; · iempintro
  iexact Hr

set_option backward.isDefEq.respectTransparency.types false in
include hfam in

theorem hexit3 (c : Dev nD) :
    iprop((pdats 1 c).arrays ((pdats 1 c).arrAt · (Pipeline.pin (pcfgs (F := F)) adm 1).N)
        ∗ (pdats 1 c).owesAt ι (Fin.last (Pipeline.pin (pcfgs (F := F)) adm 1).N)
        ∗ (iprop(∃ r, prngReg c r) : sProp 𝕄)
        ∗ Pipeline.unscopedRest (Ix := Ix) (Name := Name) (U := U) (Lvl := Lvl) spec3 c (V3 W c))
      ⊢ |={Set.univ}=> post3 (Name := Name) (U := U) (Lvl := Lvl) W O B ι c := by
  have hjoin := Pipeline.unscopedBufs_of_arrays (p := 1) (pcfgs (F := F)) adm (Ix := Ix) (Name := Name) (U := U) (Lvl := Lvl)
    launch3.win launch3.arr_whole c pdats (share3 W O B pdats hfam c)
    (V3 W c) (Vout W O B c) ((pdats 1 c).arrAt · cfg3.N) (fun w => by rw [hfam c]; exact hF3 W O B c w) (hrest3 W O B c)
  rw [Pipeline.unscopedBufs_held] at hjoin
  unfold post3
  iintro ⟨Ha, HO, HY, Hrest⟩
  imodintro
  isplitl [Ha Hrest]
  · iapply hjoin; isplitl [Ha] <;> iassumption
  isplitl [HY]; · iexact HY
  rw [hfam c]
  iexact HO

end Region

section ExitNamed

variable (W : Dev nD → Valuation τ sig (Elt F)) (O : CellTallies nD τ sig Ix) (B : Set (SemLoc sig × Ix))

theorem Wout_other (c : Dev nD) (b : Ref sig .tc) (h4 : main_v4 ≠ b) (h5 : main_v5 ≠ b) :
    Wout (Name := Name) (U := U) (Lvl := Lvl) W O B c (Proc.devRef .tc b) = W c (Proc.devRef .tc b) :=
  Wout_of_ne W O B c b fun w => match w with
    | ⟨0, _⟩ => h4
    | ⟨1, _⟩ => h5

end ExitNamed

end Cert.Proof.DK

end
-- ==== Proof.KIChainK.lean ====
import proofs.«204933_g4492535792355_cont_8to1_c_766_42_alg».proof.Proof.KICommonK
import proofs.«204933_g4492535792355_cont_8to1_c_766_42_alg».proof.Proof.LibScRegion
import proofs.«204933_g4492535792355_cont_8to1_c_766_42_alg».proof.Proof.RegionBK
import proofs.«204933_g4492535792355_cont_8to1_c_766_42_alg».proof.Proof.RegionDK

set_option Elab.async false

noncomputable section

namespace Cert.Proof.KIK

open Cert.Kernel Cert.Kernel.Gen

open Idealize.ShloMosaic
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable {U : Type} [URA U]

local notation "𝕄" => MT nD τ sig (HIx 2) (Elt F) ℕ U ℕ

variable (EH : Emb UH (MT nD τ sig (HIx 2) (Elt F) ℕ U ℕ)) (EP : Emb UP (MT nD τ sig (HIx 2) (Elt F) ℕ U ℕ))
variable (P : (K (F := F)).Pay (nD := nD) (Val := Elt F) (Name := ℕ) (U := U))

abbrev callRegion (p : Fin 2) : Prog (TpuEff nD τ sig (Elt F) (ΛP (F := F)) .tc) PUnit :=
  Prog.lift (.customCall (Pipeline.entry p) ())

abbrev opReshapePos : HloOp τ sig (Elt F) := StableHlo.reshape main_arg2 main_v1 rfl shapeCasts_S128_S128x1
abbrev opZero : HloOp τ sig (Elt F) := StableHlo.nullary main_c (constantI S_ 32 0#32)
abbrev opConvert : HloOp τ sig (Elt F) := StableHlo.TRef.unary (.of main_c : StableHlo.TRef sig ⟨S_, .i32⟩) main_call0.v0 id
abbrev opPad : HloOp τ sig (Elt F) :=
  StableHlo.TRef.binary (.of main_arg3 : StableHlo.TRef sig ⟨S128x4097, .i32⟩) main_call0.v0 main_call0.v1 (fun x v => pad S128x4112 ![0, 0] ![0, 15] ![0, 0] x v pads_S128x4097_S128x4112_000_0150 h_S_)
abbrev opReshapeLoss : HloOp τ sig (Elt F) := StableHlo.reshape main_v5 main_v6 rfl shapeCasts_S1x1_S1

theorem main_shape (d : Dev nD) :
    main (F := F) d = (do
      (K (F := F)).run d 0
      hlo rfl (opReshapePos (F := F)) (fun _ => .ret ⟨⟩)
      SparseCore.liftProg (Q := 2) (callRegion (F := F) 0)
      hlo rfl (opZero (F := F)) (fun _ => .ret ⟨⟩)
      (do hlo rfl (opConvert (F := F)) (fun _ => .ret ⟨⟩)
          hlo rfl (opPad (F := F)) (fun _ => .ret ⟨⟩)
          pure ⟨⟩)
      (K (F := F)).run d 1
      SparseCore.liftProg (Q := 2) (callRegion (F := F) 1)
      hlo rfl (opReshapeLoss (F := F)) (fun _ => .ret ⟨⟩)
      pure ⟨⟩) := rfl

section Main

variable (m : (ℓ : Loc nD τ sig) → Buf (Elt F) ℓ) (ρ : Dev nD → PrngReg)
variable (hloc : Cert.Proof.CK.PayLocal F)
variable (W1 W5 : Dev nD → Valuation τ sig (Elt F))

def dev0 : Dev nD := ⟨0, by decide⟩
theorem dev_eq (d : Dev nD) : d = dev0 := Subsingleton.elim _ _

abbrev UC : Finset (DevRef τ sig) := Pipeline.ucRefs τ sig

abbrev Bn (n : ℕ) : Set (SemLoc sig × HIx 2) := {x | (K (F := F)).lev (((dev0 : Dev nD).tc : Thread nD τ), x.1) x.2 ≤ 8 * n}
abbrev On (n : ℕ) : CellTallies nD τ sig (HIx 2) := (K (F := F)).Otc dev0 n

abbrev W0 : Dev nD → Valuation τ sig (Elt F) := fun c b => m (c, b)
abbrev W2 : Dev nD → Valuation τ sig (Elt F) := fun c => (opReshapePos (F := F)).result (W1 c)

end Main

end Cert.Proof.KIK

end
-- ==== Proof.KIRunK.lean ====
import proofs.«204933_g4492535792355_cont_8to1_c_766_42_alg».proof.Proof.KIPayK
import proofs.«204933_g4492535792355_cont_8to1_c_766_42_alg».proof.Proof.Call0K
import proofs.«204933_g4492535792355_cont_8to1_c_766_42_alg».proof.Proof.SplitAK
import proofs.«204933_g4492535792355_cont_8to1_c_766_42_alg».proof.Proof.KIChainK

noncomputable section

namespace Cert.Proof.KIK

open Cert.Kernel Cert.Kernel.Gen

open Idealize.ShloMosaic
open Idealize.ShloMosaic.SparseCore (V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 2) (Elt F) ℕ (UU (F := F)) ℕ

section Run

variable (m : (ℓ : Loc nD τ sig) → Buf (Elt F) ℓ) (ρ : Dev nD → PrngReg) (hpre0 : Cert.Proof.EK.PreOK m)

abbrev W1k : Dev nD → Valuation τ sig (Elt F) := Cert.Proof.SAK.W1of m hpre0

abbrev go0k (d : Dev nD) (c : Fin ((K (F := F)).nCore 0)) (i : Fin ((K (F := F)).nSub 0)) : sProp 𝕄 :=
  Cert.Proof.E0K.goRes (UU := UU (F := F)) (wmU (F := F)) m hpre0 Cert.Proof.SAK.qH Cert.Proof.SAK.qH Cert.Proof.SAK.qT Cert.Proof.SAK.qT d
    ((K (F := F)).core 0 c) ((K (F := F)).sub 0 i)
abbrev td0k (d : Dev nD) (c : Fin ((K (F := F)).nCore 0)) (i : Fin ((K (F := F)).nSub 0)) : sProp 𝕄 :=
  Cert.Proof.E0K.tdRes (UU := UU (F := F)) (wmU (F := F)) m hpre0 Cert.Proof.SAK.qH Cert.Proof.SAK.qH Cert.Proof.SAK.qT Cert.Proof.SAK.qT d
    ((K (F := F)).core 0 c) ((K (F := F)).sub 0 i)
abbrev st0k (d : Dev nD) (c : Fin ((K (F := F)).nCore 0)) : sProp 𝕄 := bigSep Finset.univ fun i : Fin ((K (F := F)).nSub 0) => go0k m hpre0 d c i
abbrev dn0k (d : Dev nD) (c : Fin ((K (F := F)).nCore 0)) : sProp 𝕄 := bigSep Finset.univ fun i : Fin ((K (F := F)).nSub 0) => td0k m hpre0 d c i
abbrev X0k (d : Dev nD) (c : Fin τ.nSC) (i : Fin τ.nSub) : sProp 𝕄 :=
  iprop(Cert.Proof.EK.kit (EK0 (F := F)) (wmU (F := F)) m hpre0 Cert.Proof.SAK.qH Cert.Proof.SAK.qH (Cert.Proof.EK.cAcell d c i)
    ∗ Cert.Proof.EK.kit (EK0 (F := F)) (wmU (F := F)) m hpre0 Cert.Proof.SAK.qH Cert.Proof.SAK.qH (Cert.Proof.EK.cBcell d c i)
    ∗ Cert.Proof.EK.kit (EK0 (F := F)) (wmU (F := F)) m hpre0 Cert.Proof.SAK.qH Cert.Proof.SAK.qH (Cert.Proof.EK.cCcell d c i))

instance go0k_storable (d : Dev nD) (c : Fin ((K (F := F)).nCore 0)) (i : Fin ((K (F := F)).nSub 0)) :
    BI.Storable (upEmb : UEmb _ 𝕄) (go0k m hpre0 d c i) := by
  unfold go0k Cert.Proof.E0K.goRes; infer_instance
instance td0k_storable (d : Dev nD) (c : Fin ((K (F := F)).nCore 0)) (i : Fin ((K (F := F)).nSub 0)) :
    BI.Storable (upEmb : UEmb _ 𝕄) (td0k m hpre0 d c i) := by
  unfold td0k Cert.Proof.E0K.tdRes; infer_instance
instance st0k_storable (d : Dev nD) (c : Fin ((K (F := F)).nCore 0)) : BI.Storable (upEmb : UEmb _ 𝕄) (st0k m hpre0 d c) := by
  unfold st0k; infer_instance
instance dn0k_storable (d : Dev nD) (c : Fin ((K (F := F)).nCore 0)) : BI.Storable (upEmb : UEmb _ 𝕄) (dn0k m hpre0 d c) := by
  unfold dn0k; infer_instance

end Run

section Rec

variable (m : (ℓ : Loc nD τ sig) → Buf (Elt F) ℓ) (ρ : Dev nD → PrngReg) (hpre0 : Cert.Proof.EK.PreOK m)
variable (PR : (K (F := F)).Pay (nD := nD) (Val := Elt F) (Name := ℕ) (U := UU (F := F)))

structure RecCall0 : Prop where
  go : ∀ d c i, PR.go 0 d c i = go0k m hpre0 d c i
  td : ∀ d c i, PR.td 0 d c i = td0k m hpre0 d c i
  st : ∀ d c, PR.st 0 d c = st0k m hpre0 d c
  dn : ∀ d c, PR.dn 0 d c = dn0k m hpre0 d c
  x : ∀ d c i, PR.x 0 (V d c i) = Cert.Proof.E0K.xRes' (EK0 (F := F)) (wmU (F := F)) m hpre0 Cert.Proof.SAK.qH Cert.Proof.SAK.qH d c i
  ox : PR.ox = fun _ _ => 0

def Lc0 (c : Fin 2) (s : Fin 16) : grid0.Coords := Cert.Proof.E0K.Lof c s

theorem hcall0 (h0 : RecCall0 m hpre0 PR) (d : Dev nD) :
    iprop(wmI (F := F) ∗ (StableHlo.held (d.tc : Thread nD τ) UC (W0 m d) : sProp 𝕄))
      ⊢ iprop(|={Set.univ}=> ((bigSep Finset.univ fun c : Fin ((K (F := F)).nCore 0) => PR.st 0 d c)
          ∗ ((bigSep Finset.univ fun c : Fin ((K (F := F)).nCore 0) => PR.dn 0 d c)
            -∗ |={Set.univ}=> (StableHlo.held (d.tc : Thread nD τ) UC (W1k m hpre0 d) : sProp 𝕄)))) := by
  simp only [h0.st, h0.dn]
  unfold wmI
  iintro ⟨⟨%ι, #Hi⟩, Hh⟩
  iapply (Cert.Proof.SAK.call0_held (UU := UU (F := F)) (wmU (F := F)) m hpre0 Lc0 (fun _ _ => rfl) (fun _ _ => rfl) (ιwm := ι) d)
  isplitr; · iexact Hi
  iexact Hh

end Rec

section Theorem

variable (m : (ℓ : Loc nD τ sig) → Buf (Elt F) ℓ) (ρ : Dev nD → PrngReg) (hpre0 : Cert.Proof.EK.PreOK m)
variable (PR : (K (F := F)).Pay (nD := nD) (Val := Elt F) (Name := ℕ) (U := UU (F := F))) [PR.IsStorable]

theorem run_k [∀ e, Nonempty (Elt F e)] (h0 : RecCall0 m hpre0 PR) (hheld : PR.held = ∅)
    (obl1 : (K (F := F)).TileObl (D (F := F)) 𝒱 PR v₀ 1) (split1 : (K (F := F)).VecSplit' PR 1)
    (G FINF : Dev nD → sProp 𝕄) (u₀ : UU (F := F))
    (hu₀ : iprop(ownU u₀ ∗ PR.oxCred ∗ (K (F := F)).freeSems0) ⊢ |={Set.univ}=> iprop(BI.own ((EH (F := F)) (initOf (K (F := F)).hsCells (K (F := F)).hsToks))
      ∗ bigSep Finset.univ G ∗ bigSep Finset.univ fun thr : Thread nD τ => bigSep Finset.univ fun q : Fin 2 => PR.x q thr))
    (hmainH : ∀ (κ : GSem nD τ sig → ℕ) (d : Dev nD),
      iprop((K (F := F)).ctx (EH (F := F)) PR κ ∗ (K (F := F)).tcSt (EH (F := F)) d 0 ∗ (K (F := F)).tcRes m ρ d ∗ G d)
        ⊢ wp frame (wpE ((K (F := F)).defs (D (F := F))) 𝒱 (T d) none) Set.univ (main (F := F) d)
            fun _ => iprop((K (F := F)).tcSt (EH (F := F)) d 2 ∗ FINF d))
    (fqF : Dev nD → Phys nD τ sig (Elt F) → Prop) (hfinF : ∀ d s', iprop(FINF d ∗ SI s') ⊢ (⌜fqF d s'⌝ : sProp 𝕄))
    (QCF : PUnit × MemSt nD τ sig (Elt F) → Prop) (hQF : ∀ s', (∀ d, fqF d s') → QCF (⟨⟩, s'.mem)) :
    θ_run (Cert.Kernel.defs (F := F)) (Cert.Kernel.threads (F := F)) ⟨m, fun _ => 0, ρ⟩ QCF :=
  SparseCore.Cfg.θ_run_sc (K := K (F := F)) (D := D (F := F)) (𝒱 := 𝒱) (EH := EH (F := F)) (P := PR) facts v₀
    (fun q hq => match q with
      | 0 => nomatch hq
      | 1 => nomatch hq)
    (fun q _ => match q with
      | 0 => Cert.Proof.E0K.tileObl0' (EK0 (F := F)) (EC (F := F)) (wmU (F := F)) m hpre0 Cert.Proof.SAK.qH Cert.Proof.SAK.qH Cert.Proof.SAK.qT Cert.Proof.SAK.qT
          PR h0.go h0.td h0.x h0.ox facts
      | 1 => obl1)
    (fun q _ => match q with
      | 0 => SparseCore.Cfg.VecSplit.of_plain (Cert.Proof.E0K.vecSplit0 (wmU (F := F)) m hpre0 Cert.Proof.SAK.qH Cert.Proof.SAK.qH Cert.Proof.SAK.qT Cert.Proof.SAK.qT
          PR h0.go h0.td h0.st h0.dn)
      | 1 => SparseCore.Cfg.VecSplit.of_plain split1)
    m ρ main G FINF u₀ hu₀ hmainH fqF hfinF QCF hQF hheld

end Theorem

end Cert.Proof.KIK

end
-- ==== Proof.TileCFK.lean ====
import proofs.«204933_g4492535792355_cont_8to1_c_766_42_alg».proof.Proof.TileCK

noncomputable section

namespace Cert.Proof.FFK

open Cert.Kernel Cert.Kernel.Gen Cert.Proof.FK

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable {UU : Type} [URA UU]

local notation "𝕄" => MT nD τ sig (HIx 2) (Elt F) ℕ UU ℕ

section Sched

variable (fix : (d : Dev nD) → Buf (Elt F) (ixLoc d))
variable (qI : Dev nD → Fin τ.nSC → Fin τ.nSub → PosShare TreeShare)

def paySF (d : Dev nD) (c : Fin τ.nSC) (s : Fin τ.nSub) (j : Fin 8) : sProp 𝕄 :=
  iprop((∃ f, (V d c s).loc cc2_scratch0 ↦{fullShare} f) ∗ ∃ f, stLoc d ↦[(stRowK (Lof c s) j).view.set]{fullShare} f)
def payAF (d : Dev nD) (c : Fin τ.nSC) (s : Fin τ.nSub) (j : Fin 8) : sProp 𝕄 :=
  iprop((∃ f, ⌜IxHolds fix d c s (Lof c s) j f⌝ ∗ (V d c s).loc cc2_scratch1 ↦{fullShare} f)
    ∗ ixLoc d ↦[(ixRowK (Lof c s) j).view.set]{qI d c s} fix d)
def payBF (d : Dev nD) (c : Fin τ.nSC) (s : Fin τ.nSub) (j : Fin 8) : sProp 𝕄 :=
  iprop((∃ f, rLoc d ↦[(rRowK (Lof c s) j).view.set]{fullShare} f) ∗ ∃ f, (V d c s).loc cc2_scratch2 ↦{fullShare} f)

def payOfF (d : Dev nD) (c : Fin τ.nSC) (s : Fin τ.nSub) : CK → ℕ → sProp 𝕄
  | .S, r => if h : r < 8 then paySF (UU := UU) d c s ⟨r, h⟩ else iprop(emp)
  | .A j, _ => payAF (UU := UU) fix qI d c s j
  | .B j, _ => payBF (UU := UU) d c s j

def kPayF (g : GSem nD τ sig) (r : ℕ) : sProp 𝕄 :=
  match g with
  | ((d, .scVector c s), .dma sm) =>
    match kindOf sm.val with
    | some k => payOfF (UU := UU) fix qI d c s k r
    | none => iprop(emp)
  | _ => iprop(emp)

def kRdF : Rounds.Schedule (GSem nD τ sig) Unit 𝕄 where
  duties g r := match cellKind g with | some k => if r < nRounds k then {()} else ∅ | none => ∅
  amount g _ _ := match cellKind g with | some .S => NS | some (.A _) => NA | some (.B _) => NB | none => 1
  payload g r _ := kPayF (UU := UU) fix qI g r
  amount_pos g _ _ _ := by
    rcases cellKind g with _ | ⟨_ | _ | _⟩
    · exact Nat.one_pos
    · exact NS_pos
    · exact NA_pos
    · exact NB_pos

instance kRd_payload_storableF (g : GSem nD τ sig) (r : ℕ) (u : Unit) :
    BI.Storable (upEmb : UEmb _ 𝕄) ((kRdF (UU := UU) fix qI).payload g r u) := by
  show BI.Storable upEmb (kPayF (UU := UU) fix qI g r)
  unfold kPayF
  rcases g with ⟨⟨d, _ | c | ⟨c, s⟩⟩, _ | sm⟩ <;> dsimp only <;> try infer_instance
  cases kindOf sm.val with
  | none => dsimp only; infer_instance
  | some k =>
    dsimp only
    cases k with
    | S => unfold payOfF; dsimp only; split <;> (try unfold paySF) <;> infer_instance
    | A j => unfold payOfF payAF; dsimp only; infer_instance
    | B j => unfold payOfF payBF; dsimp only; infer_instance

variable {g : GSem nD τ sig} {k : CK} {r : ℕ}

theorem kRd_dutiesF (hk : cellKind g = some k) (hr : r < nRounds k) : (kRdF (UU := UU) fix qI).duties g r = {()} := by
  show (match cellKind g with | some k => if r < nRounds k then {()} else ∅ | none => ∅) = _
  rw [hk]; exact if_pos hr
theorem kRd_memF (hk : cellKind g = some k) (hr : r < nRounds k) : () ∈ (kRdF (UU := UU) fix qI).duties g r := by
  rw [kRd_dutiesF fix qI hk hr]; exact Finset.mem_singleton_self _
theorem kRd_laterF (hk : cellKind g = some k) : ∀ r, nRounds k ≤ r → (kRdF (UU := UU) fix qI).duties g r = ∅ := fun r h => by
  show (match cellKind g with | some k => if r < nRounds k then {()} else ∅ | none => ∅) = _
  rw [hk]; exact if_neg (by omega)
theorem kRd_backF (hk : cellKind g = some k) (hr : r < nRounds k) :
    bigSep ((kRdF (UU := UU) fix qI).duties g r \ ∅) (fun u => (kRdF (UU := UU) fix qI).payload g r u) ⊢ (kRdF (UU := UU) fix qI).payload g r () := by
  rw [Finset.sdiff_empty, kRd_dutiesF fix qI hk hr, bigSep_singleton]
theorem kRd_expectF (hk : cellKind g = some k) (hr : r < nRounds k) :
    (kRdF (UU := UU) fix qI).expect g r = (kRdF (UU := UU) fix qI).amount g r () := by
  unfold Rounds.Schedule.expect; rw [kRd_dutiesF fix qI hk hr]; exact Finset.sum_singleton _ _
theorem kRd_amount_SF (hk : cellKind g = some .S) : (kRdF (UU := UU) fix qI).amount g r () = NS := by
  show (match cellKind g with | some .S => NS | some (.A _) => NA | some (.B _) => NB | none => 1) = _
  rw [hk]
theorem kRd_amount_AF {j : Fin 8} (hk : cellKind g = some (.A j)) : (kRdF (UU := UU) fix qI).amount g r () = NA := by
  show (match cellKind g with | some .S => NS | some (.A _) => NA | some (.B _) => NB | none => 1) = _
  rw [hk]
theorem kRd_amount_BF {j : Fin 8} (hk : cellKind g = some (.B j)) : (kRdF (UU := UU) fix qI).amount g r () = NB := by
  show (match cellKind g with | some .S => NS | some (.A _) => NA | some (.B _) => NB | none => 1) = _
  rw [hk]

theorem kRd_payload_SF (d : Dev nD) (c : Fin τ.nSC) (s : Fin τ.nSub) (j : Fin 8) :
    (kRdF (UU := UU) fix qI).payload (cellS d c s) j.val () = paySF (UU := UU) d c s j := by
  show (match kindOf (semS.sem : DmaSem sig).val with | some k => payOfF (UU := UU) fix qI d c s k j.val | none => iprop(emp)) = _
  rw [semS_val, kindOf_S]
  show (if h : j.val < 8 then paySF (UU := UU) d c s ⟨j.val, h⟩ else iprop(emp)) = _
  rw [dif_pos j.isLt]
theorem kRd_payload_AF (d : Dev nD) (c : Fin τ.nSC) (s : Fin τ.nSub) (j : Fin 8) :
    (kRdF (UU := UU) fix qI).payload (cellA d c s j) 0 () = payAF (UU := UU) fix qI d c s j := by
  show (match kindOf ((semA j).sem : DmaSem sig).val with | some k => payOfF (UU := UU) fix qI d c s k 0 | none => iprop(emp)) = _
  rw [semA_val, kindOf_A]; rfl
theorem kRd_payload_BF (d : Dev nD) (c : Fin τ.nSC) (s : Fin τ.nSub) (j : Fin 8) :
    (kRdF (UU := UU) fix qI).payload (cellB d c s j) 0 () = payBF (UU := UU) d c s j := by
  show (match kindOf ((semB j).sem : DmaSem sig).val with | some k => payOfF (UU := UU) fix qI d c s k 0 | none => iprop(emp)) = _
  rw [semB_val, kindOf_B]; rfl

end Sched

section Tile

variable (d : Dev nD) (L : grid2.Coords)

local notation "𝕋" => (V d (cV L) (sV L) : Thread nD τ)

theorem loop_wpF (g0 : Buf (Elt F) ((𝕋).loc cc2_scratch0)) (g1 : Buf (Elt F) ((𝕋).loc cc2_scratch1)) (hlt : ∀ x : S4112.Idx, (g1 x).toNat < 100000)
    (f2 : Buf (Elt F) ((𝕋).loc cc2_scratch2)) {α : Type} (k : Unit → Prog (TpuEff nD τ sig (Elt F) Λ₀ (.scVector (cV L) (sV L))) α) (Q : α → sProp 𝕄) :
    iprop(((𝕋).loc cc2_scratch0 ↦{fullShare} g0) ∗ ((𝕋).loc cc2_scratch1 ↦{fullShare} g1) ∗ ((𝕋).loc cc2_scratch2 ↦{fullShare} f2)
        ∗ (∀ f2' : Buf (Elt F) ((𝕋).loc cc2_scratch2), ((𝕋).loc cc2_scratch0 ↦{fullShare} g0)
            -∗ ((𝕋).loc cc2_scratch1 ↦{fullShare} g1) -∗ ((𝕋).loc cc2_scratch2 ↦{fullShare} f2')
            -∗ wp frame (wpE (defs₀ (F := F)) 𝒱₀ 𝕋 none) Set.univ (k ⟨⟩) Q))
      ⊢ wp frame (wpE (defs₀ (F := F)) 𝒱₀ 𝕋 none) Set.univ (Scf.Loop.for k2_t1_loop k2_t1_ok ⟨⟩ (tBody (F := F) L) >>= k) Q := by
  iintro ⟨H0, H1, H2, Hk⟩
  iapply (Scf.wp_for_bind frame (wpE (defs₀ (F := F)) 𝒱₀ 𝕋 none) Set.univ k2_t1_loop.lb k2_t1_loop.ub k2_t1_loop.st k2_t1_ok ⟨⟩ (tBody (F := F) L)
    (fun _ _ => iprop(∃ f2' : Buf (Elt F) ((𝕋).loc cc2_scratch2), ((𝕋).loc cc2_scratch0 ↦{fullShare} g0)
      ∗ ((𝕋).loc cc2_scratch1 ↦{fullShare} g1) ∗ ((𝕋).loc cc2_scratch2 ↦{fullShare} f2')) : ℕ → Unit → sProp 𝕄) ?hbody) $$ [H0 H1 H2]
  case hbody =>
    intro t acc
    simp only [tBody, Prog.lift, Prog.bind_op, Prog.bind_ret, Prog.pure_eq_ret]
    iintro ⟨%f2', H0, H1, H2⟩
    ihave H1' := (Entails.of_eq (pts_s1_univ (F := F) (UU := UU) d L _).symm) $$ H1
    iapply (wp_load 𝒱₀ 𝕋 none Set.univ (m := (s1 : Memref sig .scVector .vmem S4112 .i32)) (S := Finset.univ) (Finset.subset_univ _)) $$ H1'; iintro H1'
    rw [wp_assume_of _ _ _ _ (chk_of_lt d (cV L) (sV L) g1 hlt t)]
    ihave H0' := (Entails.of_eq (pts_s0_access (F := F) (UU := UU) d L _).symm) $$ H0
    iapply (SparseCore.wp_vectorLoadIdx 𝒱₀ 𝕋 none Set.univ (base := (s0 : Memref sig .scVector .vmem S100000 .f32)) (S := Finset.univ) (q := fullShare) (Finset.subset_univ _)) $$ H0'; iintro H0'
    ihave H2' := (Entails.of_eq (pts_s2_univ (F := F) (UU := UU) d L _).symm) $$ H2
    iapply (wp_load 𝒱₀ 𝕋 none Set.univ (m := (s2 : Memref sig .scVector .vmem S4112 .f32)) (S := Finset.univ) (Finset.subset_univ _)) $$ H2'; iintro H2'
    ihave H2 := (Entails.of_eq ((pts_s2_univ (F := F) (UU := UU) d L _).trans (pts_s2_access (F := F) (UU := UU) d L (rT t) _).symm)) $$ H2'
    iapply (wp_store 𝒱₀ 𝕋 none Set.univ (m := (s2 : Memref sig .scVector .vmem S4112 .f32)) (r := rT t) (Mk := Finset.univ) (S := Finset.univ) (Finset.subset_univ _)) $$ H2; iintro H2
    rw [wp_ret]; imodintro
    iexists _
    ihave H0 := (Entails.of_eq (pts_s0_access (F := F) (UU := UU) d L _)) $$ H0'
    ihave H1 := (Entails.of_eq (pts_s1_univ (F := F) (UU := UU) d L _)) $$ H1'
    ihave H2'' := (Entails.of_eq (pts_s2_access (F := F) (UU := UU) d L (rT t) _)) $$ H2
    isplitl [H0]; · iexact H0
    isplitl [H1]; · iexact H1
    iexact H2''
  · iexists f2
    isplitl [H0]; · iexact H0
    isplitl [H1]; · iexact H1
    iexact H2
  iintro %acc ⟨%f2', H0, H1, H2⟩
  iapply Hk $$ %f2' [H0] [H1] [H2]
  · iexact H0
  · iexact H1
  · iexact H2

end Tile

section Row

variable (EK : Emb UK (MT nD τ sig (HIx 2) (Elt F) ℕ UU ℕ)) [EK.LandsIn (upEmb : UEmb _ (MT nD τ sig (HIx 2) (Elt F) ℕ UU ℕ))]
variable (fix : (d : Dev nD) → Buf (Elt F) (ixLoc d))
variable (qI : Dev nD → Fin τ.nSC → Fin τ.nSub → PosShare TreeShare)
variable (d : Dev nD) (L : grid2.Coords)

local notation "𝕋" => (V d (cV L) (sV L) : Thread nD τ)
local notation "Rd" => kRdF (UU := UU) fix qI

def kit1F (g : GSem nD τ sig) : sProp 𝕄 :=
  iprop(roundState EK (kRdF (UU := UU) fix qI) g 0 ∗ atPos EK g 0 ∅ 0 ∗ reached EK g 0 ∗ dutyTok EK g 0 ())

def rowPreF (j : Fin 8) (O : CellTallies nD τ sig (HIx 2)) (W : Waits sig (HIx 2)) : sProp 𝕄 :=
  iprop(owes 𝕋 O W ∗ atPos EK (cellS d (cV L) (sV L)) j.val ∅ 0 ∗ reached EK (cellS d (cV L) (sV L)) j.val
    ∗ dutyTok EK (cellS d (cV L) (sV L)) j.val ()
    ∗ kit1F EK fix qI (cellA d (cV L) (sV L) j) ∗ kit1F EK fix qI (cellB d (cV L) (sV L) j)
    ∗ semVal (cellA d (cV L) (sV L) j) 0 ∗ semVal (cellB d (cV L) (sV L) j) 0
    ∗ (∃ f, stLoc d ↦[(stRowK L j).view.set]{fullShare} f) ∗ (∃ f, rLoc d ↦[(rRowK L j).view.set]{fullShare} f)
    ∗ (ixLoc d ↦{qI d (cV L) (sV L)} fix d)
    ∗ (∃ f, (𝕋).loc cc2_scratch0 ↦{fullShare} f) ∗ (∃ f, (𝕋).loc cc2_scratch1 ↦{fullShare} f) ∗ (∃ f, (𝕋).loc cc2_scratch2 ↦{fullShare} f))

def rowPostF (j : Fin 8) (O : CellTallies nD τ sig (HIx 2)) (W : Waits sig (HIx 2)) : sProp 𝕄 :=
  iprop(∃ W', ⌜∀ p ∈ W', p ∈ W ∨ p.2 = none⌝ ∗ owes 𝕋 O W'
    ∗ atPos EK (cellS d (cV L) (sV L)) (j.val + 1) ∅ 0 ∗ reached EK (cellS d (cV L) (sV L)) (j.val + 1)
    ∗ semVal (cellA d (cV L) (sV L) j) 0 ∗ semVal (cellB d (cV L) (sV L) j) 0
    ∗ (∃ f, stLoc d ↦[(stRowK L j).view.set]{fullShare} f)
    ∗ (∃ f, rLoc d ↦[(rRowK L j).view.set]{fullShare} f)
    ∗ (ixLoc d ↦{qI d (cV L) (sV L)} fix d)
    ∗ (∃ f, (𝕋).loc cc2_scratch0 ↦{fullShare} f) ∗ (∃ f, (𝕋).loc cc2_scratch1 ↦{fullShare} f) ∗ (∃ f, (𝕋).loc cc2_scratch2 ↦{fullShare} f))

theorem payload_S_atF (j : Fin 8) :
    (Rd).payload (cellS d (cV L) (sV L)) j.val ()
      = iprop((∃ f, (𝕋).loc cc2_scratch0 ↦{fullShare} f) ∗ ∃ f, stLoc d ↦[(stRowK L j).view.set]{fullShare} f) := by
  rw [kRd_payload_SF]; unfold paySF; rw [Lof_eq]
theorem payload_A_atF (j : Fin 8) :
    (Rd).payload (cellA d (cV L) (sV L) j) 0 ()
      = iprop((∃ f, ⌜IxHolds fix d (cV L) (sV L) L j f⌝ ∗ (𝕋).loc cc2_scratch1 ↦{fullShare} f) ∗ ixLoc d ↦[(ixRowK L j).view.set]{qI d (cV L) (sV L)} fix d) := by
  rw [kRd_payload_AF]; unfold payAF; rw [Lof_eq]
theorem payload_B_atF (j : Fin 8) :
    (Rd).payload (cellB d (cV L) (sV L) j) 0 ()
      = iprop((∃ f, rLoc d ↦[(rRowK L j).view.set]{fullShare} f) ∗ ∃ f, (𝕋).loc cc2_scratch2 ↦{fullShare} f) := by
  rw [kRd_payload_BF]; unfold payBF; rw [Lof_eq]

theorem row_wpF (hpre : PreOK fix) (κS : ℕ) (j : Fin 8) (O : CellTallies nD τ sig (HIx 2)) (W : Waits sig (HIx 2)) (hO : ∀ g, O g none = 0)
    {α : Type} (k : Prog (TpuEff nD τ sig (Elt F) Λ₀ (.scVector (cV L) (sV L))) α) (Q : α → sProp 𝕄) :
    iprop(levAts (K (F := F)).L (K (F := F)).lev ∗ cellInv EK (Rd) κS (cellS d (cV L) (sV L)) ∗ rowPreF EK fix qI d L j O W
        ∗ (rowPostF EK fix qI d L j O W -∗ wp frame (wpE (defs₀ (F := F)) 𝒱₀ 𝕋 none) Set.univ k Q))
      ⊢ wp frame (wpE (defs₀ (F := F)) 𝒱₀ 𝕋 none) Set.univ (rowK L j k) Q := by
  unfold rowK rowPreF kit1F
  iintro ⟨#Hlv, #HinvS, ⟨HO, HatS, #HrS, HtokS, ⟨HstA, HatA, #HrA, HtokA⟩, ⟨HstB, HatB, #HrB, HtokB⟩, HsemA, HsemB, ⟨%fst0, Hst⟩, ⟨%fr, Hr⟩, Hix,
    ⟨%f0, Hs0⟩, ⟨%f1, Hs1⟩, ⟨%f2, Hs2⟩⟩, Hk⟩
  imod ((Rounds.body_intro EK (Rd) (cellA d (cV L) (sV L) j)).trans inv_alloc) $$ [HsemA HstA] with ⟨%κA, #HinvA⟩
  · isplitl [HsemA] <;> iassumption
  imod ((Rounds.body_intro EK (Rd) (cellB d (cV L) (sV L) j)).trans inv_alloc) $$ [HsemB HstB] with ⟨%κB, #HinvB⟩
  · isplitl [HsemB] <;> iassumption

  ihave Hst' := (Entails.of_eq (pts_stRow (F := F) (UU := UU) d L j _).symm) $$ Hst
  ihave Hs0' := (Entails.of_eq (pts_s0 (F := F) (UU := UU) d L _).symm) $$ Hs0
  iapply (Rounds.wp_copy_pointsTo 𝒱₀ EK (Rd) 𝕋 none (q := fullShare) (fs := fst0) (fd := f0) (κ := κS)
      (kRd_memF fix qI (cellKind_S d (cV L) (sV L)) (show j.val < nRounds .S from j.isLt)) none NS rfl
      (kRd_amount_SF fix qI (cellKind_S d (cV L) (sV L))) ?hpayS) $$ [Hst' Hs0' HtokS]
  case hpayS =>
    rw [payload_S_atF, pts_stRow, pts_s0]
    iintro ⟨Hs, Hst⟩
    isplitl [Hs]
    · iexists _; iexact Hs
    · iexists _; iexact Hst
  · isplitr; · iexact HinvS
    isplitl [Hst']; · iexact Hst'
    isplitl [Hs0']; · iexact Hs0'
    isplitl [HtokS]; · iexact HtokS
    iexact HrS
  iintro HcredS

  ihave Hix2 := ((pointsTo_split_subset (ℓ := ixLoc d) (S := Finset.univ) (I := (ixRowK L j).view.set) (q := qI d (cV L) (sV L)) (f := fix d) (Finset.subset_univ _)).1) $$ Hix
  icases Hix2 with ⟨HixR, HixC⟩
  ihave HixR' := (Entails.of_eq (pts_ixRow (F := F) (UU := UU) d L j _ _).symm) $$ HixR
  ihave Hs1' := (Entails.of_eq (pts_s1 (F := F) (UU := UU) d L _).symm) $$ Hs1
  iapply (Rounds.wp_copy_pointsTo 𝒱₀ EK (Rd) 𝕋 none (q := qI d (cV L) (sV L)) (fs := fix d) (fd := f1) (κ := κA)
      (kRd_memF fix qI (cellKind_A d (cV L) (sV L) j) (show 0 < nRounds (.A j) from Nat.one_pos)) none NA rfl
      (kRd_amount_AF fix qI (cellKind_A d (cV L) (sV L) j)) ?hpayA) $$ [HixR' Hs1' HtokA]
  case hpayA =>
    rw [payload_A_atF, pts_ixRow, pts_s1, View.write_whole_univ]
    iintro ⟨Hs, Hi⟩
    isplitl [Hs]
    · iexists _; isplitr; · ipureintro; exact ix_holds fix d L j
      iexact Hs
    · iexact Hi
  · isplitr; · iexact HinvA
    isplitl [HixR']; · iexact HixR'
    isplitl [Hs1']; · iexact Hs1'
    isplitl [HtokA]; · iexact HtokA
    iexact HrA
  iintro HcredA
  iapply (Rounds.wp_wait_rest_token 𝒱₀ EK (Rd) 𝕋 none (κ := κA)
      (wpE_waitDma2_eq 𝒱₀ 𝕋 none Set.univ) (Set.mem_univ κA) none (O := O) (W := W) (R := 0) (m := 0) (T := ∅)
      (by rw [Nat.zero_add, kRd_expectF fix qI (cellKind_A d (cV L) (sV L) j) (show 0 < nRounds (.A j) from Nat.one_pos),
        kRd_amount_AF fix qI (cellKind_A d (cV L) (sV L) j)])) $$ [HcredA HO HatA]
  · isplitr; · iexact HinvA
    isplitl [HcredA]; · iexact HcredA
    isplitl [HO]; · iexact HO
    isplitr; · iapply ((K (F := F)).mayWait_none (SemLoc.dma (semA j).sem) hO); iexact Hlv
    iexact HatA
  iintro ⟨HO, HatA, -, Hpay⟩
  ihave Hp := ((kRd_backF fix qI (cellKind_A d (cV L) (sV L) j) (show 0 < nRounds (.A j) from Nat.one_pos)).trans
    (Entails.of_eq (payload_A_atF (UU := UU) fix qI d L j))) $$ Hpay
  icases Hp with ⟨⟨%g1, %hg1, Hs1⟩, HixR⟩
  imod (Rounds.cell_close EK (Rd) (Set.mem_univ κA) (fun h => h) (R := 0 + 1) (kRd_laterF fix qI (cellKind_A d (cV L) (sV L) j))) $$ [HatA] with HsemA
  · isplitr; · iexact HinvA
    iexact HatA
  ihave Hix := ((pointsTo_split_subset (ℓ := ixLoc d) (S := Finset.univ) (I := (ixRowK L j).view.set) (q := qI d (cV L) (sV L)) (f := fix d) (Finset.subset_univ _)).2) $$ [HixR HixC]
  · isplitl [HixR]; · iexact HixR
    iexact HixC

  iapply (Rounds.wp_wait_rest_token 𝒱₀ EK (Rd) 𝕋 none (κ := κS)
      (wpE_waitDma2_eq 𝒱₀ 𝕋 none Set.univ) (Set.mem_univ κS) none (O := O) (W := insert (SemLoc.dma (semA j).sem, none) W) (R := j.val) (m := 0) (T := ∅)
      (by rw [Nat.zero_add, kRd_expectF fix qI (cellKind_S d (cV L) (sV L)) (show j.val < nRounds .S from j.isLt),
        kRd_amount_SF fix qI (cellKind_S d (cV L) (sV L))])) $$ [HcredS HO HatS]
  · isplitr; · iexact HinvS
    isplitl [HcredS]; · iexact HcredS
    isplitl [HO]; · iexact HO
    isplitr; · iapply ((K (F := F)).mayWait_none (SemLoc.dma semS.sem) hO); iexact Hlv
    iexact HatS
  iintro ⟨HO, HatS, #HrS', Hpay⟩
  ihave Hp := ((kRd_backF fix qI (cellKind_S d (cV L) (sV L)) (show j.val < nRounds .S from j.isLt)).trans
    (Entails.of_eq (payload_S_atF (UU := UU) fix qI d L j))) $$ Hpay
  icases Hp with ⟨⟨%g0, Hs0⟩, ⟨%fst1, Hst⟩⟩

  have hlt : ∀ x : S4112.Idx, (g1 x).toNat < 100000 := fun x => by rw [hg1 x]; exact hpre d L j x
  iapply (loop_wpF (UU := UU) d L g0 g1 hlt f2) $$ [Hs0 Hs1 Hs2 Hk HO HatS HsemA Hst Hr Hix HtokB HatB]
  isplitl [Hs0]; · iexact Hs0
  isplitl [Hs1]; · iexact Hs1
  isplitl [Hs2]; · iexact Hs2
  iintro %f2' Hs0 Hs1 Hs2

  ihave Hs2' := (Entails.of_eq (pts_s2 (F := F) (UU := UU) d L _).symm) $$ Hs2
  ihave Hr' := (Entails.of_eq (pts_rRow (F := F) (UU := UU) d L j _).symm) $$ Hr
  iapply (Rounds.wp_copy_pointsTo 𝒱₀ EK (Rd) 𝕋 none (q := fullShare) (fs := f2') (fd := fr) (κ := κB)
      (kRd_memF fix qI (cellKind_B d (cV L) (sV L) j) (show 0 < nRounds (.B j) from Nat.one_pos)) none NB rfl
      (kRd_amount_BF fix qI (cellKind_B d (cV L) (sV L) j)) ?hpayB) $$ [Hs2' Hr' HtokB]
  case hpayB =>
    rw [payload_B_atF, pts_rRow, pts_s2]
    iintro ⟨Hr, Hs⟩
    isplitl [Hr]
    · iexists _; iexact Hr
    · iexists _; iexact Hs
  · isplitr; · iexact HinvB
    isplitl [Hs2']; · iexact Hs2'
    isplitl [Hr']; · iexact Hr'
    isplitl [HtokB]; · iexact HtokB
    iexact HrB
  iintro HcredB
  iapply (Rounds.wp_wait_rest_token 𝒱₀ EK (Rd) 𝕋 none (κ := κB)
      (wpE_waitDma2_eq 𝒱₀ 𝕋 none Set.univ) (Set.mem_univ κB) none (O := O)
      (W := insert (SemLoc.dma semS.sem, none) (insert (SemLoc.dma (semA j).sem, none) W)) (R := 0) (m := 0) (T := ∅)
      (by rw [Nat.zero_add, kRd_expectF fix qI (cellKind_B d (cV L) (sV L) j) (show 0 < nRounds (.B j) from Nat.one_pos),
        kRd_amount_BF fix qI (cellKind_B d (cV L) (sV L) j)]; try rfl)) $$ [HcredB HO HatB]
  · isplitr; · iexact HinvB
    isplitl [HcredB]; · iexact HcredB
    isplitl [HO]; · iexact HO
    isplitr; · iapply ((K (F := F)).mayWait_none (SemLoc.dma (semB j).sem) hO); iexact Hlv
    iexact HatB
  iintro ⟨HO, HatB, -, Hpay⟩
  ihave Hp := ((kRd_backF fix qI (cellKind_B d (cV L) (sV L) j) (show 0 < nRounds (.B j) from Nat.one_pos)).trans
    (Entails.of_eq (payload_B_atF (UU := UU) fix qI d L j))) $$ Hpay
  icases Hp with ⟨⟨%fr', Hr⟩, ⟨%f2'', Hs2⟩⟩
  imod (Rounds.cell_close EK (Rd) (Set.mem_univ κB) (fun h => h) (R := 0 + 1) (kRd_laterF fix qI (cellKind_B d (cV L) (sV L) j))) $$ [HatB] with HsemB
  · isplitr; · iexact HinvB
    iexact HatB
  iapply Hk
  unfold rowPostF
  iexists (insert (SemLoc.dma (semB j).sem, none) (insert (SemLoc.dma semS.sem, none) (insert (SemLoc.dma (semA j).sem, none) W)))
  isplitr
  · ipureintro; intro p hp
    rcases Finset.mem_insert.mp hp with rfl | hp
    · exact .inr rfl
    rcases Finset.mem_insert.mp hp with rfl | hp
    · exact .inr rfl
    rcases Finset.mem_insert.mp hp with rfl | hp
    · exact .inr rfl
    · exact .inl hp
  isplitl [HO]; · iexact HO
  isplitl [HatS]; · iexact HatS
  isplitr; · iexact HrS'
  isplitl [HsemA]; · iexact HsemA
  isplitl [HsemB]; · iexact HsemB
  isplitl [Hst]; · iexists _; iexact Hst
  isplitl [Hr]; · iexists fr'; iexact Hr
  isplitl [Hix]; · iexact Hix
  isplitl [Hs0]; · iexists _; iexact Hs0
  isplitl [Hs1]; · iexists _; iexact Hs1
  iexists _; iexact Hs2

def kitRowF (j : Fin 8) : sProp 𝕄 :=
  iprop(dutyTok EK (cellS d (cV L) (sV L)) j.val () ∗ kit1F EK fix qI (cellA d (cV L) (sV L) j) ∗ kit1F EK fix qI (cellB d (cV L) (sV L) j))

def goRowF (j : Fin 8) : sProp 𝕄 :=
  iprop((∃ f, stLoc d ↦[(stRowK L j).view.set]{fullShare} f) ∗ ∃ f, rLoc d ↦[(rRowK L j).view.set]{fullShare} f)
def tdRowF (j : Fin 8) : sProp 𝕄 :=
  iprop((∃ f, stLoc d ↦[(stRowK L j).view.set]{fullShare} f) ∗ ∃ f, rLoc d ↦[(rRowK L j).view.set]{fullShare} f)

def preRowF (j : Fin 8) : sProp 𝕄 :=
  iprop(kitRowF EK fix qI d L j ∗ (semVal (cellA d (cV L) (sV L) j) 0 ∗ semVal (cellB d (cV L) (sV L) j) 0) ∗ goRowF (F := F) (UU := UU) d L j)

def doneRowF (j : Fin 8) : sProp 𝕄 :=
  iprop((semVal (cellA d (cV L) (sV L) j) 0 ∗ semVal (cellB d (cV L) (sV L) j) 0) ∗ tdRowF (F := F) (UU := UU) d L j)

def rowsInvF (a : ℕ) (O : CellTallies nD τ sig (HIx 2)) (W : Waits sig (HIx 2)) : sProp 𝕄 :=
  iprop(∃ W', ⌜∀ p ∈ W', p ∈ W ∨ p.2 = none⌝ ∗ owes 𝕋 O W'
    ∗ atPos EK (cellS d (cV L) (sV L)) a ∅ 0 ∗ reached EK (cellS d (cV L) (sV L)) a
    ∗ bigSep (Finset.univ.filter fun j : Fin 8 => a ≤ j.val) (preRowF EK fix qI d L)
    ∗ bigSep (Finset.univ.filter fun j : Fin 8 => j.val < a) (doneRowF (F := F) (UU := UU) d L)
    ∗ (ixLoc d ↦{qI d (cV L) (sV L)} fix d)
    ∗ (∃ f, (𝕋).loc cc2_scratch0 ↦{fullShare} f) ∗ (∃ f, (𝕋).loc cc2_scratch1 ↦{fullShare} f) ∗ (∃ f, (𝕋).loc cc2_scratch2 ↦{fullShare} f))

omit [FloatOps F] in
theorem rowsInv_eqF (a : ℕ) (O : CellTallies nD τ sig (HIx 2)) (W : Waits sig (HIx 2)) :
    rowsInvF EK fix qI d L a O W
      = iprop(∃ W', ⌜∀ p ∈ W', p ∈ W ∨ p.2 = none⌝ ∗ owes 𝕋 O W'
        ∗ atPos EK (cellS d (cV L) (sV L)) a ∅ 0 ∗ reached EK (cellS d (cV L) (sV L)) a
        ∗ bigSep (Finset.univ.filter fun j : Fin 8 => a ≤ j.val) (preRowF EK fix qI d L)
        ∗ bigSep (Finset.univ.filter fun j : Fin 8 => j.val < a) (doneRowF (F := F) (UU := UU) d L)
        ∗ (ixLoc d ↦{qI d (cV L) (sV L)} fix d)
        ∗ (∃ f, (𝕋).loc cc2_scratch0 ↦{fullShare} f) ∗ (∃ f, (𝕋).loc cc2_scratch1 ↦{fullShare} f) ∗ (∃ f, (𝕋).loc cc2_scratch2 ↦{fullShare} f)) := rfl

theorem rows_wpF (hpre : PreOK fix) (κS : ℕ) (O : CellTallies nD τ sig (HIx 2)) (W : Waits sig (HIx 2)) (hO : ∀ g, O g none = 0)
    {α : Type} (k : Prog (TpuEff nD τ sig (Elt F) Λ₀ (.scVector (cV L) (sV L))) α) (Q : α → sProp 𝕄) :
    ∀ (n a : ℕ), a + n = 8 →
      iprop(levAts (K (F := F)).L (K (F := F)).lev ∗ cellInv EK (Rd) κS (cellS d (cV L) (sV L)) ∗ rowsInvF EK fix qI d L a O W
          ∗ (rowsInvF EK fix qI d L 8 O W -∗ wp frame (wpE (defs₀ (F := F)) 𝒱₀ 𝕋 none) Set.univ k Q))
        ⊢ wp frame (wpE (defs₀ (F := F)) 𝒱₀ 𝕋 none) Set.univ (rowsK L ((List.finRange 8).drop a) k) Q := by
  intro n
  induction n with
  | zero =>
    intro a ha
    obtain rfl : a = 8 := by omega
    rw [List.drop_of_length_le (by simp)]
    show _ ⊢ wp frame (wpE (defs₀ (F := F)) 𝒱₀ 𝕋 none) Set.univ k Q
    iintro ⟨-, -, HI, Hk⟩
    iapply Hk; iexact HI
  | succ n ih =>
    intro a ha
    have hlt : a < 8 := by omega
    rw [List.drop_eq_getElem_cons (by simpa using hlt), List.getElem_finRange, Fin.cast_mk]
    show _ ⊢ wp frame (wpE (defs₀ (F := F)) 𝒱₀ 𝕋 none) Set.univ (rowK L ⟨a, hlt⟩ (rowsK L ((List.finRange 8).drop (a + 1)) k)) Q
    rw [rowsInv_eqF EK fix qI d L a O W, ge_insert a hlt, SparseCore.bigSep_insert' (ge_notMem a hlt)]
    iintro ⟨#Hlv, #HinvS, ⟨%W1, %hW1, HO, HatS, #HrS, ⟨Hrow, Hge⟩, Hlt, Hix, Hs0, Hs1, Hs2⟩, Hk⟩
    unfold preRowF kitRowF goRowF
    icases Hrow with ⟨⟨HtokS, HkA, HkB⟩, ⟨HsemA, HsemB⟩, ⟨Hst, Hr⟩⟩
    iapply (row_wpF EK fix qI d L hpre κS ⟨a, hlt⟩ O W1 hO)
    isplitr; · iexact Hlv
    isplitr; · iexact HinvS
    isplitl [HO HatS HtokS HkA HkB HsemA HsemB Hst Hr Hix Hs0 Hs1 Hs2]
    · unfold rowPreF
      isplitl [HO]; · iexact HO
      isplitl [HatS]; · iexact HatS
      isplitr; · iexact HrS
      isplitl [HtokS]; · iexact HtokS
      isplitl [HkA]; · iexact HkA
      isplitl [HkB]; · iexact HkB
      isplitl [HsemA]; · iexact HsemA
      isplitl [HsemB]; · iexact HsemB
      isplitl [Hst]; · iexact Hst
      isplitl [Hr]; · iexact Hr
      isplitl [Hix]; · iexact Hix
      isplitl [Hs0]; · iexact Hs0
      isplitl [Hs1]; · iexact Hs1
      iexact Hs2
    unfold rowPostF
    iintro ⟨%W2, %hW2, HO, HatS, #HrS2, HsemA, HsemB, Hst, Hr, Hix, Hs0, Hs1, Hs2⟩
    iapply (ih (a + 1) (by omega))
    isplitr; · iexact Hlv
    isplitr; · iexact HinvS
    isplitr [Hk]
    · rw [rowsInv_eqF EK fix qI d L (a + 1) O W, lt_insert a hlt, SparseCore.bigSep_insert' (lt_notMem a hlt)]
      iexists W2; isplitr
      · ipureintro; intro p hp
        rcases hW2 p hp with h | h
        · exact hW1 p h
        · exact .inr h
      isplitl [HO]; · iexact HO
      isplitl [HatS]; · iexact HatS
      isplitr; · iexact HrS2
      isplitl [Hge]; · iexact Hge
      isplitl [HsemA HsemB Hst Hr Hlt]
      · isplitr [Hlt]
        · unfold doneRowF tdRowF
          isplitl [HsemA HsemB]
          · isplitl [HsemA]; · iexact HsemA
            iexact HsemB
          isplitl [Hst]; · iexact Hst
          iexact Hr
        · iexact Hlt
      isplitl [Hix]; · iexact Hix
      isplitl [Hs0]; · iexact Hs0
      isplitl [Hs1]; · iexact Hs1
      iexact Hs2
    · iexact Hk

theorem rows_wp0F (hpre : PreOK fix) (κS : ℕ) (O : CellTallies nD τ sig (HIx 2)) (W : Waits sig (HIx 2)) (hO : ∀ g, O g none = 0)
    {α : Type} (k : Prog (TpuEff nD τ sig (Elt F) Λ₀ (.scVector (cV L) (sV L))) α) (Q : α → sProp 𝕄) :
    iprop(levAts (K (F := F)).L (K (F := F)).lev ∗ cellInv EK (Rd) κS (cellS d (cV L) (sV L)) ∗ rowsInvF EK fix qI d L 0 O W
        ∗ (rowsInvF EK fix qI d L 8 O W -∗ wp frame (wpE (defs₀ (F := F)) 𝒱₀ 𝕋 none) Set.univ k Q))
      ⊢ wp frame (wpE (defs₀ (F := F)) 𝒱₀ 𝕋 none) Set.univ (rowsK L (List.finRange 8) k) Q := by
  have h := rows_wpF EK fix qI d L hpre κS O W hO k Q 8 0 rfl
  rwa [List.drop_zero] at h

def kitsF : sProp 𝕄 :=
  iprop(roundState EK (Rd) (cellS d (cV L) (sV L)) 0 ∗ atPos EK (cellS d (cV L) (sV L)) 0 ∅ 0 ∗ reached EK (cellS d (cV L) (sV L)) 0
    ∗ bigSep Finset.univ fun j : Fin 8 => kitRowF EK fix qI d L j)

def goResF : sProp 𝕄 :=
  iprop((bigSep Finset.univ fun j : Fin 8 => goRowF (F := F) (UU := UU) d L j) ∗ ixLoc d ↦{qI d (cV L) (sV L)} fix d)

def tdResF : sProp 𝕄 :=
  iprop((bigSep Finset.univ fun j : Fin 8 => tdRowF (F := F) (UU := UU) d L j) ∗ ixLoc d ↦{qI d (cV L) (sV L)} fix d)

omit [FloatOps F] in
theorem preRows_eqF :
    bigSep (Finset.univ : Finset (Fin 8)) (fun j => preRowF EK fix qI d L j)
      = iprop((bigSep Finset.univ fun j : Fin 8 => kitRowF EK fix qI d L j)
          ∗ ((bigSep Finset.univ fun j : Fin 8 => semVal (cellA d (cV L) (sV L) j) 0) ∗ bigSep Finset.univ fun j : Fin 8 => semVal (cellB d (cV L) (sV L) j) 0)
          ∗ bigSep Finset.univ fun j : Fin 8 => goRowF (F := F) (UU := UU) d L j) := by
  unfold preRowF
  rw [bigSep_sep', bigSep_sep', bigSep_sep']
omit [FloatOps F] in
theorem doneRows_eqF :
    bigSep (Finset.univ : Finset (Fin 8)) (fun j => doneRowF (F := F) (UU := UU) d L j)
      = iprop(((bigSep Finset.univ fun j : Fin 8 => semVal (cellA d (cV L) (sV L) j) 0) ∗ bigSep Finset.univ fun j : Fin 8 => semVal (cellB d (cV L) (sV L) j) 0)
          ∗ bigSep Finset.univ fun j : Fin 8 => tdRowF (F := F) (UU := UU) d L j) := by
  unfold doneRowF
  rw [bigSep_sep', bigSep_sep']

-- The same eight rows with the similarity and result rows at contents left unnamed: enough for the frame.
theorem tile_bodyF (hF : (K (F := F)).Facts) (hpre : PreOK fix) (O : CellTallies nD τ sig (HIx 2)) (W : Waits sig (HIx 2)) (hO : ∀ g, O g none = 0) :
    iprop(levAts (K (F := F)).L (K (F := F)).lev ∗ kitsF EK fix qI d L ∗ goResF (UU := UU) fix qI d L
        ∗ scopedBufs 𝕋 ∗ scopedSems0 𝕋 ∗ owes 𝕋 O W)
      ⊢ wp frame (wpE (defs₀ (F := F)) 𝒱₀ 𝕋 none) Set.univ
          (cc2__stage_c_body (F := F) L stV (Memref.isWhole_whole _) ixV (Memref.isWhole_whole _) rV (Memref.isWhole_whole _)
            s0 (Memref.isWhole_whole _) s1 (Memref.isWhole_whole _) s2 (Memref.isWhole_whole _) cc2_scratch3
            cc2_scoped0 cc2_scoped1 cc2_scoped2 cc2_scoped3 cc2_scoped4 cc2_scoped5 cc2_scoped6 cc2_scoped7
            cc2_scoped8 cc2_scoped9 cc2_scoped10 cc2_scoped11 cc2_scoped12 cc2_scoped13 cc2_scoped14 cc2_scoped15)
          fun _ => iprop(tdResF (UU := UU) fix qI d L ∗ scopedBufs 𝕋 ∗ scopedSems0 𝕋
            ∗ ∃ W', ⌜∀ p ∈ W', p ∈ W ∨ p.2 = none⌝ ∗ owes 𝕋 O W') := by
  rw [body_eq, rows_eq]
  rw [(K (F := F)).scopedBufs_V hF d (cV L) (sV L), SparseCore.Cfg.scopedSems0_V (Val := Elt F) d (cV L) (sV L), ownSems0_V, ownBufs_V]
  unfold kitsF goResF tdResF
  iintro ⟨#Hlv, ⟨HstS, HatS, #HrS, Hkrows⟩, ⟨Hgo, Hix⟩, ⟨Hs0, Hs1, Hs2, Hbufs⟩, ⟨⟨HsemS, HsA, HsB⟩, Hsems⟩, HO⟩
  imod ((Rounds.body_intro EK (Rd) (cellS d (cV L) (sV L))).trans inv_alloc) $$ [HsemS HstS] with ⟨%κS, #HinvS⟩
  · isplitl [HsemS] <;> iassumption
  iapply (rows_wp0F EK fix qI d L hpre κS O W hO (.ret ⟨⟩))
  isplitr; · iexact Hlv
  isplitr; · iexact HinvS
  isplitl [Hkrows Hgo Hix Hs0 Hs1 Hs2 HsA HsB HO HatS]
  · rw [rowsInv_eqF EK fix qI d L 0 O W, filter_ge0, filter_lt0, bigSep_empty,
      show bigSep (Finset.univ : Finset (Fin 8)) (preRowF EK fix qI d L) = bigSep Finset.univ (fun j => preRowF EK fix qI d L j) from rfl, preRows_eqF]
    iexists W; isplitr
    · ipureintro; exact fun p hp => .inl hp
    isplitl [HO]; · iexact HO
    isplitl [HatS]; · iexact HatS
    isplitr; · iexact HrS
    isplitl [Hkrows HsA HsB Hgo]
    · isplitl [Hkrows]; · iexact Hkrows
      isplitl [HsA HsB]
      · isplitl [HsA]; · iexact HsA
        iexact HsB
      iexact Hgo
    isplitr; · iempintro
    isplitl [Hix]; · iexact Hix
    isplitl [Hs0]; · iexact Hs0
    isplitl [Hs1]; · iexact Hs1
    iexact Hs2
  rw [rowsInv_eqF EK fix qI d L 8 O W, filter_ge8, filter_lt8, bigSep_empty,
    show bigSep (Finset.univ : Finset (Fin 8)) (doneRowF (F := F) (UU := UU) d L) = bigSep Finset.univ (fun j => doneRowF (F := F) (UU := UU) d L j) from rfl, doneRows_eqF]
  iintro ⟨%W', %hW', HO, HatS, -, -, ⟨⟨HsA, HsB⟩, Htd⟩, Hix, Hs0, Hs1, Hs2⟩
  imod (Rounds.cell_close EK (Rd) (Set.mem_univ κS) (fun h => h) (R := 8) (kRd_laterF fix qI (cellKind_S d (cV L) (sV L)))) $$ [HatS] with HsemS
  · isplitr; · iexact HinvS
    iexact HatS
  rw [wp_ret]; imodintro
  isplitl [Htd Hix]
  · isplitl [Htd]; · iexact Htd
    iexact Hix
  isplitl [Hs0 Hs1 Hs2 Hbufs]
  · isplitl [Hs0]; · iexact Hs0
    isplitl [Hs1]; · iexact Hs1
    isplitl [Hs2]; · iexact Hs2
    iexact Hbufs
  isplitl [HsemS HsA HsB Hsems]
  · isplitl [HsemS HsA HsB]
    · isplitl [HsemS]; · iexact HsemS
      isplitl [HsA]; · iexact HsA
      iexact HsB
    iexact Hsems
  iexists W'; isplitr
  · ipureintro; exact hW'
  iexact HO

end Row

end Cert.Proof.FFK

end
-- ==== Proof.Call1FK.lean ====
import proofs.«204933_g4492535792355_cont_8to1_c_766_42_alg».proof.Proof.TileCFK
import proofs.«204933_g4492535792355_cont_8to1_c_766_42_alg».proof.Proof.Call1K

noncomputable section

namespace Cert.Proof.FF1K

open Cert.Kernel Cert.Kernel.Gen Cert.Proof.FK Cert.Proof.FFK Cert.Proof.F1K

open Idealize.ShloMosaic
open Idealize.ShloMosaic.SparseCore (V)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable {UU : Type} [URA UU]

local notation "𝕄" => MT nD τ sig (HIx 2) (Elt F) ℕ UU ℕ

variable (EK : Emb UK (MT nD τ sig (HIx 2) (Elt F) ℕ UU ℕ)) [EK.LandsIn (upEmb : UEmb _ (MT nD τ sig (HIx 2) (Elt F) ℕ UU ℕ))]
variable (fix : (d : Dev nD) → Buf (Elt F) (ixLoc d))
variable (qI : Dev nD → Fin τ.nSC → Fin τ.nSub → PosShare TreeShare)

theorem tileObl1F (P : (K (F := F)).Pay (nD := nD) (Val := Elt F) (Name := ℕ) (U := UU))
    (hgo : ∀ d c i, P.go 1 d c i = goResF (UU := UU) fix qI d (Lof ((K (F := F)).core 1 c) ((K (F := F)).sub 1 i)))
    (htd : ∀ d c i, P.td 1 d c i = tdResF (UU := UU) fix qI d (Lof ((K (F := F)).core 1 c) ((K (F := F)).sub 1 i)))
    (hx : ∀ d c i, P.x 1 (V d c i) = kitsF EK fix qI d (Lof c i))
    (hox : P.ox = fun _ _ => 0) (hF : (K (F := F)).Facts) (hpre : PreOK fix) :
    (K (F := F)).TileObl (D (F := F)) 𝒱 P v₀ 1 := by
  intro d c i O W hO _ _
  simp only [hox, add_zero]
  rw [hgo, htd, hx]
  change _ ⊢ wp _ _ _ (Pipeline.liftProg (defs₀ (F := F) (.scVector ((K (F := F)).core 1 c) ((K (F := F)).sub 1 i)) 2 ())) _
  refine BI.Entails.trans ?_ (Pipeline.wp_liftProg (D (F := F)) (Pipeline.defs_kernel pcfgs defs₀) 𝒱₀ _ Set.univ none _ _)
  have hc : ((K (F := F)).core 1 c).val < grid2.bound 0 ∧ ((K (F := F)).sub 1 i).val < grid2.bound 1 := ⟨c.isLt, i.isLt⟩
  rw [defs₀_vector]; simp only [SparseCore.onTile, hc, and_self, ↓reduceDIte]
  exact (tile_bodyF EK fix qI d (Lof ((K (F := F)).core 1 c) ((K (F := F)).sub 1 i)) hF hpre O W hO).trans (wp_mono frame _ _ fun _ => obl_post)

theorem vecSplit1F (P : (K (F := F)).Pay (nD := nD) (Val := Elt F) (Name := ℕ) (U := UU))
    (hst : ∀ d c, P.st 1 d c = bigSep Finset.univ fun i : Fin ((K (F := F)).nSub 1) => goResF (UU := UU) fix qI d (Lof ((K (F := F)).core 1 c) ((K (F := F)).sub 1 i)))
    (hdn : ∀ d c, P.dn 1 d c = bigSep Finset.univ fun i : Fin ((K (F := F)).nSub 1) => tdResF (UU := UU) fix qI d (Lof ((K (F := F)).core 1 c) ((K (F := F)).sub 1 i)))
    (hgo : ∀ d c i, P.go 1 d c i = goResF (UU := UU) fix qI d (Lof ((K (F := F)).core 1 c) ((K (F := F)).sub 1 i)))
    (htd : ∀ d c i, P.td 1 d c i = tdResF (UU := UU) fix qI d (Lof ((K (F := F)).core 1 c) ((K (F := F)).sub 1 i))) :
    (K (F := F)).VecSplit' P 1 := by
  intro d c
  show P.st 1 d c ⊢ |={Set.univ}=> iprop((bigSep Finset.univ fun i : Fin ((K (F := F)).nSub 1) => P.go 1 d c i)
      ∗ ((bigSep Finset.univ fun i : Fin ((K (F := F)).nSub 1) => P.td 1 d c i) -∗ P.dn 1 d c))
  simp only [hst, hdn, hgo, htd]
  iintro H; imodintro
  isplitl [H]; · iexact H
  iintro H; iexact H

abbrev kCells1F : Finset (GSem nD τ sig) := Cert.Proof.F1K.kCells1
abbrev kToks1F : Finset (GSem nD τ sig × ℕ × Unit) := Cert.Proof.F1K.kToks1

omit [FloatOps F] in

theorem kits_of_partsF (d : Dev nD) (c : Fin τ.nSC) (s : Fin τ.nSub) :
    iprop((roundState EK (kRdF (UU := UU) fix qI) (cellS d c s) 0
          ∗ (bigSep Finset.univ fun j : Fin 8 => roundState EK (kRdF (UU := UU) fix qI) (cellA d c s j) 0)
          ∗ bigSep Finset.univ fun j : Fin 8 => roundState EK (kRdF (UU := UU) fix qI) (cellB d c s j) 0)
        ∗ (reached EK (cellS d c s) 0 ∗ (bigSep Finset.univ fun j : Fin 8 => reached EK (cellA d c s j) 0)
          ∗ bigSep Finset.univ fun j : Fin 8 => reached EK (cellB d c s j) 0)
        ∗ (atPos EK (cellS d c s) 0 ∅ 0 ∗ (bigSep Finset.univ fun j : Fin 8 => atPos EK (cellA d c s j) 0 ∅ 0)
          ∗ bigSep Finset.univ fun j : Fin 8 => atPos EK (cellB d c s j) 0 ∅ 0)
        ∗ (((bigSep Finset.univ fun j : Fin 8 => dutyTok EK (cellS d c s) j.val ()) ∗ bigSep Finset.univ fun j : Fin 8 => dutyTok EK (cellA d c s j) 0 ())
          ∗ bigSep Finset.univ fun j : Fin 8 => dutyTok EK (cellB d c s j) 0 ()))
      ⊢ kitsF EK fix qI d (Lof c s) := by
  unfold kitsF
  simp only [cV_Lof, sV_Lof]
  rw [show (fun j : Fin 8 => kitRowF EK fix qI d (Lof c s) j)
      = fun j : Fin 8 => iprop(dutyTok EK (cellS d c s) j.val ()
          ∗ (roundState EK (kRdF (UU := UU) fix qI) (cellA d c s j) 0 ∗ atPos EK (cellA d c s j) 0 ∅ 0 ∗ reached EK (cellA d c s j) 0 ∗ dutyTok EK (cellA d c s j) 0 ())
          ∗ (roundState EK (kRdF (UU := UU) fix qI) (cellB d c s j) 0 ∗ atPos EK (cellB d c s j) 0 ∅ 0 ∗ reached EK (cellB d c s j) 0 ∗ dutyTok EK (cellB d c s j) 0 ())) from rfl]
  rw [bigSep_sep', bigSep_sep', bigSep_sep', bigSep_sep', bigSep_sep', bigSep_sep', bigSep_sep', bigSep_sep']
  iintro ⟨⟨HrsS, HrsA, HrsB⟩, ⟨HreS, HreA, HreB⟩, ⟨HatS, HatA, HatB⟩, ⟨⟨HtS, HtA⟩, HtB⟩⟩
  isplitl [HrsS]; · iexact HrsS
  isplitl [HatS]; · iexact HatS
  isplitl [HreS]; · iexact HreS
  isplitl [HtS]; · iexact HtS
  isplitl [HrsA HatA HreA HtA]
  · isplitl [HrsA]; · iexact HrsA
    isplitl [HatA]; · iexact HatA
    isplitl [HreA]; · iexact HreA
    iexact HtA
  isplitl [HrsB]; · iexact HrsB
  isplitl [HatB]; · iexact HatB
  isplitl [HreB]; · iexact HreB
  iexact HtB

theorem kits_intro1F :
    (BI.own (EK (initOf kCells1F kToks1F)) : sProp 𝕄)
      ⊢ iprop(|==> bigSep Finset.univ fun t : Dev nD × Fin τ.nSC × Fin τ.nSub => kitsF EK fix qI t.1 (Lof t.2.1 t.2.2)) := by
  refine (Rounds.fund EK (kRdF (UU := UU) fix qI) kCells1F kToks1F).trans (BI.bupd_mono ?_)
  rw [bigSep_kCells1 (fun g => roundState EK (kRdF (UU := UU) fix qI) g 0), bigSep_kCells1 (fun g => reached EK g 0),
    bigSep_kCells1 (fun g => atPos EK g 0 ∅ 0), bigSep_kToks1 (fun x => dutyTok EK x.1 x.2.1 x.2.2),
    ← bigSep_sep', ← bigSep_sep', ← bigSep_sep']
  exact bigSep_mono fun t _ => kits_of_partsF EK fix qI t.1 t.2.1 t.2.2

end Cert.Proof.FF1K

end
-- ==== Proof.KIPayFK.lean ====
import proofs.«204933_g4492535792355_cont_8to1_c_766_42_alg».proof.Proof.KIPayK
import proofs.«204933_g4492535792355_cont_8to1_c_766_42_alg».proof.Proof.Call1FK

noncomputable section

namespace Cert.Proof.KIFK

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Proof.KIK

variable {F : FTy → Type} [FloatOps F]

local notation "𝕄" => MT nD τ sig (HIx 2) (Elt F) ℕ (UU (F := F)) ℕ

section PayRecord

variable (fix : (d : Dev nD) → Buf (Elt F) (Cert.Proof.FK.ixLoc d))
variable (qI : Dev nD → Fin τ.nSC → Fin τ.nSub → PosShare TreeShare)
variable (st0 dn0 : Dev nD → Fin ((K (F := F)).nCore 0) → sProp (MT nD τ sig (HIx 2) (Elt F) ℕ (UU (F := F)) ℕ))
variable (go0 td0 : Dev nD → Fin ((K (F := F)).nCore 0) → Fin ((K (F := F)).nSub 0) → sProp (MT nD τ sig (HIx 2) (Elt F) ℕ (UU (F := F)) ℕ))
variable (X0 : Dev nD → Fin τ.nSC → Fin τ.nSub → sProp (MT nD τ sig (HIx 2) (Elt F) ℕ (UU (F := F)) ℕ))

def PF : (K (F := F)).Pay (nD := nD) (Val := Elt F) (Name := ℕ) (U := UU (F := F)) where
  st := fun q d c => match q with
    | 0 => st0 d c
    | 1 => bigSep Finset.univ fun i : Fin ((K (F := F)).nSub 1) =>
        Cert.Proof.FFK.goResF (UU := UU (F := F)) fix qI d (Cert.Proof.FK.Lof ((K (F := F)).core 1 c) ((K (F := F)).sub 1 i))
  dn := fun q d c => match q with
    | 0 => dn0 d c
    | 1 => bigSep Finset.univ fun i : Fin ((K (F := F)).nSub 1) =>
        Cert.Proof.FFK.tdResF (UU := UU (F := F)) fix qI d (Cert.Proof.FK.Lof ((K (F := F)).core 1 c) ((K (F := F)).sub 1 i))
  go := fun q d c i => match q with
    | 0 => go0 d c i
    | 1 => Cert.Proof.FFK.goResF (UU := UU (F := F)) fix qI d (Cert.Proof.FK.Lof ((K (F := F)).core 1 c) ((K (F := F)).sub 1 i))
  td := fun q d c i => match q with
    | 0 => td0 d c i
    | 1 => Cert.Proof.FFK.tdResF (UU := UU (F := F)) fix qI d (Cert.Proof.FK.Lof ((K (F := F)).core 1 c) ((K (F := F)).sub 1 i))
  x := fun q thr => match q, thr with
    | 0, (d, .scVector c i) => iprop(wmI (F := F) ∗ X0 d c i)
    | 1, (d, .scVector c i) => Cert.Proof.FFK.kitsF (EK1 (F := F)) fix qI d (Cert.Proof.FK.Lof c i)
    | _, _ => iprop(emp)

variable [hst0 : ∀ d c, BI.Storable (upEmb : UEmb _ (MT nD τ sig (HIx 2) (Elt F) ℕ (UU (F := F)) ℕ)) (st0 d c)]
variable [hdn0 : ∀ d c, BI.Storable (upEmb : UEmb _ (MT nD τ sig (HIx 2) (Elt F) ℕ (UU (F := F)) ℕ)) (dn0 d c)]
variable [hgo0 : ∀ d c i, BI.Storable (upEmb : UEmb _ (MT nD τ sig (HIx 2) (Elt F) ℕ (UU (F := F)) ℕ)) (go0 d c i)]
variable [htd0 : ∀ d c i, BI.Storable (upEmb : UEmb _ (MT nD τ sig (HIx 2) (Elt F) ℕ (UU (F := F)) ℕ)) (td0 d c i)]

instance goResF_storable (d : Dev nD) (L : grid2.Coords) :
    BI.Storable (upEmb : UEmb _ 𝕄) (Cert.Proof.FFK.goResF (UU := UU (F := F)) fix qI d L) := by
  unfold Cert.Proof.FFK.goResF Cert.Proof.FFK.goRowF; infer_instance
instance tdResF_storable (d : Dev nD) (L : grid2.Coords) :
    BI.Storable (upEmb : UEmb _ 𝕄) (Cert.Proof.FFK.tdResF (UU := UU (F := F)) fix qI d L) := by
  unfold Cert.Proof.FFK.tdResF Cert.Proof.FFK.tdRowF; infer_instance

instance PF_storable : (PF (F := F) fix qI st0 dn0 go0 td0 X0).IsStorable where
  st q d c := match q with
    | 0 => hst0 d c
    | 1 => (inferInstance : BI.Storable (upEmb : UEmb _ 𝕄) (bigSep Finset.univ fun i : Fin ((K (F := F)).nSub 1) =>
        Cert.Proof.FFK.goResF (UU := UU (F := F)) fix qI d (Cert.Proof.FK.Lof ((K (F := F)).core 1 c) ((K (F := F)).sub 1 i))))
  dn q d c := match q with
    | 0 => hdn0 d c
    | 1 => (inferInstance : BI.Storable (upEmb : UEmb _ 𝕄) (bigSep Finset.univ fun i : Fin ((K (F := F)).nSub 1) =>
        Cert.Proof.FFK.tdResF (UU := UU (F := F)) fix qI d (Cert.Proof.FK.Lof ((K (F := F)).core 1 c) ((K (F := F)).sub 1 i))))
  go q d c i := match q with
    | 0 => hgo0 d c i
    | 1 => (inferInstance : BI.Storable (upEmb : UEmb _ 𝕄)
        (Cert.Proof.FFK.goResF (UU := UU (F := F)) fix qI d (Cert.Proof.FK.Lof ((K (F := F)).core 1 c) ((K (F := F)).sub 1 i))))
  td q d c i := match q with
    | 0 => htd0 d c i
    | 1 => (inferInstance : BI.Storable (upEmb : UEmb _ 𝕄)
        (Cert.Proof.FFK.tdResF (UU := UU (F := F)) fix qI d (Cert.Proof.FK.Lof ((K (F := F)).core 1 c) ((K (F := F)).sub 1 i))))

end PayRecord

section Launch

variable (fix : (d : Dev nD) → Buf (Elt F) (Cert.Proof.FK.ixLoc d))
variable (qI : Dev nD → Fin τ.nSC → Fin τ.nSub → PosShare TreeShare)
variable (st0 dn0 : Dev nD → Fin ((K (F := F)).nCore 0) → sProp (MT nD τ sig (HIx 2) (Elt F) ℕ (UU (F := F)) ℕ))
variable (go0 td0 : Dev nD → Fin ((K (F := F)).nCore 0) → Fin ((K (F := F)).nSub 0) → sProp (MT nD τ sig (HIx 2) (Elt F) ℕ (UU (F := F)) ℕ))
variable (X0 : Dev nD → Fin τ.nSC → Fin τ.nSub → sProp (MT nD τ sig (HIx 2) (Elt F) ℕ (UU (F := F)) ℕ))
variable (kCells0 : Finset (GSem nD τ sig)) (kToks0 : Finset (GSem nD τ sig × ℕ × Unit))

def u₀F : UU (F := F) :=
  (initOf (K (F := F)).hsCells (K (F := F)).hsToks, (initOf kCells0 kToks0, (initOf Cert.Proof.FF1K.kCells1F Cert.Proof.FF1K.kToks1F,
    (initOf (Pipeline.cells (Pipeline.pin (pcfgs (F := F)) adm) pin_inj) (Pipeline.launchToks (Pipeline.pin (pcfgs (F := F)) adm) pin_inj),
      (wm₀ nD τ sig (Elt F), 1)))))

theorem PFx_T (d : Dev nD) :
    (bigSep Finset.univ fun q : Fin 2 => (PF (F := F) fix qI st0 dn0 go0 td0 X0).x q (T d)) = iprop(emp ∗ emp) := fin2 _
theorem PFx_S (d : Dev nD) (c : Fin τ.nSC) :
    (bigSep Finset.univ fun q : Fin 2 => (PF (F := F) fix qI st0 dn0 go0 td0 X0).x q (S d c)) = iprop(emp ∗ emp) := fin2 _
theorem PFx_V (d : Dev nD) (c : Fin τ.nSC) (i : Fin τ.nSub) :
    (bigSep Finset.univ fun q : Fin 2 => (PF (F := F) fix qI st0 dn0 go0 td0 X0).x q (V d c i))
      = iprop((wmI (F := F) ∗ X0 d c i) ∗ Cert.Proof.FFK.kitsF (EK1 (F := F)) fix qI d (Cert.Proof.FK.Lof c i)) := fin2 _

theorem hu₀F (mw : MemSt nD τ sig (Elt F))
    (hk0 : (BI.own (EK0 (F := F) (initOf kCells0 kToks0)) : sProp 𝕄)
      ⊢ iprop(|==> bigSep Finset.univ fun t : Dev nD × Fin τ.nSC × Fin τ.nSub => X0 t.1 t.2.1 t.2.2)) :
    iprop(ownU (u₀F (F := F) kCells0 kToks0) ∗ (PF (F := F) fix qI st0 dn0 go0 td0 X0).oxCred ∗ (K (F := F)).freeSems0)
      ⊢ |={Set.univ}=> iprop(BI.own (EH (F := F) (initOf (K (F := F)).hsCells (K (F := F)).hsToks))
        ∗ (bigSep Finset.univ fun d : Dev nD =>
            iprop((bigSep Finset.univ fun p : Fin 2 => iprop(Pipeline.cellsGhost (Pipeline.pin (pcfgs (F := F)) adm) (EP (F := F)) p d
              ∗ Pipeline.toksInit (Pipeline.pin (pcfgs (F := F)) adm) (EP (F := F)) p d)) ∗ wmI (F := F)))
        ∗ bigSep Finset.univ fun thr : Thread nD τ => bigSep Finset.univ fun q : Fin 2 => (PF (F := F) fix qI st0 dn0 go0 td0 X0).x q thr) := by
  unfold u₀F
  iintro ⟨Hu, -, -⟩
  ihave H := (ownU_split (F := F) _ _ _ _ _ _) $$ Hu
  icases H with ⟨HH, H0, H1, HP, Hw⟩
  imod (wmInv_alloc (Ix := HIx 2) (Lvl := ℕ) (emb := wmU (F := F)) mw (E := Set.univ)) $$ Hw with ⟨%ιwm, Hwm⟩
  ihave #Hwm' := (and_elim_r (P := iprop(⌜ιwm ∉ (∅ : Finset ℕ)⌝)) (Q := wmInv (Ix := HIx 2) (Lvl := ℕ) (wmU (F := F)) ιwm)) $$ Hwm
  ihave #HwmI : wmI (F := F) $$ []
  · unfold wmI; iexists ιwm; iexact Hwm'
  imod hk0 $$ H0 with HX0
  imod (Cert.Proof.FF1K.kits_intro1F (EK1 (F := F)) fix qI) $$ H1 with Hk1
  imod (Pipeline.fund_ghost (Pipeline.pin (pcfgs (F := F)) adm) (EP (F := F)) pin_inj) $$ HP with ⟨Hcg, Htk⟩
  imodintro
  isplitl [HH]; · iexact HH
  isplitl [Hcg Htk]
  · iapply (Transfers.bigSep_mono_pers Finset.univ (wmI (F := F))
      (fun d : Dev nD => iprop((bigSep Finset.univ fun p : Fin 2 => Pipeline.cellsGhost (Pipeline.pin (pcfgs (F := F)) adm) (EP (F := F)) p d)
        ∗ bigSep Finset.univ fun p : Fin 2 => Pipeline.toksInit (Pipeline.pin (pcfgs (F := F)) adm) (EP (F := F)) p d)) _ fun d _ => ?_)
    · rw [bigSep_sep']
      iintro ⟨#Hw, Hc, Ht⟩
      isplitl [Hc Ht]
      · isplitl [Hc]; · iexact Hc
        iexact Ht
      · iexact Hw
    · isplitr; · iexact HwmI
      rw [bigSep_sep']
      isplitl [Hcg]; · iexact Hcg
      iexact Htk
  rw [SparseCore.Cfg.bigSep_threads (fun thr : Thread nD τ => bigSep Finset.univ fun q : Fin 2 => (PF (F := F) fix qI st0 dn0 go0 td0 X0).x q thr)]
  simp only [PFx_T, PFx_S, PFx_V]
  isplitr; · iapply (emps (F := F) _); iempintro
  isplitr; · iapply (emps (F := F) _); iempintro
  iapply (Transfers.bigSep_mono_pers Finset.univ (wmI (F := F))
    (fun t : Dev nD × Fin τ.nSC × Fin τ.nSub => iprop(X0 t.1 t.2.1 t.2.2 ∗ Cert.Proof.FFK.kitsF (EK1 (F := F)) fix qI t.1 (Cert.Proof.FK.Lof t.2.1 t.2.2))) _ fun t _ => ?_)
  · iintro ⟨#Hw, Hx, Hk⟩
    isplitl [Hx]
    · isplitr; · iexact Hw
      iexact Hx
    · iexact Hk
  · isplitr; · iexact HwmI
    rw [bigSep_sep']
    isplitl [HX0]; · iexact HX0
    iexact Hk1

end Launch

end Cert.Proof.KIFK

end
-- ==== Proof.SplitCK.lean ====
import proofs.«204933_g4492535792355_cont_8to1_c_766_42_alg».proof.Proof.TileCK
import Idealize.ShloMosaic.Lib.Transfers
import Idealize.ShloMosaic.Lib.ValueIdx
import Idealize.ShloMosaic.Lib.StableHlo.Run
import Idealize.ShloMosaic.Lib.Pipeline.Frame

noncomputable section

namespace Cert.Proof.SCK

open Cert.Kernel Cert.Kernel.Gen Cert.Proof.FK
open Idealize.ShloMosaic
open Idealize.ShloMosaic.SparseCore (S)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]
variable {UU : Type} [URA UU]

local notation "𝕄" => MT nD τ sig (HIx 2) (Elt F) ℕ UU ℕ

def rowNo (L : grid2.Coords) (j : Fin 8) : ℕ := 16 * (L 1).val + 8 * (L 0).val + j.val

theorem row_iff {R N : ℕ} (r : ℕ) (i : (⟨2, ![R, N]⟩ : Shape).Idx) :
    (∀ a : Fin 2, (![r, 0] : Fin 2 → ℕ) a ≤ (i a).val ∧ (i a).val < (![r, 0] : Fin 2 → ℕ) a + (![1, N] : Fin 2 → ℕ) a) ↔ (i 0).val = r := by
  rw [Fin.forall_fin_two]
  have h1 : (i 1).val < N := (i 1).isLt
  show ((r ≤ (i 0).val ∧ (i 0).val < r + 1) ∧ (0 ≤ (i 1).val ∧ (i 1).val < 0 + N)) ↔ _
  omega

theorem mem_stRow (L : grid2.Coords) (j : Fin 8) (i : S256x100000.Idx) :
    i ∈ (stRowK L j).view.set ↔ (i 0).val = rowNo L j := by
  simp only [Memref.view_squeeze, Memref.view_slice, Memref.view_whole, View.set_reshape, View.set_slice_whole, Rect.mem_set_unit,
    k2_off1_eq]
  exact row_iff _ i

theorem mem_rRow (L : grid2.Coords) (j : Fin 8) (i : S256x4112.Idx) :
    i ∈ (rRowK L j).view.set ↔ (i 0).val = rowNo L j := by
  simp only [Memref.view_squeeze, Memref.view_slice, Memref.view_whole, View.set_reshape, View.set_slice_whole, Rect.mem_set_unit,
    k2_off5_eq]
  exact row_iff _ i

abbrev TJ : Type := Fin 2 × Fin 16 × Fin 8

def rowT (t : TJ) : ℕ := 16 * t.2.1.val + 8 * t.1.val + t.2.2.val

theorem rowT_inj : Function.Injective rowT := by
  rintro ⟨c, s, j⟩ ⟨c', s', j'⟩ h
  have := c.isLt; have := s.isLt; have := j.isLt; have := c'.isLt; have := s'.isLt; have := j'.isLt
  unfold rowT at h; simp only at h
  have hc : c.val = c'.val := by omega
  have hs : s.val = s'.val := by omega
  have hj : j.val = j'.val := by omega
  rw [Fin.ext hc, Fin.ext hs, Fin.ext hj]

theorem rowT_surj (r : ℕ) (hr : r < 256) : ∃ t : TJ, rowT t = r :=
  ⟨(⟨(r % 16) / 8, by omega⟩, ⟨r / 16, by omega⟩, ⟨r % 8, by omega⟩), by unfold rowT; simp only; omega⟩

section Tiles

variable (Lc : Fin 2 → Fin 16 → grid2.Coords) (hL0 : ∀ c s, (Lc c s 0).val = c.val) (hL1 : ∀ c s, (Lc c s 1).val = s.val)

include hL0 hL1 in
theorem rowNo_Lc (t : TJ) : rowNo (Lc t.1 t.2.1) t.2.2 = rowT t := by unfold rowNo rowT; rw [hL0, hL1]

def stK (t : TJ) : Finset S256x100000.Idx := (stRowK (Lc t.1 t.2.1) t.2.2).view.set
def rK (t : TJ) : Finset S256x4112.Idx := (rRowK (Lc t.1 t.2.1) t.2.2).view.set

include hL0 hL1 in
theorem st_disjoint : ∀ t ∈ (Finset.univ : Finset TJ), ∀ t' ∈ (Finset.univ : Finset TJ), t ≠ t' → Disjoint (stK Lc t) (stK Lc t') := by
  intro t _ t' _ h
  rw [Finset.disjoint_left]; intro i hi hi'
  have e := ((mem_stRow _ _ i).mp hi).symm.trans ((mem_stRow _ _ i).mp hi')
  rw [rowNo_Lc Lc hL0 hL1, rowNo_Lc Lc hL0 hL1] at e
  exact h (rowT_inj e)

include hL0 hL1 in
theorem st_cover : (Finset.univ : Finset TJ).biUnion (stK Lc) = Finset.univ := by
  ext i
  simp only [Finset.mem_biUnion, Finset.mem_univ, true_and, iff_true]
  obtain ⟨t, ht⟩ := rowT_surj (i 0).val (i 0).isLt
  exact ⟨t, (mem_stRow _ _ i).mpr (by rw [rowNo_Lc Lc hL0 hL1]; exact ht.symm)⟩

include hL0 hL1 in
theorem r_disjoint : ∀ t ∈ (Finset.univ : Finset TJ), ∀ t' ∈ (Finset.univ : Finset TJ), t ≠ t' → Disjoint (rK Lc t) (rK Lc t') := by
  intro t _ t' _ h
  rw [Finset.disjoint_left]; intro i hi hi'
  have e := ((mem_rRow _ _ i).mp hi).symm.trans ((mem_rRow _ _ i).mp hi')
  rw [rowNo_Lc Lc hL0 hL1, rowNo_Lc Lc hL0 hL1] at e
  exact h (rowT_inj e)

include hL0 hL1 in
theorem r_cover : (Finset.univ : Finset TJ).biUnion (rK Lc) = Finset.univ := by
  ext i
  simp only [Finset.mem_biUnion, Finset.mem_univ, true_and, iff_true]
  obtain ⟨t, ht⟩ := rowT_surj (i 0).val (i 0).isLt
  exact ⟨t, (mem_rRow _ _ i).mpr (by rw [rowNo_Lc Lc hL0 hL1]; exact ht.symm)⟩

end Tiles

def shareOf (q : PosShare TreeShare) (n i : ℕ) : PosShare TreeShare :=
  if i < n then Transfers.shareTokN q i else Transfers.shareDrop q n

theorem pointsTo_shares {ℓ : Loc nD τ sig} {S : Finset _} {f : Buf (Elt F) ℓ} (q : PosShare TreeShare) (n : ℕ) :
    (ℓ ↦[S]{q} f : sProp 𝕄) ⊣⊢ bigSep Finset.univ (fun i : Fin (n + 1) => ℓ ↦[S]{shareOf q n i.val} f) := by
  have e : bigSep Finset.univ (fun i : Fin (n + 1) => (ℓ ↦[S]{shareOf q n i.val} f : sProp 𝕄))
      = iprop((ℓ ↦[S]{Transfers.shareDrop q n} f) ∗ bigSep (Finset.range n) (fun i => ℓ ↦[S]{Transfers.shareTokN q i} f)) := by
    rw [show bigSep Finset.univ (fun i : Fin (n + 1) => (ℓ ↦[S]{shareOf q n i.val} f : sProp 𝕄))
        = bigSep (Finset.range (n + 1)) (fun i => ℓ ↦[S]{shareOf q n i} f) by
      rw [← Nat.Iio_eq_range, ← Fin.map_valEmbedding_univ, BI.bigSep_map]; rfl]
    rw [Finset.range_add_one, BI.bigSep_insert Finset.notMem_range_self,
      show shareOf q n n = Transfers.shareDrop q n from if_neg (lt_irrefl n),
      BI.bigSep_congr (Ψ := fun i => (ℓ ↦[S]{Transfers.shareTokN q i} f : sProp 𝕄)) fun i hi => by
        rw [show shareOf q n i = Transfers.shareTokN q i from if_pos (Finset.mem_range.mp hi)]]
    rfl
  rw [e]; exact Transfers.pointsTo_toks_range q n

def qI (d : Dev nD) (c : Fin τ.nSC) (s : Fin τ.nSub) : PosShare TreeShare := shareOf (shareOf fullShare 1 c.val) 15 s.val

theorem bigSep_TJ (Φ : TJ → sProp 𝕄) :
    bigSep Finset.univ Φ = bigSep Finset.univ fun c : Fin 2 => bigSep Finset.univ fun s : Fin 16 => bigSep Finset.univ fun j : Fin 8 => Φ (c, s, j) := by
  rw [bigSep_univ_prod]; exact bigSep_congr fun c _ => bigSep_univ_prod _

section Main

variable (Lc : Fin 2 → Fin 16 → grid2.Coords) (hL0 : ∀ c s, (Lc c s 0).val = c.val) (hL1 : ∀ c s, (Lc c s 1).val = s.val)
variable (fst : (d : Dev nD) → Buf (Elt F) (stLoc d)) (fix : (d : Dev nD) → Buf (Elt F) (ixLoc d)) (d : Dev nD)

include hL0 hL1 in
theorem qI_Lc (c : Fin 2) (s : Fin 16) : qI d (cV (Lc c s)) (sV (Lc c s)) = shareOf (shareOf fullShare 1 c.val) 15 s.val := by
  show shareOf (shareOf fullShare 1 (Lc c s 0).val) 15 (Lc c s 1).val = _
  rw [hL0, hL1]

include hL0 hL1 in

theorem ix_shares : (ixLoc d ↦{fullShare} fix d : sProp 𝕄)
    ⊣⊢ bigSep Finset.univ fun c : Fin 2 => bigSep Finset.univ fun s : Fin 16 => ixLoc d ↦{qI d (cV (Lc c s)) (sV (Lc c s))} fix d := by
  have h1 := pointsTo_shares (F := F) (UU := UU) (ℓ := ixLoc d) (S := Finset.univ) (f := fix d) fullShare 1
  have h2 : ∀ c : Fin 2, (ixLoc d ↦{shareOf fullShare 1 c.val} fix d : sProp 𝕄)
      ⊣⊢ bigSep Finset.univ fun s : Fin 16 => ixLoc d ↦{qI d (cV (Lc c s)) (sV (Lc c s))} fix d := fun c => by
    have h := pointsTo_shares (F := F) (UU := UU) (ℓ := ixLoc d) (S := Finset.univ) (f := fix d) (shareOf fullShare 1 c.val) 15
    rw [show (bigSep Finset.univ fun s : Fin 16 => (ixLoc d ↦{qI d (cV (Lc c s)) (sV (Lc c s))} fix d : sProp 𝕄))
      = bigSep Finset.univ fun s : Fin 16 => ixLoc d ↦{shareOf (shareOf fullShare 1 c.val) 15 s.val} fix d from
      bigSep_congr fun s _ => by rw [qI_Lc Lc hL0 hL1 d c s]]
    exact h
  exact ⟨h1.1.trans (bigSep_mono fun c _ => (h2 c).1), (bigSep_mono fun c _ => (h2 c).2).trans h1.2⟩

include hL0 hL1 in

theorem r_rows (f : Buf (Elt F) (rLoc d)) : (rLoc d ↦{fullShare} f : sProp 𝕄)
    = bigSep Finset.univ fun c : Fin 2 => bigSep Finset.univ fun s : Fin 16 => bigSep Finset.univ fun j : Fin 8 =>
        rLoc d ↦[(rRowK (Lc c s) j).view.set]{fullShare} f :=
  (show (rLoc d ↦{fullShare} f : sProp 𝕄) = bigSep Finset.univ (fun t : TJ => rLoc d ↦[rK Lc t]{fullShare} f) by
    rw [← pointsTo_biUnion Finset.univ (ℓ := rLoc d) (rK Lc) (r_disjoint Lc hL0 hL1), r_cover Lc hL0 hL1]).trans (bigSep_TJ _)

end Main

section Held

variable (Lc : Fin 2 → Fin 16 → grid2.Coords) (hL0 : ∀ c s, (Lc c s 0).val = c.val) (hL1 : ∀ c s, (Lc c s 1).val = s.val)

def T3 : Finset (DevRef τ sig) := {Proc.devRef .tc main_v2_0, Proc.devRef .tc main_v3, Proc.devRef .tc main_v4}

theorem ne_20_3 : (Proc.devRef .tc main_v2_0 : DevRef τ sig) ≠ Proc.devRef .tc main_v3 := fun e => absurd (Proc.devRef_injective _ e) (by decide)
theorem ne_20_4 : (Proc.devRef .tc main_v2_0 : DevRef τ sig) ≠ Proc.devRef .tc main_v4 := fun e => absurd (Proc.devRef_injective _ e) (by decide)
theorem ne_3_4 : (Proc.devRef .tc main_v3 : DevRef τ sig) ≠ Proc.devRef .tc main_v4 := fun e => absurd (Proc.devRef_injective _ e) (by decide)

theorem T3_sub : (T3 : Finset (DevRef τ sig)) ⊆ Pipeline.ucRefs τ sig := by
  intro b hb
  simp only [T3, Finset.mem_insert, Finset.mem_singleton] at hb
  rcases hb with rfl | rfl | rfl <;>
    exact Finset.mem_filter.mpr ⟨StableHlo.devRef_mem_tcRefs _, by decide⟩

theorem held_T3 (d : Dev nD) (Vv : Valuation τ sig (Elt F)) :
    (StableHlo.held (d.tc : Thread nD τ) T3 Vv : sProp 𝕄)
      = iprop((stLoc d ↦{fullShare} Vv (Proc.devRef .tc main_v2_0)) ∗ (ixLoc d ↦{fullShare} Vv (Proc.devRef .tc main_v3))
          ∗ (rLoc d ↦{fullShare} Vv (Proc.devRef .tc main_v4))) := by
  unfold StableHlo.held T3
  rw [bigSep_insert (by simp only [Finset.mem_insert, Finset.mem_singleton]; exact fun h => h.elim ne_20_3 ne_20_4),
    bigSep_insert (by simp only [Finset.mem_singleton]; exact ne_3_4), bigSep_singleton]
  rfl

end Held

end Cert.Proof.SCK

end
-- ==== Proof.SplitCFK.lean ====
import proofs.«204933_g4492535792355_cont_8to1_c_766_42_alg».proof.Proof.TileCFK
import proofs.«204933_g4492535792355_cont_8to1_c_766_42_alg».proof.Proof.SplitCK

noncomputable section

namespace Cert.Proof.SCFK

open Cert.Kernel Cert.Kernel.Gen Cert.Proof.FK Cert.Proof.FFK Cert.Proof.SCK
open Idealize.ShloMosaic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]
variable {UU : Type} [URA UU]

local notation "𝕄" => MT nD τ sig (HIx 2) (Elt F) ℕ UU ℕ

section Frame

variable (Lc : Fin 2 → Fin 16 → grid2.Coords) (hL0 : ∀ c s, (Lc c s 0).val = c.val) (hL1 : ∀ c s, (Lc c s 1).val = s.val)
variable (fix : (d : Dev nD) → Buf (Elt F) (ixLoc d)) (d : Dev nD)

include hL0 hL1 in

theorem st_rows_any (f : Buf (Elt F) (stLoc d)) : (stLoc d ↦{fullShare} f : sProp 𝕄)
    = bigSep Finset.univ fun c : Fin 2 => bigSep Finset.univ fun s : Fin 16 => bigSep Finset.univ fun j : Fin 8 =>
        stLoc d ↦[(stRowK (Lc c s) j).view.set]{fullShare} f :=
  (show (stLoc d ↦{fullShare} f : sProp 𝕄) = bigSep Finset.univ (fun t : TJ => stLoc d ↦[stK Lc t]{fullShare} f) by
    rw [← pointsTo_biUnion Finset.univ (ℓ := stLoc d) (stK Lc) (st_disjoint Lc hL0 hL1), st_cover Lc hL0 hL1]).trans (bigSep_TJ _)

include hL0 hL1 in

theorem st_join_ex :
    (bigSep Finset.univ fun c : Fin 2 => bigSep Finset.univ fun s : Fin 16 => bigSep Finset.univ fun j : Fin 8 =>
        iprop(∃ f, stLoc d ↦[(stRowK (Lc c s) j).view.set]{fullShare} f) : sProp 𝕄)
      ⊢ iprop(∃ f : Buf (Elt F) (stLoc d), stLoc d ↦{fullShare} f) := by
  refine (Entails.of_eq (bigSep_TJ (UU := UU) (F := F) (fun t : TJ =>
    iprop(∃ f, stLoc d ↦[stK Lc t]{fullShare} f))).symm).trans ?_
  refine (bigSep_exists_pi Finset.univ (fun (t : TJ) (f : Buf (Elt F) (stLoc d)) =>
    (stLoc d ↦[stK Lc t]{fullShare} f : sProp 𝕄))).trans ?_
  iintro ⟨%fs, H2⟩
  ihave H4 := (pointsTo_biUnion_join Finset.univ (stK Lc) fs (fs (0, 0, 0)) (st_disjoint Lc hL0 hL1)) $$ H2
  icases H4 with ⟨%g, -, H4⟩
  rw [st_cover Lc hL0 hL1]
  iexists g; iexact H4

include hL0 hL1 in

theorem r_join_ex :
    (bigSep Finset.univ fun c : Fin 2 => bigSep Finset.univ fun s : Fin 16 => bigSep Finset.univ fun j : Fin 8 =>
        iprop(∃ f, rLoc d ↦[(rRowK (Lc c s) j).view.set]{fullShare} f) : sProp 𝕄)
      ⊢ iprop(∃ f : Buf (Elt F) (rLoc d), rLoc d ↦{fullShare} f) := by
  refine (Entails.of_eq (bigSep_TJ (UU := UU) (F := F) (fun t : TJ =>
    iprop(∃ f, rLoc d ↦[rK Lc t]{fullShare} f))).symm).trans ?_
  refine (bigSep_exists_pi Finset.univ (fun (t : TJ) (f : Buf (Elt F) (rLoc d)) =>
    (rLoc d ↦[rK Lc t]{fullShare} f : sProp 𝕄))).trans ?_
  iintro ⟨%fs, H2⟩
  ihave H4 := (pointsTo_biUnion_join Finset.univ (rK Lc) fs (fs (0, 0, 0)) (r_disjoint Lc hL0 hL1)) $$ H2
  icases H4 with ⟨%g, -, H4⟩
  rw [r_cover Lc hL0 hL1]
  iexists g; iexact H4

include hL0 hL1 in

theorem st_split_ex : iprop(∃ f : Buf (Elt F) (stLoc d), stLoc d ↦{fullShare} f)
    ⊢ (bigSep Finset.univ fun c : Fin 2 => bigSep Finset.univ fun s : Fin 16 => bigSep Finset.univ fun j : Fin 8 =>
        iprop(∃ f, stLoc d ↦[(stRowK (Lc c s) j).view.set]{fullShare} f) : sProp 𝕄) := by
  iintro ⟨%f, H⟩
  ihave H' := (Entails.of_eq (st_rows_any (UU := UU) Lc hL0 hL1 d f)) $$ H
  have hmono : (bigSep Finset.univ fun c : Fin 2 => bigSep Finset.univ fun s : Fin 16 => bigSep Finset.univ fun j : Fin 8 =>
        (stLoc d ↦[(stRowK (Lc c s) j).view.set]{fullShare} f : sProp 𝕄))
      ⊢ bigSep Finset.univ fun c : Fin 2 => bigSep Finset.univ fun s : Fin 16 => bigSep Finset.univ fun j : Fin 8 =>
        iprop(∃ f, stLoc d ↦[(stRowK (Lc c s) j).view.set]{fullShare} f) :=
    bigSep_mono fun c _ => bigSep_mono fun s _ => bigSep_mono fun j _ =>
      (show (stLoc d ↦[(stRowK (Lc c s) j).view.set]{fullShare} f : sProp 𝕄)
        ⊢ iprop(∃ f, stLoc d ↦[(stRowK (Lc c s) j).view.set]{fullShare} f) from by iintro H; iexists f; iexact H)
  iapply hmono; iexact H'

include hL0 hL1 in
theorem r_split_ex : iprop(∃ f : Buf (Elt F) (rLoc d), rLoc d ↦{fullShare} f)
    ⊢ (bigSep Finset.univ fun c : Fin 2 => bigSep Finset.univ fun s : Fin 16 => bigSep Finset.univ fun j : Fin 8 =>
        iprop(∃ f, rLoc d ↦[(rRowK (Lc c s) j).view.set]{fullShare} f) : sProp 𝕄) := by
  iintro ⟨%f, H⟩
  ihave H' := (Entails.of_eq (r_rows (UU := UU) Lc hL0 hL1 d f)) $$ H
  have hmono : (bigSep Finset.univ fun c : Fin 2 => bigSep Finset.univ fun s : Fin 16 => bigSep Finset.univ fun j : Fin 8 =>
        (rLoc d ↦[(rRowK (Lc c s) j).view.set]{fullShare} f : sProp 𝕄))
      ⊢ bigSep Finset.univ fun c : Fin 2 => bigSep Finset.univ fun s : Fin 16 => bigSep Finset.univ fun j : Fin 8 =>
        iprop(∃ f, rLoc d ↦[(rRowK (Lc c s) j).view.set]{fullShare} f) :=
    bigSep_mono fun c _ => bigSep_mono fun s _ => bigSep_mono fun j _ =>
      (show (rLoc d ↦[(rRowK (Lc c s) j).view.set]{fullShare} f : sProp 𝕄)
        ⊢ iprop(∃ f, rLoc d ↦[(rRowK (Lc c s) j).view.set]{fullShare} f) from by iintro H; iexists f; iexact H)
  iapply hmono; iexact H'

include hL0 hL1 in

theorem split_cF :
    iprop((∃ f : Buf (Elt F) (stLoc d), stLoc d ↦{fullShare} f) ∗ (ixLoc d ↦{fullShare} fix d) ∗ (∃ f : Buf (Elt F) (rLoc d), rLoc d ↦{fullShare} f))
      ⊢ (bigSep Finset.univ fun c : Fin 2 => bigSep Finset.univ fun s : Fin 16 => goResF (F := F) (UU := UU) fix qI d (Lc c s) : sProp 𝕄) := by
  unfold goResF goRowF
  simp only [bigSep_sep']
  iintro ⟨Hst, Hix, Hr⟩
  isplitl [Hst Hr]
  · isplitl [Hst]
    · iapply (st_split_ex (UU := UU) Lc hL0 hL1 d); iexact Hst
    · iapply (r_split_ex (UU := UU) Lc hL0 hL1 d); iexact Hr
  · iapply (ix_shares (UU := UU) Lc hL0 hL1 fix d).1; iexact Hix

include hL0 hL1 in

theorem join_cF :
    (bigSep Finset.univ fun c : Fin 2 => bigSep Finset.univ fun s : Fin 16 => tdResF (F := F) (UU := UU) fix qI d (Lc c s) : sProp 𝕄)
      ⊢ iprop((∃ f : Buf (Elt F) (stLoc d), stLoc d ↦{fullShare} f) ∗ (ixLoc d ↦{fullShare} fix d) ∗ (∃ f : Buf (Elt F) (rLoc d), rLoc d ↦{fullShare} f)) := by
  unfold tdResF tdRowF
  simp only [bigSep_sep']
  iintro ⟨⟨Hst, Hr⟩, Hix⟩
  isplitl [Hst]
  · iapply (st_join_ex (UU := UU) Lc hL0 hL1 d); iexact Hst
  isplitl [Hix]
  · iapply (ix_shares (UU := UU) Lc hL0 hL1 fix d).2; iexact Hix
  iapply (r_join_ex (UU := UU) Lc hL0 hL1 d); iexact Hr

include hL0 hL1 in

theorem call1_heldF (Vv : Valuation τ sig (Elt F)) (hix : fix d = Vv (Proc.devRef .tc main_v3)) :
    (StableHlo.held (d.tc : Thread nD τ) (Pipeline.ucRefs τ sig) Vv : sProp 𝕄)
      ⊢ iprop((bigSep Finset.univ fun c : Fin 2 => bigSep Finset.univ fun s : Fin 16 => goResF (F := F) (UU := UU) fix qI d (Lc c s))
        ∗ ((bigSep Finset.univ fun c : Fin 2 => bigSep Finset.univ fun s : Fin 16 => tdResF (F := F) (UU := UU) fix qI d (Lc c s))
          -∗ ∃ Vv' : Valuation τ sig (Elt F),
              ⌜∀ b, b ≠ (Proc.devRef .tc main_v2_0 : DevRef τ sig) → b ≠ (Proc.devRef .tc main_v4 : DevRef τ sig) → Vv' b = Vv b⌝
              ∗ (StableHlo.held (d.tc : Thread nD τ) (Pipeline.ucRefs τ sig) Vv' : sProp 𝕄))) := by
  rw [StableHlo.held_sub_split (d.tc : Thread nD τ) T3_sub Vv, held_T3, ← hix]
  iintro ⟨⟨Hst, Hix, Hr⟩, Hrest⟩
  isplitl [Hst Hix Hr]
  · iapply (split_cF (UU := UU) Lc hL0 hL1 fix d)
    isplitl [Hst]; · iexists _; iexact Hst
    isplitl [Hix]; · iexact Hix
    iexists _; iexact Hr
  iintro Htd
  ihave H := (join_cF (UU := UU) Lc hL0 hL1 fix d) $$ Htd
  icases H with ⟨⟨%gst, Hst⟩, Hix, ⟨%gr, Hr⟩⟩
  iexists (Function.update (Function.update Vv (Proc.devRef .tc main_v2_0) gst) (Proc.devRef .tc main_v4) gr)
  isplitr
  · ipureintro
    intro b h20 h4
    rw [Function.update_of_ne h4, Function.update_of_ne h20]
  rw [StableHlo.held_sub_split (d.tc : Thread nD τ) T3_sub, held_T3]
  have hrest : (StableHlo.held (d.tc : Thread nD τ) (Pipeline.ucRefs τ sig \ T3)
        (Function.update (Function.update Vv (Proc.devRef .tc main_v2_0) gst) (Proc.devRef .tc main_v4) gr) : sProp 𝕄)
      = StableHlo.held (d.tc : Thread nD τ) (Pipeline.ucRefs τ sig \ T3) Vv :=
    StableHlo.held_congr (d.tc : Thread nD τ) fun b hb => by
      have hb' := (Finset.mem_sdiff.mp hb).2
      rw [Function.update_of_ne (by rintro rfl; exact hb' (by simp [T3])), Function.update_of_ne (by rintro rfl; exact hb' (by simp [T3]))]
  rw [hrest, Function.update_of_ne ne_20_4, Function.update_self, Function.update_of_ne ne_3_4, Function.update_of_ne ne_20_3.symm,
    Function.update_self, ← hix]
  isplitr [Hrest]
  swap; · iexact Hrest
  isplitl [Hst]; · iexact Hst
  isplitl [Hix]; · iexact Hix
  iexact Hr

end Frame

end Cert.Proof.SCFK

end
-- ==== Proof.LibScRegionR.lean ====
import Idealize.ShloMosaic.Lib.SparseCore.Launch
import Idealize.ShloMosaic.Lib.Pipeline.Regions

set_option Elab.async false

noncomputable section

namespace Idealize.ShloMosaic.SparseCore.Cfg

open Idealize.SL Idealize.SL.RA Idealize.SL.BI
open scoped Idealize.SL.BI
open Idealize.SL.BI.BIBase Idealize.SL.BI.Laws Idealize.SL.ProofMode Idealize.SL.Sem
open Idealize.ShloMosaic.Rounds

variable {nD : Nat} {τ : Topo} {sig : RefSig} {Val : EltTy → Type} {Q : Nat}
variable {Name : Type} [DecidableEq Name] {U : Type} [URA U]
variable {Λ₀ : SL.Sem.Labels} {P : Type} [Fintype P]

local notation "𝕄" => MT nD τ sig (HIx Q) Val Name U ℕ

variable (pcs : P → Pipeline.PCfg sig Λ₀ Val) (a : (p : P) → (pcs p).Adm)
variable (K : Cfg τ sig (Pipeline.Sig Λ₀ P fun p => (pcs p).Adm) Q)
variable (rdats : (p : P) → (c : Dev nD) → Pipeline.RDat τ Val (HIx Q) Name U ℕ (Pipeline.pin pcs a p) c)
variable (phinj : Function.Injective (Pipeline.cellOf (nD := nD) (Pipeline.pin pcs a)))
variable (EP : Emb (URounds (GSem nD τ sig) Unit) (MT nD τ sig (HIx Q) Val Name U ℕ))
variable (defs₀ : Defs nD τ sig Val Λ₀) (𝒱₀ : Variants)
variable (L : GSem nD τ sig → Finset (HIx Q)) (lv : GSem nD τ sig → HIx Q → ℕ)

include phinj in

theorem wp_region_lifted_R [∀ e, Nonempty (Val e)] [Infinite Name] [EP.LandsIn (upEmb : UEmb _ (MT nD τ sig (HIx Q) Val Name U ℕ))] {p : P}
    (R : Pipeline.RDat.RegionSeg pcs a rdats none defs₀ 𝒱₀ L lv p) (d : Dev nD)
    {α : Type} (k : PUnit → Prog (TpuEff nD τ sig Val (SparseCore.Sig (Pipeline.Sig Λ₀ P fun p => (pcs p).Adm) Q) .tc) α) (Φ : α → sProp 𝕄) :
    iprop((iprop(boundary (d.tc : Thread nD τ) ∗ R.post d)
            -∗ wp frame (wpE (K.defs (Pipeline.defs pcs defs₀)) (Variants.lift 𝒱₀) (d.tc : Thread nD τ) none) Set.univ (k ⟨⟩) Φ)
        ∗ boundary (d.tc : Thread nD τ) ∗ R.pre d ∗ levAts L lv
        ∗ Pipeline.cellsGhost (Pipeline.pin pcs a) EP p d ∗ Pipeline.toksInit (Pipeline.pin pcs a) EP p d)
      ⊢ wp frame (wpE (K.defs (Pipeline.defs pcs defs₀)) (Variants.lift 𝒱₀) (d.tc : Thread nD τ) none) Set.univ
          (SparseCore.liftProg (Q := Q) (Prog.lift (.customCall (Pipeline.entry p) ())) >>= k) Φ := by
  have hR := Pipeline.RDat.RegionSeg.wp pcs a rdats none phinj EP defs₀ 𝒱₀ L lv R d none
    (fun u hu => (Option.not_mem_none u hu).elim) (fun _ => (Prog.ret PUnit.unit : Prog (TpuEff nD τ sig Val (Pipeline.Sig Λ₀ P fun p => (pcs p).Adm) .tc) PUnit))
    (fun _ => wp frame (wpE (K.defs (Pipeline.defs pcs defs₀)) (Variants.lift 𝒱₀) (d.tc : Thread nD τ) none) Set.univ (k ⟨⟩) Φ)
  have hL := K.wp_liftProg (Pipeline.defs pcs defs₀) (Variants.lift 𝒱₀) (d.tc : Thread nD τ) Set.univ none
    (Prog.lift (.customCall (Pipeline.entry p) ()))
    (fun _ => wp frame (wpE (K.defs (Pipeline.defs pcs defs₀)) (Variants.lift 𝒱₀) (d.tc : Thread nD τ) none) Set.univ (k ⟨⟩) Φ)
  rw [wp_bind]
  iintro ⟨Hk, Hb, Hpre, Hlv, Hg, Ht⟩
  iapply hL
  iapply hR
  isplitl [Hk]
  · iintro H
    rw [wp_ret]; imodintro
    iapply Hk; iexact H
  isplitl [Hb]; · iexact Hb
  isplitl [Hpre]; · iexact Hpre
  isplitl [Hlv]; · iexact Hlv
  isplitl [Hg]; · iexact Hg
  iexact Ht

theorem cellsWaits_none_R (p : P) (hO : ∀ c t g, (rdats p c).owed t g none = 0) (hlv : K.Refines lv) (c : Dev nD) :
    (levAts K.L lv : sProp 𝕄) ⊢ Pipeline.RDat.cellsWaits (Pipeline.pin pcs a) rdats none p c :=
  Pipeline.RDat.cellsWaits_intro (Pipeline.pin pcs a) rdats none p c fun w s t =>
    K.mayWait_none (thr := (c.tc : Thread nD τ)) (.dma (((Pipeline.pin pcs a p).win w).sem s)) (hO c t) lv hlv

variable (EH : Emb (URounds (GSem nD τ sig) ℕ) (MT nD τ sig (HIx Q) Val Name U ℕ))

include phinj in

theorem wp_region_tcSt_R [∀ e, Nonempty (Val e)] [Infinite Name] [EP.LandsIn (upEmb : UEmb _ (MT nD τ sig (HIx Q) Val Name U ℕ))] {p : P}
    (R : Pipeline.RDat.RegionSeg pcs a rdats none defs₀ 𝒱₀ K.L K.lev p) (d : Dev nD) (n : ℕ)
    (Win Wout : sProp 𝕄) (wp' : Set (SemLoc sig × HIx Q)) (hwp : ∀ x ∈ wp', x.2 = none)
    (hpre : iprop(Win ∗ Pipeline.owesWithin d (K.Otc d n) {x | K.lev ((d.tc : Thread nD τ), x.1) x.2 ≤ 8 * n}) ⊢ R.pre d)
    (hpost : R.post d ⊢ iprop(Wout ∗ Pipeline.owesWithin d (K.Otc d n) ({x | K.lev ((d.tc : Thread nD τ), x.1) x.2 ≤ 8 * n} ∪ wp')))
    {α : Type} (k : PUnit → Prog (TpuEff nD τ sig Val (SparseCore.Sig (Pipeline.Sig Λ₀ P fun p => (pcs p).Adm) Q) .tc) α) (Φ : α → sProp 𝕄) :
    iprop((iprop(boundary (d.tc : Thread nD τ) ∗ Wout ∗ K.tcSt EH d n)
            -∗ wp frame (wpE (K.defs (Pipeline.defs pcs defs₀)) (Variants.lift 𝒱₀) (d.tc : Thread nD τ) none) Set.univ (k ⟨⟩) Φ)
        ∗ boundary (d.tc : Thread nD τ) ∗ Win ∗ K.tcSt EH d n ∗ levAts K.L K.lev
        ∗ Pipeline.cellsGhost (Pipeline.pin pcs a) EP p d ∗ Pipeline.toksInit (Pipeline.pin pcs a) EP p d)
      ⊢ wp frame (wpE (K.defs (Pipeline.defs pcs defs₀)) (Variants.lift 𝒱₀) (d.tc : Thread nD τ) none) Set.univ
          (SparseCore.liftProg (Q := Q) (Prog.lift (.customCall (Pipeline.entry p) ())) >>= k) Φ := by
  unfold tcSt
  iintro ⟨Hk, Hb, Hwin, ⟨⟨%W, %hW, HO⟩, Hrest⟩, Hlv, Hg, Ht⟩
  iapply (wp_region_lifted_R pcs a K rdats phinj EP defs₀ 𝒱₀ K.L K.lev R d k Φ)
  isplitl [Hk Hrest]
  · iintro ⟨Hb, Hpost⟩
    ihave H2 := hpost $$ Hpost
    icases H2 with ⟨Hwout, %W', %hW', HO⟩
    iapply Hk
    isplitl [Hb]; · iexact Hb
    isplitl [Hwout]; · iexact Hwout
    isplitl [HO]
    · iexists W'; isplitr
      · ipureintro
        intro x hx
        rcases hW' hx with h | h
        · exact h
        · show K.lev ((d.tc : Thread nD τ), x.1) x.2 ≤ 8 * n
          rw [hwp x h]; exact Nat.zero_le _
      · iexact HO
    iexact Hrest
  isplitl [Hb]; · iexact Hb
  isplitl [Hwin HO]
  · iapply hpre
    isplitl [Hwin]; · iexact Hwin
    iexists W; isplitr
    · ipureintro; exact fun x hx => hW x hx
    · iexact HO
  isplitl [Hlv]; · iexact Hlv
  isplitl [Hg]; · iexact Hg
  iexact Ht

end Idealize.ShloMosaic.SparseCore.Cfg

end
-- ==== Proof.RegionBBodyK.lean ====
import proofs.«204933_g4492535792355_cont_8to1_c_766_42_alg».proof.Proof.RegionBK

set_option maxRecDepth 16384

noncomputable section

namespace Cert.Proof.CK

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Cfg)

variable {F : FTy → Type} [FloatOps F]
variable {Ix : Type} [DecidableEq Ix] {Name : Type} [DecidableEq Name] {U : Type} [URA U] {Lvl : Type}

local notation "𝕄" => MT nD τ sig Ix (Elt F) Name U Lvl

variable [Preorder Lvl]

section RegionF

variable (W : Dev nD → Valuation τ sig (Elt F))
variable (O : CellTallies nD τ sig Ix) (B : Set (SemLoc sig × Ix)) (𝒱₀ : Variants) (ι : Ix)

local notation "𝔡" => dat1 (F := F) (Ix := Ix) (Name := Name) (U := U) (Lvl := Lvl) (VofW W) O B

def rdatsB (rdat3 : (c : Dev nD) → Pipeline.RDat τ (Elt F) Ix Name U Lvl cfg3 c) :
    (p : Fin 2) → (c : Dev nD) → Pipeline.RDat τ (Elt F) Ix Name U Lvl (Pipeline.pin (pcfgs (F := F)) adm p) c
  | ⟨0, _⟩ => fun c => (𝔡 c).toRForget fgt1
  | ⟨1, _⟩ => fun c => rdat3 c

def OffOutputs (c : Dev nD) (W' : Valuation τ sig (Elt F)) : Prop :=
  ∀ b : DevRef τ sig, b ≠ Proc.devRef .tc main_v2_0 → b ≠ Proc.devRef .tc main_v2_1 → b ≠ Proc.devRef .tc main_v2_2 → W' b = W c b

theorem Fs_in (c : Dev nD) (w : Fin cfg1.W) (hf : fgt1 w = false) (hin : (cfg1.win w).isOut = false)
    (Fw : Buf (Elt F) ((cfg1.win w).arr.view.loc (c.tc : Thread nD τ)))
    (h : ((𝔡 c).toRForget fgt1).ArrAt w cfg1.N Fw) : Fw = VofW W c (Pipeline.arrRef spec1 w) := by
  rw [(𝔡 c).toRForget_arrAt_iff hf] at h
  rw [h, (𝔡 c).arrAt_in w hin, A_eq1]

theorem offOutputs_withArrays (c : Dev nD)
    (Fs : (w : Fin cfg1.W) → Buf (Elt F) ((cfg1.win w).arr.view.loc (c.tc : Thread nD τ)))
    (hFs : ∀ w, ((𝔡 c).toRForget fgt1).ArrAt w cfg1.N (Fs w)) :
    OffOutputs W c (Pipeline.withArrays spec1 c (W c) Fs) := by
  intro b h0 h1 h2
  by_cases h : ∃ w, Proc.devRef .tc (Pipeline.arrRef spec1 w) = b
  · obtain ⟨w, rfl⟩ := h
    rw [Pipeline.withArrays_arr spec1 launch1.win.arr_inj c _ _ w]
    have hw : fgt1 w = false ∧ (cfg1.win w).isOut = false := by
      fin_cases w
      · exact ⟨rfl, rfl⟩
      · exact ⟨rfl, rfl⟩
      · exact ⟨rfl, rfl⟩
      · exact ⟨rfl, rfl⟩
      · exact ⟨rfl, rfl⟩
      · exact ⟨rfl, rfl⟩
      · exact ⟨rfl, rfl⟩
      · exact absurd rfl h0
      · exact absurd rfl h1
      · exact absurd rfl h2
    exact Fs_in W O B c w hw.1 hw.2 (Fs w) (hFs w)
  · unfold Pipeline.withArrays; rw [dif_neg h]

theorem arraysAt_elim {cfg : Pipeline.Cfg sig Λ₀} {c : Dev nD} (rd : Pipeline.RDat τ (Elt F) Ix Name U Lvl cfg c) (n : Nat) :
    rd.arraysAt n ⊢ (iprop(∃ Fs : (w : Fin cfg.W) → Buf (Elt F) ((cfg.win w).arr.view.loc (c.tc : Thread nD τ)),
      ⌜∀ w, rd.ArrAt w n (Fs w)⌝ ∗ rd.arrays Fs) : sProp 𝕄) := by
  classical
  unfold Pipeline.RDat.arraysAt Pipeline.RDat.arrays
  iintro Ha
  ihave Ha' := (BI.bigSep_exists_pi Finset.univ (fun (w : Fin cfg.W) Fw => iprop(⌜rd.ArrAt w n Fw⌝
      ∗ (cfg.win w).arr.view.loc (c.tc : Thread nD τ) ↦[(cfg.win w).arr.view.set]{rd.share w} Fw))) $$ Ha
  icases Ha' with ⟨%Fs, Ha⟩
  ihave Ha2 := (BI.bigSep_pure_sep Finset.univ (fun (w : Fin cfg.W) => rd.ArrAt w n (Fs w))
      (fun w => (cfg.win w).arr.view.loc (c.tc : Thread nD τ) ↦[(cfg.win w).arr.view.set]{rd.share w} Fs w)) $$ Ha
  icases Ha2 with ⟨%hFs, Ha⟩
  iexists Fs
  isplitr; · ipureintro; exact fun w => hFs w (Finset.mem_univ w)
  iexact Ha

set_option backward.isDefEq.respectTransparency.types false in

def regBF (rdat3 : (c : Dev nD) → Pipeline.RDat τ (Elt F) Ix Name U Lvl cfg3 c)
    (L : GSem nD τ sig → Finset Ix) (lv : GSem nD τ sig → Ix → Lvl)
    (hwaits : ∀ c, (levAts L lv : sProp 𝕄) ⊢ Pipeline.RDat.cellsWaits (Pipeline.pin (pcfgs (F := F)) adm) (rdatsB W O B rdat3) ι 0 c) :
    Pipeline.RDat.RegionSeg (pcfgs (F := F)) adm (rdatsB W O B rdat3) ι defs₀ 𝒱₀ L lv 0 where
  win := launch1.win.to₀
  block_pos := launch1.block_pos
  stage_whole := launch1.stage_whole
  K := PEmpty
  osem k := k.elim
  ho := Pipeline.OwnSemFacts.none _
  hbody c := (body_obligation1_fgt (VofW W) O B 𝒱₀ ι c).toRForget
  hwaits := hwaits
  pre c := iprop(StableHlo.held (c : Thread nD τ) (Pipeline.ucRefs τ sig) (W c) ∗ (∃ r, prngReg c r) ∗ Pipeline.owesWithin c O B)
  post c := iprop(∃ W' : Valuation τ sig (Elt F), ⌜OffOutputs W c W'⌝ ∗ StableHlo.held (c : Thread nD τ) (Pipeline.ucRefs τ sig) W'
    ∗ (∃ r, prngReg c r) ∗ Pipeline.owesWithin c O (B ∪ cfg1.waitPairs ι))
  X c := iprop(∃ r, prngReg c r)
  Y c := iprop(∃ r, prngReg c r)
  Z c := Pipeline.unscopedRest (Ix := Ix) (Name := Name) (U := U) (Lvl := Lvl) spec1 c (VofW W c)
  hentry c := by
    rw [Pipeline.ownSems0_none]
    have hsplit := Pipeline.RDat.arrays_of_unscopedBufs (p := 0) (pcfgs (F := F)) adm (rdatsB W O B rdat3) launch1.win launch1.arr_whole c
      ((𝔡 c).share_full fun _ => rfl) (VofW W c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · iapply (Pipeline.owesWithin_mono c O (B := B) (B' := B ∪ cfg1.waitPairs ι) Set.subset_union_left)
      iexact HO
    isplitl [Hp]; · iexact Hp
    iexact Hrest
  hin c := by
    rw [show (rdatsB W O B rdat3 0 c).Φ 0 = Φ1 c from rfl]; unfold Φ1
    iintro ⟨Hp, -, Hr⟩
    isplitl [Hr]; · iexact Hr
    iexact Hp
  hout c := by
    rw [Pipeline.ownSems0_none, show (rdatsB W O B rdat3 0 c).Φ (Fin.last _) = Φ1 c from rfl]; unfold Φ1
    iintro ⟨Hr, Hp⟩
    isplitl [Hp]; · iexact Hp
    isplitr; · iempintro
    iexact Hr
  hexit c := by
    refine (Idealize.SL.BI.Laws.sep_mono (arraysAt_elim ((𝔡 c).toRForget fgt1) cfg1.N) .rfl).trans ?_
    iintro ⟨⟨%Fs, %hFs, Ha⟩, HO, HY, Hrest⟩
    have hjoin : iprop(((𝔡 c).toRForget fgt1).arrays Fs ∗ Pipeline.unscopedRest (Ix := Ix) (Name := Name) (U := U) (Lvl := Lvl) spec1 c (VofW W c))
        ⊢ (unscopedBufs c (VofW (fun _ => Pipeline.withArrays spec1 c (W c) Fs) c) : sProp 𝕄) := by
      rw [Pipeline.unscopedBufs_split (Pipeline.pin (pcfgs (F := F)) adm) 0 launch1.win.arr_unscoped launch1.win.arr_inj c,
        show ((𝔡 c).toRForget fgt1).arrays Fs = _ from
          Pipeline.RDat.arrays_eq (pcfgs (F := F)) adm (rdatsB W O B rdat3) 0 c launch1.arr_whole ((𝔡 c).share_full fun _ => rfl) Fs]
      refine Idealize.SL.BI.Laws.sep_mono (Entails.of_eq (bigSep_congr fun w _ => by
        rw [show VofW (fun _ => Pipeline.withArrays spec1 c (W c) Fs) c (Pipeline.arrRef (Pipeline.pin (pcfgs (F := F)) adm 0).spec w) = Fs w from
          Pipeline.withArrays_arr spec1 launch1.win.arr_inj c _ _ w])) (Entails.of_eq ?_)
      unfold Pipeline.unscopedRest
      exact bigSep_congr fun b hb => by
        rw [show VofW (fun _ => Pipeline.withArrays spec1 c (W c) Fs) c b = VofW W c b from
          Pipeline.withArrays_of_ne spec1 c _ _ b fun w e => (Finset.mem_sdiff.mp hb).2 (Finset.mem_image.mpr ⟨w, Finset.mem_univ _, e⟩)]
    rw [Pipeline.unscopedBufs_held] at hjoin
    imodintro
    iexists (Pipeline.withArrays spec1 c (W c) Fs)
    isplitr
    · ipureintro; exact offOutputs_withArrays W O B c Fs hFs
    isplitl [Ha Hrest]
    · iapply hjoin; isplitl [Ha] <;> iassumption
    isplitl [HY]; · iexact HY
    iexact HO

theorem regBF_pre (rdat3 : (c : Dev nD) → Pipeline.RDat τ (Elt F) Ix Name U Lvl cfg3 c)
    (L : GSem nD τ sig → Finset Ix) (lv : GSem nD τ sig → Ix → Lvl)
    (hwaits : ∀ c, (levAts L lv : sProp 𝕄) ⊢ Pipeline.RDat.cellsWaits (Pipeline.pin (pcfgs (F := F)) adm) (rdatsB W O B rdat3) ι 0 c)
    (d : Dev nD) :
    iprop(iprop(StableHlo.held (d : Thread nD τ) (Pipeline.ucRefs τ sig) (W d) ∗ ∃ r, prngReg d r) ∗ Pipeline.owesWithin d O B)
      ⊢ (regBF W O B 𝒱₀ ι rdat3 L lv hwaits).pre d := by
  show _ ⊢ (iprop(StableHlo.held (d : Thread nD τ) (Pipeline.ucRefs τ sig) (W d) ∗ (∃ r, prngReg d r) ∗ Pipeline.owesWithin d O B) : sProp 𝕄)
  iintro ⟨⟨Hh, Hp⟩, HO⟩
  isplitl [Hh]; · iexact Hh
  isplitl [Hp]; · iexact Hp
  iexact HO

theorem regBF_post (rdat3 : (c : Dev nD) → Pipeline.RDat τ (Elt F) Ix Name U Lvl cfg3 c)
    (L : GSem nD τ sig → Finset Ix) (lv : GSem nD τ sig → Ix → Lvl)
    (hwaits : ∀ c, (levAts L lv : sProp 𝕄) ⊢ Pipeline.RDat.cellsWaits (Pipeline.pin (pcfgs (F := F)) adm) (rdatsB W O B rdat3) ι 0 c)
    (d : Dev nD) :
    (regBF W O B 𝒱₀ ι rdat3 L lv hwaits).post d
      ⊢ (iprop(iprop(∃ W' : Valuation τ sig (Elt F), ⌜OffOutputs W d W'⌝ ∗ StableHlo.held (d : Thread nD τ) (Pipeline.ucRefs τ sig) W' ∗ ∃ r, prngReg d r)
          ∗ Pipeline.owesWithin d O (B ∪ cfg1.waitPairs ι)) : sProp 𝕄) := by
  show (iprop(∃ W' : Valuation τ sig (Elt F), ⌜OffOutputs W d W'⌝ ∗ StableHlo.held (d : Thread nD τ) (Pipeline.ucRefs τ sig) W'
    ∗ (∃ r, prngReg d r) ∗ Pipeline.owesWithin d O (B ∪ cfg1.waitPairs ι)) : sProp 𝕄) ⊢ _
  iintro ⟨%W', %hW', Hh, Hp, HO⟩
  isplitl [Hh Hp]
  · iexists W'; isplitr; · ipureintro; exact hW'
    isplitl [Hh]; · iexact Hh
    iexact Hp
  iexact HO

end RegionF

end Cert.Proof.CK

end
-- ==== Proof.RegionDRK.lean ====
import proofs.«204933_g4492535792355_cont_8to1_c_766_42_alg».proof.Proof.RegionDK

set_option maxRecDepth 16384

noncomputable section

namespace Cert.Proof.DRK

open Cert.Kernel Cert.Kernel.Gen
open Cert.Proof.DK
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]
variable {Ix : Type} [DecidableEq Ix] {Name : Type} [DecidableEq Name] {U : Type} [URA U] {Lvl : Type} [Preorder Lvl]

local notation "𝕄" => MT nD τ sig Ix (Elt F) Name U Lvl

section Region

variable (W : Dev nD → Valuation τ sig (Elt F)) (O : CellTallies nD τ sig Ix) (B : Set (SemLoc sig × Ix)) (ι : Ix)

local notation "𝔡₃" => dat3 (F := F) (Ix := Ix) (Name := Name) (U := U) (Lvl := Lvl) (V3 W) O B

def triv1 (c : Dev nD) : Dat τ (Elt F) Ix Name U Lvl cfg1 c where
  A := fun _ => Classical.arbitrary _
  after := fun _ _ _ => Classical.arbitrary _
  Φ := fun _ => BI.emp
  q := fun _ => fullShare
  owed := fun _ => 0

def pd3 : (p : Fin 2) → (c : Dev nD) → Dat τ (Elt F) Ix Name U Lvl (Pipeline.pin (pcfgs (F := F)) adm p) c
  | ⟨0, _⟩ => fun c => triv1 c
  | ⟨1, _⟩ => fun c => 𝔡₃ c

local notation "𝔭" => pd3 (F := F) (Ix := Ix) (Name := Name) (U := U) (Lvl := Lvl) W O B

theorem pd3_one (c : Dev nD) : 𝔭 1 c = 𝔡₃ c := rfl

variable (rdats : (p : Fin 2) → (c : Dev nD) → Pipeline.RDat τ (Elt F) Ix Name U Lvl (Pipeline.pin (pcfgs (F := F)) adm p) c)

theorem hbody3R (hfam : ∀ c, rdats 1 c = (dat3 (F := F) (Ix := Ix) (Name := Name) (U := U) (Lvl := Lvl) (V3 W) O B c).toR) (𝒱₀ : Variants) (c : Dev nD) : (rdats 1 c).BodyObligation (defs₀ (F := F)) 𝒱₀ ι Set.univ := by
  rw [hfam c]; exact (body_obligation3_loose (F := F) (Ix := Ix) (Name := Name) (U := U) (Lvl := Lvl) (V3 W) O B ι 𝒱₀ c).toR

set_option backward.isDefEq.respectTransparency.types false in
theorem hentry3R (hfam : ∀ c, rdats 1 c = (dat3 (F := F) (Ix := Ix) (Name := Name) (U := U) (Lvl := Lvl) (V3 W) O B c).toR) (L : GSem nD τ sig → Finset Ix) (lv : GSem nD τ sig → Ix → Lvl) (c : Dev nD) :
    iprop(pre3 (Name := Name) (U := U) (Lvl := Lvl) W O B c ∗ Pipeline.ownSems0 (fun k : PEmpty => k.elim) c ∗ levAts L lv)
    ⊢ |={Set.univ}=> iprop((rdats 1 c).arrays (rdats 1 c).A ∗ Pipeline.prefHeld (pcfgs (F := F) 1).pre c (fun _ => fullShare) (adm 1).1
        ∗ (rdats 1 c).owesAt ι 0 ∗ (iprop(∃ r, prngReg c r) : sProp 𝕄)
        ∗ Pipeline.unscopedRest (Ix := Ix) (Name := Name) (U := U) (Lvl := Lvl) spec3 c (V3 W c)) := by
  have h := hentry3 W O B ι 𝔭 (pd3_one W O B) L lv c
  rw [pd3_one] at h
  rw [hfam c, Pipeline.Dat.toR_arrays, Pipeline.Dat.toR_A, Pipeline.Dat.toR_owesAt]
  exact h

theorem hin3R (hfam : ∀ c, rdats 1 c = (dat3 (F := F) (Ix := Ix) (Name := Name) (U := U) (Lvl := Lvl) (V3 W) O B c).toR) (c : Dev nD) :
    iprop((iprop(∃ r, prngReg c r) : sProp 𝕄) ∗ Pipeline.prefHeld (pcfgs (F := F) 1).pre c (fun _ => fullShare) (adm 1).1
      ∗ Pipeline.scopedRest (Pipeline.pin (pcfgs (F := F)) adm 1).spec c) ⊢ (rdats 1 c).Φ 0 := by
  have h := hin3 W O B 𝔭 (pd3_one W O B) c
  rw [pd3_one] at h
  rw [hfam c, Pipeline.Dat.toR_Φ]
  exact h

theorem hout3R (hfam : ∀ c, rdats 1 c = (dat3 (F := F) (Ix := Ix) (Name := Name) (U := U) (Lvl := Lvl) (V3 W) O B c).toR) (c : Dev nD) :
    (rdats 1 c).Φ (Fin.last (Pipeline.pin (pcfgs (F := F)) adm 1).N)
      ⊢ iprop((iprop(∃ r, prngReg c r) : sProp 𝕄) ∗ Pipeline.ownSems0 (fun k : PEmpty => k.elim) c
        ∗ Pipeline.scopedRest (Pipeline.pin (pcfgs (F := F)) adm 1).spec c) := by
  have h := hout3 W O B 𝔭 (pd3_one W O B) c
  rw [pd3_one] at h
  rw [hfam c, Pipeline.Dat.toR_Φ]
  exact h

set_option backward.isDefEq.respectTransparency.types false in
theorem hexit3R (hfam : ∀ c, rdats 1 c = (dat3 (F := F) (Ix := Ix) (Name := Name) (U := U) (Lvl := Lvl) (V3 W) O B c).toR) (c : Dev nD) :
    iprop((rdats 1 c).arraysAt (Pipeline.pin (pcfgs (F := F)) adm 1).N
        ∗ (rdats 1 c).owesAt ι (Fin.last (Pipeline.pin (pcfgs (F := F)) adm 1).N)
        ∗ (iprop(∃ r, prngReg c r) : sProp 𝕄)
        ∗ Pipeline.unscopedRest (Ix := Ix) (Name := Name) (U := U) (Lvl := Lvl) spec3 c (V3 W c))
      ⊢ |={Set.univ}=> post3 (Name := Name) (U := U) (Lvl := Lvl) W O B ι c := by
  have h := hexit3 W O B ι 𝔭 (pd3_one W O B) c
  rw [pd3_one] at h
  rw [hfam c, Pipeline.Dat.toR_owesAt]
  exact (Idealize.SL.BI.Laws.sep_mono (Entails.of_eq ((𝔡₃ c).toR_arraysAt_eq cfg3.N)) .rfl).trans h

def reg3R (hfam : ∀ c, rdats 1 c = (dat3 (F := F) (Ix := Ix) (Name := Name) (U := U) (Lvl := Lvl) (V3 W) O B c).toR) (𝒱₀ : Variants) (L : GSem nD τ sig → Finset Ix) (lv : GSem nD τ sig → Ix → Lvl)
    (hwaits : ∀ c, (levAts L lv : sProp 𝕄) ⊢ Pipeline.RDat.cellsWaits (Pipeline.pin (pcfgs (F := F)) adm) rdats ι 1 c) :
    Pipeline.RDat.RegionSeg (pcfgs (F := F)) adm rdats ι defs₀ 𝒱₀ L lv 1 where
  win := launch3.win.to₀
  block_pos := launch3.block_pos
  stage_whole := launch3.stage_whole
  K := PEmpty
  osem k := k.elim
  ho := Pipeline.OwnSemFacts.none _
  hbody := hbody3R W O B ι rdats hfam 𝒱₀
  hwaits := hwaits
  pre := pre3 W O B
  post := post3 W O B ι
  X c := iprop(∃ r, prngReg c r)
  Y c := iprop(∃ r, prngReg c r)
  Z c := Pipeline.unscopedRest (Ix := Ix) (Name := Name) (U := U) (Lvl := Lvl) spec3 c (V3 W c)
  hentry := hentry3R W O B ι rdats hfam L lv
  hin := hin3R W O B rdats hfam
  hout := hout3R W O B rdats hfam
  hexit := hexit3R W O B ι rdats hfam

theorem reg3R_pre (hfam : ∀ c, rdats 1 c = (dat3 (F := F) (Ix := Ix) (Name := Name) (U := U) (Lvl := Lvl) (V3 W) O B c).toR) (𝒱₀ : Variants) (L : GSem nD τ sig → Finset Ix) (lv : GSem nD τ sig → Ix → Lvl)
    (hwaits : ∀ c, (levAts L lv : sProp 𝕄) ⊢ Pipeline.RDat.cellsWaits (Pipeline.pin (pcfgs (F := F)) adm) rdats ι 1 c) (d : Dev nD) :
    iprop(iprop(StableHlo.held (d : Thread nD τ) (Pipeline.ucRefs τ sig) (W d) ∗ ∃ r, prngReg d r) ∗ Pipeline.owesWithin d O B)
      ⊢ (reg3R W O B ι rdats hfam 𝒱₀ L lv hwaits).pre d := by
  show _ ⊢ pre3 (Name := Name) (U := U) (Lvl := Lvl) W O B d
  unfold pre3
  iintro ⟨⟨Hh, Hp⟩, HO⟩
  isplitl [Hh]; · iexact Hh
  isplitl [Hp]; · iexact Hp
  iexact HO

theorem reg3R_post (hfam : ∀ c, rdats 1 c = (dat3 (F := F) (Ix := Ix) (Name := Name) (U := U) (Lvl := Lvl) (V3 W) O B c).toR) (𝒱₀ : Variants) (L : GSem nD τ sig → Finset Ix) (lv : GSem nD τ sig → Ix → Lvl)
    (hwaits : ∀ c, (levAts L lv : sProp 𝕄) ⊢ Pipeline.RDat.cellsWaits (Pipeline.pin (pcfgs (F := F)) adm) rdats ι 1 c) (d : Dev nD) :
    (reg3R W O B ι rdats hfam 𝒱₀ L lv hwaits).post d
      ⊢ (iprop(iprop(StableHlo.held (d : Thread nD τ) (Pipeline.ucRefs τ sig) (Wout (Name := Name) (U := U) (Lvl := Lvl) W O B d) ∗ ∃ r, prngReg d r)
          ∗ Pipeline.owesWithin d O (B ∪ cfg3.waitPairs ι)) : sProp 𝕄) := by
  show post3 (Name := Name) (U := U) (Lvl := Lvl) W O B ι d ⊢ _
  unfold post3
  iintro ⟨Hh, Hp, HO⟩
  isplitl [Hh Hp]
  · isplitl [Hh]; · iexact Hh
    iexact Hp
  iexact HO

def rdats2 (rd0 : (c : Dev nD) → Pipeline.RDat τ (Elt F) Ix Name U Lvl cfg1 c) :
    (p : Fin 2) → (c : Dev nD) → Pipeline.RDat τ (Elt F) Ix Name U Lvl (Pipeline.pin (pcfgs (F := F)) adm p) c
  | ⟨0, _⟩ => fun c => rd0 c
  | ⟨1, _⟩ => fun c => (𝔡₃ c).toR

end Region

end Cert.Proof.DRK

end
-- ==== Proof.KIFinFK.lean ====
import proofs.«204933_g4492535792355_cont_8to1_c_766_42_alg».proof.Proof.KIChainK
import Idealize.ShloMosaic.Lib.Pipeline.Frame

noncomputable section

namespace Cert.Proof.KIFK

open Cert.Kernel Cert.Kernel.Gen

open Idealize.ShloMosaic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable {U : Type} [URA U]

local notation "𝕄" => MT nD τ sig (HIx 2) (Elt F) ℕ U ℕ

variable (m : (ℓ : Loc nD τ sig) → Buf (Elt F) ℓ)

def KeepsArgs6 (d : Dev nD) (Wfin : Valuation τ sig (Elt F)) : Prop :=
  Wfin (Proc.devRef .tc main_arg0) = m ((d.tc : Thread nD τ).loc main_arg0)
    ∧ Wfin (Proc.devRef .tc main_arg1) = m ((d.tc : Thread nD τ).loc main_arg1)
    ∧ Wfin (Proc.devRef .tc main_arg2) = m ((d.tc : Thread nD τ).loc main_arg2)
    ∧ Wfin (Proc.devRef .tc main_arg3) = m ((d.tc : Thread nD τ).loc main_arg3)
    ∧ Wfin (Proc.devRef .tc main_arg4) = m ((d.tc : Thread nD τ).loc main_arg4)
    ∧ Wfin (Proc.devRef .tc main_arg5) = m ((d.tc : Thread nD τ).loc main_arg5)

def FINF (d : Dev nD) : sProp 𝕄 :=
  iprop(∃ Wfin : Valuation τ sig (Elt F), ⌜KeepsArgs6 m d Wfin⌝
    ∗ (StableHlo.held (d.tc : Thread nD τ) (Pipeline.ucRefs τ sig) Wfin : sProp 𝕄))

def fqF (d : Dev nD) (s' : Phys nD τ sig (Elt F)) : Prop :=
  ∃ Wfin : Valuation τ sig (Elt F), KeepsArgs6 m d Wfin ∧ ∀ b ∈ Pipeline.ucRefs τ sig, s'.mem.mem (d, b) = Wfin b

theorem hfinF (d : Dev nD) (s' : Phys nD τ sig (Elt F)) : iprop(FINF (U := U) m d ∗ SI s') ⊢ (⌜fqF m d s'⌝ : sProp 𝕄) := by
  unfold FINF
  iintro ⟨⟨%Wfin, %hk, Hh⟩, HSI⟩
  unfold StableHlo.held
  ihave H := (pointsTo_read_all (Pipeline.ucRefs τ sig) (fun b => (((d.tc : Thread nD τ)).1, b)) Wfin s') $$ [Hh HSI]
  · isplitl [Hh] <;> iassumption
  icases H with ⟨%h, -⟩
  ipureintro
  exact ⟨Wfin, hk, h⟩

def QCF : PUnit × MemSt nD τ sig (Elt F) → Prop :=
  fun r => ∀ c : Dev nD, ∃ Wfin : Valuation τ sig (Elt F), KeepsArgs6 m c Wfin ∧ ∀ b ∈ Pipeline.ucRefs τ sig, r.2.mem (c, b) = Wfin b

theorem hQF : ∀ s' : Phys nD τ sig (Elt F), (∀ d, fqF m d s') → QCF m (⟨⟩, s'.mem) :=
  fun _ h => h

end Cert.Proof.KIFK
-- ==== Proof.KILaunchK.lean ====
import proofs.«204933_g4492535792355_cont_8to1_c_766_42_alg».proof.Proof.LibScRegionR
import proofs.«204933_g4492535792355_cont_8to1_c_766_42_alg».proof.Proof.RegionBBodyK
import proofs.«204933_g4492535792355_cont_8to1_c_766_42_alg».proof.Proof.RegionDRK
import proofs.«204933_g4492535792355_cont_8to1_c_766_42_alg».proof.Proof.KIFinFK

set_option Elab.async false

noncomputable section

namespace Cert.Proof.KIK

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable {U : Type} [URA U]

local notation "𝕄" => MT nD τ sig (HIx 2) (Elt F) ℕ U ℕ

variable (EH : Emb UH (MT nD τ sig (HIx 2) (Elt F) ℕ U ℕ)) (EP : Emb UP (MT nD τ sig (HIx 2) (Elt F) ℕ U ℕ))
variable (P : (K (F := F)).Pay (nD := nD) (Val := Elt F) (Name := ℕ) (U := U))

section Run

variable (m : (ℓ : Loc nD τ sig) → Buf (Elt F) ℓ) (ρ : Dev nD → PrngReg)
variable (W1 : Dev nD → Valuation τ sig (Elt F))

theorem ops_sub : (opReshapePos (F := F)).bufs ⊆ UC ∧ (opZero (F := F)).bufs ⊆ UC ∧ (opConvert (F := F)).bufs ⊆ UC
    ∧ (opPad (F := F)).bufs ⊆ UC ∧ (opReshapeLoss (F := F)).bufs ⊆ UC :=
  ⟨Pipeline.sub_ucRefs _ (StableHlo.reshape_bufs_sub ..), Pipeline.sub_ucRefs _ (StableHlo.nullary_bufs_sub ..),
    Pipeline.sub_ucRefs _ (StableHlo.unary_bufs_sub ..), Pipeline.sub_ucRefs _ (StableHlo.binary_bufs_sub ..),
    Pipeline.sub_ucRefs _ (StableHlo.reshape_bufs_sub ..)⟩

theorem waitPairs_none (cfg : Pipeline.Cfg sig Λ₀) : ∀ x ∈ cfg.waitPairs (none : HIx 2), x.2 = none :=
  fun x ⟨_, _, h⟩ => by rw [h]

abbrev GP (d : Dev nD) : sProp 𝕄 :=
  bigSep Finset.univ fun p : Fin 2 => iprop(Pipeline.cellsGhost (Pipeline.pin (pcfgs (F := F)) adm) EP p d ∗ Pipeline.toksInit (Pipeline.pin (pcfgs (F := F)) adm) EP p d)

abbrev KeepsArgs (d : Dev nD) (W : Valuation τ sig (Elt F)) : Prop := Cert.Proof.KIFK.KeepsArgs6 m d W

-- a valuation that agrees with W on every reference satisfying Pb, the six arguments among them, keeps them too
theorem KeepsArgs.of_forall {d : Dev nD} {W W' : Valuation τ sig (Elt F)} (h : KeepsArgs m d W) (Pb : Ref sig .tc → Prop)
    (hP : Pb main_arg0 ∧ Pb main_arg1 ∧ Pb main_arg2 ∧ Pb main_arg3 ∧ Pb main_arg4 ∧ Pb main_arg5)
    (hW : ∀ r : Ref sig .tc, Pb r → W' (Proc.devRef .tc r) = W (Proc.devRef .tc r)) : KeepsArgs m d W' :=
  ⟨(hW _ hP.1).trans h.1, (hW _ hP.2.1).trans h.2.1, (hW _ hP.2.2.1).trans h.2.2.1, (hW _ hP.2.2.2.1).trans h.2.2.2.1,
    (hW _ hP.2.2.2.2.1).trans h.2.2.2.2.1, (hW _ hP.2.2.2.2.2).trans h.2.2.2.2.2⟩

abbrev FINK (d : Dev nD) : sProp 𝕄 := Cert.Proof.KIFK.FINF (U := U) m d

theorem wp_run_heldX (κ : GSem nD τ sig → ℕ) (d : Dev nD) (q : Fin 2) (V : Valuation τ sig (Elt F))
    (R : Valuation τ sig (Elt F) → Prop) (Inv : sProp 𝕄) [BI.Persistent Inv] (Fr : sProp 𝕄)
    (hsplit : iprop(Inv ∗ (StableHlo.held (d.tc : Thread nD τ) UC V : sProp 𝕄))
      ⊢ iprop(|={Set.univ}=> ((bigSep Finset.univ fun c : Fin ((K (F := F)).nCore q) => P.st q d c)
          ∗ ((bigSep Finset.univ fun c : Fin ((K (F := F)).nCore q) => P.dn q d c)
              -∗ |={Set.univ}=> (iprop(∃ V' : Valuation τ sig (Elt F), ⌜R V'⌝ ∗ (StableHlo.held (d.tc : Thread nD τ) UC V' : sProp 𝕄)) : sProp 𝕄)))))
    {α : Type} (k : PUnit → Prog (TpuEff nD τ sig (Elt F) (SparseCore.Sig (ΛP (F := F)) 2) .tc) α) (Φ : α → sProp 𝕄)
    (hk : ∀ V' : Valuation τ sig (Elt F), R V' →
      iprop((K (F := F)).tcSt EH d (q.val + 1) ∗ (StableHlo.held (d.tc : Thread nD τ) UC V' : sProp 𝕄) ∗ Fr)
        ⊢ wp frame (wpE ((K (F := F)).defs (D (F := F))) 𝒱 (SparseCore.T d) none) Set.univ (k ⟨⟩) Φ) :
    iprop((K (F := F)).ctx EH P κ ∗ Inv ∗ (K (F := F)).tcSt EH d q.val ∗ (StableHlo.held (d.tc : Thread nD τ) UC V : sProp 𝕄) ∗ Fr)
      ⊢ wp frame (wpE ((K (F := F)).defs (D (F := F))) 𝒱 (SparseCore.T d) none) Set.univ ((K (F := F)).run d q >>= k) Φ := by
  rw [wp_bind]
  iintro ⟨#Hctx, #Hinv, Hst, Hheld, Hfr⟩
  imod hsplit $$ [Hheld] with ⟨Hs, Hback⟩
  · iframe Hinv Hheld
  iapply ((K (F := F)).wp_run (D (F := F)) 𝒱 (EH := EH) (P := P) κ d q) $$ [Hst Hs Hfr Hback]
  iframe Hctx Hst Hs
  iintro ⟨Hst, Hdn⟩
  imod Hback $$ Hdn with ⟨%V', %hV', Hh'⟩
  iapply (hk V' hV')
  iframe Hst Hh' Hfr

abbrev rd3 : (c : Dev nD) → Pipeline.RDat τ (Elt F) (HIx 2) ℕ U ℕ cfg3 c :=
  fun c => (Cert.Proof.DK.dat3 (Cert.Proof.DK.V3 (W2 W1)) (On (F := F) 2) (Bn (F := F) 2) c).toR

abbrev rdats0 : (p : Fin 2) → (c : Dev nD) → Pipeline.RDat τ (Elt F) (HIx 2) ℕ U ℕ (Pipeline.pin (pcfgs (F := F)) adm p) c :=
  Cert.Proof.CK.rdatsB (W2 W1) (On (F := F) 1) (Bn (F := F) 1) (rd3 (U := U) W1)

abbrev R0 : Pipeline.RDat.RegionSeg (pcfgs (F := F)) adm (rdats0 (U := U) W1) none defs₀ 𝒱₀ (K (F := F)).L (K (F := F)).lev 0 :=
  Cert.Proof.CK.regBF (W2 W1) (On (F := F) 1) (Bn (F := F) 1) 𝒱₀ none (rd3 (U := U) W1) (K (F := F)).L (K (F := F)).lev
    (SparseCore.Cfg.cellsWaits_none_R (pcfgs (F := F)) adm (K (F := F)) (rdats0 (U := U) W1) (K (F := F)).lev 0
      (fun _ _ g => SparseCore.Cfg.Otc_none (pcfgs (F := F)) (K (F := F)) dev0 1 g) (K (F := F)).refines_self)

abbrev rd0 : (c : Dev nD) → Pipeline.RDat τ (Elt F) (HIx 2) ℕ U ℕ cfg1 c :=
  fun c => (Cert.Proof.CK.dat1 (Cert.Proof.CK.VofW (W2 W1)) (On (F := F) 1) (Bn (F := F) 1) c).toRForget Cert.Proof.CK.fgt1

abbrev rdats1 (V5 : Valuation τ sig (Elt F)) :
    (p : Fin 2) → (c : Dev nD) → Pipeline.RDat τ (Elt F) (HIx 2) ℕ U ℕ (Pipeline.pin (pcfgs (F := F)) adm p) c :=
  Cert.Proof.DRK.rdats2 (fun _ => V5) (On (F := F) 2) (Bn (F := F) 2) (rd0 (U := U) W1)

abbrev R1 (V5 : Valuation τ sig (Elt F)) :
    Pipeline.RDat.RegionSeg (pcfgs (F := F)) adm (rdats1 (U := U) W1 V5) none defs₀ 𝒱₀ (K (F := F)).L (K (F := F)).lev 1 :=
  Cert.Proof.DRK.reg3R (fun _ => V5) (On (F := F) 2) (Bn (F := F) 2) none (rdats1 (U := U) W1 V5) (fun _ => rfl) 𝒱₀ (K (F := F)).L (K (F := F)).lev
    (SparseCore.Cfg.cellsWaits_none_R (pcfgs (F := F)) adm (K (F := F)) (rdats1 (U := U) W1 V5) (K (F := F)).lev 1
      (fun _ _ g => SparseCore.Cfg.Otc_none (pcfgs (F := F)) (K (F := F)) dev0 2 g) (K (F := F)).refines_self)

abbrev WfinOf (V5 : Valuation τ sig (Elt F)) : Valuation τ sig (Elt F) :=
  (opReshapeLoss (F := F)).result (Cert.Proof.DK.Wout (Ix := HIx 2) (Name := ℕ) (U := U) (Lvl := ℕ) (fun _ => V5) (On (F := F) 2) (Bn (F := F) 2) dev0)

theorem keeps_fin {d : Dev nD} {V5 : Valuation τ sig (Elt F)} (h : KeepsArgs m d V5) : KeepsArgs m d (WfinOf (U := U) V5) :=
  h.of_forall m (fun r => r ≠ main_v6 ∧ main_v4 ≠ r ∧ main_v5 ≠ r) (by decide)
    fun r q => (StableHlo.reshape_result_ne _ _ _ _ _ _ _ q.1).trans (Cert.Proof.DK.Wout_other (fun _ => V5) _ _ dev0 r q.2.1 q.2.2)

abbrev tailC : Prog (TpuEff nD τ sig (Elt F) (SparseCore.Sig (ΛP (F := F)) 2) .tc) PUnit := do
  SparseCore.liftProg (Q := 2) (callRegion (F := F) 1)
  hlo rfl (opReshapeLoss (F := F)) (fun _ => .ret ⟨⟩)
  pure ⟨⟩

abbrev tailB : Prog (TpuEff nD τ sig (Elt F) (SparseCore.Sig (ΛP (F := F)) 2) .tc) PUnit := do
  hlo rfl (opZero (F := F)) (fun _ => .ret ⟨⟩)
  (do hlo rfl (opConvert (F := F)) (fun _ => .ret ⟨⟩)
      hlo rfl (opPad (F := F)) (fun _ => .ret ⟨⟩)
      pure ⟨⟩)
  (K (F := F)).run dev0 1
  tailC (F := F)

abbrev V4of (Y : Valuation τ sig (Elt F)) : Valuation τ sig (Elt F) :=
  (opPad (F := F)).result ((opConvert (F := F)).result ((opZero (F := F)).result Y))

theorem keeps_V4of {d : Dev nD} {Y : Valuation τ sig (Elt F)} (h : KeepsArgs m d Y) : KeepsArgs m d (V4of Y) :=
  h.of_forall m (fun r => r ≠ main_v3 ∧ r ≠ main_call0_v0 ∧ r ≠ main_c) (by decide)
    fun r q => (StableHlo.binary_result_ne _ _ _ _ _ _ _ _ q.1).trans
      ((StableHlo.unary_result_ne _ _ _ _ _ _ q.2.1).trans (StableHlo.nullary_result_ne _ _ _ _ q.2.2))

abbrev Call1Keeps (Vv V' : Valuation τ sig (Elt F)) : Prop :=
  ∀ b : DevRef τ sig, b ≠ Proc.devRef .tc main_v2_0 → b ≠ Proc.devRef .tc main_v4 → V' b = Vv b

theorem keeps_call1 {d : Dev nD} {Vv V' : Valuation τ sig (Elt F)} (h : KeepsArgs m d Vv) (hc : Call1Keeps Vv V') : KeepsArgs m d V' :=
  h.of_forall m (fun r => r ≠ main_v2_0 ∧ r ≠ main_v4) (by decide)
    fun r q => hc _ (StableHlo.devRef_ne_of_ne q.1) (StableHlo.devRef_ne_of_ne q.2)

include W1 in
set_option backward.isDefEq.respectTransparency.types false in
set_option maxHeartbeats 2000000 in

theorem stageC [∀ e, Nonempty (Elt F e)] [EP.LandsIn (upEmb : UEmb _ (MT nD τ sig (HIx 2) (Elt F) ℕ U ℕ))]
    (V5 : Valuation τ sig (Elt F)) (hV5 : KeepsArgs m dev0 V5) :
    iprop(boundary (SparseCore.T dev0) ∗ (StableHlo.held ((dev0 : Dev nD).tc : Thread nD τ) UC V5 : sProp 𝕄) ∗ (∃ r, prngReg dev0 r)
        ∗ (K (F := F)).tcSt EH dev0 2 ∗ levAts (K (F := F)).L (K (F := F)).lev
        ∗ Pipeline.cellsGhost (Pipeline.pin (pcfgs (F := F)) adm) EP 1 dev0 ∗ Pipeline.toksInit (Pipeline.pin (pcfgs (F := F)) adm) EP 1 dev0)
      ⊢ wp frame (wpE ((K (F := F)).defs (D (F := F))) 𝒱 (SparseCore.T dev0) none) Set.univ
          (tailC (F := F))
          fun _ => iprop((K (F := F)).tcSt EH dev0 2 ∗ FINK (U := U) m dev0) := by
  iintro ⟨Hb, Hh, Hp, Hst, #Hlv, Hg1, Ht1⟩
  iapply (SparseCore.Cfg.wp_region_tcSt_R (pcs := pcfgs (F := F)) (a := adm) (K := K (F := F)) (rdats := rdats1 (U := U) W1 V5)
    (phinj := cellOf_inj) (EP := EP) (defs₀ := defs₀) (𝒱₀ := 𝒱₀) (EH := EH) (R1 (U := U) W1 V5) dev0 2 _ _
    (cfg3.waitPairs none) (waitPairs_none cfg3)
    (Cert.Proof.DRK.reg3R_pre (fun _ => V5) (On (F := F) 2) (Bn (F := F) 2) none (rdats1 (U := U) W1 V5) (fun _ => rfl) 𝒱₀ _ _ _ dev0)
    (Cert.Proof.DRK.reg3R_post (fun _ => V5) (On (F := F) 2) (Bn (F := F) 2) none (rdats1 (U := U) W1 V5) (fun _ => rfl) 𝒱₀ _ _ _ dev0))
  isplitr [Hb Hh Hp Hst Hg1 Ht1]
  swap
  · iframe Hb Hh Hp
    isplitl [Hst]; · iexact Hst
    iframe Hlv Hg1 Ht1
  iintro ⟨Hb, ⟨Hh, Hp⟩, Hst⟩
  iapply (SparseCore.Cfg.wp_host_step (pcs := pcfgs (F := F)) (K := K (F := F)) (D := D (F := F)) (𝒱 := 𝒱) dev0 (opReshapeLoss (F := F))
    (S := UC) ops_sub.2.2.2.2 rfl (Cert.Proof.DK.Wout (Ix := HIx 2) (Name := ℕ) (U := U) (Lvl := ℕ) (fun _ => V5) (On (F := F) 2) (Bn (F := F) 2) dev0))
  iframe Hb Hh
  iintro ⟨Hb, Hh⟩
  rw [wp_pure]; imodintro
  isplitl [Hst]; · iexact Hst
  unfold FINK Cert.Proof.KIFK.FINF
  iexists (WfinOf (U := U) V5)
  isplitr; · ipureintro; exact keeps_fin (U := U) m hV5
  iexact Hh

include W1 in
set_option backward.isDefEq.respectTransparency.types false in
set_option maxHeartbeats 2000000 in

theorem stageB [∀ e, Nonempty (Elt F e)] [EP.LandsIn (upEmb : UEmb _ (MT nD τ sig (HIx 2) (Elt F) ℕ U ℕ))]
    (κ : GSem nD τ sig → ℕ) (Inv : sProp 𝕄) [BI.Persistent Inv]
    (hcall1 : ∀ Y : Valuation τ sig (Elt F), KeepsArgs m dev0 Y →
      iprop(Inv ∗ (StableHlo.held ((dev0 : Dev nD).tc : Thread nD τ) UC (V4of Y) : sProp 𝕄))
        ⊢ iprop(|={Set.univ}=> ((bigSep Finset.univ fun c : Fin ((K (F := F)).nCore 1) => P.st 1 dev0 c)
            ∗ ((bigSep Finset.univ fun c : Fin ((K (F := F)).nCore 1) => P.dn 1 dev0 c)
                -∗ |={Set.univ}=> (iprop(∃ V' : Valuation τ sig (Elt F), ⌜Call1Keeps (V4of Y) V'⌝
                      ∗ (StableHlo.held ((dev0 : Dev nD).tc : Thread nD τ) UC V' : sProp 𝕄)) : sProp 𝕄)))))
    (Y : Valuation τ sig (Elt F)) (hY : KeepsArgs m dev0 Y) :
    iprop((K (F := F)).ctx EH P κ ∗ Inv ∗ boundary (SparseCore.T dev0) ∗ (StableHlo.held ((dev0 : Dev nD).tc : Thread nD τ) UC Y : sProp 𝕄)
        ∗ (∃ r, prngReg dev0 r) ∗ (K (F := F)).tcSt EH dev0 1 ∗ levAts (K (F := F)).L (K (F := F)).lev
        ∗ Pipeline.cellsGhost (Pipeline.pin (pcfgs (F := F)) adm) EP 1 dev0 ∗ Pipeline.toksInit (Pipeline.pin (pcfgs (F := F)) adm) EP 1 dev0)
      ⊢ wp frame (wpE ((K (F := F)).defs (D (F := F))) 𝒱 (SparseCore.T dev0) none) Set.univ
          (tailB (F := F))
          fun _ => iprop((K (F := F)).tcSt EH dev0 2 ∗ FINK (U := U) m dev0) := by
  iintro ⟨#Hctx, #Hinv, Hb, Hh, Hp, Hst, #Hlv, Hg1, Ht1⟩
  iapply (SparseCore.Cfg.wp_host_step (pcs := pcfgs (F := F)) (K := K (F := F)) (D := D (F := F)) (𝒱 := 𝒱) dev0 (opZero (F := F))
    (S := UC) ops_sub.2.1 rfl Y)
  iframe Hb Hh
  iintro ⟨Hb, Hh⟩
  simp only [bind_assoc, pure_bind]
  iapply (SparseCore.Cfg.wp_host_step (pcs := pcfgs (F := F)) (K := K (F := F)) (D := D (F := F)) (𝒱 := 𝒱) dev0 (opConvert (F := F))
    (S := UC) ops_sub.2.2.1 rfl ((opZero (F := F)).result Y))
  iframe Hb Hh
  iintro ⟨Hb, Hh⟩
  iapply (SparseCore.Cfg.wp_host_step (pcs := pcfgs (F := F)) (K := K (F := F)) (D := D (F := F)) (𝒱 := 𝒱) dev0 (opPad (F := F))
    (S := UC) ops_sub.2.2.2.1 rfl ((opConvert (F := F)).result ((opZero (F := F)).result Y)))
  iframe Hb Hh
  iintro ⟨Hb, Hh⟩

  iapply (wp_run_heldX (U := U) EH P κ dev0 1 (V4of Y) (Call1Keeps (V4of Y)) Inv
    (iprop(boundary (SparseCore.T dev0) ∗ (∃ r, prngReg dev0 r) ∗ levAts (K (F := F)).L (K (F := F)).lev
      ∗ Pipeline.cellsGhost (Pipeline.pin (pcfgs (F := F)) adm) EP 1 dev0 ∗ Pipeline.toksInit (Pipeline.pin (pcfgs (F := F)) adm) EP 1 dev0))
    (hcall1 Y hY) _ _
    (fun V5 hV5 => by
      iintro ⟨Hst, Hh, Hb, Hp, Hlv, Hg1, Ht1⟩
      iapply (stageC (U := U) EH EP m W1 V5 (keeps_call1 m (keeps_V4of m hY) hV5))
      iframe Hb Hh Hp
      isplitl [Hst]; · iexact Hst
      iframe Hlv Hg1 Ht1))
  iframe Hctx Hinv
  isplitl [Hst]; · iexact Hst
  iframe Hh Hb Hp Hlv Hg1 Ht1

theorem keeps_off {d : Dev nD} {Y W' : Valuation τ sig (Elt F)} (h : KeepsArgs m d Y)
    (ho : Cert.Proof.CK.OffOutputs (fun _ => Y) dev0 W') : KeepsArgs m d W' :=
  h.of_forall m (fun r => r ≠ main_v2_0 ∧ r ≠ main_v2_1 ∧ r ≠ main_v2_2) (by decide)
    fun r q => ho _ (StableHlo.devRef_ne_of_ne q.1) (StableHlo.devRef_ne_of_ne q.2.1) (StableHlo.devRef_ne_of_ne q.2.2)

theorem keeps_W2 {d : Dev nD} (c : Dev nD) (h : KeepsArgs m d (W1 c)) : KeepsArgs m d (W2 W1 c) :=
  h.of_forall m (fun r => r ≠ main_v1) (by decide) fun r q => StableHlo.reshape_result_ne _ _ _ _ _ _ _ q

set_option backward.isDefEq.respectTransparency.types false in
set_option maxHeartbeats 2000000 in

theorem hmainK [∀ e, Nonempty (Elt F e)] [EP.LandsIn (upEmb : UEmb _ (MT nD τ sig (HIx 2) (Elt F) ℕ U ℕ))]
    (κ : GSem nD τ sig → ℕ) (d : Dev nD) (Inv : sProp 𝕄) [BI.Persistent Inv]
    (hW1 : KeepsArgs m d (W1 d))
    (hcall0 : iprop(Inv ∗ (StableHlo.held (d.tc : Thread nD τ) UC (W0 m d) : sProp 𝕄))
      ⊢ iprop(|={Set.univ}=> ((bigSep Finset.univ fun c : Fin ((K (F := F)).nCore 0) => P.st 0 d c)
          ∗ ((bigSep Finset.univ fun c : Fin ((K (F := F)).nCore 0) => P.dn 0 d c) -∗ |={Set.univ}=> (StableHlo.held (d.tc : Thread nD τ) UC (W1 d) : sProp 𝕄)))))
    (hcall1 : ∀ Y : Valuation τ sig (Elt F), KeepsArgs m d Y →
      iprop(Inv ∗ (StableHlo.held (d.tc : Thread nD τ) UC (V4of Y) : sProp 𝕄))
        ⊢ iprop(|={Set.univ}=> ((bigSep Finset.univ fun c : Fin ((K (F := F)).nCore 1) => P.st 1 d c)
            ∗ ((bigSep Finset.univ fun c : Fin ((K (F := F)).nCore 1) => P.dn 1 d c)
                -∗ |={Set.univ}=> (iprop(∃ V' : Valuation τ sig (Elt F), ⌜Call1Keeps (V4of Y) V'⌝
                      ∗ (StableHlo.held (d.tc : Thread nD τ) UC V' : sProp 𝕄)) : sProp 𝕄))))) :
    iprop((K (F := F)).ctx EH P κ ∗ (K (F := F)).tcSt EH d 0 ∗ (K (F := F)).tcRes m ρ d ∗ (GP EP d ∗ Inv))
      ⊢ wp frame (wpE ((K (F := F)).defs (D (F := F))) 𝒱 (SparseCore.T d) none) Set.univ (main (F := F) d)
          fun _ => iprop((K (F := F)).tcSt EH d 2 ∗ FINK (U := U) m d) := by
  have hd := dev_eq d
  subst hd
  rw [main_shape]
  unfold SparseCore.Cfg.tcRes GP
  rw [show (unscopedBufs dev0 (fun b => m ((SparseCore.T dev0).loc b)) : sProp 𝕄) = StableHlo.held ((dev0 : Dev nD).tc : Thread nD τ) UC (W0 m dev0)
    from Pipeline.unscopedBufs_held dev0 (W0 m dev0), bigSep_W3]
  iintro ⟨#Hctx, Hst, ⟨Hb, Hh, -, Hp⟩, ⟨⟨Hg0, Ht0⟩, ⟨Hg1, Ht1⟩⟩, #Hinv⟩
  ihave #Hlv := (SparseCore.Cfg.ctx_levAts κ) $$ Hctx

  iapply (SparseCore.Cfg.wp_run_held (pcs := pcfgs (F := F)) (K := K (F := F)) (EH := EH) (Pay₀ := P) (D := D (F := F)) (𝒱 := 𝒱)
    κ dev0 0 UC (W0 m dev0) (W1 dev0) Inv hcall0)
  iframe Hctx Hinv
  isplitl [Hst]; · iexact Hst
  iframe Hh
  iintro ⟨Hst, Hh⟩

  iapply (SparseCore.Cfg.wp_host_step (pcs := pcfgs (F := F)) (K := K (F := F)) (D := D (F := F)) (𝒱 := 𝒱) dev0 (opReshapePos (F := F))
    (S := UC) ops_sub.1 rfl (W1 dev0))
  iframe Hb Hh
  iintro ⟨Hb, Hh⟩

  iapply (SparseCore.Cfg.wp_region_tcSt_R (pcs := pcfgs (F := F)) (a := adm) (K := K (F := F)) (rdats := rdats0 (U := U) W1)
    (phinj := cellOf_inj) (EP := EP) (defs₀ := defs₀) (𝒱₀ := 𝒱₀) (EH := EH) (R0 (U := U) W1) dev0 1 _ _
    (cfg1.waitPairs none) (waitPairs_none cfg1)
    (Cert.Proof.CK.regBF_pre (W2 W1) (On (F := F) 1) (Bn (F := F) 1) 𝒱₀ none (rd3 (U := U) W1) _ _ _ dev0)
    (Cert.Proof.CK.regBF_post (W2 W1) (On (F := F) 1) (Bn (F := F) 1) 𝒱₀ none (rd3 (U := U) W1) _ _ _ dev0))
  isplitr [Hb Hh Hp Hst Hg0 Ht0]
  swap
  · isplitl [Hb]; · iexact Hb
    isplitl [Hh Hp]
    · isplitl [Hh]; · iexact Hh
      iexists _; iexact Hp
    isplitl [Hst]; · iexact Hst
    isplitr; · iexact Hlv
    isplitl [Hg0]; · iexact Hg0
    iexact Ht0
  iintro ⟨Hb, ⟨%W', %hW', Hh, Hp⟩, Hst⟩

  iapply (stageB (U := U) EH EP P m W1 κ Inv hcall1 W'
    (keeps_off m (keeps_W2 m W1 dev0 hW1) hW'))
  iframe Hctx Hinv Hb Hh Hp
  isplitl [Hst]; · iexact Hst
  iframe Hlv Hg1 Ht1

end Run

end Cert.Proof.KIK

end
-- ==== Proof.KClaims.lean ====
import proofs.«204933_g4492535792355_cont_8to1_c_766_42_alg».proof.Defs
import proofs.«204933_g4492535792355_cont_8to1_c_766_42_alg».proof.Proof.KIFinFK
import Idealize.ShloMosaic.Lib.Pipeline.Frame
import Idealize.ShloMosaic.Lib.StableHlo.Run

noncomputable section

namespace Cert.Proof.KCK

open Cert.Kernel
open Idealize.ShloMosaic
open Idealize.SL Idealize.SL.Sem

variable [hKernel : Cert.Kernel.Facts] [hPre_input_domain : Cert.Pre_input_domain.Facts]

theorem mem_uc (b : Ref sig .tc) (h : ¬ (Proc.devRef .tc b : DevRef τ sig).isScoped) :
    Proc.devRef .tc b ∈ Pipeline.ucRefs τ sig :=
  Finset.mem_filter.mpr ⟨StableHlo.devRef_mem_tcRefs b, h⟩

-- each argument is read at the final valuation, which agrees with the initial memory on the six arguments
theorem frame_k
    (hrun : ∀ (m : (ℓ : Loc nD τ sig) → Buf (Elt Bits) ℓ) (ρ : Dev nD → PrngReg), Cert.Pre_Kernel m →
      θ_run (Cert.Kernel.defs (F := Bits)) (Cert.Kernel.threads (F := Bits)) ⟨m, fun _ => 0, ρ⟩ (Cert.Proof.KIFK.QCF m)) :
    Cert.frame_Kernel := fun m g hpre =>
  (θ_run _ _ _).mono (fun r h c => by
    obtain ⟨Wfin, ⟨k0, k1, k2, k3, k4, k5⟩, hW⟩ := h c
    exact ⟨(hW _ (mem_uc main_arg0 (by decide))).trans k0, (hW _ (mem_uc main_arg1 (by decide))).trans k1,
      (hW _ (mem_uc main_arg2 (by decide))).trans k2, (hW _ (mem_uc main_arg3 (by decide))).trans k3,
      (hW _ (mem_uc main_arg4 (by decide))).trans k4, (hW _ (mem_uc main_arg5 (by decide))).trans k5⟩) (hrun m g hpre)

end Cert.Proof.KCK

end
-- ==== Proof.KFinal.lean ====
import proofs.«204933_g4492535792355_cont_8to1_c_766_42_alg».proof.Proof.KClaims
import proofs.«204933_g4492535792355_cont_8to1_c_766_42_alg».proof.Proof.PreFacts
import proofs.«204933_g4492535792355_cont_8to1_c_766_42_alg».proof.Proof.PrePad
import proofs.«204933_g4492535792355_cont_8to1_c_766_42_alg».proof.Proof.TileAK
import proofs.«204933_g4492535792355_cont_8to1_c_766_42_alg».proof.Proof.TileCK
import proofs.«204933_g4492535792355_cont_8to1_c_766_42_alg».proof.Proof.Gen.Pre_input_domain

noncomputable section

namespace Cert.Proof.KCK

open Cert.Kernel Cert.Kernel.Gen
open Idealize.ShloMosaic
open Idealize.SL Idealize.SL.Sem

def fixOf (m : (ℓ : Loc nD τ sig) → Buf (Elt Bits) ℓ) (d : Dev nD) : Buf (Elt Bits) (Cert.Proof.FK.ixLoc d) :=
  pad S128x4112 ![0, 0] ![0, 15] ![0, 0] (m ((d.tc : Thread nD τ).loc main_arg3) : S128x4097.Idx → BitVec 32)
    (fun _ : S_.Idx => (0#32 : BitVec 32)) pads_S128x4097_S128x4112_000_0150 h_S_

theorem preOK0K (m : (ℓ : Loc nD τ sig) → Buf (Elt Bits) ℓ) (hpre : Cert.Pre_Kernel m) : Cert.Proof.EK.PreOK m :=
  fun d x => Cert.Proof.Pre.pos_lt _ _ _ _ _ _ (hpre d) x

theorem preOK1K (m : (ℓ : Loc nD τ sig) → Buf (Elt Bits) ℓ) (hpre : Cert.Pre_Kernel m) :
    Cert.Proof.FK.PreOK (F := Bits) (fixOf m) :=
  fun d L j k => Cert.Proof.Pre.pad15_lt _ _ _ _ (fun i => Cert.Proof.Pre.cidx_lt _ _ _ _ _ _ (hpre d) i) rfl _

end Cert.Proof.KCK

end
-- ==== Proof.KIRunK2.lean ====
import proofs.«204933_g4492535792355_cont_8to1_c_766_42_alg».proof.Proof.KIRunK
import proofs.«204933_g4492535792355_cont_8to1_c_766_42_alg».proof.Proof.KIPayFK
import proofs.«204933_g4492535792355_cont_8to1_c_766_42_alg».proof.Proof.SplitCFK
import proofs.«204933_g4492535792355_cont_8to1_c_766_42_alg».proof.Proof.KILaunchK
import proofs.«204933_g4492535792355_cont_8to1_c_766_42_alg».proof.Proof.KFinal

noncomputable section

namespace Cert.Proof.KIK

open Cert.Kernel Cert.Kernel.Gen

open Idealize.ShloMosaic
open Idealize.ShloMosaic.SparseCore (T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 2) (Elt F) ℕ (UU (F := F)) ℕ
local notation "𝕄ᵇ" => MT nD τ sig (HIx 2) (Elt Bits) ℕ (UU (F := Bits)) ℕ

section Inst

variable (m : (ℓ : Loc nD τ sig) → Buf (Elt F) ℓ) (ρ : Dev nD → PrngReg) (hpre0 : Cert.Proof.EK.PreOK m)
variable (fix : (d : Dev nD) → Buf (Elt F) (Cert.Proof.FK.ixLoc d))

abbrev PFk : (K (F := F)).Pay (nD := nD) (Val := Elt F) (Name := ℕ) (U := UU (F := F)) :=
  Cert.Proof.KIFK.PF (F := F) fix Cert.Proof.SCK.qI (st0k m hpre0) (dn0k m hpre0) (go0k m hpre0) (td0k m hpre0) (X0k m hpre0)

theorem rec0 : RecCall0 m hpre0 (PFk m hpre0 fix) :=
  ⟨fun _ _ _ => rfl, fun _ _ _ => rfl, fun _ _ => rfl, fun _ _ => rfl, fun _ _ _ => rfl, rfl⟩

abbrev Gk (d : Dev nD) : sProp 𝕄 :=
  iprop((bigSep Finset.univ fun p : Fin 2 => iprop(Pipeline.cellsGhost (Pipeline.pin (pcfgs (F := F)) adm) (EP (F := F)) p d
      ∗ Pipeline.toksInit (Pipeline.pin (pcfgs (F := F)) adm) (EP (F := F)) p d)) ∗ wmI (F := F))

theorem run_kF [∀ e, Nonempty (Elt F e)] (hpre1 : Cert.Proof.FK.PreOK fix)
    (hmainH : ∀ (κ : GSem nD τ sig → ℕ) (d : Dev nD),
      iprop((K (F := F)).ctx (EH (F := F)) (PFk m hpre0 fix) κ ∗ (K (F := F)).tcSt (EH (F := F)) d 0 ∗ (K (F := F)).tcRes m ρ d ∗ Gk (F := F) d)
        ⊢ wp frame (wpE ((K (F := F)).defs (D (F := F))) 𝒱 (T d) none) Set.univ (main (F := F) d)
            fun _ => iprop((K (F := F)).tcSt (EH (F := F)) d 2 ∗ Cert.Proof.KIFK.FINF (U := UU (F := F)) m d)) :
    θ_run (Cert.Kernel.defs (F := F)) (Cert.Kernel.threads (F := F)) ⟨m, fun _ => 0, ρ⟩ (Cert.Proof.KIFK.QCF m) :=
  run_k m ρ hpre0 (PFk m hpre0 fix) (rec0 m hpre0 fix) rfl
    (Cert.Proof.FF1K.tileObl1F (EK1 (F := F)) fix Cert.Proof.SCK.qI (PFk m hpre0 fix)
      (fun _ _ _ => rfl) (fun _ _ _ => rfl) (fun _ _ _ => rfl) rfl facts hpre1)
    (Cert.Proof.FF1K.vecSplit1F fix Cert.Proof.SCK.qI (PFk m hpre0 fix)
      (fun _ _ => rfl) (fun _ _ => rfl) (fun _ _ _ => rfl) (fun _ _ _ => rfl))
    (Gk (F := F)) (Cert.Proof.KIFK.FINF (U := UU (F := F)) m) (Cert.Proof.KIFK.u₀F (F := F) Cert.Proof.E0K.kCells0 Cert.Proof.E0K.kToks0)
    (Cert.Proof.KIFK.hu₀F (F := F) fix Cert.Proof.SCK.qI (st0k m hpre0) (dn0k m hpre0) (go0k m hpre0) (td0k m hpre0) (X0k m hpre0)
      Cert.Proof.E0K.kCells0 Cert.Proof.E0K.kToks0 ⟨m, fun _ => 0, ρ⟩
      (Cert.Proof.E0K.kits0 (EK0 (F := F)) (wmU (F := F)) m hpre0 Cert.Proof.SAK.qH Cert.Proof.SAK.qH))
    hmainH (Cert.Proof.KIFK.fqF m) (Cert.Proof.KIFK.hfinF (U := UU (F := F)) m) (Cert.Proof.KIFK.QCF m) (Cert.Proof.KIFK.hQF m)

end Inst

section Reads

variable (m : (ℓ : Loc nD τ sig) → Buf (Elt Bits) ℓ)

theorem V4of_v3 (d : Dev nD) (Y : Valuation τ sig (Elt Bits))
    (hY : Y (Proc.devRef .tc main_arg3) = m ((d.tc : Thread nD τ).loc main_arg3)) :
    V4of (F := Bits) Y (Proc.devRef .tc main_v3) = Cert.Proof.KCK.fixOf m d := by
  have h3 : ((opConvert (F := Bits)).result ((opZero (F := Bits)).result Y)) (Proc.devRef .tc main_arg3)
      = m ((d.tc : Thread nD τ).loc main_arg3) :=
    (StableHlo.unary_result_ne _ _ _ _ _ _ (by decide)).trans ((StableHlo.nullary_result_ne _ _ _ _ (by decide)).trans hY)
  have h0 : ((opConvert (F := Bits)).result ((opZero (F := Bits)).result Y)) (Proc.devRef .tc main_call0_v0)
      = (fun _ : S_.Idx => (0#32 : BitVec 32)) :=
    (StableHlo.unary_result _ _ _ _ _ _).trans (by rw [StableHlo.nullary_result]; rfl)
  refine (StableHlo.binary_result _ _ _ _ _ _ _ ((opConvert (F := Bits)).result ((opZero (F := Bits)).result Y))).trans ?_
  rw [h3, h0]
  rfl

end Reads

section Keeps

variable (m : (ℓ : Loc nD τ sig) → Buf (Elt Bits) ℓ) (hpre0 : Cert.Proof.EK.PreOK m)

theorem keeps_W1of (d : Dev nD) : Cert.Proof.KIFK.KeepsArgs6 m d (Cert.Proof.SAK.W1of m hpre0 d) := by
  unfold Cert.Proof.KIFK.KeepsArgs6 Cert.Proof.SAK.W1of
  refine ⟨?_, ?_, ?_, ?_, ?_, ?_⟩ <;>
    (rw [Function.update_of_ne (fun e => absurd (Proc.devRef_injective _ e) (by decide)),
      Function.update_of_ne (fun e => absurd (Proc.devRef_injective _ e) (by decide))]; rfl)

end Keeps

section Final

variable (m : (ℓ : Loc nD τ sig) → Buf (Elt Bits) ℓ) (ρ : Dev nD → PrngReg) (hpre0 : Cert.Proof.EK.PreOK m)

abbrev PRk : (K (F := Bits)).Pay (nD := nD) (Val := Elt Bits) (Name := ℕ) (U := UU (F := Bits)) :=
  PFk (F := Bits) m hpre0 (Cert.Proof.KCK.fixOf m)

def Lc1 (c : Fin 2) (s : Fin 16) : grid2.Coords := Cert.Proof.FK.Lof c s

theorem hcall1K (d : Dev nD) (Y : Valuation τ sig (Elt Bits)) (hY : Cert.Proof.KIFK.KeepsArgs6 m d Y) :
    iprop(wmI (F := Bits) ∗ (StableHlo.held (d.tc : Thread nD τ) UC (V4of (F := Bits) Y) : sProp 𝕄ᵇ))
      ⊢ iprop(|={Set.univ}=> ((bigSep Finset.univ fun c : Fin ((K (F := Bits)).nCore 1) => (PRk m hpre0).st 1 d c)
          ∗ ((bigSep Finset.univ fun c : Fin ((K (F := Bits)).nCore 1) => (PRk m hpre0).dn 1 d c)
              -∗ |={Set.univ}=> (iprop(∃ V' : Valuation τ sig (Elt Bits), ⌜Call1Keeps (F := Bits) (V4of (F := Bits) Y) V'⌝
                    ∗ (StableHlo.held (d.tc : Thread nD τ) UC V' : sProp 𝕄ᵇ)) : sProp 𝕄ᵇ)))) := by
  iintro ⟨-, Hh⟩
  imodintro
  ihave H := (Cert.Proof.SCFK.call1_heldF (F := Bits) (UU := UU (F := Bits)) Lc1 (fun _ _ => rfl) (fun _ _ => rfl) (Cert.Proof.KCK.fixOf m) d
    (V4of (F := Bits) Y) (V4of_v3 m d Y hY.2.2.2.1).symm) $$ Hh
  icases H with ⟨Hgo, Hback⟩
  isplitl [Hgo]; · iexact Hgo
  iintro Htd
  imodintro
  iapply Hback; iexact Htd

theorem hmainF (κ : GSem nD τ sig → ℕ) (d : Dev nD) :
    iprop((K (F := Bits)).ctx (EH (F := Bits)) (PRk m hpre0) κ ∗ (K (F := Bits)).tcSt (EH (F := Bits)) d 0 ∗ (K (F := Bits)).tcRes m ρ d ∗ Gk (F := Bits) d)
      ⊢ wp frame (wpE ((K (F := Bits)).defs (D (F := Bits))) 𝒱 (T d) none) Set.univ (main (F := Bits) d)
          fun _ => iprop((K (F := Bits)).tcSt (EH (F := Bits)) d 2 ∗ Cert.Proof.KIFK.FINF (U := UU (F := Bits)) m d) :=
  hmainK (EH (F := Bits)) (EP (F := Bits)) (PRk m hpre0) m ρ (W1k m hpre0) κ d (wmI (F := Bits)) (keeps_W1of m hpre0 d)
    (hcall0 m hpre0 (PRk m hpre0) (rec0 m hpre0 (Cert.Proof.KCK.fixOf m)) d)
    (fun Y hY => hcall1K m hpre0 d Y hY)

end Final

-- Of the un-idealized run only what the frame reads is kept: the six arguments are unchanged at the end.
theorem run_k_final (m : (ℓ : Loc nD τ sig) → Buf (Elt Bits) ℓ) (ρ : Dev nD → PrngReg) (h0 : Cert.Proof.EK.PreOK m)
    (h1 : Cert.Proof.FK.PreOK (F := Bits) (Cert.Proof.KCK.fixOf m)) :
    θ_run (Cert.Kernel.defs (F := Bits)) (Cert.Kernel.threads (F := Bits)) ⟨m, fun _ => 0, ρ⟩ (Cert.Proof.KIFK.QCF m) :=
  run_kF (F := Bits) m ρ h0 (Cert.Proof.KCK.fixOf m) h1 (hmainF m ρ h0)

end Cert.Proof.KIK

end
-- ==== Proof.KFrame.lean ====
import proofs.«204933_g4492535792355_cont_8to1_c_766_42_alg».proof.Proof.KIRunK2

noncomputable section

namespace Cert.Proof.KCK

open Cert.Kernel
open Idealize.ShloMosaic
open Idealize.SL Idealize.SL.Sem

-- The kernel as printed ends on every fair schedule, faults nowhere and leaves its six arguments as launched.
theorem frame_Kernel [Cert.Kernel.Facts] [Cert.Pre_input_domain.Facts] : Cert.frame_Kernel :=
  frame_k fun m ρ hpre => Cert.Proof.KIK.run_k_final m ρ (preOK0K m hpre) (preOK1K m hpre)

end Cert.Proof.KCK

end
-- ==== Proof.lean ====
import proofs.«204933_g4492535792355_cont_8to1_c_766_42_alg».proof.Defs
import proofs.«204933_g4492535792355_cont_8to1_c_766_42_alg».proof.Proof.Gen.Kernel
import proofs.«204933_g4492535792355_cont_8to1_c_766_42_alg».proof.Proof.Gen.KernelIdeal
import proofs.«204933_g4492535792355_cont_8to1_c_766_42_alg».proof.Proof.Gen.ReferenceIdeal
import proofs.«204933_g4492535792355_cont_8to1_c_766_42_alg».proof.Proof.Gen.Pre_input_domain
import proofs.«204933_g4492535792355_cont_8to1_c_766_42_alg».proof.Proof.Ledger
import proofs.«204933_g4492535792355_cont_8to1_c_766_42_alg».proof.Proof.RefRunB
import proofs.«204933_g4492535792355_cont_8to1_c_766_42_alg».proof.Proof.KIFinal
import proofs.«204933_g4492535792355_cont_8to1_c_766_42_alg».proof.Proof.KFrame

noncomputable section

namespace Cert.Proof

open Idealize.ShloMosaic Idealize.SL.Sem

-- The three frames, the idealization ledger, and equal results at the extended reals, assembled.
theorem claim : Cert.Claim :=
  ⟨Cert.Kernel.Gen.facts, Cert.KernelIdeal.Gen.facts, Cert.ReferenceIdeal.Gen.facts, Cert.Pre_input_domain.Gen.facts,
    KCK.frame_Kernel, KC.frame_KernelIdeal, A.frame_ri, Ledger.preserves, KC.algebraic_KernelIdeal_ReferenceIdeal⟩

end Cert.Proof

end
